-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26))

def preserves_Kernel_KernelIdeal : Prop :=
  IdealRules.named_const.Statement Cert.KernelIdeal.κ "inv_1536" .f32 0x3A2AAAAB#32 ((1 / 1536 : ℝ) : EReal)
  ∧ IdealRules.named_const.Statement Cert.KernelIdeal.κ "inv_1536" .f32 0x3A2AAAAB#32 ((1 / 1536 : ℝ) : EReal)
  ∧ IdealRules.named_const.Statement Cert.KernelIdeal.κ "inv_1536" .f32 0x3A2AAAAB#32 ((1 / 1536 : ℝ) : EReal)
  ∧ IdealRules.named_const.Statement Cert.KernelIdeal.κ "inv_1536" .f32 0x3A2AAAAB#32 ((1 / 1536 : ℝ) : EReal)
  ∧ IdealRules.named_const.Statement Cert.KernelIdeal.κ "inv_1536" .f32 0x3A2AAAAB#32 ((1 / 1536 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) →
    ∃ (v0 : (c : Dev Cert.KernelIdeal.nD) → Buf (Elt Ideal) ((c.tc : Thread Cert.KernelIdeal.nD Cert.KernelIdeal.τ).loc Cert.KernelIdeal.main_v178)) (v1 : (c : Dev Cert.KernelIdeal.nD) → Buf (Elt Ideal) ((c.tc : Thread Cert.KernelIdeal.nD Cert.KernelIdeal.τ).loc Cert.KernelIdeal.main_v179)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v178) = v0 c
          ∧ r.2.mem ((c.tc : Thread Cert.KernelIdeal.nD Cert.KernelIdeal.τ).loc Cert.KernelIdeal.main_v179) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_v151) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x24x100 : Shape := ⟨3, ![64, 24, 100]⟩
abbrev S64x24x200 : Shape := ⟨3, ![64, 24, 200]⟩
abbrev S64x24x50 : Shape := ⟨3, ![64, 24, 50]⟩
abbrev S64x24 : Shape := ⟨2, ![64, 24]⟩
abbrev S64x30 : Shape := ⟨2, ![64, 30]⟩
abbrev S64x4 : Shape := ⟨2, ![64, 4]⟩
abbrev S1000x128 : Shape := ⟨2, ![1000, 128]⟩
abbrev S3000x128 : Shape := ⟨2, ![3000, 128]⟩
abbrev S500x128 : Shape := ⟨2, ![500, 128]⟩
abbrev S1500x128 : Shape := ⟨2, ![1500, 128]⟩
abbrev S700x128 : Shape := ⟨2, ![700, 128]⟩
abbrev S2000x128 : Shape := ⟨2, ![2000, 128]⟩
abbrev S2x128 : Shape := ⟨2, ![2, 128]⟩
abbrev S10x128 : Shape := ⟨2, ![10, 128]⟩
abbrev S5x128 : Shape := ⟨2, ![5, 128]⟩
abbrev S100x128 : Shape := ⟨2, ![100, 128]⟩
abbrev S435x128 : Shape := ⟨2, ![435, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128x1 : Shape := ⟨2, ![128, 1]⟩
abbrev S1 : Shape := ⟨1, ![1]⟩
abbrev S_ : Shape := ⟨0, ![]⟩
abbrev S64x1 : Shape := ⟨2, ![64, 1]⟩
abbrev S64 : Shape := ⟨1, ![64]⟩

class Facts : Prop where
  bcast_S_S1000x128 : S_.BroadcastsInDim S1000x128 (![] : Fin 0 → Fin S1000x128.rank)
  reducesTo_S1000x128_S_d0_1 : S1000x128.ReducesTo [0, 1] S_
  h_S_ : 0 < S_.numel
  bcast_S_S3000x128 : S_.BroadcastsInDim S3000x128 (![] : Fin 0 → Fin S3000x128.rank)
  reducesTo_S3000x128_S_d0_1 : S3000x128.ReducesTo [0, 1] S_
  bcast_S_S500x128 : S_.BroadcastsInDim S500x128 (![] : Fin 0 → Fin S500x128.rank)
  reducesTo_S500x128_S_d0_1 : S500x128.ReducesTo [0, 1] S_
  bcast_S_S1500x128 : S_.BroadcastsInDim S1500x128 (![] : Fin 0 → Fin S1500x128.rank)
  reducesTo_S1500x128_S_d0_1 : S1500x128.ReducesTo [0, 1] S_
  bcast_S_S700x128 : S_.BroadcastsInDim S700x128 (![] : Fin 0 → Fin S700x128.rank)
  reducesTo_S700x128_S_d0_1 : S700x128.ReducesTo [0, 1] S_
  bcast_S_S2000x128 : S_.BroadcastsInDim S2000x128 (![] : Fin 0 → Fin S2000x128.rank)
  reducesTo_S2000x128_S_d0_1 : S2000x128.ReducesTo [0, 1] S_
  bcast_S_S2x128 : S_.BroadcastsInDim S2x128 (![] : Fin 0 → Fin S2x128.rank)
  reducesTo_S2x128_S_d0_1 : S2x128.ReducesTo [0, 1] S_
  bcast_S_S10x128 : S_.BroadcastsInDim S10x128 (![] : Fin 0 → Fin S10x128.rank)
  reducesTo_S10x128_S_d0_1 : S10x128.ReducesTo [0, 1] S_
  bcast_S_S5x128 : S_.BroadcastsInDim S5x128 (![] : Fin 0 → Fin S5x128.rank)
  reducesTo_S5x128_S_d0_1 : S5x128.ReducesTo [0, 1] S_
  bcast_S_S100x128 : S_.BroadcastsInDim S100x128 (![] : Fin 0 → Fin S100x128.rank)
  reducesTo_S100x128_S_d0_1 : S100x128.ReducesTo [0, 1] S_
  bcast_S_S435x128 : S_.BroadcastsInDim S435x128 (![] : Fin 0 → Fin S435x128.rank)
  reducesTo_S435x128_S_d0_1 : S435x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S64x4 : S_.BroadcastsInDim S64x4 (![] : Fin 0 → Fin S64x4.rank)
  reducesTo_S64x4_S_d0_1 : S64x4.ReducesTo [0, 1] S_
  slices_S64x4_S64x1_0_0 : S64x4.Slices ![0, 0] S64x1
  shapeCasts_S64x1_S64 : S64x1.ShapeCasts S64
  bcast_S_S64 : S_.BroadcastsInDim S64 (![] : Fin 0 → Fin S64.rank)
  reducesTo_S64_S_d0 : S64.ReducesTo [0] S_
  slices_S64x4_S64x1_0_1 : S64x4.Slices ![0, 1] S64x1
  slices_S64x4_S64x1_0_2 : S64x4.Slices ![0, 2] S64x1
  slices_S64x4_S64x1_0_3 : S64x4.Slices ![0, 3] S64x1

variable [Facts]

def fn_part7 {F : FTy → Type} [FloatOps F] (main_arg6 : IVec S64x4 32) (main_v114 : IVec S_ 1) (main_v119 : IVec S_ 1) : IVec S_ 1 :=
  let main_v120 : IVec S_ 1 := andi main_v114 main_v119
  let main_v121 : IVec S64x1 32 := (extractStridedSlice S64x1 ![0, 3] · slices_S64x4_S64x1_0_3) main_arg6
  let main_v122 : IVec S64 32 := shapeCast S64 main_v121 shapeCasts_S64x1_S64
  let main_c_46 : IVec S_ 32 := constantI S_ 32 100#32
  let main_v123 : IVec S64 32 := broadcastInDim S64 ![] bcast_S_S64 main_c_46
  let main_v124 : IVec S64 1 := cmpi .slt main_v122 main_v123
  let main_c_47 : IVec S_ 1 := constantI S_ 1 1#1
  let main_v125 : IVec S_ 1 := (fun x v => Host.reduce IntOp.andi x v reducesTo_S64_S_d0 h_S_) main_v124 main_c_47
  let main_v126 : IVec S_ 1 := andi main_v120 main_v125
  main_v126

def fn_part6 {F : FTy → Type} [FloatOps F] (main_arg6 : IVec S64x4 32) (main_v98 : IVec S_ 1) (main_v101 : IVec S_ 1) : IVec S_ 1 :=
  let main_v102 : IVec S_ 1 := andi main_v98 main_v101
  let main_v103 : IVec S64x1 32 := (extractStridedSlice S64x1 ![0, 0] · slices_S64x4_S64x1_0_0) main_arg6
  let main_v104 : IVec S64 32 := shapeCast S64 main_v103 shapeCasts_S64x1_S64
  let main_c_40 : IVec S_ 32 := constantI S_ 32 2#32
  let main_v105 : IVec S64 32 := broadcastInDim S64 ![] bcast_S_S64 main_c_40
  let main_v106 : IVec S64 1 := cmpi .slt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v102 main_v107
  let main_v109 : IVec S64x1 32 := (extractStridedSlice S64x1 ![0, 1] · slices_S64x4_S64x1_0_1) main_arg6
  let main_v110 : IVec S64 32 := shapeCast S64 main_v109 shapeCasts_S64x1_S64
  let main_c_42 : IVec S_ 32 := constantI S_ 32 10#32
  let main_v111 : IVec S64 32 := broadcastInDim S64 ![] bcast_S_S64 main_c_42
  let main_v112 : IVec S64 1 := cmpi .slt main_v110 main_v111
  let main_c_43 : IVec S_ 1 := constantI S_ 1 1#1
  let main_v113 : IVec S_ 1 := (fun x v => Host.reduce IntOp.andi x v reducesTo_S64_S_d0 h_S_) main_v112 main_c_43
  let main_v114 : IVec S_ 1 := andi main_v108 main_v113
  let main_v115 : IVec S64x1 32 := (extractStridedSlice S64x1 ![0, 2] · slices_S64x4_S64x1_0_2) main_arg6
  let main_v116 : IVec S64 32 := shapeCast S64 main_v115 shapeCasts_S64x1_S64
  let main_c_44 : IVec S_ 32 := constantI S_ 32 5#32
  let main_v117 : IVec S64 32 := broadcastInDim S64 ![] bcast_S_S64 main_c_44
  let main_v118 : IVec S64 1 := cmpi .slt main_v116 main_v117
  let main_c_45 : IVec S_ 1 := constantI S_ 1 1#1
  let main_v119 : IVec S_ 1 := (fun x v => Host.reduce IntOp.andi x v reducesTo_S64_S_d0 h_S_) main_v118 main_c_45
  fn_part7 (F := F) main_arg6 main_v114 main_v119

def fn_part5 {F : FTy → Type} [FloatOps F] (main_arg6 : IVec S64x4 32) (main_arg25 : FVec F S128x1 .f32) (main_arg26 : FVec F S1 .f32) (main_v83 : IVec S_ 1) (main_v84 : FVec F S128 .f32) (main_cst_32 : FVec F S_ .f32) : IVec S_ 1 :=
  let main_v85 : FVec F S128 .f32 := broadcastInDim S128 ![] bcast_S_S128 main_cst_32
  let main_v86 : IVec S128 1 := cmpf .olt main_v84 main_v85
  let main_c_33 : IVec S_ 1 := constantI S_ 1 1#1
  let main_v87 : IVec S_ 1 := (fun x v => Host.reduce IntOp.andi x v reducesTo_S128_S_d0 h_S_) main_v86 main_c_33
  let main_v88 : IVec S_ 1 := andi main_v83 main_v87
  let main_v89 : FVec F S128x1 .f32 := Host.absf main_arg25
  let main_cst_34 : FVec F S_ .f32 := constant S_ .f32 0x7F800000#32
  let main_v90 : FVec F S128x1 .f32 := broadcastInDim S128x1 ![] bcast_S_S128x1 main_cst_34
  let main_v91 : IVec S128x1 1 := cmpf .olt main_v89 main_v90
  let main_c_35 : IVec S_ 1 := constantI S_ 1 1#1
  let main_v92 : IVec S_ 1 := (fun x v => Host.reduce IntOp.andi x v reducesTo_S128x1_S_d0_1 h_S_) main_v91 main_c_35
  let main_v93 : IVec S_ 1 := andi main_v88 main_v92
  let main_v94 : FVec F S1 .f32 := Host.absf main_arg26
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_c_38 : IVec S_ 32 := constantI S_ 32 0#32
  let main_v99 : IVec S64x4 32 := broadcastInDim S64x4 ![] bcast_S_S64x4 main_c_38
  let main_v100 : IVec S64x4 1 := cmpi .sge main_arg6 main_v99
  let main_c_39 : IVec S_ 1 := constantI S_ 1 1#1
  let main_v101 : IVec S_ 1 := (fun x v => Host.reduce IntOp.andi x v reducesTo_S64x4_S_d0_1 h_S_) main_v100 main_c_39
  fn_part6 (F := F) main_arg6 main_v98 main_v101

def fn_part4 {F : FTy → Type} [FloatOps F] (main_arg6 : IVec S64x4 32) (main_arg21 : FVec F S256x256 .f32) (main_arg22 : FVec F S256 .f32) (main_arg23 : FVec F S256x128 .f32) (main_arg24 : FVec F S128 .f32) (main_arg25 : FVec F S128x1 .f32) (main_arg26 : FVec F S1 .f32) (main_v63 : IVec S_ 1) (main_v67 : IVec S_ 1) : IVec S_ 1 :=
  let main_v68 : IVec S_ 1 := andi main_v63 main_v67
  let main_v69 : FVec F S256x256 .f32 := Host.absf main_arg21
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg22
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x128 .f32 := Host.absf main_arg23
  let main_cst_30 : FVec F S_ .f32 := constant S_ .f32 0x7F800000#32
  let main_v80 : FVec F S256x128 .f32 := broadcastInDim S256x128 ![] bcast_S_S256x128 main_cst_30
  let main_v81 : IVec S256x128 1 := cmpf .olt main_v79 main_v80
  let main_c_31 : IVec S_ 1 := constantI S_ 1 1#1
  let main_v82 : IVec S_ 1 := (fun x v => Host.reduce IntOp.andi x v reducesTo_S256x128_S_d0_1 h_S_) main_v81 main_c_31
  let main_v83 : IVec S_ 1 := andi main_v78 main_v82
  let main_v84 : FVec F S128 .f32 := Host.absf main_arg24
  let main_cst_32 : FVec F S_ .f32 := constant S_ .f32 0x7F800000#32
  fn_part5 (F := F) main_arg6 main_arg25 main_arg26 main_v83 main_v84 main_cst_32

def fn_part3 {F : FTy → Type} [FloatOps F] (main_arg6 : IVec S64x4 32) (main_arg18 : FVec F S128 .f32) (main_arg19 : FVec F S128x256 .f32) (main_arg20 : FVec F S256 .f32) (main_arg21 : FVec F S256x256 .f32) (main_arg22 : FVec F S256 .f32) (main_arg23 : FVec F S256x128 .f32) (main_arg24 : FVec F S128 .f32) (main_arg25 : FVec F S128x1 .f32) (main_arg26 : FVec F S1 .f32) (main_v48 : IVec S_ 1) (main_v49 : FVec F S435x128 .f32) (main_v50 : FVec F S435x128 .f32) : IVec S_ 1 :=
  let main_v51 : IVec S435x128 1 := cmpf .olt main_v49 main_v50
  let main_c_19 : IVec S_ 1 := constantI S_ 1 1#1
  let main_v52 : IVec S_ 1 := (fun x v => Host.reduce IntOp.andi x v reducesTo_S435x128_S_d0_1 h_S_) main_v51 main_c_19
  let main_v53 : IVec S_ 1 := andi main_v48 main_v52
  let main_v54 : FVec F S128 .f32 := Host.absf main_arg18
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x256 .f32 := Host.absf main_arg19
  let main_cst_22 : FVec F S_ .f32 := constant S_ .f32 0x7F800000#32
  let main_v60 : FVec F S128x256 .f32 := broadcastInDim S128x256 ![] bcast_S_S128x256 main_cst_22
  let main_v61 : IVec S128x256 1 := cmpf .olt main_v59 main_v60
  let main_c_23 : IVec S_ 1 := constantI S_ 1 1#1
  let main_v62 : IVec S_ 1 := (fun x v => Host.reduce IntOp.andi x v reducesTo_S128x256_S_d0_1 h_S_) main_v61 main_c_23
  let main_v63 : IVec S_ 1 := andi main_v58 main_v62
  let main_v64 : FVec F S256 .f32 := Host.absf main_arg20
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg6 main_arg21 main_arg22 main_arg23 main_arg24 main_arg25 main_arg26 main_v63 main_v67

def fn_part2 {F : FTy → Type} [FloatOps F] (main_arg6 : IVec S64x4 32) (main_arg14 : FVec F S10x128 .f32) (main_arg15 : FVec F S5x128 .f32) (main_arg16 : FVec F S100x128 .f32) (main_arg17 : FVec F S435x128 .f32) (main_arg18 : FVec F S128 .f32) (main_arg19 : FVec F S128x256 .f32) (main_arg20 : FVec F S256 .f32) (main_arg21 : FVec F S256x256 .f32) (main_arg22 : FVec F S256 .f32) (main_arg23 : FVec F S256x128 .f32) (main_arg24 : FVec F S128 .f32) (main_arg25 : FVec F S128x1 .f32) (main_arg26 : FVec F S1 .f32) (main_v33 : IVec S_ 1) : IVec S_ 1 :=
  let main_v34 : FVec F S10x128 .f32 := Host.absf main_arg14
  let main_cst_12 : FVec F S_ .f32 := constant S_ .f32 0x7F800000#32
  let main_v35 : FVec F S10x128 .f32 := broadcastInDim S10x128 ![] bcast_S_S10x128 main_cst_12
  let main_v36 : IVec S10x128 1 := cmpf .olt main_v34 main_v35
  let main_c_13 : IVec S_ 1 := constantI S_ 1 1#1
  let main_v37 : IVec S_ 1 := (fun x v => Host.reduce IntOp.andi x v reducesTo_S10x128_S_d0_1 h_S_) main_v36 main_c_13
  let main_v38 : IVec S_ 1 := andi main_v33 main_v37
  let main_v39 : FVec F S5x128 .f32 := Host.absf main_arg15
  let main_cst_14 : FVec F S_ .f32 := constant S_ .f32 0x7F800000#32
  let main_v40 : FVec F S5x128 .f32 := broadcastInDim S5x128 ![] bcast_S_S5x128 main_cst_14
  let main_v41 : IVec S5x128 1 := cmpf .olt main_v39 main_v40
  let main_c_15 : IVec S_ 1 := constantI S_ 1 1#1
  let main_v42 : IVec S_ 1 := (fun x v => Host.reduce IntOp.andi x v reducesTo_S5x128_S_d0_1 h_S_) main_v41 main_c_15
  let main_v43 : IVec S_ 1 := andi main_v38 main_v42
  let main_v44 : FVec F S100x128 .f32 := Host.absf main_arg16
  let main_cst_16 : FVec F S_ .f32 := constant S_ .f32 0x7F800000#32
  let main_v45 : FVec F S100x128 .f32 := broadcastInDim S100x128 ![] bcast_S_S100x128 main_cst_16
  let main_v46 : IVec S100x128 1 := cmpf .olt main_v44 main_v45
  let main_c_17 : IVec S_ 1 := constantI S_ 1 1#1
  let main_v47 : IVec S_ 1 := (fun x v => Host.reduce IntOp.andi x v reducesTo_S100x128_S_d0_1 h_S_) main_v46 main_c_17
  let main_v48 : IVec S_ 1 := andi main_v43 main_v47
  let main_v49 : FVec F S435x128 .f32 := Host.absf main_arg17
  let main_cst_18 : FVec F S_ .f32 := constant S_ .f32 0x7F800000#32
  let main_v50 : FVec F S435x128 .f32 := broadcastInDim S435x128 ![] bcast_S_S435x128 main_cst_18
  fn_part3 (F := F) main_arg6 main_arg18 main_arg19 main_arg20 main_arg21 main_arg22 main_arg23 main_arg24 main_arg25 main_arg26 main_v48 main_v49 main_v50

def fn_part1 {F : FTy → Type} [FloatOps F] (main_arg6 : IVec S64x4 32) (main_arg11 : FVec F S700x128 .f32) (main_arg12 : FVec F S2000x128 .f32) (main_arg13 : FVec F S2x128 .f32) (main_arg14 : FVec F S10x128 .f32) (main_arg15 : FVec F S5x128 .f32) (main_arg16 : FVec F S100x128 .f32) (main_arg17 : FVec F S435x128 .f32) (main_arg18 : FVec F S128 .f32) (main_arg19 : FVec F S128x256 .f32) (main_arg20 : FVec F S256 .f32) (main_arg21 : FVec F S256x256 .f32) (main_arg22 : FVec F S256 .f32) (main_arg23 : FVec F S256x128 .f32) (main_arg24 : FVec F S128 .f32) (main_arg25 : FVec F S128x1 .f32) (main_arg26 : FVec F S1 .f32) (main_v13 : IVec S_ 1) (main_v16 : IVec S1500x128 1) : IVec S_ 1 :=
  let main_c_5 : IVec S_ 1 := constantI S_ 1 1#1
  let main_v17 : IVec S_ 1 := (fun x v => Host.reduce IntOp.andi x v reducesTo_S1500x128_S_d0_1 h_S_) main_v16 main_c_5
  let main_v18 : IVec S_ 1 := andi main_v13 main_v17
  let main_v19 : FVec F S700x128 .f32 := Host.absf main_arg11
  let main_cst_6 : FVec F S_ .f32 := constant S_ .f32 0x7F800000#32
  let main_v20 : FVec F S700x128 .f32 := broadcastInDim S700x128 ![] bcast_S_S700x128 main_cst_6
  let main_v21 : IVec S700x128 1 := cmpf .olt main_v19 main_v20
  let main_c_7 : IVec S_ 1 := constantI S_ 1 1#1
  let main_v22 : IVec S_ 1 := (fun x v => Host.reduce IntOp.andi x v reducesTo_S700x128_S_d0_1 h_S_) main_v21 main_c_7
  let main_v23 : IVec S_ 1 := andi main_v18 main_v22
  let main_v24 : FVec F S2000x128 .f32 := Host.absf main_arg12
  let main_cst_8 : FVec F S_ .f32 := constant S_ .f32 0x7F800000#32
  let main_v25 : FVec F S2000x128 .f32 := broadcastInDim S2000x128 ![] bcast_S_S2000x128 main_cst_8
  let main_v26 : IVec S2000x128 1 := cmpf .olt main_v24 main_v25
  let main_c_9 : IVec S_ 1 := constantI S_ 1 1#1
  let main_v27 : IVec S_ 1 := (fun x v => Host.reduce IntOp.andi x v reducesTo_S2000x128_S_d0_1 h_S_) main_v26 main_c_9
  let main_v28 : IVec S_ 1 := andi main_v23 main_v27
  let main_v29 : FVec F S2x128 .f32 := Host.absf main_arg13
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg6 main_arg14 main_arg15 main_arg16 main_arg17 main_arg18 main_arg19 main_arg20 main_arg21 main_arg22 main_arg23 main_arg24 main_arg25 main_arg26 main_v33

def fn {F : FTy → Type} [FloatOps F] (main_arg0 : IVec S64x24x100 32) (main_arg1 : IVec S64x24x200 32) (main_arg2 : IVec S64x24x50 32) (main_arg3 : IVec S64x24x50 32) (main_arg4 : IVec S64x24 32) (main_arg5 : IVec S64x30 32) (main_arg6 : IVec S64x4 32) (main_arg7 : FVec F S1000x128 .f32) (main_arg8 : FVec F S3000x128 .f32) (main_arg9 : FVec F S500x128 .f32) (main_arg10 : FVec F S1500x128 .f32) (main_arg11 : FVec F S700x128 .f32) (main_arg12 : FVec F S2000x128 .f32) (main_arg13 : FVec F S2x128 .f32) (main_arg14 : FVec F S10x128 .f32) (main_arg15 : FVec F S5x128 .f32) (main_arg16 : FVec F S100x128 .f32) (main_arg17 : FVec F S435x128 .f32) (main_arg18 : FVec F S128 .f32) (main_arg19 : FVec F S128x256 .f32) (main_arg20 : FVec F S256 .f32) (main_arg21 : FVec F S256x256 .f32) (main_arg22 : FVec F S256 .f32) (main_arg23 : FVec F S256x128 .f32) (main_arg24 : FVec F S128 .f32) (main_arg25 : FVec F S128x1 .f32) (main_arg26 : FVec F S1 .f32) : IVec S_ 1 :=
  let main_v0 : FVec F S1000x128 .f32 := Host.absf main_arg7
  let main_cst : FVec F S_ .f32 := constant S_ .f32 0x7F800000#32
  let main_v1 : FVec F S1000x128 .f32 := broadcastInDim S1000x128 ![] bcast_S_S1000x128 main_cst
  let main_v2 : IVec S1000x128 1 := cmpf .olt main_v0 main_v1
  let main_c : IVec S_ 1 := constantI S_ 1 1#1
  let main_v3 : IVec S_ 1 := (fun x v => Host.reduce IntOp.andi x v reducesTo_S1000x128_S_d0_1 h_S_) main_v2 main_c
  let main_v4 : FVec F S3000x128 .f32 := Host.absf main_arg8
  let main_cst_0 : FVec F S_ .f32 := constant S_ .f32 0x7F800000#32
  let main_v5 : FVec F S3000x128 .f32 := broadcastInDim S3000x128 ![] bcast_S_S3000x128 main_cst_0
  let main_v6 : IVec S3000x128 1 := cmpf .olt main_v4 main_v5
  let main_c_1 : IVec S_ 1 := constantI S_ 1 1#1
  let main_v7 : IVec S_ 1 := (fun x v => Host.reduce IntOp.andi x v reducesTo_S3000x128_S_d0_1 h_S_) main_v6 main_c_1
  let main_v8 : IVec S_ 1 := andi main_v3 main_v7
  let main_v9 : FVec F S500x128 .f32 := Host.absf main_arg9
  let main_cst_2 : FVec F S_ .f32 := constant S_ .f32 0x7F800000#32
  let main_v10 : FVec F S500x128 .f32 := broadcastInDim S500x128 ![] bcast_S_S500x128 main_cst_2
  let main_v11 : IVec S500x128 1 := cmpf .olt main_v9 main_v10
  let main_c_3 : IVec S_ 1 := constantI S_ 1 1#1
  let main_v12 : IVec S_ 1 := (fun x v => Host.reduce IntOp.andi x v reducesTo_S500x128_S_d0_1 h_S_) main_v11 main_c_3
  let main_v13 : IVec S_ 1 := andi main_v8 main_v12
  let main_v14 : FVec F S1500x128 .f32 := Host.absf main_arg10
  let main_cst_4 : FVec F S_ .f32 := constant S_ .f32 0x7F800000#32
  let main_v15 : FVec F S1500x128 .f32 := broadcastInDim S1500x128 ![] bcast_S_S1500x128 main_cst_4
  let main_v16 : IVec S1500x128 1 := cmpf .olt main_v14 main_v15
  fn_part1 (F := F) main_arg6 main_arg11 main_arg12 main_arg13 main_arg14 main_arg15 main_arg16 main_arg17 main_arg18 main_arg19 main_arg20 main_arg21 main_arg22 main_arg23 main_arg24 main_arg25 main_arg26 main_v13 main_v16
-- ==== Kernel.lean ====
abbrev S64x24x100 : Shape := ⟨3, ![64, 24, 100]⟩
abbrev S64x24x200 : Shape := ⟨3, ![64, 24, 200]⟩
abbrev S64x24x50 : Shape := ⟨3, ![64, 24, 50]⟩
abbrev S64x24 : Shape := ⟨2, ![64, 24]⟩
abbrev S64x30 : Shape := ⟨2, ![64, 30]⟩
abbrev S64x4 : Shape := ⟨2, ![64, 4]⟩
abbrev S1000x128 : Shape := ⟨2, ![1000, 128]⟩
abbrev S3000x128 : Shape := ⟨2, ![3000, 128]⟩
abbrev S500x128 : Shape := ⟨2, ![500, 128]⟩
abbrev S1500x128 : Shape := ⟨2, ![1500, 128]⟩
abbrev S700x128 : Shape := ⟨2, ![700, 128]⟩
abbrev S2000x128 : Shape := ⟨2, ![2000, 128]⟩
abbrev S2x128 : Shape := ⟨2, ![2, 128]⟩
abbrev S10x128 : Shape := ⟨2, ![10, 128]⟩
abbrev S5x128 : Shape := ⟨2, ![5, 128]⟩
abbrev S100x128 : Shape := ⟨2, ![100, 128]⟩
abbrev S435x128 : Shape := ⟨2, ![435, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128x1 : Shape := ⟨2, ![128, 1]⟩
abbrev S1 : Shape := ⟨1, ![1]⟩
abbrev S_ : Shape := ⟨0, ![]⟩
abbrev S1000 : Shape := ⟨1, ![1000]⟩
abbrev S3000 : Shape := ⟨1, ![3000]⟩
abbrev S500 : Shape := ⟨1, ![500]⟩
abbrev S1500 : Shape := ⟨1, ![1500]⟩
abbrev S700 : Shape := ⟨1, ![700]⟩
abbrev S2000 : Shape := ⟨1, ![2000]⟩
abbrev S2 : Shape := ⟨1, ![2]⟩
abbrev S10 : Shape := ⟨1, ![10]⟩
abbrev S5 : Shape := ⟨1, ![5]⟩
abbrev S100 : Shape := ⟨1, ![100]⟩
abbrev S1536x100 : Shape := ⟨2, ![1536, 100]⟩
abbrev S1536x200 : Shape := ⟨2, ![1536, 200]⟩
abbrev S1536x50 : Shape := ⟨2, ![1536, 50]⟩
abbrev S1536x1 : Shape := ⟨2, ![1536, 1]⟩
abbrev S64x1 : Shape := ⟨2, ![64, 1]⟩
abbrev S64 : Shape := ⟨1, ![64]⟩
abbrev S1024 : Shape := ⟨1, ![1024]⟩
abbrev S1024x1 : Shape := ⟨2, ![1024, 1]⟩
abbrev S1824x100 : Shape := ⟨2, ![1824, 100]⟩
abbrev S1824x1 : Shape := ⟨2, ![1824, 1]⟩
abbrev S2x100x1 : Shape := ⟨3, ![2, 100, 1]⟩
abbrev S152x100 : Shape := ⟨2, ![152, 100]⟩
abbrev S256x1 : Shape := ⟨2, ![256, 1]⟩
abbrev S152x1 : Shape := ⟨2, ![152, 1]⟩
abbrev S1x100x1 : Shape := ⟨3, ![1, 100, 1]⟩
abbrev S100x1 : Shape := ⟨2, ![100, 1]⟩
abbrev S1x1x256 : Shape := ⟨3, ![1, 1, 256]⟩
abbrev S152x100x1 : Shape := ⟨3, ![152, 100, 1]⟩
abbrev S152x100x256 : Shape := ⟨3, ![152, 100, 256]⟩
abbrev S152x1x1 : Shape := ⟨3, ![152, 1, 1]⟩
abbrev S100x256 : Shape := ⟨2, ![100, 256]⟩
abbrev S1x100 : Shape := ⟨2, ![1, 100]⟩
abbrev S3072 : Shape := ⟨1, ![3072]⟩
abbrev S3072x1 : Shape := ⟨2, ![3072, 1]⟩
abbrev S1584x200 : Shape := ⟨2, ![1584, 200]⟩
abbrev S1584x1 : Shape := ⟨2, ![1584, 1]⟩
abbrev S2x200x1 : Shape := ⟨3, ![2, 200, 1]⟩
abbrev S72x200 : Shape := ⟨2, ![72, 200]⟩
abbrev S72x1 : Shape := ⟨2, ![72, 1]⟩
abbrev S1x200x1 : Shape := ⟨3, ![1, 200, 1]⟩
abbrev S200x1 : Shape := ⟨2, ![200, 1]⟩
abbrev S72x200x1 : Shape := ⟨3, ![72, 200, 1]⟩
abbrev S72x200x256 : Shape := ⟨3, ![72, 200, 256]⟩
abbrev S72x1x1 : Shape := ⟨3, ![72, 1, 1]⟩
abbrev S200x256 : Shape := ⟨2, ![200, 256]⟩
abbrev S1x200 : Shape := ⟨2, ![1, 200]⟩
abbrev S512 : Shape := ⟨1, ![512]⟩
abbrev S512x1 : Shape := ⟨2, ![512, 1]⟩
abbrev S2x50x1 : Shape := ⟨3, ![2, 50, 1]⟩
abbrev S256x50 : Shape := ⟨2, ![256, 50]⟩
abbrev S1x50x1 : Shape := ⟨3, ![1, 50, 1]⟩
abbrev S50x1 : Shape := ⟨2, ![50, 1]⟩
abbrev S256x50x1 : Shape := ⟨3, ![256, 50, 1]⟩
abbrev S256x50x256 : Shape := ⟨3, ![256, 50, 256]⟩
abbrev S256x1x1 : Shape := ⟨3, ![256, 1, 1]⟩
abbrev S50x256 : Shape := ⟨2, ![50, 256]⟩
abbrev S1x50 : Shape := ⟨2, ![1, 50]⟩
abbrev S1536 : Shape := ⟨1, ![1536]⟩
abbrev S1536x1x1 : Shape := ⟨3, ![1536, 1, 1]⟩
abbrev S1x1 : Shape := ⟨2, ![1, 1]⟩
abbrev S64x30x1 : Shape := ⟨3, ![64, 30, 1]⟩
abbrev S30 : Shape := ⟨1, ![30]⟩
abbrev S1x30 : Shape := ⟨2, ![1, 30]⟩
abbrev S64x1x1 : Shape := ⟨3, ![64, 1, 1]⟩
abbrev S1x435 : Shape := ⟨2, ![1, 435]⟩
abbrev S1x128 : Shape := ⟨2, ![1, 128]⟩
abbrev S1x256 : Shape := ⟨2, ![1, 256]⟩

abbrev nBuf : Space → Nat
  | .hbm => 412
  | .vmem => 49
  | .smem => 0
  | _ => 0

abbrev hbmTy0_0 (i : Nat) : BufTy := match i % 128 with
  | 0 => ⟨S64x24x100, .i32⟩
  | 1 => ⟨S64x24x200, .i32⟩
  | 2 => ⟨S64x24x50, .i32⟩
  | 3 => ⟨S64x24x50, .i32⟩
  | 4 => ⟨S64x24, .i32⟩
  | 5 => ⟨S64x30, .i32⟩
  | 6 => ⟨S64x4, .i32⟩
  | 7 => ⟨S1000x128, .f32⟩
  | 8 => ⟨S3000x128, .f32⟩
  | 9 => ⟨S500x128, .f32⟩
  | 10 => ⟨S1500x128, .f32⟩
  | 11 => ⟨S700x128, .f32⟩
  | 12 => ⟨S2000x128, .f32⟩
  | 13 => ⟨S2x128, .f32⟩
  | 14 => ⟨S10x128, .f32⟩
  | 15 => ⟨S5x128, .f32⟩
  | 16 => ⟨S100x128, .f32⟩
  | 17 => ⟨S435x128, .f32⟩
  | 18 => ⟨S128, .f32⟩
  | 19 => ⟨S128x256, .f32⟩
  | 20 => ⟨S256, .f32⟩
  | 21 => ⟨S256x256, .f32⟩
  | 22 => ⟨S256, .f32⟩
  | 23 => ⟨S256x128, .f32⟩
  | 24 => ⟨S128, .f32⟩
  | 25 => ⟨S128x1, .f32⟩
  | 26 => ⟨S1, .f32⟩
  | 27 => ⟨S_, .f32⟩
  | 28 => ⟨S1000, .f32⟩
  | 29 => ⟨S_, .f32⟩
  | 30 => ⟨S1000, .f32⟩
  | 31 => ⟨S1000, .f32⟩
  | 32 => ⟨S_, .f32⟩
  | 33 => ⟨S3000, .f32⟩
  | 34 => ⟨S_, .f32⟩
  | 35 => ⟨S3000, .f32⟩
  | 36 => ⟨S3000, .f32⟩
  | 37 => ⟨S_, .f32⟩
  | 38 => ⟨S500, .f32⟩
  | 39 => ⟨S_, .f32⟩
  | 40 => ⟨S500, .f32⟩
  | 41 => ⟨S500, .f32⟩
  | 42 => ⟨S_, .f32⟩
  | 43 => ⟨S1500, .f32⟩
  | 44 => ⟨S_, .f32⟩
  | 45 => ⟨S1500, .f32⟩
  | 46 => ⟨S1500, .f32⟩
  | 47 => ⟨S_, .f32⟩
  | 48 => ⟨S700, .f32⟩
  | 49 => ⟨S_, .f32⟩
  | 50 => ⟨S700, .f32⟩
  | 51 => ⟨S700, .f32⟩
  | 52 => ⟨S_, .f32⟩
  | 53 => ⟨S2000, .f32⟩
  | 54 => ⟨S_, .f32⟩
  | 55 => ⟨S2000, .f32⟩
  | 56 => ⟨S2000, .f32⟩
  | 57 => ⟨S_, .f32⟩
  | 58 => ⟨S2, .f32⟩
  | 59 => ⟨S_, .f32⟩
  | 60 => ⟨S2, .f32⟩
  | 61 => ⟨S2, .f32⟩
  | 62 => ⟨S_, .f32⟩
  | 63 => ⟨S10, .f32⟩
  | 64 => ⟨S_, .f32⟩
  | 65 => ⟨S10, .f32⟩
  | 66 => ⟨S10, .f32⟩
  | 67 => ⟨S_, .f32⟩
  | 68 => ⟨S5, .f32⟩
  | 69 => ⟨S_, .f32⟩
  | 70 => ⟨S5, .f32⟩
  | 71 => ⟨S5, .f32⟩
  | 72 => ⟨S_, .f32⟩
  | 73 => ⟨S100, .f32⟩
  | 74 => ⟨S_, .f32⟩
  | 75 => ⟨S100, .f32⟩
  | 76 => ⟨S100, .f32⟩
  | 77 => ⟨S_, .i32⟩
  | 78 => ⟨S_, .i32⟩
  | 79 => ⟨S_, .i32⟩
  | 80 => ⟨S64x24x100, .i32⟩
  | 81 => ⟨S64x24x100, .i32⟩
  | 82 => ⟨S_, .i32⟩
  | 83 => ⟨S64x24x100, .i32⟩
  | 84 => ⟨S64x24x100, .i32⟩
  | 85 => ⟨S1536x100, .i32⟩
  | 86 => ⟨S_, .i32⟩
  | 87 => ⟨S_, .i32⟩
  | 88 => ⟨S_, .i32⟩
  | 89 => ⟨S64x24x200, .i32⟩
  | 90 => ⟨S64x24x200, .i32⟩
  | 91 => ⟨S_, .i32⟩
  | 92 => ⟨S64x24x200, .i32⟩
  | 93 => ⟨S64x24x200, .i32⟩
  | 94 => ⟨S1536x200, .i32⟩
  | 95 => ⟨S_, .i32⟩
  | 96 => ⟨S_, .i32⟩
  | 97 => ⟨S_, .i32⟩
  | 98 => ⟨S64x24x50, .i32⟩
  | 99 => ⟨S64x24x50, .i32⟩
  | 100 => ⟨S_, .i32⟩
  | 101 => ⟨S64x24x50, .i32⟩
  | 102 => ⟨S64x24x50, .i32⟩
  | 103 => ⟨S1536x50, .i32⟩
  | 104 => ⟨S_, .i32⟩
  | 105 => ⟨S_, .i32⟩
  | 106 => ⟨S_, .i32⟩
  | 107 => ⟨S64x24x50, .i32⟩
  | 108 => ⟨S64x24x50, .i32⟩
  | 109 => ⟨S_, .i32⟩
  | 110 => ⟨S64x24x50, .i32⟩
  | 111 => ⟨S64x24x50, .i32⟩
  | 112 => ⟨S1536x50, .i32⟩
  | 113 => ⟨S_, .i32⟩
  | 114 => ⟨S_, .i32⟩
  | 115 => ⟨S_, .i32⟩
  | 116 => ⟨S64x24, .i32⟩
  | 117 => ⟨S64x24, .i32⟩
  | 118 => ⟨S_, .i32⟩
  | 119 => ⟨S64x24, .i32⟩
  | 120 => ⟨S64x24, .i32⟩
  | 121 => ⟨S1536x1, .i32⟩
  | 122 => ⟨S_, .i32⟩
  | 123 => ⟨S_, .i32⟩
  | 124 => ⟨S_, .i32⟩
  | 125 => ⟨S64x30, .i32⟩
  | 126 => ⟨S64x30, .i32⟩
  | 127 => ⟨S_, .i32⟩
  | _ => ⟨S64x24x100, .i32⟩

abbrev hbmTy0_1 (i : Nat) : BufTy := match i % 128 with
  | 0 => ⟨S64x30, .i32⟩
  | 1 => ⟨S64x30, .i32⟩
  | 2 => ⟨S64x1, .i32⟩
  | 3 => ⟨S64, .i32⟩
  | 4 => ⟨S_, .i32⟩
  | 5 => ⟨S_, .i32⟩
  | 6 => ⟨S_, .i32⟩
  | 7 => ⟨S64, .i32⟩
  | 8 => ⟨S64, .i32⟩
  | 9 => ⟨S_, .i32⟩
  | 10 => ⟨S64, .i32⟩
  | 11 => ⟨S64, .i32⟩
  | 12 => ⟨S64x1, .i32⟩
  | 13 => ⟨S64x1, .i32⟩
  | 14 => ⟨S64, .i32⟩
  | 15 => ⟨S_, .i32⟩
  | 16 => ⟨S_, .i32⟩
  | 17 => ⟨S_, .i32⟩
  | 18 => ⟨S64, .i32⟩
  | 19 => ⟨S64, .i32⟩
  | 20 => ⟨S_, .i32⟩
  | 21 => ⟨S64, .i32⟩
  | 22 => ⟨S64, .i32⟩
  | 23 => ⟨S64x1, .i32⟩
  | 24 => ⟨S64x1, .i32⟩
  | 25 => ⟨S64, .i32⟩
  | 26 => ⟨S_, .i32⟩
  | 27 => ⟨S_, .i32⟩
  | 28 => ⟨S_, .i32⟩
  | 29 => ⟨S64, .i32⟩
  | 30 => ⟨S64, .i32⟩
  | 31 => ⟨S_, .i32⟩
  | 32 => ⟨S64, .i32⟩
  | 33 => ⟨S64, .i32⟩
  | 34 => ⟨S64x1, .i32⟩
  | 35 => ⟨S64x1, .i32⟩
  | 36 => ⟨S64, .i32⟩
  | 37 => ⟨S_, .i32⟩
  | 38 => ⟨S_, .i32⟩
  | 39 => ⟨S_, .i32⟩
  | 40 => ⟨S64, .i32⟩
  | 41 => ⟨S64, .i32⟩
  | 42 => ⟨S_, .i32⟩
  | 43 => ⟨S64, .i32⟩
  | 44 => ⟨S64, .i32⟩
  | 45 => ⟨S64x1, .i32⟩
  | 46 => ⟨S_, .i32⟩
  | 47 => ⟨S_, .i32⟩
  | 48 => ⟨S_, .i32⟩
  | 49 => ⟨S1536x100, .i32⟩
  | 50 => ⟨S1536x100, .i32⟩
  | 51 => ⟨S_, .i32⟩
  | 52 => ⟨S1536x100, .i32⟩
  | 53 => ⟨S1536x100, .i32⟩
  | 54 => ⟨S_, .i32⟩
  | 55 => ⟨S_, .f32⟩
  | 56 => ⟨S1024, .f32⟩
  | 57 => ⟨S1024x1, .f32⟩
  | 58 => ⟨S_, .i32⟩
  | 59 => ⟨S_, .i32⟩
  | 60 => ⟨S1824x100, .i32⟩
  | 61 => ⟨S1824x1, .i32⟩
  | 62 => ⟨S_, .i32⟩
  | 63 => ⟨S1824x1, .i32⟩
  | 64 => ⟨S1824x1, .i1⟩
  | 65 => ⟨S1824x1, .f32⟩
  | 66 => ⟨S2x100x1, .f32⟩
  | 67 => ⟨S_, .f32⟩
  | 68 => ⟨S100x1, .f32⟩
  | 69 => ⟨S1x100, .f32⟩
  | 70 => ⟨S_, .i32⟩
  | 71 => ⟨S_, .i32⟩
  | 72 => ⟨S_, .i32⟩
  | 73 => ⟨S1536x200, .i32⟩
  | 74 => ⟨S1536x200, .i32⟩
  | 75 => ⟨S_, .i32⟩
  | 76 => ⟨S1536x200, .i32⟩
  | 77 => ⟨S1536x200, .i32⟩
  | 78 => ⟨S_, .i32⟩
  | 79 => ⟨S_, .f32⟩
  | 80 => ⟨S3072, .f32⟩
  | 81 => ⟨S3072x1, .f32⟩
  | 82 => ⟨S_, .i32⟩
  | 83 => ⟨S_, .i32⟩
  | 84 => ⟨S1584x200, .i32⟩
  | 85 => ⟨S1584x1, .i32⟩
  | 86 => ⟨S_, .i32⟩
  | 87 => ⟨S1584x1, .i32⟩
  | 88 => ⟨S1584x1, .i1⟩
  | 89 => ⟨S1584x1, .f32⟩
  | 90 => ⟨S2x200x1, .f32⟩
  | 91 => ⟨S_, .f32⟩
  | 92 => ⟨S200x1, .f32⟩
  | 93 => ⟨S1x200, .f32⟩
  | 94 => ⟨S_, .i32⟩
  | 95 => ⟨S_, .i32⟩
  | 96 => ⟨S_, .i32⟩
  | 97 => ⟨S1536x50, .i32⟩
  | 98 => ⟨S1536x50, .i32⟩
  | 99 => ⟨S_, .i32⟩
  | 100 => ⟨S1536x50, .i32⟩
  | 101 => ⟨S1536x50, .i32⟩
  | 102 => ⟨S_, .i32⟩
  | 103 => ⟨S_, .f32⟩
  | 104 => ⟨S512, .f32⟩
  | 105 => ⟨S512x1, .f32⟩
  | 106 => ⟨S1536x1, .i32⟩
  | 107 => ⟨S_, .i32⟩
  | 108 => ⟨S1536x1, .i32⟩
  | 109 => ⟨S1536x1, .i1⟩
  | 110 => ⟨S1536x1, .f32⟩
  | 111 => ⟨S2x50x1, .f32⟩
  | 112 => ⟨S_, .f32⟩
  | 113 => ⟨S50x1, .f32⟩
  | 114 => ⟨S1x50, .f32⟩
  | 115 => ⟨S_, .i32⟩
  | 116 => ⟨S_, .i32⟩
  | 117 => ⟨S_, .i32⟩
  | 118 => ⟨S1536x50, .i32⟩
  | 119 => ⟨S1536x50, .i32⟩
  | 120 => ⟨S_, .i32⟩
  | 121 => ⟨S1536x50, .i32⟩
  | 122 => ⟨S1536x50, .i32⟩
  | 123 => ⟨S_, .i32⟩
  | 124 => ⟨S_, .f32⟩
  | 125 => ⟨S1536, .f32⟩
  | 126 => ⟨S1536x1, .f32⟩
  | 127 => ⟨S1536x1, .i32⟩
  | _ => ⟨S64x24x100, .i32⟩

abbrev hbmTy0_2 (i : Nat) : BufTy := match i % 128 with
  | 0 => ⟨S_, .i32⟩
  | 1 => ⟨S1536x1, .i32⟩
  | 2 => ⟨S1536x1, .i1⟩
  | 3 => ⟨S1536x1, .f32⟩
  | 4 => ⟨S2x50x1, .f32⟩
  | 5 => ⟨S_, .f32⟩
  | 6 => ⟨S50x1, .f32⟩
  | 7 => ⟨S1x50, .f32⟩
  | 8 => ⟨S_, .i32⟩
  | 9 => ⟨S_, .i32⟩
  | 10 => ⟨S_, .i32⟩
  | 11 => ⟨S1536x1, .i32⟩
  | 12 => ⟨S1536x1, .i32⟩
  | 13 => ⟨S_, .i32⟩
  | 14 => ⟨S1536x1, .i32⟩
  | 15 => ⟨S1536x1, .i32⟩
  | 16 => ⟨S_, .i32⟩
  | 17 => ⟨S1536x1, .i32⟩
  | 18 => ⟨S1536x1, .i1⟩
  | 19 => ⟨S_, .i32⟩
  | 20 => ⟨S1536x1, .i32⟩
  | 21 => ⟨S1536x1, .i32⟩
  | 22 => ⟨S1536x1, .i32⟩
  | 23 => ⟨S1536x1x1, .i32⟩
  | 24 => ⟨S1536x1, .f32⟩
  | 25 => ⟨S_, .f32⟩
  | 26 => ⟨S1, .f32⟩
  | 27 => ⟨S1x1, .f32⟩
  | 28 => ⟨S_, .f32⟩
  | 29 => ⟨S1x1, .f32⟩
  | 30 => ⟨S1x1, .f32⟩
  | 31 => ⟨S_, .i32⟩
  | 32 => ⟨S_, .i32⟩
  | 33 => ⟨S_, .i32⟩
  | 34 => ⟨S64x30, .i32⟩
  | 35 => ⟨S64x30, .i32⟩
  | 36 => ⟨S_, .i32⟩
  | 37 => ⟨S64x30, .i32⟩
  | 38 => ⟨S64x30, .i32⟩
  | 39 => ⟨S_, .i32⟩
  | 40 => ⟨S64x30, .i32⟩
  | 41 => ⟨S64x30, .i1⟩
  | 42 => ⟨S_, .i32⟩
  | 43 => ⟨S64x30, .i32⟩
  | 44 => ⟨S64x30, .i32⟩
  | 45 => ⟨S64x30, .i32⟩
  | 46 => ⟨S64x30x1, .i32⟩
  | 47 => ⟨S64x30, .f32⟩
  | 48 => ⟨S_, .f32⟩
  | 49 => ⟨S30, .f32⟩
  | 50 => ⟨S1x30, .f32⟩
  | 51 => ⟨S_, .f32⟩
  | 52 => ⟨S1x30, .f32⟩
  | 53 => ⟨S1x30, .f32⟩
  | 54 => ⟨S_, .i32⟩
  | 55 => ⟨S_, .i32⟩
  | 56 => ⟨S_, .i32⟩
  | 57 => ⟨S64x1, .i32⟩
  | 58 => ⟨S64x1, .i32⟩
  | 59 => ⟨S_, .i32⟩
  | 60 => ⟨S64x1, .i32⟩
  | 61 => ⟨S64x1, .i32⟩
  | 62 => ⟨S_, .i32⟩
  | 63 => ⟨S64x1, .i32⟩
  | 64 => ⟨S64x1, .i1⟩
  | 65 => ⟨S_, .i32⟩
  | 66 => ⟨S64x1, .i32⟩
  | 67 => ⟨S64x1, .i32⟩
  | 68 => ⟨S64x1, .i32⟩
  | 69 => ⟨S64x1x1, .i32⟩
  | 70 => ⟨S64x1, .f32⟩
  | 71 => ⟨S_, .f32⟩
  | 72 => ⟨S1, .f32⟩
  | 73 => ⟨S1x1, .f32⟩
  | 74 => ⟨S_, .f32⟩
  | 75 => ⟨S1x1, .f32⟩
  | 76 => ⟨S1x1, .f32⟩
  | 77 => ⟨S_, .i32⟩
  | 78 => ⟨S_, .i32⟩
  | 79 => ⟨S_, .i32⟩
  | 80 => ⟨S64x1, .i32⟩
  | 81 => ⟨S64x1, .i32⟩
  | 82 => ⟨S_, .i32⟩
  | 83 => ⟨S64x1, .i32⟩
  | 84 => ⟨S64x1, .i32⟩
  | 85 => ⟨S_, .i32⟩
  | 86 => ⟨S64x1, .i32⟩
  | 87 => ⟨S64x1, .i1⟩
  | 88 => ⟨S_, .i32⟩
  | 89 => ⟨S64x1, .i32⟩
  | 90 => ⟨S64x1, .i32⟩
  | 91 => ⟨S64x1, .i32⟩
  | 92 => ⟨S64x1x1, .i32⟩
  | 93 => ⟨S64x1, .f32⟩
  | 94 => ⟨S_, .f32⟩
  | 95 => ⟨S1, .f32⟩
  | 96 => ⟨S1x1, .f32⟩
  | 97 => ⟨S_, .f32⟩
  | 98 => ⟨S1x1, .f32⟩
  | 99 => ⟨S1x1, .f32⟩
  | 100 => ⟨S_, .i32⟩
  | 101 => ⟨S_, .i32⟩
  | 102 => ⟨S_, .i32⟩
  | 103 => ⟨S64x1, .i32⟩
  | 104 => ⟨S64x1, .i32⟩
  | 105 => ⟨S_, .i32⟩
  | 106 => ⟨S64x1, .i32⟩
  | 107 => ⟨S64x1, .i32⟩
  | 108 => ⟨S_, .i32⟩
  | 109 => ⟨S64x1, .i32⟩
  | 110 => ⟨S64x1, .i1⟩
  | 111 => ⟨S_, .i32⟩
  | 112 => ⟨S64x1, .i32⟩
  | 113 => ⟨S64x1, .i32⟩
  | 114 => ⟨S64x1, .i32⟩
  | 115 => ⟨S64x1x1, .i32⟩
  | 116 => ⟨S64x1, .f32⟩
  | 117 => ⟨S_, .f32⟩
  | 118 => ⟨S1, .f32⟩
  | 119 => ⟨S1x1, .f32⟩
  | 120 => ⟨S_, .f32⟩
  | 121 => ⟨S1x1, .f32⟩
  | 122 => ⟨S1x1, .f32⟩
  | 123 => ⟨S_, .i32⟩
  | 124 => ⟨S_, .i32⟩
  | 125 => ⟨S_, .i32⟩
  | 126 => ⟨S64x1, .i32⟩
  | 127 => ⟨S64x1, .i32⟩
  | _ => ⟨S64x24x100, .i32⟩

abbrev hbmTy0_3 (i : Nat) : BufTy := match i % 128 with
  | 0 => ⟨S_, .i32⟩
  | 1 => ⟨S64x1, .i32⟩
  | 2 => ⟨S64x1, .i32⟩
  | 3 => ⟨S_, .i32⟩
  | 4 => ⟨S64x1, .i32⟩
  | 5 => ⟨S64x1, .i1⟩
  | 6 => ⟨S_, .i32⟩
  | 7 => ⟨S64x1, .i32⟩
  | 8 => ⟨S64x1, .i32⟩
  | 9 => ⟨S64x1, .i32⟩
  | 10 => ⟨S64x1x1, .i32⟩
  | 11 => ⟨S64x1, .f32⟩
  | 12 => ⟨S_, .f32⟩
  | 13 => ⟨S1, .f32⟩
  | 14 => ⟨S1x1, .f32⟩
  | 15 => ⟨S_, .f32⟩
  | 16 => ⟨S1x1, .f32⟩
  | 17 => ⟨S1x1, .f32⟩
  | 18 => ⟨S1x435, .f32⟩
  | 19 => ⟨S1x128, .f32⟩
  | 20 => ⟨S1x256, .f32⟩
  | 21 => ⟨S1x256, .f32⟩
  | 22 => ⟨S1x128, .f32⟩
  | 23 => ⟨S1x1, .f32⟩
  | 24 => ⟨S1x1, .f32⟩
  | 25 => ⟨S1x1, .f32⟩
  | 26 => ⟨S64x1, .f32⟩
  | 27 => ⟨S64x1, .f32⟩
  | _ => ⟨S64x24x100, .i32⟩

abbrev hbmTy (i : Nat) : BufTy := match i / 128 with
  | 0 => hbmTy0_0 i
  | 1 => hbmTy0_1 i
  | 2 => hbmTy0_2 i
  | 3 => hbmTy0_3 i
  | _ => ⟨S64x24x100, .i32⟩

abbrev bufTy : (tb : Table) → Fin (tcTables nBuf tb) → BufTy
  | .hbm, ⟨i, _⟩ => hbmTy i
  | .local _ .vmem, ⟨0, _⟩ => ⟨S152x100, .i32⟩
  | .local _ .vmem, ⟨1, _⟩ => ⟨S152x100, .i32⟩
  | .local _ .vmem, ⟨2, _⟩ => ⟨S256x1, .f32⟩
  | .local _ .vmem, ⟨3, _⟩ => ⟨S256x1, .f32⟩
  | .local _ .vmem, ⟨4, _⟩ => ⟨S152x1, .f32⟩
  | .local _ .vmem, ⟨5, _⟩ => ⟨S152x1, .f32⟩
  | .local _ .vmem, ⟨6, _⟩ => ⟨S1x100x1, .f32⟩
  | .local _ .vmem, ⟨7, _⟩ => ⟨S1x100x1, .f32⟩
  | .local _ .vmem, ⟨8, _⟩ => ⟨S100x1, .f32⟩
  | .local _ .vmem, ⟨9, _⟩ => ⟨S72x200, .i32⟩
  | .local _ .vmem, ⟨10, _⟩ => ⟨S72x200, .i32⟩
  | .local _ .vmem, ⟨11, _⟩ => ⟨S256x1, .f32⟩
  | .local _ .vmem, ⟨12, _⟩ => ⟨S256x1, .f32⟩
  | .local _ .vmem, ⟨13, _⟩ => ⟨S72x1, .f32⟩
  | .local _ .vmem, ⟨14, _⟩ => ⟨S72x1, .f32⟩
  | .local _ .vmem, ⟨15, _⟩ => ⟨S1x200x1, .f32⟩
  | .local _ .vmem, ⟨16, _⟩ => ⟨S1x200x1, .f32⟩
  | .local _ .vmem, ⟨17, _⟩ => ⟨S200x1, .f32⟩
  | .local _ .vmem, ⟨18, _⟩ => ⟨S256x50, .i32⟩
  | .local _ .vmem, ⟨19, _⟩ => ⟨S256x50, .i32⟩
  | .local _ .vmem, ⟨20, _⟩ => ⟨S256x1, .f32⟩
  | .local _ .vmem, ⟨21, _⟩ => ⟨S256x1, .f32⟩
  | .local _ .vmem, ⟨22, _⟩ => ⟨S256x1, .f32⟩
  | .local _ .vmem, ⟨23, _⟩ => ⟨S256x1, .f32⟩
  | .local _ .vmem, ⟨24, _⟩ => ⟨S1x50x1, .f32⟩
  | .local _ .vmem, ⟨25, _⟩ => ⟨S1x50x1, .f32⟩
  | .local _ .vmem, ⟨26, _⟩ => ⟨S50x1, .f32⟩
  | .local _ .vmem, ⟨27, _⟩ => ⟨S256x50, .i32⟩
  | .local _ .vmem, ⟨28, _⟩ => ⟨S256x50, .i32⟩
  | .local _ .vmem, ⟨29, _⟩ => ⟨S256x1, .f32⟩
  | .local _ .vmem, ⟨30, _⟩ => ⟨S256x1, .f32⟩
  | .local _ .vmem, ⟨31, _⟩ => ⟨S256x1, .f32⟩
  | .local _ .vmem, ⟨32, _⟩ => ⟨S256x1, .f32⟩
  | .local _ .vmem, ⟨33, _⟩ => ⟨S1x50x1, .f32⟩
  | .local _ .vmem, ⟨34, _⟩ => ⟨S1x50x1, .f32⟩
  | .local _ .vmem, ⟨35, _⟩ => ⟨S50x1, .f32⟩
  | .local _ .vmem, ⟨36, _⟩ => ⟨S1x435, .f32⟩
  | .local _ .vmem, ⟨37, _⟩ => ⟨S435x128, .f32⟩
  | .local _ .vmem, ⟨38, _⟩ => ⟨S1x128, .f32⟩
  | .local _ .vmem, ⟨39, _⟩ => ⟨S128x256, .f32⟩
  | .local _ .vmem, ⟨40, _⟩ => ⟨S1x256, .f32⟩
  | .local _ .vmem, ⟨41, _⟩ => ⟨S256x256, .f32⟩
  | .local _ .vmem, ⟨42, _⟩ => ⟨S1x256, .f32⟩
  | .local _ .vmem, ⟨43, _⟩ => ⟨S256x128, .f32⟩
  | .local _ .vmem, ⟨44, _⟩ => ⟨S1x128, .f32⟩
  | .local _ .vmem, ⟨45, _⟩ => ⟨S128x1, .f32⟩
  | .local _ .vmem, ⟨46, _⟩ => ⟨S1x1, .f32⟩
  | .local _ .vmem, ⟨47, _⟩ => ⟨S1x1, .f32⟩
  | .local _ .vmem, ⟨48, _⟩ => ⟨S1x1, .f32⟩
  | _, _ => ⟨S64x24x100, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_cst : Ref sig .tc := ⟨.hbm, 27, rfl⟩
abbrev main_v0 : Ref sig .tc := ⟨.hbm, 28, rfl⟩
abbrev main_cst_0 : Ref sig .tc := ⟨.hbm, 29, rfl⟩
abbrev main_v1 : Ref sig .tc := ⟨.hbm, 30, rfl⟩
abbrev main_v2 : Ref sig .tc := ⟨.hbm, 31, rfl⟩
abbrev main_cst_1 : Ref sig .tc := ⟨.hbm, 32, rfl⟩
abbrev main_v3 : Ref sig .tc := ⟨.hbm, 33, rfl⟩
abbrev main_cst_2 : Ref sig .tc := ⟨.hbm, 34, rfl⟩
abbrev main_v4 : Ref sig .tc := ⟨.hbm, 35, rfl⟩
abbrev main_v5 : Ref sig .tc := ⟨.hbm, 36, rfl⟩
abbrev main_cst_3 : Ref sig .tc := ⟨.hbm, 37, rfl⟩
abbrev main_v6 : Ref sig .tc := ⟨.hbm, 38, rfl⟩
abbrev main_cst_4 : Ref sig .tc := ⟨.hbm, 39, rfl⟩
abbrev main_v7 : Ref sig .tc := ⟨.hbm, 40, rfl⟩
abbrev main_v8 : Ref sig .tc := ⟨.hbm, 41, rfl⟩
abbrev main_cst_5 : Ref sig .tc := ⟨.hbm, 42, rfl⟩
abbrev main_v9 : Ref sig .tc := ⟨.hbm, 43, rfl⟩
abbrev main_cst_6 : Ref sig .tc := ⟨.hbm, 44, rfl⟩
abbrev main_v10 : Ref sig .tc := ⟨.hbm, 45, rfl⟩
abbrev main_v11 : Ref sig .tc := ⟨.hbm, 46, rfl⟩
abbrev main_cst_7 : Ref sig .tc := ⟨.hbm, 47, rfl⟩
abbrev main_v12 : Ref sig .tc := ⟨.hbm, 48, rfl⟩
abbrev main_cst_8 : Ref sig .tc := ⟨.hbm, 49, rfl⟩
abbrev main_v13 : Ref sig .tc := ⟨.hbm, 50, rfl⟩
abbrev main_v14 : Ref sig .tc := ⟨.hbm, 51, rfl⟩
abbrev main_cst_9 : Ref sig .tc := ⟨.hbm, 52, rfl⟩
abbrev main_v15 : Ref sig .tc := ⟨.hbm, 53, rfl⟩
abbrev main_cst_10 : Ref sig .tc := ⟨.hbm, 54, rfl⟩
abbrev main_v16 : Ref sig .tc := ⟨.hbm, 55, rfl⟩
abbrev main_v17 : Ref sig .tc := ⟨.hbm, 56, rfl⟩
abbrev main_cst_11 : Ref sig .tc := ⟨.hbm, 57, rfl⟩
abbrev main_v18 : Ref sig .tc := ⟨.hbm, 58, rfl⟩
abbrev main_cst_12 : Ref sig .tc := ⟨.hbm, 59, rfl⟩
abbrev main_v19 : Ref sig .tc := ⟨.hbm, 60, rfl⟩
abbrev main_v20 : Ref sig .tc := ⟨.hbm, 61, rfl⟩
abbrev main_cst_13 : Ref sig .tc := ⟨.hbm, 62, rfl⟩
abbrev main_v21 : Ref sig .tc := ⟨.hbm, 63, rfl⟩
abbrev main_cst_14 : Ref sig .tc := ⟨.hbm, 64, rfl⟩
abbrev main_v22 : Ref sig .tc := ⟨.hbm, 65, rfl⟩
abbrev main_v23 : Ref sig .tc := ⟨.hbm, 66, rfl⟩
abbrev main_cst_15 : Ref sig .tc := ⟨.hbm, 67, rfl⟩
abbrev main_v24 : Ref sig .tc := ⟨.hbm, 68, rfl⟩
abbrev main_cst_16 : Ref sig .tc := ⟨.hbm, 69, rfl⟩
abbrev main_v25 : Ref sig .tc := ⟨.hbm, 70, rfl⟩
abbrev main_v26 : Ref sig .tc := ⟨.hbm, 71, rfl⟩
abbrev main_cst_17 : Ref sig .tc := ⟨.hbm, 72, rfl⟩
abbrev main_v27 : Ref sig .tc := ⟨.hbm, 73, rfl⟩
abbrev main_cst_18 : Ref sig .tc := ⟨.hbm, 74, rfl⟩
abbrev main_v28 : Ref sig .tc := ⟨.hbm, 75, rfl⟩
abbrev main_v29 : Ref sig .tc := ⟨.hbm, 76, rfl⟩
abbrev main_c : Ref sig .tc := ⟨.hbm, 77, rfl⟩
abbrev main_c_19 : Ref sig .tc := ⟨.hbm, 78, rfl⟩
abbrev main_call0_v0 : Ref sig .tc := ⟨.hbm, 79, rfl⟩
abbrev main_call0_v1 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_v30 : Ref sig .tc := ⟨.hbm, 84, rfl⟩
abbrev main_v31 : Ref sig .tc := ⟨.hbm, 85, rfl⟩
abbrev main_c_20 : Ref sig .tc := ⟨.hbm, 86, rfl⟩
abbrev main_c_21 : Ref sig .tc := ⟨.hbm, 87, rfl⟩
abbrev main_call1_v0 : Ref sig .tc := ⟨.hbm, 88, rfl⟩
abbrev main_call1_v1 : Ref sig .tc := ⟨.hbm, 89, rfl⟩
abbrev main_call1_v2 : Ref sig .tc := ⟨.hbm, 90, rfl⟩
abbrev main_call1_v3 : Ref sig .tc := ⟨.hbm, 91, rfl⟩
abbrev main_call1_v4 : Ref sig .tc := ⟨.hbm, 92, rfl⟩
abbrev main_v32 : Ref sig .tc := ⟨.hbm, 93, rfl⟩
abbrev main_v33 : Ref sig .tc := ⟨.hbm, 94, rfl⟩
abbrev main_c_22 : Ref sig .tc := ⟨.hbm, 95, rfl⟩
abbrev main_c_23 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_v34 : Ref sig .tc := ⟨.hbm, 102, rfl⟩
abbrev main_v35 : Ref sig .tc := ⟨.hbm, 103, rfl⟩
abbrev main_c_24 : Ref sig .tc := ⟨.hbm, 104, rfl⟩
abbrev main_c_25 : Ref sig .tc := ⟨.hbm, 105, rfl⟩
abbrev main_call3_v0 : Ref sig .tc := ⟨.hbm, 106, rfl⟩
abbrev main_call3_v1 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_v36 : Ref sig .tc := ⟨.hbm, 111, rfl⟩
abbrev main_v37 : Ref sig .tc := ⟨.hbm, 112, rfl⟩
abbrev main_c_26 : Ref sig .tc := ⟨.hbm, 113, rfl⟩
abbrev main_c_27 : Ref sig .tc := ⟨.hbm, 114, rfl⟩
abbrev main_call4_v0 : Ref sig .tc := ⟨.hbm, 115, rfl⟩
abbrev main_call4_v1 : Ref sig .tc := ⟨.hbm, 116, rfl⟩
abbrev main_call4_v2 : Ref sig .tc := ⟨.hbm, 117, rfl⟩
abbrev main_call4_v3 : Ref sig .tc := ⟨.hbm, 118, rfl⟩
abbrev main_call4_v4 : Ref sig .tc := ⟨.hbm, 119, rfl⟩
abbrev main_v38 : Ref sig .tc := ⟨.hbm, 120, rfl⟩
abbrev main_v39 : Ref sig .tc := ⟨.hbm, 121, rfl⟩
abbrev main_c_28 : Ref sig .tc := ⟨.hbm, 122, rfl⟩
abbrev main_c_29 : Ref sig .tc := ⟨.hbm, 123, rfl⟩
abbrev main_call5_v0 : Ref sig .tc := ⟨.hbm, 124, rfl⟩
abbrev main_call5_v1 : Ref sig .tc := ⟨.hbm, 125, rfl⟩
abbrev main_call5_v2 : Ref sig .tc := ⟨.hbm, 126, rfl⟩
abbrev main_call5_v3 : Ref sig .tc := ⟨.hbm, 127, rfl⟩
abbrev main_call5_v4 : Ref sig .tc := ⟨.hbm, 128, rfl⟩
abbrev main_v40 : Ref sig .tc := ⟨.hbm, 129, rfl⟩
abbrev main_v41 : Ref sig .tc := ⟨.hbm, 130, rfl⟩
abbrev main_v42 : Ref sig .tc := ⟨.hbm, 131, rfl⟩
abbrev main_c_30 : Ref sig .tc := ⟨.hbm, 132, rfl⟩
abbrev main_c_31 : Ref sig .tc := ⟨.hbm, 133, rfl⟩
abbrev main_call6_v0 : Ref sig .tc := ⟨.hbm, 134, rfl⟩
abbrev main_call6_v1 : Ref sig .tc := ⟨.hbm, 135, rfl⟩
abbrev main_call6_v2 : Ref sig .tc := ⟨.hbm, 136, rfl⟩
abbrev main_call6_v3 : Ref sig .tc := ⟨.hbm, 137, rfl⟩
abbrev main_call6_v4 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_c_32 : Ref sig .tc := ⟨.hbm, 143, rfl⟩
abbrev main_c_33 : Ref sig .tc := ⟨.hbm, 144, rfl⟩
abbrev main_call7_v0 : Ref sig .tc := ⟨.hbm, 145, rfl⟩
abbrev main_call7_v1 : Ref sig .tc := ⟨.hbm, 146, rfl⟩
abbrev main_call7_v2 : Ref sig .tc := ⟨.hbm, 147, rfl⟩
abbrev main_call7_v3 : Ref sig .tc := ⟨.hbm, 148, rfl⟩
abbrev main_call7_v4 : Ref sig .tc := ⟨.hbm, 149, rfl⟩
abbrev main_v47 : Ref sig .tc := ⟨.hbm, 150, rfl⟩
abbrev main_v48 : Ref sig .tc := ⟨.hbm, 151, rfl⟩
abbrev main_v49 : Ref sig .tc := ⟨.hbm, 152, rfl⟩
abbrev main_v50 : Ref sig .tc := ⟨.hbm, 153, rfl⟩
abbrev main_c_34 : Ref sig .tc := ⟨.hbm, 154, rfl⟩
abbrev main_c_35 : Ref sig .tc := ⟨.hbm, 155, rfl⟩
abbrev main_call8_v0 : Ref sig .tc := ⟨.hbm, 156, rfl⟩
abbrev main_call8_v1 : Ref sig .tc := ⟨.hbm, 157, rfl⟩
abbrev main_call8_v2 : Ref sig .tc := ⟨.hbm, 158, rfl⟩
abbrev main_call8_v3 : Ref sig .tc := ⟨.hbm, 159, rfl⟩
abbrev main_call8_v4 : Ref sig .tc := ⟨.hbm, 160, rfl⟩
abbrev main_v51 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_c_36 : Ref sig .tc := ⟨.hbm, 165, rfl⟩
abbrev main_c_37 : Ref sig .tc := ⟨.hbm, 166, rfl⟩
abbrev main_call9_v0 : Ref sig .tc := ⟨.hbm, 167, rfl⟩
abbrev main_call9_v1 : Ref sig .tc := ⟨.hbm, 168, rfl⟩
abbrev main_call9_v2 : Ref sig .tc := ⟨.hbm, 169, rfl⟩
abbrev main_call9_v3 : Ref sig .tc := ⟨.hbm, 170, rfl⟩
abbrev main_call9_v4 : Ref sig .tc := ⟨.hbm, 171, rfl⟩
abbrev main_v55 : Ref sig .tc := ⟨.hbm, 172, rfl⟩
abbrev main_v56 : Ref sig .tc := ⟨.hbm, 173, rfl⟩
abbrev main_c_38 : Ref sig .tc := ⟨.hbm, 174, rfl⟩
abbrev main_c_39 : Ref sig .tc := ⟨.hbm, 175, rfl⟩
abbrev main_call10_v0 : Ref sig .tc := ⟨.hbm, 176, rfl⟩
abbrev main_call10_v1 : Ref sig .tc := ⟨.hbm, 177, rfl⟩
abbrev main_call10_v2 : Ref sig .tc := ⟨.hbm, 178, rfl⟩
abbrev main_call10_v3 : Ref sig .tc := ⟨.hbm, 179, rfl⟩
abbrev main_call10_v4 : Ref sig .tc := ⟨.hbm, 180, rfl⟩
abbrev main_v57 : Ref sig .tc := ⟨.hbm, 181, rfl⟩
abbrev main_c_40 : Ref sig .tc := ⟨.hbm, 182, rfl⟩
abbrev main_call11_v0 : Ref sig .tc := ⟨.hbm, 183, rfl⟩
abbrev main_v58 : Ref sig .tc := ⟨.hbm, 184, rfl⟩
abbrev main_v59 : Ref sig .tc := ⟨.hbm, 185, rfl⟩
abbrev main_c_41 : Ref sig .tc := ⟨.hbm, 186, rfl⟩
abbrev main_call12_v0 : Ref sig .tc := ⟨.hbm, 187, rfl⟩
abbrev main_v60 : Ref sig .tc := ⟨.hbm, 188, rfl⟩
abbrev main_v61 : Ref sig .tc := ⟨.hbm, 189, rfl⟩
abbrev main_c_42 : Ref sig .tc := ⟨.hbm, 190, rfl⟩
abbrev main_v62 : Ref sig .tc := ⟨.hbm, 191, rfl⟩
abbrev main_v63 : Ref sig .tc := ⟨.hbm, 192, rfl⟩
abbrev main_v64 : Ref sig .tc := ⟨.hbm, 193, rfl⟩
abbrev main_v65 : Ref sig .tc := ⟨.hbm, 194, rfl⟩
abbrev main_cst_43 : Ref sig .tc := ⟨.hbm, 195, rfl⟩
abbrev main_v66 : Ref sig .tc := ⟨.hbm, 196, rfl⟩
abbrev main_v67 : Ref sig .tc := ⟨.hbm, 197, rfl⟩
abbrev main_c_44 : Ref sig .tc := ⟨.hbm, 198, rfl⟩
abbrev main_c_45 : Ref sig .tc := ⟨.hbm, 199, rfl⟩
abbrev main_call13_v0 : Ref sig .tc := ⟨.hbm, 200, rfl⟩
abbrev main_call13_v1 : Ref sig .tc := ⟨.hbm, 201, rfl⟩
abbrev main_call13_v2 : Ref sig .tc := ⟨.hbm, 202, rfl⟩
abbrev main_call13_v3 : Ref sig .tc := ⟨.hbm, 203, rfl⟩
abbrev main_call13_v4 : Ref sig .tc := ⟨.hbm, 204, rfl⟩
abbrev main_v68 : Ref sig .tc := ⟨.hbm, 205, rfl⟩
abbrev main_c_46 : Ref sig .tc := ⟨.hbm, 206, rfl⟩
abbrev main_call14_v0 : Ref sig .tc := ⟨.hbm, 207, rfl⟩
abbrev main_v69 : Ref sig .tc := ⟨.hbm, 208, rfl⟩
abbrev main_v70 : Ref sig .tc := ⟨.hbm, 209, rfl⟩
abbrev main_c_47 : Ref sig .tc := ⟨.hbm, 210, rfl⟩
abbrev main_call15_v0 : Ref sig .tc := ⟨.hbm, 211, rfl⟩
abbrev main_v71 : Ref sig .tc := ⟨.hbm, 212, rfl⟩
abbrev main_v72 : Ref sig .tc := ⟨.hbm, 213, rfl⟩
abbrev main_c_48 : Ref sig .tc := ⟨.hbm, 214, rfl⟩
abbrev main_v73 : Ref sig .tc := ⟨.hbm, 215, rfl⟩
abbrev main_v74 : Ref sig .tc := ⟨.hbm, 216, rfl⟩
abbrev main_v75 : Ref sig .tc := ⟨.hbm, 217, rfl⟩
abbrev main_v76 : Ref sig .tc := ⟨.hbm, 218, rfl⟩
abbrev main_cst_49 : Ref sig .tc := ⟨.hbm, 219, rfl⟩
abbrev main_v77 : Ref sig .tc := ⟨.hbm, 220, rfl⟩
abbrev main_v78 : Ref sig .tc := ⟨.hbm, 221, rfl⟩
abbrev main_c_50 : Ref sig .tc := ⟨.hbm, 222, rfl⟩
abbrev main_c_51 : Ref sig .tc := ⟨.hbm, 223, rfl⟩
abbrev main_call16_v0 : Ref sig .tc := ⟨.hbm, 224, rfl⟩
abbrev main_call16_v1 : Ref sig .tc := ⟨.hbm, 225, rfl⟩
abbrev main_call16_v2 : Ref sig .tc := ⟨.hbm, 226, rfl⟩
abbrev main_call16_v3 : Ref sig .tc := ⟨.hbm, 227, rfl⟩
abbrev main_call16_v4 : Ref sig .tc := ⟨.hbm, 228, rfl⟩
abbrev main_v79 : Ref sig .tc := ⟨.hbm, 229, rfl⟩
abbrev main_c_52 : Ref sig .tc := ⟨.hbm, 230, rfl⟩
abbrev main_call17_v0 : Ref sig .tc := ⟨.hbm, 231, rfl⟩
abbrev main_v80 : Ref sig .tc := ⟨.hbm, 232, rfl⟩
abbrev main_v81 : Ref sig .tc := ⟨.hbm, 233, rfl⟩
abbrev main_v82 : Ref sig .tc := ⟨.hbm, 234, rfl⟩
abbrev main_c_53 : Ref sig .tc := ⟨.hbm, 235, rfl⟩
abbrev main_v83 : Ref sig .tc := ⟨.hbm, 236, rfl⟩
abbrev main_v84 : Ref sig .tc := ⟨.hbm, 237, rfl⟩
abbrev main_v85 : Ref sig .tc := ⟨.hbm, 238, rfl⟩
abbrev main_v86 : Ref sig .tc := ⟨.hbm, 239, rfl⟩
abbrev main_cst_54 : Ref sig .tc := ⟨.hbm, 240, rfl⟩
abbrev main_v87 : Ref sig .tc := ⟨.hbm, 241, rfl⟩
abbrev main_v88 : Ref sig .tc := ⟨.hbm, 242, rfl⟩
abbrev main_c_55 : Ref sig .tc := ⟨.hbm, 243, rfl⟩
abbrev main_c_56 : Ref sig .tc := ⟨.hbm, 244, rfl⟩
abbrev main_call18_v0 : Ref sig .tc := ⟨.hbm, 245, rfl⟩
abbrev main_call18_v1 : Ref sig .tc := ⟨.hbm, 246, rfl⟩
abbrev main_call18_v2 : Ref sig .tc := ⟨.hbm, 247, rfl⟩
abbrev main_call18_v3 : Ref sig .tc := ⟨.hbm, 248, rfl⟩
abbrev main_call18_v4 : Ref sig .tc := ⟨.hbm, 249, rfl⟩
abbrev main_v89 : Ref sig .tc := ⟨.hbm, 250, rfl⟩
abbrev main_c_57 : Ref sig .tc := ⟨.hbm, 251, rfl⟩
abbrev main_call19_v0 : Ref sig .tc := ⟨.hbm, 252, rfl⟩
abbrev main_v90 : Ref sig .tc := ⟨.hbm, 253, rfl⟩
abbrev main_v91 : Ref sig .tc := ⟨.hbm, 254, rfl⟩
abbrev main_v92 : Ref sig .tc := ⟨.hbm, 255, rfl⟩
abbrev main_c_58 : Ref sig .tc := ⟨.hbm, 256, rfl⟩
abbrev main_v93 : Ref sig .tc := ⟨.hbm, 257, rfl⟩
abbrev main_v94 : Ref sig .tc := ⟨.hbm, 258, rfl⟩
abbrev main_v95 : Ref sig .tc := ⟨.hbm, 259, rfl⟩
abbrev main_v96 : Ref sig .tc := ⟨.hbm, 260, rfl⟩
abbrev main_cst_59 : Ref sig .tc := ⟨.hbm, 261, rfl⟩
abbrev main_v97 : Ref sig .tc := ⟨.hbm, 262, rfl⟩
abbrev main_v98 : Ref sig .tc := ⟨.hbm, 263, rfl⟩
abbrev main_c_60 : Ref sig .tc := ⟨.hbm, 264, rfl⟩
abbrev main_c_61 : Ref sig .tc := ⟨.hbm, 265, rfl⟩
abbrev main_call20_v0 : Ref sig .tc := ⟨.hbm, 266, rfl⟩
abbrev main_call20_v1 : Ref sig .tc := ⟨.hbm, 267, rfl⟩
abbrev main_call20_v2 : Ref sig .tc := ⟨.hbm, 268, rfl⟩
abbrev main_call20_v3 : Ref sig .tc := ⟨.hbm, 269, rfl⟩
abbrev main_call20_v4 : Ref sig .tc := ⟨.hbm, 270, rfl⟩
abbrev main_v99 : Ref sig .tc := ⟨.hbm, 271, rfl⟩
abbrev main_c_62 : Ref sig .tc := ⟨.hbm, 272, rfl⟩
abbrev main_v100 : Ref sig .tc := ⟨.hbm, 273, rfl⟩
abbrev main_v101 : Ref sig .tc := ⟨.hbm, 274, rfl⟩
abbrev main_c_63 : Ref sig .tc := ⟨.hbm, 275, rfl⟩
abbrev main_v102 : Ref sig .tc := ⟨.hbm, 276, rfl⟩
abbrev main_v103 : Ref sig .tc := ⟨.hbm, 277, rfl⟩
abbrev main_v104 : Ref sig .tc := ⟨.hbm, 278, rfl⟩
abbrev main_v105 : Ref sig .tc := ⟨.hbm, 279, rfl⟩
abbrev main_v106 : Ref sig .tc := ⟨.hbm, 280, rfl⟩
abbrev main_cst_64 : Ref sig .tc := ⟨.hbm, 281, rfl⟩
abbrev main_v107 : Ref sig .tc := ⟨.hbm, 282, rfl⟩
abbrev main_v108 : Ref sig .tc := ⟨.hbm, 283, rfl⟩
abbrev main_cst_65 : Ref sig .tc := ⟨.hbm, 284, rfl⟩
abbrev main_v109 : Ref sig .tc := ⟨.hbm, 285, rfl⟩
abbrev main_v110 : Ref sig .tc := ⟨.hbm, 286, rfl⟩
abbrev main_c_66 : Ref sig .tc := ⟨.hbm, 287, rfl⟩
abbrev main_c_67 : Ref sig .tc := ⟨.hbm, 288, rfl⟩
abbrev main_call21_v0 : Ref sig .tc := ⟨.hbm, 289, rfl⟩
abbrev main_call21_v1 : Ref sig .tc := ⟨.hbm, 290, rfl⟩
abbrev main_call21_v2 : Ref sig .tc := ⟨.hbm, 291, rfl⟩
abbrev main_call21_v3 : Ref sig .tc := ⟨.hbm, 292, rfl⟩
abbrev main_call21_v4 : Ref sig .tc := ⟨.hbm, 293, rfl⟩
abbrev main_v111 : Ref sig .tc := ⟨.hbm, 294, rfl⟩
abbrev main_c_68 : Ref sig .tc := ⟨.hbm, 295, rfl⟩
abbrev main_v112 : Ref sig .tc := ⟨.hbm, 296, rfl⟩
abbrev main_v113 : Ref sig .tc := ⟨.hbm, 297, rfl⟩
abbrev main_c_69 : Ref sig .tc := ⟨.hbm, 298, rfl⟩
abbrev main_v114 : Ref sig .tc := ⟨.hbm, 299, rfl⟩
abbrev main_v115 : Ref sig .tc := ⟨.hbm, 300, rfl⟩
abbrev main_v116 : Ref sig .tc := ⟨.hbm, 301, rfl⟩
abbrev main_v117 : Ref sig .tc := ⟨.hbm, 302, rfl⟩
abbrev main_v118 : Ref sig .tc := ⟨.hbm, 303, rfl⟩
abbrev main_cst_70 : Ref sig .tc := ⟨.hbm, 304, rfl⟩
abbrev main_v119 : Ref sig .tc := ⟨.hbm, 305, rfl⟩
abbrev main_v120 : Ref sig .tc := ⟨.hbm, 306, rfl⟩
abbrev main_cst_71 : Ref sig .tc := ⟨.hbm, 307, rfl⟩
abbrev main_v121 : Ref sig .tc := ⟨.hbm, 308, rfl⟩
abbrev main_v122 : Ref sig .tc := ⟨.hbm, 309, rfl⟩
abbrev main_c_72 : Ref sig .tc := ⟨.hbm, 310, rfl⟩
abbrev main_c_73 : Ref sig .tc := ⟨.hbm, 311, rfl⟩
abbrev main_call22_v0 : Ref sig .tc := ⟨.hbm, 312, rfl⟩
abbrev main_call22_v1 : Ref sig .tc := ⟨.hbm, 313, rfl⟩
abbrev main_call22_v2 : Ref sig .tc := ⟨.hbm, 314, rfl⟩
abbrev main_call22_v3 : Ref sig .tc := ⟨.hbm, 315, rfl⟩
abbrev main_call22_v4 : Ref sig .tc := ⟨.hbm, 316, rfl⟩
abbrev main_v123 : Ref sig .tc := ⟨.hbm, 317, rfl⟩
abbrev main_c_74 : Ref sig .tc := ⟨.hbm, 318, rfl⟩
abbrev main_v124 : Ref sig .tc := ⟨.hbm, 319, rfl⟩
abbrev main_v125 : Ref sig .tc := ⟨.hbm, 320, rfl⟩
abbrev main_c_75 : Ref sig .tc := ⟨.hbm, 321, rfl⟩
abbrev main_v126 : Ref sig .tc := ⟨.hbm, 322, rfl⟩
abbrev main_v127 : Ref sig .tc := ⟨.hbm, 323, rfl⟩
abbrev main_v128 : Ref sig .tc := ⟨.hbm, 324, rfl⟩
abbrev main_v129 : Ref sig .tc := ⟨.hbm, 325, rfl⟩
abbrev main_v130 : Ref sig .tc := ⟨.hbm, 326, rfl⟩
abbrev main_cst_76 : Ref sig .tc := ⟨.hbm, 327, rfl⟩
abbrev main_v131 : Ref sig .tc := ⟨.hbm, 328, rfl⟩
abbrev main_v132 : Ref sig .tc := ⟨.hbm, 329, rfl⟩
abbrev main_cst_77 : Ref sig .tc := ⟨.hbm, 330, rfl⟩
abbrev main_v133 : Ref sig .tc := ⟨.hbm, 331, rfl⟩
abbrev main_v134 : Ref sig .tc := ⟨.hbm, 332, rfl⟩
abbrev main_c_78 : Ref sig .tc := ⟨.hbm, 333, rfl⟩
abbrev main_c_79 : Ref sig .tc := ⟨.hbm, 334, rfl⟩
abbrev main_call23_v0 : Ref sig .tc := ⟨.hbm, 335, rfl⟩
abbrev main_call23_v1 : Ref sig .tc := ⟨.hbm, 336, rfl⟩
abbrev main_call23_v2 : Ref sig .tc := ⟨.hbm, 337, rfl⟩
abbrev main_call23_v3 : Ref sig .tc := ⟨.hbm, 338, rfl⟩
abbrev main_call23_v4 : Ref sig .tc := ⟨.hbm, 339, rfl⟩
abbrev main_v135 : Ref sig .tc := ⟨.hbm, 340, rfl⟩
abbrev main_c_80 : Ref sig .tc := ⟨.hbm, 341, rfl⟩
abbrev main_v136 : Ref sig .tc := ⟨.hbm, 342, rfl⟩
abbrev main_v137 : Ref sig .tc := ⟨.hbm, 343, rfl⟩
abbrev main_c_81 : Ref sig .tc := ⟨.hbm, 344, rfl⟩
abbrev main_v138 : Ref sig .tc := ⟨.hbm, 345, rfl⟩
abbrev main_v139 : Ref sig .tc := ⟨.hbm, 346, rfl⟩
abbrev main_v140 : Ref sig .tc := ⟨.hbm, 347, rfl⟩
abbrev main_v141 : Ref sig .tc := ⟨.hbm, 348, rfl⟩
abbrev main_v142 : Ref sig .tc := ⟨.hbm, 349, rfl⟩
abbrev main_cst_82 : Ref sig .tc := ⟨.hbm, 350, rfl⟩
abbrev main_v143 : Ref sig .tc := ⟨.hbm, 351, rfl⟩
abbrev main_v144 : Ref sig .tc := ⟨.hbm, 352, rfl⟩
abbrev main_cst_83 : Ref sig .tc := ⟨.hbm, 353, rfl⟩
abbrev main_v145 : Ref sig .tc := ⟨.hbm, 354, rfl⟩
abbrev main_v146 : Ref sig .tc := ⟨.hbm, 355, rfl⟩
abbrev main_c_84 : Ref sig .tc := ⟨.hbm, 356, rfl⟩
abbrev main_c_85 : Ref sig .tc := ⟨.hbm, 357, rfl⟩
abbrev main_call24_v0 : Ref sig .tc := ⟨.hbm, 358, rfl⟩
abbrev main_call24_v1 : Ref sig .tc := ⟨.hbm, 359, rfl⟩
abbrev main_call24_v2 : Ref sig .tc := ⟨.hbm, 360, rfl⟩
abbrev main_call24_v3 : Ref sig .tc := ⟨.hbm, 361, rfl⟩
abbrev main_call24_v4 : Ref sig .tc := ⟨.hbm, 362, rfl⟩
abbrev main_v147 : Ref sig .tc := ⟨.hbm, 363, rfl⟩
abbrev main_c_86 : Ref sig .tc := ⟨.hbm, 364, rfl⟩
abbrev main_v148 : Ref sig .tc := ⟨.hbm, 365, rfl⟩
abbrev main_v149 : Ref sig .tc := ⟨.hbm, 366, rfl⟩
abbrev main_c_87 : Ref sig .tc := ⟨.hbm, 367, rfl⟩
abbrev main_v150 : Ref sig .tc := ⟨.hbm, 368, rfl⟩
abbrev main_v151 : Ref sig .tc := ⟨.hbm, 369, rfl⟩
abbrev main_v152 : Ref sig .tc := ⟨.hbm, 370, rfl⟩
abbrev main_v153 : Ref sig .tc := ⟨.hbm, 371, rfl⟩
abbrev main_v154 : Ref sig .tc := ⟨.hbm, 372, rfl⟩
abbrev main_cst_88 : Ref sig .tc := ⟨.hbm, 373, rfl⟩
abbrev main_v155 : Ref sig .tc := ⟨.hbm, 374, rfl⟩
abbrev main_v156 : Ref sig .tc := ⟨.hbm, 375, rfl⟩
abbrev main_cst_89 : Ref sig .tc := ⟨.hbm, 376, rfl⟩
abbrev main_v157 : Ref sig .tc := ⟨.hbm, 377, rfl⟩
abbrev main_v158 : Ref sig .tc := ⟨.hbm, 378, rfl⟩
abbrev main_c_90 : Ref sig .tc := ⟨.hbm, 379, rfl⟩
abbrev main_c_91 : Ref sig .tc := ⟨.hbm, 380, rfl⟩
abbrev main_call25_v0 : Ref sig .tc := ⟨.hbm, 381, rfl⟩
abbrev main_call25_v1 : Ref sig .tc := ⟨.hbm, 382, rfl⟩
abbrev main_call25_v2 : Ref sig .tc := ⟨.hbm, 383, rfl⟩
abbrev main_call25_v3 : Ref sig .tc := ⟨.hbm, 384, rfl⟩
abbrev main_call25_v4 : Ref sig .tc := ⟨.hbm, 385, rfl⟩
abbrev main_v159 : Ref sig .tc := ⟨.hbm, 386, rfl⟩
abbrev main_c_92 : Ref sig .tc := ⟨.hbm, 387, rfl⟩
abbrev main_v160 : Ref sig .tc := ⟨.hbm, 388, rfl⟩
abbrev main_v161 : Ref sig .tc := ⟨.hbm, 389, rfl⟩
abbrev main_c_93 : Ref sig .tc := ⟨.hbm, 390, rfl⟩
abbrev main_v162 : Ref sig .tc := ⟨.hbm, 391, rfl⟩
abbrev main_v163 : Ref sig .tc := ⟨.hbm, 392, rfl⟩
abbrev main_v164 : Ref sig .tc := ⟨.hbm, 393, rfl⟩
abbrev main_v165 : Ref sig .tc := ⟨.hbm, 394, rfl⟩
abbrev main_v166 : Ref sig .tc := ⟨.hbm, 395, rfl⟩
abbrev main_cst_94 : Ref sig .tc := ⟨.hbm, 396, rfl⟩
abbrev main_v167 : Ref sig .tc := ⟨.hbm, 397, rfl⟩
abbrev main_v168 : Ref sig .tc := ⟨.hbm, 398, rfl⟩
abbrev main_cst_95 : Ref sig .tc := ⟨.hbm, 399, rfl⟩
abbrev main_v169 : Ref sig .tc := ⟨.hbm, 400, rfl⟩
abbrev main_v170 : Ref sig .tc := ⟨.hbm, 401, rfl⟩
abbrev main_v171 : Ref sig .tc := ⟨.hbm, 402, rfl⟩
abbrev main_v172 : Ref sig .tc := ⟨.hbm, 403, rfl⟩
abbrev main_v173 : Ref sig .tc := ⟨.hbm, 404, rfl⟩
abbrev main_v174 : Ref sig .tc := ⟨.hbm, 405, rfl⟩
abbrev main_v175 : Ref sig .tc := ⟨.hbm, 406, rfl⟩
abbrev main_v176 : Ref sig .tc := ⟨.hbm, 407, rfl⟩
abbrev main_v177_0 : Ref sig .tc := ⟨.hbm, 408, rfl⟩
abbrev main_v177_1 : Ref sig .tc := ⟨.hbm, 409, rfl⟩
abbrev main_v178 : Ref sig .tc := ⟨.hbm, 410, rfl⟩
abbrev main_v179 : Ref sig .tc := ⟨.hbm, 411, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg3_1 : Ref sig .tc := ⟨.vmem, 25, rfl⟩
abbrev cc2_scratch0 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc3_scratch0 : Ref sig .tc := ⟨.vmem, 35, rfl⟩
abbrev cc4_stg0_0 : Ref sig .tc := ⟨.vmem, 36, rfl⟩
abbrev cc4_stg1_0 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg5_0 : Ref sig .tc := ⟨.vmem, 41, rfl⟩
abbrev cc4_stg6_0 : Ref sig .tc := ⟨.vmem, 42, rfl⟩
abbrev cc4_stg7_0 : Ref sig .tc := ⟨.vmem, 43, rfl⟩
abbrev cc4_stg8_0 : Ref sig .tc := ⟨.vmem, 44, rfl⟩
abbrev cc4_stg9_0 : Ref sig .tc := ⟨.vmem, 45, rfl⟩
abbrev cc4_stg10_0 : Ref sig .tc := ⟨.vmem, 46, rfl⟩
abbrev cc4_stg11_0 : Ref sig .tc := ⟨.vmem, 47, rfl⟩
abbrev cc4_stg12_0 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem3_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc2_sem3_0 : DmaSem sig := 22
abbrev cc2_sem3_1 : DmaSem sig := 23
abbrev cc3_sem0_0 : DmaSem sig := 24
abbrev cc3_sem0_1 : DmaSem sig := 25
abbrev cc3_sem1_0 : DmaSem sig := 26
abbrev cc3_sem1_1 : DmaSem sig := 27
abbrev cc3_sem2_0 : DmaSem sig := 28
abbrev cc3_sem2_1 : DmaSem sig := 29
abbrev cc3_sem3_0 : DmaSem sig := 30
abbrev cc3_sem3_1 : DmaSem sig := 31
abbrev cc4_sem0_0 : DmaSem sig := 32
abbrev cc4_sem1_0 : DmaSem sig := 33
abbrev cc4_sem2_0 : DmaSem sig := 34
abbrev cc4_sem3_0 : DmaSem sig := 35
abbrev cc4_sem4_0 : DmaSem sig := 36
abbrev cc4_sem5_0 : DmaSem sig := 37
abbrev cc4_sem6_0 : DmaSem sig := 38
abbrev cc4_sem7_0 : DmaSem sig := 39
abbrev cc4_sem8_0 : DmaSem sig := 40
abbrev cc4_sem9_0 : DmaSem sig := 41
abbrev cc4_sem10_0 : DmaSem sig := 42
abbrev cc4_sem11_0 : DmaSem sig := 43
abbrev cc4_sem12_0 : DmaSem sig := 44

abbrev nD : Nat := 1
abbrev τ : Topo := Topo.v7x

variable {F : FTy → Type} [FloatOps F]

abbrev grid0 : Pipeline.Grid := ⟨3, ![2, 6, 4], ![false, false, false]⟩

def k0_cond2 (i : grid0.Coords) : BitVec 1 :=
  let arg1 : BitVec 32 := BitVec.ofNat 32 (i 1).val
  let c5_i32 : BitVec 32 := 5#32
  let v36 : BitVec 1 := Scalar.cmpi .eq arg1 c5_i32
  let arg2 : BitVec 32 := BitVec.ofNat 32 (i 2).val
  let c3_i32 : BitVec 32 := 3#32
  let v37 : BitVec 1 := Scalar.cmpi .eq arg2 c3_i32
  let v38 : BitVec 1 := Scalar.andi v36 v37
  let v39 : BitVec 32 := Scalar.extui v38
  let c0_i32_12 : BitVec 32 := 0#32
  let v40 : BitVec 1 := Scalar.cmpi .ne v39 c0_i32_12
  v40

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c6_i32 : BitVec 32 := 6#32
  let v0 : BitVec 32 := Scalar.muli arg0 c6_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S152x100 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S152x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x100x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev grid1 : Pipeline.Grid := ⟨3, ![2, 11, 12], ![false, false, false]⟩

def k1_cond2 (i : grid1.Coords) : BitVec 1 :=
  let arg1 : BitVec 32 := BitVec.ofNat 32 (i 1).val
  let c10_i32 : BitVec 32 := 10#32
  let v36 : BitVec 1 := Scalar.cmpi .eq arg1 c10_i32
  let arg2 : BitVec 32 := BitVec.ofNat 32 (i 2).val
  let c11_i32 : BitVec 32 := 11#32
  let v37 : BitVec 1 := Scalar.cmpi .eq arg2 c11_i32
  let v38 : BitVec 1 := Scalar.andi v36 v37
  let v39 : BitVec 32 := Scalar.extui v38
  let c0_i32_12 : BitVec 32 := 0#32
  let v40 : BitVec 1 := Scalar.cmpi .ne v39 c0_i32_12
  v40

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S72x200 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, false, true]

abbrev stage1_2 : Fin 2 → Memref sig .tc .vmem S72x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x200x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false, false]

abbrev grid2 : Pipeline.Grid := ⟨3, ![2, 3, 2], ![false, false, false]⟩

def k2_cond2 (i : grid2.Coords) : BitVec 1 :=
  let arg1 : BitVec 32 := BitVec.ofNat 32 (i 1).val
  let c2_i32 : BitVec 32 := 2#32
  let v36 : BitVec 1 := Scalar.cmpi .eq arg1 c2_i32
  let arg2 : BitVec 32 := BitVec.ofNat 32 (i 2).val
  let c1_i32 : BitVec 32 := 1#32
  let v37 : BitVec 1 := Scalar.cmpi .eq arg2 c1_i32
  let v38 : BitVec 1 := Scalar.andi v36 v37
  let v39 : BitVec 32 := Scalar.extui v38
  let c0_i32_12 : BitVec 32 := 0#32
  let v40 : BitVec 1 := Scalar.cmpi .ne v39 c0_i32_12
  v40

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc2_transform_3 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S256x50 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, false]

abbrev stage2_1 : Fin 2 → Memref sig .tc .vmem S256x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, false, true]

abbrev stage2_2 : Fin 2 → Memref sig .tc .vmem S256x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x50x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false, false]

abbrev grid3 : Pipeline.Grid := ⟨3, ![2, 3, 6], ![false, false, false]⟩

def k3_cond2 (i : grid3.Coords) : BitVec 1 :=
  let arg1 : BitVec 32 := BitVec.ofNat 32 (i 1).val
  let c2_i32 : BitVec 32 := 2#32
  let v36 : BitVec 1 := Scalar.cmpi .eq arg1 c2_i32
  let arg2 : BitVec 32 := BitVec.ofNat 32 (i 2).val
  let c5_i32 : BitVec 32 := 5#32
  let v37 : BitVec 1 := Scalar.cmpi .eq arg2 c5_i32
  let v38 : BitVec 1 := Scalar.andi v36 v37
  let v39 : BitVec 32 := Scalar.extui v38
  let c0_i32_12 : BitVec 32 := 0#32
  let v40 : BitVec 1 := Scalar.cmpi .ne v39 c0_i32_12
  v40

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.muli arg0 c3_i32
  let v1 : BitVec 32 := Scalar.addi v0 arg1
  let c0_i32 : BitVec 32 := 0#32
  let c0_i32_0 : BitVec 32 := 0#32
  ![v1.toNat, c0_i32.toNat]

def cc3_transform_3 (i : grid3.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage3_0 : Fin 2 → Memref sig .tc .vmem S256x50 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true, false]

abbrev stage3_1 : Fin 2 → Memref sig .tc .vmem S256x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, false, true]

abbrev stage3_2 : Fin 2 → Memref sig .tc .vmem S256x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev stage3_3 : Fin 2 → Memref sig .tc .vmem S1x50x1 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false, false]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_11 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_12 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S1x435 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S435x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x256 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x256 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S256x256 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x256 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x128 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x128 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 1 → Memref sig .tc .vmem S128x1 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x1 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev stage4_11 : Fin 1 → Memref sig .tc .vmem S1x1 .f32 := fun | 0 => Memref.whole cc4_stg11_0 | ⟨_ + 1, h⟩ => absurd h (Nat.not_lt.2 (Nat.le_add_left _ _))
abbrev sem4_11 : Fin 1 → DmaSem sig := fun | 0 => cc4_sem11_0 | ⟨_ + 1, h⟩ => absurd h (Nat.not_lt.2 (Nat.le_add_left _ _))
abbrev reads4_11 : Fin grid4.rank → Bool := ![false]

abbrev stage4_12 : Fin 1 → Memref sig .tc .vmem S1x1 .f32 := fun | 0 => Memref.whole cc4_stg12_0 | ⟨_ + 1, h⟩ => absurd h (Nat.not_lt.2 (Nat.le_add_left _ _))
abbrev sem4_12 : Fin 1 → DmaSem sig := fun | 0 => cc4_sem12_0 | ⟨_ + 1, h⟩ => absurd h (Nat.not_lt.2 (Nat.le_add_left _ _))
abbrev reads4_12 : Fin grid4.rank → Bool := ![false]

class Facts₀ : Prop where
  reducesTo_S1000x128_S1000_d1 : S1000x128.ReducesTo [1] S1000
  h_S_ : 0 < S_.numel
  bcast_S_S1000 : S_.BroadcastsInDim S1000 (![] : Fin 0 → Fin S1000.rank)
  reducesTo_S3000x128_S3000_d1 : S3000x128.ReducesTo [1] S3000
  bcast_S_S3000 : S_.BroadcastsInDim S3000 (![] : Fin 0 → Fin S3000.rank)
  reducesTo_S500x128_S500_d1 : S500x128.ReducesTo [1] S500
  bcast_S_S500 : S_.BroadcastsInDim S500 (![] : Fin 0 → Fin S500.rank)
  reducesTo_S1500x128_S1500_d1 : S1500x128.ReducesTo [1] S1500
  bcast_S_S1500 : S_.BroadcastsInDim S1500 (![] : Fin 0 → Fin S1500.rank)
  reducesTo_S700x128_S700_d1 : S700x128.ReducesTo [1] S700
  bcast_S_S700 : S_.BroadcastsInDim S700 (![] : Fin 0 → Fin S700.rank)
  reducesTo_S2000x128_S2000_d1 : S2000x128.ReducesTo [1] S2000
  bcast_S_S2000 : S_.BroadcastsInDim S2000 (![] : Fin 0 → Fin S2000.rank)
  reducesTo_S2x128_S2_d1 : S2x128.ReducesTo [1] S2
  bcast_S_S2 : S_.BroadcastsInDim S2 (![] : Fin 0 → Fin S2.rank)
  reducesTo_S10x128_S10_d1 : S10x128.ReducesTo [1] S10
  bcast_S_S10 : S_.BroadcastsInDim S10 (![] : Fin 0 → Fin S10.rank)
  reducesTo_S5x128_S5_d1 : S5x128.ReducesTo [1] S5
  bcast_S_S5 : S_.BroadcastsInDim S5 (![] : Fin 0 → Fin S5.rank)
  reducesTo_S100x128_S100_d1 : S100x128.ReducesTo [1] S100
  bcast_S_S100 : S_.BroadcastsInDim S100 (![] : Fin 0 → Fin S100.rank)
  bcast_S_S64x24x100 : S_.BroadcastsInDim S64x24x100 (![] : Fin 0 → Fin S64x24x100.rank)
  shapeCasts_S64x24x100_S1536x100 : S64x24x100.ShapeCasts S1536x100
  bcast_S_S64x24x200 : S_.BroadcastsInDim S64x24x200 (![] : Fin 0 → Fin S64x24x200.rank)
  shapeCasts_S64x24x200_S1536x200 : S64x24x200.ShapeCasts S1536x200
  bcast_S_S64x24x50 : S_.BroadcastsInDim S64x24x50 (![] : Fin 0 → Fin S64x24x50.rank)
  shapeCasts_S64x24x50_S1536x50 : S64x24x50.ShapeCasts S1536x50
  bcast_S_S64x24 : S_.BroadcastsInDim S64x24 (![] : Fin 0 → Fin S64x24.rank)
  shapeCasts_S64x24_S1536x1 : S64x24.ShapeCasts S1536x1
  bcast_S_S64x30 : S_.BroadcastsInDim S64x30 (![] : Fin 0 → Fin S64x30.rank)
  slices_S64x4_S64x1_0_0 : S64x4.Slices ![0, 0] S64x1
  shapeCasts_S64x1_S64 : S64x1.ShapeCasts S64
  bcast_S_S64 : S_.BroadcastsInDim S64 (![] : Fin 0 → Fin S64.rank)
  shapeCasts_S64_S64x1 : S64.ShapeCasts S64x1
  slices_S64x4_S64x1_0_1 : S64x4.Slices ![0, 1] S64x1
  slices_S64x4_S64x1_0_2 : S64x4.Slices ![0, 2] S64x1
  slices_S64x4_S64x1_0_3 : S64x4.Slices ![0, 3] S64x1
  bcast_S_S1536x100 : S_.BroadcastsInDim S1536x100 (![] : Fin 0 → Fin S1536x100.rank)
  pads_S1000_S1024_0240 : S1000.Pads (![0] : Fin 1 → Nat) ![24] ![0] S1024
  shapeCasts_S1024_S1024x1 : S1024.ShapeCasts S1024x1
  pads_S1536x100_S1824x100_02880_000 : S1536x100.Pads (![0, 0] : Fin 2 → Nat) ![288, 0] ![0, 0] S1824x100
  bcast_S_S1824x1 : S_.BroadcastsInDim S1824x1 (![] : Fin 0 → Fin S1824x1.rank)
  inb_S100x1_S100x1_0_0 : ∀ a, (![0, 0] : Fin 2 → Nat) a + S100x1.size a ≤ S100x1.size a
  h_S100x1 : 0 < S100x1.numel
  shapeCasts_S100x1_S100x1 : S100x1.ShapeCasts S100x1
  inb_S152x100_S152x100_0_0 : ∀ a, (![0, 0] : Fin 2 → Nat) a + S152x100.size a ≤ S152x100.size a
  h_S152x100 : 0 < S152x100.numel
  shapeCasts_S152x100_S152x100 : S152x100.ShapeCasts S152x100
  inb_S152x1_S152x1_0_0 : ∀ a, (![0, 0] : Fin 2 → Nat) a + S152x1.size a ≤ S152x1.size a
  h_S152x1 : 0 < S152x1.numel
  shapeCasts_S152x1_S152x1 : S152x1.ShapeCasts S152x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S1x1x256_d2_w32 : S1x1x256.Iotas .tc 32 [2]
  shapeCasts_S152x100_S152x100x1 : S152x100.ShapeCasts S152x100x1
  broadcasts_S152x100x1_S152x100x256 : S152x100x1.Broadcasts S152x100x256
  broadcasts_S1x1x256_S152x100x256 : S1x1x256.Broadcasts S152x100x256
  natLt_1_32 : 1 < 32
  bitsLt_bf16_f32 : FTy.bits .bf16 < FTy.bits .f32
  shapeCasts_S152x1_S152x1x1 : S152x1.ShapeCasts S152x1x1
  broadcasts_S152x1x1_S152x100x256 : S152x1x1.Broadcasts S152x100x256
  reduces_S152x100x256_S100x256 : S152x100x256.Reduces [0] S100x256
  inb_S1x100x1_S1x100x1_0_0_0 : ∀ a, (![0, 0, 0] : Fin 3 → Nat) a + S1x100x1.size a ≤ S1x100x1.size a
  h_S1x100x1 : 0 < S1x100x1.numel
  shapeCasts_S1x100x1_S100x1 : S1x100x1.ShapeCasts S100x1
  shapeCasts_S100x1_S1x100x1 : S100x1.ShapeCasts S1x100x1
  reducesTo_S2x100x1_S100x1_d0 : S2x100x1.ReducesTo [0] S100x1
  transposes_S100x1_S1x100_1_0 : S100x1.Transposes [1, 0] S1x100
  bcast_S_S1536x200 : S_.BroadcastsInDim S1536x200 (![] : Fin 0 → Fin S1536x200.rank)
  pads_S3000_S3072_0720 : S3000.Pads (![0] : Fin 1 → Nat) ![72] ![0] S3072
  shapeCasts_S3072_S3072x1 : S3072.ShapeCasts S3072x1
  pads_S1536x200_S1584x200_0480_000 : S1536x200.Pads (![0, 0] : Fin 2 → Nat) ![48, 0] ![0, 0] S1584x200
  bcast_S_S1584x1 : S_.BroadcastsInDim S1584x1 (![] : Fin 0 → Fin S1584x1.rank)
  inb_S200x1_S200x1_0_0 : ∀ a, (![0, 0] : Fin 2 → Nat) a + S200x1.size a ≤ S200x1.size a
  h_S200x1 : 0 < S200x1.numel
  shapeCasts_S200x1_S200x1 : S200x1.ShapeCasts S200x1
  inb_S72x200_S72x200_0_0 : ∀ a, (![0, 0] : Fin 2 → Nat) a + S72x200.size a ≤ S72x200.size a
  h_S72x200 : 0 < S72x200.numel
  shapeCasts_S72x200_S72x200 : S72x200.ShapeCasts S72x200
  inb_S72x1_S72x1_0_0 : ∀ a, (![0, 0] : Fin 2 → Nat) a + S72x1.size a ≤ S72x1.size a
  h_S72x1 : 0 < S72x1.numel
  shapeCasts_S72x1_S72x1 : S72x1.ShapeCasts S72x1
  shapeCasts_S72x200_S72x200x1 : S72x200.ShapeCasts S72x200x1
  broadcasts_S72x200x1_S72x200x256 : S72x200x1.Broadcasts S72x200x256
  broadcasts_S1x1x256_S72x200x256 : S1x1x256.Broadcasts S72x200x256
  shapeCasts_S72x1_S72x1x1 : S72x1.ShapeCasts S72x1x1
  broadcasts_S72x1x1_S72x200x256 : S72x1x1.Broadcasts S72x200x256
  reduces_S72x200x256_S200x256 : S72x200x256.Reduces [0] S200x256
  inb_S1x200x1_S1x200x1_0_0_0 : ∀ a, (![0, 0, 0] : Fin 3 → Nat) a + S1x200x1.size a ≤ S1x200x1.size a
  h_S1x200x1 : 0 < S1x200x1.numel
  shapeCasts_S1x200x1_S200x1 : S1x200x1.ShapeCasts S200x1
  shapeCasts_S200x1_S1x200x1 : S200x1.ShapeCasts S1x200x1
  reducesTo_S2x200x1_S200x1_d0 : S2x200x1.ReducesTo [0] S200x1
  transposes_S200x1_S1x200_1_0 : S200x1.Transposes [1, 0] S1x200
  bcast_S_S1536x50 : S_.BroadcastsInDim S1536x50 (![] : Fin 0 → Fin S1536x50.rank)
  pads_S500_S512_0120 : S500.Pads (![0] : Fin 1 → Nat) ![12] ![0] S512
  shapeCasts_S512_S512x1 : S512.ShapeCasts S512x1
  bcast_S_S1536x1 : S_.BroadcastsInDim S1536x1 (![] : Fin 0 → Fin S1536x1.rank)
  inb_S50x1_S50x1_0_0 : ∀ a, (![0, 0] : Fin 2 → Nat) a + S50x1.size a ≤ S50x1.size a
  h_S50x1 : 0 < S50x1.numel
  shapeCasts_S50x1_S50x1 : S50x1.ShapeCasts S50x1
  inb_S256x50_S256x50_0_0 : ∀ a, (![0, 0] : Fin 2 → Nat) a + S256x50.size a ≤ S256x50.size a
  h_S256x50 : 0 < S256x50.numel
  shapeCasts_S256x50_S256x50 : S256x50.ShapeCasts S256x50
  shapeCasts_S256x50_S256x50x1 : S256x50.ShapeCasts S256x50x1
  broadcasts_S256x50x1_S256x50x256 : S256x50x1.Broadcasts S256x50x256
  broadcasts_S1x1x256_S256x50x256 : S1x1x256.Broadcasts S256x50x256
  shapeCasts_S256x1_S256x1x1 : S256x1.ShapeCasts S256x1x1
  broadcasts_S256x1x1_S256x50x256 : S256x1x1.Broadcasts S256x50x256
  reduces_S256x50x256_S50x256 : S256x50x256.Reduces [0] S50x256
  inb_S1x50x1_S1x50x1_0_0_0 : ∀ a, (![0, 0, 0] : Fin 3 → Nat) a + S1x50x1.size a ≤ S1x50x1.size a
  h_S1x50x1 : 0 < S1x50x1.numel
  shapeCasts_S1x50x1_S50x1 : S1x50x1.ShapeCasts S50x1
  shapeCasts_S50x1_S1x50x1 : S50x1.ShapeCasts S1x50x1
  reducesTo_S2x50x1_S50x1_d0 : S2x50x1.ReducesTo [0] S50x1
  transposes_S50x1_S1x50_1_0 : S50x1.Transposes [1, 0] S1x50
  pads_S1500_S1536_0360 : S1500.Pads (![0] : Fin 1 → Nat) ![36] ![0] S1536
  shapeCasts_S1536_S1536x1 : S1536.ShapeCasts S1536x1
  bcast_S1536x1_S1536x1x1_0_1 : S1536x1.BroadcastsInDim S1536x1x1 (![0, 1] : Fin 2 → Fin S1536x1x1.rank)
  reducesTo_S1536x1_S1_d0 : S1536x1.ReducesTo [0] S1
  bcast_S1_S1x1_1 : S1.BroadcastsInDim S1x1 (![1] : Fin 1 → Fin S1x1.rank)
  bcast_S_S1x1 : S_.BroadcastsInDim S1x1 (![] : Fin 0 → Fin S1x1.rank)
  bcast_S64x30_S64x30x1_0_1 : S64x30.BroadcastsInDim S64x30x1 (![0, 1] : Fin 2 → Fin S64x30x1.rank)
  reducesTo_S64x30_S30_d0 : S64x30.ReducesTo [0] S30
  bcast_S30_S1x30_1 : S30.BroadcastsInDim S1x30 (![1] : Fin 1 → Fin S1x30.rank)
  bcast_S_S1x30 : S_.BroadcastsInDim S1x30 (![] : Fin 0 → Fin S1x30.rank)
  bcast_S_S64x1 : S_.BroadcastsInDim S64x1 (![] : Fin 0 → Fin S64x1.rank)
  bcast_S64x1_S64x1x1_0_1 : S64x1.BroadcastsInDim S64x1x1 (![0, 1] : Fin 2 → Fin S64x1x1.rank)
  reducesTo_S64x1_S1_d0 : S64x1.ReducesTo [0] S1
  concatenates_S1x100_S1x200_S1x50_S1x50_S1x1_S1x30_S1x1_S1x1_S1x1_S1x1_S1x435_d1 : Shape.Concatenates [S1x100, S1x200, S1x50, S1x50, S1x1, S1x30, S1x1, S1x1, S1x1, S1x1] S1x435 1
  shapeCasts_S128_S1x128 : S128.ShapeCasts S1x128
  shapeCasts_S256_S1x256 : S256.ShapeCasts S1x256
  shapeCasts_S1_S1x1 : S1.ShapeCasts S1x1
  inb_S1x435_S1x435_0_0 : ∀ a, (![0, 0] : Fin 2 → Nat) a + S1x435.size a ≤ S1x435.size a
  h_S1x435 : 0 < S1x435.numel
  shapeCasts_S1x435_S1x435 : S1x435.ShapeCasts S1x435
  inb_S435x128_S435x128_0_0 : ∀ a, (![0, 0] : Fin 2 → Nat) a + S435x128.size a ≤ S435x128.size a
  h_S435x128 : 0 < S435x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S128x1_S128x1_0_0 : ∀ a, (![0, 0] : Fin 2 → Nat) a + S128x1.size a ≤ S128x1.size a
  h_S128x1 : 0 < S128x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  bcast_S1x1_S64x1_0_1 : S1x1.BroadcastsInDim S64x1 (![0, 1] : Fin 2 → Fin S64x1.rank)
  dot_S100x256_S256x1_S100x1_1_0_0_1_n_n_wf : DotDims.WF S100x256 S256x1 S100x1 [1] [0] [0] [1] [] []
  dot_S200x256_S256x1_S200x1_1_0_0_1_n_n_wf : DotDims.WF S200x256 S256x1 S200x1 [1] [0] [0] [1] [] []
  dot_S50x256_S256x1_S50x1_1_0_0_1_n_n_wf : DotDims.WF S50x256 S256x1 S50x1 [1] [0] [0] [1] [] []
  gather_S700_S1536x1x1_S1536x1_n_0_n_n_0_2_1_wf : GatherDims.WF S700 S1536x1x1 S1536x1 [] [0] [] [0] [] 2 ![1]
  gather_S2000_S64x30x1_S64x30_n_0_n_n_0_2_1_wf : GatherDims.WF S2000 S64x30x1 S64x30 [] [0] [] [0] [] 2 ![1]
  gather_S2_S64x1x1_S64x1_n_0_n_n_0_2_1_wf : GatherDims.WF S2 S64x1x1 S64x1 [] [0] [] [0] [] 2 ![1]
  gather_S10_S64x1x1_S64x1_n_0_n_n_0_2_1_wf : GatherDims.WF S10 S64x1x1 S64x1 [] [0] [] [0] [] 2 ![1]
  gather_S5_S64x1x1_S64x1_n_0_n_n_0_2_1_wf : GatherDims.WF S5 S64x1x1 S64x1 [] [0] [] [0] [] 2 ![1]
  gather_S100_S64x1x1_S64x1_n_0_n_n_0_2_1_wf : GatherDims.WF S100 S64x1x1 S64x1 [] [0] [] [0] [] 2 ![1]
  dot_S1x435_S435x128_S1x128_1_0_0_1_n_n_wf : DotDims.WF S1x435 S435x128 S1x128 [1] [0] [0] [1] [] []
  dot_S1x128_S128x256_S1x256_1_0_0_1_n_n_wf : DotDims.WF S1x128 S128x256 S1x256 [1] [0] [0] [1] [] []
  dot_S1x256_S256x256_S1x256_1_0_0_1_n_n_wf : DotDims.WF S1x256 S256x256 S1x256 [1] [0] [0] [1] [] []
  dot_S1x256_S256x128_S1x128_1_0_0_1_n_n_wf : DotDims.WF S1x256 S256x128 S1x128 [1] [0] [0] [1] [] []
  dot_S1x128_S128x1_S1x1_1_0_0_1_n_n_wf : DotDims.WF S1x128 S128x1 S1x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S152x100.size a ≤ S1824x100.size a
  hwx0_0 : ∀ i : grid0.Coords, EltTy.bits .i32 = 32 ∨ (Rect.block (s := S1824x100) S152x100.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S1024x1.size a
  hwx0_1 : ∀ i : grid0.Coords, EltTy.bits .f32 = 32 ∨ (Rect.block (s := S1024x1) S256x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S152x1.size a ≤ S1824x1.size a
  hwx0_2 : ∀ i : grid0.Coords, EltTy.bits .f32 = 32 ∨ (Rect.block (s := S1824x1) S152x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x100x1.size a ≤ S2x100x1.size a
  hwx0_3 : ∀ i : grid0.Coords, EltTy.bits .f32 = 32 ∨ (Rect.block (s := S2x100x1) S1x100x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S72x200.size a ≤ S1584x200.size a
  hwx1_0 : ∀ i : grid1.Coords, EltTy.bits .i32 = 32 ∨ (Rect.block (s := S1584x200) S72x200.size (cc1_transform_0 i) (hinb1_0 i)).WholeWords (EltTy.packing .i32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S256x1.size a ≤ S3072x1.size a
  hwx1_1 : ∀ i : grid1.Coords, EltTy.bits .f32 = 32 ∨ (Rect.block (s := S3072x1) S256x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S72x1.size a ≤ S1584x1.size a
  hwx1_2 : ∀ i : grid1.Coords, EltTy.bits .f32 = 32 ∨ (Rect.block (s := S1584x1) S72x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x200x1.size a ≤ S2x200x1.size a
  hwx1_3 : ∀ i : grid1.Coords, EltTy.bits .f32 = 32 ∨ (Rect.block (s := S2x200x1) S1x200x1.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x50.size a ≤ S1536x50.size a
  hwx2_0 : ∀ i : grid2.Coords, EltTy.bits .i32 = 32 ∨ (Rect.block (s := S1536x50) S256x50.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S256x1.size a ≤ S512x1.size a
  hwx2_1 : ∀ i : grid2.Coords, EltTy.bits .f32 = 32 ∨ (Rect.block (s := S512x1) S256x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x1.size a ≤ S1536x1.size a
  hwx2_2 : ∀ i : grid2.Coords, EltTy.bits .f32 = 32 ∨ (Rect.block (s := S1536x1) S256x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x50x1.size a ≤ S2x50x1.size a
  hwx2_3 : ∀ i : grid2.Coords, EltTy.bits .f32 = 32 ∨ (Rect.block (s := S2x50x1) S1x50x1.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S256x50.size a ≤ S1536x50.size a
  hwx3_0 : ∀ i : grid3.Coords, EltTy.bits .i32 = 32 ∨ (Rect.block (s := S1536x50) S256x50.size (cc3_transform_0 i) (hinb3_0 i)).WholeWords (EltTy.packing .i32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S256x1.size a ≤ S1536x1.size a
  hwx3_1 : ∀ i : grid3.Coords, EltTy.bits .f32 = 32 ∨ (Rect.block (s := S1536x1) S256x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S256x1.size a ≤ S1536x1.size a
  hwx3_2 : ∀ i : grid3.Coords, EltTy.bits .f32 = 32 ∨ (Rect.block (s := S1536x1) S256x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1x50x1.size a ≤ S2x50x1.size a
  hwx3_3 : ∀ i : grid3.Coords, EltTy.bits .f32 = 32 ∨ (Rect.block (s := S2x50x1) S1x50x1.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S1x435.size a ≤ S1x435.size a
  hwx4_0 : ∀ i : grid4.Coords, EltTy.bits .f32 = 32 ∨ (Rect.block (s := S1x435) S1x435.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S435x128.size a ≤ S435x128.size a
  hwx4_1 : ∀ i : grid4.Coords, EltTy.bits .f32 = 32 ∨ (Rect.block (s := S435x128) S435x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x256.size a ≤ S128x256.size a
  hwx4_3 : ∀ i : grid4.Coords, EltTy.bits .f32 = 32 ∨ (Rect.block (s := S128x256) S128x256.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x256.size a ≤ S1x256.size a
  hwx4_4 : ∀ i : grid4.Coords, EltTy.bits .f32 = 32 ∨ (Rect.block (s := S1x256) S1x256.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S256x256.size a ≤ S256x256.size a
  hwx4_5 : ∀ i : grid4.Coords, EltTy.bits .f32 = 32 ∨ (Rect.block (s := S256x256) S256x256.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x256.size a ≤ S1x256.size a
  hwx4_6 : ∀ i : grid4.Coords, EltTy.bits .f32 = 32 ∨ (Rect.block (s := S1x256) S1x256.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x128.size a ≤ S256x128.size a
  hwx4_7 : ∀ i : grid4.Coords, EltTy.bits .f32 = 32 ∨ (Rect.block (s := S256x128) S256x128.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x128.size a ≤ S1x128.size a
  hwx4_8 : ∀ i : grid4.Coords, EltTy.bits .f32 = 32 ∨ (Rect.block (s := S1x128) S1x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S128x1.size a ≤ S128x1.size a
  hwx4_9 : ∀ i : grid4.Coords, EltTy.bits .f32 = 32 ∨ (Rect.block (s := S128x1) S128x1.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x1.size a ≤ S1x1.size a
  hwx4_10 : ∀ i : grid4.Coords, EltTy.bits .f32 = 32 ∨ (Rect.block (s := S1x1) S1x1.size (cc4_transform_10 i) (hinb4_10 i)).WholeWords (EltTy.packing .f32)
  hstage4_11 : ∀ j, (stage4_11 j).IsWhole
  nbuf4_11 : grid4.bufCount reads4_11 true = 1
  hreads4_11 : ∀ i i' : grid4.Coords, (∀ a, reads4_11 a = true → i a = i' a) → cc4_transform_11 i = cc4_transform_11 i'
  hinb4_11 : ∀ (i : grid4.Coords) a, (cc4_transform_11 i a + 1) * S1x1.size a ≤ S1x1.size a
  hwx4_11 : ∀ i : grid4.Coords, EltTy.bits .f32 = 32 ∨ (Rect.block (s := S1x1) S1x1.size (cc4_transform_11 i) (hinb4_11 i)).WholeWords (EltTy.packing .f32)
  hstage4_12 : ∀ j, (stage4_12 j).IsWhole
  nbuf4_12 : grid4.bufCount reads4_12 true = 1
  hreads4_12 : ∀ i i' : grid4.Coords, (∀ a, reads4_12 a = true → i a = i' a) → cc4_transform_12 i = cc4_transform_12 i'
  hinb4_12 : ∀ (i : grid4.Coords) a, (cc4_transform_12 i a + 1) * S1x1.size a ≤ S1x1.size a
  hwx4_12 : ∀ i : grid4.Coords, EltTy.bits .f32 = 32 ∨ (Rect.block (s := S1x1) S1x1.size (cc4_transform_12 i) (hinb4_12 i)).WholeWords (EltTy.packing .f32)

variable [Facts₀]

def dot_S100x256_S256x1_S100x1_1_0_0_1_n_n : DotDims S100x256 S256x1 S100x1 where
  lhsContracting := [1]
  rhsContracting := [0]
  lhsNonContracting := [0]
  rhsNonContracting := [1]
  lhsBatch := []
  rhsBatch := []
  wf := dot_S100x256_S256x1_S100x1_1_0_0_1_n_n_wf
def dot_S200x256_S256x1_S200x1_1_0_0_1_n_n : DotDims S200x256 S256x1 S200x1 where
  lhsContracting := [1]
  rhsContracting := [0]
  lhsNonContracting := [0]
  rhsNonContracting := [1]
  lhsBatch := []
  rhsBatch := []
  wf := dot_S200x256_S256x1_S200x1_1_0_0_1_n_n_wf
def dot_S50x256_S256x1_S50x1_1_0_0_1_n_n : DotDims S50x256 S256x1 S50x1 where
  lhsContracting := [1]
  rhsContracting := [0]
  lhsNonContracting := [0]
  rhsNonContracting := [1]
  lhsBatch := []
  rhsBatch := []
  wf := dot_S50x256_S256x1_S50x1_1_0_0_1_n_n_wf
def gather_S700_S1536x1x1_S1536x1_n_0_n_n_0_2_1 : GatherDims S700 S1536x1x1 S1536x1 where
  offsetDims := []
  collapsedSliceDims := [0]
  operandBatchingDims := []
  startIndicesBatchingDims := []
  startIndexMap := [0]
  indexVectorDim := 2
  sliceSizes := ![1]
  wf := gather_S700_S1536x1x1_S1536x1_n_0_n_n_0_2_1_wf
def gather_S2000_S64x30x1_S64x30_n_0_n_n_0_2_1 : GatherDims S2000 S64x30x1 S64x30 where
  offsetDims := []
  collapsedSliceDims := [0]
  operandBatchingDims := []
  startIndicesBatchingDims := []
  startIndexMap := [0]
  indexVectorDim := 2
  sliceSizes := ![1]
  wf := gather_S2000_S64x30x1_S64x30_n_0_n_n_0_2_1_wf
def gather_S2_S64x1x1_S64x1_n_0_n_n_0_2_1 : GatherDims S2 S64x1x1 S64x1 where
  offsetDims := []
  collapsedSliceDims := [0]
  operandBatchingDims := []
  startIndicesBatchingDims := []
  startIndexMap := [0]
  indexVectorDim := 2
  sliceSizes := ![1]
  wf := gather_S2_S64x1x1_S64x1_n_0_n_n_0_2_1_wf
def gather_S10_S64x1x1_S64x1_n_0_n_n_0_2_1 : GatherDims S10 S64x1x1 S64x1 where
  offsetDims := []
  collapsedSliceDims := [0]
  operandBatchingDims := []
  startIndicesBatchingDims := []
  startIndexMap := [0]
  indexVectorDim := 2
  sliceSizes := ![1]
  wf := gather_S10_S64x1x1_S64x1_n_0_n_n_0_2_1_wf
def gather_S5_S64x1x1_S64x1_n_0_n_n_0_2_1 : GatherDims S5 S64x1x1 S64x1 where
  offsetDims := []
  collapsedSliceDims := [0]
  operandBatchingDims := []
  startIndicesBatchingDims := []
  startIndexMap := [0]
  indexVectorDim := 2
  sliceSizes := ![1]
  wf := gather_S5_S64x1x1_S64x1_n_0_n_n_0_2_1_wf
def gather_S100_S64x1x1_S64x1_n_0_n_n_0_2_1 : GatherDims S100 S64x1x1 S64x1 where
  offsetDims := []
  collapsedSliceDims := [0]
  operandBatchingDims := []
  startIndicesBatchingDims := []
  startIndexMap := [0]
  indexVectorDim := 2
  sliceSizes := ![1]
  wf := gather_S100_S64x1x1_S64x1_n_0_n_n_0_2_1_wf
def dot_S1x435_S435x128_S1x128_1_0_0_1_n_n : DotDims S1x435 S435x128 S1x128 where
  lhsContracting := [1]
  rhsContracting := [0]
  lhsNonContracting := [0]
  rhsNonContracting := [1]
  lhsBatch := []
  rhsBatch := []
  wf := dot_S1x435_S435x128_S1x128_1_0_0_1_n_n_wf
def dot_S1x128_S128x256_S1x256_1_0_0_1_n_n : DotDims S1x128 S128x256 S1x256 where
  lhsContracting := [1]
  rhsContracting := [0]
  lhsNonContracting := [0]
  rhsNonContracting := [1]
  lhsBatch := []
  rhsBatch := []
  wf := dot_S1x128_S128x256_S1x256_1_0_0_1_n_n_wf
def dot_S1x256_S256x256_S1x256_1_0_0_1_n_n : DotDims S1x256 S256x256 S1x256 where
  lhsContracting := [1]
  rhsContracting := [0]
  lhsNonContracting := [0]
  rhsNonContracting := [1]
  lhsBatch := []
  rhsBatch := []
  wf := dot_S1x256_S256x256_S1x256_1_0_0_1_n_n_wf
def dot_S1x256_S256x128_S1x128_1_0_0_1_n_n : DotDims S1x256 S256x128 S1x128 where
  lhsContracting := [1]
  rhsContracting := [0]
  lhsNonContracting := [0]
  rhsNonContracting := [1]
  lhsBatch := []
  rhsBatch := []
  wf := dot_S1x256_S256x128_S1x128_1_0_0_1_n_n_wf
def dot_S1x128_S128x1_S1x1_1_0_0_1_n_n : DotDims S1x128 S128x1 S1x1 where
  lhsContracting := [1]
  rhsContracting := [0]
  lhsNonContracting := [0]
  rhsNonContracting := [1]
  lhsBatch := []
  rhsBatch := []
  wf := dot_S1x128_S128x1_S1x1_1_0_0_1_n_n_wf

abbrev win0_0 : Pipeline.Window sig grid0 :=
  Pipeline.Window.ofSpec (Memref.whole main_v60) S152x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v59) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v64) S152x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v65) S1x100x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v71) S72x200.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v70) S256x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v75) S72x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v76) S1x200x1.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v79) S256x50.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v81) S256x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v85) S256x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v86) S1x50x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v89) S256x50.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v91) S256x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v95) S256x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v96) S1x50x1.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev idle3 : Fin 4 → grid3.Coords → Bool := fun | 0 => fun _ => false | 1 => fun _ => false | 2 => fun _ => false | 3 => fun i => !(k3_cond2 i == 1#1) | ⟨_ + 4, h⟩ => absurd h (Nat.not_lt.2 (Nat.le_add_left _ _))

abbrev win4_0 : Pipeline.Window sig grid4 :=
  Pipeline.Window.ofSpec (Memref.whole main_v171) S1x435.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_arg17) S435x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v172) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg19) S128x256.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v173) S1x256.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg21) S256x256.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v174) S1x256.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_arg23) S256x128.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v175) S1x128.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_arg25) S128x1.size cc4_transform_9 reads4_9 false true 1 stage4_9 sem4_9
    hrank4 hreads4_9 hinb4_9 nbuf4_9 (Memref.isWhole_whole _) hwx4_9 hstage4_9

abbrev win4_10 : Pipeline.Window sig grid4 :=
  Pipeline.Window.ofSpec (Memref.whole main_v176) S1x1.size cc4_transform_10 reads4_10 false true 1 stage4_10 sem4_10
    hrank4 hreads4_10 hinb4_10 nbuf4_10 (Memref.isWhole_whole _) hwx4_10 hstage4_10

abbrev win4_11 : Pipeline.Window sig grid4 :=
  Pipeline.Window.ofSpec (Memref.whole main_v177_0) S1x1.size cc4_transform_11 reads4_11 true true 1 stage4_11 sem4_11
    hrank4 hreads4_11 hinb4_11 nbuf4_11 (Memref.isWhole_whole _) hwx4_11 hstage4_11

abbrev win4_12 : Pipeline.Window sig grid4 :=
  Pipeline.Window.ofSpec (Memref.whole main_v177_1) S1x1.size cc4_transform_12 reads4_12 true true 1 stage4_12 sem4_12
    hrank4 hreads4_12 hinb4_12 nbuf4_12 (Memref.isWhole_whole _) hwx4_12 hstage4_12

abbrev win4 : Fin 13 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | 11 => win4_11 | 12 => win4_12 | ⟨_ + 13, h⟩ => absurd h (Nat.not_lt.2 (Nat.le_add_left _ _))
abbrev spec4 : Fin 13 → Pipeline.WinSpec sig grid4.rank := fun w => (win4 w).toWinSpec

class Facts : Prop extends Facts₀ where

variable [Facts]
-- ==== ReferenceIdeal.lean ====
abbrev S64x24x100 : Shape := ⟨3, ![64, 24, 100]⟩
abbrev S64x24x200 : Shape := ⟨3, ![64, 24, 200]⟩
abbrev S64x24x50 : Shape := ⟨3, ![64, 24, 50]⟩
abbrev S64x24 : Shape := ⟨2, ![64, 24]⟩
abbrev S64x30 : Shape := ⟨2, ![64, 30]⟩
abbrev S64x4 : Shape := ⟨2, ![64, 4]⟩
abbrev S1000x128 : Shape := ⟨2, ![1000, 128]⟩
abbrev S3000x128 : Shape := ⟨2, ![3000, 128]⟩
abbrev S500x128 : Shape := ⟨2, ![500, 128]⟩
abbrev S1500x128 : Shape := ⟨2, ![1500, 128]⟩
abbrev S700x128 : Shape := ⟨2, ![700, 128]⟩
abbrev S2000x128 : Shape := ⟨2, ![2000, 128]⟩
abbrev S2x128 : Shape := ⟨2, ![2, 128]⟩
abbrev S10x128 : Shape := ⟨2, ![10, 128]⟩
abbrev S5x128 : Shape := ⟨2, ![5, 128]⟩
abbrev S100x128 : Shape := ⟨2, ![100, 128]⟩
abbrev S435x128 : Shape := ⟨2, ![435, 128]⟩
abbrev S128 : Shape := ⟨1, ![128]⟩
abbrev S128x256 : Shape := ⟨2, ![128, 256]⟩
abbrev S256 : Shape := ⟨1, ![256]⟩
abbrev S256x256 : Shape := ⟨2, ![256, 256]⟩
abbrev S256x128 : Shape := ⟨2, ![256, 128]⟩
abbrev S128x1 : Shape := ⟨2, ![128, 1]⟩
abbrev S1 : Shape := ⟨1, ![1]⟩
abbrev S_ : Shape := ⟨0, ![]⟩
abbrev S64x24x100x1 : Shape := ⟨4, ![64, 24, 100, 1]⟩
abbrev S64x24x100x128 : Shape := ⟨4, ![64, 24, 100, 128]⟩
abbrev S64x24x200x1 : Shape := ⟨4, ![64, 24, 200, 1]⟩
abbrev S64x24x200x128 : Shape := ⟨4, ![64, 24, 200, 128]⟩
abbrev S64x24x50x1 : Shape := ⟨4, ![64, 24, 50, 1]⟩
abbrev S64x24x50x128 : Shape := ⟨4, ![64, 24, 50, 128]⟩
abbrev S64x24x1 : Shape := ⟨3, ![64, 24, 1]⟩
abbrev S64x24x128 : Shape := ⟨3, ![64, 24, 128]⟩
abbrev S64x30x1 : Shape := ⟨3, ![64, 30, 1]⟩
abbrev S64x30x128 : Shape := ⟨3, ![64, 30, 128]⟩
abbrev S64x1 : Shape := ⟨2, ![64, 1]⟩
abbrev S64 : Shape := ⟨1, ![64]⟩
abbrev S64x128 : Shape := ⟨2, ![64, 128]⟩
abbrev S64x1x128x1 : Shape := ⟨4, ![64, 1, 128, 1]⟩
abbrev S64x24x128x1 : Shape := ⟨4, ![64, 24, 128, 1]⟩
abbrev S64x24x128x100 : Shape := ⟨4, ![64, 24, 128, 100]⟩
abbrev S64x24x128x200 : Shape := ⟨4, ![64, 24, 128, 200]⟩
abbrev S64x24x128x50 : Shape := ⟨4, ![64, 24, 128, 50]⟩
abbrev S64x1x30x128 : Shape := ⟨4, ![64, 1, 30, 128]⟩
abbrev S64x24x30x128 : Shape := ⟨4, ![64, 24, 30, 128]⟩
abbrev S64x24x128x30 : Shape := ⟨4, ![64, 24, 128, 30]⟩
abbrev S64x24x128x435 : Shape := ⟨4, ![64, 24, 128, 435]⟩
abbrev S64x24x435 : Shape := ⟨3, ![64, 24, 435]⟩
abbrev S1536x435 : Shape := ⟨2, ![1536, 435]⟩
abbrev S1536x128 : Shape := ⟨2, ![1536, 128]⟩
abbrev S1x128 : Shape := ⟨2, ![1, 128]⟩
abbrev S1536x256 : Shape := ⟨2, ![1536, 256]⟩
abbrev S1x256 : Shape := ⟨2, ![1, 256]⟩
abbrev S1536 : Shape := ⟨1, ![1536]⟩
abbrev S1536x1 : Shape := ⟨2, ![1536, 1]⟩
abbrev S64x24x256 : Shape := ⟨3, ![64, 24, 256]⟩
abbrev S64x256 : Shape := ⟨2, ![64, 256]⟩
abbrev S1x1 : Shape := ⟨2, ![1, 1]⟩

abbrev nBuf : Space → Nat
  | .hbm => 264
  | .vmem => 0
  | .smem => 0
  | _ => 0

abbrev hbmTy0_0 (i : Nat) : BufTy := match i % 128 with
  | 0 => ⟨S64x24x100, .i32⟩
  | 1 => ⟨S64x24x200, .i32⟩
  | 2 => ⟨S64x24x50, .i32⟩
  | 3 => ⟨S64x24x50, .i32⟩
  | 4 => ⟨S64x24, .i32⟩
  | 5 => ⟨S64x30, .i32⟩
  | 6 => ⟨S64x4, .i32⟩
  | 7 => ⟨S1000x128, .f32⟩
  | 8 => ⟨S3000x128, .f32⟩
  | 9 => ⟨S500x128, .f32⟩
  | 10 => ⟨S1500x128, .f32⟩
  | 11 => ⟨S700x128, .f32⟩
  | 12 => ⟨S2000x128, .f32⟩
  | 13 => ⟨S2x128, .f32⟩
  | 14 => ⟨S10x128, .f32⟩
  | 15 => ⟨S5x128, .f32⟩
  | 16 => ⟨S100x128, .f32⟩
  | 17 => ⟨S435x128, .f32⟩
  | 18 => ⟨S128, .f32⟩
  | 19 => ⟨S128x256, .f32⟩
  | 20 => ⟨S256, .f32⟩
  | 21 => ⟨S256x256, .f32⟩
  | 22 => ⟨S256, .f32⟩
  | 23 => ⟨S256x128, .f32⟩
  | 24 => ⟨S128, .f32⟩
  | 25 => ⟨S128x1, .f32⟩
  | 26 => ⟨S1, .f32⟩
  | 27 => ⟨S_, .i32⟩
  | 28 => ⟨S_, .i32⟩
  | 29 => ⟨S_, .i32⟩
  | 30 => ⟨S64x24x100, .i32⟩
  | 31 => ⟨S64x24x100, .i32⟩
  | 32 => ⟨S_, .i32⟩
  | 33 => ⟨S64x24x100, .i32⟩
  | 34 => ⟨S64x24x100, .i32⟩
  | 35 => ⟨S_, .i32⟩
  | 36 => ⟨S64x24x100, .i32⟩
  | 37 => ⟨S64x24x100, .i1⟩
  | 38 => ⟨S_, .i32⟩
  | 39 => ⟨S64x24x100, .i32⟩
  | 40 => ⟨S64x24x100, .i32⟩
  | 41 => ⟨S64x24x100, .i32⟩
  | 42 => ⟨S64x24x100x1, .i32⟩
  | 43 => ⟨S64x24x100x128, .f32⟩
  | 44 => ⟨S_, .i32⟩
  | 45 => ⟨S_, .i32⟩
  | 46 => ⟨S_, .i32⟩
  | 47 => ⟨S64x24x200, .i32⟩
  | 48 => ⟨S64x24x200, .i32⟩
  | 49 => ⟨S_, .i32⟩
  | 50 => ⟨S64x24x200, .i32⟩
  | 51 => ⟨S64x24x200, .i32⟩
  | 52 => ⟨S_, .i32⟩
  | 53 => ⟨S64x24x200, .i32⟩
  | 54 => ⟨S64x24x200, .i1⟩
  | 55 => ⟨S_, .i32⟩
  | 56 => ⟨S64x24x200, .i32⟩
  | 57 => ⟨S64x24x200, .i32⟩
  | 58 => ⟨S64x24x200, .i32⟩
  | 59 => ⟨S64x24x200x1, .i32⟩
  | 60 => ⟨S64x24x200x128, .f32⟩
  | 61 => ⟨S_, .i32⟩
  | 62 => ⟨S_, .i32⟩
  | 63 => ⟨S_, .i32⟩
  | 64 => ⟨S64x24x50, .i32⟩
  | 65 => ⟨S64x24x50, .i32⟩
  | 66 => ⟨S_, .i32⟩
  | 67 => ⟨S64x24x50, .i32⟩
  | 68 => ⟨S64x24x50, .i32⟩
  | 69 => ⟨S_, .i32⟩
  | 70 => ⟨S64x24x50, .i32⟩
  | 71 => ⟨S64x24x50, .i1⟩
  | 72 => ⟨S_, .i32⟩
  | 73 => ⟨S64x24x50, .i32⟩
  | 74 => ⟨S64x24x50, .i32⟩
  | 75 => ⟨S64x24x50, .i32⟩
  | 76 => ⟨S64x24x50x1, .i32⟩
  | 77 => ⟨S64x24x50x128, .f32⟩
  | 78 => ⟨S_, .i32⟩
  | 79 => ⟨S_, .i32⟩
  | 80 => ⟨S_, .i32⟩
  | 81 => ⟨S64x24x50, .i32⟩
  | 82 => ⟨S64x24x50, .i32⟩
  | 83 => ⟨S_, .i32⟩
  | 84 => ⟨S64x24x50, .i32⟩
  | 85 => ⟨S64x24x50, .i32⟩
  | 86 => ⟨S_, .i32⟩
  | 87 => ⟨S64x24x50, .i32⟩
  | 88 => ⟨S64x24x50, .i1⟩
  | 89 => ⟨S_, .i32⟩
  | 90 => ⟨S64x24x50, .i32⟩
  | 91 => ⟨S64x24x50, .i32⟩
  | 92 => ⟨S64x24x50, .i32⟩
  | 93 => ⟨S64x24x50x1, .i32⟩
  | 94 => ⟨S64x24x50x128, .f32⟩
  | 95 => ⟨S_, .i32⟩
  | 96 => ⟨S_, .i32⟩
  | 97 => ⟨S_, .i32⟩
  | 98 => ⟨S64x24, .i32⟩
  | 99 => ⟨S64x24, .i32⟩
  | 100 => ⟨S_, .i32⟩
  | 101 => ⟨S64x24, .i32⟩
  | 102 => ⟨S64x24, .i32⟩
  | 103 => ⟨S_, .i32⟩
  | 104 => ⟨S64x24, .i32⟩
  | 105 => ⟨S64x24, .i1⟩
  | 106 => ⟨S_, .i32⟩
  | 107 => ⟨S64x24, .i32⟩
  | 108 => ⟨S64x24, .i32⟩
  | 109 => ⟨S64x24, .i32⟩
  | 110 => ⟨S64x24x1, .i32⟩
  | 111 => ⟨S64x24x128, .f32⟩
  | 112 => ⟨S_, .i32⟩
  | 113 => ⟨S_, .i32⟩
  | 114 => ⟨S_, .i32⟩
  | 115 => ⟨S64x30, .i32⟩
  | 116 => ⟨S64x30, .i32⟩
  | 117 => ⟨S_, .i32⟩
  | 118 => ⟨S64x30, .i32⟩
  | 119 => ⟨S64x30, .i32⟩
  | 120 => ⟨S_, .i32⟩
  | 121 => ⟨S64x30, .i32⟩
  | 122 => ⟨S64x30, .i1⟩
  | 123 => ⟨S_, .i32⟩
  | 124 => ⟨S64x30, .i32⟩
  | 125 => ⟨S64x30, .i32⟩
  | 126 => ⟨S64x30, .i32⟩
  | 127 => ⟨S64x30x1, .i32⟩
  | _ => ⟨S64x24x100, .i32⟩

abbrev hbmTy0_1 (i : Nat) : BufTy := match i % 128 with
  | 0 => ⟨S64x30x128, .f32⟩
  | 1 => ⟨S64x1, .i32⟩
  | 2 => ⟨S64, .i32⟩
  | 3 => ⟨S_, .i32⟩
  | 4 => ⟨S64, .i32⟩
  | 5 => ⟨S64, .i1⟩
  | 6 => ⟨S_, .i32⟩
  | 7 => ⟨S64, .i32⟩
  | 8 => ⟨S64, .i32⟩
  | 9 => ⟨S64, .i32⟩
  | 10 => ⟨S64x1, .i32⟩
  | 11 => ⟨S64x128, .f32⟩
  | 12 => ⟨S64x1, .i32⟩
  | 13 => ⟨S64, .i32⟩
  | 14 => ⟨S_, .i32⟩
  | 15 => ⟨S64, .i32⟩
  | 16 => ⟨S64, .i1⟩
  | 17 => ⟨S_, .i32⟩
  | 18 => ⟨S64, .i32⟩
  | 19 => ⟨S64, .i32⟩
  | 20 => ⟨S64, .i32⟩
  | 21 => ⟨S64x1, .i32⟩
  | 22 => ⟨S64x128, .f32⟩
  | 23 => ⟨S64x1, .i32⟩
  | 24 => ⟨S64, .i32⟩
  | 25 => ⟨S_, .i32⟩
  | 26 => ⟨S64, .i32⟩
  | 27 => ⟨S64, .i1⟩
  | 28 => ⟨S_, .i32⟩
  | 29 => ⟨S64, .i32⟩
  | 30 => ⟨S64, .i32⟩
  | 31 => ⟨S64, .i32⟩
  | 32 => ⟨S64x1, .i32⟩
  | 33 => ⟨S64x128, .f32⟩
  | 34 => ⟨S64x1, .i32⟩
  | 35 => ⟨S64, .i32⟩
  | 36 => ⟨S_, .i32⟩
  | 37 => ⟨S64, .i32⟩
  | 38 => ⟨S64, .i1⟩
  | 39 => ⟨S_, .i32⟩
  | 40 => ⟨S64, .i32⟩
  | 41 => ⟨S64, .i32⟩
  | 42 => ⟨S64, .i32⟩
  | 43 => ⟨S64x1, .i32⟩
  | 44 => ⟨S64x128, .f32⟩
  | 45 => ⟨S64x1x128x1, .f32⟩
  | 46 => ⟨S64x24x128x1, .f32⟩
  | 47 => ⟨S64x1x128x1, .f32⟩
  | 48 => ⟨S64x24x128x1, .f32⟩
  | 49 => ⟨S64x1x128x1, .f32⟩
  | 50 => ⟨S64x24x128x1, .f32⟩
  | 51 => ⟨S64x1x128x1, .f32⟩
  | 52 => ⟨S64x24x128x1, .f32⟩
  | 53 => ⟨S64x24x128x100, .f32⟩
  | 54 => ⟨S64x24x128x200, .f32⟩
  | 55 => ⟨S64x24x128x50, .f32⟩
  | 56 => ⟨S64x24x128x50, .f32⟩
  | 57 => ⟨S64x24x128x1, .f32⟩
  | 58 => ⟨S64x1x30x128, .f32⟩
  | 59 => ⟨S64x24x30x128, .f32⟩
  | 60 => ⟨S64x24x128x30, .f32⟩
  | 61 => ⟨S64x24x128x435, .f32⟩
  | 62 => ⟨S_, .f32⟩
  | 63 => ⟨S64x24x435, .f32⟩
  | 64 => ⟨S_, .f32⟩
  | 65 => ⟨S64x24x435, .f32⟩
  | 66 => ⟨S64x24x435, .f32⟩
  | 67 => ⟨S1536x435, .f32⟩
  | 68 => ⟨S1536x128, .f32⟩
  | 69 => ⟨S1x128, .f32⟩
  | 70 => ⟨S1536x128, .f32⟩
  | 71 => ⟨S1536x128, .f32⟩
  | 72 => ⟨S1536x256, .f32⟩
  | 73 => ⟨S_, .f32⟩
  | 74 => ⟨S256, .f32⟩
  | 75 => ⟨S1x256, .f32⟩
  | 76 => ⟨S_, .f32⟩
  | 77 => ⟨S1x256, .f32⟩
  | 78 => ⟨S1x256, .f32⟩
  | 79 => ⟨S1x256, .f32⟩
  | 80 => ⟨S1x256, .f32⟩
  | 81 => ⟨S1536x256, .f32⟩
  | 82 => ⟨S_, .f32⟩
  | 83 => ⟨S1536x256, .f32⟩
  | 84 => ⟨S1536x256, .f32⟩
  | 85 => ⟨S_, .f32⟩
  | 86 => ⟨S1536x256, .f32⟩
  | 87 => ⟨S1536x256, .f32⟩
  | 88 => ⟨S1536x256, .f32⟩
  | 89 => ⟨S1536x256, .f32⟩
  | 90 => ⟨S_, .f32⟩
  | 91 => ⟨S1536, .f32⟩
  | 92 => ⟨S1536, .f32⟩
  | 93 => ⟨S1536, .f32⟩
  | 94 => ⟨S_, .f32⟩
  | 95 => ⟨S_, .f32⟩
  | 96 => ⟨S1536, .f32⟩
  | 97 => ⟨S1536, .f32⟩
  | 98 => ⟨S1536x1, .f32⟩
  | 99 => ⟨S1536x256, .f32⟩
  | 100 => ⟨S1536x256, .f32⟩
  | 101 => ⟨S1536x256, .f32⟩
  | 102 => ⟨S_, .f32⟩
  | 103 => ⟨S256, .f32⟩
  | 104 => ⟨S1x256, .f32⟩
  | 105 => ⟨S_, .f32⟩
  | 106 => ⟨S1x256, .f32⟩
  | 107 => ⟨S1x256, .f32⟩
  | 108 => ⟨S1x256, .f32⟩
  | 109 => ⟨S1x256, .f32⟩
  | 110 => ⟨S1536x256, .f32⟩
  | 111 => ⟨S64x24x256, .f32⟩
  | 112 => ⟨S_, .f32⟩
  | 113 => ⟨S64x256, .f32⟩
  | 114 => ⟨S_, .f32⟩
  | 115 => ⟨S64x256, .f32⟩
  | 116 => ⟨S64x256, .f32⟩
  | 117 => ⟨S64x128, .f32⟩
  | 118 => ⟨S1x128, .f32⟩
  | 119 => ⟨S64x128, .f32⟩
  | 120 => ⟨S64x128, .f32⟩
  | 121 => ⟨S_, .f32⟩
  | 122 => ⟨S64x128, .f32⟩
  | 123 => ⟨S64x128, .f32⟩
  | 124 => ⟨S64x1, .f32⟩
  | 125 => ⟨S1x1, .f32⟩
  | 126 => ⟨S64x1, .f32⟩
  | 127 => ⟨S64x1, .f32⟩
  | _ => ⟨S64x24x100, .i32⟩

abbrev hbmTy0_2 (i : Nat) : BufTy := match i % 128 with
  | 0 => ⟨S64x1, .f32⟩
  | 1 => ⟨S64x1, .f32⟩
  | 2 => ⟨S_, .f32⟩
  | 3 => ⟨S64x1, .f32⟩
  | 4 => ⟨S64x1, .f32⟩
  | 5 => ⟨S_, .f32⟩
  | 6 => ⟨S64x1, .f32⟩
  | 7 => ⟨S64x1, .f32⟩
  | _ => ⟨S64x24x100, .i32⟩

abbrev hbmTy (i : Nat) : BufTy := match i / 128 with
  | 0 => hbmTy0_0 i
  | 1 => hbmTy0_1 i
  | 2 => hbmTy0_2 i
  | _ => ⟨S64x24x100, .i32⟩

abbrev bufTy : (tb : Table) → Fin (tcTables nBuf tb) → BufTy
  | .hbm, ⟨i, _⟩ => hbmTy i
  | _, _ => ⟨S64x24x100, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_c : Ref sig .tc := ⟨.hbm, 27, rfl⟩
abbrev main_c_0 : Ref sig .tc := ⟨.hbm, 28, rfl⟩
abbrev main_call0_v0 : Ref sig .tc := ⟨.hbm, 29, rfl⟩
abbrev main_call0_v1 : Ref sig .tc := ⟨.hbm, 30, rfl⟩
abbrev main_call0_v2 : Ref sig .tc := ⟨.hbm, 31, rfl⟩
abbrev main_call0_v3 : Ref sig .tc := ⟨.hbm, 32, rfl⟩
abbrev main_call0_v4 : Ref sig .tc := ⟨.hbm, 33, rfl⟩
abbrev main_v0 : Ref sig .tc := ⟨.hbm, 34, rfl⟩
abbrev main_c_1 : Ref sig .tc := ⟨.hbm, 35, rfl⟩
abbrev main_v1 : Ref sig .tc := ⟨.hbm, 36, rfl⟩
abbrev main_v2 : Ref sig .tc := ⟨.hbm, 37, rfl⟩
abbrev main_c_2 : Ref sig .tc := ⟨.hbm, 38, rfl⟩
abbrev main_v3 : Ref sig .tc := ⟨.hbm, 39, rfl⟩
abbrev main_v4 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_c_3 : Ref sig .tc := ⟨.hbm, 44, rfl⟩
abbrev main_c_4 : Ref sig .tc := ⟨.hbm, 45, rfl⟩
abbrev main_call1_v0 : Ref sig .tc := ⟨.hbm, 46, rfl⟩
abbrev main_call1_v1 : Ref sig .tc := ⟨.hbm, 47, rfl⟩
abbrev main_call1_v2 : Ref sig .tc := ⟨.hbm, 48, rfl⟩
abbrev main_call1_v3 : Ref sig .tc := ⟨.hbm, 49, rfl⟩
abbrev main_call1_v4 : Ref sig .tc := ⟨.hbm, 50, rfl⟩
abbrev main_v8 : Ref sig .tc := ⟨.hbm, 51, rfl⟩
abbrev main_c_5 : Ref sig .tc := ⟨.hbm, 52, rfl⟩
abbrev main_v9 : Ref sig .tc := ⟨.hbm, 53, rfl⟩
abbrev main_v10 : Ref sig .tc := ⟨.hbm, 54, rfl⟩
abbrev main_c_6 : Ref sig .tc := ⟨.hbm, 55, rfl⟩
abbrev main_v11 : Ref sig .tc := ⟨.hbm, 56, rfl⟩
abbrev main_v12 : Ref sig .tc := ⟨.hbm, 57, rfl⟩
abbrev main_v13 : Ref sig .tc := ⟨.hbm, 58, rfl⟩
abbrev main_v14 : Ref sig .tc := ⟨.hbm, 59, rfl⟩
abbrev main_v15 : Ref sig .tc := ⟨.hbm, 60, rfl⟩
abbrev main_c_7 : Ref sig .tc := ⟨.hbm, 61, rfl⟩
abbrev main_c_8 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v16 : Ref sig .tc := ⟨.hbm, 68, rfl⟩
abbrev main_c_9 : Ref sig .tc := ⟨.hbm, 69, rfl⟩
abbrev main_v17 : Ref sig .tc := ⟨.hbm, 70, rfl⟩
abbrev main_v18 : Ref sig .tc := ⟨.hbm, 71, rfl⟩
abbrev main_c_10 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_c_11 : Ref sig .tc := ⟨.hbm, 78, rfl⟩
abbrev main_c_12 : Ref sig .tc := ⟨.hbm, 79, rfl⟩
abbrev main_call3_v0 : Ref sig .tc := ⟨.hbm, 80, rfl⟩
abbrev main_call3_v1 : Ref sig .tc := ⟨.hbm, 81, rfl⟩
abbrev main_call3_v2 : Ref sig .tc := ⟨.hbm, 82, rfl⟩
abbrev main_call3_v3 : Ref sig .tc := ⟨.hbm, 83, rfl⟩
abbrev main_call3_v4 : Ref sig .tc := ⟨.hbm, 84, rfl⟩
abbrev main_v24 : Ref sig .tc := ⟨.hbm, 85, rfl⟩
abbrev main_c_13 : Ref sig .tc := ⟨.hbm, 86, rfl⟩
abbrev main_v25 : Ref sig .tc := ⟨.hbm, 87, rfl⟩
abbrev main_v26 : Ref sig .tc := ⟨.hbm, 88, rfl⟩
abbrev main_c_14 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_c_15 : Ref sig .tc := ⟨.hbm, 95, rfl⟩
abbrev main_c_16 : Ref sig .tc := ⟨.hbm, 96, rfl⟩
abbrev main_call4_v0 : Ref sig .tc := ⟨.hbm, 97, rfl⟩
abbrev main_call4_v1 : Ref sig .tc := ⟨.hbm, 98, rfl⟩
abbrev main_call4_v2 : Ref sig .tc := ⟨.hbm, 99, rfl⟩
abbrev main_call4_v3 : Ref sig .tc := ⟨.hbm, 100, rfl⟩
abbrev main_call4_v4 : Ref sig .tc := ⟨.hbm, 101, rfl⟩
abbrev main_v32 : Ref sig .tc := ⟨.hbm, 102, rfl⟩
abbrev main_c_17 : Ref sig .tc := ⟨.hbm, 103, rfl⟩
abbrev main_v33 : Ref sig .tc := ⟨.hbm, 104, rfl⟩
abbrev main_v34 : Ref sig .tc := ⟨.hbm, 105, rfl⟩
abbrev main_c_18 : Ref sig .tc := ⟨.hbm, 106, rfl⟩
abbrev main_v35 : Ref sig .tc := ⟨.hbm, 107, rfl⟩
abbrev main_v36 : Ref sig .tc := ⟨.hbm, 108, rfl⟩
abbrev main_v37 : Ref sig .tc := ⟨.hbm, 109, rfl⟩
abbrev main_v38 : Ref sig .tc := ⟨.hbm, 110, rfl⟩
abbrev main_v39 : Ref sig .tc := ⟨.hbm, 111, rfl⟩
abbrev main_c_19 : Ref sig .tc := ⟨.hbm, 112, rfl⟩
abbrev main_c_20 : Ref sig .tc := ⟨.hbm, 113, rfl⟩
abbrev main_call5_v0 : Ref sig .tc := ⟨.hbm, 114, rfl⟩
abbrev main_call5_v1 : Ref sig .tc := ⟨.hbm, 115, rfl⟩
abbrev main_call5_v2 : Ref sig .tc := ⟨.hbm, 116, rfl⟩
abbrev main_call5_v3 : Ref sig .tc := ⟨.hbm, 117, rfl⟩
abbrev main_call5_v4 : Ref sig .tc := ⟨.hbm, 118, rfl⟩
abbrev main_v40 : Ref sig .tc := ⟨.hbm, 119, rfl⟩
abbrev main_c_21 : Ref sig .tc := ⟨.hbm, 120, rfl⟩
abbrev main_v41 : Ref sig .tc := ⟨.hbm, 121, rfl⟩
abbrev main_v42 : Ref sig .tc := ⟨.hbm, 122, rfl⟩
abbrev main_c_22 : Ref sig .tc := ⟨.hbm, 123, rfl⟩
abbrev main_v43 : Ref sig .tc := ⟨.hbm, 124, rfl⟩
abbrev main_v44 : Ref sig .tc := ⟨.hbm, 125, rfl⟩
abbrev main_v45 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_c_23 : Ref sig .tc := ⟨.hbm, 131, rfl⟩
abbrev main_v50 : Ref sig .tc := ⟨.hbm, 132, rfl⟩
abbrev main_v51 : Ref sig .tc := ⟨.hbm, 133, rfl⟩
abbrev main_c_24 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_v58 : Ref sig .tc := ⟨.hbm, 141, rfl⟩
abbrev main_c_25 : Ref sig .tc := ⟨.hbm, 142, rfl⟩
abbrev main_v59 : Ref sig .tc := ⟨.hbm, 143, rfl⟩
abbrev main_v60 : Ref sig .tc := ⟨.hbm, 144, rfl⟩
abbrev main_c_26 : Ref sig .tc := ⟨.hbm, 145, rfl⟩
abbrev main_v61 : Ref sig .tc := ⟨.hbm, 146, rfl⟩
abbrev main_v62 : Ref sig .tc := ⟨.hbm, 147, rfl⟩
abbrev main_v63 : Ref sig .tc := ⟨.hbm, 148, rfl⟩
abbrev main_v64 : Ref sig .tc := ⟨.hbm, 149, rfl⟩
abbrev main_v65 : Ref sig .tc := ⟨.hbm, 150, rfl⟩
abbrev main_v66 : Ref sig .tc := ⟨.hbm, 151, rfl⟩
abbrev main_v67 : Ref sig .tc := ⟨.hbm, 152, rfl⟩
abbrev main_c_27 : Ref sig .tc := ⟨.hbm, 153, rfl⟩
abbrev main_v68 : Ref sig .tc := ⟨.hbm, 154, rfl⟩
abbrev main_v69 : Ref sig .tc := ⟨.hbm, 155, rfl⟩
abbrev main_c_28 : Ref sig .tc := ⟨.hbm, 156, rfl⟩
abbrev main_v70 : Ref sig .tc := ⟨.hbm, 157, rfl⟩
abbrev main_v71 : Ref sig .tc := ⟨.hbm, 158, rfl⟩
abbrev main_v72 : Ref sig .tc := ⟨.hbm, 159, rfl⟩
abbrev main_v73 : Ref sig .tc := ⟨.hbm, 160, rfl⟩
abbrev main_v74 : Ref sig .tc := ⟨.hbm, 161, rfl⟩
abbrev main_v75 : Ref sig .tc := ⟨.hbm, 162, rfl⟩
abbrev main_v76 : Ref sig .tc := ⟨.hbm, 163, rfl⟩
abbrev main_c_29 : Ref sig .tc := ⟨.hbm, 164, rfl⟩
abbrev main_v77 : Ref sig .tc := ⟨.hbm, 165, rfl⟩
abbrev main_v78 : Ref sig .tc := ⟨.hbm, 166, rfl⟩
abbrev main_c_30 : Ref sig .tc := ⟨.hbm, 167, rfl⟩
abbrev main_v79 : Ref sig .tc := ⟨.hbm, 168, rfl⟩
abbrev main_v80 : Ref sig .tc := ⟨.hbm, 169, rfl⟩
abbrev main_v81 : Ref sig .tc := ⟨.hbm, 170, rfl⟩
abbrev main_v82 : Ref sig .tc := ⟨.hbm, 171, rfl⟩
abbrev main_v83 : Ref sig .tc := ⟨.hbm, 172, rfl⟩
abbrev main_v84 : Ref sig .tc := ⟨.hbm, 173, rfl⟩
abbrev main_v85 : Ref sig .tc := ⟨.hbm, 174, rfl⟩
abbrev main_v86 : Ref sig .tc := ⟨.hbm, 175, rfl⟩
abbrev main_v87 : Ref sig .tc := ⟨.hbm, 176, rfl⟩
abbrev main_v88 : Ref sig .tc := ⟨.hbm, 177, rfl⟩
abbrev main_v89 : Ref sig .tc := ⟨.hbm, 178, rfl⟩
abbrev main_v90 : Ref sig .tc := ⟨.hbm, 179, rfl⟩
abbrev main_v91 : Ref sig .tc := ⟨.hbm, 180, rfl⟩
abbrev main_v92 : Ref sig .tc := ⟨.hbm, 181, rfl⟩
abbrev main_v93 : Ref sig .tc := ⟨.hbm, 182, rfl⟩
abbrev main_v94 : Ref sig .tc := ⟨.hbm, 183, rfl⟩
abbrev main_v95 : Ref sig .tc := ⟨.hbm, 184, rfl⟩
abbrev main_v96 : Ref sig .tc := ⟨.hbm, 185, rfl⟩
abbrev main_v97 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_cst : Ref sig .tc := ⟨.hbm, 190, rfl⟩
abbrev main_v101 : Ref sig .tc := ⟨.hbm, 191, rfl⟩
abbrev main_cst_31 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_v105 : Ref sig .tc := ⟨.hbm, 196, rfl⟩
abbrev main_v106 : Ref sig .tc := ⟨.hbm, 197, rfl⟩
abbrev main_v107 : Ref sig .tc := ⟨.hbm, 198, rfl⟩
abbrev main_v108 : Ref sig .tc := ⟨.hbm, 199, rfl⟩
abbrev main_v109 : Ref sig .tc := ⟨.hbm, 200, rfl⟩
abbrev main_cst_32 : Ref sig .tc := ⟨.hbm, 201, rfl⟩
abbrev main_v110 : Ref sig .tc := ⟨.hbm, 202, rfl⟩
abbrev main_v111 : Ref sig .tc := ⟨.hbm, 203, rfl⟩
abbrev main_cst_33 : Ref sig .tc := ⟨.hbm, 204, rfl⟩
abbrev main_v112 : Ref sig .tc := ⟨.hbm, 205, rfl⟩
abbrev main_v113 : Ref sig .tc := ⟨.hbm, 206, rfl⟩
abbrev main_v114 : Ref sig .tc := ⟨.hbm, 207, rfl⟩
abbrev main_v115 : Ref sig .tc := ⟨.hbm, 208, rfl⟩
abbrev main_v116 : Ref sig .tc := ⟨.hbm, 209, rfl⟩
abbrev main_call6_cst : Ref sig .tc := ⟨.hbm, 210, rfl⟩
abbrev main_call6_v0 : Ref sig .tc := ⟨.hbm, 211, rfl⟩
abbrev main_v117 : Ref sig .tc := ⟨.hbm, 212, rfl⟩
abbrev main_cst_34 : Ref sig .tc := ⟨.hbm, 213, rfl⟩
abbrev main_v118 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_cst_35 : Ref sig .tc := ⟨.hbm, 218, rfl⟩
abbrev main_v122 : Ref sig .tc := ⟨.hbm, 219, rfl⟩
abbrev main_v123 : Ref sig .tc := ⟨.hbm, 220, rfl⟩
abbrev main_v124 : Ref sig .tc := ⟨.hbm, 221, rfl⟩
abbrev main_cst_36 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_v129 : Ref sig .tc := ⟨.hbm, 227, rfl⟩
abbrev main_v130 : Ref sig .tc := ⟨.hbm, 228, rfl⟩
abbrev main_v131 : Ref sig .tc := ⟨.hbm, 229, rfl⟩
abbrev main_cst_37 : Ref sig .tc := ⟨.hbm, 230, rfl⟩
abbrev main_v132 : Ref sig .tc := ⟨.hbm, 231, rfl⟩
abbrev main_v133 : Ref sig .tc := ⟨.hbm, 232, rfl⟩
abbrev main_cst_38 : Ref sig .tc := ⟨.hbm, 233, rfl⟩
abbrev main_v134 : Ref sig .tc := ⟨.hbm, 234, rfl⟩
abbrev main_v135 : Ref sig .tc := ⟨.hbm, 235, rfl⟩
abbrev main_v136 : Ref sig .tc := ⟨.hbm, 236, rfl⟩
abbrev main_v137 : Ref sig .tc := ⟨.hbm, 237, rfl⟩
abbrev main_v138 : Ref sig .tc := ⟨.hbm, 238, rfl⟩
abbrev main_v139 : Ref sig .tc := ⟨.hbm, 239, rfl⟩
abbrev main_cst_39 : Ref sig .tc := ⟨.hbm, 240, rfl⟩
abbrev main_v140 : Ref sig .tc := ⟨.hbm, 241, rfl⟩
abbrev main_cst_40 : Ref sig .tc := ⟨.hbm, 242, rfl⟩
abbrev main_v141 : Ref sig .tc := ⟨.hbm, 243, rfl⟩
abbrev main_v142 : Ref sig .tc := ⟨.hbm, 244, rfl⟩
abbrev main_v143 : Ref sig .tc := ⟨.hbm, 245, rfl⟩
abbrev main_v144 : Ref sig .tc := ⟨.hbm, 246, rfl⟩
abbrev main_v145 : Ref sig .tc := ⟨.hbm, 247, rfl⟩
abbrev main_v146 : Ref sig .tc := ⟨.hbm, 248, rfl⟩
abbrev main_call7_cst : Ref sig .tc := ⟨.hbm, 249, rfl⟩
abbrev main_call7_v0 : Ref sig .tc := ⟨.hbm, 250, rfl⟩
abbrev main_v147 : Ref sig .tc := ⟨.hbm, 251, rfl⟩
abbrev main_v148 : Ref sig .tc := ⟨.hbm, 252, rfl⟩
abbrev main_v149 : Ref sig .tc := ⟨.hbm, 253, rfl⟩
abbrev main_v150 : Ref sig .tc := ⟨.hbm, 254, rfl⟩
abbrev main_v151 : Ref sig .tc := ⟨.hbm, 255, rfl⟩
abbrev main_v152 : Ref sig .tc := ⟨.hbm, 256, rfl⟩
abbrev main_v153 : Ref sig .tc := ⟨.hbm, 257, rfl⟩
abbrev main_cst_41 : Ref sig .tc := ⟨.hbm, 258, rfl⟩
abbrev main_v154 : Ref sig .tc := ⟨.hbm, 259, rfl⟩
abbrev main_v155 : Ref sig .tc := ⟨.hbm, 260, rfl⟩
abbrev main_cst_42 : Ref sig .tc := ⟨.hbm, 261, rfl⟩
abbrev main_v156 : Ref sig .tc := ⟨.hbm, 262, rfl⟩
abbrev main_v157 : Ref sig .tc := ⟨.hbm, 263, rfl⟩

abbrev nD : Nat := 1
abbrev τ : Topo := Topo.v7x

variable {F : FTy → Type} [FloatOps F]

class Facts₀ : Prop where
  bcast_S_S64x24x100 : S_.BroadcastsInDim S64x24x100 (![] : Fin 0 → Fin S64x24x100.rank)
  bcast_S64x24x100_S64x24x100x1_0_1_2 : S64x24x100.BroadcastsInDim S64x24x100x1 (![0, 1, 2] : Fin 3 → Fin S64x24x100x1.rank)
  bcast_S_S64x24x200 : S_.BroadcastsInDim S64x24x200 (![] : Fin 0 → Fin S64x24x200.rank)
  bcast_S64x24x200_S64x24x200x1_0_1_2 : S64x24x200.BroadcastsInDim S64x24x200x1 (![0, 1, 2] : Fin 3 → Fin S64x24x200x1.rank)
  bcast_S_S64x24x50 : S_.BroadcastsInDim S64x24x50 (![] : Fin 0 → Fin S64x24x50.rank)
  bcast_S64x24x50_S64x24x50x1_0_1_2 : S64x24x50.BroadcastsInDim S64x24x50x1 (![0, 1, 2] : Fin 3 → Fin S64x24x50x1.rank)
  bcast_S_S64x24 : S_.BroadcastsInDim S64x24 (![] : Fin 0 → Fin S64x24.rank)
  bcast_S64x24_S64x24x1_0_1 : S64x24.BroadcastsInDim S64x24x1 (![0, 1] : Fin 2 → Fin S64x24x1.rank)
  bcast_S_S64x30 : S_.BroadcastsInDim S64x30 (![] : Fin 0 → Fin S64x30.rank)
  bcast_S64x30_S64x30x1_0_1 : S64x30.BroadcastsInDim S64x30x1 (![0, 1] : Fin 2 → Fin S64x30x1.rank)
  slices_S64x4_S64x1_0_0 : S64x4.Slices ![0, 0] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  slices_S64x4_S64x1_0_1 : S64x4.Slices ![0, 1] S64x1
  slices_S64x4_S64x1_0_2 : S64x4.Slices ![0, 2] S64x1
  slices_S64x4_S64x1_0_3 : S64x4.Slices ![0, 3] S64x1
  bcast_S64x128_S64x1x128x1_0_2 : S64x128.BroadcastsInDim S64x1x128x1 (![0, 2] : Fin 2 → Fin S64x1x128x1.rank)
  bcast_S64x1x128x1_S64x24x128x1_0_1_2_3 : S64x1x128x1.BroadcastsInDim S64x24x128x1 (![0, 1, 2, 3] : Fin 4 → Fin S64x24x128x1.rank)
  transposes_S64x24x100x128_S64x24x128x100_0_1_3_2 : S64x24x100x128.Transposes [0, 1, 3, 2] S64x24x128x100
  transposes_S64x24x200x128_S64x24x128x200_0_1_3_2 : S64x24x200x128.Transposes [0, 1, 3, 2] S64x24x128x200
  transposes_S64x24x50x128_S64x24x128x50_0_1_3_2 : S64x24x50x128.Transposes [0, 1, 3, 2] S64x24x128x50
  bcast_S64x24x128_S64x24x128x1_0_1_2 : S64x24x128.BroadcastsInDim S64x24x128x1 (![0, 1, 2] : Fin 3 → Fin S64x24x128x1.rank)
  bcast_S64x30x128_S64x1x30x128_0_2_3 : S64x30x128.BroadcastsInDim S64x1x30x128 (![0, 2, 3] : Fin 3 → Fin S64x1x30x128.rank)
  bcast_S64x1x30x128_S64x24x30x128_0_1_2_3 : S64x1x30x128.BroadcastsInDim S64x24x30x128 (![0, 1, 2, 3] : Fin 4 → Fin S64x24x30x128.rank)
  transposes_S64x24x30x128_S64x24x128x30_0_1_3_2 : S64x24x30x128.Transposes [0, 1, 3, 2] S64x24x128x30
  concatenates_S64x24x128x100_S64x24x128x200_S64x24x128x50_S64x24x128x50_S64x24x128x1_S64x24x128x30_S64x24x128x1_S64x24x128x1_S64x24x128x1_S64x24x128x1_S64x24x128x435_d3 : Shape.Concatenates [S64x24x128x100, S64x24x128x200, S64x24x128x50, S64x24x128x50, S64x24x128x1, S64x24x128x30, S64x24x128x1, S64x24x128x1, S64x24x128x1, S64x24x128x1] S64x24x128x435 3
  reducesTo_S64x24x128x435_S64x24x435_d2 : S64x24x128x435.ReducesTo [2] S64x24x435
  h_S_ : 0 < S_.numel
  bcast_S_S64x24x435 : S_.BroadcastsInDim S64x24x435 (![] : Fin 0 → Fin S64x24x435.rank)
  shapeCasts_S64x24x435_S1536x435 : S64x24x435.ShapeCasts S1536x435
  bcast_S128_S1x128_1 : S128.BroadcastsInDim S1x128 (![1] : Fin 1 → Fin S1x128.rank)
  bcast_S1x128_S1536x128_0_1 : S1x128.BroadcastsInDim S1536x128 (![0, 1] : Fin 2 → Fin S1536x128.rank)
  reducesTo_S1536x256_S256_d0 : S1536x256.ReducesTo [0] S256
  bcast_S256_S1x256_1 : S256.BroadcastsInDim S1x256 (![1] : Fin 1 → Fin S1x256.rank)
  bcast_S_S1x256 : S_.BroadcastsInDim S1x256 (![] : Fin 0 → Fin S1x256.rank)
  bcast_S1x256_S1536x256_0_1 : S1x256.BroadcastsInDim S1536x256 (![0, 1] : Fin 2 → Fin S1536x256.rank)
  bcast_S_S1536x256 : S_.BroadcastsInDim S1536x256 (![] : Fin 0 → Fin S1536x256.rank)
  reducesTo_S1536x256_S1536_d1 : S1536x256.ReducesTo [1] S1536
  reducesTo_S1536_S_d0 : S1536.ReducesTo [0] S_
  bcast_S_S1536 : S_.BroadcastsInDim S1536 (![] : Fin 0 → Fin S1536.rank)
  bcast_S1536_S1536x1_0 : S1536.BroadcastsInDim S1536x1 (![0] : Fin 1 → Fin S1536x1.rank)
  bcast_S1536x1_S1536x256_0_1 : S1536x1.BroadcastsInDim S1536x256 (![0, 1] : Fin 2 → Fin S1536x256.rank)
  shapeCasts_S1536x256_S64x24x256 : S1536x256.ShapeCasts S64x24x256
  reducesTo_S64x24x256_S64x256_d1 : S64x24x256.ReducesTo [1] S64x256
  bcast_S_S64x256 : S_.BroadcastsInDim S64x256 (![] : Fin 0 → Fin S64x256.rank)
  bcast_S1x128_S64x128_0_1 : S1x128.BroadcastsInDim S64x128 (![0, 1] : Fin 2 → Fin S64x128.rank)
  bcast_S_S64x128 : S_.BroadcastsInDim S64x128 (![] : Fin 0 → Fin S64x128.rank)
  bcast_S1_S1x1_1 : S1.BroadcastsInDim S1x1 (![1] : Fin 1 → Fin S1x1.rank)
  bcast_S1x1_S64x1_0_1 : S1x1.BroadcastsInDim S64x1 (![0, 1] : Fin 2 → Fin S64x1.rank)
  bcast_S_S64x1 : S_.BroadcastsInDim S64x1 (![] : Fin 0 → Fin S64x1.rank)
  gather_S1000x128_S64x24x100x1_S64x24x100x128_3_0_n_n_0_3_1128_wf : GatherDims.WF S1000x128 S64x24x100x1 S64x24x100x128 [3] [0] [] [0] [] 3 ![1, 128]
  gather_S3000x128_S64x24x200x1_S64x24x200x128_3_0_n_n_0_3_1128_wf : GatherDims.WF S3000x128 S64x24x200x1 S64x24x200x128 [3] [0] [] [0] [] 3 ![1, 128]
  gather_S500x128_S64x24x50x1_S64x24x50x128_3_0_n_n_0_3_1128_wf : GatherDims.WF S500x128 S64x24x50x1 S64x24x50x128 [3] [0] [] [0] [] 3 ![1, 128]
  gather_S1500x128_S64x24x50x1_S64x24x50x128_3_0_n_n_0_3_1128_wf : GatherDims.WF S1500x128 S64x24x50x1 S64x24x50x128 [3] [0] [] [0] [] 3 ![1, 128]
  gather_S700x128_S64x24x1_S64x24x128_2_0_n_n_0_2_1128_wf : GatherDims.WF S700x128 S64x24x1 S64x24x128 [2] [0] [] [0] [] 2 ![1, 128]
  gather_S2000x128_S64x30x1_S64x30x128_2_0_n_n_0_2_1128_wf : GatherDims.WF S2000x128 S64x30x1 S64x30x128 [2] [0] [] [0] [] 2 ![1, 128]
  gather_S2x128_S64x1_S64x128_1_0_n_n_0_1_1128_wf : GatherDims.WF S2x128 S64x1 S64x128 [1] [0] [] [0] [] 1 ![1, 128]
  gather_S10x128_S64x1_S64x128_1_0_n_n_0_1_1128_wf : GatherDims.WF S10x128 S64x1 S64x128 [1] [0] [] [0] [] 1 ![1, 128]
  gather_S5x128_S64x1_S64x128_1_0_n_n_0_1_1128_wf : GatherDims.WF S5x128 S64x1 S64x128 [1] [0] [] [0] [] 1 ![1, 128]
  gather_S100x128_S64x1_S64x128_1_0_n_n_0_1_1128_wf : GatherDims.WF S100x128 S64x1 S64x128 [1] [0] [] [0] [] 1 ![1, 128]
  dot_S1536x435_S435x128_S1536x128_1_0_0_1_n_n_wf : DotDims.WF S1536x435 S435x128 S1536x128 [1] [0] [0] [1] [] []
  dot_S1536x128_S128x256_S1536x256_1_0_0_1_n_n_wf : DotDims.WF S1536x128 S128x256 S1536x256 [1] [0] [0] [1] [] []
  dot_S1536x256_S256x256_S1536x256_1_0_0_1_n_n_wf : DotDims.WF S1536x256 S256x256 S1536x256 [1] [0] [0] [1] [] []
  dot_S64x256_S256x128_S64x128_1_0_0_1_n_n_wf : DotDims.WF S64x256 S256x128 S64x128 [1] [0] [0] [1] [] []
  dot_S64x128_S128x1_S64x1_1_0_0_1_n_n_wf : DotDims.WF S64x128 S128x1 S64x1 [1] [0] [0] [1] [] []

variable [Facts₀]

def gather_S1000x128_S64x24x100x1_S64x24x100x128_3_0_n_n_0_3_1128 : GatherDims S1000x128 S64x24x100x1 S64x24x100x128 where
  offsetDims := [3]
  collapsedSliceDims := [0]
  operandBatchingDims := []
  startIndicesBatchingDims := []
  startIndexMap := [0]
  indexVectorDim := 3
  sliceSizes := ![1, 128]
  wf := gather_S1000x128_S64x24x100x1_S64x24x100x128_3_0_n_n_0_3_1128_wf
def gather_S3000x128_S64x24x200x1_S64x24x200x128_3_0_n_n_0_3_1128 : GatherDims S3000x128 S64x24x200x1 S64x24x200x128 where
  offsetDims := [3]
  collapsedSliceDims := [0]
  operandBatchingDims := []
  startIndicesBatchingDims := []
  startIndexMap := [0]
  indexVectorDim := 3
  sliceSizes := ![1, 128]
  wf := gather_S3000x128_S64x24x200x1_S64x24x200x128_3_0_n_n_0_3_1128_wf
def gather_S500x128_S64x24x50x1_S64x24x50x128_3_0_n_n_0_3_1128 : GatherDims S500x128 S64x24x50x1 S64x24x50x128 where
  offsetDims := [3]
  collapsedSliceDims := [0]
  operandBatchingDims := []
  startIndicesBatchingDims := []
  startIndexMap := [0]
  indexVectorDim := 3
  sliceSizes := ![1, 128]
  wf := gather_S500x128_S64x24x50x1_S64x24x50x128_3_0_n_n_0_3_1128_wf
def gather_S1500x128_S64x24x50x1_S64x24x50x128_3_0_n_n_0_3_1128 : GatherDims S1500x128 S64x24x50x1 S64x24x50x128 where
  offsetDims := [3]
  collapsedSliceDims := [0]
  operandBatchingDims := []
  startIndicesBatchingDims := []
  startIndexMap := [0]
  indexVectorDim := 3
  sliceSizes := ![1, 128]
  wf := gather_S1500x128_S64x24x50x1_S64x24x50x128_3_0_n_n_0_3_1128_wf
def gather_S700x128_S64x24x1_S64x24x128_2_0_n_n_0_2_1128 : GatherDims S700x128 S64x24x1 S64x24x128 where
  offsetDims := [2]
  collapsedSliceDims := [0]
  operandBatchingDims := []
  startIndicesBatchingDims := []
  startIndexMap := [0]
  indexVectorDim := 2
  sliceSizes := ![1, 128]
  wf := gather_S700x128_S64x24x1_S64x24x128_2_0_n_n_0_2_1128_wf
def gather_S2000x128_S64x30x1_S64x30x128_2_0_n_n_0_2_1128 : GatherDims S2000x128 S64x30x1 S64x30x128 where
  offsetDims := [2]
  collapsedSliceDims := [0]
  operandBatchingDims := []
  startIndicesBatchingDims := []
  startIndexMap := [0]
  indexVectorDim := 2
  sliceSizes := ![1, 128]
  wf := gather_S2000x128_S64x30x1_S64x30x128_2_0_n_n_0_2_1128_wf
def gather_S2x128_S64x1_S64x128_1_0_n_n_0_1_1128 : GatherDims S2x128 S64x1 S64x128 where
  offsetDims := [1]
  collapsedSliceDims := [0]
  operandBatchingDims := []
  startIndicesBatchingDims := []
  startIndexMap := [0]
  indexVectorDim := 1
  sliceSizes := ![1, 128]
  wf := gather_S2x128_S64x1_S64x128_1_0_n_n_0_1_1128_wf
def gather_S10x128_S64x1_S64x128_1_0_n_n_0_1_1128 : GatherDims S10x128 S64x1 S64x128 where
  offsetDims := [1]
  collapsedSliceDims := [0]
  operandBatchingDims := []
  startIndicesBatchingDims := []
  startIndexMap := [0]
  indexVectorDim := 1
  sliceSizes := ![1, 128]
  wf := gather_S10x128_S64x1_S64x128_1_0_n_n_0_1_1128_wf
def gather_S5x128_S64x1_S64x128_1_0_n_n_0_1_1128 : GatherDims S5x128 S64x1 S64x128 where
  offsetDims := [1]
  collapsedSliceDims := [0]
  operandBatchingDims := []
  startIndicesBatchingDims := []
  startIndexMap := [0]
  indexVectorDim := 1
  sliceSizes := ![1, 128]
  wf := gather_S5x128_S64x1_S64x128_1_0_n_n_0_1_1128_wf
def gather_S100x128_S64x1_S64x128_1_0_n_n_0_1_1128 : GatherDims S100x128 S64x1 S64x128 where
  offsetDims := [1]
  collapsedSliceDims := [0]
  operandBatchingDims := []
  startIndicesBatchingDims := []
  startIndexMap := [0]
  indexVectorDim := 1
  sliceSizes := ![1, 128]
  wf := gather_S100x128_S64x1_S64x128_1_0_n_n_0_1_1128_wf
def dot_S1536x435_S435x128_S1536x128_1_0_0_1_n_n : DotDims S1536x435 S435x128 S1536x128 where
  lhsContracting := [1]
  rhsContracting := [0]
  lhsNonContracting := [0]
  rhsNonContracting := [1]
  lhsBatch := []
  rhsBatch := []
  wf := dot_S1536x435_S435x128_S1536x128_1_0_0_1_n_n_wf
def dot_S1536x128_S128x256_S1536x256_1_0_0_1_n_n : DotDims S1536x128 S128x256 S1536x256 where
  lhsContracting := [1]
  rhsContracting := [0]
  lhsNonContracting := [0]
  rhsNonContracting := [1]
  lhsBatch := []
  rhsBatch := []
  wf := dot_S1536x128_S128x256_S1536x256_1_0_0_1_n_n_wf
def dot_S1536x256_S256x256_S1536x256_1_0_0_1_n_n : DotDims S1536x256 S256x256 S1536x256 where
  lhsContracting := [1]
  rhsContracting := [0]
  lhsNonContracting := [0]
  rhsNonContracting := [1]
  lhsBatch := []
  rhsBatch := []
  wf := dot_S1536x256_S256x256_S1536x256_1_0_0_1_n_n_wf
def dot_S64x256_S256x128_S64x128_1_0_0_1_n_n : DotDims S64x256 S256x128 S64x128 where
  lhsContracting := [1]
  rhsContracting := [0]
  lhsNonContracting := [0]
  rhsNonContracting := [1]
  lhsBatch := []
  rhsBatch := []
  wf := dot_S64x256_S256x128_S64x128_1_0_0_1_n_n_wf
def dot_S64x128_S128x1_S64x1_1_0_0_1_n_n : DotDims S64x128 S128x1 S64x1 where
  lhsContracting := [1]
  rhsContracting := [0]
  lhsNonContracting := [0]
  rhsNonContracting := [1]
  lhsBatch := []
  rhsBatch := []
  wf := dot_S64x128_S128x1_S64x1_1_0_0_1_n_n_wf

class Facts : Prop extends Facts₀ where

variable [Facts]
-- ==== Proof.LibWrites.lean ====
import Idealize.ShloMosaic.Lib.StableHlo.Run

namespace Cert.LibWrites

open Idealize.ShloMosaic

variable {τ : Topo} {sig : RefSig}

/-- The buffer of a listed reference lies in the list's image: it bounds an operation's write set by a list. -/
theorem singleton_sub {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

end Cert.LibWrites
-- ==== Proof.K.Regions.lean ====
import proofs.«406789_j53094385713523_3_alg».proof.Proof.LibWrites
import proofs.«406789_j53094385713523_3_alg».proof.Proof.Gen.Kernel.Launch
import Idealize.ShloMosaic.Lib.Pipeline.Frame
import Idealize.ShloMosaic.Lib.Pipeline.Regions

set_option maxRecDepth 2356

noncomputable section

namespace Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := StableHlo.after hostOps0_1 (V1 m c)

abbrev V3 (c : Dev nD) : Valuation τ sig (Elt F) := StableHlo.after hostOps0_2 (V2 m c)

abbrev V4 (c : Dev nD) : Valuation τ sig (Elt F) := StableHlo.after hostOps0_3 (V3 m c)

abbrev V5 (c : Dev nD) : Valuation τ sig (Elt F) := StableHlo.after hostOps0_4 (V4 m c)

abbrev V6 (c : Dev nD) : Valuation τ sig (Elt F) := StableHlo.after hostOps0_5 (V5 m c)

abbrev V7 (c : Dev nD) : Valuation τ sig (Elt F) := StableHlo.after hostOps0_6 (V6 m c)

abbrev V8 (c : Dev nD) : Valuation τ sig (Elt F) := StableHlo.after hostOps0_7 (V7 m c)

abbrev V9 (c : Dev nD) : Valuation τ sig (Elt F) := StableHlo.after hostOps0_8 (V8 m c)

abbrev V10 (c : Dev nD) : Valuation τ sig (Elt F) := StableHlo.after hostOps0_9 (V9 m c)

abbrev V11 (c : Dev nD) : Valuation τ sig (Elt F) := StableHlo.after hostOps0_10 (V10 m c)

abbrev V12 (c : Dev nD) : Valuation τ sig (Elt F) := StableHlo.after hostOps0_11 (V11 m c)

abbrev V13 (c : Dev nD) : Valuation τ sig (Elt F) := StableHlo.after hostOps0_12 (V12 m c)

abbrev V14 (c : Dev nD) : Valuation τ sig (Elt F) := StableHlo.after hostOps0_13 (V13 m c)

abbrev V15 (c : Dev nD) : Valuation τ sig (Elt F) := StableHlo.after hostOps0_14 (V14 m c)

abbrev V16 (c : Dev nD) : Valuation τ sig (Elt F) := StableHlo.after hostOps0_15 (V15 m c)

abbrev V17 (c : Dev nD) : Valuation τ sig (Elt F) := StableHlo.after hostOps0_16 (V16 m c)

abbrev V18 (c : Dev nD) : Valuation τ sig (Elt F) := StableHlo.after hostOps0_17 (V17 m c)

abbrev V19 (c : Dev nD) : Valuation τ sig (Elt F) := StableHlo.after hostOps0_18 (V18 m c)

abbrev V20 (c : Dev nD) : Valuation τ sig (Elt F) := StableHlo.after hostOps0_19 (V19 m c)

abbrev V21 (c : Dev nD) : Valuation τ sig (Elt F) := StableHlo.after hostOps0_20 (V20 m c)

abbrev V22 (c : Dev nD) : Valuation τ sig (Elt F) := StableHlo.after hostOps0_21 (V21 m c)

abbrev V23 (c : Dev nD) : Valuation τ sig (Elt F) := StableHlo.after hostOps0_22 (V22 m c)

abbrev V24 (c : Dev nD) : Valuation τ sig (Elt F) := StableHlo.after hostOps0_23 (V23 m c)

abbrev V25 (c : Dev nD) : Valuation τ sig (Elt F) := StableHlo.after hostOps0_24 (V24 m c)

abbrev V26 (c : Dev nD) : Valuation τ sig (Elt F) := StableHlo.after hostOps0_25 (V25 m c)

abbrev V27 (c : Dev nD) : Valuation τ sig (Elt F) := StableHlo.after hostOps0_26 (V26 m c)

abbrev V28 (c : Dev nD) : Valuation τ sig (Elt F) := Function.update (V27 m c) main_v65 (outs 28 main_v65 c)

abbrev V29 (c : Dev nD) : Valuation τ sig (Elt F) := StableHlo.after hostOps1 (V28 m outs c)

abbrev V30 (c : Dev nD) : Valuation τ sig (Elt F) := StableHlo.after hostOps1_1 (V29 m outs c)

abbrev V31 (c : Dev nD) : Valuation τ sig (Elt F) := StableHlo.after hostOps1_2 (V30 m outs c)

abbrev V32 (c : Dev nD) : Valuation τ sig (Elt F) := StableHlo.after hostOps1_3 (V31 m outs c)

abbrev V33 (c : Dev nD) : Valuation τ sig (Elt F) := StableHlo.after hostOps1_4 (V32 m outs c)

abbrev V34 (c : Dev nD) : Valuation τ sig (Elt F) := StableHlo.after hostOps1_5 (V33 m outs c)

abbrev V35 (c : Dev nD) : Valuation τ sig (Elt F) := StableHlo.after hostOps1_6 (V34 m outs c)

abbrev V36 (c : Dev nD) : Valuation τ sig (Elt F) := Function.update (V35 m outs c) main_v76 (outs 36 main_v76 c)

abbrev V37 (c : Dev nD) : Valuation τ sig (Elt F) := StableHlo.after hostOps2 (V36 m outs c)

abbrev V38 (c : Dev nD) : Valuation τ sig (Elt F) := StableHlo.after hostOps2_1 (V37 m outs c)

abbrev V39 (c : Dev nD) : Valuation τ sig (Elt F) := StableHlo.after hostOps2_2 (V38 m outs c)

abbrev V40 (c : Dev nD) : Valuation τ sig (Elt F) := StableHlo.after hostOps2_3 (V39 m outs c)

abbrev V41 (c : Dev nD) : Valuation τ sig (Elt F) := StableHlo.after hostOps2_4 (V40 m outs c)

abbrev V42 (c : Dev nD) : Valuation τ sig (Elt F) := Function.update (V41 m outs c) main_v86 (outs 42 main_v86 c)

abbrev V43 (c : Dev nD) : Valuation τ sig (Elt F) := StableHlo.after hostOps3 (V42 m outs c)

abbrev V44 (c : Dev nD) : Valuation τ sig (Elt F) := StableHlo.after hostOps3_1 (V43 m outs c)

abbrev V45 (c : Dev nD) : Valuation τ sig (Elt F) := StableHlo.after hostOps3_2 (V44 m outs c)

abbrev V46 (c : Dev nD) : Valuation τ sig (Elt F) := StableHlo.after hostOps3_3 (V45 m outs c)

abbrev V47 (c : Dev nD) : Valuation τ sig (Elt F) := StableHlo.after hostOps3_4 (V46 m outs c)

abbrev V48 (c : Dev nD) : Valuation τ sig (Elt F) := Function.update (V47 m outs c) main_v96 (outs 48 main_v96 c)

abbrev V49 (c : Dev nD) : Valuation τ sig (Elt F) := StableHlo.after hostOps4 (V48 m outs c)

abbrev V50 (c : Dev nD) : Valuation τ sig (Elt F) := StableHlo.after hostOps4_1 (V49 m outs c)

abbrev V51 (c : Dev nD) : Valuation τ sig (Elt F) := StableHlo.after hostOps4_2 (V50 m outs c)

abbrev V52 (c : Dev nD) : Valuation τ sig (Elt F) := StableHlo.after hostOps4_3 (V51 m outs c)

abbrev V53 (c : Dev nD) : Valuation τ sig (Elt F) := StableHlo.after hostOps4_4 (V52 m outs c)

abbrev V54 (c : Dev nD) : Valuation τ sig (Elt F) := StableHlo.after hostOps4_5 (V53 m outs c)

abbrev V55 (c : Dev nD) : Valuation τ sig (Elt F) := StableHlo.after hostOps4_6 (V54 m outs c)

abbrev V56 (c : Dev nD) : Valuation τ sig (Elt F) := StableHlo.after hostOps4_7 (V55 m outs c)

abbrev V57 (c : Dev nD) : Valuation τ sig (Elt F) := StableHlo.after hostOps4_8 (V56 m outs c)

abbrev V58 (c : Dev nD) : Valuation τ sig (Elt F) := StableHlo.after hostOps4_9 (V57 m outs c)

abbrev V59 (c : Dev nD) : Valuation τ sig (Elt F) := StableHlo.after hostOps4_10 (V58 m outs c)

abbrev V60 (c : Dev nD) : Valuation τ sig (Elt F) := StableHlo.after hostOps4_11 (V59 m outs c)

abbrev V61 (c : Dev nD) : Valuation τ sig (Elt F) := StableHlo.after hostOps4_12 (V60 m outs c)

abbrev V62 (c : Dev nD) : Valuation τ sig (Elt F) := Function.update (Function.update (V61 m outs c) main_v177_0 (outs 62 main_v177_0 c)) main_v177_1 (outs 62 main_v177_1 c)

abbrev V63 (c : Dev nD) : Valuation τ sig (Elt F) := StableHlo.after hostOps5 (V62 m outs c)

theorem hostOps0_fresh : (hostOps0 : List (HloOp τ sig (Elt F))).Forall fun op => op.fresh = ∅ := by
  simp only [List.Forall]; repeat' constructor

abbrev hostOps0_W : List (Ref sig .tc) := [main_cst, main_v0, main_cst_0, main_v1, main_v2, main_cst_1, main_v3, main_cst_2, main_v4, main_v5, main_cst_3, main_v6, main_cst_4, main_v7, main_v8, main_cst_5, main_v9, main_cst_6, main_v10, main_v11, main_cst_7, main_v12, main_cst_8, main_v13, main_v14, main_cst_9, main_v15, main_cst_10, main_v16, main_v17, main_cst_11, main_v18, main_cst_12, main_v19, main_v20, main_cst_13, main_v21, main_cst_14, main_v22, main_v23, main_cst_15, main_v24, main_cst_16, main_v25, main_v26, main_cst_17, main_v27, main_cst_18, main_v28, main_v29, main_c, main_c_19]
theorem hostOps0_writes : (hostOps0 : List (HloOp τ sig (Elt F))).Forall fun op => op.writes ⊆ (hostOps0_W.map (Proc.devRef (τ := τ) .tc)).toFinset := by
  simp only [List.Forall]; (repeat' apply And.intro) <;> exact LibWrites.singleton_sub (by decide)
theorem hostOps0_1_fresh : (hostOps0_1 : List (HloOp τ sig (Elt F))).Forall fun op => op.fresh = ∅ := by
  simp only [List.Forall]; repeat' constructor

abbrev hostOps0_1_W : List (Ref sig .tc) := [main_call0_v0, main_call0_v1, main_call0_v2, main_call0_v3, main_call0_v4, main_v30]
theorem hostOps0_1_writes : (hostOps0_1 : List (HloOp τ sig (Elt F))).Forall fun op => op.writes ⊆ (hostOps0_1_W.map (Proc.devRef (τ := τ) .tc)).toFinset := by
  simp only [List.Forall]; (repeat' apply And.intro) <;> exact LibWrites.singleton_sub (by decide)
theorem hostOps0_2_fresh : (hostOps0_2 : List (HloOp τ sig (Elt F))).Forall fun op => op.fresh = ∅ := by
  simp only [List.Forall]; repeat' constructor

abbrev hostOps0_2_W : List (Ref sig .tc) := [main_v31, main_c_20, main_c_21]
theorem hostOps0_2_writes : (hostOps0_2 : List (HloOp τ sig (Elt F))).Forall fun op => op.writes ⊆ (hostOps0_2_W.map (Proc.devRef (τ := τ) .tc)).toFinset := by
  simp only [List.Forall]; (repeat' apply And.intro) <;> exact LibWrites.singleton_sub (by decide)
theorem hostOps0_3_fresh : (hostOps0_3 : List (HloOp τ sig (Elt F))).Forall fun op => op.fresh = ∅ := by
  simp only [List.Forall]; repeat' constructor

abbrev hostOps0_3_W : List (Ref sig .tc) := [main_call1_v0, main_call1_v1, main_call1_v2, main_call1_v3, main_call1_v4, main_v32]
theorem hostOps0_3_writes : (hostOps0_3 : List (HloOp τ sig (Elt F))).Forall fun op => op.writes ⊆ (hostOps0_3_W.map (Proc.devRef (τ := τ) .tc)).toFinset := by
  simp only [List.Forall]; (repeat' apply And.intro) <;> exact LibWrites.singleton_sub (by decide)
theorem hostOps0_4_fresh : (hostOps0_4 : List (HloOp τ sig (Elt F))).Forall fun op => op.fresh = ∅ := by
  simp only [List.Forall]; repeat' constructor

abbrev hostOps0_4_W : List (Ref sig .tc) := [main_v33, main_c_22, main_c_23]
theorem hostOps0_4_writes : (hostOps0_4 : List (HloOp τ sig (Elt F))).Forall fun op => op.writes ⊆ (hostOps0_4_W.map (Proc.devRef (τ := τ) .tc)).toFinset := by
  simp only [List.Forall]; (repeat' apply And.intro) <;> exact LibWrites.singleton_sub (by decide)
theorem hostOps0_5_fresh : (hostOps0_5 : List (HloOp τ sig (Elt F))).Forall fun op => op.fresh = ∅ := by
  simp only [List.Forall]; repeat' constructor

abbrev hostOps0_5_W : List (Ref sig .tc) := [main_call2_v0, main_call2_v1, main_call2_v2, main_call2_v3, main_call2_v4, main_v34]
theorem hostOps0_5_writes : (hostOps0_5 : List (HloOp τ sig (Elt F))).Forall fun op => op.writes ⊆ (hostOps0_5_W.map (Proc.devRef (τ := τ) .tc)).toFinset := by
  simp only [List.Forall]; (repeat' apply And.intro) <;> exact LibWrites.singleton_sub (by decide)
theorem hostOps0_6_fresh : (hostOps0_6 : List (HloOp τ sig (Elt F))).Forall fun op => op.fresh = ∅ := by
  simp only [List.Forall]; repeat' constructor

abbrev hostOps0_6_W : List (Ref sig .tc) := [main_v35, main_c_24, main_c_25]
theorem hostOps0_6_writes : (hostOps0_6 : List (HloOp τ sig (Elt F))).Forall fun op => op.writes ⊆ (hostOps0_6_W.map (Proc.devRef (τ := τ) .tc)).toFinset := by
  simp only [List.Forall]; (repeat' apply And.intro) <;> exact LibWrites.singleton_sub (by decide)
theorem hostOps0_7_fresh : (hostOps0_7 : List (HloOp τ sig (Elt F))).Forall fun op => op.fresh = ∅ := by
  simp only [List.Forall]; repeat' constructor

abbrev hostOps0_7_W : List (Ref sig .tc) := [main_call3_v0, main_call3_v1, main_call3_v2, main_call3_v3, main_call3_v4, main_v36]
theorem hostOps0_7_writes : (hostOps0_7 : List (HloOp τ sig (Elt F))).Forall fun op => op.writes ⊆ (hostOps0_7_W.map (Proc.devRef (τ := τ) .tc)).toFinset := by
  simp only [List.Forall]; (repeat' apply And.intro) <;> exact LibWrites.singleton_sub (by decide)
theorem hostOps0_8_fresh : (hostOps0_8 : List (HloOp τ sig (Elt F))).Forall fun op => op.fresh = ∅ := by
  simp only [List.Forall]; repeat' constructor

abbrev hostOps0_8_W : List (Ref sig .tc) := [main_v37, main_c_26, main_c_27]
theorem hostOps0_8_writes : (hostOps0_8 : List (HloOp τ sig (Elt F))).Forall fun op => op.writes ⊆ (hostOps0_8_W.map (Proc.devRef (τ := τ) .tc)).toFinset := by
  simp only [List.Forall]; (repeat' apply And.intro) <;> exact LibWrites.singleton_sub (by decide)
theorem hostOps0_9_fresh : (hostOps0_9 : List (HloOp τ sig (Elt F))).Forall fun op => op.fresh = ∅ := by
  simp only [List.Forall]; repeat' constructor

abbrev hostOps0_9_W : List (Ref sig .tc) := [main_call4_v0, main_call4_v1, main_call4_v2, main_call4_v3, main_call4_v4, main_v38]
theorem hostOps0_9_writes : (hostOps0_9 : List (HloOp τ sig (Elt F))).Forall fun op => op.writes ⊆ (hostOps0_9_W.map (Proc.devRef (τ := τ) .tc)).toFinset := by
  simp only [List.Forall]; (repeat' apply And.intro) <;> exact LibWrites.singleton_sub (by decide)
theorem hostOps0_10_fresh : (hostOps0_10 : List (HloOp τ sig (Elt F))).Forall fun op => op.fresh = ∅ := by
  simp only [List.Forall]; repeat' constructor

abbrev hostOps0_10_W : List (Ref sig .tc) := [main_v39, main_c_28, main_c_29]
theorem hostOps0_10_writes : (hostOps0_10 : List (HloOp τ sig (Elt F))).Forall fun op => op.writes ⊆ (hostOps0_10_W.map (Proc.devRef (τ := τ) .tc)).toFinset := by
  simp only [List.Forall]; (repeat' apply And.intro) <;> exact LibWrites.singleton_sub (by decide)
theorem hostOps0_11_fresh : (hostOps0_11 : List (HloOp τ sig (Elt F))).Forall fun op => op.fresh = ∅ := by
  simp only [List.Forall]; repeat' constructor

abbrev hostOps0_11_W : List (Ref sig .tc) := [main_call5_v0, main_call5_v1, main_call5_v2, main_call5_v3, main_call5_v4, main_v40]
theorem hostOps0_11_writes : (hostOps0_11 : List (HloOp τ sig (Elt F))).Forall fun op => op.writes ⊆ (hostOps0_11_W.map (Proc.devRef (τ := τ) .tc)).toFinset := by
  simp only [List.Forall]; (repeat' apply And.intro) <;> exact LibWrites.singleton_sub (by decide)
theorem hostOps0_12_fresh : (hostOps0_12 : List (HloOp τ sig (Elt F))).Forall fun op => op.fresh = ∅ := by
  simp only [List.Forall]; repeat' constructor

abbrev hostOps0_12_W : List (Ref sig .tc) := [main_v41, main_v42, main_c_30, main_c_31]
theorem hostOps0_12_writes : (hostOps0_12 : List (HloOp τ sig (Elt F))).Forall fun op => op.writes ⊆ (hostOps0_12_W.map (Proc.devRef (τ := τ) .tc)).toFinset := by
  simp only [List.Forall]; (repeat' apply And.intro) <;> exact LibWrites.singleton_sub (by decide)
theorem hostOps0_13_fresh : (hostOps0_13 : List (HloOp τ sig (Elt F))).Forall fun op => op.fresh = ∅ := by
  simp only [List.Forall]; repeat' constructor

abbrev hostOps0_13_W : List (Ref sig .tc) := [main_call6_v0, main_call6_v1, main_call6_v2, main_call6_v3, main_call6_v4, main_v43]
theorem hostOps0_13_writes : (hostOps0_13 : List (HloOp τ sig (Elt F))).Forall fun op => op.writes ⊆ (hostOps0_13_W.map (Proc.devRef (τ := τ) .tc)).toFinset := by
  simp only [List.Forall]; (repeat' apply And.intro) <;> exact LibWrites.singleton_sub (by decide)
theorem hostOps0_14_fresh : (hostOps0_14 : List (HloOp τ sig (Elt F))).Forall fun op => op.fresh = ∅ := by
  simp only [List.Forall]; repeat' constructor

abbrev hostOps0_14_W : List (Ref sig .tc) := [main_v44, main_v45, main_v46, main_c_32, main_c_33]
theorem hostOps0_14_writes : (hostOps0_14 : List (HloOp τ sig (Elt F))).Forall fun op => op.writes ⊆ (hostOps0_14_W.map (Proc.devRef (τ := τ) .tc)).toFinset := by
  simp only [List.Forall]; (repeat' apply And.intro) <;> exact LibWrites.singleton_sub (by decide)
theorem hostOps0_15_fresh : (hostOps0_15 : List (HloOp τ sig (Elt F))).Forall fun op => op.fresh = ∅ := by
  simp only [List.Forall]; repeat' constructor

abbrev hostOps0_15_W : List (Ref sig .tc) := [main_call7_v0, main_call7_v1, main_call7_v2, main_call7_v3, main_call7_v4, main_v47]
theorem hostOps0_15_writes : (hostOps0_15 : List (HloOp τ sig (Elt F))).Forall fun op => op.writes ⊆ (hostOps0_15_W.map (Proc.devRef (τ := τ) .tc)).toFinset := by
  simp only [List.Forall]; (repeat' apply And.intro) <;> exact LibWrites.singleton_sub (by decide)
theorem hostOps0_16_fresh : (hostOps0_16 : List (HloOp τ sig (Elt F))).Forall fun op => op.fresh = ∅ := by
  simp only [List.Forall]; repeat' constructor

abbrev hostOps0_16_W : List (Ref sig .tc) := [main_v48, main_v49, main_v50, main_c_34, main_c_35]
theorem hostOps0_16_writes : (hostOps0_16 : List (HloOp τ sig (Elt F))).Forall fun op => op.writes ⊆ (hostOps0_16_W.map (Proc.devRef (τ := τ) .tc)).toFinset := by
  simp only [List.Forall]; (repeat' apply And.intro) <;> exact LibWrites.singleton_sub (by decide)
theorem hostOps0_17_fresh : (hostOps0_17 : List (HloOp τ sig (Elt F))).Forall fun op => op.fresh = ∅ := by
  simp only [List.Forall]; repeat' constructor

abbrev hostOps0_17_W : List (Ref sig .tc) := [main_call8_v0, main_call8_v1, main_call8_v2, main_call8_v3, main_call8_v4, main_v51]
theorem hostOps0_17_writes : (hostOps0_17 : List (HloOp τ sig (Elt F))).Forall fun op => op.writes ⊆ (hostOps0_17_W.map (Proc.devRef (τ := τ) .tc)).toFinset := by
  simp only [List.Forall]; (repeat' apply And.intro) <;> exact LibWrites.singleton_sub (by decide)
theorem hostOps0_18_fresh : (hostOps0_18 : List (HloOp τ sig (Elt F))).Forall fun op => op.fresh = ∅ := by
  simp only [List.Forall]; repeat' constructor

abbrev hostOps0_18_W : List (Ref sig .tc) := [main_v52, main_v53, main_v54, main_c_36, main_c_37]
theorem hostOps0_18_writes : (hostOps0_18 : List (HloOp τ sig (Elt F))).Forall fun op => op.writes ⊆ (hostOps0_18_W.map (Proc.devRef (τ := τ) .tc)).toFinset := by
  simp only [List.Forall]; (repeat' apply And.intro) <;> exact LibWrites.singleton_sub (by decide)
theorem hostOps0_19_fresh : (hostOps0_19 : List (HloOp τ sig (Elt F))).Forall fun op => op.fresh = ∅ := by
  simp only [List.Forall]; repeat' constructor

abbrev hostOps0_19_W : List (Ref sig .tc) := [main_call9_v0, main_call9_v1, main_call9_v2, main_call9_v3, main_call9_v4, main_v55]
theorem hostOps0_19_writes : (hostOps0_19 : List (HloOp τ sig (Elt F))).Forall fun op => op.writes ⊆ (hostOps0_19_W.map (Proc.devRef (τ := τ) .tc)).toFinset := by
  simp only [List.Forall]; (repeat' apply And.intro) <;> exact LibWrites.singleton_sub (by decide)
theorem hostOps0_20_fresh : (hostOps0_20 : List (HloOp τ sig (Elt F))).Forall fun op => op.fresh = ∅ := by
  simp only [List.Forall]; repeat' constructor

abbrev hostOps0_20_W : List (Ref sig .tc) := [main_v56, main_c_38, main_c_39]
theorem hostOps0_20_writes : (hostOps0_20 : List (HloOp τ sig (Elt F))).Forall fun op => op.writes ⊆ (hostOps0_20_W.map (Proc.devRef (τ := τ) .tc)).toFinset := by
  simp only [List.Forall]; (repeat' apply And.intro) <;> exact LibWrites.singleton_sub (by decide)
theorem hostOps0_21_fresh : (hostOps0_21 : List (HloOp τ sig (Elt F))).Forall fun op => op.fresh = ∅ := by
  simp only [List.Forall]; repeat' constructor

abbrev hostOps0_21_W : List (Ref sig .tc) := [main_call10_v0, main_call10_v1, main_call10_v2, main_call10_v3, main_call10_v4, main_v57]
theorem hostOps0_21_writes : (hostOps0_21 : List (HloOp τ sig (Elt F))).Forall fun op => op.writes ⊆ (hostOps0_21_W.map (Proc.devRef (τ := τ) .tc)).toFinset := by
  simp only [List.Forall]; (repeat' apply And.intro) <;> exact LibWrites.singleton_sub (by decide)
theorem hostOps0_22_fresh : (hostOps0_22 : List (HloOp τ sig (Elt F))).Forall fun op => op.fresh = ∅ := by
  simp only [List.Forall]; repeat' constructor

abbrev hostOps0_22_W : List (Ref sig .tc) := [main_c_40]
theorem hostOps0_22_writes : (hostOps0_22 : List (HloOp τ sig (Elt F))).Forall fun op => op.writes ⊆ (hostOps0_22_W.map (Proc.devRef (τ := τ) .tc)).toFinset := by
  simp only [List.Forall]; (repeat' apply And.intro) <;> exact LibWrites.singleton_sub (by decide)
theorem hostOps0_23_fresh : (hostOps0_23 : List (HloOp τ sig (Elt F))).Forall fun op => op.fresh = ∅ := by
  simp only [List.Forall]; repeat' constructor

abbrev hostOps0_23_W : List (Ref sig .tc) := [main_call11_v0, main_v58]
theorem hostOps0_23_writes : (hostOps0_23 : List (HloOp τ sig (Elt F))).Forall fun op => op.writes ⊆ (hostOps0_23_W.map (Proc.devRef (τ := τ) .tc)).toFinset := by
  simp only [List.Forall]; (repeat' apply And.intro) <;> exact LibWrites.singleton_sub (by decide)
theorem hostOps0_24_fresh : (hostOps0_24 : List (HloOp τ sig (Elt F))).Forall fun op => op.fresh = ∅ := by
  simp only [List.Forall]; repeat' constructor

abbrev hostOps0_24_W : List (Ref sig .tc) := [main_v59, main_c_41]
theorem hostOps0_24_writes : (hostOps0_24 : List (HloOp τ sig (Elt F))).Forall fun op => op.writes ⊆ (hostOps0_24_W.map (Proc.devRef (τ := τ) .tc)).toFinset := by
  simp only [List.Forall]; (repeat' apply And.intro) <;> exact LibWrites.singleton_sub (by decide)
theorem hostOps0_25_fresh : (hostOps0_25 : List (HloOp τ sig (Elt F))).Forall fun op => op.fresh = ∅ := by
  simp only [List.Forall]; repeat' constructor

abbrev hostOps0_25_W : List (Ref sig .tc) := [main_call12_v0, main_v60]
theorem hostOps0_25_writes : (hostOps0_25 : List (HloOp τ sig (Elt F))).Forall fun op => op.writes ⊆ (hostOps0_25_W.map (Proc.devRef (τ := τ) .tc)).toFinset := by
  simp only [List.Forall]; (repeat' apply And.intro) <;> exact LibWrites.singleton_sub (by decide)
theorem hostOps0_26_fresh : (hostOps0_26 : List (HloOp τ sig (Elt F))).Forall fun op => op.fresh = ∅ := by
  simp only [List.Forall]; repeat' constructor

abbrev hostOps0_26_W : List (Ref sig .tc) := [main_v61, main_c_42, main_v62, main_v63, main_v64]
theorem hostOps0_26_writes : (hostOps0_26 : List (HloOp τ sig (Elt F))).Forall fun op => op.writes ⊆ (hostOps0_26_W.map (Proc.devRef (τ := τ) .tc)).toFinset := by
  simp only [List.Forall]; (repeat' apply And.intro) <;> exact LibWrites.singleton_sub (by decide)
theorem hostOps1_fresh : (hostOps1 : List (HloOp τ sig (Elt F))).Forall fun op => op.fresh = ∅ := by
  simp only [List.Forall]; repeat' constructor

abbrev hostOps1_W : List (Ref sig .tc) := [main_cst_43, main_v66, main_v67, main_c_44, main_c_45]
theorem hostOps1_writes : (hostOps1 : List (HloOp τ sig (Elt F))).Forall fun op => op.writes ⊆ (hostOps1_W.map (Proc.devRef (τ := τ) .tc)).toFinset := by
  simp only [List.Forall]; (repeat' apply And.intro) <;> exact LibWrites.singleton_sub (by decide)
theorem hostOps1_1_fresh : (hostOps1_1 : List (HloOp τ sig (Elt F))).Forall fun op => op.fresh = ∅ := by
  simp only [List.Forall]; repeat' constructor

abbrev hostOps1_1_W : List (Ref sig .tc) := [main_call13_v0, main_call13_v1, main_call13_v2, main_call13_v3, main_call13_v4, main_v68]
theorem hostOps1_1_writes : (hostOps1_1 : List (HloOp τ sig (Elt F))).Forall fun op => op.writes ⊆ (hostOps1_1_W.map (Proc.devRef (τ := τ) .tc)).toFinset := by
  simp only [List.Forall]; (repeat' apply And.intro) <;> exact LibWrites.singleton_sub (by decide)
theorem hostOps1_2_fresh : (hostOps1_2 : List (HloOp τ sig (Elt F))).Forall fun op => op.fresh = ∅ := by
  simp only [List.Forall]; repeat' constructor

abbrev hostOps1_2_W : List (Ref sig .tc) := [main_c_46]
theorem hostOps1_2_writes : (hostOps1_2 : List (HloOp τ sig (Elt F))).Forall fun op => op.writes ⊆ (hostOps1_2_W.map (Proc.devRef (τ := τ) .tc)).toFinset := by
  simp only [List.Forall]; (repeat' apply And.intro) <;> exact LibWrites.singleton_sub (by decide)
theorem hostOps1_3_fresh : (hostOps1_3 : List (HloOp τ sig (Elt F))).Forall fun op => op.fresh = ∅ := by
  simp only [List.Forall]; repeat' constructor

abbrev hostOps1_3_W : List (Ref sig .tc) := [main_call14_v0, main_v69]
theorem hostOps1_3_writes : (hostOps1_3 : List (HloOp τ sig (Elt F))).Forall fun op => op.writes ⊆ (hostOps1_3_W.map (Proc.devRef (τ := τ) .tc)).toFinset := by
  simp only [List.Forall]; (repeat' apply And.intro) <;> exact LibWrites.singleton_sub (by decide)
theorem hostOps1_4_fresh : (hostOps1_4 : List (HloOp τ sig (Elt F))).Forall fun op => op.fresh = ∅ := by
  simp only [List.Forall]; repeat' constructor

abbrev hostOps1_4_W : List (Ref sig .tc) := [main_v70, main_c_47]
theorem hostOps1_4_writes : (hostOps1_4 : List (HloOp τ sig (Elt F))).Forall fun op => op.writes ⊆ (hostOps1_4_W.map (Proc.devRef (τ := τ) .tc)).toFinset := by
  simp only [List.Forall]; (repeat' apply And.intro) <;> exact LibWrites.singleton_sub (by decide)
theorem hostOps1_5_fresh : (hostOps1_5 : List (HloOp τ sig (Elt F))).Forall fun op => op.fresh = ∅ := by
  simp only [List.Forall]; repeat' constructor

abbrev hostOps1_5_W : List (Ref sig .tc) := [main_call15_v0, main_v71]
theorem hostOps1_5_writes : (hostOps1_5 : List (HloOp τ sig (Elt F))).Forall fun op => op.writes ⊆ (hostOps1_5_W.map (Proc.devRef (τ := τ) .tc)).toFinset := by
  simp only [List.Forall]; (repeat' apply And.intro) <;> exact LibWrites.singleton_sub (by decide)
theorem hostOps1_6_fresh : (hostOps1_6 : List (HloOp τ sig (Elt F))).Forall fun op => op.fresh = ∅ := by
  simp only [List.Forall]; repeat' constructor

abbrev hostOps1_6_W : List (Ref sig .tc) := [main_v72, main_c_48, main_v73, main_v74, main_v75]
theorem hostOps1_6_writes : (hostOps1_6 : List (HloOp τ sig (Elt F))).Forall fun op => op.writes ⊆ (hostOps1_6_W.map (Proc.devRef (τ := τ) .tc)).toFinset := by
  simp only [List.Forall]; (repeat' apply And.intro) <;> exact LibWrites.singleton_sub (by decide)
theorem hostOps2_fresh : (hostOps2 : List (HloOp τ sig (Elt F))).Forall fun op => op.fresh = ∅ := by
  simp only [List.Forall]; repeat' constructor

abbrev hostOps2_W : List (Ref sig .tc) := [main_cst_49, main_v77, main_v78, main_c_50, main_c_51]
theorem hostOps2_writes : (hostOps2 : List (HloOp τ sig (Elt F))).Forall fun op => op.writes ⊆ (hostOps2_W.map (Proc.devRef (τ := τ) .tc)).toFinset := by
  simp only [List.Forall]; (repeat' apply And.intro) <;> exact LibWrites.singleton_sub (by decide)
theorem hostOps2_1_fresh : (hostOps2_1 : List (HloOp τ sig (Elt F))).Forall fun op => op.fresh = ∅ := by
  simp only [List.Forall]; repeat' constructor

abbrev hostOps2_1_W : List (Ref sig .tc) := [main_call16_v0, main_call16_v1, main_call16_v2, main_call16_v3, main_call16_v4, main_v79]
theorem hostOps2_1_writes : (hostOps2_1 : List (HloOp τ sig (Elt F))).Forall fun op => op.writes ⊆ (hostOps2_1_W.map (Proc.devRef (τ := τ) .tc)).toFinset := by
  simp only [List.Forall]; (repeat' apply And.intro) <;> exact LibWrites.singleton_sub (by decide)
theorem hostOps2_2_fresh : (hostOps2_2 : List (HloOp τ sig (Elt F))).Forall fun op => op.fresh = ∅ := by
  simp only [List.Forall]; repeat' constructor

abbrev hostOps2_2_W : List (Ref sig .tc) := [main_c_52]
theorem hostOps2_2_writes : (hostOps2_2 : List (HloOp τ sig (Elt F))).Forall fun op => op.writes ⊆ (hostOps2_2_W.map (Proc.devRef (τ := τ) .tc)).toFinset := by
  simp only [List.Forall]; (repeat' apply And.intro) <;> exact LibWrites.singleton_sub (by decide)
theorem hostOps2_3_fresh : (hostOps2_3 : List (HloOp τ sig (Elt F))).Forall fun op => op.fresh = ∅ := by
  simp only [List.Forall]; repeat' constructor

abbrev hostOps2_3_W : List (Ref sig .tc) := [main_call17_v0, main_v80]
theorem hostOps2_3_writes : (hostOps2_3 : List (HloOp τ sig (Elt F))).Forall fun op => op.writes ⊆ (hostOps2_3_W.map (Proc.devRef (τ := τ) .tc)).toFinset := by
  simp only [List.Forall]; (repeat' apply And.intro) <;> exact LibWrites.singleton_sub (by decide)
theorem hostOps2_4_fresh : (hostOps2_4 : List (HloOp τ sig (Elt F))).Forall fun op => op.fresh = ∅ := by
  simp only [List.Forall]; repeat' constructor

abbrev hostOps2_4_W : List (Ref sig .tc) := [main_v81, main_v82, main_c_53, main_v83, main_v84, main_v85]
theorem hostOps2_4_writes : (hostOps2_4 : List (HloOp τ sig (Elt F))).Forall fun op => op.writes ⊆ (hostOps2_4_W.map (Proc.devRef (τ := τ) .tc)).toFinset := by
  simp only [List.Forall]; (repeat' apply And.intro) <;> exact LibWrites.singleton_sub (by decide)
theorem hostOps3_fresh : (hostOps3 : List (HloOp τ sig (Elt F))).Forall fun op => op.fresh = ∅ := by
  simp only [List.Forall]; repeat' constructor

abbrev hostOps3_W : List (Ref sig .tc) := [main_cst_54, main_v87, main_v88, main_c_55, main_c_56]
theorem hostOps3_writes : (hostOps3 : List (HloOp τ sig (Elt F))).Forall fun op => op.writes ⊆ (hostOps3_W.map (Proc.devRef (τ := τ) .tc)).toFinset := by
  simp only [List.Forall]; (repeat' apply And.intro) <;> exact LibWrites.singleton_sub (by decide)
theorem hostOps3_1_fresh : (hostOps3_1 : List (HloOp τ sig (Elt F))).Forall fun op => op.fresh = ∅ := by
  simp only [List.Forall]; repeat' constructor

abbrev hostOps3_1_W : List (Ref sig .tc) := [main_call18_v0, main_call18_v1, main_call18_v2, main_call18_v3, main_call18_v4, main_v89]
theorem hostOps3_1_writes : (hostOps3_1 : List (HloOp τ sig (Elt F))).Forall fun op => op.writes ⊆ (hostOps3_1_W.map (Proc.devRef (τ := τ) .tc)).toFinset := by
  simp only [List.Forall]; (repeat' apply And.intro) <;> exact LibWrites.singleton_sub (by decide)
theorem hostOps3_2_fresh : (hostOps3_2 : List (HloOp τ sig (Elt F))).Forall fun op => op.fresh = ∅ := by
  simp only [List.Forall]; repeat' constructor

abbrev hostOps3_2_W : List (Ref sig .tc) := [main_c_57]
theorem hostOps3_2_writes : (hostOps3_2 : List (HloOp τ sig (Elt F))).Forall fun op => op.writes ⊆ (hostOps3_2_W.map (Proc.devRef (τ := τ) .tc)).toFinset := by
  simp only [List.Forall]; (repeat' apply And.intro) <;> exact LibWrites.singleton_sub (by decide)
theorem hostOps3_3_fresh : (hostOps3_3 : List (HloOp τ sig (Elt F))).Forall fun op => op.fresh = ∅ := by
  simp only [List.Forall]; repeat' constructor

abbrev hostOps3_3_W : List (Ref sig .tc) := [main_call19_v0, main_v90]
theorem hostOps3_3_writes : (hostOps3_3 : List (HloOp τ sig (Elt F))).Forall fun op => op.writes ⊆ (hostOps3_3_W.map (Proc.devRef (τ := τ) .tc)).toFinset := by
  simp only [List.Forall]; (repeat' apply And.intro) <;> exact LibWrites.singleton_sub (by decide)
theorem hostOps3_4_fresh : (hostOps3_4 : List (HloOp τ sig (Elt F))).Forall fun op => op.fresh = ∅ := by
  simp only [List.Forall]; repeat' constructor

abbrev hostOps3_4_W : List (Ref sig .tc) := [main_v91, main_v92, main_c_58, main_v93, main_v94, main_v95]
theorem hostOps3_4_writes : (hostOps3_4 : List (HloOp τ sig (Elt F))).Forall fun op => op.writes ⊆ (hostOps3_4_W.map (Proc.devRef (τ := τ) .tc)).toFinset := by
  simp only [List.Forall]; (repeat' apply And.intro) <;> exact LibWrites.singleton_sub (by decide)
theorem hostOps4_fresh : (hostOps4 : List (HloOp τ sig (Elt F))).Forall fun op => op.fresh = ∅ := by
  simp only [List.Forall]; repeat' constructor

abbrev hostOps4_W : List (Ref sig .tc) := [main_cst_59, main_v97, main_v98, main_c_60, main_c_61]
theorem hostOps4_writes : (hostOps4 : List (HloOp τ sig (Elt F))).Forall fun op => op.writes ⊆ (hostOps4_W.map (Proc.devRef (τ := τ) .tc)).toFinset := by
  simp only [List.Forall]; (repeat' apply And.intro) <;> exact LibWrites.singleton_sub (by decide)
theorem hostOps4_1_fresh : (hostOps4_1 : List (HloOp τ sig (Elt F))).Forall fun op => op.fresh = ∅ := by
  simp only [List.Forall]; repeat' constructor

abbrev hostOps4_1_W : List (Ref sig .tc) := [main_call20_v0, main_call20_v1, main_call20_v2, main_call20_v3, main_call20_v4, main_v99]
theorem hostOps4_1_writes : (hostOps4_1 : List (HloOp τ sig (Elt F))).Forall fun op => op.writes ⊆ (hostOps4_1_W.map (Proc.devRef (τ := τ) .tc)).toFinset := by
  simp only [List.Forall]; (repeat' apply And.intro) <;> exact LibWrites.singleton_sub (by decide)
theorem hostOps4_2_fresh : (hostOps4_2 : List (HloOp τ sig (Elt F))).Forall fun op => op.fresh = ∅ := by
  simp only [List.Forall]; repeat' constructor

abbrev hostOps4_2_W : List (Ref sig .tc) := [main_c_62, main_v100, main_v101, main_c_63, main_v102, main_v103, main_v104, main_v105, main_v106, main_cst_64, main_v107, main_v108, main_cst_65, main_v109, main_v110, main_c_66, main_c_67]
theorem hostOps4_2_writes : (hostOps4_2 : List (HloOp τ sig (Elt F))).Forall fun op => op.writes ⊆ (hostOps4_2_W.map (Proc.devRef (τ := τ) .tc)).toFinset := by
  simp only [List.Forall]; (repeat' apply And.intro) <;> exact LibWrites.singleton_sub (by decide)
theorem hostOps4_3_fresh : (hostOps4_3 : List (HloOp τ sig (Elt F))).Forall fun op => op.fresh = ∅ := by
  simp only [List.Forall]; repeat' constructor

abbrev hostOps4_3_W : List (Ref sig .tc) := [main_call21_v0, main_call21_v1, main_call21_v2, main_call21_v3, main_call21_v4, main_v111]
theorem hostOps4_3_writes : (hostOps4_3 : List (HloOp τ sig (Elt F))).Forall fun op => op.writes ⊆ (hostOps4_3_W.map (Proc.devRef (τ := τ) .tc)).toFinset := by
  simp only [List.Forall]; (repeat' apply And.intro) <;> exact LibWrites.singleton_sub (by decide)
theorem hostOps4_4_fresh : (hostOps4_4 : List (HloOp τ sig (Elt F))).Forall fun op => op.fresh = ∅ := by
  simp only [List.Forall]; repeat' constructor

abbrev hostOps4_4_W : List (Ref sig .tc) := [main_c_68, main_v112, main_v113, main_c_69, main_v114, main_v115, main_v116, main_v117, main_v118, main_cst_70, main_v119, main_v120, main_cst_71, main_v121, main_v122, main_c_72, main_c_73]
theorem hostOps4_4_writes : (hostOps4_4 : List (HloOp τ sig (Elt F))).Forall fun op => op.writes ⊆ (hostOps4_4_W.map (Proc.devRef (τ := τ) .tc)).toFinset := by
  simp only [List.Forall]; (repeat' apply And.intro) <;> exact LibWrites.singleton_sub (by decide)
theorem hostOps4_5_fresh : (hostOps4_5 : List (HloOp τ sig (Elt F))).Forall fun op => op.fresh = ∅ := by
  simp only [List.Forall]; repeat' constructor

abbrev hostOps4_5_W : List (Ref sig .tc) := [main_call22_v0, main_call22_v1, main_call22_v2, main_call22_v3, main_call22_v4, main_v123]
theorem hostOps4_5_writes : (hostOps4_5 : List (HloOp τ sig (Elt F))).Forall fun op => op.writes ⊆ (hostOps4_5_W.map (Proc.devRef (τ := τ) .tc)).toFinset := by
  simp only [List.Forall]; (repeat' apply And.intro) <;> exact LibWrites.singleton_sub (by decide)
theorem hostOps4_6_fresh : (hostOps4_6 : List (HloOp τ sig (Elt F))).Forall fun op => op.fresh = ∅ := by
  simp only [List.Forall]; repeat' constructor

abbrev hostOps4_6_W : List (Ref sig .tc) := [main_c_74, main_v124, main_v125, main_c_75, main_v126, main_v127, main_v128, main_v129, main_v130, main_cst_76, main_v131, main_v132, main_cst_77, main_v133, main_v134, main_c_78, main_c_79]
theorem hostOps4_6_writes : (hostOps4_6 : List (HloOp τ sig (Elt F))).Forall fun op => op.writes ⊆ (hostOps4_6_W.map (Proc.devRef (τ := τ) .tc)).toFinset := by
  simp only [List.Forall]; (repeat' apply And.intro) <;> exact LibWrites.singleton_sub (by decide)
theorem hostOps4_7_fresh : (hostOps4_7 : List (HloOp τ sig (Elt F))).Forall fun op => op.fresh = ∅ := by
  simp only [List.Forall]; repeat' constructor

abbrev hostOps4_7_W : List (Ref sig .tc) := [main_call23_v0, main_call23_v1, main_call23_v2, main_call23_v3, main_call23_v4, main_v135]
theorem hostOps4_7_writes : (hostOps4_7 : List (HloOp τ sig (Elt F))).Forall fun op => op.writes ⊆ (hostOps4_7_W.map (Proc.devRef (τ := τ) .tc)).toFinset := by
  simp only [List.Forall]; (repeat' apply And.intro) <;> exact LibWrites.singleton_sub (by decide)
theorem hostOps4_8_fresh : (hostOps4_8 : List (HloOp τ sig (Elt F))).Forall fun op => op.fresh = ∅ := by
  simp only [List.Forall]; repeat' constructor

abbrev hostOps4_8_W : List (Ref sig .tc) := [main_c_80, main_v136, main_v137, main_c_81, main_v138, main_v139, main_v140, main_v141, main_v142, main_cst_82, main_v143, main_v144, main_cst_83, main_v145, main_v146, main_c_84, main_c_85]
theorem hostOps4_8_writes : (hostOps4_8 : List (HloOp τ sig (Elt F))).Forall fun op => op.writes ⊆ (hostOps4_8_W.map (Proc.devRef (τ := τ) .tc)).toFinset := by
  simp only [List.Forall]; (repeat' apply And.intro) <;> exact LibWrites.singleton_sub (by decide)
theorem hostOps4_9_fresh : (hostOps4_9 : List (HloOp τ sig (Elt F))).Forall fun op => op.fresh = ∅ := by
  simp only [List.Forall]; repeat' constructor

abbrev hostOps4_9_W : List (Ref sig .tc) := [main_call24_v0, main_call24_v1, main_call24_v2, main_call24_v3, main_call24_v4, main_v147]
theorem hostOps4_9_writes : (hostOps4_9 : List (HloOp τ sig (Elt F))).Forall fun op => op.writes ⊆ (hostOps4_9_W.map (Proc.devRef (τ := τ) .tc)).toFinset := by
  simp only [List.Forall]; (repeat' apply And.intro) <;> exact LibWrites.singleton_sub (by decide)
theorem hostOps4_10_fresh : (hostOps4_10 : List (HloOp τ sig (Elt F))).Forall fun op => op.fresh = ∅ := by
  simp only [List.Forall]; repeat' constructor

abbrev hostOps4_10_W : List (Ref sig .tc) := [main_c_86, main_v148, main_v149, main_c_87, main_v150, main_v151, main_v152, main_v153, main_v154, main_cst_88, main_v155, main_v156, main_cst_89, main_v157, main_v158, main_c_90, main_c_91]
theorem hostOps4_10_writes : (hostOps4_10 : List (HloOp τ sig (Elt F))).Forall fun op => op.writes ⊆ (hostOps4_10_W.map (Proc.devRef (τ := τ) .tc)).toFinset := by
  simp only [List.Forall]; (repeat' apply And.intro) <;> exact LibWrites.singleton_sub (by decide)
theorem hostOps4_11_fresh : (hostOps4_11 : List (HloOp τ sig (Elt F))).Forall fun op => op.fresh = ∅ := by
  simp only [List.Forall]; repeat' constructor

abbrev hostOps4_11_W : List (Ref sig .tc) := [main_call25_v0, main_call25_v1, main_call25_v2, main_call25_v3, main_call25_v4, main_v159]
theorem hostOps4_11_writes : (hostOps4_11 : List (HloOp τ sig (Elt F))).Forall fun op => op.writes ⊆ (hostOps4_11_W.map (Proc.devRef (τ := τ) .tc)).toFinset := by
  simp only [List.Forall]; (repeat' apply And.intro) <;> exact LibWrites.singleton_sub (by decide)
theorem hostOps4_12_fresh : (hostOps4_12 : List (HloOp τ sig (Elt F))).Forall fun op => op.fresh = ∅ := by
  simp only [List.Forall]; repeat' constructor

abbrev hostOps4_12_W : List (Ref sig .tc) := [main_c_92, main_v160, main_v161, main_c_93, main_v162, main_v163, main_v164, main_v165, main_v166, main_cst_94, main_v167, main_v168, main_cst_95, main_v169, main_v170, main_v171, main_v172, main_v173, main_v174, main_v175, main_v176]
theorem hostOps4_12_writes : (hostOps4_12 : List (HloOp τ sig (Elt F))).Forall fun op => op.writes ⊆ (hostOps4_12_W.map (Proc.devRef (τ := τ) .tc)).toFinset := by
  simp only [List.Forall]; (repeat' apply And.intro) <;> exact LibWrites.singleton_sub (by decide)
theorem hostOps5_fresh : (hostOps5 : List (HloOp τ sig (Elt F))).Forall fun op => op.fresh = ∅ := by
  simp only [List.Forall]; repeat' constructor

abbrev hostOps5_W : List (Ref sig .tc) := [main_v178, main_v179]
theorem hostOps5_writes : (hostOps5 : List (HloOp τ sig (Elt F))).Forall fun op => op.writes ⊆ (hostOps5_W.map (Proc.devRef (τ := τ) .tc)).toFinset := by
  simp only [List.Forall]; (repeat' apply And.intro) <;> exact LibWrites.singleton_sub (by decide)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (c : Dev nD) (r : Ref sig .tc) (h : r ∉ hostOps0_2_W) : V3 m c r = V2 m c r :=
  StableHlo.after_of_writes_sub hostOps0_2 _ hostOps0_2_writes h
theorem V4_of (c : Dev nD) (r : Ref sig .tc) (h : r ∉ hostOps0_3_W) : V4 m c r = V3 m c r :=
  StableHlo.after_of_writes_sub hostOps0_3 _ hostOps0_3_writes h
theorem V5_of (c : Dev nD) (r : Ref sig .tc) (h : r ∉ hostOps0_4_W) : V5 m c r = V4 m c r :=
  StableHlo.after_of_writes_sub hostOps0_4 _ hostOps0_4_writes h
theorem V6_of (c : Dev nD) (r : Ref sig .tc) (h : r ∉ hostOps0_5_W) : V6 m c r = V5 m c r :=
  StableHlo.after_of_writes_sub hostOps0_5 _ hostOps0_5_writes h
theorem V7_of (c : Dev nD) (r : Ref sig .tc) (h : r ∉ hostOps0_6_W) : V7 m c r = V6 m c r :=
  StableHlo.after_of_writes_sub hostOps0_6 _ hostOps0_6_writes h
theorem V8_of (c : Dev nD) (r : Ref sig .tc) (h : r ∉ hostOps0_7_W) : V8 m c r = V7 m c r :=
  StableHlo.after_of_writes_sub hostOps0_7 _ hostOps0_7_writes h
theorem V9_of (c : Dev nD) (r : Ref sig .tc) (h : r ∉ hostOps0_8_W) : V9 m c r = V8 m c r :=
  StableHlo.after_of_writes_sub hostOps0_8 _ hostOps0_8_writes h
theorem V10_of (c : Dev nD) (r : Ref sig .tc) (h : r ∉ hostOps0_9_W) : V10 m c r = V9 m c r :=
  StableHlo.after_of_writes_sub hostOps0_9 _ hostOps0_9_writes h
theorem V11_of (c : Dev nD) (r : Ref sig .tc) (h : r ∉ hostOps0_10_W) : V11 m c r = V10 m c r :=
  StableHlo.after_of_writes_sub hostOps0_10 _ hostOps0_10_writes h
theorem V12_of (c : Dev nD) (r : Ref sig .tc) (h : r ∉ hostOps0_11_W) : V12 m c r = V11 m c r :=
  StableHlo.after_of_writes_sub hostOps0_11 _ hostOps0_11_writes h
theorem V13_of (c : Dev nD) (r : Ref sig .tc) (h : r ∉ hostOps0_12_W) : V13 m c r = V12 m c r :=
  StableHlo.after_of_writes_sub hostOps0_12 _ hostOps0_12_writes h
theorem V14_of (c : Dev nD) (r : Ref sig .tc) (h : r ∉ hostOps0_13_W) : V14 m c r = V13 m c r :=
  StableHlo.after_of_writes_sub hostOps0_13 _ hostOps0_13_writes h
theorem V15_of (c : Dev nD) (r : Ref sig .tc) (h : r ∉ hostOps0_14_W) : V15 m c r = V14 m c r :=
  StableHlo.after_of_writes_sub hostOps0_14 _ hostOps0_14_writes h
theorem V16_of (c : Dev nD) (r : Ref sig .tc) (h : r ∉ hostOps0_15_W) : V16 m c r = V15 m c r :=
  StableHlo.after_of_writes_sub hostOps0_15 _ hostOps0_15_writes h
theorem V17_of (c : Dev nD) (r : Ref sig .tc) (h : r ∉ hostOps0_16_W) : V17 m c r = V16 m c r :=
  StableHlo.after_of_writes_sub hostOps0_16 _ hostOps0_16_writes h
theorem V18_of (c : Dev nD) (r : Ref sig .tc) (h : r ∉ hostOps0_17_W) : V18 m c r = V17 m c r :=
  StableHlo.after_of_writes_sub hostOps0_17 _ hostOps0_17_writes h
theorem V19_of (c : Dev nD) (r : Ref sig .tc) (h : r ∉ hostOps0_18_W) : V19 m c r = V18 m c r :=
  StableHlo.after_of_writes_sub hostOps0_18 _ hostOps0_18_writes h
theorem V20_of (c : Dev nD) (r : Ref sig .tc) (h : r ∉ hostOps0_19_W) : V20 m c r = V19 m c r :=
  StableHlo.after_of_writes_sub hostOps0_19 _ hostOps0_19_writes h
theorem V21_of (c : Dev nD) (r : Ref sig .tc) (h : r ∉ hostOps0_20_W) : V21 m c r = V20 m c r :=
  StableHlo.after_of_writes_sub hostOps0_20 _ hostOps0_20_writes h
theorem V22_of (c : Dev nD) (r : Ref sig .tc) (h : r ∉ hostOps0_21_W) : V22 m c r = V21 m c r :=
  StableHlo.after_of_writes_sub hostOps0_21 _ hostOps0_21_writes h
theorem V23_of (c : Dev nD) (r : Ref sig .tc) (h : r ∉ hostOps0_22_W) : V23 m c r = V22 m c r :=
  StableHlo.after_of_writes_sub hostOps0_22 _ hostOps0_22_writes h
theorem V24_of (c : Dev nD) (r : Ref sig .tc) (h : r ∉ hostOps0_23_W) : V24 m c r = V23 m c r :=
  StableHlo.after_of_writes_sub hostOps0_23 _ hostOps0_23_writes h
theorem V25_of (c : Dev nD) (r : Ref sig .tc) (h : r ∉ hostOps0_24_W) : V25 m c r = V24 m c r :=
  StableHlo.after_of_writes_sub hostOps0_24 _ hostOps0_24_writes h
theorem V26_of (c : Dev nD) (r : Ref sig .tc) (h : r ∉ hostOps0_25_W) : V26 m c r = V25 m c r :=
  StableHlo.after_of_writes_sub hostOps0_25 _ hostOps0_25_writes h
theorem V27_of (c : Dev nD) (r : Ref sig .tc) (h : r ∉ hostOps0_26_W) : V27 m c r = V26 m c r :=
  StableHlo.after_of_writes_sub hostOps0_26 _ hostOps0_26_writes h
theorem V28_of (c : Dev nD) (r : Ref sig .tc) (h : r ∉ ([main_v65] : List (Ref sig .tc))) : V28 m outs c r = V27 m c r := by
  simp only [V28, Function.update_of_ne (StableHlo.devRef_ne_of_ne (List.ne_of_not_mem_cons h) : (Proc.devRef .tc r : DevRef τ sig) ≠ Proc.devRef .tc main_v65)]
theorem V29_of (c : Dev nD) (r : Ref sig .tc) (h : r ∉ hostOps1_W) : V29 m outs c r = V28 m outs c r :=
  StableHlo.after_of_writes_sub hostOps1 _ hostOps1_writes h
theorem V30_of (c : Dev nD) (r : Ref sig .tc) (h : r ∉ hostOps1_1_W) : V30 m outs c r = V29 m outs c r :=
  StableHlo.after_of_writes_sub hostOps1_1 _ hostOps1_1_writes h
theorem V31_of (c : Dev nD) (r : Ref sig .tc) (h : r ∉ hostOps1_2_W) : V31 m outs c r = V30 m outs c r :=
  StableHlo.after_of_writes_sub hostOps1_2 _ hostOps1_2_writes h
theorem V32_of (c : Dev nD) (r : Ref sig .tc) (h : r ∉ hostOps1_3_W) : V32 m outs c r = V31 m outs c r :=
  StableHlo.after_of_writes_sub hostOps1_3 _ hostOps1_3_writes h
theorem V33_of (c : Dev nD) (r : Ref sig .tc) (h : r ∉ hostOps1_4_W) : V33 m outs c r = V32 m outs c r :=
  StableHlo.after_of_writes_sub hostOps1_4 _ hostOps1_4_writes h
theorem V34_of (c : Dev nD) (r : Ref sig .tc) (h : r ∉ hostOps1_5_W) : V34 m outs c r = V33 m outs c r :=
  StableHlo.after_of_writes_sub hostOps1_5 _ hostOps1_5_writes h
theorem V35_of (c : Dev nD) (r : Ref sig .tc) (h : r ∉ hostOps1_6_W) : V35 m outs c r = V34 m outs c r :=
  StableHlo.after_of_writes_sub hostOps1_6 _ hostOps1_6_writes h
theorem V36_of (c : Dev nD) (r : Ref sig .tc) (h : r ∉ ([main_v76] : List (Ref sig .tc))) : V36 m outs c r = V35 m outs c r := by
  simp only [V36, Function.update_of_ne (StableHlo.devRef_ne_of_ne (List.ne_of_not_mem_cons h) : (Proc.devRef .tc r : DevRef τ sig) ≠ Proc.devRef .tc main_v76)]
theorem V37_of (c : Dev nD) (r : Ref sig .tc) (h : r ∉ hostOps2_W) : V37 m outs c r = V36 m outs c r :=
  StableHlo.after_of_writes_sub hostOps2 _ hostOps2_writes h
theorem V38_of (c : Dev nD) (r : Ref sig .tc) (h : r ∉ hostOps2_1_W) : V38 m outs c r = V37 m outs c r :=
  StableHlo.after_of_writes_sub hostOps2_1 _ hostOps2_1_writes h
theorem V39_of (c : Dev nD) (r : Ref sig .tc) (h : r ∉ hostOps2_2_W) : V39 m outs c r = V38 m outs c r :=
  StableHlo.after_of_writes_sub hostOps2_2 _ hostOps2_2_writes h
theorem V40_of (c : Dev nD) (r : Ref sig .tc) (h : r ∉ hostOps2_3_W) : V40 m outs c r = V39 m outs c r :=
  StableHlo.after_of_writes_sub hostOps2_3 _ hostOps2_3_writes h
theorem V41_of (c : Dev nD) (r : Ref sig .tc) (h : r ∉ hostOps2_4_W) : V41 m outs c r = V40 m outs c r :=
  StableHlo.after_of_writes_sub hostOps2_4 _ hostOps2_4_writes h
theorem V42_of (c : Dev nD) (r : Ref sig .tc) (h : r ∉ ([main_v86] : List (Ref sig .tc))) : V42 m outs c r = V41 m outs c r := by
  simp only [V42, Function.update_of_ne (StableHlo.devRef_ne_of_ne (List.ne_of_not_mem_cons h) : (Proc.devRef .tc r : DevRef τ sig) ≠ Proc.devRef .tc main_v86)]
theorem V43_of (c : Dev nD) (r : Ref sig .tc) (h : r ∉ hostOps3_W) : V43 m outs c r = V42 m outs c r :=
  StableHlo.after_of_writes_sub hostOps3 _ hostOps3_writes h
theorem V44_of (c : Dev nD) (r : Ref sig .tc) (h : r ∉ hostOps3_1_W) : V44 m outs c r = V43 m outs c r :=
  StableHlo.after_of_writes_sub hostOps3_1 _ hostOps3_1_writes h
theorem V45_of (c : Dev nD) (r : Ref sig .tc) (h : r ∉ hostOps3_2_W) : V45 m outs c r = V44 m outs c r :=
  StableHlo.after_of_writes_sub hostOps3_2 _ hostOps3_2_writes h
theorem V46_of (c : Dev nD) (r : Ref sig .tc) (h : r ∉ hostOps3_3_W) : V46 m outs c r = V45 m outs c r :=
  StableHlo.after_of_writes_sub hostOps3_3 _ hostOps3_3_writes h
theorem V47_of (c : Dev nD) (r : Ref sig .tc) (h : r ∉ hostOps3_4_W) : V47 m outs c r = V46 m outs c r :=
  StableHlo.after_of_writes_sub hostOps3_4 _ hostOps3_4_writes h
theorem V48_of (c : Dev nD) (r : Ref sig .tc) (h : r ∉ ([main_v96] : List (Ref sig .tc))) : V48 m outs c r = V47 m outs c r := by
  simp only [V48, Function.update_of_ne (StableHlo.devRef_ne_of_ne (List.ne_of_not_mem_cons h) : (Proc.devRef .tc r : DevRef τ sig) ≠ Proc.devRef .tc main_v96)]
theorem V49_of (c : Dev nD) (r : Ref sig .tc) (h : r ∉ hostOps4_W) : V49 m outs c r = V48 m outs c r :=
  StableHlo.after_of_writes_sub hostOps4 _ hostOps4_writes h
theorem V50_of (c : Dev nD) (r : Ref sig .tc) (h : r ∉ hostOps4_1_W) : V50 m outs c r = V49 m outs c r :=
  StableHlo.after_of_writes_sub hostOps4_1 _ hostOps4_1_writes h
theorem V51_of (c : Dev nD) (r : Ref sig .tc) (h : r ∉ hostOps4_2_W) : V51 m outs c r = V50 m outs c r :=
  StableHlo.after_of_writes_sub hostOps4_2 _ hostOps4_2_writes h
theorem V52_of (c : Dev nD) (r : Ref sig .tc) (h : r ∉ hostOps4_3_W) : V52 m outs c r = V51 m outs c r :=
  StableHlo.after_of_writes_sub hostOps4_3 _ hostOps4_3_writes h
theorem V53_of (c : Dev nD) (r : Ref sig .tc) (h : r ∉ hostOps4_4_W) : V53 m outs c r = V52 m outs c r :=
  StableHlo.after_of_writes_sub hostOps4_4 _ hostOps4_4_writes h
theorem V54_of (c : Dev nD) (r : Ref sig .tc) (h : r ∉ hostOps4_5_W) : V54 m outs c r = V53 m outs c r :=
  StableHlo.after_of_writes_sub hostOps4_5 _ hostOps4_5_writes h
theorem V55_of (c : Dev nD) (r : Ref sig .tc) (h : r ∉ hostOps4_6_W) : V55 m outs c r = V54 m outs c r :=
  StableHlo.after_of_writes_sub hostOps4_6 _ hostOps4_6_writes h
theorem V56_of (c : Dev nD) (r : Ref sig .tc) (h : r ∉ hostOps4_7_W) : V56 m outs c r = V55 m outs c r :=
  StableHlo.after_of_writes_sub hostOps4_7 _ hostOps4_7_writes h
theorem V57_of (c : Dev nD) (r : Ref sig .tc) (h : r ∉ hostOps4_8_W) : V57 m outs c r = V56 m outs c r :=
  StableHlo.after_of_writes_sub hostOps4_8 _ hostOps4_8_writes h
theorem V58_of (c : Dev nD) (r : Ref sig .tc) (h : r ∉ hostOps4_9_W) : V58 m outs c r = V57 m outs c r :=
  StableHlo.after_of_writes_sub hostOps4_9 _ hostOps4_9_writes h
theorem V59_of (c : Dev nD) (r : Ref sig .tc) (h : r ∉ hostOps4_10_W) : V59 m outs c r = V58 m outs c r :=
  StableHlo.after_of_writes_sub hostOps4_10 _ hostOps4_10_writes h
theorem V60_of (c : Dev nD) (r : Ref sig .tc) (h : r ∉ hostOps4_11_W) : V60 m outs c r = V59 m outs c r :=
  StableHlo.after_of_writes_sub hostOps4_11 _ hostOps4_11_writes h
theorem V61_of (c : Dev nD) (r : Ref sig .tc) (h : r ∉ hostOps4_12_W) : V61 m outs c r = V60 m outs c r :=
  StableHlo.after_of_writes_sub hostOps4_12 _ hostOps4_12_writes h
theorem V62_of (c : Dev nD) (r : Ref sig .tc) (h : r ∉ ([main_v177_0, main_v177_1] : List (Ref sig .tc))) : V62 m outs c r = V61 m outs c r := by
  simp only [V62, Function.update_of_ne (StableHlo.devRef_ne_of_ne (List.ne_of_not_mem_cons h) : (Proc.devRef .tc r : DevRef τ sig) ≠ Proc.devRef .tc main_v177_0), Function.update_of_ne (StableHlo.devRef_ne_of_ne (List.ne_of_not_mem_cons (List.not_mem_of_not_mem_cons h)) : (Proc.devRef .tc r : DevRef τ sig) ≠ Proc.devRef .tc main_v177_1)]
theorem V63_of (c : Dev nD) (r : Ref sig .tc) (h : r ∉ hostOps5_W) : V63 m outs c r = V62 m outs c r :=
  StableHlo.after_of_writes_sub hostOps5 _ hostOps5_writes h

-- A reference outside every write set holds at the end what it held at the launch.
theorem V63_keep (c : Dev nD) (r : Ref sig .tc)
    (h : r ∉ hostOps5_W ∧ r ∉ ([main_v177_0, main_v177_1] : List (Ref sig .tc)) ∧ r ∉ hostOps4_12_W ∧ r ∉ hostOps4_11_W ∧ r ∉ hostOps4_10_W ∧ r ∉ hostOps4_9_W ∧ r ∉ hostOps4_8_W ∧ r ∉ hostOps4_7_W ∧ r ∉ hostOps4_6_W ∧ r ∉ hostOps4_5_W ∧ r ∉ hostOps4_4_W ∧ r ∉ hostOps4_3_W ∧ r ∉ hostOps4_2_W ∧ r ∉ hostOps4_1_W ∧ r ∉ hostOps4_W ∧ r ∉ ([main_v96] : List (Ref sig .tc)) ∧ r ∉ hostOps3_4_W ∧ r ∉ hostOps3_3_W ∧ r ∉ hostOps3_2_W ∧ r ∉ hostOps3_1_W ∧ r ∉ hostOps3_W ∧ r ∉ ([main_v86] : List (Ref sig .tc)) ∧ r ∉ hostOps2_4_W ∧ r ∉ hostOps2_3_W ∧ r ∉ hostOps2_2_W ∧ r ∉ hostOps2_1_W ∧ r ∉ hostOps2_W ∧ r ∉ ([main_v76] : List (Ref sig .tc)) ∧ r ∉ hostOps1_6_W ∧ r ∉ hostOps1_5_W ∧ r ∉ hostOps1_4_W ∧ r ∉ hostOps1_3_W ∧ r ∉ hostOps1_2_W ∧ r ∉ hostOps1_1_W ∧ r ∉ hostOps1_W ∧ r ∉ ([main_v65] : List (Ref sig .tc)) ∧ r ∉ hostOps0_26_W ∧ r ∉ hostOps0_25_W ∧ r ∉ hostOps0_24_W ∧ r ∉ hostOps0_23_W ∧ r ∉ hostOps0_22_W ∧ r ∉ hostOps0_21_W ∧ r ∉ hostOps0_20_W ∧ r ∉ hostOps0_19_W ∧ r ∉ hostOps0_18_W ∧ r ∉ hostOps0_17_W ∧ r ∉ hostOps0_16_W ∧ r ∉ hostOps0_15_W ∧ r ∉ hostOps0_14_W ∧ r ∉ hostOps0_13_W ∧ r ∉ hostOps0_12_W ∧ r ∉ hostOps0_11_W ∧ r ∉ hostOps0_10_W ∧ r ∉ hostOps0_9_W ∧ r ∉ hostOps0_8_W ∧ r ∉ hostOps0_7_W ∧ r ∉ hostOps0_6_W ∧ r ∉ hostOps0_5_W ∧ r ∉ hostOps0_4_W ∧ r ∉ hostOps0_3_W ∧ r ∉ hostOps0_2_W ∧ r ∉ hostOps0_1_W ∧ r ∉ hostOps0_W) :
    V63 m outs c r = m ((c : Thread nD τ).loc r) := by
  obtain ⟨h63, h62, h61, h60, h59, h58, h57, h56, h55, h54, h53, h52, h51, h50, h49, h48, h47, h46, h45, h44, h43, h42, h41, h40, h39, h38, h37, h36, h35, h34, h33, h32, h31, h30, h29, h28, h27, h26, h25, h24, h23, h22, h21, h20, h19, h18, h17, h16, h15, h14, h13, h12, h11, h10, h9, h8, h7, h6, h5, h4, h3, h2, h1⟩ := h
  exact (V63_of m outs c r h63).trans <| (V62_of m outs c r h62).trans <| (V61_of m outs c r h61).trans <| (V60_of m outs c r h60).trans <| (V59_of m outs c r h59).trans <| (V58_of m outs c r h58).trans <| (V57_of m outs c r h57).trans <| (V56_of m outs c r h56).trans <| (V55_of m outs c r h55).trans <| (V54_of m outs c r h54).trans <| (V53_of m outs c r h53).trans <| (V52_of m outs c r h52).trans <| (V51_of m outs c r h51).trans <| (V50_of m outs c r h50).trans <| (V49_of m outs c r h49).trans <| (V48_of m outs c r h48).trans <| (V47_of m outs c r h47).trans <| (V46_of m outs c r h46).trans <| (V45_of m outs c r h45).trans <| (V44_of m outs c r h44).trans <| (V43_of m outs c r h43).trans <| (V42_of m outs c r h42).trans <| (V41_of m outs c r h41).trans <| (V40_of m outs c r h40).trans <| (V39_of m outs c r h39).trans <| (V38_of m outs c r h38).trans <| (V37_of m outs c r h37).trans <| (V36_of m outs c r h36).trans <| (V35_of m outs c r h35).trans <| (V34_of m outs c r h34).trans <| (V33_of m outs c r h33).trans <| (V32_of m outs c r h32).trans <| (V31_of m outs c r h31).trans <| (V30_of m outs c r h30).trans <| (V29_of m outs c r h29).trans <| (V28_of m outs c r h28).trans <| (V27_of m c r h27).trans <| (V26_of m c r h26).trans <| (V25_of m c r h25).trans <| (V24_of m c r h24).trans <| (V23_of m c r h23).trans <| (V22_of m c r h22).trans <| (V21_of m c r h21).trans <| (V20_of m c r h20).trans <| (V19_of m c r h19).trans <| (V18_of m c r h18).trans <| (V17_of m c r h17).trans <| (V16_of m c r h16).trans <| (V15_of m c r h15).trans <| (V14_of m c r h14).trans <| (V13_of m c r h13).trans <| (V12_of m c r h12).trans <| (V11_of m c r h11).trans <| (V10_of m c r h10).trans <| (V9_of m c r h9).trans <| (V8_of m c r h8).trans <| (V7_of m c r h7).trans <| (V6_of m c r h6).trans <| (V5_of m c r h5).trans <| (V4_of m c r h4).trans <| (V3_of m c r h3).trans <| (V2_of m c r h2).trans <| (V1_of m c r h1).trans rfl
theorem V63_main_arg0 (c : Dev nD) : V63 m outs c main_arg0 = m ((c : Thread nD τ).loc main_arg0) := V63_keep m outs c main_arg0 (by (repeat' apply And.intro) <;> decide)

theorem V63_main_arg1 (c : Dev nD) : V63 m outs c main_arg1 = m ((c : Thread nD τ).loc main_arg1) := V63_keep m outs c main_arg1 (by (repeat' apply And.intro) <;> decide)

theorem V63_main_arg2 (c : Dev nD) : V63 m outs c main_arg2 = m ((c : Thread nD τ).loc main_arg2) := V63_keep m outs c main_arg2 (by (repeat' apply And.intro) <;> decide)

theorem V63_main_arg3 (c : Dev nD) : V63 m outs c main_arg3 = m ((c : Thread nD τ).loc main_arg3) := V63_keep m outs c main_arg3 (by (repeat' apply And.intro) <;> decide)

theorem V63_main_arg4 (c : Dev nD) : V63 m outs c main_arg4 = m ((c : Thread nD τ).loc main_arg4) := V63_keep m outs c main_arg4 (by (repeat' apply And.intro) <;> decide)

theorem V63_main_arg5 (c : Dev nD) : V63 m outs c main_arg5 = m ((c : Thread nD τ).loc main_arg5) := V63_keep m outs c main_arg5 (by (repeat' apply And.intro) <;> decide)

theorem V63_main_arg6 (c : Dev nD) : V63 m outs c main_arg6 = m ((c : Thread nD τ).loc main_arg6) := V63_keep m outs c main_arg6 (by (repeat' apply And.intro) <;> decide)

theorem V63_main_arg7 (c : Dev nD) : V63 m outs c main_arg7 = m ((c : Thread nD τ).loc main_arg7) := V63_keep m outs c main_arg7 (by (repeat' apply And.intro) <;> decide)

theorem V63_main_arg8 (c : Dev nD) : V63 m outs c main_arg8 = m ((c : Thread nD τ).loc main_arg8) := V63_keep m outs c main_arg8 (by (repeat' apply And.intro) <;> decide)

theorem V63_main_arg9 (c : Dev nD) : V63 m outs c main_arg9 = m ((c : Thread nD τ).loc main_arg9) := V63_keep m outs c main_arg9 (by (repeat' apply And.intro) <;> decide)

theorem V63_main_arg10 (c : Dev nD) : V63 m outs c main_arg10 = m ((c : Thread nD τ).loc main_arg10) := V63_keep m outs c main_arg10 (by (repeat' apply And.intro) <;> decide)

theorem V63_main_arg11 (c : Dev nD) : V63 m outs c main_arg11 = m ((c : Thread nD τ).loc main_arg11) := V63_keep m outs c main_arg11 (by (repeat' apply And.intro) <;> decide)

theorem V63_main_arg12 (c : Dev nD) : V63 m outs c main_arg12 = m ((c : Thread nD τ).loc main_arg12) := V63_keep m outs c main_arg12 (by (repeat' apply And.intro) <;> decide)

theorem V63_main_arg13 (c : Dev nD) : V63 m outs c main_arg13 = m ((c : Thread nD τ).loc main_arg13) := V63_keep m outs c main_arg13 (by (repeat' apply And.intro) <;> decide)

theorem V63_main_arg14 (c : Dev nD) : V63 m outs c main_arg14 = m ((c : Thread nD τ).loc main_arg14) := V63_keep m outs c main_arg14 (by (repeat' apply And.intro) <;> decide)

theorem V63_main_arg15 (c : Dev nD) : V63 m outs c main_arg15 = m ((c : Thread nD τ).loc main_arg15) := V63_keep m outs c main_arg15 (by (repeat' apply And.intro) <;> decide)

theorem V63_main_arg16 (c : Dev nD) : V63 m outs c main_arg16 = m ((c : Thread nD τ).loc main_arg16) := V63_keep m outs c main_arg16 (by (repeat' apply And.intro) <;> decide)

theorem V63_main_arg17 (c : Dev nD) : V63 m outs c main_arg17 = m ((c : Thread nD τ).loc main_arg17) := V63_keep m outs c main_arg17 (by (repeat' apply And.intro) <;> decide)

theorem V63_main_arg18 (c : Dev nD) : V63 m outs c main_arg18 = m ((c : Thread nD τ).loc main_arg18) := V63_keep m outs c main_arg18 (by (repeat' apply And.intro) <;> decide)

theorem V63_main_arg19 (c : Dev nD) : V63 m outs c main_arg19 = m ((c : Thread nD τ).loc main_arg19) := V63_keep m outs c main_arg19 (by (repeat' apply And.intro) <;> decide)

theorem V63_main_arg20 (c : Dev nD) : V63 m outs c main_arg20 = m ((c : Thread nD τ).loc main_arg20) := V63_keep m outs c main_arg20 (by (repeat' apply And.intro) <;> decide)

theorem V63_main_arg21 (c : Dev nD) : V63 m outs c main_arg21 = m ((c : Thread nD τ).loc main_arg21) := V63_keep m outs c main_arg21 (by (repeat' apply And.intro) <;> decide)

theorem V63_main_arg22 (c : Dev nD) : V63 m outs c main_arg22 = m ((c : Thread nD τ).loc main_arg22) := V63_keep m outs c main_arg22 (by (repeat' apply And.intro) <;> decide)

theorem V63_main_arg23 (c : Dev nD) : V63 m outs c main_arg23 = m ((c : Thread nD τ).loc main_arg23) := V63_keep m outs c main_arg23 (by (repeat' apply And.intro) <;> decide)

theorem V63_main_arg24 (c : Dev nD) : V63 m outs c main_arg24 = m ((c : Thread nD τ).loc main_arg24) := V63_keep m outs c main_arg24 (by (repeat' apply And.intro) <;> decide)

theorem V63_main_arg25 (c : Dev nD) : V63 m outs c main_arg25 = m ((c : Thread nD τ).loc main_arg25) := V63_keep m outs c main_arg25 (by (repeat' apply And.intro) <;> decide)

theorem V63_main_arg26 (c : Dev nD) : V63 m outs c main_arg26 = m ((c : Thread nD τ).loc main_arg26) := V63_keep m outs c main_arg26 (by (repeat' apply And.intro) <;> decide)

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 6 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg1 : HostSeg (Ix := Ix) (Name := ℕ) (U := U) (Lvl := Lvl) (pcfgs (F := F)) defs₀ 𝒱₀ L lv :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V1 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (V2 m) (E 0)

def seg3 : HostSeg (Ix := Ix) (Name := ℕ) (U := U) (Lvl := Lvl) (pcfgs (F := F)) defs₀ 𝒱₀ L lv :=
  HostSeg.ofOps _ _ _ _ _ (Pipeline.ucRefs τ sig) hostOps0_3
    (fun op h => Pipeline.sub_ucRefs op ((List.forall_iff_forall_mem.mp hostOps0_3_sub) op h))
    (fun op h => (List.forall_iff_forall_mem.mp hostOps0_3_fresh) op h) (V3 m) (E 0)

def seg4 : HostSeg (Ix := Ix) (Name := ℕ) (U := U) (Lvl := Lvl) (pcfgs (F := F)) defs₀ 𝒱₀ L lv :=
  HostSeg.ofOps _ _ _ _ _ (Pipeline.ucRefs τ sig) hostOps0_4
    (fun op h => Pipeline.sub_ucRefs op ((List.forall_iff_forall_mem.mp hostOps0_4_sub) op h))
    (fun op h => (List.forall_iff_forall_mem.mp hostOps0_4_fresh) op h) (V4 m) (E 0)

def seg5 : HostSeg (Ix := Ix) (Name := ℕ) (U := U) (Lvl := Lvl) (pcfgs (F := F)) defs₀ 𝒱₀ L lv :=
  HostSeg.ofOps _ _ _ _ _ (Pipeline.ucRefs τ sig) hostOps0_5
    (fun op h => Pipeline.sub_ucRefs op ((List.forall_iff_forall_mem.mp hostOps0_5_sub) op h))
    (fun op h => (List.forall_iff_forall_mem.mp hostOps0_5_fresh) op h) (V5 m) (E 0)

def seg6 : HostSeg (Ix := Ix) (Name := ℕ) (U := U) (Lvl := Lvl) (pcfgs (F := F)) defs₀ 𝒱₀ L lv :=
  HostSeg.ofOps _ _ _ _ _ (Pipeline.ucRefs τ sig) hostOps0_6
    (fun op h => Pipeline.sub_ucRefs op ((List.forall_iff_forall_mem.mp hostOps0_6_sub) op h))
    (fun op h => (List.forall_iff_forall_mem.mp hostOps0_6_fresh) op h) (V6 m) (E 0)

def seg7 : HostSeg (Ix := Ix) (Name := ℕ) (U := U) (Lvl := Lvl) (pcfgs (F := F)) defs₀ 𝒱₀ L lv :=
  HostSeg.ofOps _ _ _ _ _ (Pipeline.ucRefs τ sig) hostOps0_7
    (fun op h => Pipeline.sub_ucRefs op ((List.forall_iff_forall_mem.mp hostOps0_7_sub) op h))
    (fun op h => (List.forall_iff_forall_mem.mp hostOps0_7_fresh) op h) (V7 m) (E 0)

def seg8 : HostSeg (Ix := Ix) (Name := ℕ) (U := U) (Lvl := Lvl) (pcfgs (F := F)) defs₀ 𝒱₀ L lv :=
  HostSeg.ofOps _ _ _ _ _ (Pipeline.ucRefs τ sig) hostOps0_8
    (fun op h => Pipeline.sub_ucRefs op ((List.forall_iff_forall_mem.mp hostOps0_8_sub) op h))
    (fun op h => (List.forall_iff_forall_mem.mp hostOps0_8_fresh) op h) (V8 m) (E 0)

def seg9 : HostSeg (Ix := Ix) (Name := ℕ) (U := U) (Lvl := Lvl) (pcfgs (F := F)) defs₀ 𝒱₀ L lv :=
  HostSeg.ofOps _ _ _ _ _ (Pipeline.ucRefs τ sig) hostOps0_9
    (fun op h => Pipeline.sub_ucRefs op ((List.forall_iff_forall_mem.mp hostOps0_9_sub) op h))
    (fun op h => (List.forall_iff_forall_mem.mp hostOps0_9_fresh) op h) (V9 m) (E 0)

def seg10 : HostSeg (Ix := Ix) (Name := ℕ) (U := U) (Lvl := Lvl) (pcfgs (F := F)) defs₀ 𝒱₀ L lv :=
  HostSeg.ofOps _ _ _ _ _ (Pipeline.ucRefs τ sig) hostOps0_10
    (fun op h => Pipeline.sub_ucRefs op ((List.forall_iff_forall_mem.mp hostOps0_10_sub) op h))
    (fun op h => (List.forall_iff_forall_mem.mp hostOps0_10_fresh) op h) (V10 m) (E 0)

def seg11 : HostSeg (Ix := Ix) (Name := ℕ) (U := U) (Lvl := Lvl) (pcfgs (F := F)) defs₀ 𝒱₀ L lv :=
  HostSeg.ofOps _ _ _ _ _ (Pipeline.ucRefs τ sig) hostOps0_11
    (fun op h => Pipeline.sub_ucRefs op ((List.forall_iff_forall_mem.mp hostOps0_11_sub) op h))
    (fun op h => (List.forall_iff_forall_mem.mp hostOps0_11_fresh) op h) (V11 m) (E 0)

def seg12 : HostSeg (Ix := Ix) (Name := ℕ) (U := U) (Lvl := Lvl) (pcfgs (F := F)) defs₀ 𝒱₀ L lv :=
  HostSeg.ofOps _ _ _ _ _ (Pipeline.ucRefs τ sig) hostOps0_12
    (fun op h => Pipeline.sub_ucRefs op ((List.forall_iff_forall_mem.mp hostOps0_12_sub) op h))
    (fun op h => (List.forall_iff_forall_mem.mp hostOps0_12_fresh) op h) (V12 m) (E 0)

def seg13 : HostSeg (Ix := Ix) (Name := ℕ) (U := U) (Lvl := Lvl) (pcfgs (F := F)) defs₀ 𝒱₀ L lv :=
  HostSeg.ofOps _ _ _ _ _ (Pipeline.ucRefs τ sig) hostOps0_13
    (fun op h => Pipeline.sub_ucRefs op ((List.forall_iff_forall_mem.mp hostOps0_13_sub) op h))
    (fun op h => (List.forall_iff_forall_mem.mp hostOps0_13_fresh) op h) (V13 m) (E 0)

def seg14 : HostSeg (Ix := Ix) (Name := ℕ) (U := U) (Lvl := Lvl) (pcfgs (F := F)) defs₀ 𝒱₀ L lv :=
  HostSeg.ofOps _ _ _ _ _ (Pipeline.ucRefs τ sig) hostOps0_14
    (fun op h => Pipeline.sub_ucRefs op ((List.forall_iff_forall_mem.mp hostOps0_14_sub) op h))
    (fun op h => (List.forall_iff_forall_mem.mp hostOps0_14_fresh) op h) (V14 m) (E 0)

def seg15 : HostSeg (Ix := Ix) (Name := ℕ) (U := U) (Lvl := Lvl) (pcfgs (F := F)) defs₀ 𝒱₀ L lv :=
  HostSeg.ofOps _ _ _ _ _ (Pipeline.ucRefs τ sig) hostOps0_15
    (fun op h => Pipeline.sub_ucRefs op ((List.forall_iff_forall_mem.mp hostOps0_15_sub) op h))
    (fun op h => (List.forall_iff_forall_mem.mp hostOps0_15_fresh) op h) (V15 m) (E 0)

def seg16 : HostSeg (Ix := Ix) (Name := ℕ) (U := U) (Lvl := Lvl) (pcfgs (F := F)) defs₀ 𝒱₀ L lv :=
  HostSeg.ofOps _ _ _ _ _ (Pipeline.ucRefs τ sig) hostOps0_16
    (fun op h => Pipeline.sub_ucRefs op ((List.forall_iff_forall_mem.mp hostOps0_16_sub) op h))
    (fun op h => (List.forall_iff_forall_mem.mp hostOps0_16_fresh) op h) (V16 m) (E 0)

def seg17 : HostSeg (Ix := Ix) (Name := ℕ) (U := U) (Lvl := Lvl) (pcfgs (F := F)) defs₀ 𝒱₀ L lv :=
  HostSeg.ofOps _ _ _ _ _ (Pipeline.ucRefs τ sig) hostOps0_17
    (fun op h => Pipeline.sub_ucRefs op ((List.forall_iff_forall_mem.mp hostOps0_17_sub) op h))
    (fun op h => (List.forall_iff_forall_mem.mp hostOps0_17_fresh) op h) (V17 m) (E 0)

def seg18 : HostSeg (Ix := Ix) (Name := ℕ) (U := U) (Lvl := Lvl) (pcfgs (F := F)) defs₀ 𝒱₀ L lv :=
  HostSeg.ofOps _ _ _ _ _ (Pipeline.ucRefs τ sig) hostOps0_18
    (fun op h => Pipeline.sub_ucRefs op ((List.forall_iff_forall_mem.mp hostOps0_18_sub) op h))
    (fun op h => (List.forall_iff_forall_mem.mp hostOps0_18_fresh) op h) (V18 m) (E 0)

def seg19 : HostSeg (Ix := Ix) (Name := ℕ) (U := U) (Lvl := Lvl) (pcfgs (F := F)) defs₀ 𝒱₀ L lv :=
  HostSeg.ofOps _ _ _ _ _ (Pipeline.ucRefs τ sig) hostOps0_19
    (fun op h => Pipeline.sub_ucRefs op ((List.forall_iff_forall_mem.mp hostOps0_19_sub) op h))
    (fun op h => (List.forall_iff_forall_mem.mp hostOps0_19_fresh) op h) (V19 m) (E 0)

def seg20 : HostSeg (Ix := Ix) (Name := ℕ) (U := U) (Lvl := Lvl) (pcfgs (F := F)) defs₀ 𝒱₀ L lv :=
  HostSeg.ofOps _ _ _ _ _ (Pipeline.ucRefs τ sig) hostOps0_20
    (fun op h => Pipeline.sub_ucRefs op ((List.forall_iff_forall_mem.mp hostOps0_20_sub) op h))
    (fun op h => (List.forall_iff_forall_mem.mp hostOps0_20_fresh) op h) (V20 m) (E 0)

def seg21 : HostSeg (Ix := Ix) (Name := ℕ) (U := U) (Lvl := Lvl) (pcfgs (F := F)) defs₀ 𝒱₀ L lv :=
  HostSeg.ofOps _ _ _ _ _ (Pipeline.ucRefs τ sig) hostOps0_21
    (fun op h => Pipeline.sub_ucRefs op ((List.forall_iff_forall_mem.mp hostOps0_21_sub) op h))
    (fun op h => (List.forall_iff_forall_mem.mp hostOps0_21_fresh) op h) (V21 m) (E 0)

def seg22 : HostSeg (Ix := Ix) (Name := ℕ) (U := U) (Lvl := Lvl) (pcfgs (F := F)) defs₀ 𝒱₀ L lv :=
  HostSeg.ofOps _ _ _ _ _ (Pipeline.ucRefs τ sig) hostOps0_22
    (fun op h => Pipeline.sub_ucRefs op ((List.forall_iff_forall_mem.mp hostOps0_22_sub) op h))
    (fun op h => (List.forall_iff_forall_mem.mp hostOps0_22_fresh) op h) (V22 m) (E 0)

def seg23 : HostSeg (Ix := Ix) (Name := ℕ) (U := U) (Lvl := Lvl) (pcfgs (F := F)) defs₀ 𝒱₀ L lv :=
  HostSeg.ofOps _ _ _ _ _ (Pipeline.ucRefs τ sig) hostOps0_23
    (fun op h => Pipeline.sub_ucRefs op ((List.forall_iff_forall_mem.mp hostOps0_23_sub) op h))
    (fun op h => (List.forall_iff_forall_mem.mp hostOps0_23_fresh) op h) (V23 m) (E 0)

def seg24 : HostSeg (Ix := Ix) (Name := ℕ) (U := U) (Lvl := Lvl) (pcfgs (F := F)) defs₀ 𝒱₀ L lv :=
  HostSeg.ofOps _ _ _ _ _ (Pipeline.ucRefs τ sig) hostOps0_24
    (fun op h => Pipeline.sub_ucRefs op ((List.forall_iff_forall_mem.mp hostOps0_24_sub) op h))
    (fun op h => (List.forall_iff_forall_mem.mp hostOps0_24_fresh) op h) (V24 m) (E 0)

def seg25 : HostSeg (Ix := Ix) (Name := ℕ) (U := U) (Lvl := Lvl) (pcfgs (F := F)) defs₀ 𝒱₀ L lv :=
  HostSeg.ofOps _ _ _ _ _ (Pipeline.ucRefs τ sig) hostOps0_25
    (fun op h => Pipeline.sub_ucRefs op ((List.forall_iff_forall_mem.mp hostOps0_25_sub) op h))
    (fun op h => (List.forall_iff_forall_mem.mp hostOps0_25_fresh) op h) (V25 m) (E 0)

def seg26 : HostSeg (Ix := Ix) (Name := ℕ) (U := U) (Lvl := Lvl) (pcfgs (F := F)) defs₀ 𝒱₀ L lv :=
  HostSeg.ofOps _ _ _ _ _ (Pipeline.ucRefs τ sig) hostOps0_26
    (fun op h => Pipeline.sub_ucRefs op ((List.forall_iff_forall_mem.mp hostOps0_26_sub) op h))
    (fun op h => (List.forall_iff_forall_mem.mp hostOps0_26_fresh) op h) (V26 m) (E 0)

def seg28 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V28 m outs) (E 1)

def seg29 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (V29 m outs) (E 1)

def seg30 : HostSeg (Ix := Ix) (Name := ℕ) (U := U) (Lvl := Lvl) (pcfgs (F := F)) defs₀ 𝒱₀ L lv :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (V30 m outs) (E 1)

def seg31 : HostSeg (Ix := Ix) (Name := ℕ) (U := U) (Lvl := Lvl) (pcfgs (F := F)) defs₀ 𝒱₀ L lv :=
  HostSeg.ofOps _ _ _ _ _ (Pipeline.ucRefs τ sig) hostOps1_3
    (fun op h => Pipeline.sub_ucRefs op ((List.forall_iff_forall_mem.mp hostOps1_3_sub) op h))
    (fun op h => (List.forall_iff_forall_mem.mp hostOps1_3_fresh) op h) (V31 m outs) (E 1)

def seg32 : HostSeg (Ix := Ix) (Name := ℕ) (U := U) (Lvl := Lvl) (pcfgs (F := F)) defs₀ 𝒱₀ L lv :=
  HostSeg.ofOps _ _ _ _ _ (Pipeline.ucRefs τ sig) hostOps1_4
    (fun op h => Pipeline.sub_ucRefs op ((List.forall_iff_forall_mem.mp hostOps1_4_sub) op h))
    (fun op h => (List.forall_iff_forall_mem.mp hostOps1_4_fresh) op h) (V32 m outs) (E 1)

def seg33 : HostSeg (Ix := Ix) (Name := ℕ) (U := U) (Lvl := Lvl) (pcfgs (F := F)) defs₀ 𝒱₀ L lv :=
  HostSeg.ofOps _ _ _ _ _ (Pipeline.ucRefs τ sig) hostOps1_5
    (fun op h => Pipeline.sub_ucRefs op ((List.forall_iff_forall_mem.mp hostOps1_5_sub) op h))
    (fun op h => (List.forall_iff_forall_mem.mp hostOps1_5_fresh) op h) (V33 m outs) (E 1)

def seg34 : HostSeg (Ix := Ix) (Name := ℕ) (U := U) (Lvl := Lvl) (pcfgs (F := F)) defs₀ 𝒱₀ L lv :=
  HostSeg.ofOps _ _ _ _ _ (Pipeline.ucRefs τ sig) hostOps1_6
    (fun op h => Pipeline.sub_ucRefs op ((List.forall_iff_forall_mem.mp hostOps1_6_sub) op h))
    (fun op h => (List.forall_iff_forall_mem.mp hostOps1_6_fresh) op h) (V34 m outs) (E 1)

def seg36 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V36 m outs) (E 2)

def seg37 : HostSeg (Ix := Ix) (Name := ℕ) (U := U) (Lvl := Lvl) (pcfgs (F := F)) defs₀ 𝒱₀ L lv :=
  HostSeg.ofOps _ _ _ _ _ (Pipeline.ucRefs τ sig) hostOps2_1
    (fun op h => Pipeline.sub_ucRefs op ((List.forall_iff_forall_mem.mp hostOps2_1_sub) op h))
    (fun op h => (List.forall_iff_forall_mem.mp hostOps2_1_fresh) op h) (V37 m outs) (E 2)

def seg38 : HostSeg (Ix := Ix) (Name := ℕ) (U := U) (Lvl := Lvl) (pcfgs (F := F)) defs₀ 𝒱₀ L lv :=
  HostSeg.ofOps _ _ _ _ _ (Pipeline.ucRefs τ sig) hostOps2_2
    (fun op h => Pipeline.sub_ucRefs op ((List.forall_iff_forall_mem.mp hostOps2_2_sub) op h))
    (fun op h => (List.forall_iff_forall_mem.mp hostOps2_2_fresh) op h) (V38 m outs) (E 2)

def seg39 : HostSeg (Ix := Ix) (Name := ℕ) (U := U) (Lvl := Lvl) (pcfgs (F := F)) defs₀ 𝒱₀ L lv :=
  HostSeg.ofOps _ _ _ _ _ (Pipeline.ucRefs τ sig) hostOps2_3
    (fun op h => Pipeline.sub_ucRefs op ((List.forall_iff_forall_mem.mp hostOps2_3_sub) op h))
    (fun op h => (List.forall_iff_forall_mem.mp hostOps2_3_fresh) op h) (V39 m outs) (E 2)

def seg40 : HostSeg (Ix := Ix) (Name := ℕ) (U := U) (Lvl := Lvl) (pcfgs (F := F)) defs₀ 𝒱₀ L lv :=
  HostSeg.ofOps _ _ _ _ _ (Pipeline.ucRefs τ sig) hostOps2_4
    (fun op h => Pipeline.sub_ucRefs op ((List.forall_iff_forall_mem.mp hostOps2_4_sub) op h))
    (fun op h => (List.forall_iff_forall_mem.mp hostOps2_4_fresh) op h) (V40 m outs) (E 2)

def seg42 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V42 m outs) (E 3)

def seg43 : HostSeg (Ix := Ix) (Name := ℕ) (U := U) (Lvl := Lvl) (pcfgs (F := F)) defs₀ 𝒱₀ L lv :=
  HostSeg.ofOps _ _ _ _ _ (Pipeline.ucRefs τ sig) hostOps3_1
    (fun op h => Pipeline.sub_ucRefs op ((List.forall_iff_forall_mem.mp hostOps3_1_sub) op h))
    (fun op h => (List.forall_iff_forall_mem.mp hostOps3_1_fresh) op h) (V43 m outs) (E 3)

def seg44 : HostSeg (Ix := Ix) (Name := ℕ) (U := U) (Lvl := Lvl) (pcfgs (F := F)) defs₀ 𝒱₀ L lv :=
  HostSeg.ofOps _ _ _ _ _ (Pipeline.ucRefs τ sig) hostOps3_2
    (fun op h => Pipeline.sub_ucRefs op ((List.forall_iff_forall_mem.mp hostOps3_2_sub) op h))
    (fun op h => (List.forall_iff_forall_mem.mp hostOps3_2_fresh) op h) (V44 m outs) (E 3)

def seg45 : HostSeg (Ix := Ix) (Name := ℕ) (U := U) (Lvl := Lvl) (pcfgs (F := F)) defs₀ 𝒱₀ L lv :=
  HostSeg.ofOps _ _ _ _ _ (Pipeline.ucRefs τ sig) hostOps3_3
    (fun op h => Pipeline.sub_ucRefs op ((List.forall_iff_forall_mem.mp hostOps3_3_sub) op h))
    (fun op h => (List.forall_iff_forall_mem.mp hostOps3_3_fresh) op h) (V45 m outs) (E 3)

def seg46 : HostSeg (Ix := Ix) (Name := ℕ) (U := U) (Lvl := Lvl) (pcfgs (F := F)) defs₀ 𝒱₀ L lv :=
  HostSeg.ofOps _ _ _ _ _ (Pipeline.ucRefs τ sig) hostOps3_4
    (fun op h => Pipeline.sub_ucRefs op ((List.forall_iff_forall_mem.mp hostOps3_4_sub) op h))
    (fun op h => (List.forall_iff_forall_mem.mp hostOps3_4_fresh) op h) (V46 m outs) (E 3)

def seg48 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V48 m outs) (E 4)

def seg49 : HostSeg (Ix := Ix) (Name := ℕ) (U := U) (Lvl := Lvl) (pcfgs (F := F)) defs₀ 𝒱₀ L lv :=
  HostSeg.ofOps _ _ _ _ _ (Pipeline.ucRefs τ sig) hostOps4_1
    (fun op h => Pipeline.sub_ucRefs op ((List.forall_iff_forall_mem.mp hostOps4_1_sub) op h))
    (fun op h => (List.forall_iff_forall_mem.mp hostOps4_1_fresh) op h) (V49 m outs) (E 4)

def seg50 : HostSeg (Ix := Ix) (Name := ℕ) (U := U) (Lvl := Lvl) (pcfgs (F := F)) defs₀ 𝒱₀ L lv :=
  HostSeg.ofOps _ _ _ _ _ (Pipeline.ucRefs τ sig) hostOps4_2
    (fun op h => Pipeline.sub_ucRefs op ((List.forall_iff_forall_mem.mp hostOps4_2_sub) op h))
    (fun op h => (List.forall_iff_forall_mem.mp hostOps4_2_fresh) op h) (V50 m outs) (E 4)

def seg51 : HostSeg (Ix := Ix) (Name := ℕ) (U := U) (Lvl := Lvl) (pcfgs (F := F)) defs₀ 𝒱₀ L lv :=
  HostSeg.ofOps _ _ _ _ _ (Pipeline.ucRefs τ sig) hostOps4_3
    (fun op h => Pipeline.sub_ucRefs op ((List.forall_iff_forall_mem.mp hostOps4_3_sub) op h))
    (fun op h => (List.forall_iff_forall_mem.mp hostOps4_3_fresh) op h) (V51 m outs) (E 4)

def seg52 : HostSeg (Ix := Ix) (Name := ℕ) (U := U) (Lvl := Lvl) (pcfgs (F := F)) defs₀ 𝒱₀ L lv :=
  HostSeg.ofOps _ _ _ _ _ (Pipeline.ucRefs τ sig) hostOps4_4
    (fun op h => Pipeline.sub_ucRefs op ((List.forall_iff_forall_mem.mp hostOps4_4_sub) op h))
    (fun op h => (List.forall_iff_forall_mem.mp hostOps4_4_fresh) op h) (V52 m outs) (E 4)

def seg53 : HostSeg (Ix := Ix) (Name := ℕ) (U := U) (Lvl := Lvl) (pcfgs (F := F)) defs₀ 𝒱₀ L lv :=
  HostSeg.ofOps _ _ _ _ _ (Pipeline.ucRefs τ sig) hostOps4_5
    (fun op h => Pipeline.sub_ucRefs op ((List.forall_iff_forall_mem.mp hostOps4_5_sub) op h))
    (fun op h => (List.forall_iff_forall_mem.mp hostOps4_5_fresh) op h) (V53 m outs) (E 4)

def seg54 : HostSeg (Ix := Ix) (Name := ℕ) (U := U) (Lvl := Lvl) (pcfgs (F := F)) defs₀ 𝒱₀ L lv :=
  HostSeg.ofOps _ _ _ _ _ (Pipeline.ucRefs τ sig) hostOps4_6
    (fun op h => Pipeline.sub_ucRefs op ((List.forall_iff_forall_mem.mp hostOps4_6_sub) op h))
    (fun op h => (List.forall_iff_forall_mem.mp hostOps4_6_fresh) op h) (V54 m outs) (E 4)

def seg55 : HostSeg (Ix := Ix) (Name := ℕ) (U := U) (Lvl := Lvl) (pcfgs (F := F)) defs₀ 𝒱₀ L lv :=
  HostSeg.ofOps _ _ _ _ _ (Pipeline.ucRefs τ sig) hostOps4_7
    (fun op h => Pipeline.sub_ucRefs op ((List.forall_iff_forall_mem.mp hostOps4_7_sub) op h))
    (fun op h => (List.forall_iff_forall_mem.mp hostOps4_7_fresh) op h) (V55 m outs) (E 4)

def seg56 : HostSeg (Ix := Ix) (Name := ℕ) (U := U) (Lvl := Lvl) (pcfgs (F := F)) defs₀ 𝒱₀ L lv :=
  HostSeg.ofOps _ _ _ _ _ (Pipeline.ucRefs τ sig) hostOps4_8
    (fun op h => Pipeline.sub_ucRefs op ((List.forall_iff_forall_mem.mp hostOps4_8_sub) op h))
    (fun op h => (List.forall_iff_forall_mem.mp hostOps4_8_fresh) op h) (V56 m outs) (E 4)

def seg57 : HostSeg (Ix := Ix) (Name := ℕ) (U := U) (Lvl := Lvl) (pcfgs (F := F)) defs₀ 𝒱₀ L lv :=
  HostSeg.ofOps _ _ _ _ _ (Pipeline.ucRefs τ sig) hostOps4_9
    (fun op h => Pipeline.sub_ucRefs op ((List.forall_iff_forall_mem.mp hostOps4_9_sub) op h))
    (fun op h => (List.forall_iff_forall_mem.mp hostOps4_9_fresh) op h) (V57 m outs) (E 4)

def seg58 : HostSeg (Ix := Ix) (Name := ℕ) (U := U) (Lvl := Lvl) (pcfgs (F := F)) defs₀ 𝒱₀ L lv :=
  HostSeg.ofOps _ _ _ _ _ (Pipeline.ucRefs τ sig) hostOps4_10
    (fun op h => Pipeline.sub_ucRefs op ((List.forall_iff_forall_mem.mp hostOps4_10_sub) op h))
    (fun op h => (List.forall_iff_forall_mem.mp hostOps4_10_fresh) op h) (V58 m outs) (E 4)

def seg59 : HostSeg (Ix := Ix) (Name := ℕ) (U := U) (Lvl := Lvl) (pcfgs (F := F)) defs₀ 𝒱₀ L lv :=
  HostSeg.ofOps _ _ _ _ _ (Pipeline.ucRefs τ sig) hostOps4_11
    (fun op h => Pipeline.sub_ucRefs op ((List.forall_iff_forall_mem.mp hostOps4_11_sub) op h))
    (fun op h => (List.forall_iff_forall_mem.mp hostOps4_11_fresh) op h) (V59 m outs) (E 4)

def seg60 : HostSeg (Ix := Ix) (Name := ℕ) (U := U) (Lvl := Lvl) (pcfgs (F := F)) defs₀ 𝒱₀ L lv :=
  HostSeg.ofOps _ _ _ _ _ (Pipeline.ucRefs τ sig) hostOps4_12
    (fun op h => Pipeline.sub_ucRefs op ((List.forall_iff_forall_mem.mp hostOps4_12_sub) op h))
    (fun op h => (List.forall_iff_forall_mem.mp hostOps4_12_fresh) op h) (V60 m outs) (E 4)

def seg62 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (V62 m outs) (E 5)

end Segs

section

variable {Ix : Type} [DecidableEq Ix] {U : Type} [URA U] {Lvl : Type} [Preorder Lvl]

abbrev adm : (p : Fin 5) → (pcfgs (F := F) p).Adm := fun p => (cfgs p).toPCfg_adm

abbrev segs (𝒱₀ : Variants) (L : GSem nD τ sig → Finset Ix) (lv : GSem nD τ sig → Ix → Lvl) (E : Fin 6 → Dev nD → sProp (MT nD τ sig Ix (Elt F) ℕ U Lvl)) (ι : Ix)
    (pdats : (p : Fin 5) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (c : Dev nD) :
    List (Seg (pcfgs (F := F)) adm pdats ι defs₀ 𝒱₀ L lv) :=
  [.host (seg0 m 𝒱₀ L lv E), .host (seg1 m 𝒱₀ L lv E), .host (seg2 m 𝒱₀ L lv E), .host (seg3 m 𝒱₀ L lv E), .host (seg4 m 𝒱₀ L lv E), .host (seg5 m 𝒱₀ L lv E), .host (seg6 m 𝒱₀ L lv E), .host (seg7 m 𝒱₀ L lv E), .host (seg8 m 𝒱₀ L lv E), .host (seg9 m 𝒱₀ L lv E), .host (seg10 m 𝒱₀ L lv E), .host (seg11 m 𝒱₀ L lv E), .host (seg12 m 𝒱₀ L lv E), .host (seg13 m 𝒱₀ L lv E), .host (seg14 m 𝒱₀ L lv E), .host (seg15 m 𝒱₀ L lv E), .host (seg16 m 𝒱₀ L lv E), .host (seg17 m 𝒱₀ L lv E), .host (seg18 m 𝒱₀ L lv E), .host (seg19 m 𝒱₀ L lv E), .host (seg20 m 𝒱₀ L lv E), .host (seg21 m 𝒱₀ L lv E), .host (seg22 m 𝒱₀ L lv E), .host (seg23 m 𝒱₀ L lv E), .host (seg24 m 𝒱₀ L lv E), .host (seg25 m 𝒱₀ L lv E), .host (seg26 m 𝒱₀ L lv E), .region R0, .host (seg28 m outs 𝒱₀ L lv E), .host (seg29 m outs 𝒱₀ L lv E), .host (seg30 m outs 𝒱₀ L lv E), .host (seg31 m outs 𝒱₀ L lv E), .host (seg32 m outs 𝒱₀ L lv E), .host (seg33 m outs 𝒱₀ L lv E), .host (seg34 m outs 𝒱₀ L lv E), .region R1, .host (seg36 m outs 𝒱₀ L lv E), .host (seg37 m outs 𝒱₀ L lv E), .host (seg38 m outs 𝒱₀ L lv E), .host (seg39 m outs 𝒱₀ L lv E), .host (seg40 m outs 𝒱₀ L lv E), .region R2, .host (seg42 m outs 𝒱₀ L lv E), .host (seg43 m outs 𝒱₀ L lv E), .host (seg44 m outs 𝒱₀ L lv E), .host (seg45 m outs 𝒱₀ L lv E), .host (seg46 m outs 𝒱₀ L lv E), .region R3, .host (seg48 m outs 𝒱₀ L lv E), .host (seg49 m outs 𝒱₀ L lv E), .host (seg50 m outs 𝒱₀ L lv E), .host (seg51 m outs 𝒱₀ L lv E), .host (seg52 m outs 𝒱₀ L lv E), .host (seg53 m outs 𝒱₀ L lv E), .host (seg54 m outs 𝒱₀ L lv E), .host (seg55 m outs 𝒱₀ L lv E), .host (seg56 m outs 𝒱₀ L lv E), .host (seg57 m outs 𝒱₀ L lv E), .host (seg58 m outs 𝒱₀ L lv E), .host (seg59 m outs 𝒱₀ L lv E), .host (seg60 m outs 𝒱₀ L lv E), .region R4, .host (seg62 m outs 𝒱₀ L lv E)]

end

set_option backward.isDefEq.respectTransparency.types false in
theorem frame_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 5) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 6 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE5 : ∀ c : Dev nD, E 5 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V27 m c) ∗ E 0 c) ⊢ R0.pre c)
    (hpost0 : ∀ c : Dev nD, R0.post c ⊢ iprop(StableHlo.held (c : Thread nD τ) (Pipeline.ucRefs τ sig) (V28 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V35 m outs c) ∗ E 1 c) ⊢ R1.pre c)
    (hpost1 : ∀ c : Dev nD, R1.post c ⊢ iprop(StableHlo.held (c : Thread nD τ) (Pipeline.ucRefs τ sig) (V36 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V41 m outs c) ∗ E 2 c) ⊢ R2.pre c)
    (hpost2 : ∀ c : Dev nD, R2.post c ⊢ iprop(StableHlo.held (c : Thread nD τ) (Pipeline.ucRefs τ sig) (V42 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V47 m outs c) ∗ E 3 c) ⊢ R3.pre c)
    (hpost3 : ∀ c : Dev nD, R3.post c ⊢ iprop(StableHlo.held (c : Thread nD τ) (Pipeline.ucRefs τ sig) (V48 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V61 m outs c) ∗ E 4 c) ⊢ R4.pre c)
    (hpost4 : ∀ c : Dev nD, R4.post c ⊢ iprop(StableHlo.held (c : Thread nD τ) (Pipeline.ucRefs τ sig) (V62 m outs c) ∗ E 5 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) := by
  refine Pipeline.θ_run_regions_kit_dev (pcfgs (F := F)) adm pdats ι cellOf_inj EP defs₀ 𝒱₀ L lv m ρ main
    (segs m outs 𝒱₀ L lv E ι pdats R0 R1 R2 R3 R4)
    (fun c Q => by
      rewrite [main_chain c, Seg.run_eq_chain,
        show (segs m outs 𝒱₀ L lv E ι pdats R0 R1 R2 R3 R4 c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          StableHlo.seq hostOps0_14,
          StableHlo.seq hostOps0_15,
          StableHlo.seq hostOps0_16,
          StableHlo.seq hostOps0_17,
          StableHlo.seq hostOps0_18,
          StableHlo.seq hostOps0_19,
          StableHlo.seq hostOps0_20,
          StableHlo.seq hostOps0_21,
          StableHlo.seq hostOps0_22,
          StableHlo.seq hostOps0_23,
          StableHlo.seq hostOps0_24,
          StableHlo.seq hostOps0_25,
          StableHlo.seq hostOps0_26,
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          StableHlo.seq hostOps4_1,
          StableHlo.seq hostOps4_2,
          StableHlo.seq hostOps4_3,
          StableHlo.seq hostOps4_4,
          StableHlo.seq hostOps4_5,
          StableHlo.seq hostOps4_6,
          StableHlo.seq hostOps4_7,
          StableHlo.seq hostOps4_8,
          StableHlo.seq hostOps4_9,
          StableHlo.seq hostOps4_10,
          StableHlo.seq hostOps4_11,
          StableHlo.seq hostOps4_12,
          Prog.lift (.customCall (Pipeline.entry 4) ()),
          StableHlo.seq hostOps5 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V63 m outs c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, .rfl, hpre0 c, hpost0 c, .rfl, .rfl, .rfl, .rfl, .rfl, .rfl, hpre1 c, hpost1 c, .rfl, .rfl, .rfl, .rfl, hpre2 c, hpost2 c, .rfl, .rfl, .rfl, .rfl, hpre3 c, hpost3 c, .rfl, .rfl, .rfl, .rfl, .rfl, .rfl, .rfl, .rfl, .rfl, .rfl, .rfl, .rfl, hpre4 c, hpost4 c, sep_mono .rfl (hE5 c)⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9) ∧ s.mem ((c.tc : Thread nD τ).loc main_arg10) = m ((c.tc : Thread nD τ).loc main_arg10) ∧ s.mem ((c.tc : Thread nD τ).loc main_arg11) = m ((c.tc : Thread nD τ).loc main_arg11) ∧ s.mem ((c.tc : Thread nD τ).loc main_arg12) = m ((c.tc : Thread nD τ).loc main_arg12) ∧ s.mem ((c.tc : Thread nD τ).loc main_arg13) = m ((c.tc : Thread nD τ).loc main_arg13) ∧ s.mem ((c.tc : Thread nD τ).loc main_arg14) = m ((c.tc : Thread nD τ).loc main_arg14) ∧ s.mem ((c.tc : Thread nD τ).loc main_arg15) = m ((c.tc : Thread nD τ).loc main_arg15) ∧ s.mem ((c.tc : Thread nD τ).loc main_arg16) = m ((c.tc : Thread nD τ).loc main_arg16) ∧ s.mem ((c.tc : Thread nD τ).loc main_arg17) = m ((c.tc : Thread nD τ).loc main_arg17) ∧ s.mem ((c.tc : Thread nD τ).loc main_arg18) = m ((c.tc : Thread nD τ).loc main_arg18) ∧ s.mem ((c.tc : Thread nD τ).loc main_arg19) = m ((c.tc : Thread nD τ).loc main_arg19) ∧ s.mem ((c.tc : Thread nD τ).loc main_arg20) = m ((c.tc : Thread nD τ).loc main_arg20) ∧ s.mem ((c.tc : Thread nD τ).loc main_arg21) = m ((c.tc : Thread nD τ).loc main_arg21) ∧ s.mem ((c.tc : Thread nD τ).loc main_arg22) = m ((c.tc : Thread nD τ).loc main_arg22) ∧ s.mem ((c.tc : Thread nD τ).loc main_arg23) = m ((c.tc : Thread nD τ).loc main_arg23) ∧ s.mem ((c.tc : Thread nD τ).loc main_arg24) = m ((c.tc : Thread nD τ).loc main_arg24) ∧ s.mem ((c.tc : Thread nD τ).loc main_arg25) = m ((c.tc : Thread nD τ).loc main_arg25) ∧ s.mem ((c.tc : Thread nD τ).loc main_arg26) = m ((c.tc : Thread nD τ).loc main_arg26))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V63 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V63_main_arg0 m outs c),
        (h (Proc.devRef .tc main_arg1) (Finset.mem_filter.mpr ⟨StableHlo.devRef_mem_tcRefs main_arg1, by decide⟩)).trans (V63_main_arg1 m outs c),
        (h (Proc.devRef .tc main_arg2) (Finset.mem_filter.mpr ⟨StableHlo.devRef_mem_tcRefs main_arg2, by decide⟩)).trans (V63_main_arg2 m outs c),
        (h (Proc.devRef .tc main_arg3) (Finset.mem_filter.mpr ⟨StableHlo.devRef_mem_tcRefs main_arg3, by decide⟩)).trans (V63_main_arg3 m outs c),
        (h (Proc.devRef .tc main_arg4) (Finset.mem_filter.mpr ⟨StableHlo.devRef_mem_tcRefs main_arg4, by decide⟩)).trans (V63_main_arg4 m outs c),
        (h (Proc.devRef .tc main_arg5) (Finset.mem_filter.mpr ⟨StableHlo.devRef_mem_tcRefs main_arg5, by decide⟩)).trans (V63_main_arg5 m outs c),
        (h (Proc.devRef .tc main_arg6) (Finset.mem_filter.mpr ⟨StableHlo.devRef_mem_tcRefs main_arg6, by decide⟩)).trans (V63_main_arg6 m outs c),
        (h (Proc.devRef .tc main_arg7) (Finset.mem_filter.mpr ⟨StableHlo.devRef_mem_tcRefs main_arg7, by decide⟩)).trans (V63_main_arg7 m outs c),
        (h (Proc.devRef .tc main_arg8) (Finset.mem_filter.mpr ⟨StableHlo.devRef_mem_tcRefs main_arg8, by decide⟩)).trans (V63_main_arg8 m outs c),
        (h (Proc.devRef .tc main_arg9) (Finset.mem_filter.mpr ⟨StableHlo.devRef_mem_tcRefs main_arg9, by decide⟩)).trans (V63_main_arg9 m outs c),
        (h (Proc.devRef .tc main_arg10) (Finset.mem_filter.mpr ⟨StableHlo.devRef_mem_tcRefs main_arg10, by decide⟩)).trans (V63_main_arg10 m outs c),
        (h (Proc.devRef .tc main_arg11) (Finset.mem_filter.mpr ⟨StableHlo.devRef_mem_tcRefs main_arg11, by decide⟩)).trans (V63_main_arg11 m outs c),
        (h (Proc.devRef .tc main_arg12) (Finset.mem_filter.mpr ⟨StableHlo.devRef_mem_tcRefs main_arg12, by decide⟩)).trans (V63_main_arg12 m outs c),
        (h (Proc.devRef .tc main_arg13) (Finset.mem_filter.mpr ⟨StableHlo.devRef_mem_tcRefs main_arg13, by decide⟩)).trans (V63_main_arg13 m outs c),
        (h (Proc.devRef .tc main_arg14) (Finset.mem_filter.mpr ⟨StableHlo.devRef_mem_tcRefs main_arg14, by decide⟩)).trans (V63_main_arg14 m outs c),
        (h (Proc.devRef .tc main_arg15) (Finset.mem_filter.mpr ⟨StableHlo.devRef_mem_tcRefs main_arg15, by decide⟩)).trans (V63_main_arg15 m outs c),
        (h (Proc.devRef .tc main_arg16) (Finset.mem_filter.mpr ⟨StableHlo.devRef_mem_tcRefs main_arg16, by decide⟩)).trans (V63_main_arg16 m outs c),
        (h (Proc.devRef .tc main_arg17) (Finset.mem_filter.mpr ⟨StableHlo.devRef_mem_tcRefs main_arg17, by decide⟩)).trans (V63_main_arg17 m outs c),
        (h (Proc.devRef .tc main_arg18) (Finset.mem_filter.mpr ⟨StableHlo.devRef_mem_tcRefs main_arg18, by decide⟩)).trans (V63_main_arg18 m outs c),
        (h (Proc.devRef .tc main_arg19) (Finset.mem_filter.mpr ⟨StableHlo.devRef_mem_tcRefs main_arg19, by decide⟩)).trans (V63_main_arg19 m outs c),
        (h (Proc.devRef .tc main_arg20) (Finset.mem_filter.mpr ⟨StableHlo.devRef_mem_tcRefs main_arg20, by decide⟩)).trans (V63_main_arg20 m outs c),
        (h (Proc.devRef .tc main_arg21) (Finset.mem_filter.mpr ⟨StableHlo.devRef_mem_tcRefs main_arg21, by decide⟩)).trans (V63_main_arg21 m outs c),
        (h (Proc.devRef .tc main_arg22) (Finset.mem_filter.mpr ⟨StableHlo.devRef_mem_tcRefs main_arg22, by decide⟩)).trans (V63_main_arg22 m outs c),
        (h (Proc.devRef .tc main_arg23) (Finset.mem_filter.mpr ⟨StableHlo.devRef_mem_tcRefs main_arg23, by decide⟩)).trans (V63_main_arg23 m outs c),
        (h (Proc.devRef .tc main_arg24) (Finset.mem_filter.mpr ⟨StableHlo.devRef_mem_tcRefs main_arg24, by decide⟩)).trans (V63_main_arg24 m outs c),
        (h (Proc.devRef .tc main_arg25) (Finset.mem_filter.mpr ⟨StableHlo.devRef_mem_tcRefs main_arg25, by decide⟩)).trans (V63_main_arg25 m outs c),
        (h (Proc.devRef .tc main_arg26) (Finset.mem_filter.mpr ⟨StableHlo.devRef_mem_tcRefs main_arg26, by decide⟩)).trans (V63_main_arg26 m outs c)⟩
    · iexact HSI

end Cert.Kernel.Gen

end
-- ==== Proof.K.R0Runs.lean ====
import proofs.«406789_j53094385713523_3_alg».proof.Proof.Gen.Kernel.Launch
import proofs.«406789_j53094385713523_3_alg».proof.Proof.Gen.Kernel.Skeleton
import proofs.«406789_j53094385713523_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  refine (dat.before_in_eq_fetched 0 rfl (fun _ => rfl) (fun _ _ _ => rfl) (fun s => ?_) t d).trans ?_
  · rw [hafter]; unfold Dat.blockOf iblk0; rw [hA]; try rfl
  · unfold Dat.fetched Dat.blockOf iblk0; rw [hA]; try rfl

theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  refine (dat.before_in_eq_fetched 1 rfl (fun _ => rfl) (fun _ _ _ => rfl) (fun s => ?_) t d).trans ?_
  · rw [hafter]; unfold Dat.blockOf iblk0; rw [hA]; try rfl
  · unfold Dat.fetched Dat.blockOf iblk0; rw [hA]; try rfl

theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  refine (dat.before_in_eq_fetched 2 rfl (fun _ => rfl) (fun _ _ _ => rfl) (fun s => ?_) t d).trans ?_
  · rw [hafter]; unfold Dat.blockOf iblk0; rw [hA]; try rfl
  · unfold Dat.fetched Dat.blockOf iblk0; rw [hA]; try rfl

abbrev cond0_0 (i : grid0.Coords) : Prop :=
  Scalar.cmpi .ne (Scalar.extui (Scalar.andi (Scalar.cmpi .eq (BitVec.ofNat 32 (i 1).val) 0#32)
    (Scalar.cmpi .eq (BitVec.ofNat 32 (i 2).val) 0#32))) 0#32 = 1#1

theorem hcond0_0 : ∀ t : Fin cfg0.N, cond0_0 (grid0.coords t) ↔ t.val % 24 = 0 :=
  (by decide +kernel : ∀ t : Fin grid0.N, cond0_0 (grid0.coords t) ↔ t.val % 24 = 0)

abbrev cond0_1 (i : grid0.Coords) : Prop := k0_cond2 i = 1#1

theorem hcond0_1 : ∀ t : Fin cfg0.N, cond0_1 (grid0.coords t) ↔ t.val % 24 = 23 :=
  (by decide +kernel : ∀ t : Fin grid0.N, cond0_1 (grid0.coords t) ↔ t.val % 24 = 23)

theorem lt_N0 (t : Fin cfg0.N) : t.val < 48 := lt_of_lt_of_eq t.isLt (show cfg0.N = 48 from N_0)

theorem idle0_3_iff : ∀ t : Fin cfg0.N, cfg0.idle 3 (grid0.coords t) = true ↔ ¬t.val % 24 = 23 :=
  (by decide +kernel : ∀ t : Fin grid0.N, idle0 3 (grid0.coords t) = true ↔ ¬t.val % 24 = 23)

theorem idleAt0_3 (t : Fin cfg0.N) (h : ¬t.val % 24 = 23) : cfg0.idle 3 (grid0.coords t) = true :=
  (idle0_3_iff t).mpr h

theorem liveAt0_3 (t : Fin cfg0.N) (h : t.val % 24 = 23) : cfg0.idle 3 (grid0.coords t) = false :=
  Bool.eq_false_iff.mpr fun hi => (idle0_3_iff t).mp hi h

theorem noFlush0_3 (t : Fin cfg0.N) (h : ¬t.val % 24 = 23) : (cfg0.win 3).flush t = false :=
  Bool.eq_false_iff.mpr fun hf => h ((flush0_3 t).mp hf)

abbrev ms0_0 (t : Fin cfg0.N) : Memref sig .tc .vmem S152x100 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S152x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x100x1 .f32 := win0_3.stage (cfg0.slots t 3)
abbrev hs0_3 (t : Fin cfg0.N) : (ms0_3 t).IsWhole := hstage0_3 ((cfg0.slots t 3).cast nbuf0_3)

abbrev scM0_0 : Memref sig .tc .vmem S100x1 .f32 := Memref.whole cc0_scratch0

abbrev VO0_3 : View sig .tc .vmem S1x100x1 .f32 := (Memref.whole cc0_stg3_0 : Memref sig .tc .vmem S1x100x1 .f32).view
abbrev VS0_0 : View sig .tc .vmem S100x1 .f32 := scM0_0.view

theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0])
        ∗ (∃ r, prngReg c r)) := by
  unfold Pipeline.ΦA; rw [scopedRest0_split]; simp only [scM0_0, owns_whole]; try rfl

end Cert.Kernel.R0

end
-- ==== Proof.K.R0Run.lean ====
import proofs.«406789_j53094385713523_3_alg».proof.Proof.K.R0Runs

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_A (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : cond0_0 i) (hc1 : ¬cond0_1 i)
    (x0 : Vec F S152x100 .i32) (x1 : Vec F S256x1 .f32) (x2 : Vec F S152x1 .f32) :
    Σ' (L3 : List (View.Piece (Elt F) S1x100x1 .f32)), { LS0 : List (View.Piece (Elt F) S100x1 .f32) //
      ∀ (xi3 : Vec F S1x100x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc0__gather_mean_kernel i arg3 harg3 arg4 harg4 arg5 harg5 arg6 harg6 arg7 harg7) K } := by
  refine ⟨[], ?_, fun xi3 E K => ?run⟩
  case run =>
    simp only [cc0__gather_mean_kernel_eq_skeleton]; unfold cc0__gather_mean_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun0_B (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : ¬cond0_1 i)
    (x0 : Vec F S152x100 .i32) (x1 : Vec F S256x1 .f32) (x2 : Vec F S152x1 .f32) (xs0 : Vec F S100x1 .f32) :
    Σ' (L3 : List (View.Piece (Elt F) S1x100x1 .f32)), { LS0 : List (View.Piece (Elt F) S100x1 .f32) //
      ∀ (xi3 : Vec F S1x100x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc0__gather_mean_kernel i arg3 harg3 arg4 harg4 arg5 harg5 arg6 harg6 arg7 harg7) K } := by
  refine ⟨[], ?_, fun xi3 E K => ?run⟩
  case run =>
    simp only [cc0__gather_mean_kernel_eq_skeleton]; unfold cc0__gather_mean_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun0_C (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : cond0_1 i)
    (x0 : Vec F S152x100 .i32) (x1 : Vec F S256x1 .f32) (x2 : Vec F S152x1 .f32) (xs0 : Vec F S100x1 .f32) :
    Σ' (L3 : List (View.Piece (Elt F) S1x100x1 .f32)), { LS0 : List (View.Piece (Elt F) S100x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc0__gather_mean_kernel i arg3 harg3 arg4 harg4 arg5 harg5 arg6 harg6 arg7 harg7) K } := by
  refine ⟨?_, ?_, fun E K => ?run⟩
  case run =>
    simp only [cc0__gather_mean_kernel_eq_skeleton]; unfold cc0__gather_mean_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1
    obtain rfl := harg5.eq_unread hf2; obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; iexact H3
    iexists _; iexact HS0

end Cert.Kernel.R0

end
-- ==== Proof.K.R0.lean ====
import proofs.«406789_j53094385713523_3_alg».proof.Proof.K.R0Run

set_option maxRecDepth 16384

noncomputable section

namespace Cert.Kernel.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scover0_A_0 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : cond0_0 i) (hc1 : ¬cond0_1 i) (x0 : Vec F S152x100 .i32) (x1 : Vec F S256x1 .f32) (x2 : Vec F S152x1 .f32) (y : S100x1.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S100x1.size (by sl_kernel_rfl) y

def sout0_A_0 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : cond0_0 i) (hc1 : ¬cond0_1 i) (x0 : Vec F S152x100 .i32) (x1 : Vec F S256x1 .f32) (x2 : Vec F S152x1 .f32) : Vec F S100x1 .f32 :=
  VS0_0.read (Elt F) (VS0_0.writes (Elt F) VS0_0.junk (kernelRun0_A c i arg3 harg3 arg4 harg4 arg5 harg5 arg6 harg6 arg7 harg7 hc0 hc1 x0 x1 x2).2.1)

theorem scover0_B_0 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : ¬cond0_1 i) (x0 : Vec F S152x100 .i32) (x1 : Vec F S256x1 .f32) (x2 : Vec F S152x1 .f32) (xs0 : Vec F S100x1 .f32) (y : S100x1.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S100x1.size (by sl_kernel_rfl) y

def sout0_B_0 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : ¬cond0_1 i) (x0 : Vec F S152x100 .i32) (x1 : Vec F S256x1 .f32) (x2 : Vec F S152x1 .f32) (xs0 : Vec F S100x1 .f32) : Vec F S100x1 .f32 :=
  VS0_0.read (Elt F) (VS0_0.writes (Elt F) VS0_0.junk (kernelRun0_B c i arg3 harg3 arg4 harg4 arg5 harg5 arg6 harg6 arg7 harg7 hc0 hc1 x0 x1 x2 xs0).2.1)

theorem cover0_C_3 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : cond0_1 i) (x0 : Vec F S152x100 .i32) (x1 : Vec F S256x1 .f32) (x2 : Vec F S152x1 .f32) (xs0 : Vec F S100x1 .f32) (y : S1x100x1.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1x100x1.size (by sl_kernel_rfl) y

def out0_C_3 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : cond0_1 i) (x0 : Vec F S152x100 .i32) (x1 : Vec F S256x1 .f32) (x2 : Vec F S152x1 .f32) (xs0 : Vec F S100x1 .f32) : Vec F S1x100x1 .f32 :=
  VO0_3.read (Elt F) (VO0_3.writes (Elt F) VO0_3.junk (kernelRun0_C c i arg3 harg3 arg4 harg4 arg5 harg5 arg6 harg6 arg7 harg7 hc0 hc1 x0 x1 x2 xs0).1)

theorem scover0_C_0 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : cond0_1 i) (x0 : Vec F S152x100 .i32) (x1 : Vec F S256x1 .f32) (x2 : Vec F S152x1 .f32) (xs0 : Vec F S100x1 .f32) (y : S100x1.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S100x1.size (by sl_kernel_rfl) y

def sout0_C_0 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : cond0_1 i) (x0 : Vec F S152x100 .i32) (x1 : Vec F S256x1 .f32) (x2 : Vec F S152x1 .f32) (xs0 : Vec F S100x1 .f32) : Vec F S100x1 .f32 :=
  VS0_0.read (Elt F) (VS0_0.writes (Elt F) VS0_0.junk (kernelRun0_C c i arg3 harg3 arg4 harg4 arg5 harg5 arg6 harg6 arg7 harg7 hc0 hc1 x0 x1 x2 xs0).2.1)

def restOut0 : Vec F S1x100x1 .f32 := VO0_3.read (Elt F) VO0_3.junk

def stepA0 (c : Dev nD) (t : Fin cfg0.N) (h0 : t.val % 24 = 0) : Vec F S1x100x1 .f32 × Vec F S100x1 .f32 :=
  (restOut0, sout0_A_0 c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => by have := (hcond0_1 t).mp h; omega) (iblk0 V c 0 t) (iblk0 V c 1 t) (iblk0 V c 2 t))

def stepB0 (c : Dev nD) (t : Fin cfg0.N) (h0 : ¬t.val % 24 = 0) (h1 : ¬t.val % 24 = 23) (prev : Vec F S100x1 .f32) :
    Vec F S1x100x1 .f32 × Vec F S100x1 .f32 :=
  (restOut0, sout0_B_0 c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) (fun h => h1 ((hcond0_1 t).mp h)) (iblk0 V c 0 t) (iblk0 V c 1 t) (iblk0 V c 2 t) prev)

def stepC0 (c : Dev nD) (t : Fin cfg0.N) (h1 : t.val % 24 = 23) (prev : Vec F S100x1 .f32) :
    Vec F S1x100x1 .f32 × Vec F S100x1 .f32 :=
  (out0_C_3 c (grid0.coords t) (ms0_0 t) (hs0_0 t) (ms0_1 t) (hs0_1 t) (ms0_2 t) (hs0_2 t) (ms0_3 t) (hs0_3 t) scM0_0 (Memref.isWhole_whole _)
      (fun h => by have := (hcond0_0 t).mp h; omega) ((hcond0_1 t).mpr h1) (iblk0 V c 0 t) (iblk0 V c 1 t) (iblk0 V c 2 t) prev,
    sout0_C_0 c (grid0.coords t) (ms0_0 t) (hs0_0 t) (ms0_1 t) (hs0_1 t) (ms0_2 t) (hs0_2 t) (ms0_3 t) (hs0_3 t) scM0_0 (Memref.isWhole_whole _)
      (fun h => by have := (hcond0_0 t).mp h; omega) ((hcond0_1 t).mpr h1) (iblk0 V c 0 t) (iblk0 V c 1 t) (iblk0 V c 2 t) prev)

def outsAt0 (c : Dev nD) : (n : ℕ) → n < cfg0.N → Vec F S1x100x1 .f32 × Vec F S100x1 .f32
  | 0, hn => stepA0 V c ⟨0, hn⟩ (Nat.zero_mod _)
  | n + 1, hn =>
    if h1 : (n + 1) % 24 = 23 then stepC0 V c ⟨n + 1, hn⟩ h1 (outsAt0 c n (Nat.lt_of_succ_lt hn)).2
    else if h0 : (n + 1) % 24 = 0 then stepA0 V c ⟨n + 1, hn⟩ h0
    else stepB0 V c ⟨n + 1, hn⟩ h0 h1 (outsAt0 c n (Nat.lt_of_succ_lt hn)).2

theorem outsAt0_A (c : Dev nD) (t : Fin cfg0.N) (h0 : t.val % 24 = 0) :
    outsAt0 V c t.val t.isLt = stepA0 V c t h0 := by
  obtain ⟨n, hn⟩ := t
  cases n with
  | zero => rfl
  | succ n =>
    have h0' : (n + 1) % 24 = 0 := h0
    exact (dif_neg (by omega)).trans ((dif_pos h0').trans rfl)

theorem outsAt0_B (c : Dev nD) (t : Fin cfg0.N) (h0 : ¬t.val % 24 = 0) (h1 : ¬t.val % 24 = 23) :
    outsAt0 V c t.val t.isLt
      = stepB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h1).trans ((dif_neg h0).trans rfl)

theorem outsAt0_C (c : Dev nD) (t : Fin cfg0.N) (h1 : t.val % 24 = 23) :
    outsAt0 V c t.val t.isLt
      = stepC0 V c t h1 (outsAt0 V c (t.val - 1) (Nat.lt_of_le_of_lt (Nat.sub_le _ _) t.isLt)).2 := by
  obtain ⟨n, hn⟩ := t
  cases n with
  | zero => exact absurd (show (0 : ℕ) % 24 = 23 from h1) (by decide)
  | succ n => exact (dif_pos h1).trans rfl

def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2
      ∗ Pipeline.scopedRestBut (Ix := Unit) (Name := ℕ) (U := UR sig nD τ) (Lvl := ℕ) (Val := Elt F) spec0 c [cc0_scratch0]) ∗ (∃ r, prngReg c r))

theorem PhiS0_succ (c : Dev nD) (n : ℕ) (hn : n < cfg0.N) :
    PhiS0 V c (n + 1) hn = iprop(iprop(owns (c : Thread nD τ) scM0_0 fullShare (outsAt0 V c n hn).2
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (outsAt0 V c (n - 1) (by omega)).2
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

theorem PhiS0_open (c : Dev nD) : ∀ (n : ℕ) (h : n ≤ cfg0.N), PhiS0 V c n h
    ⊢ iprop(iprop(iprop((∃ d, owns (c : Thread nD τ) scM0_0 fullShare d)) ∗ Pipeline.scopedRestBut (Ix := Unit) (Name := ℕ) (U := UR sig nD τ) (Lvl := ℕ) (Val := Elt F) spec0 c [cc0_scratch0]) ∗ (∃ r, prngReg c r))
  | 0, _ => Entails.of_eq (PhiA0_eq c)
  | n + 1, hn => by
    rw [PhiS0_succ]
    iintro ⟨⟨HS, HR⟩, Hg⟩
    isplitl [HS HR]
    · isplitl [HS]
      · iexists _; iexact HS
      · iexact HR
    · iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem leaves0_0 (c : Dev nD) (t : Fin cfg0.N) :
    (dat0 V c).leavesExact 0 t = owns (c : Thread nD τ) (ms0_0 t) fullShare (iblk0 V c 0 t) := by
  rw [← after0_0 V c t]
theorem leaves0_1 (c : Dev nD) (t : Fin cfg0.N) :
    (dat0 V c).leavesExact 1 t = owns (c : Thread nD τ) (ms0_1 t) fullShare (iblk0 V c 1 t) := by
  rw [← after0_1 V c t]
theorem leaves0_2 (c : Dev nD) (t : Fin cfg0.N) :
    (dat0 V c).leavesExact 2 t = owns (c : Thread nD τ) (ms0_2 t) fullShare (iblk0 V c 2 t) := by
  rw [← after0_2 V c t]
theorem leaves0_3_rest (c : Dev nD) (t : Fin cfg0.N) (h : ¬t.val % 24 = 23) :
    (dat0 V c).leavesExact 3 t = iprop(∃ d, owns (c : Thread nD τ) (ms0_3 t) fullShare ((dat0 V c).before 3 t d)) :=
  Dat.leavesExact_idle (dat0 V c) 3 t (idleAt0_3 t h) (noFlush0_3 t h)
theorem leaves0_3_emit (c : Dev nD) (t : Fin cfg0.N) (h : t.val % 24 = 23) :
    (dat0 V c).leavesExact 3 t = owns (c : Thread nD τ) (ms0_3 t) fullShare (outsAt0 V c t.val t.isLt).1 := by
  unfold Dat.leavesExact; rw [liveAt0_3 t h, after0_3]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = PhiS0 V c (t.val + 1) t.isLt from rfl, PhiS0_succ,
    leaves0_0, leaves0_1, leaves0_2, PhiS0_castSucc V c t]
  have hN : t.val < 48 := lt_N0 t
  by_cases h1 : t.val % 24 = 23
  ·
    have hz : t.val ≠ 0 := by omega
    rw [leaves0_3_emit V c t h1, outsAt0_C V c t h1, PhiS0_pos V c _ _ hz]
    unfold stepC0 out0_C_3 sout0_C_0; dsimp only
    iintro ⟨⟨⟨HS0, HR⟩, Hg⟩, Ho, ⟨%d0, H0⟩, ⟨%d1, H1⟩, ⟨%d2, H2⟩, ⟨%d3, H3⟩⟩
    iapply ((kernelRun0_C c (grid0.coords t) _ _ _ _ _ _ _ _ _ _ (fun h => by have := (hcond0_0 t).mp h; omega)
      ((hcond0_1 t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C_0 c _ _ _ _ _ _ _ _ _ _ _ _ _ _ _ _ _)
        · iexact HR
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _)
  · rw [leaves0_3_rest V c t h1]
    by_cases h0 : t.val % 24 = 0
    ·
      rw [outsAt0_A V c t h0]
      unfold stepA0 sout0_A_0; dsimp only
      iintro ⟨HΦ, Ho, ⟨%d0, H0⟩, ⟨%d1, H1⟩, ⟨%d2, H2⟩, ⟨%d3, H3⟩⟩
      ihave HΦ' := (PhiS0_open V c t.val _) $$ HΦ
      icases HΦ' with ⟨⟨HS0, HR⟩, Hg⟩
      iapply ((kernelRun0_A c (grid0.coords t) _ _ _ _ _ _ _ _ _ _ ((hcond0_0 t).mpr h0)
        (fun h => by have := (hcond0_1 t).mp h; omega) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3
    ·
      have hz : t.val ≠ 0 := fun e => h0 (by rw [e])
      rw [outsAt0_B V c t h0 h1, PhiS0_pos V c _ _ hz]
      unfold stepB0 sout0_B_0; dsimp only
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h))
        (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3

theorem body_obligation0 (c : Dev nD) :
    BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 :=
  Entails.of_eq rfl

theorem hout0 (c : Dev nD) : (dat0 V c).Φ (Fin.last cfg0.N) ⊢ Pipeline.ΦA spec0 c := by
  rw [PhiA0_eq]
  show PhiS0 V c (Fin.last cfg0.N).val (Nat.le_of_lt_succ (Fin.last cfg0.N).isLt) ⊢ _
  exact PhiS0_open V c _ _

end Cert.Kernel.R0

end
-- ==== Proof.K.R1Runs.lean ====
import proofs.«406789_j53094385713523_3_alg».proof.Proof.Gen.Kernel.Launch
import proofs.«406789_j53094385713523_3_alg».proof.Proof.Gen.Kernel.Skeleton
import proofs.«406789_j53094385713523_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  refine (dat.before_in_eq_fetched 0 rfl (fun _ => rfl) (fun _ _ _ => rfl) (fun s => ?_) t d).trans ?_
  · rw [hafter]; unfold Dat.blockOf iblk1; rw [hA]; try rfl
  · unfold Dat.fetched Dat.blockOf iblk1; rw [hA]; try rfl

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  refine (dat.before_in_eq_fetched 1 rfl (fun _ => rfl) (fun _ _ _ => rfl) (fun s => ?_) t d).trans ?_
  · rw [hafter]; unfold Dat.blockOf iblk1; rw [hA]; try rfl
  · unfold Dat.fetched Dat.blockOf iblk1; rw [hA]; try rfl

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  refine (dat.before_in_eq_fetched 2 rfl (fun _ => rfl) (fun _ _ _ => rfl) (fun s => ?_) t d).trans ?_
  · rw [hafter]; unfold Dat.blockOf iblk1; rw [hA]; try rfl
  · unfold Dat.fetched Dat.blockOf iblk1; rw [hA]; try rfl

abbrev cond1_0 (i : grid1.Coords) : Prop :=
  Scalar.cmpi .ne (Scalar.extui (Scalar.andi (Scalar.cmpi .eq (BitVec.ofNat 32 (i 1).val) 0#32)
    (Scalar.cmpi .eq (BitVec.ofNat 32 (i 2).val) 0#32))) 0#32 = 1#1

theorem hcond1_0 : ∀ t : Fin cfg1.N, cond1_0 (grid1.coords t) ↔ t.val % 132 = 0 :=
  (by decide +kernel : ∀ t : Fin grid1.N, cond1_0 (grid1.coords t) ↔ t.val % 132 = 0)

abbrev cond1_1 (i : grid1.Coords) : Prop := k1_cond2 i = 1#1

theorem hcond1_1 : ∀ t : Fin cfg1.N, cond1_1 (grid1.coords t) ↔ t.val % 132 = 131 :=
  (by decide +kernel : ∀ t : Fin grid1.N, cond1_1 (grid1.coords t) ↔ t.val % 132 = 131)

theorem lt_N1 (t : Fin cfg1.N) : t.val < 264 := lt_of_lt_of_eq t.isLt (show cfg1.N = 264 from N_1)

theorem idle1_3_iff : ∀ t : Fin cfg1.N, cfg1.idle 3 (grid1.coords t) = true ↔ ¬t.val % 132 = 131 :=
  (by decide +kernel : ∀ t : Fin grid1.N, idle1 3 (grid1.coords t) = true ↔ ¬t.val % 132 = 131)

theorem idleAt1_3 (t : Fin cfg1.N) (h : ¬t.val % 132 = 131) : cfg1.idle 3 (grid1.coords t) = true :=
  (idle1_3_iff t).mpr h

theorem liveAt1_3 (t : Fin cfg1.N) (h : t.val % 132 = 131) : cfg1.idle 3 (grid1.coords t) = false :=
  Bool.eq_false_iff.mpr fun hi => (idle1_3_iff t).mp hi h

theorem noFlush1_3 (t : Fin cfg1.N) (h : ¬t.val % 132 = 131) : (cfg1.win 3).flush t = false :=
  Bool.eq_false_iff.mpr fun hf => h ((flush1_3 t).mp hf)

abbrev ms1_0 (t : Fin cfg1.N) : Memref sig .tc .vmem S72x200 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S72x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x200x1 .f32 := win1_3.stage (cfg1.slots t 3)
abbrev hs1_3 (t : Fin cfg1.N) : (ms1_3 t).IsWhole := hstage1_3 ((cfg1.slots t 3).cast nbuf1_3)

abbrev scM1_0 : Memref sig .tc .vmem S200x1 .f32 := Memref.whole cc1_scratch0

abbrev VO1_3 : View sig .tc .vmem S1x200x1 .f32 := (Memref.whole cc1_stg3_0 : Memref sig .tc .vmem S1x200x1 .f32).view
abbrev VS1_0 : View sig .tc .vmem S200x1 .f32 := scM1_0.view

theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scM1_0, owns_whole]; try rfl

end Cert.Kernel.R1

end
-- ==== Proof.K.R1Run.lean ====
import proofs.«406789_j53094385713523_3_alg».proof.Proof.K.R1Runs

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_A (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : cond1_0 i) (hc1 : ¬cond1_1 i)
    (x0 : Vec F S72x200 .i32) (x1 : Vec F S256x1 .f32) (x2 : Vec F S72x1 .f32) :
    Σ' (L3 : List (View.Piece (Elt F) S1x200x1 .f32)), { LS0 : List (View.Piece (Elt F) S200x1 .f32) //
      ∀ (xi3 : Vec F S1x200x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__gather_mean_kernel i arg3 harg3 arg4 harg4 arg5 harg5 arg6 harg6 arg7 harg7) K } := by
  refine ⟨[], ?_, fun xi3 E K => ?run⟩
  case run =>
    simp only [cc1__gather_mean_kernel_eq_skeleton]; unfold cc1__gather_mean_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun1_B (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : ¬cond1_1 i)
    (x0 : Vec F S72x200 .i32) (x1 : Vec F S256x1 .f32) (x2 : Vec F S72x1 .f32) (xs0 : Vec F S200x1 .f32) :
    Σ' (L3 : List (View.Piece (Elt F) S1x200x1 .f32)), { LS0 : List (View.Piece (Elt F) S200x1 .f32) //
      ∀ (xi3 : Vec F S1x200x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__gather_mean_kernel i arg3 harg3 arg4 harg4 arg5 harg5 arg6 harg6 arg7 harg7) K } := by
  refine ⟨[], ?_, fun xi3 E K => ?run⟩
  case run =>
    simp only [cc1__gather_mean_kernel_eq_skeleton]; unfold cc1__gather_mean_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun1_C (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : cond1_1 i)
    (x0 : Vec F S72x200 .i32) (x1 : Vec F S256x1 .f32) (x2 : Vec F S72x1 .f32) (xs0 : Vec F S200x1 .f32) :
    Σ' (L3 : List (View.Piece (Elt F) S1x200x1 .f32)), { LS0 : List (View.Piece (Elt F) S200x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__gather_mean_kernel i arg3 harg3 arg4 harg4 arg5 harg5 arg6 harg6 arg7 harg7) K } := by
  refine ⟨?_, ?_, fun E K => ?run⟩
  case run =>
    simp only [cc1__gather_mean_kernel_eq_skeleton]; unfold cc1__gather_mean_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1
    obtain rfl := harg5.eq_unread hf2; obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; iexact H3
    iexists _; iexact HS0

end Cert.Kernel.R1

end
-- ==== Proof.K.R1.lean ====
import proofs.«406789_j53094385713523_3_alg».proof.Proof.K.R1Run

set_option maxRecDepth 16384

noncomputable section

namespace Cert.Kernel.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scover1_A_0 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : cond1_0 i) (hc1 : ¬cond1_1 i) (x0 : Vec F S72x200 .i32) (x1 : Vec F S256x1 .f32) (x2 : Vec F S72x1 .f32) (y : S200x1.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S200x1.size (by sl_kernel_rfl) y

def sout1_A_0 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : cond1_0 i) (hc1 : ¬cond1_1 i) (x0 : Vec F S72x200 .i32) (x1 : Vec F S256x1 .f32) (x2 : Vec F S72x1 .f32) : Vec F S200x1 .f32 :=
  VS1_0.read (Elt F) (VS1_0.writes (Elt F) VS1_0.junk (kernelRun1_A c i arg3 harg3 arg4 harg4 arg5 harg5 arg6 harg6 arg7 harg7 hc0 hc1 x0 x1 x2).2.1)

theorem scover1_B_0 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : ¬cond1_1 i) (x0 : Vec F S72x200 .i32) (x1 : Vec F S256x1 .f32) (x2 : Vec F S72x1 .f32) (xs0 : Vec F S200x1 .f32) (y : S200x1.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S200x1.size (by sl_kernel_rfl) y

def sout1_B_0 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : ¬cond1_1 i) (x0 : Vec F S72x200 .i32) (x1 : Vec F S256x1 .f32) (x2 : Vec F S72x1 .f32) (xs0 : Vec F S200x1 .f32) : Vec F S200x1 .f32 :=
  VS1_0.read (Elt F) (VS1_0.writes (Elt F) VS1_0.junk (kernelRun1_B c i arg3 harg3 arg4 harg4 arg5 harg5 arg6 harg6 arg7 harg7 hc0 hc1 x0 x1 x2 xs0).2.1)

theorem cover1_C_3 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : cond1_1 i) (x0 : Vec F S72x200 .i32) (x1 : Vec F S256x1 .f32) (x2 : Vec F S72x1 .f32) (xs0 : Vec F S200x1 .f32) (y : S1x200x1.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1x200x1.size (by sl_kernel_rfl) y

def out1_C_3 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : cond1_1 i) (x0 : Vec F S72x200 .i32) (x1 : Vec F S256x1 .f32) (x2 : Vec F S72x1 .f32) (xs0 : Vec F S200x1 .f32) : Vec F S1x200x1 .f32 :=
  VO1_3.read (Elt F) (VO1_3.writes (Elt F) VO1_3.junk (kernelRun1_C c i arg3 harg3 arg4 harg4 arg5 harg5 arg6 harg6 arg7 harg7 hc0 hc1 x0 x1 x2 xs0).1)

theorem scover1_C_0 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : cond1_1 i) (x0 : Vec F S72x200 .i32) (x1 : Vec F S256x1 .f32) (x2 : Vec F S72x1 .f32) (xs0 : Vec F S200x1 .f32) (y : S200x1.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S200x1.size (by sl_kernel_rfl) y

def sout1_C_0 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : cond1_1 i) (x0 : Vec F S72x200 .i32) (x1 : Vec F S256x1 .f32) (x2 : Vec F S72x1 .f32) (xs0 : Vec F S200x1 .f32) : Vec F S200x1 .f32 :=
  VS1_0.read (Elt F) (VS1_0.writes (Elt F) VS1_0.junk (kernelRun1_C c i arg3 harg3 arg4 harg4 arg5 harg5 arg6 harg6 arg7 harg7 hc0 hc1 x0 x1 x2 xs0).2.1)

def restOut1 : Vec F S1x200x1 .f32 := VO1_3.read (Elt F) VO1_3.junk

def stepA1 (c : Dev nD) (t : Fin cfg1.N) (h0 : t.val % 132 = 0) : Vec F S1x200x1 .f32 × Vec F S200x1 .f32 :=
  (restOut1, sout1_A_0 c (grid1.coords t) (ms1_0 t) (hs1_0 t) (ms1_1 t) (hs1_1 t) (ms1_2 t) (hs1_2 t) (ms1_3 t) (hs1_3 t) scM1_0 (Memref.isWhole_whole _)
    ((hcond1_0 t).mpr h0) (fun h => by have := (hcond1_1 t).mp h; omega) (iblk1 V c 0 t) (iblk1 V c 1 t) (iblk1 V c 2 t))

def stepB1 (c : Dev nD) (t : Fin cfg1.N) (h0 : ¬t.val % 132 = 0) (h1 : ¬t.val % 132 = 131) (prev : Vec F S200x1 .f32) :
    Vec F S1x200x1 .f32 × Vec F S200x1 .f32 :=
  (restOut1, sout1_B_0 c (grid1.coords t) (ms1_0 t) (hs1_0 t) (ms1_1 t) (hs1_1 t) (ms1_2 t) (hs1_2 t) (ms1_3 t) (hs1_3 t) scM1_0 (Memref.isWhole_whole _)
    (fun h => h0 ((hcond1_0 t).mp h)) (fun h => h1 ((hcond1_1 t).mp h)) (iblk1 V c 0 t) (iblk1 V c 1 t) (iblk1 V c 2 t) prev)

def stepC1 (c : Dev nD) (t : Fin cfg1.N) (h1 : t.val % 132 = 131) (prev : Vec F S200x1 .f32) :
    Vec F S1x200x1 .f32 × Vec F S200x1 .f32 :=
  (out1_C_3 c (grid1.coords t) (ms1_0 t) (hs1_0 t) (ms1_1 t) (hs1_1 t) (ms1_2 t) (hs1_2 t) (ms1_3 t) (hs1_3 t) scM1_0 (Memref.isWhole_whole _)
      (fun h => by have := (hcond1_0 t).mp h; omega) ((hcond1_1 t).mpr h1) (iblk1 V c 0 t) (iblk1 V c 1 t) (iblk1 V c 2 t) prev,
    sout1_C_0 c (grid1.coords t) (ms1_0 t) (hs1_0 t) (ms1_1 t) (hs1_1 t) (ms1_2 t) (hs1_2 t) (ms1_3 t) (hs1_3 t) scM1_0 (Memref.isWhole_whole _)
      (fun h => by have := (hcond1_0 t).mp h; omega) ((hcond1_1 t).mpr h1) (iblk1 V c 0 t) (iblk1 V c 1 t) (iblk1 V c 2 t) prev)

def outsAt1 (c : Dev nD) : (n : ℕ) → n < cfg1.N → Vec F S1x200x1 .f32 × Vec F S200x1 .f32
  | 0, hn => stepA1 V c ⟨0, hn⟩ (Nat.zero_mod _)
  | n + 1, hn =>
    if h1 : (n + 1) % 132 = 131 then stepC1 V c ⟨n + 1, hn⟩ h1 (outsAt1 c n (Nat.lt_of_succ_lt hn)).2
    else if h0 : (n + 1) % 132 = 0 then stepA1 V c ⟨n + 1, hn⟩ h0
    else stepB1 V c ⟨n + 1, hn⟩ h0 h1 (outsAt1 c n (Nat.lt_of_succ_lt hn)).2

theorem outsAt1_A (c : Dev nD) (t : Fin cfg1.N) (h0 : t.val % 132 = 0) :
    outsAt1 V c t.val t.isLt = stepA1 V c t h0 := by
  obtain ⟨n, hn⟩ := t
  cases n with
  | zero => rfl
  | succ n =>
    have h0' : (n + 1) % 132 = 0 := h0
    exact (dif_neg (by omega)).trans ((dif_pos h0').trans rfl)

theorem outsAt1_B (c : Dev nD) (t : Fin cfg1.N) (h0 : ¬t.val % 132 = 0) (h1 : ¬t.val % 132 = 131) :
    outsAt1 V c t.val t.isLt
      = stepB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h1).trans ((dif_neg h0).trans rfl)

theorem outsAt1_C (c : Dev nD) (t : Fin cfg1.N) (h1 : t.val % 132 = 131) :
    outsAt1 V c t.val t.isLt
      = stepC1 V c t h1 (outsAt1 V c (t.val - 1) (Nat.lt_of_le_of_lt (Nat.sub_le _ _) t.isLt)).2 := by
  obtain ⟨n, hn⟩ := t
  cases n with
  | zero => exact absurd (show (0 : ℕ) % 132 = 131 from h1) (by decide)
  | succ n => exact (dif_pos h1).trans rfl

def PhiS1 (c : Dev nD) : (n : ℕ) → n ≤ cfg1.N → sProp 𝕄
  | 0, _ => Pipeline.ΦA spec1 c
  | n + 1, hn => iprop(iprop(owns (c : Thread nD τ) scM1_0 fullShare (outsAt1 V c n hn).2
      ∗ Pipeline.scopedRestBut (Ix := Unit) (Name := ℕ) (U := UR sig nD τ) (Lvl := ℕ) (Val := Elt F) spec1 c [cc1_scratch0]) ∗ (∃ r, prngReg c r))

theorem PhiS1_succ (c : Dev nD) (n : ℕ) (hn : n < cfg1.N) :
    PhiS1 V c (n + 1) hn = iprop(iprop(owns (c : Thread nD τ) scM1_0 fullShare (outsAt1 V c n hn).2
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (outsAt1 V c (n - 1) (by omega)).2
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

theorem PhiS1_open (c : Dev nD) : ∀ (n : ℕ) (h : n ≤ cfg1.N), PhiS1 V c n h
    ⊢ iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r))
  | 0, _ => Entails.of_eq (PhiA1_eq c)
  | n + 1, hn => by
    rw [PhiS1_succ]
    iintro ⟨⟨HS, HR⟩, Hg⟩
    isplitl [HS HR]
    · isplitl [HS]
      · iexists _; iexact HS
      · iexact HR
    · iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem leaves1_0 (c : Dev nD) (t : Fin cfg1.N) :
    (dat1 V c).leavesExact 0 t = owns (c : Thread nD τ) (ms1_0 t) fullShare (iblk1 V c 0 t) := by
  rw [← after1_0 V c t]
theorem leaves1_1 (c : Dev nD) (t : Fin cfg1.N) :
    (dat1 V c).leavesExact 1 t = owns (c : Thread nD τ) (ms1_1 t) fullShare (iblk1 V c 1 t) := by
  rw [← after1_1 V c t]
theorem leaves1_2 (c : Dev nD) (t : Fin cfg1.N) :
    (dat1 V c).leavesExact 2 t = owns (c : Thread nD τ) (ms1_2 t) fullShare (iblk1 V c 2 t) := by
  rw [← after1_2 V c t]
theorem leaves1_3_rest (c : Dev nD) (t : Fin cfg1.N) (h : ¬t.val % 132 = 131) :
    (dat1 V c).leavesExact 3 t = iprop(∃ d, owns (c : Thread nD τ) (ms1_3 t) fullShare ((dat1 V c).before 3 t d)) :=
  Dat.leavesExact_idle (dat1 V c) 3 t (idleAt1_3 t h) (noFlush1_3 t h)
theorem leaves1_3_emit (c : Dev nD) (t : Fin cfg1.N) (h : t.val % 132 = 131) :
    (dat1 V c).leavesExact 3 t = owns (c : Thread nD τ) (ms1_3 t) fullShare (outsAt1 V c t.val t.isLt).1 := by
  unfold Dat.leavesExact; rw [liveAt1_3 t h, after1_3]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl, PhiS1_succ,
    leaves1_0, leaves1_1, leaves1_2, PhiS1_castSucc V c t]
  have hN : t.val < 264 := lt_N1 t
  by_cases h1 : t.val % 132 = 131
  ·
    have hz : t.val ≠ 0 := by omega
    rw [leaves1_3_emit V c t h1, outsAt1_C V c t h1, PhiS1_pos V c _ _ hz]
    unfold stepC1 out1_C_3 sout1_C_0; dsimp only
    iintro ⟨⟨⟨HS0, HR⟩, Hg⟩, Ho, ⟨%d0, H0⟩, ⟨%d1, H1⟩, ⟨%d2, H2⟩, ⟨%d3, H3⟩⟩
    iapply ((kernelRun1_C c (grid1.coords t) _ _ _ _ _ _ _ _ _ _ (fun h => by have := (hcond1_0 t).mp h; omega)
      ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_C_0 c _ _ _ _ _ _ _ _ _ _ _ _ _ _ _ _ _)
        · iexact HR
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)
  · rw [leaves1_3_rest V c t h1]
    by_cases h0 : t.val % 132 = 0
    ·
      rw [outsAt1_A V c t h0]
      unfold stepA1 sout1_A_0; dsimp only
      iintro ⟨HΦ, Ho, ⟨%d0, H0⟩, ⟨%d1, H1⟩, ⟨%d2, H2⟩, ⟨%d3, H3⟩⟩
      ihave HΦ' := (PhiS1_open V c t.val _) $$ HΦ
      icases HΦ' with ⟨⟨HS0, HR⟩, Hg⟩
      iapply ((kernelRun1_A c (grid1.coords t) _ _ _ _ _ _ _ _ _ _ ((hcond1_0 t).mpr h0)
        (fun h => by have := (hcond1_1 t).mp h; omega) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3
    ·
      have hz : t.val ≠ 0 := fun e => h0 (by rw [e])
      rw [outsAt1_B V c t h0 h1, PhiS1_pos V c _ _ hz]
      unfold stepB1 sout1_B_0; dsimp only
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h))
        (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3

theorem body_obligation1 (c : Dev nD) :
    BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 :=
  Entails.of_eq rfl

theorem hout1 (c : Dev nD) : (dat1 V c).Φ (Fin.last cfg1.N) ⊢ Pipeline.ΦA spec1 c := by
  rw [PhiA1_eq]
  show PhiS1 V c (Fin.last cfg1.N).val (Nat.le_of_lt_succ (Fin.last cfg1.N).isLt) ⊢ _
  exact PhiS1_open V c _ _

end Cert.Kernel.R1

end
-- ==== Proof.K.R2Runs.lean ====
import proofs.«406789_j53094385713523_3_alg».proof.Proof.Gen.Kernel.Launch
import proofs.«406789_j53094385713523_3_alg».proof.Proof.Gen.Kernel.Skeleton
import proofs.«406789_j53094385713523_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c)
    (hA : dat.A 0 = V c (Pipeline.arrRef spec2 0)) (hafter : ∀ t, dat.after 0 t = iblk2 V c 0 t)
    (t : Fin cfg2.N) (d) : dat.before 0 t d = iblk2 V c 0 t := by
  refine (dat.before_in_eq_fetched 0 rfl (fun _ => rfl) (fun _ _ _ => rfl) (fun s => ?_) t d).trans ?_
  · rw [hafter]; unfold Dat.blockOf iblk2; rw [hA]; try rfl
  · unfold Dat.fetched Dat.blockOf iblk2; rw [hA]; try rfl

theorem before2_1_of {c : Dev nD} (dat : Dat τ (Elt F) Unit ℕ (UR sig nD τ) ℕ cfg2 c)
    (hA : dat.A 1 = V c (Pipeline.arrRef spec2 1)) (hafter : ∀ t, dat.after 1 t = iblk2 V c 1 t)
    (t : Fin cfg2.N) (d) : dat.before 1 t d = iblk2 V c 1 t := by
  refine (dat.before_in_eq_fetched 1 rfl (fun _ => rfl) (fun _ _ _ => rfl) (fun s => ?_) t d).trans ?_
  · rw [hafter]; unfold Dat.blockOf iblk2; rw [hA]; try rfl
  · unfold Dat.fetched Dat.blockOf iblk2; rw [hA]; try rfl

theorem before2_2_of {c : Dev nD} (dat : Dat τ (Elt F) Unit ℕ (UR sig nD τ) ℕ cfg2 c)
    (hA : dat.A 2 = V c (Pipeline.arrRef spec2 2)) (hafter : ∀ t, dat.after 2 t = iblk2 V c 2 t)
    (t : Fin cfg2.N) (d) : dat.before 2 t d = iblk2 V c 2 t := by
  refine (dat.before_in_eq_fetched 2 rfl (fun _ => rfl) (fun _ _ _ => rfl) (fun s => ?_) t d).trans ?_
  · rw [hafter]; unfold Dat.blockOf iblk2; rw [hA]; try rfl
  · unfold Dat.fetched Dat.blockOf iblk2; rw [hA]; try rfl

abbrev cond2_0 (i : grid2.Coords) : Prop :=
  Scalar.cmpi .ne (Scalar.extui (Scalar.andi (Scalar.cmpi .eq (BitVec.ofNat 32 (i 1).val) 0#32)
    (Scalar.cmpi .eq (BitVec.ofNat 32 (i 2).val) 0#32))) 0#32 = 1#1

theorem hcond2_0 : ∀ t : Fin cfg2.N, cond2_0 (grid2.coords t) ↔ t.val % 6 = 0 :=
  (by decide +kernel : ∀ t : Fin grid2.N, cond2_0 (grid2.coords t) ↔ t.val % 6 = 0)

abbrev cond2_1 (i : grid2.Coords) : Prop := k2_cond2 i = 1#1

theorem hcond2_1 : ∀ t : Fin cfg2.N, cond2_1 (grid2.coords t) ↔ t.val % 6 = 5 :=
  (by decide +kernel : ∀ t : Fin grid2.N, cond2_1 (grid2.coords t) ↔ t.val % 6 = 5)

theorem lt_N2 (t : Fin cfg2.N) : t.val < 12 := lt_of_lt_of_eq t.isLt (show cfg2.N = 12 from N_2)

theorem idle2_3_iff : ∀ t : Fin cfg2.N, cfg2.idle 3 (grid2.coords t) = true ↔ ¬t.val % 6 = 5 :=
  (by decide +kernel : ∀ t : Fin grid2.N, idle2 3 (grid2.coords t) = true ↔ ¬t.val % 6 = 5)

theorem idleAt2_3 (t : Fin cfg2.N) (h : ¬t.val % 6 = 5) : cfg2.idle 3 (grid2.coords t) = true :=
  (idle2_3_iff t).mpr h

theorem liveAt2_3 (t : Fin cfg2.N) (h : t.val % 6 = 5) : cfg2.idle 3 (grid2.coords t) = false :=
  Bool.eq_false_iff.mpr fun hi => (idle2_3_iff t).mp hi h

theorem noFlush2_3 (t : Fin cfg2.N) (h : ¬t.val % 6 = 5) : (cfg2.win 3).flush t = false :=
  Bool.eq_false_iff.mpr fun hf => h ((flush2_3 t).mp hf)

abbrev ms2_0 (t : Fin cfg2.N) : Memref sig .tc .vmem S256x50 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x50x1 .f32 := win2_3.stage (cfg2.slots t 3)
abbrev hs2_3 (t : Fin cfg2.N) : (ms2_3 t).IsWhole := hstage2_3 ((cfg2.slots t 3).cast nbuf2_3)

abbrev scM2_0 : Memref sig .tc .vmem S50x1 .f32 := Memref.whole cc2_scratch0

abbrev VO2_3 : View sig .tc .vmem S1x50x1 .f32 := (Memref.whole cc2_stg3_0 : Memref sig .tc .vmem S1x50x1 .f32).view
abbrev VS2_0 : View sig .tc .vmem S50x1 .f32 := scM2_0.view

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2_0, owns_whole]; try rfl

end Cert.Kernel.R2

end
-- ==== Proof.K.R2Run.lean ====
import proofs.«406789_j53094385713523_3_alg».proof.Proof.K.R2Runs

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun2_A (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : cond2_0 i) (hc1 : ¬cond2_1 i)
    (x0 : Vec F S256x50 .i32) (x1 : Vec F S256x1 .f32) (x2 : Vec F S256x1 .f32) :
    Σ' (L3 : List (View.Piece (Elt F) S1x50x1 .f32)), { LS0 : List (View.Piece (Elt F) S50x1 .f32) //
      ∀ (xi3 : Vec F S1x50x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc2__gather_mean_kernel i arg3 harg3 arg4 harg4 arg5 harg5 arg6 harg6 arg7 harg7) K } := by
  refine ⟨[], ?_, fun xi3 E K => ?run⟩
  case run =>
    simp only [cc2__gather_mean_kernel_eq_skeleton]; unfold cc2__gather_mean_kernel_skel
    simp only [k2_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun2_B (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : ¬cond2_1 i)
    (x0 : Vec F S256x50 .i32) (x1 : Vec F S256x1 .f32) (x2 : Vec F S256x1 .f32) (xs0 : Vec F S50x1 .f32) :
    Σ' (L3 : List (View.Piece (Elt F) S1x50x1 .f32)), { LS0 : List (View.Piece (Elt F) S50x1 .f32) //
      ∀ (xi3 : Vec F S1x50x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc2__gather_mean_kernel i arg3 harg3 arg4 harg4 arg5 harg5 arg6 harg6 arg7 harg7) K } := by
  refine ⟨[], ?_, fun xi3 E K => ?run⟩
  case run =>
    simp only [cc2__gather_mean_kernel_eq_skeleton]; unfold cc2__gather_mean_kernel_skel
    simp only [k2_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun2_C (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : cond2_1 i)
    (x0 : Vec F S256x50 .i32) (x1 : Vec F S256x1 .f32) (x2 : Vec F S256x1 .f32) (xs0 : Vec F S50x1 .f32) :
    Σ' (L3 : List (View.Piece (Elt F) S1x50x1 .f32)), { LS0 : List (View.Piece (Elt F) S50x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc2__gather_mean_kernel i arg3 harg3 arg4 harg4 arg5 harg5 arg6 harg6 arg7 harg7) K } := by
  refine ⟨?_, ?_, fun E K => ?run⟩
  case run =>
    simp only [cc2__gather_mean_kernel_eq_skeleton]; unfold cc2__gather_mean_kernel_skel
    simp only [k2_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1
    obtain rfl := harg5.eq_unread hf2; obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; iexact H3
    iexists _; iexact HS0

end Cert.Kernel.R2

end
-- ==== Proof.K.R2.lean ====
import proofs.«406789_j53094385713523_3_alg».proof.Proof.K.R2Run

set_option maxRecDepth 16384

noncomputable section

namespace Cert.Kernel.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scover2_A_0 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : cond2_0 i) (hc1 : ¬cond2_1 i) (x0 : Vec F S256x50 .i32) (x1 : Vec F S256x1 .f32) (x2 : Vec F S256x1 .f32) (y : S50x1.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S50x1.size (by sl_kernel_rfl) y

def sout2_A_0 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : cond2_0 i) (hc1 : ¬cond2_1 i) (x0 : Vec F S256x50 .i32) (x1 : Vec F S256x1 .f32) (x2 : Vec F S256x1 .f32) : Vec F S50x1 .f32 :=
  VS2_0.read (Elt F) (VS2_0.writes (Elt F) VS2_0.junk (kernelRun2_A c i arg3 harg3 arg4 harg4 arg5 harg5 arg6 harg6 arg7 harg7 hc0 hc1 x0 x1 x2).2.1)

theorem scover2_B_0 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : ¬cond2_1 i) (x0 : Vec F S256x50 .i32) (x1 : Vec F S256x1 .f32) (x2 : Vec F S256x1 .f32) (xs0 : Vec F S50x1 .f32) (y : S50x1.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S50x1.size (by sl_kernel_rfl) y

def sout2_B_0 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : ¬cond2_1 i) (x0 : Vec F S256x50 .i32) (x1 : Vec F S256x1 .f32) (x2 : Vec F S256x1 .f32) (xs0 : Vec F S50x1 .f32) : Vec F S50x1 .f32 :=
  VS2_0.read (Elt F) (VS2_0.writes (Elt F) VS2_0.junk (kernelRun2_B c i arg3 harg3 arg4 harg4 arg5 harg5 arg6 harg6 arg7 harg7 hc0 hc1 x0 x1 x2 xs0).2.1)

theorem cover2_C_3 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : cond2_1 i) (x0 : Vec F S256x50 .i32) (x1 : Vec F S256x1 .f32) (x2 : Vec F S256x1 .f32) (xs0 : Vec F S50x1 .f32) (y : S1x50x1.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1x50x1.size (by sl_kernel_rfl) y

def out2_C_3 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : cond2_1 i) (x0 : Vec F S256x50 .i32) (x1 : Vec F S256x1 .f32) (x2 : Vec F S256x1 .f32) (xs0 : Vec F S50x1 .f32) : Vec F S1x50x1 .f32 :=
  VO2_3.read (Elt F) (VO2_3.writes (Elt F) VO2_3.junk (kernelRun2_C c i arg3 harg3 arg4 harg4 arg5 harg5 arg6 harg6 arg7 harg7 hc0 hc1 x0 x1 x2 xs0).1)

theorem scover2_C_0 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : cond2_1 i) (x0 : Vec F S256x50 .i32) (x1 : Vec F S256x1 .f32) (x2 : Vec F S256x1 .f32) (xs0 : Vec F S50x1 .f32) (y : S50x1.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S50x1.size (by sl_kernel_rfl) y

def sout2_C_0 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : cond2_1 i) (x0 : Vec F S256x50 .i32) (x1 : Vec F S256x1 .f32) (x2 : Vec F S256x1 .f32) (xs0 : Vec F S50x1 .f32) : Vec F S50x1 .f32 :=
  VS2_0.read (Elt F) (VS2_0.writes (Elt F) VS2_0.junk (kernelRun2_C c i arg3 harg3 arg4 harg4 arg5 harg5 arg6 harg6 arg7 harg7 hc0 hc1 x0 x1 x2 xs0).2.1)

def restOut2 : Vec F S1x50x1 .f32 := VO2_3.read (Elt F) VO2_3.junk

def stepA2 (c : Dev nD) (t : Fin cfg2.N) (h0 : t.val % 6 = 0) : Vec F S1x50x1 .f32 × Vec F S50x1 .f32 :=
  (restOut2, sout2_A_0 c (grid2.coords t) (ms2_0 t) (hs2_0 t) (ms2_1 t) (hs2_1 t) (ms2_2 t) (hs2_2 t) (ms2_3 t) (hs2_3 t) scM2_0 (Memref.isWhole_whole _)
    ((hcond2_0 t).mpr h0) (fun h => by have := (hcond2_1 t).mp h; omega) (iblk2 V c 0 t) (iblk2 V c 1 t) (iblk2 V c 2 t))

def stepB2 (c : Dev nD) (t : Fin cfg2.N) (h0 : ¬t.val % 6 = 0) (h1 : ¬t.val % 6 = 5) (prev : Vec F S50x1 .f32) :
    Vec F S1x50x1 .f32 × Vec F S50x1 .f32 :=
  (restOut2, sout2_B_0 c (grid2.coords t) (ms2_0 t) (hs2_0 t) (ms2_1 t) (hs2_1 t) (ms2_2 t) (hs2_2 t) (ms2_3 t) (hs2_3 t) scM2_0 (Memref.isWhole_whole _)
    (fun h => h0 ((hcond2_0 t).mp h)) (fun h => h1 ((hcond2_1 t).mp h)) (iblk2 V c 0 t) (iblk2 V c 1 t) (iblk2 V c 2 t) prev)

def stepC2 (c : Dev nD) (t : Fin cfg2.N) (h1 : t.val % 6 = 5) (prev : Vec F S50x1 .f32) :
    Vec F S1x50x1 .f32 × Vec F S50x1 .f32 :=
  (out2_C_3 c (grid2.coords t) (ms2_0 t) (hs2_0 t) (ms2_1 t) (hs2_1 t) (ms2_2 t) (hs2_2 t) (ms2_3 t) (hs2_3 t) scM2_0 (Memref.isWhole_whole _)
      (fun h => by have := (hcond2_0 t).mp h; omega) ((hcond2_1 t).mpr h1) (iblk2 V c 0 t) (iblk2 V c 1 t) (iblk2 V c 2 t) prev,
    sout2_C_0 c (grid2.coords t) (ms2_0 t) (hs2_0 t) (ms2_1 t) (hs2_1 t) (ms2_2 t) (hs2_2 t) (ms2_3 t) (hs2_3 t) scM2_0 (Memref.isWhole_whole _)
      (fun h => by have := (hcond2_0 t).mp h; omega) ((hcond2_1 t).mpr h1) (iblk2 V c 0 t) (iblk2 V c 1 t) (iblk2 V c 2 t) prev)

def outsAt2 (c : Dev nD) : (n : ℕ) → n < cfg2.N → Vec F S1x50x1 .f32 × Vec F S50x1 .f32
  | 0, hn => stepA2 V c ⟨0, hn⟩ (Nat.zero_mod _)
  | n + 1, hn =>
    if h1 : (n + 1) % 6 = 5 then stepC2 V c ⟨n + 1, hn⟩ h1 (outsAt2 c n (Nat.lt_of_succ_lt hn)).2
    else if h0 : (n + 1) % 6 = 0 then stepA2 V c ⟨n + 1, hn⟩ h0
    else stepB2 V c ⟨n + 1, hn⟩ h0 h1 (outsAt2 c n (Nat.lt_of_succ_lt hn)).2

theorem outsAt2_A (c : Dev nD) (t : Fin cfg2.N) (h0 : t.val % 6 = 0) :
    outsAt2 V c t.val t.isLt = stepA2 V c t h0 := by
  obtain ⟨n, hn⟩ := t
  cases n with
  | zero => rfl
  | succ n =>
    have h0' : (n + 1) % 6 = 0 := h0
    exact (dif_neg (by omega)).trans ((dif_pos h0').trans rfl)

theorem outsAt2_B (c : Dev nD) (t : Fin cfg2.N) (h0 : ¬t.val % 6 = 0) (h1 : ¬t.val % 6 = 5) :
    outsAt2 V c t.val t.isLt
      = stepB2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h1).trans ((dif_neg h0).trans rfl)

theorem outsAt2_C (c : Dev nD) (t : Fin cfg2.N) (h1 : t.val % 6 = 5) :
    outsAt2 V c t.val t.isLt
      = stepC2 V c t h1 (outsAt2 V c (t.val - 1) (Nat.lt_of_le_of_lt (Nat.sub_le _ _) t.isLt)).2 := by
  obtain ⟨n, hn⟩ := t
  cases n with
  | zero => exact absurd (show (0 : ℕ) % 6 = 5 from h1) (by decide)
  | succ n => exact (dif_pos h1).trans rfl

def PhiS2 (c : Dev nD) : (n : ℕ) → n ≤ cfg2.N → sProp 𝕄
  | 0, _ => Pipeline.ΦA spec2 c
  | n + 1, hn => iprop(iprop(owns (c : Thread nD τ) scM2_0 fullShare (outsAt2 V c n hn).2
      ∗ Pipeline.scopedRestBut (Ix := Unit) (Name := ℕ) (U := UR sig nD τ) (Lvl := ℕ) (Val := Elt F) spec2 c [cc2_scratch0]) ∗ (∃ r, prngReg c r))

theorem PhiS2_succ (c : Dev nD) (n : ℕ) (hn : n < cfg2.N) :
    PhiS2 V c (n + 1) hn = iprop(iprop(owns (c : Thread nD τ) scM2_0 fullShare (outsAt2 V c n hn).2
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (outsAt2 V c (n - 1) (by omega)).2
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

theorem PhiS2_open (c : Dev nD) : ∀ (n : ℕ) (h : n ≤ cfg2.N), PhiS2 V c n h
    ⊢ iprop(iprop(iprop((∃ d, owns (c : Thread nD τ) scM2_0 fullShare d)) ∗ Pipeline.scopedRestBut (Ix := Unit) (Name := ℕ) (U := UR sig nD τ) (Lvl := ℕ) (Val := Elt F) spec2 c [cc2_scratch0]) ∗ (∃ r, prngReg c r))
  | 0, _ => Entails.of_eq (PhiA2_eq c)
  | n + 1, hn => by
    rw [PhiS2_succ]
    iintro ⟨⟨HS, HR⟩, Hg⟩
    isplitl [HS HR]
    · isplitl [HS]
      · iexists _; iexact HS
      · iexact HR
    · iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem leaves2_0 (c : Dev nD) (t : Fin cfg2.N) :
    (dat2 V c).leavesExact 0 t = owns (c : Thread nD τ) (ms2_0 t) fullShare (iblk2 V c 0 t) := by
  rw [← after2_0 V c t]
theorem leaves2_1 (c : Dev nD) (t : Fin cfg2.N) :
    (dat2 V c).leavesExact 1 t = owns (c : Thread nD τ) (ms2_1 t) fullShare (iblk2 V c 1 t) := by
  rw [← after2_1 V c t]
theorem leaves2_2 (c : Dev nD) (t : Fin cfg2.N) :
    (dat2 V c).leavesExact 2 t = owns (c : Thread nD τ) (ms2_2 t) fullShare (iblk2 V c 2 t) := by
  rw [← after2_2 V c t]
theorem leaves2_3_rest (c : Dev nD) (t : Fin cfg2.N) (h : ¬t.val % 6 = 5) :
    (dat2 V c).leavesExact 3 t = iprop(∃ d, owns (c : Thread nD τ) (ms2_3 t) fullShare ((dat2 V c).before 3 t d)) :=
  Dat.leavesExact_idle (dat2 V c) 3 t (idleAt2_3 t h) (noFlush2_3 t h)
theorem leaves2_3_emit (c : Dev nD) (t : Fin cfg2.N) (h : t.val % 6 = 5) :
    (dat2 V c).leavesExact 3 t = owns (c : Thread nD τ) (ms2_3 t) fullShare (outsAt2 V c t.val t.isLt).1 := by
  unfold Dat.leavesExact; rw [liveAt2_3 t h, after2_3]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = PhiS2 V c (t.val + 1) t.isLt from rfl, PhiS2_succ,
    leaves2_0, leaves2_1, leaves2_2, PhiS2_castSucc V c t]
  have hN : t.val < 12 := lt_N2 t
  by_cases h1 : t.val % 6 = 5
  ·
    have hz : t.val ≠ 0 := by omega
    rw [leaves2_3_emit V c t h1, outsAt2_C V c t h1, PhiS2_pos V c _ _ hz]
    unfold stepC2 out2_C_3 sout2_C_0; dsimp only
    iintro ⟨⟨⟨HS0, HR⟩, Hg⟩, Ho, ⟨%d0, H0⟩, ⟨%d1, H1⟩, ⟨%d2, H2⟩, ⟨%d3, H3⟩⟩
    iapply ((kernelRun2_C c (grid2.coords t) _ _ _ _ _ _ _ _ _ _ (fun h => by have := (hcond2_0 t).mp h; omega)
      ((hcond2_1 t).mpr h1) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_C_0 c _ _ _ _ _ _ _ _ _ _ _ _ _ _ _ _ _)
        · iexact HR
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C_3 c _ _ _ _ _ _ _ _ _ _ _ _ _ _ _ _ _)
  · rw [leaves2_3_rest V c t h1]
    by_cases h0 : t.val % 6 = 0
    ·
      rw [outsAt2_A V c t h0]
      unfold stepA2 sout2_A_0; dsimp only
      iintro ⟨HΦ, Ho, ⟨%d0, H0⟩, ⟨%d1, H1⟩, ⟨%d2, H2⟩, ⟨%d3, H3⟩⟩
      ihave HΦ' := (PhiS2_open V c t.val _) $$ HΦ
      icases HΦ' with ⟨⟨HS0, HR⟩, Hg⟩
      iapply ((kernelRun2_A c (grid2.coords t) _ _ _ _ _ _ _ _ _ _ ((hcond2_0 t).mpr h0)
        (fun h => by have := (hcond2_1 t).mp h; omega) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3
    ·
      have hz : t.val ≠ 0 := fun e => h0 (by rw [e])
      rw [outsAt2_B V c t h0 h1, PhiS2_pos V c _ _ hz]
      unfold stepB2 sout2_B_0; dsimp only
      iintro ⟨⟨⟨HS0, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h))
        (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3

theorem body_obligation2 (c : Dev nD) :
    BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 :=
  Entails.of_eq rfl

theorem hout2 (c : Dev nD) : (dat2 V c).Φ (Fin.last cfg2.N) ⊢ Pipeline.ΦA spec2 c := by
  rw [PhiA2_eq]
  show PhiS2 V c (Fin.last cfg2.N).val (Nat.le_of_lt_succ (Fin.last cfg2.N).isLt) ⊢ _
  exact PhiS2_open V c _ _

end Cert.Kernel.R2

end
-- ==== Proof.K.R3Runs.lean ====
import proofs.«406789_j53094385713523_3_alg».proof.Proof.Gen.Kernel.Launch
import proofs.«406789_j53094385713523_3_alg».proof.Proof.Gen.Kernel.Skeleton
import proofs.«406789_j53094385713523_3_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t := by
  refine (dat.before_in_eq_fetched 0 rfl (fun _ => rfl) (fun _ _ _ => rfl) (fun s => ?_) t d).trans ?_
  · rw [hafter]; unfold Dat.blockOf iblk3; rw [hA]; try rfl
  · unfold Dat.fetched Dat.blockOf iblk3; rw [hA]; try rfl

theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t := by
  refine (dat.before_in_eq_fetched 1 rfl (fun _ => rfl) (fun _ _ _ => rfl) (fun s => ?_) t d).trans ?_
  · rw [hafter]; unfold Dat.blockOf iblk3; rw [hA]; try rfl
  · unfold Dat.fetched Dat.blockOf iblk3; rw [hA]; try rfl

theorem before3_2_of {c : Dev nD} (dat : Dat τ (Elt F) Unit ℕ (UR sig nD τ) ℕ cfg3 c)
    (hA : dat.A 2 = V c (Pipeline.arrRef spec3 2)) (hafter : ∀ t, dat.after 2 t = iblk3 V c 2 t)
    (t : Fin cfg3.N) (d) : dat.before 2 t d = iblk3 V c 2 t := by
  refine (dat.before_in_eq_fetched 2 rfl (fun _ => rfl) (fun _ _ _ => rfl) (fun s => ?_) t d).trans ?_
  · rw [hafter]; unfold Dat.blockOf iblk3; rw [hA]; try rfl
  · unfold Dat.fetched Dat.blockOf iblk3; rw [hA]; try rfl

abbrev cond3_0 (i : grid3.Coords) : Prop :=
  Scalar.cmpi .ne (Scalar.extui (Scalar.andi (Scalar.cmpi .eq (BitVec.ofNat 32 (i 1).val) 0#32)
    (Scalar.cmpi .eq (BitVec.ofNat 32 (i 2).val) 0#32))) 0#32 = 1#1

theorem hcond3_0 : ∀ t : Fin cfg3.N, cond3_0 (grid3.coords t) ↔ t.val % 18 = 0 :=
  (by decide +kernel : ∀ t : Fin grid3.N, cond3_0 (grid3.coords t) ↔ t.val % 18 = 0)

abbrev cond3_1 (i : grid3.Coords) : Prop := k3_cond2 i = 1#1

theorem hcond3_1 : ∀ t : Fin cfg3.N, cond3_1 (grid3.coords t) ↔ t.val % 18 = 17 :=
  (by decide +kernel : ∀ t : Fin grid3.N, cond3_1 (grid3.coords t) ↔ t.val % 18 = 17)

theorem lt_N3 (t : Fin cfg3.N) : t.val < 36 := lt_of_lt_of_eq t.isLt (show cfg3.N = 36 from N_3)

theorem idle3_3_iff : ∀ t : Fin cfg3.N, cfg3.idle 3 (grid3.coords t) = true ↔ ¬t.val % 18 = 17 :=
  (by decide +kernel : ∀ t : Fin grid3.N, idle3 3 (grid3.coords t) = true ↔ ¬t.val % 18 = 17)

theorem idleAt3_3 (t : Fin cfg3.N) (h : ¬t.val % 18 = 17) : cfg3.idle 3 (grid3.coords t) = true :=
  (idle3_3_iff t).mpr h

theorem liveAt3_3 (t : Fin cfg3.N) (h : t.val % 18 = 17) : cfg3.idle 3 (grid3.coords t) = false :=
  Bool.eq_false_iff.mpr fun hi => (idle3_3_iff t).mp hi h

theorem noFlush3_3 (t : Fin cfg3.N) (h : ¬t.val % 18 = 17) : (cfg3.win 3).flush t = false :=
  Bool.eq_false_iff.mpr fun hf => h ((flush3_3 t).mp hf)

abbrev ms3_0 (t : Fin cfg3.N) : Memref sig .tc .vmem S256x50 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x50x1 .f32 := win3_3.stage (cfg3.slots t 3)
abbrev hs3_3 (t : Fin cfg3.N) : (ms3_3 t).IsWhole := hstage3_3 ((cfg3.slots t 3).cast nbuf3_3)

abbrev scM3_0 : Memref sig .tc .vmem S50x1 .f32 := Memref.whole cc3_scratch0

abbrev VO3_3 : View sig .tc .vmem S1x50x1 .f32 := (Memref.whole cc3_stg3_0 : Memref sig .tc .vmem S1x50x1 .f32).view
abbrev VS3_0 : View sig .tc .vmem S50x1 .f32 := scM3_0.view

theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0])
        ∗ (∃ r, prngReg c r)) := by
  unfold Pipeline.ΦA; rw [scopedRest3_split]; simp only [scM3_0, owns_whole]; try rfl

end Cert.Kernel.R3

end
-- ==== Proof.K.R3Run.lean ====
import proofs.«406789_j53094385713523_3_alg».proof.Proof.K.R3Runs

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun3_A (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : cond3_0 i) (hc1 : ¬cond3_1 i)
    (x0 : Vec F S256x50 .i32) (x1 : Vec F S256x1 .f32) (x2 : Vec F S256x1 .f32) :
    Σ' (L3 : List (View.Piece (Elt F) S1x50x1 .f32)), { LS0 : List (View.Piece (Elt F) S50x1 .f32) //
      ∀ (xi3 : Vec F S1x50x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc3__gather_mean_kernel i arg3 harg3 arg4 harg4 arg5 harg5 arg6 harg6 arg7 harg7) K } := by
  refine ⟨[], ?_, fun xi3 E K => ?run⟩
  case run =>
    simp only [cc3__gather_mean_kernel_eq_skeleton]; unfold cc3__gather_mean_kernel_skel
    simp only [k3_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun3_B (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : ¬cond3_1 i)
    (x0 : Vec F S256x50 .i32) (x1 : Vec F S256x1 .f32) (x2 : Vec F S256x1 .f32) (xs0 : Vec F S50x1 .f32) :
    Σ' (L3 : List (View.Piece (Elt F) S1x50x1 .f32)), { LS0 : List (View.Piece (Elt F) S50x1 .f32) //
      ∀ (xi3 : Vec F S1x50x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc3__gather_mean_kernel i arg3 harg3 arg4 harg4 arg5 harg5 arg6 harg6 arg7 harg7) K } := by
  refine ⟨[], ?_, fun xi3 E K => ?run⟩
  case run =>
    simp only [cc3__gather_mean_kernel_eq_skeleton]; unfold cc3__gather_mean_kernel_skel
    simp only [k3_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun3_C (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : cond3_1 i)
    (x0 : Vec F S256x50 .i32) (x1 : Vec F S256x1 .f32) (x2 : Vec F S256x1 .f32) (xs0 : Vec F S50x1 .f32) :
    Σ' (L3 : List (View.Piece (Elt F) S1x50x1 .f32)), { LS0 : List (View.Piece (Elt F) S50x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc3__gather_mean_kernel i arg3 harg3 arg4 harg4 arg5 harg5 arg6 harg6 arg7 harg7) K } := by
  refine ⟨?_, ?_, fun E K => ?run⟩
  case run =>
    simp only [cc3__gather_mean_kernel_eq_skeleton]; unfold cc3__gather_mean_kernel_skel
    simp only [k3_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1
    obtain rfl := harg5.eq_unread hf2; obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; iexact H3
    iexists _; iexact HS0

end Cert.Kernel.R3

end
-- ==== Proof.K.R3.lean ====
import proofs.«406789_j53094385713523_3_alg».proof.Proof.K.R3Run

set_option maxRecDepth 16384

noncomputable section

namespace Cert.Kernel.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

theorem scover3_A_0 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : cond3_0 i) (hc1 : ¬cond3_1 i) (x0 : Vec F S256x50 .i32) (x1 : Vec F S256x1 .f32) (x2 : Vec F S256x1 .f32) (y : S50x1.Idx) :
    ∃ pc ∈ (kernelRun3_A c i arg3 harg3 arg4 harg4 arg5 harg5 arg6 harg6 arg7 harg7 hc0 hc1 x0 x1 x2).2.1, y ∈ pc.1.set :=
  View.cover_of_tiledL (kernelRun3_A c i arg3 harg3 arg4 harg4 arg5 harg5 arg6 harg6 arg7 harg7 hc0 hc1 x0 x1 x2).2.1 S50x1.size (by sl_kernel_rfl) y

def sout3_A_0 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : cond3_0 i) (hc1 : ¬cond3_1 i) (x0 : Vec F S256x50 .i32) (x1 : Vec F S256x1 .f32) (x2 : Vec F S256x1 .f32) : Vec F S50x1 .f32 :=
  VS3_0.read (Elt F) (VS3_0.writes (Elt F) VS3_0.junk (kernelRun3_A c i arg3 harg3 arg4 harg4 arg5 harg5 arg6 harg6 arg7 harg7 hc0 hc1 x0 x1 x2).2.1)

theorem scover3_B_0 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : ¬cond3_1 i) (x0 : Vec F S256x50 .i32) (x1 : Vec F S256x1 .f32) (x2 : Vec F S256x1 .f32) (xs0 : Vec F S50x1 .f32) (y : S50x1.Idx) :
    ∃ pc ∈ (kernelRun3_B c i arg3 harg3 arg4 harg4 arg5 harg5 arg6 harg6 arg7 harg7 hc0 hc1 x0 x1 x2 xs0).2.1, y ∈ pc.1.set :=
  View.cover_of_tiledL (kernelRun3_B c i arg3 harg3 arg4 harg4 arg5 harg5 arg6 harg6 arg7 harg7 hc0 hc1 x0 x1 x2 xs0).2.1 S50x1.size (by sl_kernel_rfl) y

def sout3_B_0 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : ¬cond3_1 i) (x0 : Vec F S256x50 .i32) (x1 : Vec F S256x1 .f32) (x2 : Vec F S256x1 .f32) (xs0 : Vec F S50x1 .f32) : Vec F S50x1 .f32 :=
  VS3_0.read (Elt F) (VS3_0.writes (Elt F) VS3_0.junk (kernelRun3_B c i arg3 harg3 arg4 harg4 arg5 harg5 arg6 harg6 arg7 harg7 hc0 hc1 x0 x1 x2 xs0).2.1)

theorem cover3_C_3 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : cond3_1 i) (x0 : Vec F S256x50 .i32) (x1 : Vec F S256x1 .f32) (x2 : Vec F S256x1 .f32) (xs0 : Vec F S50x1 .f32) (y : S1x50x1.Idx) :
    ∃ pc ∈ (kernelRun3_C c i arg3 harg3 arg4 harg4 arg5 harg5 arg6 harg6 arg7 harg7 hc0 hc1 x0 x1 x2 xs0).1, y ∈ pc.1.set :=
  View.cover_of_tiledL (kernelRun3_C c i arg3 harg3 arg4 harg4 arg5 harg5 arg6 harg6 arg7 harg7 hc0 hc1 x0 x1 x2 xs0).1 S1x50x1.size (by sl_kernel_rfl) y

def out3_C_3 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : cond3_1 i) (x0 : Vec F S256x50 .i32) (x1 : Vec F S256x1 .f32) (x2 : Vec F S256x1 .f32) (xs0 : Vec F S50x1 .f32) : Vec F S1x50x1 .f32 :=
  VO3_3.read (Elt F) (VO3_3.writes (Elt F) VO3_3.junk (kernelRun3_C c i arg3 harg3 arg4 harg4 arg5 harg5 arg6 harg6 arg7 harg7 hc0 hc1 x0 x1 x2 xs0).1)

theorem scover3_C_0 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : cond3_1 i) (x0 : Vec F S256x50 .i32) (x1 : Vec F S256x1 .f32) (x2 : Vec F S256x1 .f32) (xs0 : Vec F S50x1 .f32) (y : S50x1.Idx) :
    ∃ pc ∈ (kernelRun3_C c i arg3 harg3 arg4 harg4 arg5 harg5 arg6 harg6 arg7 harg7 hc0 hc1 x0 x1 x2 xs0).2.1, y ∈ pc.1.set :=
  View.cover_of_tiledL (kernelRun3_C c i arg3 harg3 arg4 harg4 arg5 harg5 arg6 harg6 arg7 harg7 hc0 hc1 x0 x1 x2 xs0).2.1 S50x1.size (by sl_kernel_rfl) y

def sout3_C_0 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : cond3_1 i) (x0 : Vec F S256x50 .i32) (x1 : Vec F S256x1 .f32) (x2 : Vec F S256x1 .f32) (xs0 : Vec F S50x1 .f32) : Vec F S50x1 .f32 :=
  VS3_0.read (Elt F) (VS3_0.writes (Elt F) VS3_0.junk (kernelRun3_C c i arg3 harg3 arg4 harg4 arg5 harg5 arg6 harg6 arg7 harg7 hc0 hc1 x0 x1 x2 xs0).2.1)

def restOut3 : Vec F S1x50x1 .f32 := VO3_3.read (Elt F) VO3_3.junk

def stepA3 (c : Dev nD) (t : Fin cfg3.N) (h0 : t.val % 18 = 0) : Vec F S1x50x1 .f32 × Vec F S50x1 .f32 :=
  (restOut3, sout3_A_0 c (grid3.coords t) (ms3_0 t) (hs3_0 t) (ms3_1 t) (hs3_1 t) (ms3_2 t) (hs3_2 t) (ms3_3 t) (hs3_3 t) scM3_0 (Memref.isWhole_whole _)
    ((hcond3_0 t).mpr h0) (fun h => by have := (hcond3_1 t).mp h; omega) (iblk3 V c 0 t) (iblk3 V c 1 t) (iblk3 V c 2 t))

def stepB3 (c : Dev nD) (t : Fin cfg3.N) (h0 : ¬t.val % 18 = 0) (h1 : ¬t.val % 18 = 17) (prev : Vec F S50x1 .f32) :
    Vec F S1x50x1 .f32 × Vec F S50x1 .f32 :=
  (restOut3, sout3_B_0 c (grid3.coords t) (ms3_0 t) (hs3_0 t) (ms3_1 t) (hs3_1 t) (ms3_2 t) (hs3_2 t) (ms3_3 t) (hs3_3 t) scM3_0 (Memref.isWhole_whole _)
    (fun h => h0 ((hcond3_0 t).mp h)) (fun h => h1 ((hcond3_1 t).mp h)) (iblk3 V c 0 t) (iblk3 V c 1 t) (iblk3 V c 2 t) prev)

def stepC3 (c : Dev nD) (t : Fin cfg3.N) (h1 : t.val % 18 = 17) (prev : Vec F S50x1 .f32) :
    Vec F S1x50x1 .f32 × Vec F S50x1 .f32 :=
  (out3_C_3 c (grid3.coords t) (ms3_0 t) (hs3_0 t) (ms3_1 t) (hs3_1 t) (ms3_2 t) (hs3_2 t) (ms3_3 t) (hs3_3 t) scM3_0 (Memref.isWhole_whole _)
      (fun h => by have := (hcond3_0 t).mp h; omega) ((hcond3_1 t).mpr h1) (iblk3 V c 0 t) (iblk3 V c 1 t) (iblk3 V c 2 t) prev,
    sout3_C_0 c (grid3.coords t) (ms3_0 t) (hs3_0 t) (ms3_1 t) (hs3_1 t) (ms3_2 t) (hs3_2 t) (ms3_3 t) (hs3_3 t) scM3_0 (Memref.isWhole_whole _)
      (fun h => by have := (hcond3_0 t).mp h; omega) ((hcond3_1 t).mpr h1) (iblk3 V c 0 t) (iblk3 V c 1 t) (iblk3 V c 2 t) prev)

def outsAt3 (c : Dev nD) : (n : ℕ) → n < cfg3.N → Vec F S1x50x1 .f32 × Vec F S50x1 .f32
  | 0, hn => stepA3 V c ⟨0, hn⟩ (Nat.zero_mod _)
  | n + 1, hn =>
    if h1 : (n + 1) % 18 = 17 then stepC3 V c ⟨n + 1, hn⟩ h1 (outsAt3 c n (Nat.lt_of_succ_lt hn)).2
    else if h0 : (n + 1) % 18 = 0 then stepA3 V c ⟨n + 1, hn⟩ h0
    else stepB3 V c ⟨n + 1, hn⟩ h0 h1 (outsAt3 c n (Nat.lt_of_succ_lt hn)).2

theorem outsAt3_A (c : Dev nD) (t : Fin cfg3.N) (h0 : t.val % 18 = 0) :
    outsAt3 V c t.val t.isLt = stepA3 V c t h0 := by
  obtain ⟨n, hn⟩ := t
  cases n with
  | zero => rfl
  | succ n =>
    have h0' : (n + 1) % 18 = 0 := h0
    exact (dif_neg (by omega)).trans ((dif_pos h0').trans rfl)

theorem outsAt3_B (c : Dev nD) (t : Fin cfg3.N) (h0 : ¬t.val % 18 = 0) (h1 : ¬t.val % 18 = 17) :
    outsAt3 V c t.val t.isLt
      = stepB3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h1).trans ((dif_neg h0).trans rfl)

theorem outsAt3_C (c : Dev nD) (t : Fin cfg3.N) (h1 : t.val % 18 = 17) :
    outsAt3 V c t.val t.isLt
      = stepC3 V c t h1 (outsAt3 V c (t.val - 1) (Nat.lt_of_le_of_lt (Nat.sub_le _ _) t.isLt)).2 := by
  obtain ⟨n, hn⟩ := t
  cases n with
  | zero => exact absurd (show (0 : ℕ) % 18 = 17 from h1) (by decide)
  | succ n => exact (dif_pos h1).trans rfl

def PhiS3 (c : Dev nD) : (n : ℕ) → n ≤ cfg3.N → sProp 𝕄
  | 0, _ => Pipeline.ΦA spec3 c
  | n + 1, hn => iprop(iprop(owns (c : Thread nD τ) scM3_0 fullShare (outsAt3 V c n hn).2
      ∗ Pipeline.scopedRestBut (Ix := Unit) (Name := ℕ) (U := UR sig nD τ) (Lvl := ℕ) (Val := Elt F) spec3 c [cc3_scratch0]) ∗ (∃ r, prngReg c r))

theorem PhiS3_succ (c : Dev nD) (n : ℕ) (hn : n < cfg3.N) :
    PhiS3 V c (n + 1) hn = iprop(iprop(owns (c : Thread nD τ) scM3_0 fullShare (outsAt3 V c n hn).2
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (outsAt3 V c (n - 1) (by omega)).2
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

theorem PhiS3_open (c : Dev nD) : ∀ (n : ℕ) (h : n ≤ cfg3.N), PhiS3 V c n h
    ⊢ iprop(iprop(iprop((∃ d, owns (c : Thread nD τ) scM3_0 fullShare d)) ∗ Pipeline.scopedRestBut (Ix := Unit) (Name := ℕ) (U := UR sig nD τ) (Lvl := ℕ) (Val := Elt F) spec3 c [cc3_scratch0]) ∗ (∃ r, prngReg c r))
  | 0, _ => Entails.of_eq (PhiA3_eq c)
  | n + 1, hn => by
    rw [PhiS3_succ]
    iintro ⟨⟨HS, HR⟩, Hg⟩
    isplitl [HS HR]
    · isplitl [HS]
      · iexists _; iexact HS
      · iexact HR
    · iexact Hg

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

theorem leaves3_0 (c : Dev nD) (t : Fin cfg3.N) :
    (dat3 V c).leavesExact 0 t = owns (c : Thread nD τ) (ms3_0 t) fullShare (iblk3 V c 0 t) := by
  rw [← after3_0 V c t]
theorem leaves3_1 (c : Dev nD) (t : Fin cfg3.N) :
    (dat3 V c).leavesExact 1 t = owns (c : Thread nD τ) (ms3_1 t) fullShare (iblk3 V c 1 t) := by
  rw [← after3_1 V c t]
theorem leaves3_2 (c : Dev nD) (t : Fin cfg3.N) :
    (dat3 V c).leavesExact 2 t = owns (c : Thread nD τ) (ms3_2 t) fullShare (iblk3 V c 2 t) := by
  rw [← after3_2 V c t]
theorem leaves3_3_rest (c : Dev nD) (t : Fin cfg3.N) (h : ¬t.val % 18 = 17) :
    (dat3 V c).leavesExact 3 t = iprop(∃ d, owns (c : Thread nD τ) (ms3_3 t) fullShare ((dat3 V c).before 3 t d)) :=
  Dat.leavesExact_idle (dat3 V c) 3 t (idleAt3_3 t h) (noFlush3_3 t h)
theorem leaves3_3_emit (c : Dev nD) (t : Fin cfg3.N) (h : t.val % 18 = 17) :
    (dat3 V c).leavesExact 3 t = owns (c : Thread nD τ) (ms3_3 t) fullShare (outsAt3 V c t.val t.isLt).1 := by
  unfold Dat.leavesExact; rw [liveAt3_3 t h, after3_3]

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = PhiS3 V c (t.val + 1) t.isLt from rfl, PhiS3_succ,
    leaves3_0, leaves3_1, leaves3_2, PhiS3_castSucc V c t]
  have hN : t.val < 36 := lt_N3 t
  by_cases h1 : t.val % 18 = 17
  ·
    have hz : t.val ≠ 0 := by omega
    rw [leaves3_3_emit V c t h1, outsAt3_C V c t h1, PhiS3_pos V c _ _ hz]
    unfold stepC3 out3_C_3 sout3_C_0; dsimp only
    iintro ⟨⟨⟨HS0, HR⟩, Hg⟩, Ho, ⟨%d0, H0⟩, ⟨%d1, H1⟩, ⟨%d2, H2⟩, ⟨%d3, H3⟩⟩
    iapply ((kernelRun3_C c (grid3.coords t) _ _ _ _ _ _ _ _ _ _ (fun h => by have := (hcond3_0 t).mp h; omega)
      ((hcond3_1 t).mpr h1) (iblk3 V c 0 t) (iblk3 V c 1 t) (iblk3 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover3_C_0 c _ _ _ _ _ _ _ _ _ _ _ _ _ _ _ _ _)
        · iexact HR
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_C_3 c _ _ _ _ _ _ _ _ _ _ _ _ _ _ _ _ _)
  · rw [leaves3_3_rest V c t h1]
    by_cases h0 : t.val % 18 = 0
    ·
      rw [outsAt3_A V c t h0]
      unfold stepA3 sout3_A_0; dsimp only
      iintro ⟨HΦ, Ho, ⟨%d0, H0⟩, ⟨%d1, H1⟩, ⟨%d2, H2⟩, ⟨%d3, H3⟩⟩
      ihave HΦ' := (PhiS3_open V c t.val _) $$ HΦ
      icases HΦ' with ⟨⟨HS0, HR⟩, Hg⟩
      iapply ((kernelRun3_A c (grid3.coords t) _ _ _ _ _ _ _ _ _ _ ((hcond3_0 t).mpr h0)
        (fun h => by have := (hcond3_1 t).mp h; omega) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3
    ·
      have hz : t.val ≠ 0 := fun e => h0 (by rw [e])
      rw [outsAt3_B V c t h0 h1, PhiS3_pos V c _ _ hz]
      unfold stepB3 sout3_B_0; dsimp only
      iintro ⟨⟨⟨HS0, HR⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h))
        (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3

theorem body_obligation3 (c : Dev nD) :
    BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 :=
  Entails.of_eq rfl

theorem hout3 (c : Dev nD) : (dat3 V c).Φ (Fin.last cfg3.N) ⊢ Pipeline.ΦA spec3 c := by
  rw [PhiA3_eq]
  show PhiS3 V c (Fin.last cfg3.N).val (Nat.le_of_lt_succ (Fin.last cfg3.N).isLt) ⊢ _
  exact PhiS3_open V c _ _

end Cert.Kernel.R3

end
-- ==== Proof.K.R4.lean ====
import proofs.«406789_j53094385713523_3_alg».proof.Proof.Gen.Kernel.Launch
import proofs.«406789_j53094385713523_3_alg».proof.Proof.Gen.Kernel.Skeleton
import proofs.«406789_j53094385713523_3_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.R4

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev zero4 : F .f32 := Scalar.ofBits .f32 0x00000000#32

def out4_11 (x0 : Vec F S1x435 .f32) (x1 : Vec F S435x128 .f32) (x2 : Vec F S1x128 .f32) (x3 : Vec F S128x256 .f32) (x4 : Vec F S1x256 .f32) (x5 : Vec F S256x256 .f32) (x6 : Vec F S1x256 .f32) (x7 : Vec F S256x128 .f32) (x8 : Vec F S1x128 .f32) (x9 : Vec F S128x1 .f32) (x10 : Vec F S1x1 .f32) : Vec F S1x1 .f32 :=
  k4_pay1 (k4_pay3 x0 x1 x2 x3 x4 x5 x6 x7 x8) zero4 x9 x10

def out4_12 (x0 : Vec F S1x435 .f32) (x1 : Vec F S435x128 .f32) (x2 : Vec F S1x128 .f32) (x3 : Vec F S128x256 .f32) (x4 : Vec F S1x256 .f32) (x5 : Vec F S256x256 .f32) (x6 : Vec F S1x256 .f32) (x7 : Vec F S256x128 .f32) (x8 : Vec F S1x128 .f32) (x9 : Vec F S128x1 .f32) (x10 : Vec F S1x1 .f32) : Vec F S1x1 .f32 :=
  k4_pay2 (k4_pay3 x0 x1 x2 x3 x4 x5 x6 x7 x8) zero4 x9 x10

theorem out4_12_eq_logistic (x0 : Vec F S1x435 .f32) (x1 : Vec F S435x128 .f32) (x2 : Vec F S1x128 .f32) (x3 : Vec F S128x256 .f32) (x4 : Vec F S1x256 .f32) (x5 : Vec F S256x256 .f32) (x6 : Vec F S1x256 .f32) (x7 : Vec F S256x128 .f32) (x8 : Vec F S1x128 .f32) (x9 : Vec F S128x1 .f32) (x10 : Vec F S1x1 .f32) :
    out4_12 x0 x1 x2 x3 x4 x5 x6 x7 x8 x9 x10 = logistic (out4_11 x0 x1 x2 x3 x4 x5 x6 x7 x8 x9 x10) := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
    | ⟨12, _⟩ => out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem Φ_eq4 (c : Dev nD) (t : Fin (cfg4.N + 1)) : (dat4 V c).Φ t = Pipeline.ΦA spec4 c := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) :
    (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]
theorem after4_12 (c : Dev nD) (t : Fin cfg4.N) :
    (dat4 V c).after 12 t = out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]

theorem before4_0 (c : Dev nD) (t : Fin cfg4.N) (d) : (dat4 V c).before 0 t d = iblk4 V c 0 t :=
  ((dat4 V c).before_fetched 0 t (fetch4_0 t) d).trans (by unfold Dat.fetched Dat.blockOf iblk4; rw [A_eq4]; try rfl)
theorem before4_1 (c : Dev nD) (t : Fin cfg4.N) (d) : (dat4 V c).before 1 t d = iblk4 V c 1 t :=
  ((dat4 V c).before_fetched 1 t (fetch4_1 t) d).trans (by unfold Dat.fetched Dat.blockOf iblk4; rw [A_eq4]; try rfl)
theorem before4_2 (c : Dev nD) (t : Fin cfg4.N) (d) : (dat4 V c).before 2 t d = iblk4 V c 2 t :=
  ((dat4 V c).before_fetched 2 t (fetch4_2 t) d).trans (by unfold Dat.fetched Dat.blockOf iblk4; rw [A_eq4]; try rfl)
theorem before4_3 (c : Dev nD) (t : Fin cfg4.N) (d) : (dat4 V c).before 3 t d = iblk4 V c 3 t :=
  ((dat4 V c).before_fetched 3 t (fetch4_3 t) d).trans (by unfold Dat.fetched Dat.blockOf iblk4; rw [A_eq4]; try rfl)
theorem before4_4 (c : Dev nD) (t : Fin cfg4.N) (d) : (dat4 V c).before 4 t d = iblk4 V c 4 t :=
  ((dat4 V c).before_fetched 4 t (fetch4_4 t) d).trans (by unfold Dat.fetched Dat.blockOf iblk4; rw [A_eq4]; try rfl)
theorem before4_5 (c : Dev nD) (t : Fin cfg4.N) (d) : (dat4 V c).before 5 t d = iblk4 V c 5 t :=
  ((dat4 V c).before_fetched 5 t (fetch4_5 t) d).trans (by unfold Dat.fetched Dat.blockOf iblk4; rw [A_eq4]; try rfl)
theorem before4_6 (c : Dev nD) (t : Fin cfg4.N) (d) : (dat4 V c).before 6 t d = iblk4 V c 6 t :=
  ((dat4 V c).before_fetched 6 t (fetch4_6 t) d).trans (by unfold Dat.fetched Dat.blockOf iblk4; rw [A_eq4]; try rfl)
theorem before4_7 (c : Dev nD) (t : Fin cfg4.N) (d) : (dat4 V c).before 7 t d = iblk4 V c 7 t :=
  ((dat4 V c).before_fetched 7 t (fetch4_7 t) d).trans (by unfold Dat.fetched Dat.blockOf iblk4; rw [A_eq4]; try rfl)
theorem before4_8 (c : Dev nD) (t : Fin cfg4.N) (d) : (dat4 V c).before 8 t d = iblk4 V c 8 t :=
  ((dat4 V c).before_fetched 8 t (fetch4_8 t) d).trans (by unfold Dat.fetched Dat.blockOf iblk4; rw [A_eq4]; try rfl)
theorem before4_9 (c : Dev nD) (t : Fin cfg4.N) (d) : (dat4 V c).before 9 t d = iblk4 V c 9 t :=
  ((dat4 V c).before_fetched 9 t (fetch4_9 t) d).trans (by unfold Dat.fetched Dat.blockOf iblk4; rw [A_eq4]; try rfl)
theorem before4_10 (c : Dev nD) (t : Fin cfg4.N) (d) : (dat4 V c).before 10 t d = iblk4 V c 10 t :=
  ((dat4 V c).before_fetched 10 t (fetch4_10 t) d).trans (by unfold Dat.fetched Dat.blockOf iblk4; rw [A_eq4]; try rfl)

theorem zero2 : (![0, 0] : Fin 2 → Nat) = fun _ => 0 :=
  funext fun a => match a with
    | ⟨0, _⟩ => rfl
    | ⟨1, _⟩ => rfl

theorem cover4 (w : Vec F S1x1 .f32) (y : S1x1.Idx) :
    ∃ pc ∈ ([⟨(Rect.unit (s := S1x1) ![0, 0] S1x1.size inb_S1x1_S1x1_0_0), w⟩] : List (View.Piece (Elt F) S1x1 .f32)), y ∈ pc.1.set :=
  ⟨_, List.mem_singleton_self _, View.mem_set_unit_zero (S := S1x1) zero2 inb_S1x1_S1x1_0_0 y⟩

theorem stored4_11 (x0 : Vec F S1x435 .f32) (x1 : Vec F S435x128 .f32) (x2 : Vec F S1x128 .f32) (x3 : Vec F S128x256 .f32) (x4 : Vec F S1x256 .f32) (x5 : Vec F S256x256 .f32) (x6 : Vec F S1x256 .f32) (x7 : Vec F S256x128 .f32) (x8 : Vec F S1x128 .f32) (x9 : Vec F S128x1 .f32) (x10 : Vec F S1x1 .f32) :
    View.canon [(⟨(Rect.unit (s := S1x1) ![0, 0] S1x1.size inb_S1x1_S1x1_0_0),
      k4_pay1 (k4_pay3 (View.ld x0 (Rect.unit (s := S1x435) ![0, 0] S1x435.size inb_S1x435_S1x435_0_0))
          (View.ld x1 (Rect.unit (s := S435x128) ![0, 0] S435x128.size inb_S435x128_S435x128_0_0))
          (View.ld x2 (Rect.unit (s := S1x128) ![0, 0] S1x128.size inb_S1x128_S1x128_0_0))
          (View.ld x3 (Rect.unit (s := S128x256) ![0, 0] S128x256.size inb_S128x256_S128x256_0_0))
          (View.ld x4 (Rect.unit (s := S1x256) ![0, 0] S1x256.size inb_S1x256_S1x256_0_0))
          (View.ld x5 (Rect.unit (s := S256x256) ![0, 0] S256x256.size inb_S256x256_S256x256_0_0))
          (View.ld x6 (Rect.unit (s := S1x256) ![0, 0] S1x256.size inb_S1x256_S1x256_0_0))
          (View.ld x7 (Rect.unit (s := S256x128) ![0, 0] S256x128.size inb_S256x128_S256x128_0_0))
          (View.ld x8 (Rect.unit (s := S1x128) ![0, 0] S1x128.size inb_S1x128_S1x128_0_0)))
        zero4 (View.ld x9 (Rect.unit (s := S128x1) ![0, 0] S128x1.size inb_S128x1_S128x1_0_0)) (View.ld x10 (Rect.unit (s := S1x1) ![0, 0] S1x1.size inb_S1x1_S1x1_0_0))⟩ : View.Piece (Elt F) S1x1 .f32)]
      = out4_11 x0 x1 x2 x3 x4 x5 x6 x7 x8 x9 x10 := by
  unfold out4_11
  rw [View.canon_unit_zero (S := S1x1) zero2 inb_S1x1_S1x1_0_0,
    View.ld_unit_zero (S := S1x435) zero2 inb_S1x435_S1x435_0_0 x0,
    View.ld_unit_zero (S := S435x128) zero2 inb_S435x128_S435x128_0_0 x1,
    View.ld_unit_zero (S := S1x128) zero2 inb_S1x128_S1x128_0_0 x2,
    View.ld_unit_zero (S := S128x256) zero2 inb_S128x256_S128x256_0_0 x3,
    View.ld_unit_zero (S := S1x256) zero2 inb_S1x256_S1x256_0_0 x4,
    View.ld_unit_zero (S := S256x256) zero2 inb_S256x256_S256x256_0_0 x5,
    View.ld_unit_zero (S := S1x256) zero2 inb_S1x256_S1x256_0_0 x6,
    View.ld_unit_zero (S := S256x128) zero2 inb_S256x128_S256x128_0_0 x7,
    View.ld_unit_zero (S := S1x128) zero2 inb_S1x128_S1x128_0_0 x8,
    View.ld_unit_zero (S := S128x1) zero2 inb_S128x1_S128x1_0_0 x9,
    View.ld_unit_zero (S := S1x1) zero2 inb_S1x1_S1x1_0_0 x10]

theorem stored4_12 (x0 : Vec F S1x435 .f32) (x1 : Vec F S435x128 .f32) (x2 : Vec F S1x128 .f32) (x3 : Vec F S128x256 .f32) (x4 : Vec F S1x256 .f32) (x5 : Vec F S256x256 .f32) (x6 : Vec F S1x256 .f32) (x7 : Vec F S256x128 .f32) (x8 : Vec F S1x128 .f32) (x9 : Vec F S128x1 .f32) (x10 : Vec F S1x1 .f32) :
    View.canon [(⟨(Rect.unit (s := S1x1) ![0, 0] S1x1.size inb_S1x1_S1x1_0_0),
      k4_pay2 (k4_pay3 (View.ld x0 (Rect.unit (s := S1x435) ![0, 0] S1x435.size inb_S1x435_S1x435_0_0))
          (View.ld x1 (Rect.unit (s := S435x128) ![0, 0] S435x128.size inb_S435x128_S435x128_0_0))
          (View.ld x2 (Rect.unit (s := S1x128) ![0, 0] S1x128.size inb_S1x128_S1x128_0_0))
          (View.ld x3 (Rect.unit (s := S128x256) ![0, 0] S128x256.size inb_S128x256_S128x256_0_0))
          (View.ld x4 (Rect.unit (s := S1x256) ![0, 0] S1x256.size inb_S1x256_S1x256_0_0))
          (View.ld x5 (Rect.unit (s := S256x256) ![0, 0] S256x256.size inb_S256x256_S256x256_0_0))
          (View.ld x6 (Rect.unit (s := S1x256) ![0, 0] S1x256.size inb_S1x256_S1x256_0_0))
          (View.ld x7 (Rect.unit (s := S256x128) ![0, 0] S256x128.size inb_S256x128_S256x128_0_0))
          (View.ld x8 (Rect.unit (s := S1x128) ![0, 0] S1x128.size inb_S1x128_S1x128_0_0)))
        zero4 (View.ld x9 (Rect.unit (s := S128x1) ![0, 0] S128x1.size inb_S128x1_S128x1_0_0)) (View.ld x10 (Rect.unit (s := S1x1) ![0, 0] S1x1.size inb_S1x1_S1x1_0_0))⟩ : View.Piece (Elt F) S1x1 .f32)]
      = out4_12 x0 x1 x2 x3 x4 x5 x6 x7 x8 x9 x10 := by
  unfold out4_12
  rw [View.canon_unit_zero (S := S1x1) zero2 inb_S1x1_S1x1_0_0,
    View.ld_unit_zero (S := S1x435) zero2 inb_S1x435_S1x435_0_0 x0,
    View.ld_unit_zero (S := S435x128) zero2 inb_S435x128_S435x128_0_0 x1,
    View.ld_unit_zero (S := S1x128) zero2 inb_S1x128_S1x128_0_0 x2,
    View.ld_unit_zero (S := S128x256) zero2 inb_S128x256_S128x256_0_0 x3,
    View.ld_unit_zero (S := S1x256) zero2 inb_S1x256_S1x256_0_0 x4,
    View.ld_unit_zero (S := S256x256) zero2 inb_S256x256_S256x256_0_0 x5,
    View.ld_unit_zero (S := S1x256) zero2 inb_S1x256_S1x256_0_0 x6,
    View.ld_unit_zero (S := S256x128) zero2 inb_S256x128_S256x128_0_0 x7,
    View.ld_unit_zero (S := S1x128) zero2 inb_S1x128_S1x128_0_0 x8,
    View.ld_unit_zero (S := S128x1) zero2 inb_S128x1_S128x1_0_0 x9,
    View.ld_unit_zero (S := S1x1) zero2 inb_S1x1_S1x1_0_0 x10]

set_option maxHeartbeats 2000000 in
theorem sound_kernel4 (c : Dev nD) (E : Set ℕ) (i : grid4.Coords)
    (a0 : Memref sig .tc .vmem S1x435 .f32) (h0 : a0.IsWhole)
    (a1 : Memref sig .tc .vmem S435x128 .f32) (h1 : a1.IsWhole)
    (a2 : Memref sig .tc .vmem S1x128 .f32) (h2 : a2.IsWhole)
    (a3 : Memref sig .tc .vmem S128x256 .f32) (h3 : a3.IsWhole)
    (a4 : Memref sig .tc .vmem S1x256 .f32) (h4 : a4.IsWhole)
    (a5 : Memref sig .tc .vmem S256x256 .f32) (h5 : a5.IsWhole)
    (a6 : Memref sig .tc .vmem S1x256 .f32) (h6 : a6.IsWhole)
    (a7 : Memref sig .tc .vmem S256x128 .f32) (h7 : a7.IsWhole)
    (a8 : Memref sig .tc .vmem S1x128 .f32) (h8 : a8.IsWhole)
    (a9 : Memref sig .tc .vmem S128x1 .f32) (h9 : a9.IsWhole)
    (a10 : Memref sig .tc .vmem S1x1 .f32) (h10 : a10.IsWhole)
    (a11 : Memref sig .tc .vmem S1x1 .f32) (h11 : a11.IsWhole)
    (a12 : Memref sig .tc .vmem S1x1 .f32) (h12 : a12.IsWhole)
    (x0 : Vec F S1x435 .f32) (x1 : Vec F S435x128 .f32) (x2 : Vec F S1x128 .f32) (x3 : Vec F S128x256 .f32) (x4 : Vec F S1x256 .f32) (x5 : Vec F S256x256 .f32) (x6 : Vec F S1x256 .f32) (x7 : Vec F S256x128 .f32) (x8 : Vec F S1x128 .f32) (x9 : Vec F S128x1 .f32) (x10 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10
        ∗ (∃ d, owns (c : Thread nD τ) a11 fullShare d) ∗ (∃ d, owns (c : Thread nD τ) a12 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10
            ∗ owns (c : Thread nD τ) a11 fullShare (out4_11 x0 x1 x2 x3 x4 x5 x6 x7 x8 x9 x10)
            ∗ owns (c : Thread nD τ) a12 fullShare (out4_12 x0 x1 x2 x3 x4 x5 x6 x7 x8 x9 x10)) -∗ K ⟨⟩))
      ⊢ wp frame (wpE (defs₀ (F := F)) Variants.none c none) E
          (cc4__final_mlp_kernel i a0 h0 a1 h1 a2 h2 a3 h3 a4 h4 a5 h5 a6 h6 a7 h7 a8 h8 a9 h9 a10 h10 a11 h11 a12 h12) K := by
  simp only [cc4__final_mlp_kernel_eq_skeleton]; unfold cc4__final_mlp_kernel_skel
  simp only [k4_part1_eq_skeleton]; unfold k4_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, Hk⟩
  subst e0 e1 e2 e3 e4 e5 e6 e7 e8 e9 e10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact (View.read_writes_eq_canon _ _ _ (cover4 _)).trans (stored4_11 _ _ _ _ _ _ _ _ _ _ _)
  iexists _; isplitr
  swap; · iexact H12
  ipureintro
  try dsimp only
  exact (View.read_writes_eq_canon _ _ _ (cover4 _)).trans (stored4_12 _ _ _ _ _ _ _ _ _ _ _)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel4 c Set.univ (grid4.coords t) _ _ _ _ _ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation4 (c : Dev nD) : BodyObligation (dat4 (F := F) V c) (defs₀ (F := F)) Variants.none () Set.univ := fun t => by
  rw [bigSep_W4, bigSep_W4]
  exact sound_body4 V c t

end Cert.Kernel.R4

end
-- ==== Proof.K.Chain.lean ====
import proofs.«406789_j53094385713523_3_alg».proof.Proof.K.Regions
import proofs.«406789_j53094385713523_3_alg».proof.Proof.K.R0
import proofs.«406789_j53094385713523_3_alg».proof.Proof.K.R1
import proofs.«406789_j53094385713523_3_alg».proof.Proof.K.R2
import proofs.«406789_j53094385713523_3_alg».proof.Proof.K.R3
import proofs.«406789_j53094385713523_3_alg».proof.Proof.K.R4
import Idealize.ShloMosaic.Lib.Pipeline.Frame
import Idealize.ShloMosaic.Lib.Pipeline.RegionsLoop
import Idealize.ShloMosaic.Lib.Pipeline.Kit

set_option maxRecDepth 4096

noncomputable section

namespace Cert.Kernel.Chain

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev OutsAt : Type := (r : Ref sig .tc) → (c : Dev nD) → Buf (Elt F) ((c : Thread nD τ).loc r)

def left0 : OutsAt (F := F) := fun r c => m ((c : Thread nD τ).loc r)

def left1 : OutsAt (F := F) :=
  Function.update (left0 m) main_v65 fun c => (R0.dat0 (atTc (Gen.V27 m)) c).arrAt 3 cfg0.N

def left2 : OutsAt (F := F) :=
  Function.update (left1 m) main_v76 fun c => (R1.dat1 (atTc (Gen.V35 m fun _ => left1 m)) c).arrAt 3 cfg1.N

def left3 : OutsAt (F := F) :=
  Function.update (left2 m) main_v86 fun c => (R2.dat2 (atTc (Gen.V41 m fun _ => left2 m)) c).arrAt 3 cfg2.N

def left4 : OutsAt (F := F) :=
  Function.update (left3 m) main_v96 fun c => (R3.dat3 (atTc (Gen.V47 m fun _ => left3 m)) c).arrAt 3 cfg3.N

def left5 : OutsAt (F := F) :=
  Function.update
    (Function.update (left4 m) main_v177_0 fun c => (R4.dat4 (atTc (Gen.V61 m fun _ => left4 m)) c).arrAt 11 cfg4.N)
    main_v177_1 fun c => (R4.dat4 (atTc (Gen.V61 m fun _ => left4 m)) c).arrAt 12 cfg4.N

def outs : Gen.Outs (F := F) := fun _ => left5 m

theorem left2_of_ne {r : Ref sig .tc} (h : r ≠ main_v76) : left2 m r = left1 m r := Function.update_of_ne h _ _
theorem left3_of_ne {r : Ref sig .tc} (h : r ≠ main_v86) : left3 m r = left2 m r := Function.update_of_ne h _ _
theorem left4_of_ne {r : Ref sig .tc} (h : r ≠ main_v96) : left4 m r = left3 m r := Function.update_of_ne h _ _
theorem left5_of_ne {r : Ref sig .tc} (h0 : r ≠ main_v177_0) (h1 : r ≠ main_v177_1) : left5 m r = left4 m r :=
  (Function.update_of_ne h1 _ _).trans (Function.update_of_ne h0 _ _)

theorem left5_v65 : left5 m main_v65 = left1 m main_v65 :=
  (left5_of_ne m (r := main_v65) (by decide) (by decide)).trans <| (left4_of_ne m (r := main_v65) (by decide)).trans <|
    (left3_of_ne m (r := main_v65) (by decide)).trans (left2_of_ne m (r := main_v65) (by decide))
theorem left5_v76 : left5 m main_v76 = left2 m main_v76 :=
  (left5_of_ne m (r := main_v76) (by decide) (by decide)).trans <| (left4_of_ne m (r := main_v76) (by decide)).trans
    (left3_of_ne m (r := main_v76) (by decide))
theorem left5_v86 : left5 m main_v86 = left3 m main_v86 :=
  (left5_of_ne m (r := main_v86) (by decide) (by decide)).trans (left4_of_ne m (r := main_v86) (by decide))
theorem left5_v96 : left5 m main_v96 = left4 m main_v96 := left5_of_ne m (r := main_v96) (by decide) (by decide)
theorem left2_v65 : left2 m main_v65 = left1 m main_v65 := left2_of_ne m (r := main_v65) (by decide)
theorem left3_v65 : left3 m main_v65 = left1 m main_v65 := (left3_of_ne m (r := main_v65) (by decide)).trans (left2_v65 m)
theorem left4_v65 : left4 m main_v65 = left1 m main_v65 := (left4_of_ne m (r := main_v65) (by decide)).trans (left3_v65 m)
theorem left3_v76 : left3 m main_v76 = left2 m main_v76 := left3_of_ne m (r := main_v76) (by decide)
theorem left4_v76 : left4 m main_v76 = left2 m main_v76 := (left4_of_ne m (r := main_v76) (by decide)).trans (left3_v76 m)
theorem left4_v86 : left4 m main_v86 = left3 m main_v86 := left4_of_ne m (r := main_v86) (by decide)

section Congr
variable (o o' : Gen.Outs (F := F)) (c : Dev nD)

theorem V28_congr (h : o 28 main_v65 c = o' 28 main_v65 c) : Gen.V28 m o c = Gen.V28 m o' c := by
  unfold Gen.V28; rw [h]
theorem V35_congr (h : Gen.V28 m o c = Gen.V28 m o' c) : Gen.V35 m o c = Gen.V35 m o' c := by
  unfold Gen.V35 Gen.V34 Gen.V33 Gen.V32 Gen.V31 Gen.V30 Gen.V29; rw [h]
theorem V36_congr (h : Gen.V35 m o c = Gen.V35 m o' c) (h' : o 36 main_v76 c = o' 36 main_v76 c) :
    Gen.V36 m o c = Gen.V36 m o' c := by
  unfold Gen.V36; rw [h, h']
theorem V41_congr (h : Gen.V36 m o c = Gen.V36 m o' c) : Gen.V41 m o c = Gen.V41 m o' c := by
  unfold Gen.V41 Gen.V40 Gen.V39 Gen.V38 Gen.V37; rw [h]
theorem V42_congr (h : Gen.V41 m o c = Gen.V41 m o' c) (h' : o 42 main_v86 c = o' 42 main_v86 c) :
    Gen.V42 m o c = Gen.V42 m o' c := by
  unfold Gen.V42; rw [h, h']
theorem V47_congr (h : Gen.V42 m o c = Gen.V42 m o' c) : Gen.V47 m o c = Gen.V47 m o' c := by
  unfold Gen.V47 Gen.V46 Gen.V45 Gen.V44 Gen.V43; rw [h]
theorem V48_congr (h : Gen.V47 m o c = Gen.V47 m o' c) (h' : o 48 main_v96 c = o' 48 main_v96 c) :
    Gen.V48 m o c = Gen.V48 m o' c := by
  unfold Gen.V48; rw [h, h']
theorem V61_congr (h : Gen.V48 m o c = Gen.V48 m o' c) : Gen.V61 m o c = Gen.V61 m o' c := by
  unfold Gen.V61 Gen.V60 Gen.V59 Gen.V58 Gen.V57 Gen.V56 Gen.V55 Gen.V54 Gen.V53 Gen.V52 Gen.V51 Gen.V50 Gen.V49; rw [h]

end Congr

theorem V35_outs : Gen.V35 m (outs m) = Gen.V35 m fun _ => left1 m :=
  funext fun c => V35_congr m (outs m) (fun _ => left1 m) c <|
    V28_congr m (outs m) (fun _ => left1 m) c (congrFun (left5_v65 m) c)

theorem V41_outs : Gen.V41 m (outs m) = Gen.V41 m fun _ => left2 m :=
  funext fun c => V41_congr m (outs m) (fun _ => left2 m) c <|
    V36_congr m (outs m) (fun _ => left2 m) c
      (V35_congr m (outs m) (fun _ => left2 m) c <| V28_congr m (outs m) (fun _ => left2 m) c
        (congrFun ((left5_v65 m).trans (left2_v65 m).symm) c))
      (congrFun (left5_v76 m) c)

theorem V47_outs : Gen.V47 m (outs m) = Gen.V47 m fun _ => left3 m :=
  funext fun c => V47_congr m (outs m) (fun _ => left3 m) c <|
    V42_congr m (outs m) (fun _ => left3 m) c
      (V41_congr m (outs m) (fun _ => left3 m) c <| V36_congr m (outs m) (fun _ => left3 m) c
        (V35_congr m (outs m) (fun _ => left3 m) c <| V28_congr m (outs m) (fun _ => left3 m) c
          (congrFun ((left5_v65 m).trans (left3_v65 m).symm) c))
        (congrFun ((left5_v76 m).trans (left3_v76 m).symm) c))
      (congrFun (left5_v86 m) c)

theorem V61_outs : Gen.V61 m (outs m) = Gen.V61 m fun _ => left4 m :=
  funext fun c => V61_congr m (outs m) (fun _ => left4 m) c <|
    V48_congr m (outs m) (fun _ => left4 m) c
      (V47_congr m (outs m) (fun _ => left4 m) c <| V42_congr m (outs m) (fun _ => left4 m) c
        (V41_congr m (outs m) (fun _ => left4 m) c <| V36_congr m (outs m) (fun _ => left4 m) c
          (V35_congr m (outs m) (fun _ => left4 m) c <| V28_congr m (outs m) (fun _ => left4 m) c
            (congrFun ((left5_v65 m).trans (left4_v65 m).symm) c))
          (congrFun ((left5_v76 m).trans (left4_v76 m).symm) c))
        (congrFun ((left5_v86 m).trans (left4_v86 m).symm) c))
      (congrFun (left5_v96 m) c)

theorem left1_at : left1 m main_v65 = fun c => (R0.dat0 (atTc (Gen.V27 m)) c).arrAt 3 cfg0.N := by
  unfold left1; exact Function.update_self _ _ _
theorem left2_at : left2 m main_v76 = fun c => (R1.dat1 (atTc (Gen.V35 m fun _ => left1 m)) c).arrAt 3 cfg1.N := by
  unfold left2; exact Function.update_self _ _ _
theorem left3_at : left3 m main_v86 = fun c => (R2.dat2 (atTc (Gen.V41 m fun _ => left2 m)) c).arrAt 3 cfg2.N := by
  unfold left3; exact Function.update_self _ _ _
theorem left4_at : left4 m main_v96 = fun c => (R3.dat3 (atTc (Gen.V47 m fun _ => left3 m)) c).arrAt 3 cfg3.N := by
  unfold left4; exact Function.update_self _ _ _
theorem left5_at0 : left5 m main_v177_0 = fun c => (R4.dat4 (atTc (Gen.V61 m fun _ => left4 m)) c).arrAt 11 cfg4.N := by
  unfold left5
  exact (Function.update_of_ne (show main_v177_0 ≠ main_v177_1 by decide) _ _).trans (Function.update_self _ _ _)
theorem left5_at1 : left5 m main_v177_1 = fun c => (R4.dat4 (atTc (Gen.V61 m fun _ => left4 m)) c).arrAt 12 cfg4.N := by
  unfold left5; exact Function.update_self _ _ _

theorem outs_28 (c : Dev nD) : outs m 28 main_v65 c = (R0.dat0 (atTc (Gen.V27 m)) c).arrAt 3 cfg0.N :=
  (congrFun (left5_v65 m) c).trans (congrFun (left1_at m) c)
theorem outs_36 (c : Dev nD) : outs m 36 main_v76 c = (R1.dat1 (atTc (Gen.V35 m (outs m))) c).arrAt 3 cfg1.N := by
  rw [V35_outs]; exact (congrFun (left5_v76 m) c).trans (congrFun (left2_at m) c)
theorem outs_42 (c : Dev nD) : outs m 42 main_v86 c = (R2.dat2 (atTc (Gen.V41 m (outs m))) c).arrAt 3 cfg2.N := by
  rw [V41_outs]; exact (congrFun (left5_v86 m) c).trans (congrFun (left3_at m) c)
theorem outs_48 (c : Dev nD) : outs m 48 main_v96 c = (R3.dat3 (atTc (Gen.V47 m (outs m))) c).arrAt 3 cfg3.N := by
  rw [V47_outs]; exact (congrFun (left5_v96 m) c).trans (congrFun (left4_at m) c)
theorem outs_62_0 (c : Dev nD) : outs m 62 main_v177_0 c = (R4.dat4 (atTc (Gen.V61 m (outs m))) c).arrAt 11 cfg4.N := by
  rw [V61_outs]; exact congrFun (left5_at0 m) c
theorem outs_62_1 (c : Dev nD) : outs m 62 main_v177_1 c = (R4.dat4 (atTc (Gen.V61 m (outs m))) c).arrAt 12 cfg4.N := by
  rw [V61_outs]; exact congrFun (left5_at1 m) c

section AtOut
variable (o : Gen.Outs (F := F)) (c : Dev nD)

theorem V28_at : Gen.V28 m o c main_v65 = o 28 main_v65 c := by unfold Gen.V28; exact Function.update_self _ _ _
theorem V36_at : Gen.V36 m o c main_v76 = o 36 main_v76 c := by unfold Gen.V36; exact Function.update_self _ _ _
theorem V42_at : Gen.V42 m o c main_v86 = o 42 main_v86 c := by unfold Gen.V42; exact Function.update_self _ _ _
theorem V48_at : Gen.V48 m o c main_v96 = o 48 main_v96 c := by unfold Gen.V48; exact Function.update_self _ _ _
theorem V62_at0 : Gen.V62 m o c main_v177_0 = o 62 main_v177_0 c := by
  unfold Gen.V62
  exact (Function.update_of_ne (StableHlo.devRef_ne_of_ne (show main_v177_0 ≠ main_v177_1 by decide) :
    (Proc.devRef .tc main_v177_0 : DevRef τ sig) ≠ Proc.devRef .tc main_v177_1) _ _).trans (Function.update_self _ _ _)
theorem V62_at1 : Gen.V62 m o c main_v177_1 = o 62 main_v177_1 c := by unfold Gen.V62; exact Function.update_self _ _ _

end AtOut

def pdats : (p : Fin 5) → (c : Dev nD) → Dat τ (Elt F) Unit ℕ (UR sig nD τ) ℕ (cfgs p) c
  | ⟨0, _⟩ => fun c => R0.dat0 (atTc (Gen.V27 m)) c
  | ⟨1, _⟩ => fun c => R1.dat1 (atTc (Gen.V35 m (outs m))) c
  | ⟨2, _⟩ => fun c => R2.dat2 (atTc (Gen.V41 m (outs m))) c
  | ⟨3, _⟩ => fun c => R3.dat3 (atTc (Gen.V47 m (outs m))) c
  | ⟨4, _⟩ => fun c => R4.dat4 (atTc (Gen.V61 m (outs m))) c

abbrev noLevels : GSem nD τ sig → Finset Unit := fun _ => ∅
abbrev lvl0 : GSem nD τ sig → Unit → ℕ := fun _ _ => 0

abbrev rest (c : Dev nD) : sProp 𝕄 :=
  iprop((∃ r, prngReg c r) ∗ ∃ W, owes (c : Thread nD τ) (0 : CellTallies nD τ sig Unit) W)

theorem kept0 (c : Dev nD) (w : Fin 4) (hin : (cfg0.win w).isOut = false)
    (hne : Pipeline.arrRef spec0 w ∉ ([main_v65] : List (Ref sig .tc))) :
    (pdats m 0 c).arrAt w cfg0.N = atTc (Gen.V28 m (outs m)) c (Pipeline.arrRef spec0 w) :=
  ((pdats m 0 c).arrAt_in w hin cfg0.N).trans <|
    (R0.A_eq0 (atTc (Gen.V27 m)) c w).trans (Gen.V28_of m (outs m) c _ hne).symm

theorem exitArr0 (c : Dev nD) : ∀ w : Fin 4, (pdats m 0 c).arrAt w cfg0.N = atTc (Gen.V28 m (outs m)) c (Pipeline.arrRef spec0 w)
  | 0 => kept0 m c 0 rfl (by decide)
  | 1 => kept0 m c 1 rfl (by decide)
  | 2 => kept0 m c 2 rfl (by decide)
  | 3 => (outs_28 m c).symm.trans (V28_at m (outs m) c).symm
  | ⟨_ + 4, h⟩ => absurd h (Nat.not_lt.2 (Nat.le_add_left _ _))

theorem exitOff0 (c : Dev nD) (b : Ref sig .tc) (hb : b ∉ Finset.univ.image (Pipeline.arrRef spec0)) :
    atTc (Gen.V28 m (outs m)) c b = atTc (Gen.V27 m) c b :=
  Gen.V28_of m (outs m) c b fun h => hb (Finset.mem_image.mpr ⟨3, Finset.mem_univ _, (List.mem_singleton.mp h).symm⟩)

set_option backward.isDefEq.respectTransparency.types false in
def reg0 : Pipeline.RegionSeg (pcfgs (F := F)) Gen.adm (pdats m) () defs₀ Variants.none noLevels lvl0 0 where
  win := Gen.launch0.win.to₀
  block_pos := Gen.launch0.block_pos
  stage_whole := Gen.launch0.stage_whole
  K := PEmpty
  osem k := k.elim
  ho := Pipeline.OwnSemFacts.none _
  hbody c := (R0.body_obligation0 (atTc (Gen.V27 m)) c).loose
  hwaits := Pipeline.hwaits_of_owed_zero _ _ _ _ noLevels lvl0 0 fun _ _ => rfl
  pre c := iprop(StableHlo.held (c : Thread nD τ) (Pipeline.ucRefs τ sig) (Gen.V27 m c) ∗ rest c)
  post c := iprop(StableHlo.held (c : Thread nD τ) (Pipeline.ucRefs τ sig) (Gen.V28 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (atTc (Gen.V27 m) c)
  hentry c := by

    have hsplit := Pipeline.arrays_of_unscopedBufs (p := 0) (pcfgs (F := F)) Gen.adm (pdats m) Gen.launch0.win Gen.launch0.arr_whole c
      ((pdats m 0 c).share_full fun _ => rfl) (atTc (Gen.V27 m) c) fun _ => rfl
    rw [Pipeline.unscopedBufs_held] at hsplit
    rw [Pipeline.ownSems0_none]
    iintro ⟨⟨Hbufs, Hprng, Howes⟩, -, -⟩
    ihave Hs := hsplit $$ Hbufs
    icases Hs with ⟨Harr, Hoff⟩
    imodintro
    isplitl [Harr]; · iexact Harr
    isplitr
    ·
      unfold Pipeline.prefHeld
      rw [show (Finset.univ : Finset (Fin 0)) = ∅ from rfl, BI.bigSep_empty]; iempintro
    isplitl [Howes]
    ·
      unfold Pipeline.Dat.owesAt Pipeline.owesWithin
      icases Howes with ⟨%W, Howes⟩
      iexists W
      isplitr; · ipureintro; exact fun _ _ => Or.inl trivial
      iexact Howes
    isplitl [Hprng]; · iexact Hprng
    iexact Hoff
  hin c := by
    refine BIBase.Entails.trans ?_ (R0.hin0 (atTc (Gen.V27 m)) c)
    unfold Pipeline.ΦA
    iintro ⟨Hprng, -, Hscoped⟩
    isplitl [Hscoped]; · iexact Hscoped
    iexact Hprng
  hout c := by
    rw [Pipeline.ownSems0_none]
    refine BIBase.Entails.trans (R0.hout0 (atTc (Gen.V27 m)) c) ?_
    unfold Pipeline.ΦA
    iintro ⟨Hscoped, Hprng⟩
    isplitl [Hprng]; · iexact Hprng
    isplitr; · iempintro
    iexact Hscoped
  hexit c := by

    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (atTc (Gen.V27 m) c) (atTc (Gen.V28 m (outs m)) c) ((pdats m 0 c).arrAt · cfg0.N) (exitArr0 m c) (exitOff0 m c)
    rw [Pipeline.unscopedBufs_held] at hjoin
    iintro ⟨Harr, Howes, Hprng, Hoff⟩
    imodintro
    isplitl [Harr Hoff]
    · iapply hjoin; isplitl [Harr] <;> iassumption
    isplitl [Hprng]; · iexact Hprng
    unfold Pipeline.Dat.owesAt Pipeline.owesWithin
    icases Howes with ⟨%W, -, Howes⟩; iexists W; iexact Howes

theorem kept1 (c : Dev nD) (w : Fin 4) (hin : (cfg1.win w).isOut = false)
    (hne : Pipeline.arrRef spec1 w ∉ ([main_v76] : List (Ref sig .tc))) :
    (pdats m 1 c).arrAt w cfg1.N = atTc (Gen.V36 m (outs m)) c (Pipeline.arrRef spec1 w) :=
  ((pdats m 1 c).arrAt_in w hin cfg1.N).trans <|
    (R1.A_eq1 (atTc (Gen.V35 m (outs m))) c w).trans (Gen.V36_of m (outs m) c _ hne).symm

theorem exitArr1 (c : Dev nD) : ∀ w : Fin 4, (pdats m 1 c).arrAt w cfg1.N = atTc (Gen.V36 m (outs m)) c (Pipeline.arrRef spec1 w)
  | 0 => kept1 m c 0 rfl (by decide)
  | 1 => kept1 m c 1 rfl (by decide)
  | 2 => kept1 m c 2 rfl (by decide)
  | 3 => (outs_36 m c).symm.trans (V36_at m (outs m) c).symm
  | ⟨_ + 4, h⟩ => absurd h (Nat.not_lt.2 (Nat.le_add_left _ _))

theorem exitOff1 (c : Dev nD) (b : Ref sig .tc) (hb : b ∉ Finset.univ.image (Pipeline.arrRef spec1)) :
    atTc (Gen.V36 m (outs m)) c b = atTc (Gen.V35 m (outs m)) c b :=
  Gen.V36_of m (outs m) c b fun h => hb (Finset.mem_image.mpr ⟨3, Finset.mem_univ _, (List.mem_singleton.mp h).symm⟩)

set_option backward.isDefEq.respectTransparency.types false in
def reg1 : Pipeline.RegionSeg (pcfgs (F := F)) Gen.adm (pdats m) () defs₀ Variants.none noLevels lvl0 1 where
  win := Gen.launch1.win.to₀
  block_pos := Gen.launch1.block_pos
  stage_whole := Gen.launch1.stage_whole
  K := PEmpty
  osem k := k.elim
  ho := Pipeline.OwnSemFacts.none _
  hbody c := (R1.body_obligation1 (atTc (Gen.V35 m (outs m))) c).loose
  hwaits := Pipeline.hwaits_of_owed_zero _ _ _ _ noLevels lvl0 1 fun _ _ => rfl
  pre c := iprop(StableHlo.held (c : Thread nD τ) (Pipeline.ucRefs τ sig) (Gen.V35 m (outs m) c) ∗ rest c)
  post c := iprop(StableHlo.held (c : Thread nD τ) (Pipeline.ucRefs τ sig) (Gen.V36 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (atTc (Gen.V35 m (outs m)) c)
  hentry c := by

    have hsplit := Pipeline.arrays_of_unscopedBufs (p := 1) (pcfgs (F := F)) Gen.adm (pdats m) Gen.launch1.win Gen.launch1.arr_whole c
      ((pdats m 1 c).share_full fun _ => rfl) (atTc (Gen.V35 m (outs m)) c) fun _ => rfl
    rw [Pipeline.unscopedBufs_held] at hsplit
    rw [Pipeline.ownSems0_none]
    iintro ⟨⟨Hbufs, Hprng, Howes⟩, -, -⟩
    ihave Hs := hsplit $$ Hbufs
    icases Hs with ⟨Harr, Hoff⟩
    imodintro
    isplitl [Harr]; · iexact Harr
    isplitr
    ·
      unfold Pipeline.prefHeld
      rw [show (Finset.univ : Finset (Fin 0)) = ∅ from rfl, BI.bigSep_empty]; iempintro
    isplitl [Howes]
    ·
      unfold Pipeline.Dat.owesAt Pipeline.owesWithin
      icases Howes with ⟨%W, Howes⟩
      iexists W
      isplitr; · ipureintro; exact fun _ _ => Or.inl trivial
      iexact Howes
    isplitl [Hprng]; · iexact Hprng
    iexact Hoff
  hin c := by
    refine BIBase.Entails.trans ?_ (R1.hin1 (atTc (Gen.V35 m (outs m))) c)
    unfold Pipeline.ΦA
    iintro ⟨Hprng, -, Hscoped⟩
    isplitl [Hscoped]; · iexact Hscoped
    iexact Hprng
  hout c := by
    rw [Pipeline.ownSems0_none]
    refine BIBase.Entails.trans (R1.hout1 (atTc (Gen.V35 m (outs m))) c) ?_
    unfold Pipeline.ΦA
    iintro ⟨Hscoped, Hprng⟩
    isplitl [Hprng]; · iexact Hprng
    isplitr; · iempintro
    iexact Hscoped
  hexit c := by

    have hjoin := Pipeline.unscopedBufs_of_arrays (p := 1) (pcfgs (F := F)) Gen.adm (Ix := Unit) (Name := ℕ) (U := UR sig nD τ) (Lvl := ℕ)
      Gen.launch1.win Gen.launch1.arr_whole c (pdats m) ((pdats m 1 c).share_full fun _ => rfl)
      (atTc (Gen.V35 m (outs m)) c) (atTc (Gen.V36 m (outs m)) c) ((pdats m 1 c).arrAt · cfg1.N) (exitArr1 m c) (exitOff1 m c)
    rw [Pipeline.unscopedBufs_held] at hjoin
    iintro ⟨Harr, Howes, Hprng, Hoff⟩
    imodintro
    isplitl [Harr Hoff]
    · iapply hjoin; isplitl [Harr] <;> iassumption
    isplitl [Hprng]; · iexact Hprng
    unfold Pipeline.Dat.owesAt Pipeline.owesWithin
    icases Howes with ⟨%W, -, Howes⟩; iexists W; iexact Howes

theorem kept2 (c : Dev nD) (w : Fin 4) (hin : (cfg2.win w).isOut = false)
    (hne : Pipeline.arrRef spec2 w ∉ ([main_v86] : List (Ref sig .tc))) :
    (pdats m 2 c).arrAt w cfg2.N = atTc (Gen.V42 m (outs m)) c (Pipeline.arrRef spec2 w) :=
  ((pdats m 2 c).arrAt_in w hin cfg2.N).trans <|
    (R2.A_eq2 (atTc (Gen.V41 m (outs m))) c w).trans (Gen.V42_of m (outs m) c _ hne).symm

theorem exitArr2 (c : Dev nD) : ∀ w : Fin 4, (pdats m 2 c).arrAt w cfg2.N = atTc (Gen.V42 m (outs m)) c (Pipeline.arrRef spec2 w)
  | 0 => kept2 m c 0 rfl (by decide)
  | 1 => kept2 m c 1 rfl (by decide)
  | 2 => kept2 m c 2 rfl (by decide)
  | 3 => (outs_42 m c).symm.trans (V42_at m (outs m) c).symm
  | ⟨_ + 4, h⟩ => absurd h (Nat.not_lt.2 (Nat.le_add_left _ _))

theorem exitOff2 (c : Dev nD) (b : Ref sig .tc) (hb : b ∉ Finset.univ.image (Pipeline.arrRef spec2)) :
    atTc (Gen.V42 m (outs m)) c b = atTc (Gen.V41 m (outs m)) c b :=
  Gen.V42_of m (outs m) c b fun h => hb (Finset.mem_image.mpr ⟨3, Finset.mem_univ _, (List.mem_singleton.mp h).symm⟩)

set_option backward.isDefEq.respectTransparency.types false in
def reg2 : Pipeline.RegionSeg (pcfgs (F := F)) Gen.adm (pdats m) () defs₀ Variants.none noLevels lvl0 2 where
  win := Gen.launch2.win.to₀
  block_pos := Gen.launch2.block_pos
  stage_whole := Gen.launch2.stage_whole
  K := PEmpty
  osem k := k.elim
  ho := Pipeline.OwnSemFacts.none _
  hbody c := (R2.body_obligation2 (atTc (Gen.V41 m (outs m))) c).loose
  hwaits := Pipeline.hwaits_of_owed_zero _ _ _ _ noLevels lvl0 2 fun _ _ => rfl
  pre c := iprop(StableHlo.held (c : Thread nD τ) (Pipeline.ucRefs τ sig) (Gen.V41 m (outs m) c) ∗ rest c)
  post c := iprop(StableHlo.held (c : Thread nD τ) (Pipeline.ucRefs τ sig) (Gen.V42 m (outs m) c) ∗ rest c)
  X c := iprop(∃ r, prngReg c r)
  Y c := iprop(∃ r, prngReg c r)
  Z c := Pipeline.unscopedRest (Ix := Unit) (Name := ℕ) (U := UR sig nD τ) (Lvl := ℕ) spec2 c (atTc (Gen.V41 m (outs m)) c)
  hentry c := by

    have hsplit := Pipeline.arrays_of_unscopedBufs (p := 2) (pcfgs (F := F)) Gen.adm (pdats m) Gen.launch2.win Gen.launch2.arr_whole c
      ((pdats m 2 c).share_full fun _ => rfl) (atTc (Gen.V41 m (outs m)) c) fun _ => rfl
    rw [Pipeline.unscopedBufs_held] at hsplit
    rw [Pipeline.ownSems0_none]
    iintro ⟨⟨Hbufs, Hprng, Howes⟩, -, -⟩
    ihave Hs := hsplit $$ Hbufs
    icases Hs with ⟨Harr, Hoff⟩
    imodintro
    isplitl [Harr]; · iexact Harr
    isplitr
    ·
      unfold Pipeline.prefHeld
      rw [show (Finset.univ : Finset (Fin 0)) = ∅ from rfl, BI.bigSep_empty]; iempintro
    isplitl [Howes]
    ·
      unfold Pipeline.Dat.owesAt Pipeline.owesWithin
      icases Howes with ⟨%W, Howes⟩
      iexists W
      isplitr; · ipureintro; exact fun _ _ => Or.inl trivial
      iexact Howes
    isplitl [Hprng]; · iexact Hprng
    iexact Hoff
  hin c := by
    refine BIBase.Entails.trans ?_ (R2.hin2 (atTc (Gen.V41 m (outs m))) c)
    unfold Pipeline.ΦA
    iintro ⟨Hprng, -, Hscoped⟩
    isplitl [Hscoped]; · iexact Hscoped
    iexact Hprng
  hout c := by
    rw [Pipeline.ownSems0_none]
    refine BIBase.Entails.trans (R2.hout2 (atTc (Gen.V41 m (outs m))) c) ?_
    unfold Pipeline.ΦA
    iintro ⟨Hscoped, Hprng⟩
    isplitl [Hprng]; · iexact Hprng
    isplitr; · iempintro
    iexact Hscoped
  hexit c := by

    have hjoin := Pipeline.unscopedBufs_of_arrays (p := 2) (pcfgs (F := F)) Gen.adm (Ix := Unit) (Name := ℕ) (U := UR sig nD τ) (Lvl := ℕ)
      Gen.launch2.win Gen.launch2.arr_whole c (pdats m) ((pdats m 2 c).share_full fun _ => rfl)
      (atTc (Gen.V41 m (outs m)) c) (atTc (Gen.V42 m (outs m)) c) ((pdats m 2 c).arrAt · cfg2.N) (exitArr2 m c) (exitOff2 m c)
    rw [Pipeline.unscopedBufs_held] at hjoin
    iintro ⟨Harr, Howes, Hprng, Hoff⟩
    imodintro
    isplitl [Harr Hoff]
    · iapply hjoin; isplitl [Harr] <;> iassumption
    isplitl [Hprng]; · iexact Hprng
    unfold Pipeline.Dat.owesAt Pipeline.owesWithin
    icases Howes with ⟨%W, -, Howes⟩; iexists W; iexact Howes

theorem kept3 (c : Dev nD) (w : Fin 4) (hin : (cfg3.win w).isOut = false)
    (hne : Pipeline.arrRef spec3 w ∉ ([main_v96] : List (Ref sig .tc))) :
    (pdats m 3 c).arrAt w cfg3.N = atTc (Gen.V48 m (outs m)) c (Pipeline.arrRef spec3 w) :=
  ((pdats m 3 c).arrAt_in w hin cfg3.N).trans <|
    (R3.A_eq3 (atTc (Gen.V47 m (outs m))) c w).trans (Gen.V48_of m (outs m) c _ hne).symm

theorem exitArr3 (c : Dev nD) : ∀ w : Fin 4, (pdats m 3 c).arrAt w cfg3.N = atTc (Gen.V48 m (outs m)) c (Pipeline.arrRef spec3 w)
  | 0 => kept3 m c 0 rfl (by decide)
  | 1 => kept3 m c 1 rfl (by decide)
  | 2 => kept3 m c 2 rfl (by decide)
  | 3 => (outs_48 m c).symm.trans (V48_at m (outs m) c).symm
  | ⟨_ + 4, h⟩ => absurd h (Nat.not_lt.2 (Nat.le_add_left _ _))

theorem exitOff3 (c : Dev nD) (b : Ref sig .tc) (hb : b ∉ Finset.univ.image (Pipeline.arrRef spec3)) :
    atTc (Gen.V48 m (outs m)) c b = atTc (Gen.V47 m (outs m)) c b :=
  Gen.V48_of m (outs m) c b fun h => hb (Finset.mem_image.mpr ⟨3, Finset.mem_univ _, (List.mem_singleton.mp h).symm⟩)

set_option backward.isDefEq.respectTransparency.types false in
def reg3 : Pipeline.RegionSeg (pcfgs (F := F)) Gen.adm (pdats m) () defs₀ Variants.none noLevels lvl0 3 where
  win := Gen.launch3.win.to₀
  block_pos := Gen.launch3.block_pos
  stage_whole := Gen.launch3.stage_whole
  K := PEmpty
  osem k := k.elim
  ho := Pipeline.OwnSemFacts.none _
  hbody c := (R3.body_obligation3 (atTc (Gen.V47 m (outs m))) c).loose
  hwaits := Pipeline.hwaits_of_owed_zero _ _ _ _ noLevels lvl0 3 fun _ _ => rfl
  pre c := iprop(StableHlo.held (c : Thread nD τ) (Pipeline.ucRefs τ sig) (Gen.V47 m (outs m) c) ∗ rest c)
  post c := iprop(StableHlo.held (c : Thread nD τ) (Pipeline.ucRefs τ sig) (Gen.V48 m (outs m) c) ∗ rest c)
  X c := iprop(∃ r, prngReg c r)
  Y c := iprop(∃ r, prngReg c r)
  Z c := Pipeline.unscopedRest (Ix := Unit) (Name := ℕ) (U := UR sig nD τ) (Lvl := ℕ) spec3 c (atTc (Gen.V47 m (outs m)) c)
  hentry c := by

    have hsplit := Pipeline.arrays_of_unscopedBufs (p := 3) (pcfgs (F := F)) Gen.adm (pdats m) Gen.launch3.win Gen.launch3.arr_whole c
      ((pdats m 3 c).share_full fun _ => rfl) (atTc (Gen.V47 m (outs m)) c) fun _ => rfl
    rw [Pipeline.unscopedBufs_held] at hsplit
    rw [Pipeline.ownSems0_none]
    iintro ⟨⟨Hbufs, Hprng, Howes⟩, -, -⟩
    ihave Hs := hsplit $$ Hbufs
    icases Hs with ⟨Harr, Hoff⟩
    imodintro
    isplitl [Harr]; · iexact Harr
    isplitr
    ·
      unfold Pipeline.prefHeld
      rw [show (Finset.univ : Finset (Fin 0)) = ∅ from rfl, BI.bigSep_empty]; iempintro
    isplitl [Howes]
    ·
      unfold Pipeline.Dat.owesAt Pipeline.owesWithin
      icases Howes with ⟨%W, Howes⟩
      iexists W
      isplitr; · ipureintro; exact fun _ _ => Or.inl trivial
      iexact Howes
    isplitl [Hprng]; · iexact Hprng
    iexact Hoff
  hin c := by
    refine BIBase.Entails.trans ?_ (R3.hin3 (atTc (Gen.V47 m (outs m))) c)
    unfold Pipeline.ΦA
    iintro ⟨Hprng, -, Hscoped⟩
    isplitl [Hscoped]; · iexact Hscoped
    iexact Hprng
  hout c := by
    rw [Pipeline.ownSems0_none]
    refine BIBase.Entails.trans (R3.hout3 (atTc (Gen.V47 m (outs m))) c) ?_
    unfold Pipeline.ΦA
    iintro ⟨Hscoped, Hprng⟩
    isplitl [Hprng]; · iexact Hprng
    isplitr; · iempintro
    iexact Hscoped
  hexit c := by

    have hjoin := Pipeline.unscopedBufs_of_arrays (p := 3) (pcfgs (F := F)) Gen.adm (Ix := Unit) (Name := ℕ) (U := UR sig nD τ) (Lvl := ℕ)
      Gen.launch3.win Gen.launch3.arr_whole c (pdats m) ((pdats m 3 c).share_full fun _ => rfl)
      (atTc (Gen.V47 m (outs m)) c) (atTc (Gen.V48 m (outs m)) c) ((pdats m 3 c).arrAt · cfg3.N) (exitArr3 m c) (exitOff3 m c)
    rw [Pipeline.unscopedBufs_held] at hjoin
    iintro ⟨Harr, Howes, Hprng, Hoff⟩
    imodintro
    isplitl [Harr Hoff]
    · iapply hjoin; isplitl [Harr] <;> iassumption
    isplitl [Hprng]; · iexact Hprng
    unfold Pipeline.Dat.owesAt Pipeline.owesWithin
    icases Howes with ⟨%W, -, Howes⟩; iexists W; iexact Howes

theorem in4 (V : (c : Dev nD) → (b : Ref sig .tc) → Buf (Elt F) ((c : Thread nD τ).loc b)) (c : Dev nD) :
    Pipeline.ΦA spec4 c ⊢ (R4.dat4 V c).Φ 0 := Entails.of_eq rfl
theorem out4 (V : (c : Dev nD) → (b : Ref sig .tc) → Buf (Elt F) ((c : Thread nD τ).loc b)) (c : Dev nD) :
    (R4.dat4 V c).Φ (Fin.last cfg4.N) ⊢ Pipeline.ΦA spec4 c := Entails.of_eq rfl

theorem kept4 (c : Dev nD) (w : Fin 13) (hin : (cfg4.win w).isOut = false)
    (hne : Pipeline.arrRef spec4 w ∉ ([main_v177_0, main_v177_1] : List (Ref sig .tc))) :
    (pdats m 4 c).arrAt w cfg4.N = atTc (Gen.V62 m (outs m)) c (Pipeline.arrRef spec4 w) :=
  ((pdats m 4 c).arrAt_in w hin cfg4.N).trans <|
    (R4.A_eq4 (atTc (Gen.V61 m (outs m))) c w).trans (Gen.V62_of m (outs m) c _ hne).symm

theorem exitArr4 (c : Dev nD) : ∀ w : Fin 13, (pdats m 4 c).arrAt w cfg4.N = atTc (Gen.V62 m (outs m)) c (Pipeline.arrRef spec4 w)
  | 0 => kept4 m c 0 rfl (by decide)
  | 1 => kept4 m c 1 rfl (by decide)
  | 2 => kept4 m c 2 rfl (by decide)
  | 3 => kept4 m c 3 rfl (by decide)
  | 4 => kept4 m c 4 rfl (by decide)
  | 5 => kept4 m c 5 rfl (by decide)
  | 6 => kept4 m c 6 rfl (by decide)
  | 7 => kept4 m c 7 rfl (by decide)
  | 8 => kept4 m c 8 rfl (by decide)
  | 9 => kept4 m c 9 rfl (by decide)
  | 10 => kept4 m c 10 rfl (by decide)
  | 11 => (outs_62_0 m c).symm.trans (V62_at0 m (outs m) c).symm
  | 12 => (outs_62_1 m c).symm.trans (V62_at1 m (outs m) c).symm
  | ⟨_ + 13, h⟩ => absurd h (Nat.not_lt.2 (Nat.le_add_left _ _))

theorem exitOff4 (c : Dev nD) (b : Ref sig .tc) (hb : b ∉ Finset.univ.image (Pipeline.arrRef spec4)) :
    atTc (Gen.V62 m (outs m)) c b = atTc (Gen.V61 m (outs m)) c b :=
  Gen.V62_of m (outs m) c b fun h => hb <| by
    rcases List.mem_cons.mp h with h | h
    · exact Finset.mem_image.mpr ⟨11, Finset.mem_univ _, h.symm⟩
    · exact Finset.mem_image.mpr ⟨12, Finset.mem_univ _, (List.mem_singleton.mp h).symm⟩

set_option backward.isDefEq.respectTransparency.types false in
def reg4 : Pipeline.RegionSeg (pcfgs (F := F)) Gen.adm (pdats m) () defs₀ Variants.none noLevels lvl0 4 where
  win := Gen.launch4.win.to₀
  block_pos := Gen.launch4.block_pos
  stage_whole := Gen.launch4.stage_whole
  K := PEmpty
  osem k := k.elim
  ho := Pipeline.OwnSemFacts.none _
  hbody c := (R4.body_obligation4 (atTc (Gen.V61 m (outs m))) c).loose
  hwaits := Pipeline.hwaits_of_owed_zero _ _ _ _ noLevels lvl0 4 fun _ _ => rfl
  pre c := iprop(StableHlo.held (c : Thread nD τ) (Pipeline.ucRefs τ sig) (Gen.V61 m (outs m) c) ∗ rest c)
  post c := iprop(StableHlo.held (c : Thread nD τ) (Pipeline.ucRefs τ sig) (Gen.V62 m (outs m) c) ∗ rest c)
  X c := iprop(∃ r, prngReg c r)
  Y c := iprop(∃ r, prngReg c r)
  Z c := Pipeline.unscopedRest (Ix := Unit) (Name := ℕ) (U := UR sig nD τ) (Lvl := ℕ) spec4 c (atTc (Gen.V61 m (outs m)) c)
  hentry c := by

    have hsplit := Pipeline.arrays_of_unscopedBufs (p := 4) (pcfgs (F := F)) Gen.adm (pdats m) Gen.launch4.win Gen.launch4.arr_whole c
      ((pdats m 4 c).share_full fun _ => rfl) (atTc (Gen.V61 m (outs m)) c) fun _ => rfl
    rw [Pipeline.unscopedBufs_held] at hsplit
    rw [Pipeline.ownSems0_none]
    iintro ⟨⟨Hbufs, Hprng, Howes⟩, -, -⟩
    ihave Hs := hsplit $$ Hbufs
    icases Hs with ⟨Harr, Hoff⟩
    imodintro
    isplitl [Harr]; · iexact Harr
    isplitr
    ·
      unfold Pipeline.prefHeld
      rw [show (Finset.univ : Finset (Fin 0)) = ∅ from rfl, BI.bigSep_empty]; iempintro
    isplitl [Howes]
    ·
      unfold Pipeline.Dat.owesAt Pipeline.owesWithin
      icases Howes with ⟨%W, Howes⟩
      iexists W
      isplitr; · ipureintro; exact fun _ _ => Or.inl trivial
      iexact Howes
    isplitl [Hprng]; · iexact Hprng
    iexact Hoff
  hin c := by
    refine BIBase.Entails.trans ?_ (in4 (atTc (Gen.V61 m (outs m))) c)
    unfold Pipeline.ΦA
    iintro ⟨Hprng, -, Hscoped⟩
    isplitl [Hscoped]; · iexact Hscoped
    iexact Hprng
  hout c := by
    rw [Pipeline.ownSems0_none]
    refine BIBase.Entails.trans (out4 (atTc (Gen.V61 m (outs m))) c) ?_
    unfold Pipeline.ΦA
    iintro ⟨Hscoped, Hprng⟩
    isplitl [Hprng]; · iexact Hprng
    isplitr; · iempintro
    iexact Hscoped
  hexit c := by

    have hjoin := Pipeline.unscopedBufs_of_arrays (p := 4) (pcfgs (F := F)) Gen.adm (Ix := Unit) (Name := ℕ) (U := UR sig nD τ) (Lvl := ℕ)
      Gen.launch4.win Gen.launch4.arr_whole c (pdats m) ((pdats m 4 c).share_full fun _ => rfl)
      (atTc (Gen.V61 m (outs m)) c) (atTc (Gen.V62 m (outs m)) c) ((pdats m 4 c).arrAt · cfg4.N) (exitArr4 m c) (exitOff4 m c)
    rw [Pipeline.unscopedBufs_held] at hjoin
    iintro ⟨Harr, Howes, Hprng, Hoff⟩
    imodintro
    isplitl [Harr Hoff]
    · iapply hjoin; isplitl [Harr] <;> iassumption
    isplitl [Hprng]; · iexact Hprng
    unfold Pipeline.Dat.owesAt Pipeline.owesWithin
    icases Howes with ⟨%W, -, Howes⟩; iexists W; iexact Howes

theorem launchGhost :
    (ownU (initOf (Pipeline.cells cfgs Gen.cellOf_inj) (Pipeline.launchToks cfgs Gen.cellOf_inj)) : sProp 𝕄)
      ⊢ |={Set.univ}=> iprop(BI.own (emb₁ (initOf (Pipeline.cells cfgs Gen.cellOf_inj) (Pipeline.launchToks cfgs Gen.cellOf_inj)))
          ∗ bigSep Finset.univ fun _ : Dev nD => (BI.emp : sProp 𝕄)) := by
  iintro Hu; imodintro
  isplitl [Hu]
  · iapply (show (ownU (initOf (Pipeline.cells cfgs Gen.cellOf_inj) (Pipeline.launchToks cfgs Gen.cellOf_inj)) : sProp 𝕄)
        ⊢ BI.own (emb₁ (initOf (Pipeline.cells cfgs Gen.cellOf_inj) (Pipeline.launchToks cfgs Gen.cellOf_inj))) from .rfl)
    iexact Hu
  iapply (show (BI.emp : sProp 𝕄) ⊢ bigSep Finset.univ (fun _ : Dev nD => (BI.emp : sProp 𝕄)) from by rw [BI.bigSep_emp_const])
  iempintro

theorem launchRest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noLevels lvl0)
      ⊢ (|={Set.univ}=> bigSep Finset.univ (rest (F := F)) : sProp 𝕄) :=
  Pipeline.initEach noLevels lvl0 fun c => by
    iintro ⟨⟨-, Howes, -, Hprng, -⟩, -⟩
    imodintro
    isplitl [Hprng]; · iexists _; iexact Hprng
    iexists ∅; iexact Howes

theorem restOwes (c : Dev nD) :
    rest (F := F) c ⊢ (iprop(∃ W, owes (c : Thread nD τ) (0 : CellTallies nD τ sig Unit) W) : sProp 𝕄) := by
  iintro ⟨-, Howes⟩; iexact Howes

set_option backward.isDefEq.respectTransparency.types false in
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  Gen.frame_cond m (Ix := Unit) (U := UR sig nD τ) (Lvl := ℕ) emb₁ () Variants.none noLevels lvl0 (fun _ _ => rfl) ρ (outs m) (pdats m)
    (0 : Dev nD → CellTallies nD τ sig Unit) (fun _ => (BI.emp : sProp 𝕄))
    (initOf (Pipeline.cells cfgs Gen.cellOf_inj) (Pipeline.launchToks cfgs Gen.cellOf_inj)) launchGhost
    (fun _ => rest) (launchRest ρ)
    restOwes
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)

end Cert.Kernel.Chain

end
-- ==== Proof.KI.Regions.lean ====
import proofs.«406789_j53094385713523_3_alg».proof.Proof.LibWrites
import proofs.«406789_j53094385713523_3_alg».proof.Proof.Gen.KernelIdeal.Launch
import Idealize.ShloMosaic.Lib.Pipeline.Frame
import Idealize.ShloMosaic.Lib.Pipeline.Regions

set_option maxRecDepth 2356

noncomputable section

namespace Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F] [Named F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := StableHlo.after hostOps0_1 (V1 m c)

abbrev V3 (c : Dev nD) : Valuation τ sig (Elt F) := StableHlo.after hostOps0_2 (V2 m c)

abbrev V4 (c : Dev nD) : Valuation τ sig (Elt F) := StableHlo.after hostOps0_3 (V3 m c)

abbrev V5 (c : Dev nD) : Valuation τ sig (Elt F) := StableHlo.after hostOps0_4 (V4 m c)

abbrev V6 (c : Dev nD) : Valuation τ sig (Elt F) := StableHlo.after hostOps0_5 (V5 m c)

abbrev V7 (c : Dev nD) : Valuation τ sig (Elt F) := StableHlo.after hostOps0_6 (V6 m c)

abbrev V8 (c : Dev nD) : Valuation τ sig (Elt F) := StableHlo.after hostOps0_7 (V7 m c)

abbrev V9 (c : Dev nD) : Valuation τ sig (Elt F) := StableHlo.after hostOps0_8 (V8 m c)

abbrev V10 (c : Dev nD) : Valuation τ sig (Elt F) := StableHlo.after hostOps0_9 (V9 m c)

abbrev V11 (c : Dev nD) : Valuation τ sig (Elt F) := StableHlo.after hostOps0_10 (V10 m c)

abbrev V12 (c : Dev nD) : Valuation τ sig (Elt F) := StableHlo.after hostOps0_11 (V11 m c)

abbrev V13 (c : Dev nD) : Valuation τ sig (Elt F) := StableHlo.after hostOps0_12 (V12 m c)

abbrev V14 (c : Dev nD) : Valuation τ sig (Elt F) := StableHlo.after hostOps0_13 (V13 m c)

abbrev V15 (c : Dev nD) : Valuation τ sig (Elt F) := StableHlo.after hostOps0_14 (V14 m c)

abbrev V16 (c : Dev nD) : Valuation τ sig (Elt F) := StableHlo.after hostOps0_15 (V15 m c)

abbrev V17 (c : Dev nD) : Valuation τ sig (Elt F) := StableHlo.after hostOps0_16 (V16 m c)

abbrev V18 (c : Dev nD) : Valuation τ sig (Elt F) := StableHlo.after hostOps0_17 (V17 m c)

abbrev V19 (c : Dev nD) : Valuation τ sig (Elt F) := StableHlo.after hostOps0_18 (V18 m c)

abbrev V20 (c : Dev nD) : Valuation τ sig (Elt F) := StableHlo.after hostOps0_19 (V19 m c)

abbrev V21 (c : Dev nD) : Valuation τ sig (Elt F) := StableHlo.after hostOps0_20 (V20 m c)

abbrev V22 (c : Dev nD) : Valuation τ sig (Elt F) := StableHlo.after hostOps0_21 (V21 m c)

abbrev V23 (c : Dev nD) : Valuation τ sig (Elt F) := StableHlo.after hostOps0_22 (V22 m c)

abbrev V24 (c : Dev nD) : Valuation τ sig (Elt F) := StableHlo.after hostOps0_23 (V23 m c)

abbrev V25 (c : Dev nD) : Valuation τ sig (Elt F) := StableHlo.after hostOps0_24 (V24 m c)

abbrev V26 (c : Dev nD) : Valuation τ sig (Elt F) := StableHlo.after hostOps0_25 (V25 m c)

abbrev V27 (c : Dev nD) : Valuation τ sig (Elt F) := StableHlo.after hostOps0_26 (V26 m c)

abbrev V28 (c : Dev nD) : Valuation τ sig (Elt F) := Function.update (V27 m c) main_v65 (outs 28 main_v65 c)

abbrev V29 (c : Dev nD) : Valuation τ sig (Elt F) := StableHlo.after hostOps1 (V28 m outs c)

abbrev V30 (c : Dev nD) : Valuation τ sig (Elt F) := StableHlo.after hostOps1_1 (V29 m outs c)

abbrev V31 (c : Dev nD) : Valuation τ sig (Elt F) := StableHlo.after hostOps1_2 (V30 m outs c)

abbrev V32 (c : Dev nD) : Valuation τ sig (Elt F) := StableHlo.after hostOps1_3 (V31 m outs c)

abbrev V33 (c : Dev nD) : Valuation τ sig (Elt F) := StableHlo.after hostOps1_4 (V32 m outs c)

abbrev V34 (c : Dev nD) : Valuation τ sig (Elt F) := StableHlo.after hostOps1_5 (V33 m outs c)

abbrev V35 (c : Dev nD) : Valuation τ sig (Elt F) := StableHlo.after hostOps1_6 (V34 m outs c)

abbrev V36 (c : Dev nD) : Valuation τ sig (Elt F) := Function.update (V35 m outs c) main_v76 (outs 36 main_v76 c)

abbrev V37 (c : Dev nD) : Valuation τ sig (Elt F) := StableHlo.after hostOps2 (V36 m outs c)

abbrev V38 (c : Dev nD) : Valuation τ sig (Elt F) := StableHlo.after hostOps2_1 (V37 m outs c)

abbrev V39 (c : Dev nD) : Valuation τ sig (Elt F) := StableHlo.after hostOps2_2 (V38 m outs c)

abbrev V40 (c : Dev nD) : Valuation τ sig (Elt F) := StableHlo.after hostOps2_3 (V39 m outs c)

abbrev V41 (c : Dev nD) : Valuation τ sig (Elt F) := StableHlo.after hostOps2_4 (V40 m outs c)

abbrev V42 (c : Dev nD) : Valuation τ sig (Elt F) := Function.update (V41 m outs c) main_v86 (outs 42 main_v86 c)

abbrev V43 (c : Dev nD) : Valuation τ sig (Elt F) := StableHlo.after hostOps3 (V42 m outs c)

abbrev V44 (c : Dev nD) : Valuation τ sig (Elt F) := StableHlo.after hostOps3_1 (V43 m outs c)

abbrev V45 (c : Dev nD) : Valuation τ sig (Elt F) := StableHlo.after hostOps3_2 (V44 m outs c)

abbrev V46 (c : Dev nD) : Valuation τ sig (Elt F) := StableHlo.after hostOps3_3 (V45 m outs c)

abbrev V47 (c : Dev nD) : Valuation τ sig (Elt F) := StableHlo.after hostOps3_4 (V46 m outs c)

abbrev V48 (c : Dev nD) : Valuation τ sig (Elt F) := Function.update (V47 m outs c) main_v96 (outs 48 main_v96 c)

abbrev V49 (c : Dev nD) : Valuation τ sig (Elt F) := StableHlo.after hostOps4 (V48 m outs c)

abbrev V50 (c : Dev nD) : Valuation τ sig (Elt F) := StableHlo.after hostOps4_1 (V49 m outs c)

abbrev V51 (c : Dev nD) : Valuation τ sig (Elt F) := StableHlo.after hostOps4_2 (V50 m outs c)

abbrev V52 (c : Dev nD) : Valuation τ sig (Elt F) := StableHlo.after hostOps4_3 (V51 m outs c)

abbrev V53 (c : Dev nD) : Valuation τ sig (Elt F) := StableHlo.after hostOps4_4 (V52 m outs c)

abbrev V54 (c : Dev nD) : Valuation τ sig (Elt F) := StableHlo.after hostOps4_5 (V53 m outs c)

abbrev V55 (c : Dev nD) : Valuation τ sig (Elt F) := StableHlo.after hostOps4_6 (V54 m outs c)

abbrev V56 (c : Dev nD) : Valuation τ sig (Elt F) := StableHlo.after hostOps4_7 (V55 m outs c)

abbrev V57 (c : Dev nD) : Valuation τ sig (Elt F) := StableHlo.after hostOps4_8 (V56 m outs c)

abbrev V58 (c : Dev nD) : Valuation τ sig (Elt F) := StableHlo.after hostOps4_9 (V57 m outs c)

abbrev V59 (c : Dev nD) : Valuation τ sig (Elt F) := StableHlo.after hostOps4_10 (V58 m outs c)

abbrev V60 (c : Dev nD) : Valuation τ sig (Elt F) := StableHlo.after hostOps4_11 (V59 m outs c)

abbrev V61 (c : Dev nD) : Valuation τ sig (Elt F) := StableHlo.after hostOps4_12 (V60 m outs c)

abbrev V62 (c : Dev nD) : Valuation τ sig (Elt F) := Function.update (Function.update (V61 m outs c) main_v177_0 (outs 62 main_v177_0 c)) main_v177_1 (outs 62 main_v177_1 c)

abbrev V63 (c : Dev nD) : Valuation τ sig (Elt F) := StableHlo.after hostOps5 (V62 m outs c)

theorem hostOps0_fresh : (hostOps0 : List (HloOp τ sig (Elt F))).Forall fun op => op.fresh = ∅ := by
  simp only [List.Forall]; repeat' constructor

abbrev hostOps0_W : List (Ref sig .tc) := [main_cst, main_v0, main_cst_0, main_v1, main_v2, main_cst_1, main_v3, main_cst_2, main_v4, main_v5, main_cst_3, main_v6, main_cst_4, main_v7, main_v8, main_cst_5, main_v9, main_cst_6, main_v10, main_v11, main_cst_7, main_v12, main_cst_8, main_v13, main_v14, main_cst_9, main_v15, main_cst_10, main_v16, main_v17, main_cst_11, main_v18, main_cst_12, main_v19, main_v20, main_cst_13, main_v21, main_cst_14, main_v22, main_v23, main_cst_15, main_v24, main_cst_16, main_v25, main_v26, main_cst_17, main_v27, main_cst_18, main_v28, main_v29, main_c, main_c_19]
theorem hostOps0_writes : (hostOps0 : List (HloOp τ sig (Elt F))).Forall fun op => op.writes ⊆ (hostOps0_W.map (Proc.devRef (τ := τ) .tc)).toFinset := by
  simp only [List.Forall]; (repeat' apply And.intro) <;> exact LibWrites.singleton_sub (by decide)
theorem hostOps0_1_fresh : (hostOps0_1 : List (HloOp τ sig (Elt F))).Forall fun op => op.fresh = ∅ := by
  simp only [List.Forall]; repeat' constructor

abbrev hostOps0_1_W : List (Ref sig .tc) := [main_call0_v0, main_call0_v1, main_call0_v2, main_call0_v3, main_call0_v4, main_v30]
theorem hostOps0_1_writes : (hostOps0_1 : List (HloOp τ sig (Elt F))).Forall fun op => op.writes ⊆ (hostOps0_1_W.map (Proc.devRef (τ := τ) .tc)).toFinset := by
  simp only [List.Forall]; (repeat' apply And.intro) <;> exact LibWrites.singleton_sub (by decide)
theorem hostOps0_2_fresh : (hostOps0_2 : List (HloOp τ sig (Elt F))).Forall fun op => op.fresh = ∅ := by
  simp only [List.Forall]; repeat' constructor

abbrev hostOps0_2_W : List (Ref sig .tc) := [main_v31, main_c_20, main_c_21]
theorem hostOps0_2_writes : (hostOps0_2 : List (HloOp τ sig (Elt F))).Forall fun op => op.writes ⊆ (hostOps0_2_W.map (Proc.devRef (τ := τ) .tc)).toFinset := by
  simp only [List.Forall]; (repeat' apply And.intro) <;> exact LibWrites.singleton_sub (by decide)
theorem hostOps0_3_fresh : (hostOps0_3 : List (HloOp τ sig (Elt F))).Forall fun op => op.fresh = ∅ := by
  simp only [List.Forall]; repeat' constructor

abbrev hostOps0_3_W : List (Ref sig .tc) := [main_call1_v0, main_call1_v1, main_call1_v2, main_call1_v3, main_call1_v4, main_v32]
theorem hostOps0_3_writes : (hostOps0_3 : List (HloOp τ sig (Elt F))).Forall fun op => op.writes ⊆ (hostOps0_3_W.map (Proc.devRef (τ := τ) .tc)).toFinset := by
  simp only [List.Forall]; (repeat' apply And.intro) <;> exact LibWrites.singleton_sub (by decide)
theorem hostOps0_4_fresh : (hostOps0_4 : List (HloOp τ sig (Elt F))).Forall fun op => op.fresh = ∅ := by
  simp only [List.Forall]; repeat' constructor

abbrev hostOps0_4_W : List (Ref sig .tc) := [main_v33, main_c_22, main_c_23]
theorem hostOps0_4_writes : (hostOps0_4 : List (HloOp τ sig (Elt F))).Forall fun op => op.writes ⊆ (hostOps0_4_W.map (Proc.devRef (τ := τ) .tc)).toFinset := by
  simp only [List.Forall]; (repeat' apply And.intro) <;> exact LibWrites.singleton_sub (by decide)
theorem hostOps0_5_fresh : (hostOps0_5 : List (HloOp τ sig (Elt F))).Forall fun op => op.fresh = ∅ := by
  simp only [List.Forall]; repeat' constructor

abbrev hostOps0_5_W : List (Ref sig .tc) := [main_call2_v0, main_call2_v1, main_call2_v2, main_call2_v3, main_call2_v4, main_v34]
theorem hostOps0_5_writes : (hostOps0_5 : List (HloOp τ sig (Elt F))).Forall fun op => op.writes ⊆ (hostOps0_5_W.map (Proc.devRef (τ := τ) .tc)).toFinset := by
  simp only [List.Forall]; (repeat' apply And.intro) <;> exact LibWrites.singleton_sub (by decide)
theorem hostOps0_6_fresh : (hostOps0_6 : List (HloOp τ sig (Elt F))).Forall fun op => op.fresh = ∅ := by
  simp only [List.Forall]; repeat' constructor

abbrev hostOps0_6_W : List (Ref sig .tc) := [main_v35, main_c_24, main_c_25]
theorem hostOps0_6_writes : (hostOps0_6 : List (HloOp τ sig (Elt F))).Forall fun op => op.writes ⊆ (hostOps0_6_W.map (Proc.devRef (τ := τ) .tc)).toFinset := by
  simp only [List.Forall]; (repeat' apply And.intro) <;> exact LibWrites.singleton_sub (by decide)
theorem hostOps0_7_fresh : (hostOps0_7 : List (HloOp τ sig (Elt F))).Forall fun op => op.fresh = ∅ := by
  simp only [List.Forall]; repeat' constructor

abbrev hostOps0_7_W : List (Ref sig .tc) := [main_call3_v0, main_call3_v1, main_call3_v2, main_call3_v3, main_call3_v4, main_v36]
theorem hostOps0_7_writes : (hostOps0_7 : List (HloOp τ sig (Elt F))).Forall fun op => op.writes ⊆ (hostOps0_7_W.map (Proc.devRef (τ := τ) .tc)).toFinset := by
  simp only [List.Forall]; (repeat' apply And.intro) <;> exact LibWrites.singleton_sub (by decide)
theorem hostOps0_8_fresh : (hostOps0_8 : List (HloOp τ sig (Elt F))).Forall fun op => op.fresh = ∅ := by
  simp only [List.Forall]; repeat' constructor

abbrev hostOps0_8_W : List (Ref sig .tc) := [main_v37, main_c_26, main_c_27]
theorem hostOps0_8_writes : (hostOps0_8 : List (HloOp τ sig (Elt F))).Forall fun op => op.writes ⊆ (hostOps0_8_W.map (Proc.devRef (τ := τ) .tc)).toFinset := by
  simp only [List.Forall]; (repeat' apply And.intro) <;> exact LibWrites.singleton_sub (by decide)
theorem hostOps0_9_fresh : (hostOps0_9 : List (HloOp τ sig (Elt F))).Forall fun op => op.fresh = ∅ := by
  simp only [List.Forall]; repeat' constructor

abbrev hostOps0_9_W : List (Ref sig .tc) := [main_call4_v0, main_call4_v1, main_call4_v2, main_call4_v3, main_call4_v4, main_v38]
theorem hostOps0_9_writes : (hostOps0_9 : List (HloOp τ sig (Elt F))).Forall fun op => op.writes ⊆ (hostOps0_9_W.map (Proc.devRef (τ := τ) .tc)).toFinset := by
  simp only [List.Forall]; (repeat' apply And.intro) <;> exact LibWrites.singleton_sub (by decide)
theorem hostOps0_10_fresh : (hostOps0_10 : List (HloOp τ sig (Elt F))).Forall fun op => op.fresh = ∅ := by
  simp only [List.Forall]; repeat' constructor

abbrev hostOps0_10_W : List (Ref sig .tc) := [main_v39, main_c_28, main_c_29]
theorem hostOps0_10_writes : (hostOps0_10 : List (HloOp τ sig (Elt F))).Forall fun op => op.writes ⊆ (hostOps0_10_W.map (Proc.devRef (τ := τ) .tc)).toFinset := by
  simp only [List.Forall]; (repeat' apply And.intro) <;> exact LibWrites.singleton_sub (by decide)
theorem hostOps0_11_fresh : (hostOps0_11 : List (HloOp τ sig (Elt F))).Forall fun op => op.fresh = ∅ := by
  simp only [List.Forall]; repeat' constructor

abbrev hostOps0_11_W : List (Ref sig .tc) := [main_call5_v0, main_call5_v1, main_call5_v2, main_call5_v3, main_call5_v4, main_v40]
theorem hostOps0_11_writes : (hostOps0_11 : List (HloOp τ sig (Elt F))).Forall fun op => op.writes ⊆ (hostOps0_11_W.map (Proc.devRef (τ := τ) .tc)).toFinset := by
  simp only [List.Forall]; (repeat' apply And.intro) <;> exact LibWrites.singleton_sub (by decide)
theorem hostOps0_12_fresh : (hostOps0_12 : List (HloOp τ sig (Elt F))).Forall fun op => op.fresh = ∅ := by
  simp only [List.Forall]; repeat' constructor

abbrev hostOps0_12_W : List (Ref sig .tc) := [main_v41, main_v42, main_c_30, main_c_31]
theorem hostOps0_12_writes : (hostOps0_12 : List (HloOp τ sig (Elt F))).Forall fun op => op.writes ⊆ (hostOps0_12_W.map (Proc.devRef (τ := τ) .tc)).toFinset := by
  simp only [List.Forall]; (repeat' apply And.intro) <;> exact LibWrites.singleton_sub (by decide)
theorem hostOps0_13_fresh : (hostOps0_13 : List (HloOp τ sig (Elt F))).Forall fun op => op.fresh = ∅ := by
  simp only [List.Forall]; repeat' constructor

abbrev hostOps0_13_W : List (Ref sig .tc) := [main_call6_v0, main_call6_v1, main_call6_v2, main_call6_v3, main_call6_v4, main_v43]
theorem hostOps0_13_writes : (hostOps0_13 : List (HloOp τ sig (Elt F))).Forall fun op => op.writes ⊆ (hostOps0_13_W.map (Proc.devRef (τ := τ) .tc)).toFinset := by
  simp only [List.Forall]; (repeat' apply And.intro) <;> exact LibWrites.singleton_sub (by decide)
theorem hostOps0_14_fresh : (hostOps0_14 : List (HloOp τ sig (Elt F))).Forall fun op => op.fresh = ∅ := by
  simp only [List.Forall]; repeat' constructor

abbrev hostOps0_14_W : List (Ref sig .tc) := [main_v44, main_v45, main_v46, main_c_32, main_c_33]
theorem hostOps0_14_writes : (hostOps0_14 : List (HloOp τ sig (Elt F))).Forall fun op => op.writes ⊆ (hostOps0_14_W.map (Proc.devRef (τ := τ) .tc)).toFinset := by
  simp only [List.Forall]; (repeat' apply And.intro) <;> exact LibWrites.singleton_sub (by decide)
theorem hostOps0_15_fresh : (hostOps0_15 : List (HloOp τ sig (Elt F))).Forall fun op => op.fresh = ∅ := by
  simp only [List.Forall]; repeat' constructor

abbrev hostOps0_15_W : List (Ref sig .tc) := [main_call7_v0, main_call7_v1, main_call7_v2, main_call7_v3, main_call7_v4, main_v47]
theorem hostOps0_15_writes : (hostOps0_15 : List (HloOp τ sig (Elt F))).Forall fun op => op.writes ⊆ (hostOps0_15_W.map (Proc.devRef (τ := τ) .tc)).toFinset := by
  simp only [List.Forall]; (repeat' apply And.intro) <;> exact LibWrites.singleton_sub (by decide)
theorem hostOps0_16_fresh : (hostOps0_16 : List (HloOp τ sig (Elt F))).Forall fun op => op.fresh = ∅ := by
  simp only [List.Forall]; repeat' constructor

abbrev hostOps0_16_W : List (Ref sig .tc) := [main_v48, main_v49, main_v50, main_c_34, main_c_35]
theorem hostOps0_16_writes : (hostOps0_16 : List (HloOp τ sig (Elt F))).Forall fun op => op.writes ⊆ (hostOps0_16_W.map (Proc.devRef (τ := τ) .tc)).toFinset := by
  simp only [List.Forall]; (repeat' apply And.intro) <;> exact LibWrites.singleton_sub (by decide)
theorem hostOps0_17_fresh : (hostOps0_17 : List (HloOp τ sig (Elt F))).Forall fun op => op.fresh = ∅ := by
  simp only [List.Forall]; repeat' constructor

abbrev hostOps0_17_W : List (Ref sig .tc) := [main_call8_v0, main_call8_v1, main_call8_v2, main_call8_v3, main_call8_v4, main_v51]
theorem hostOps0_17_writes : (hostOps0_17 : List (HloOp τ sig (Elt F))).Forall fun op => op.writes ⊆ (hostOps0_17_W.map (Proc.devRef (τ := τ) .tc)).toFinset := by
  simp only [List.Forall]; (repeat' apply And.intro) <;> exact LibWrites.singleton_sub (by decide)
theorem hostOps0_18_fresh : (hostOps0_18 : List (HloOp τ sig (Elt F))).Forall fun op => op.fresh = ∅ := by
  simp only [List.Forall]; repeat' constructor

abbrev hostOps0_18_W : List (Ref sig .tc) := [main_v52, main_v53, main_v54, main_c_36, main_c_37]
theorem hostOps0_18_writes : (hostOps0_18 : List (HloOp τ sig (Elt F))).Forall fun op => op.writes ⊆ (hostOps0_18_W.map (Proc.devRef (τ := τ) .tc)).toFinset := by
  simp only [List.Forall]; (repeat' apply And.intro) <;> exact LibWrites.singleton_sub (by decide)
theorem hostOps0_19_fresh : (hostOps0_19 : List (HloOp τ sig (Elt F))).Forall fun op => op.fresh = ∅ := by
  simp only [List.Forall]; repeat' constructor

abbrev hostOps0_19_W : List (Ref sig .tc) := [main_call9_v0, main_call9_v1, main_call9_v2, main_call9_v3, main_call9_v4, main_v55]
theorem hostOps0_19_writes : (hostOps0_19 : List (HloOp τ sig (Elt F))).Forall fun op => op.writes ⊆ (hostOps0_19_W.map (Proc.devRef (τ := τ) .tc)).toFinset := by
  simp only [List.Forall]; (repeat' apply And.intro) <;> exact LibWrites.singleton_sub (by decide)
theorem hostOps0_20_fresh : (hostOps0_20 : List (HloOp τ sig (Elt F))).Forall fun op => op.fresh = ∅ := by
  simp only [List.Forall]; repeat' constructor

abbrev hostOps0_20_W : List (Ref sig .tc) := [main_v56, main_c_38, main_c_39]
theorem hostOps0_20_writes : (hostOps0_20 : List (HloOp τ sig (Elt F))).Forall fun op => op.writes ⊆ (hostOps0_20_W.map (Proc.devRef (τ := τ) .tc)).toFinset := by
  simp only [List.Forall]; (repeat' apply And.intro) <;> exact LibWrites.singleton_sub (by decide)
theorem hostOps0_21_fresh : (hostOps0_21 : List (HloOp τ sig (Elt F))).Forall fun op => op.fresh = ∅ := by
  simp only [List.Forall]; repeat' constructor

abbrev hostOps0_21_W : List (Ref sig .tc) := [main_call10_v0, main_call10_v1, main_call10_v2, main_call10_v3, main_call10_v4, main_v57]
theorem hostOps0_21_writes : (hostOps0_21 : List (HloOp τ sig (Elt F))).Forall fun op => op.writes ⊆ (hostOps0_21_W.map (Proc.devRef (τ := τ) .tc)).toFinset := by
  simp only [List.Forall]; (repeat' apply And.intro) <;> exact LibWrites.singleton_sub (by decide)
theorem hostOps0_22_fresh : (hostOps0_22 : List (HloOp τ sig (Elt F))).Forall fun op => op.fresh = ∅ := by
  simp only [List.Forall]; repeat' constructor

abbrev hostOps0_22_W : List (Ref sig .tc) := [main_c_40]
theorem hostOps0_22_writes : (hostOps0_22 : List (HloOp τ sig (Elt F))).Forall fun op => op.writes ⊆ (hostOps0_22_W.map (Proc.devRef (τ := τ) .tc)).toFinset := by
  simp only [List.Forall]; (repeat' apply And.intro) <;> exact LibWrites.singleton_sub (by decide)
theorem hostOps0_23_fresh : (hostOps0_23 : List (HloOp τ sig (Elt F))).Forall fun op => op.fresh = ∅ := by
  simp only [List.Forall]; repeat' constructor

abbrev hostOps0_23_W : List (Ref sig .tc) := [main_call11_v0, main_v58]
theorem hostOps0_23_writes : (hostOps0_23 : List (HloOp τ sig (Elt F))).Forall fun op => op.writes ⊆ (hostOps0_23_W.map (Proc.devRef (τ := τ) .tc)).toFinset := by
  simp only [List.Forall]; (repeat' apply And.intro) <;> exact LibWrites.singleton_sub (by decide)
theorem hostOps0_24_fresh : (hostOps0_24 : List (HloOp τ sig (Elt F))).Forall fun op => op.fresh = ∅ := by
  simp only [List.Forall]; repeat' constructor

abbrev hostOps0_24_W : List (Ref sig .tc) := [main_v59, main_c_41]
theorem hostOps0_24_writes : (hostOps0_24 : List (HloOp τ sig (Elt F))).Forall fun op => op.writes ⊆ (hostOps0_24_W.map (Proc.devRef (τ := τ) .tc)).toFinset := by
  simp only [List.Forall]; (repeat' apply And.intro) <;> exact LibWrites.singleton_sub (by decide)
theorem hostOps0_25_fresh : (hostOps0_25 : List (HloOp τ sig (Elt F))).Forall fun op => op.fresh = ∅ := by
  simp only [List.Forall]; repeat' constructor

abbrev hostOps0_25_W : List (Ref sig .tc) := [main_call12_v0, main_v60]
theorem hostOps0_25_writes : (hostOps0_25 : List (HloOp τ sig (Elt F))).Forall fun op => op.writes ⊆ (hostOps0_25_W.map (Proc.devRef (τ := τ) .tc)).toFinset := by
  simp only [List.Forall]; (repeat' apply And.intro) <;> exact LibWrites.singleton_sub (by decide)
theorem hostOps0_26_fresh : (hostOps0_26 : List (HloOp τ sig (Elt F))).Forall fun op => op.fresh = ∅ := by
  simp only [List.Forall]; repeat' constructor

abbrev hostOps0_26_W : List (Ref sig .tc) := [main_v61, main_c_42, main_v62, main_v63, main_v64]
theorem hostOps0_26_writes : (hostOps0_26 : List (HloOp τ sig (Elt F))).Forall fun op => op.writes ⊆ (hostOps0_26_W.map (Proc.devRef (τ := τ) .tc)).toFinset := by
  simp only [List.Forall]; (repeat' apply And.intro) <;> exact LibWrites.singleton_sub (by decide)
theorem hostOps1_fresh : (hostOps1 : List (HloOp τ sig (Elt F))).Forall fun op => op.fresh = ∅ := by
  simp only [List.Forall]; repeat' constructor

abbrev hostOps1_W : List (Ref sig .tc) := [main_cst_43, main_v66, main_v67, main_c_44, main_c_45]
theorem hostOps1_writes : (hostOps1 : List (HloOp τ sig (Elt F))).Forall fun op => op.writes ⊆ (hostOps1_W.map (Proc.devRef (τ := τ) .tc)).toFinset := by
  simp only [List.Forall]; (repeat' apply And.intro) <;> exact LibWrites.singleton_sub (by decide)
theorem hostOps1_1_fresh : (hostOps1_1 : List (HloOp τ sig (Elt F))).Forall fun op => op.fresh = ∅ := by
  simp only [List.Forall]; repeat' constructor

abbrev hostOps1_1_W : List (Ref sig .tc) := [main_call13_v0, main_call13_v1, main_call13_v2, main_call13_v3, main_call13_v4, main_v68]
theorem hostOps1_1_writes : (hostOps1_1 : List (HloOp τ sig (Elt F))).Forall fun op => op.writes ⊆ (hostOps1_1_W.map (Proc.devRef (τ := τ) .tc)).toFinset := by
  simp only [List.Forall]; (repeat' apply And.intro) <;> exact LibWrites.singleton_sub (by decide)
theorem hostOps1_2_fresh : (hostOps1_2 : List (HloOp τ sig (Elt F))).Forall fun op => op.fresh = ∅ := by
  simp only [List.Forall]; repeat' constructor

abbrev hostOps1_2_W : List (Ref sig .tc) := [main_c_46]
theorem hostOps1_2_writes : (hostOps1_2 : List (HloOp τ sig (Elt F))).Forall fun op => op.writes ⊆ (hostOps1_2_W.map (Proc.devRef (τ := τ) .tc)).toFinset := by
  simp only [List.Forall]; (repeat' apply And.intro) <;> exact LibWrites.singleton_sub (by decide)
theorem hostOps1_3_fresh : (hostOps1_3 : List (HloOp τ sig (Elt F))).Forall fun op => op.fresh = ∅ := by
  simp only [List.Forall]; repeat' constructor

abbrev hostOps1_3_W : List (Ref sig .tc) := [main_call14_v0, main_v69]
theorem hostOps1_3_writes : (hostOps1_3 : List (HloOp τ sig (Elt F))).Forall fun op => op.writes ⊆ (hostOps1_3_W.map (Proc.devRef (τ := τ) .tc)).toFinset := by
  simp only [List.Forall]; (repeat' apply And.intro) <;> exact LibWrites.singleton_sub (by decide)
theorem hostOps1_4_fresh : (hostOps1_4 : List (HloOp τ sig (Elt F))).Forall fun op => op.fresh = ∅ := by
  simp only [List.Forall]; repeat' constructor

abbrev hostOps1_4_W : List (Ref sig .tc) := [main_v70, main_c_47]
theorem hostOps1_4_writes : (hostOps1_4 : List (HloOp τ sig (Elt F))).Forall fun op => op.writes ⊆ (hostOps1_4_W.map (Proc.devRef (τ := τ) .tc)).toFinset := by
  simp only [List.Forall]; (repeat' apply And.intro) <;> exact LibWrites.singleton_sub (by decide)
theorem hostOps1_5_fresh : (hostOps1_5 : List (HloOp τ sig (Elt F))).Forall fun op => op.fresh = ∅ := by
  simp only [List.Forall]; repeat' constructor

abbrev hostOps1_5_W : List (Ref sig .tc) := [main_call15_v0, main_v71]
theorem hostOps1_5_writes : (hostOps1_5 : List (HloOp τ sig (Elt F))).Forall fun op => op.writes ⊆ (hostOps1_5_W.map (Proc.devRef (τ := τ) .tc)).toFinset := by
  simp only [List.Forall]; (repeat' apply And.intro) <;> exact LibWrites.singleton_sub (by decide)
theorem hostOps1_6_fresh : (hostOps1_6 : List (HloOp τ sig (Elt F))).Forall fun op => op.fresh = ∅ := by
  simp only [List.Forall]; repeat' constructor

abbrev hostOps1_6_W : List (Ref sig .tc) := [main_v72, main_c_48, main_v73, main_v74, main_v75]
theorem hostOps1_6_writes : (hostOps1_6 : List (HloOp τ sig (Elt F))).Forall fun op => op.writes ⊆ (hostOps1_6_W.map (Proc.devRef (τ := τ) .tc)).toFinset := by
  simp only [List.Forall]; (repeat' apply And.intro) <;> exact LibWrites.singleton_sub (by decide)
theorem hostOps2_fresh : (hostOps2 : List (HloOp τ sig (Elt F))).Forall fun op => op.fresh = ∅ := by
  simp only [List.Forall]; repeat' constructor

abbrev hostOps2_W : List (Ref sig .tc) := [main_cst_49, main_v77, main_v78, main_c_50, main_c_51]
theorem hostOps2_writes : (hostOps2 : List (HloOp τ sig (Elt F))).Forall fun op => op.writes ⊆ (hostOps2_W.map (Proc.devRef (τ := τ) .tc)).toFinset := by
  simp only [List.Forall]; (repeat' apply And.intro) <;> exact LibWrites.singleton_sub (by decide)
theorem hostOps2_1_fresh : (hostOps2_1 : List (HloOp τ sig (Elt F))).Forall fun op => op.fresh = ∅ := by
  simp only [List.Forall]; repeat' constructor

abbrev hostOps2_1_W : List (Ref sig .tc) := [main_call16_v0, main_call16_v1, main_call16_v2, main_call16_v3, main_call16_v4, main_v79]
theorem hostOps2_1_writes : (hostOps2_1 : List (HloOp τ sig (Elt F))).Forall fun op => op.writes ⊆ (hostOps2_1_W.map (Proc.devRef (τ := τ) .tc)).toFinset := by
  simp only [List.Forall]; (repeat' apply And.intro) <;> exact LibWrites.singleton_sub (by decide)
theorem hostOps2_2_fresh : (hostOps2_2 : List (HloOp τ sig (Elt F))).Forall fun op => op.fresh = ∅ := by
  simp only [List.Forall]; repeat' constructor

abbrev hostOps2_2_W : List (Ref sig .tc) := [main_c_52]
theorem hostOps2_2_writes : (hostOps2_2 : List (HloOp τ sig (Elt F))).Forall fun op => op.writes ⊆ (hostOps2_2_W.map (Proc.devRef (τ := τ) .tc)).toFinset := by
  simp only [List.Forall]; (repeat' apply And.intro) <;> exact LibWrites.singleton_sub (by decide)
theorem hostOps2_3_fresh : (hostOps2_3 : List (HloOp τ sig (Elt F))).Forall fun op => op.fresh = ∅ := by
  simp only [List.Forall]; repeat' constructor

abbrev hostOps2_3_W : List (Ref sig .tc) := [main_call17_v0, main_v80]
theorem hostOps2_3_writes : (hostOps2_3 : List (HloOp τ sig (Elt F))).Forall fun op => op.writes ⊆ (hostOps2_3_W.map (Proc.devRef (τ := τ) .tc)).toFinset := by
  simp only [List.Forall]; (repeat' apply And.intro) <;> exact LibWrites.singleton_sub (by decide)
theorem hostOps2_4_fresh : (hostOps2_4 : List (HloOp τ sig (Elt F))).Forall fun op => op.fresh = ∅ := by
  simp only [List.Forall]; repeat' constructor

abbrev hostOps2_4_W : List (Ref sig .tc) := [main_v81, main_v82, main_c_53, main_v83, main_v84, main_v85]
theorem hostOps2_4_writes : (hostOps2_4 : List (HloOp τ sig (Elt F))).Forall fun op => op.writes ⊆ (hostOps2_4_W.map (Proc.devRef (τ := τ) .tc)).toFinset := by
  simp only [List.Forall]; (repeat' apply And.intro) <;> exact LibWrites.singleton_sub (by decide)
theorem hostOps3_fresh : (hostOps3 : List (HloOp τ sig (Elt F))).Forall fun op => op.fresh = ∅ := by
  simp only [List.Forall]; repeat' constructor

abbrev hostOps3_W : List (Ref sig .tc) := [main_cst_54, main_v87, main_v88, main_c_55, main_c_56]
theorem hostOps3_writes : (hostOps3 : List (HloOp τ sig (Elt F))).Forall fun op => op.writes ⊆ (hostOps3_W.map (Proc.devRef (τ := τ) .tc)).toFinset := by
  simp only [List.Forall]; (repeat' apply And.intro) <;> exact LibWrites.singleton_sub (by decide)
theorem hostOps3_1_fresh : (hostOps3_1 : List (HloOp τ sig (Elt F))).Forall fun op => op.fresh = ∅ := by
  simp only [List.Forall]; repeat' constructor

abbrev hostOps3_1_W : List (Ref sig .tc) := [main_call18_v0, main_call18_v1, main_call18_v2, main_call18_v3, main_call18_v4, main_v89]
theorem hostOps3_1_writes : (hostOps3_1 : List (HloOp τ sig (Elt F))).Forall fun op => op.writes ⊆ (hostOps3_1_W.map (Proc.devRef (τ := τ) .tc)).toFinset := by
  simp only [List.Forall]; (repeat' apply And.intro) <;> exact LibWrites.singleton_sub (by decide)
theorem hostOps3_2_fresh : (hostOps3_2 : List (HloOp τ sig (Elt F))).Forall fun op => op.fresh = ∅ := by
  simp only [List.Forall]; repeat' constructor

abbrev hostOps3_2_W : List (Ref sig .tc) := [main_c_57]
theorem hostOps3_2_writes : (hostOps3_2 : List (HloOp τ sig (Elt F))).Forall fun op => op.writes ⊆ (hostOps3_2_W.map (Proc.devRef (τ := τ) .tc)).toFinset := by
  simp only [List.Forall]; (repeat' apply And.intro) <;> exact LibWrites.singleton_sub (by decide)
theorem hostOps3_3_fresh : (hostOps3_3 : List (HloOp τ sig (Elt F))).Forall fun op => op.fresh = ∅ := by
  simp only [List.Forall]; repeat' constructor

abbrev hostOps3_3_W : List (Ref sig .tc) := [main_call19_v0, main_v90]
theorem hostOps3_3_writes : (hostOps3_3 : List (HloOp τ sig (Elt F))).Forall fun op => op.writes ⊆ (hostOps3_3_W.map (Proc.devRef (τ := τ) .tc)).toFinset := by
  simp only [List.Forall]; (repeat' apply And.intro) <;> exact LibWrites.singleton_sub (by decide)
theorem hostOps3_4_fresh : (hostOps3_4 : List (HloOp τ sig (Elt F))).Forall fun op => op.fresh = ∅ := by
  simp only [List.Forall]; repeat' constructor

abbrev hostOps3_4_W : List (Ref sig .tc) := [main_v91, main_v92, main_c_58, main_v93, main_v94, main_v95]
theorem hostOps3_4_writes : (hostOps3_4 : List (HloOp τ sig (Elt F))).Forall fun op => op.writes ⊆ (hostOps3_4_W.map (Proc.devRef (τ := τ) .tc)).toFinset := by
  simp only [List.Forall]; (repeat' apply And.intro) <;> exact LibWrites.singleton_sub (by decide)
theorem hostOps4_fresh : (hostOps4 : List (HloOp τ sig (Elt F))).Forall fun op => op.fresh = ∅ := by
  simp only [List.Forall]; repeat' constructor

abbrev hostOps4_W : List (Ref sig .tc) := [main_cst_59, main_v97, main_v98, main_c_60, main_c_61]
theorem hostOps4_writes : (hostOps4 : List (HloOp τ sig (Elt F))).Forall fun op => op.writes ⊆ (hostOps4_W.map (Proc.devRef (τ := τ) .tc)).toFinset := by
  simp only [List.Forall]; (repeat' apply And.intro) <;> exact LibWrites.singleton_sub (by decide)
theorem hostOps4_1_fresh : (hostOps4_1 : List (HloOp τ sig (Elt F))).Forall fun op => op.fresh = ∅ := by
  simp only [List.Forall]; repeat' constructor

abbrev hostOps4_1_W : List (Ref sig .tc) := [main_call20_v0, main_call20_v1, main_call20_v2, main_call20_v3, main_call20_v4, main_v99]
theorem hostOps4_1_writes : (hostOps4_1 : List (HloOp τ sig (Elt F))).Forall fun op => op.writes ⊆ (hostOps4_1_W.map (Proc.devRef (τ := τ) .tc)).toFinset := by
  simp only [List.Forall]; (repeat' apply And.intro) <;> exact LibWrites.singleton_sub (by decide)
theorem hostOps4_2_fresh : (hostOps4_2 : List (HloOp τ sig (Elt F))).Forall fun op => op.fresh = ∅ := by
  simp only [List.Forall]; repeat' constructor

abbrev hostOps4_2_W : List (Ref sig .tc) := [main_c_62, main_v100, main_v101, main_c_63, main_v102, main_v103, main_v104, main_v105, main_v106, main_cst_64, main_v107, main_v108, main_cst_65, main_v109, main_v110, main_c_66, main_c_67]
theorem hostOps4_2_writes : (hostOps4_2 : List (HloOp τ sig (Elt F))).Forall fun op => op.writes ⊆ (hostOps4_2_W.map (Proc.devRef (τ := τ) .tc)).toFinset := by
  simp only [List.Forall]; (repeat' apply And.intro) <;> exact LibWrites.singleton_sub (by decide)
theorem hostOps4_3_fresh : (hostOps4_3 : List (HloOp τ sig (Elt F))).Forall fun op => op.fresh = ∅ := by
  simp only [List.Forall]; repeat' constructor

abbrev hostOps4_3_W : List (Ref sig .tc) := [main_call21_v0, main_call21_v1, main_call21_v2, main_call21_v3, main_call21_v4, main_v111]
theorem hostOps4_3_writes : (hostOps4_3 : List (HloOp τ sig (Elt F))).Forall fun op => op.writes ⊆ (hostOps4_3_W.map (Proc.devRef (τ := τ) .tc)).toFinset := by
  simp only [List.Forall]; (repeat' apply And.intro) <;> exact LibWrites.singleton_sub (by decide)
theorem hostOps4_4_fresh : (hostOps4_4 : List (HloOp τ sig (Elt F))).Forall fun op => op.fresh = ∅ := by
  simp only [List.Forall]; repeat' constructor

abbrev hostOps4_4_W : List (Ref sig .tc) := [main_c_68, main_v112, main_v113, main_c_69, main_v114, main_v115, main_v116, main_v117, main_v118, main_cst_70, main_v119, main_v120, main_cst_71, main_v121, main_v122, main_c_72, main_c_73]
theorem hostOps4_4_writes : (hostOps4_4 : List (HloOp τ sig (Elt F))).Forall fun op => op.writes ⊆ (hostOps4_4_W.map (Proc.devRef (τ := τ) .tc)).toFinset := by
  simp only [List.Forall]; (repeat' apply And.intro) <;> exact LibWrites.singleton_sub (by decide)
theorem hostOps4_5_fresh : (hostOps4_5 : List (HloOp τ sig (Elt F))).Forall fun op => op.fresh = ∅ := by
  simp only [List.Forall]; repeat' constructor

abbrev hostOps4_5_W : List (Ref sig .tc) := [main_call22_v0, main_call22_v1, main_call22_v2, main_call22_v3, main_call22_v4, main_v123]
theorem hostOps4_5_writes : (hostOps4_5 : List (HloOp τ sig (Elt F))).Forall fun op => op.writes ⊆ (hostOps4_5_W.map (Proc.devRef (τ := τ) .tc)).toFinset := by
  simp only [List.Forall]; (repeat' apply And.intro) <;> exact LibWrites.singleton_sub (by decide)
theorem hostOps4_6_fresh : (hostOps4_6 : List (HloOp τ sig (Elt F))).Forall fun op => op.fresh = ∅ := by
  simp only [List.Forall]; repeat' constructor

abbrev hostOps4_6_W : List (Ref sig .tc) := [main_c_74, main_v124, main_v125, main_c_75, main_v126, main_v127, main_v128, main_v129, main_v130, main_cst_76, main_v131, main_v132, main_cst_77, main_v133, main_v134, main_c_78, main_c_79]
theorem hostOps4_6_writes : (hostOps4_6 : List (HloOp τ sig (Elt F))).Forall fun op => op.writes ⊆ (hostOps4_6_W.map (Proc.devRef (τ := τ) .tc)).toFinset := by
  simp only [List.Forall]; (repeat' apply And.intro) <;> exact LibWrites.singleton_sub (by decide)
theorem hostOps4_7_fresh : (hostOps4_7 : List (HloOp τ sig (Elt F))).Forall fun op => op.fresh = ∅ := by
  simp only [List.Forall]; repeat' constructor

abbrev hostOps4_7_W : List (Ref sig .tc) := [main_call23_v0, main_call23_v1, main_call23_v2, main_call23_v3, main_call23_v4, main_v135]
theorem hostOps4_7_writes : (hostOps4_7 : List (HloOp τ sig (Elt F))).Forall fun op => op.writes ⊆ (hostOps4_7_W.map (Proc.devRef (τ := τ) .tc)).toFinset := by
  simp only [List.Forall]; (repeat' apply And.intro) <;> exact LibWrites.singleton_sub (by decide)
theorem hostOps4_8_fresh : (hostOps4_8 : List (HloOp τ sig (Elt F))).Forall fun op => op.fresh = ∅ := by
  simp only [List.Forall]; repeat' constructor

abbrev hostOps4_8_W : List (Ref sig .tc) := [main_c_80, main_v136, main_v137, main_c_81, main_v138, main_v139, main_v140, main_v141, main_v142, main_cst_82, main_v143, main_v144, main_cst_83, main_v145, main_v146, main_c_84, main_c_85]
theorem hostOps4_8_writes : (hostOps4_8 : List (HloOp τ sig (Elt F))).Forall fun op => op.writes ⊆ (hostOps4_8_W.map (Proc.devRef (τ := τ) .tc)).toFinset := by
  simp only [List.Forall]; (repeat' apply And.intro) <;> exact LibWrites.singleton_sub (by decide)
theorem hostOps4_9_fresh : (hostOps4_9 : List (HloOp τ sig (Elt F))).Forall fun op => op.fresh = ∅ := by
  simp only [List.Forall]; repeat' constructor

abbrev hostOps4_9_W : List (Ref sig .tc) := [main_call24_v0, main_call24_v1, main_call24_v2, main_call24_v3, main_call24_v4, main_v147]
theorem hostOps4_9_writes : (hostOps4_9 : List (HloOp τ sig (Elt F))).Forall fun op => op.writes ⊆ (hostOps4_9_W.map (Proc.devRef (τ := τ) .tc)).toFinset := by
  simp only [List.Forall]; (repeat' apply And.intro) <;> exact LibWrites.singleton_sub (by decide)
theorem hostOps4_10_fresh : (hostOps4_10 : List (HloOp τ sig (Elt F))).Forall fun op => op.fresh = ∅ := by
  simp only [List.Forall]; repeat' constructor

abbrev hostOps4_10_W : List (Ref sig .tc) := [main_c_86, main_v148, main_v149, main_c_87, main_v150, main_v151, main_v152, main_v153, main_v154, main_cst_88, main_v155, main_v156, main_cst_89, main_v157, main_v158, main_c_90, main_c_91]
theorem hostOps4_10_writes : (hostOps4_10 : List (HloOp τ sig (Elt F))).Forall fun op => op.writes ⊆ (hostOps4_10_W.map (Proc.devRef (τ := τ) .tc)).toFinset := by
  simp only [List.Forall]; (repeat' apply And.intro) <;> exact LibWrites.singleton_sub (by decide)
theorem hostOps4_11_fresh : (hostOps4_11 : List (HloOp τ sig (Elt F))).Forall fun op => op.fresh = ∅ := by
  simp only [List.Forall]; repeat' constructor

abbrev hostOps4_11_W : List (Ref sig .tc) := [main_call25_v0, main_call25_v1, main_call25_v2, main_call25_v3, main_call25_v4, main_v159]
theorem hostOps4_11_writes : (hostOps4_11 : List (HloOp τ sig (Elt F))).Forall fun op => op.writes ⊆ (hostOps4_11_W.map (Proc.devRef (τ := τ) .tc)).toFinset := by
  simp only [List.Forall]; (repeat' apply And.intro) <;> exact LibWrites.singleton_sub (by decide)
theorem hostOps4_12_fresh : (hostOps4_12 : List (HloOp τ sig (Elt F))).Forall fun op => op.fresh = ∅ := by
  simp only [List.Forall]; repeat' constructor

abbrev hostOps4_12_W : List (Ref sig .tc) := [main_c_92, main_v160, main_v161, main_c_93, main_v162, main_v163, main_v164, main_v165, main_v166, main_cst_94, main_v167, main_v168, main_cst_95, main_v169, main_v170, main_v171, main_v172, main_v173, main_v174, main_v175, main_v176]
theorem hostOps4_12_writes : (hostOps4_12 : List (HloOp τ sig (Elt F))).Forall fun op => op.writes ⊆ (hostOps4_12_W.map (Proc.devRef (τ := τ) .tc)).toFinset := by
  simp only [List.Forall]; (repeat' apply And.intro) <;> exact LibWrites.singleton_sub (by decide)
theorem hostOps5_fresh : (hostOps5 : List (HloOp τ sig (Elt F))).Forall fun op => op.fresh = ∅ := by
  simp only [List.Forall]; repeat' constructor

abbrev hostOps5_W : List (Ref sig .tc) := [main_v178, main_v179]
theorem hostOps5_writes : (hostOps5 : List (HloOp τ sig (Elt F))).Forall fun op => op.writes ⊆ (hostOps5_W.map (Proc.devRef (τ := τ) .tc)).toFinset := by
  simp only [List.Forall]; (repeat' apply And.intro) <;> exact LibWrites.singleton_sub (by decide)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (c : Dev nD) (r : Ref sig .tc) (h : r ∉ hostOps0_2_W) : V3 m c r = V2 m c r :=
  StableHlo.after_of_writes_sub hostOps0_2 _ hostOps0_2_writes h
theorem V4_of (c : Dev nD) (r : Ref sig .tc) (h : r ∉ hostOps0_3_W) : V4 m c r = V3 m c r :=
  StableHlo.after_of_writes_sub hostOps0_3 _ hostOps0_3_writes h
theorem V5_of (c : Dev nD) (r : Ref sig .tc) (h : r ∉ hostOps0_4_W) : V5 m c r = V4 m c r :=
  StableHlo.after_of_writes_sub hostOps0_4 _ hostOps0_4_writes h
theorem V6_of (c : Dev nD) (r : Ref sig .tc) (h : r ∉ hostOps0_5_W) : V6 m c r = V5 m c r :=
  StableHlo.after_of_writes_sub hostOps0_5 _ hostOps0_5_writes h
theorem V7_of (c : Dev nD) (r : Ref sig .tc) (h : r ∉ hostOps0_6_W) : V7 m c r = V6 m c r :=
  StableHlo.after_of_writes_sub hostOps0_6 _ hostOps0_6_writes h
theorem V8_of (c : Dev nD) (r : Ref sig .tc) (h : r ∉ hostOps0_7_W) : V8 m c r = V7 m c r :=
  StableHlo.after_of_writes_sub hostOps0_7 _ hostOps0_7_writes h
theorem V9_of (c : Dev nD) (r : Ref sig .tc) (h : r ∉ hostOps0_8_W) : V9 m c r = V8 m c r :=
  StableHlo.after_of_writes_sub hostOps0_8 _ hostOps0_8_writes h
theorem V10_of (c : Dev nD) (r : Ref sig .tc) (h : r ∉ hostOps0_9_W) : V10 m c r = V9 m c r :=
  StableHlo.after_of_writes_sub hostOps0_9 _ hostOps0_9_writes h
theorem V11_of (c : Dev nD) (r : Ref sig .tc) (h : r ∉ hostOps0_10_W) : V11 m c r = V10 m c r :=
  StableHlo.after_of_writes_sub hostOps0_10 _ hostOps0_10_writes h
theorem V12_of (c : Dev nD) (r : Ref sig .tc) (h : r ∉ hostOps0_11_W) : V12 m c r = V11 m c r :=
  StableHlo.after_of_writes_sub hostOps0_11 _ hostOps0_11_writes h
theorem V13_of (c : Dev nD) (r : Ref sig .tc) (h : r ∉ hostOps0_12_W) : V13 m c r = V12 m c r :=
  StableHlo.after_of_writes_sub hostOps0_12 _ hostOps0_12_writes h
theorem V14_of (c : Dev nD) (r : Ref sig .tc) (h : r ∉ hostOps0_13_W) : V14 m c r = V13 m c r :=
  StableHlo.after_of_writes_sub hostOps0_13 _ hostOps0_13_writes h
theorem V15_of (c : Dev nD) (r : Ref sig .tc) (h : r ∉ hostOps0_14_W) : V15 m c r = V14 m c r :=
  StableHlo.after_of_writes_sub hostOps0_14 _ hostOps0_14_writes h
theorem V16_of (c : Dev nD) (r : Ref sig .tc) (h : r ∉ hostOps0_15_W) : V16 m c r = V15 m c r :=
  StableHlo.after_of_writes_sub hostOps0_15 _ hostOps0_15_writes h
theorem V17_of (c : Dev nD) (r : Ref sig .tc) (h : r ∉ hostOps0_16_W) : V17 m c r = V16 m c r :=
  StableHlo.after_of_writes_sub hostOps0_16 _ hostOps0_16_writes h
theorem V18_of (c : Dev nD) (r : Ref sig .tc) (h : r ∉ hostOps0_17_W) : V18 m c r = V17 m c r :=
  StableHlo.after_of_writes_sub hostOps0_17 _ hostOps0_17_writes h
theorem V19_of (c : Dev nD) (r : Ref sig .tc) (h : r ∉ hostOps0_18_W) : V19 m c r = V18 m c r :=
  StableHlo.after_of_writes_sub hostOps0_18 _ hostOps0_18_writes h
theorem V20_of (c : Dev nD) (r : Ref sig .tc) (h : r ∉ hostOps0_19_W) : V20 m c r = V19 m c r :=
  StableHlo.after_of_writes_sub hostOps0_19 _ hostOps0_19_writes h
theorem V21_of (c : Dev nD) (r : Ref sig .tc) (h : r ∉ hostOps0_20_W) : V21 m c r = V20 m c r :=
  StableHlo.after_of_writes_sub hostOps0_20 _ hostOps0_20_writes h
theorem V22_of (c : Dev nD) (r : Ref sig .tc) (h : r ∉ hostOps0_21_W) : V22 m c r = V21 m c r :=
  StableHlo.after_of_writes_sub hostOps0_21 _ hostOps0_21_writes h
theorem V23_of (c : Dev nD) (r : Ref sig .tc) (h : r ∉ hostOps0_22_W) : V23 m c r = V22 m c r :=
  StableHlo.after_of_writes_sub hostOps0_22 _ hostOps0_22_writes h
theorem V24_of (c : Dev nD) (r : Ref sig .tc) (h : r ∉ hostOps0_23_W) : V24 m c r = V23 m c r :=
  StableHlo.after_of_writes_sub hostOps0_23 _ hostOps0_23_writes h
theorem V25_of (c : Dev nD) (r : Ref sig .tc) (h : r ∉ hostOps0_24_W) : V25 m c r = V24 m c r :=
  StableHlo.after_of_writes_sub hostOps0_24 _ hostOps0_24_writes h
theorem V26_of (c : Dev nD) (r : Ref sig .tc) (h : r ∉ hostOps0_25_W) : V26 m c r = V25 m c r :=
  StableHlo.after_of_writes_sub hostOps0_25 _ hostOps0_25_writes h
theorem V27_of (c : Dev nD) (r : Ref sig .tc) (h : r ∉ hostOps0_26_W) : V27 m c r = V26 m c r :=
  StableHlo.after_of_writes_sub hostOps0_26 _ hostOps0_26_writes h
theorem V28_of (c : Dev nD) (r : Ref sig .tc) (h : r ∉ ([main_v65] : List (Ref sig .tc))) : V28 m outs c r = V27 m c r := by
  simp only [V28, Function.update_of_ne (StableHlo.devRef_ne_of_ne (List.ne_of_not_mem_cons h) : (Proc.devRef .tc r : DevRef τ sig) ≠ Proc.devRef .tc main_v65)]
theorem V29_of (c : Dev nD) (r : Ref sig .tc) (h : r ∉ hostOps1_W) : V29 m outs c r = V28 m outs c r :=
  StableHlo.after_of_writes_sub hostOps1 _ hostOps1_writes h
theorem V30_of (c : Dev nD) (r : Ref sig .tc) (h : r ∉ hostOps1_1_W) : V30 m outs c r = V29 m outs c r :=
  StableHlo.after_of_writes_sub hostOps1_1 _ hostOps1_1_writes h
theorem V31_of (c : Dev nD) (r : Ref sig .tc) (h : r ∉ hostOps1_2_W) : V31 m outs c r = V30 m outs c r :=
  StableHlo.after_of_writes_sub hostOps1_2 _ hostOps1_2_writes h
theorem V32_of (c : Dev nD) (r : Ref sig .tc) (h : r ∉ hostOps1_3_W) : V32 m outs c r = V31 m outs c r :=
  StableHlo.after_of_writes_sub hostOps1_3 _ hostOps1_3_writes h
theorem V33_of (c : Dev nD) (r : Ref sig .tc) (h : r ∉ hostOps1_4_W) : V33 m outs c r = V32 m outs c r :=
  StableHlo.after_of_writes_sub hostOps1_4 _ hostOps1_4_writes h
theorem V34_of (c : Dev nD) (r : Ref sig .tc) (h : r ∉ hostOps1_5_W) : V34 m outs c r = V33 m outs c r :=
  StableHlo.after_of_writes_sub hostOps1_5 _ hostOps1_5_writes h
theorem V35_of (c : Dev nD) (r : Ref sig .tc) (h : r ∉ hostOps1_6_W) : V35 m outs c r = V34 m outs c r :=
  StableHlo.after_of_writes_sub hostOps1_6 _ hostOps1_6_writes h
theorem V36_of (c : Dev nD) (r : Ref sig .tc) (h : r ∉ ([main_v76] : List (Ref sig .tc))) : V36 m outs c r = V35 m outs c r := by
  simp only [V36, Function.update_of_ne (StableHlo.devRef_ne_of_ne (List.ne_of_not_mem_cons h) : (Proc.devRef .tc r : DevRef τ sig) ≠ Proc.devRef .tc main_v76)]
theorem V37_of (c : Dev nD) (r : Ref sig .tc) (h : r ∉ hostOps2_W) : V37 m outs c r = V36 m outs c r :=
  StableHlo.after_of_writes_sub hostOps2 _ hostOps2_writes h
theorem V38_of (c : Dev nD) (r : Ref sig .tc) (h : r ∉ hostOps2_1_W) : V38 m outs c r = V37 m outs c r :=
  StableHlo.after_of_writes_sub hostOps2_1 _ hostOps2_1_writes h
theorem V39_of (c : Dev nD) (r : Ref sig .tc) (h : r ∉ hostOps2_2_W) : V39 m outs c r = V38 m outs c r :=
  StableHlo.after_of_writes_sub hostOps2_2 _ hostOps2_2_writes h
theorem V40_of (c : Dev nD) (r : Ref sig .tc) (h : r ∉ hostOps2_3_W) : V40 m outs c r = V39 m outs c r :=
  StableHlo.after_of_writes_sub hostOps2_3 _ hostOps2_3_writes h
theorem V41_of (c : Dev nD) (r : Ref sig .tc) (h : r ∉ hostOps2_4_W) : V41 m outs c r = V40 m outs c r :=
  StableHlo.after_of_writes_sub hostOps2_4 _ hostOps2_4_writes h
theorem V42_of (c : Dev nD) (r : Ref sig .tc) (h : r ∉ ([main_v86] : List (Ref sig .tc))) : V42 m outs c r = V41 m outs c r := by
  simp only [V42, Function.update_of_ne (StableHlo.devRef_ne_of_ne (List.ne_of_not_mem_cons h) : (Proc.devRef .tc r : DevRef τ sig) ≠ Proc.devRef .tc main_v86)]
theorem V43_of (c : Dev nD) (r : Ref sig .tc) (h : r ∉ hostOps3_W) : V43 m outs c r = V42 m outs c r :=
  StableHlo.after_of_writes_sub hostOps3 _ hostOps3_writes h
theorem V44_of (c : Dev nD) (r : Ref sig .tc) (h : r ∉ hostOps3_1_W) : V44 m outs c r = V43 m outs c r :=
  StableHlo.after_of_writes_sub hostOps3_1 _ hostOps3_1_writes h
theorem V45_of (c : Dev nD) (r : Ref sig .tc) (h : r ∉ hostOps3_2_W) : V45 m outs c r = V44 m outs c r :=
  StableHlo.after_of_writes_sub hostOps3_2 _ hostOps3_2_writes h
theorem V46_of (c : Dev nD) (r : Ref sig .tc) (h : r ∉ hostOps3_3_W) : V46 m outs c r = V45 m outs c r :=
  StableHlo.after_of_writes_sub hostOps3_3 _ hostOps3_3_writes h
theorem V47_of (c : Dev nD) (r : Ref sig .tc) (h : r ∉ hostOps3_4_W) : V47 m outs c r = V46 m outs c r :=
  StableHlo.after_of_writes_sub hostOps3_4 _ hostOps3_4_writes h
theorem V48_of (c : Dev nD) (r : Ref sig .tc) (h : r ∉ ([main_v96] : List (Ref sig .tc))) : V48 m outs c r = V47 m outs c r := by
  simp only [V48, Function.update_of_ne (StableHlo.devRef_ne_of_ne (List.ne_of_not_mem_cons h) : (Proc.devRef .tc r : DevRef τ sig) ≠ Proc.devRef .tc main_v96)]
theorem V49_of (c : Dev nD) (r : Ref sig .tc) (h : r ∉ hostOps4_W) : V49 m outs c r = V48 m outs c r :=
  StableHlo.after_of_writes_sub hostOps4 _ hostOps4_writes h
theorem V50_of (c : Dev nD) (r : Ref sig .tc) (h : r ∉ hostOps4_1_W) : V50 m outs c r = V49 m outs c r :=
  StableHlo.after_of_writes_sub hostOps4_1 _ hostOps4_1_writes h
theorem V51_of (c : Dev nD) (r : Ref sig .tc) (h : r ∉ hostOps4_2_W) : V51 m outs c r = V50 m outs c r :=
  StableHlo.after_of_writes_sub hostOps4_2 _ hostOps4_2_writes h
theorem V52_of (c : Dev nD) (r : Ref sig .tc) (h : r ∉ hostOps4_3_W) : V52 m outs c r = V51 m outs c r :=
  StableHlo.after_of_writes_sub hostOps4_3 _ hostOps4_3_writes h
theorem V53_of (c : Dev nD) (r : Ref sig .tc) (h : r ∉ hostOps4_4_W) : V53 m outs c r = V52 m outs c r :=
  StableHlo.after_of_writes_sub hostOps4_4 _ hostOps4_4_writes h
theorem V54_of (c : Dev nD) (r : Ref sig .tc) (h : r ∉ hostOps4_5_W) : V54 m outs c r = V53 m outs c r :=
  StableHlo.after_of_writes_sub hostOps4_5 _ hostOps4_5_writes h
theorem V55_of (c : Dev nD) (r : Ref sig .tc) (h : r ∉ hostOps4_6_W) : V55 m outs c r = V54 m outs c r :=
  StableHlo.after_of_writes_sub hostOps4_6 _ hostOps4_6_writes h
theorem V56_of (c : Dev nD) (r : Ref sig .tc) (h : r ∉ hostOps4_7_W) : V56 m outs c r = V55 m outs c r :=
  StableHlo.after_of_writes_sub hostOps4_7 _ hostOps4_7_writes h
theorem V57_of (c : Dev nD) (r : Ref sig .tc) (h : r ∉ hostOps4_8_W) : V57 m outs c r = V56 m outs c r :=
  StableHlo.after_of_writes_sub hostOps4_8 _ hostOps4_8_writes h
theorem V58_of (c : Dev nD) (r : Ref sig .tc) (h : r ∉ hostOps4_9_W) : V58 m outs c r = V57 m outs c r :=
  StableHlo.after_of_writes_sub hostOps4_9 _ hostOps4_9_writes h
theorem V59_of (c : Dev nD) (r : Ref sig .tc) (h : r ∉ hostOps4_10_W) : V59 m outs c r = V58 m outs c r :=
  StableHlo.after_of_writes_sub hostOps4_10 _ hostOps4_10_writes h
theorem V60_of (c : Dev nD) (r : Ref sig .tc) (h : r ∉ hostOps4_11_W) : V60 m outs c r = V59 m outs c r :=
  StableHlo.after_of_writes_sub hostOps4_11 _ hostOps4_11_writes h
theorem V61_of (c : Dev nD) (r : Ref sig .tc) (h : r ∉ hostOps4_12_W) : V61 m outs c r = V60 m outs c r :=
  StableHlo.after_of_writes_sub hostOps4_12 _ hostOps4_12_writes h
theorem V62_of (c : Dev nD) (r : Ref sig .tc) (h : r ∉ ([main_v177_0, main_v177_1] : List (Ref sig .tc))) : V62 m outs c r = V61 m outs c r := by
  simp only [V62, Function.update_of_ne (StableHlo.devRef_ne_of_ne (List.ne_of_not_mem_cons h) : (Proc.devRef .tc r : DevRef τ sig) ≠ Proc.devRef .tc main_v177_0), Function.update_of_ne (StableHlo.devRef_ne_of_ne (List.ne_of_not_mem_cons (List.not_mem_of_not_mem_cons h)) : (Proc.devRef .tc r : DevRef τ sig) ≠ Proc.devRef .tc main_v177_1)]
theorem V63_of (c : Dev nD) (r : Ref sig .tc) (h : r ∉ hostOps5_W) : V63 m outs c r = V62 m outs c r :=
  StableHlo.after_of_writes_sub hostOps5 _ hostOps5_writes h

-- A reference outside every write set holds at the end what it held at the launch.
theorem V63_keep (c : Dev nD) (r : Ref sig .tc)
    (h : r ∉ hostOps5_W ∧ r ∉ ([main_v177_0, main_v177_1] : List (Ref sig .tc)) ∧ r ∉ hostOps4_12_W ∧ r ∉ hostOps4_11_W ∧ r ∉ hostOps4_10_W ∧ r ∉ hostOps4_9_W ∧ r ∉ hostOps4_8_W ∧ r ∉ hostOps4_7_W ∧ r ∉ hostOps4_6_W ∧ r ∉ hostOps4_5_W ∧ r ∉ hostOps4_4_W ∧ r ∉ hostOps4_3_W ∧ r ∉ hostOps4_2_W ∧ r ∉ hostOps4_1_W ∧ r ∉ hostOps4_W ∧ r ∉ ([main_v96] : List (Ref sig .tc)) ∧ r ∉ hostOps3_4_W ∧ r ∉ hostOps3_3_W ∧ r ∉ hostOps3_2_W ∧ r ∉ hostOps3_1_W ∧ r ∉ hostOps3_W ∧ r ∉ ([main_v86] : List (Ref sig .tc)) ∧ r ∉ hostOps2_4_W ∧ r ∉ hostOps2_3_W ∧ r ∉ hostOps2_2_W ∧ r ∉ hostOps2_1_W ∧ r ∉ hostOps2_W ∧ r ∉ ([main_v76] : List (Ref sig .tc)) ∧ r ∉ hostOps1_6_W ∧ r ∉ hostOps1_5_W ∧ r ∉ hostOps1_4_W ∧ r ∉ hostOps1_3_W ∧ r ∉ hostOps1_2_W ∧ r ∉ hostOps1_1_W ∧ r ∉ hostOps1_W ∧ r ∉ ([main_v65] : List (Ref sig .tc)) ∧ r ∉ hostOps0_26_W ∧ r ∉ hostOps0_25_W ∧ r ∉ hostOps0_24_W ∧ r ∉ hostOps0_23_W ∧ r ∉ hostOps0_22_W ∧ r ∉ hostOps0_21_W ∧ r ∉ hostOps0_20_W ∧ r ∉ hostOps0_19_W ∧ r ∉ hostOps0_18_W ∧ r ∉ hostOps0_17_W ∧ r ∉ hostOps0_16_W ∧ r ∉ hostOps0_15_W ∧ r ∉ hostOps0_14_W ∧ r ∉ hostOps0_13_W ∧ r ∉ hostOps0_12_W ∧ r ∉ hostOps0_11_W ∧ r ∉ hostOps0_10_W ∧ r ∉ hostOps0_9_W ∧ r ∉ hostOps0_8_W ∧ r ∉ hostOps0_7_W ∧ r ∉ hostOps0_6_W ∧ r ∉ hostOps0_5_W ∧ r ∉ hostOps0_4_W ∧ r ∉ hostOps0_3_W ∧ r ∉ hostOps0_2_W ∧ r ∉ hostOps0_1_W ∧ r ∉ hostOps0_W) :
    V63 m outs c r = m ((c : Thread nD τ).loc r) := by
  obtain ⟨h63, h62, h61, h60, h59, h58, h57, h56, h55, h54, h53, h52, h51, h50, h49, h48, h47, h46, h45, h44, h43, h42, h41, h40, h39, h38, h37, h36, h35, h34, h33, h32, h31, h30, h29, h28, h27, h26, h25, h24, h23, h22, h21, h20, h19, h18, h17, h16, h15, h14, h13, h12, h11, h10, h9, h8, h7, h6, h5, h4, h3, h2, h1⟩ := h
  exact (V63_of m outs c r h63).trans <| (V62_of m outs c r h62).trans <| (V61_of m outs c r h61).trans <| (V60_of m outs c r h60).trans <| (V59_of m outs c r h59).trans <| (V58_of m outs c r h58).trans <| (V57_of m outs c r h57).trans <| (V56_of m outs c r h56).trans <| (V55_of m outs c r h55).trans <| (V54_of m outs c r h54).trans <| (V53_of m outs c r h53).trans <| (V52_of m outs c r h52).trans <| (V51_of m outs c r h51).trans <| (V50_of m outs c r h50).trans <| (V49_of m outs c r h49).trans <| (V48_of m outs c r h48).trans <| (V47_of m outs c r h47).trans <| (V46_of m outs c r h46).trans <| (V45_of m outs c r h45).trans <| (V44_of m outs c r h44).trans <| (V43_of m outs c r h43).trans <| (V42_of m outs c r h42).trans <| (V41_of m outs c r h41).trans <| (V40_of m outs c r h40).trans <| (V39_of m outs c r h39).trans <| (V38_of m outs c r h38).trans <| (V37_of m outs c r h37).trans <| (V36_of m outs c r h36).trans <| (V35_of m outs c r h35).trans <| (V34_of m outs c r h34).trans <| (V33_of m outs c r h33).trans <| (V32_of m outs c r h32).trans <| (V31_of m outs c r h31).trans <| (V30_of m outs c r h30).trans <| (V29_of m outs c r h29).trans <| (V28_of m outs c r h28).trans <| (V27_of m c r h27).trans <| (V26_of m c r h26).trans <| (V25_of m c r h25).trans <| (V24_of m c r h24).trans <| (V23_of m c r h23).trans <| (V22_of m c r h22).trans <| (V21_of m c r h21).trans <| (V20_of m c r h20).trans <| (V19_of m c r h19).trans <| (V18_of m c r h18).trans <| (V17_of m c r h17).trans <| (V16_of m c r h16).trans <| (V15_of m c r h15).trans <| (V14_of m c r h14).trans <| (V13_of m c r h13).trans <| (V12_of m c r h12).trans <| (V11_of m c r h11).trans <| (V10_of m c r h10).trans <| (V9_of m c r h9).trans <| (V8_of m c r h8).trans <| (V7_of m c r h7).trans <| (V6_of m c r h6).trans <| (V5_of m c r h5).trans <| (V4_of m c r h4).trans <| (V3_of m c r h3).trans <| (V2_of m c r h2).trans <| (V1_of m c r h1).trans rfl
theorem V63_main_arg0 (c : Dev nD) : V63 m outs c main_arg0 = m ((c : Thread nD τ).loc main_arg0) := V63_keep m outs c main_arg0 (by (repeat' apply And.intro) <;> decide)

theorem V63_main_arg1 (c : Dev nD) : V63 m outs c main_arg1 = m ((c : Thread nD τ).loc main_arg1) := V63_keep m outs c main_arg1 (by (repeat' apply And.intro) <;> decide)

theorem V63_main_arg2 (c : Dev nD) : V63 m outs c main_arg2 = m ((c : Thread nD τ).loc main_arg2) := V63_keep m outs c main_arg2 (by (repeat' apply And.intro) <;> decide)

theorem V63_main_arg3 (c : Dev nD) : V63 m outs c main_arg3 = m ((c : Thread nD τ).loc main_arg3) := V63_keep m outs c main_arg3 (by (repeat' apply And.intro) <;> decide)

theorem V63_main_arg4 (c : Dev nD) : V63 m outs c main_arg4 = m ((c : Thread nD τ).loc main_arg4) := V63_keep m outs c main_arg4 (by (repeat' apply And.intro) <;> decide)

theorem V63_main_arg5 (c : Dev nD) : V63 m outs c main_arg5 = m ((c : Thread nD τ).loc main_arg5) := V63_keep m outs c main_arg5 (by (repeat' apply And.intro) <;> decide)

theorem V63_main_arg6 (c : Dev nD) : V63 m outs c main_arg6 = m ((c : Thread nD τ).loc main_arg6) := V63_keep m outs c main_arg6 (by (repeat' apply And.intro) <;> decide)

theorem V63_main_arg7 (c : Dev nD) : V63 m outs c main_arg7 = m ((c : Thread nD τ).loc main_arg7) := V63_keep m outs c main_arg7 (by (repeat' apply And.intro) <;> decide)

theorem V63_main_arg8 (c : Dev nD) : V63 m outs c main_arg8 = m ((c : Thread nD τ).loc main_arg8) := V63_keep m outs c main_arg8 (by (repeat' apply And.intro) <;> decide)

theorem V63_main_arg9 (c : Dev nD) : V63 m outs c main_arg9 = m ((c : Thread nD τ).loc main_arg9) := V63_keep m outs c main_arg9 (by (repeat' apply And.intro) <;> decide)

theorem V63_main_arg10 (c : Dev nD) : V63 m outs c main_arg10 = m ((c : Thread nD τ).loc main_arg10) := V63_keep m outs c main_arg10 (by (repeat' apply And.intro) <;> decide)

theorem V63_main_arg11 (c : Dev nD) : V63 m outs c main_arg11 = m ((c : Thread nD τ).loc main_arg11) := V63_keep m outs c main_arg11 (by (repeat' apply And.intro) <;> decide)

theorem V63_main_arg12 (c : Dev nD) : V63 m outs c main_arg12 = m ((c : Thread nD τ).loc main_arg12) := V63_keep m outs c main_arg12 (by (repeat' apply And.intro) <;> decide)

theorem V63_main_arg13 (c : Dev nD) : V63 m outs c main_arg13 = m ((c : Thread nD τ).loc main_arg13) := V63_keep m outs c main_arg13 (by (repeat' apply And.intro) <;> decide)

theorem V63_main_arg14 (c : Dev nD) : V63 m outs c main_arg14 = m ((c : Thread nD τ).loc main_arg14) := V63_keep m outs c main_arg14 (by (repeat' apply And.intro) <;> decide)

theorem V63_main_arg15 (c : Dev nD) : V63 m outs c main_arg15 = m ((c : Thread nD τ).loc main_arg15) := V63_keep m outs c main_arg15 (by (repeat' apply And.intro) <;> decide)

theorem V63_main_arg16 (c : Dev nD) : V63 m outs c main_arg16 = m ((c : Thread nD τ).loc main_arg16) := V63_keep m outs c main_arg16 (by (repeat' apply And.intro) <;> decide)

theorem V63_main_arg17 (c : Dev nD) : V63 m outs c main_arg17 = m ((c : Thread nD τ).loc main_arg17) := V63_keep m outs c main_arg17 (by (repeat' apply And.intro) <;> decide)

theorem V63_main_arg18 (c : Dev nD) : V63 m outs c main_arg18 = m ((c : Thread nD τ).loc main_arg18) := V63_keep m outs c main_arg18 (by (repeat' apply And.intro) <;> decide)

theorem V63_main_arg19 (c : Dev nD) : V63 m outs c main_arg19 = m ((c : Thread nD τ).loc main_arg19) := V63_keep m outs c main_arg19 (by (repeat' apply And.intro) <;> decide)

theorem V63_main_arg20 (c : Dev nD) : V63 m outs c main_arg20 = m ((c : Thread nD τ).loc main_arg20) := V63_keep m outs c main_arg20 (by (repeat' apply And.intro) <;> decide)

theorem V63_main_arg21 (c : Dev nD) : V63 m outs c main_arg21 = m ((c : Thread nD τ).loc main_arg21) := V63_keep m outs c main_arg21 (by (repeat' apply And.intro) <;> decide)

theorem V63_main_arg22 (c : Dev nD) : V63 m outs c main_arg22 = m ((c : Thread nD τ).loc main_arg22) := V63_keep m outs c main_arg22 (by (repeat' apply And.intro) <;> decide)

theorem V63_main_arg23 (c : Dev nD) : V63 m outs c main_arg23 = m ((c : Thread nD τ).loc main_arg23) := V63_keep m outs c main_arg23 (by (repeat' apply And.intro) <;> decide)

theorem V63_main_arg24 (c : Dev nD) : V63 m outs c main_arg24 = m ((c : Thread nD τ).loc main_arg24) := V63_keep m outs c main_arg24 (by (repeat' apply And.intro) <;> decide)

theorem V63_main_arg25 (c : Dev nD) : V63 m outs c main_arg25 = m ((c : Thread nD τ).loc main_arg25) := V63_keep m outs c main_arg25 (by (repeat' apply And.intro) <;> decide)

theorem V63_main_arg26 (c : Dev nD) : V63 m outs c main_arg26 = m ((c : Thread nD τ).loc main_arg26) := V63_keep m outs c main_arg26 (by (repeat' apply And.intro) <;> decide)

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 6 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg1 : HostSeg (Ix := Ix) (Name := ℕ) (U := U) (Lvl := Lvl) (pcfgs (F := F)) defs₀ 𝒱₀ L lv :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V1 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (V2 m) (E 0)

def seg3 : HostSeg (Ix := Ix) (Name := ℕ) (U := U) (Lvl := Lvl) (pcfgs (F := F)) defs₀ 𝒱₀ L lv :=
  HostSeg.ofOps _ _ _ _ _ (Pipeline.ucRefs τ sig) hostOps0_3
    (fun op h => Pipeline.sub_ucRefs op ((List.forall_iff_forall_mem.mp hostOps0_3_sub) op h))
    (fun op h => (List.forall_iff_forall_mem.mp hostOps0_3_fresh) op h) (V3 m) (E 0)

def seg4 : HostSeg (Ix := Ix) (Name := ℕ) (U := U) (Lvl := Lvl) (pcfgs (F := F)) defs₀ 𝒱₀ L lv :=
  HostSeg.ofOps _ _ _ _ _ (Pipeline.ucRefs τ sig) hostOps0_4
    (fun op h => Pipeline.sub_ucRefs op ((List.forall_iff_forall_mem.mp hostOps0_4_sub) op h))
    (fun op h => (List.forall_iff_forall_mem.mp hostOps0_4_fresh) op h) (V4 m) (E 0)

def seg5 : HostSeg (Ix := Ix) (Name := ℕ) (U := U) (Lvl := Lvl) (pcfgs (F := F)) defs₀ 𝒱₀ L lv :=
  HostSeg.ofOps _ _ _ _ _ (Pipeline.ucRefs τ sig) hostOps0_5
    (fun op h => Pipeline.sub_ucRefs op ((List.forall_iff_forall_mem.mp hostOps0_5_sub) op h))
    (fun op h => (List.forall_iff_forall_mem.mp hostOps0_5_fresh) op h) (V5 m) (E 0)

def seg6 : HostSeg (Ix := Ix) (Name := ℕ) (U := U) (Lvl := Lvl) (pcfgs (F := F)) defs₀ 𝒱₀ L lv :=
  HostSeg.ofOps _ _ _ _ _ (Pipeline.ucRefs τ sig) hostOps0_6
    (fun op h => Pipeline.sub_ucRefs op ((List.forall_iff_forall_mem.mp hostOps0_6_sub) op h))
    (fun op h => (List.forall_iff_forall_mem.mp hostOps0_6_fresh) op h) (V6 m) (E 0)

def seg7 : HostSeg (Ix := Ix) (Name := ℕ) (U := U) (Lvl := Lvl) (pcfgs (F := F)) defs₀ 𝒱₀ L lv :=
  HostSeg.ofOps _ _ _ _ _ (Pipeline.ucRefs τ sig) hostOps0_7
    (fun op h => Pipeline.sub_ucRefs op ((List.forall_iff_forall_mem.mp hostOps0_7_sub) op h))
    (fun op h => (List.forall_iff_forall_mem.mp hostOps0_7_fresh) op h) (V7 m) (E 0)

def seg8 : HostSeg (Ix := Ix) (Name := ℕ) (U := U) (Lvl := Lvl) (pcfgs (F := F)) defs₀ 𝒱₀ L lv :=
  HostSeg.ofOps _ _ _ _ _ (Pipeline.ucRefs τ sig) hostOps0_8
    (fun op h => Pipeline.sub_ucRefs op ((List.forall_iff_forall_mem.mp hostOps0_8_sub) op h))
    (fun op h => (List.forall_iff_forall_mem.mp hostOps0_8_fresh) op h) (V8 m) (E 0)

def seg9 : HostSeg (Ix := Ix) (Name := ℕ) (U := U) (Lvl := Lvl) (pcfgs (F := F)) defs₀ 𝒱₀ L lv :=
  HostSeg.ofOps _ _ _ _ _ (Pipeline.ucRefs τ sig) hostOps0_9
    (fun op h => Pipeline.sub_ucRefs op ((List.forall_iff_forall_mem.mp hostOps0_9_sub) op h))
    (fun op h => (List.forall_iff_forall_mem.mp hostOps0_9_fresh) op h) (V9 m) (E 0)

def seg10 : HostSeg (Ix := Ix) (Name := ℕ) (U := U) (Lvl := Lvl) (pcfgs (F := F)) defs₀ 𝒱₀ L lv :=
  HostSeg.ofOps _ _ _ _ _ (Pipeline.ucRefs τ sig) hostOps0_10
    (fun op h => Pipeline.sub_ucRefs op ((List.forall_iff_forall_mem.mp hostOps0_10_sub) op h))
    (fun op h => (List.forall_iff_forall_mem.mp hostOps0_10_fresh) op h) (V10 m) (E 0)

def seg11 : HostSeg (Ix := Ix) (Name := ℕ) (U := U) (Lvl := Lvl) (pcfgs (F := F)) defs₀ 𝒱₀ L lv :=
  HostSeg.ofOps _ _ _ _ _ (Pipeline.ucRefs τ sig) hostOps0_11
    (fun op h => Pipeline.sub_ucRefs op ((List.forall_iff_forall_mem.mp hostOps0_11_sub) op h))
    (fun op h => (List.forall_iff_forall_mem.mp hostOps0_11_fresh) op h) (V11 m) (E 0)

def seg12 : HostSeg (Ix := Ix) (Name := ℕ) (U := U) (Lvl := Lvl) (pcfgs (F := F)) defs₀ 𝒱₀ L lv :=
  HostSeg.ofOps _ _ _ _ _ (Pipeline.ucRefs τ sig) hostOps0_12
    (fun op h => Pipeline.sub_ucRefs op ((List.forall_iff_forall_mem.mp hostOps0_12_sub) op h))
    (fun op h => (List.forall_iff_forall_mem.mp hostOps0_12_fresh) op h) (V12 m) (E 0)

def seg13 : HostSeg (Ix := Ix) (Name := ℕ) (U := U) (Lvl := Lvl) (pcfgs (F := F)) defs₀ 𝒱₀ L lv :=
  HostSeg.ofOps _ _ _ _ _ (Pipeline.ucRefs τ sig) hostOps0_13
    (fun op h => Pipeline.sub_ucRefs op ((List.forall_iff_forall_mem.mp hostOps0_13_sub) op h))
    (fun op h => (List.forall_iff_forall_mem.mp hostOps0_13_fresh) op h) (V13 m) (E 0)

def seg14 : HostSeg (Ix := Ix) (Name := ℕ) (U := U) (Lvl := Lvl) (pcfgs (F := F)) defs₀ 𝒱₀ L lv :=
  HostSeg.ofOps _ _ _ _ _ (Pipeline.ucRefs τ sig) hostOps0_14
    (fun op h => Pipeline.sub_ucRefs op ((List.forall_iff_forall_mem.mp hostOps0_14_sub) op h))
    (fun op h => (List.forall_iff_forall_mem.mp hostOps0_14_fresh) op h) (V14 m) (E 0)

def seg15 : HostSeg (Ix := Ix) (Name := ℕ) (U := U) (Lvl := Lvl) (pcfgs (F := F)) defs₀ 𝒱₀ L lv :=
  HostSeg.ofOps _ _ _ _ _ (Pipeline.ucRefs τ sig) hostOps0_15
    (fun op h => Pipeline.sub_ucRefs op ((List.forall_iff_forall_mem.mp hostOps0_15_sub) op h))
    (fun op h => (List.forall_iff_forall_mem.mp hostOps0_15_fresh) op h) (V15 m) (E 0)

def seg16 : HostSeg (Ix := Ix) (Name := ℕ) (U := U) (Lvl := Lvl) (pcfgs (F := F)) defs₀ 𝒱₀ L lv :=
  HostSeg.ofOps _ _ _ _ _ (Pipeline.ucRefs τ sig) hostOps0_16
    (fun op h => Pipeline.sub_ucRefs op ((List.forall_iff_forall_mem.mp hostOps0_16_sub) op h))
    (fun op h => (List.forall_iff_forall_mem.mp hostOps0_16_fresh) op h) (V16 m) (E 0)

def seg17 : HostSeg (Ix := Ix) (Name := ℕ) (U := U) (Lvl := Lvl) (pcfgs (F := F)) defs₀ 𝒱₀ L lv :=
  HostSeg.ofOps _ _ _ _ _ (Pipeline.ucRefs τ sig) hostOps0_17
    (fun op h => Pipeline.sub_ucRefs op ((List.forall_iff_forall_mem.mp hostOps0_17_sub) op h))
    (fun op h => (List.forall_iff_forall_mem.mp hostOps0_17_fresh) op h) (V17 m) (E 0)

def seg18 : HostSeg (Ix := Ix) (Name := ℕ) (U := U) (Lvl := Lvl) (pcfgs (F := F)) defs₀ 𝒱₀ L lv :=
  HostSeg.ofOps _ _ _ _ _ (Pipeline.ucRefs τ sig) hostOps0_18
    (fun op h => Pipeline.sub_ucRefs op ((List.forall_iff_forall_mem.mp hostOps0_18_sub) op h))
    (fun op h => (List.forall_iff_forall_mem.mp hostOps0_18_fresh) op h) (V18 m) (E 0)

def seg19 : HostSeg (Ix := Ix) (Name := ℕ) (U := U) (Lvl := Lvl) (pcfgs (F := F)) defs₀ 𝒱₀ L lv :=
  HostSeg.ofOps _ _ _ _ _ (Pipeline.ucRefs τ sig) hostOps0_19
    (fun op h => Pipeline.sub_ucRefs op ((List.forall_iff_forall_mem.mp hostOps0_19_sub) op h))
    (fun op h => (List.forall_iff_forall_mem.mp hostOps0_19_fresh) op h) (V19 m) (E 0)

def seg20 : HostSeg (Ix := Ix) (Name := ℕ) (U := U) (Lvl := Lvl) (pcfgs (F := F)) defs₀ 𝒱₀ L lv :=
  HostSeg.ofOps _ _ _ _ _ (Pipeline.ucRefs τ sig) hostOps0_20
    (fun op h => Pipeline.sub_ucRefs op ((List.forall_iff_forall_mem.mp hostOps0_20_sub) op h))
    (fun op h => (List.forall_iff_forall_mem.mp hostOps0_20_fresh) op h) (V20 m) (E 0)

def seg21 : HostSeg (Ix := Ix) (Name := ℕ) (U := U) (Lvl := Lvl) (pcfgs (F := F)) defs₀ 𝒱₀ L lv :=
  HostSeg.ofOps _ _ _ _ _ (Pipeline.ucRefs τ sig) hostOps0_21
    (fun op h => Pipeline.sub_ucRefs op ((List.forall_iff_forall_mem.mp hostOps0_21_sub) op h))
    (fun op h => (List.forall_iff_forall_mem.mp hostOps0_21_fresh) op h) (V21 m) (E 0)

def seg22 : HostSeg (Ix := Ix) (Name := ℕ) (U := U) (Lvl := Lvl) (pcfgs (F := F)) defs₀ 𝒱₀ L lv :=
  HostSeg.ofOps _ _ _ _ _ (Pipeline.ucRefs τ sig) hostOps0_22
    (fun op h => Pipeline.sub_ucRefs op ((List.forall_iff_forall_mem.mp hostOps0_22_sub) op h))
    (fun op h => (List.forall_iff_forall_mem.mp hostOps0_22_fresh) op h) (V22 m) (E 0)

def seg23 : HostSeg (Ix := Ix) (Name := ℕ) (U := U) (Lvl := Lvl) (pcfgs (F := F)) defs₀ 𝒱₀ L lv :=
  HostSeg.ofOps _ _ _ _ _ (Pipeline.ucRefs τ sig) hostOps0_23
    (fun op h => Pipeline.sub_ucRefs op ((List.forall_iff_forall_mem.mp hostOps0_23_sub) op h))
    (fun op h => (List.forall_iff_forall_mem.mp hostOps0_23_fresh) op h) (V23 m) (E 0)

def seg24 : HostSeg (Ix := Ix) (Name := ℕ) (U := U) (Lvl := Lvl) (pcfgs (F := F)) defs₀ 𝒱₀ L lv :=
  HostSeg.ofOps _ _ _ _ _ (Pipeline.ucRefs τ sig) hostOps0_24
    (fun op h => Pipeline.sub_ucRefs op ((List.forall_iff_forall_mem.mp hostOps0_24_sub) op h))
    (fun op h => (List.forall_iff_forall_mem.mp hostOps0_24_fresh) op h) (V24 m) (E 0)

def seg25 : HostSeg (Ix := Ix) (Name := ℕ) (U := U) (Lvl := Lvl) (pcfgs (F := F)) defs₀ 𝒱₀ L lv :=
  HostSeg.ofOps _ _ _ _ _ (Pipeline.ucRefs τ sig) hostOps0_25
    (fun op h => Pipeline.sub_ucRefs op ((List.forall_iff_forall_mem.mp hostOps0_25_sub) op h))
    (fun op h => (List.forall_iff_forall_mem.mp hostOps0_25_fresh) op h) (V25 m) (E 0)

def seg26 : HostSeg (Ix := Ix) (Name := ℕ) (U := U) (Lvl := Lvl) (pcfgs (F := F)) defs₀ 𝒱₀ L lv :=
  HostSeg.ofOps _ _ _ _ _ (Pipeline.ucRefs τ sig) hostOps0_26
    (fun op h => Pipeline.sub_ucRefs op ((List.forall_iff_forall_mem.mp hostOps0_26_sub) op h))
    (fun op h => (List.forall_iff_forall_mem.mp hostOps0_26_fresh) op h) (V26 m) (E 0)

def seg28 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V28 m outs) (E 1)

def seg29 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (V29 m outs) (E 1)

def seg30 : HostSeg (Ix := Ix) (Name := ℕ) (U := U) (Lvl := Lvl) (pcfgs (F := F)) defs₀ 𝒱₀ L lv :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (V30 m outs) (E 1)

def seg31 : HostSeg (Ix := Ix) (Name := ℕ) (U := U) (Lvl := Lvl) (pcfgs (F := F)) defs₀ 𝒱₀ L lv :=
  HostSeg.ofOps _ _ _ _ _ (Pipeline.ucRefs τ sig) hostOps1_3
    (fun op h => Pipeline.sub_ucRefs op ((List.forall_iff_forall_mem.mp hostOps1_3_sub) op h))
    (fun op h => (List.forall_iff_forall_mem.mp hostOps1_3_fresh) op h) (V31 m outs) (E 1)

def seg32 : HostSeg (Ix := Ix) (Name := ℕ) (U := U) (Lvl := Lvl) (pcfgs (F := F)) defs₀ 𝒱₀ L lv :=
  HostSeg.ofOps _ _ _ _ _ (Pipeline.ucRefs τ sig) hostOps1_4
    (fun op h => Pipeline.sub_ucRefs op ((List.forall_iff_forall_mem.mp hostOps1_4_sub) op h))
    (fun op h => (List.forall_iff_forall_mem.mp hostOps1_4_fresh) op h) (V32 m outs) (E 1)

def seg33 : HostSeg (Ix := Ix) (Name := ℕ) (U := U) (Lvl := Lvl) (pcfgs (F := F)) defs₀ 𝒱₀ L lv :=
  HostSeg.ofOps _ _ _ _ _ (Pipeline.ucRefs τ sig) hostOps1_5
    (fun op h => Pipeline.sub_ucRefs op ((List.forall_iff_forall_mem.mp hostOps1_5_sub) op h))
    (fun op h => (List.forall_iff_forall_mem.mp hostOps1_5_fresh) op h) (V33 m outs) (E 1)

def seg34 : HostSeg (Ix := Ix) (Name := ℕ) (U := U) (Lvl := Lvl) (pcfgs (F := F)) defs₀ 𝒱₀ L lv :=
  HostSeg.ofOps _ _ _ _ _ (Pipeline.ucRefs τ sig) hostOps1_6
    (fun op h => Pipeline.sub_ucRefs op ((List.forall_iff_forall_mem.mp hostOps1_6_sub) op h))
    (fun op h => (List.forall_iff_forall_mem.mp hostOps1_6_fresh) op h) (V34 m outs) (E 1)

def seg36 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V36 m outs) (E 2)

def seg37 : HostSeg (Ix := Ix) (Name := ℕ) (U := U) (Lvl := Lvl) (pcfgs (F := F)) defs₀ 𝒱₀ L lv :=
  HostSeg.ofOps _ _ _ _ _ (Pipeline.ucRefs τ sig) hostOps2_1
    (fun op h => Pipeline.sub_ucRefs op ((List.forall_iff_forall_mem.mp hostOps2_1_sub) op h))
    (fun op h => (List.forall_iff_forall_mem.mp hostOps2_1_fresh) op h) (V37 m outs) (E 2)

def seg38 : HostSeg (Ix := Ix) (Name := ℕ) (U := U) (Lvl := Lvl) (pcfgs (F := F)) defs₀ 𝒱₀ L lv :=
  HostSeg.ofOps _ _ _ _ _ (Pipeline.ucRefs τ sig) hostOps2_2
    (fun op h => Pipeline.sub_ucRefs op ((List.forall_iff_forall_mem.mp hostOps2_2_sub) op h))
    (fun op h => (List.forall_iff_forall_mem.mp hostOps2_2_fresh) op h) (V38 m outs) (E 2)

def seg39 : HostSeg (Ix := Ix) (Name := ℕ) (U := U) (Lvl := Lvl) (pcfgs (F := F)) defs₀ 𝒱₀ L lv :=
  HostSeg.ofOps _ _ _ _ _ (Pipeline.ucRefs τ sig) hostOps2_3
    (fun op h => Pipeline.sub_ucRefs op ((List.forall_iff_forall_mem.mp hostOps2_3_sub) op h))
    (fun op h => (List.forall_iff_forall_mem.mp hostOps2_3_fresh) op h) (V39 m outs) (E 2)

def seg40 : HostSeg (Ix := Ix) (Name := ℕ) (U := U) (Lvl := Lvl) (pcfgs (F := F)) defs₀ 𝒱₀ L lv :=
  HostSeg.ofOps _ _ _ _ _ (Pipeline.ucRefs τ sig) hostOps2_4
    (fun op h => Pipeline.sub_ucRefs op ((List.forall_iff_forall_mem.mp hostOps2_4_sub) op h))
    (fun op h => (List.forall_iff_forall_mem.mp hostOps2_4_fresh) op h) (V40 m outs) (E 2)

def seg42 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V42 m outs) (E 3)

def seg43 : HostSeg (Ix := Ix) (Name := ℕ) (U := U) (Lvl := Lvl) (pcfgs (F := F)) defs₀ 𝒱₀ L lv :=
  HostSeg.ofOps _ _ _ _ _ (Pipeline.ucRefs τ sig) hostOps3_1
    (fun op h => Pipeline.sub_ucRefs op ((List.forall_iff_forall_mem.mp hostOps3_1_sub) op h))
    (fun op h => (List.forall_iff_forall_mem.mp hostOps3_1_fresh) op h) (V43 m outs) (E 3)

def seg44 : HostSeg (Ix := Ix) (Name := ℕ) (U := U) (Lvl := Lvl) (pcfgs (F := F)) defs₀ 𝒱₀ L lv :=
  HostSeg.ofOps _ _ _ _ _ (Pipeline.ucRefs τ sig) hostOps3_2
    (fun op h => Pipeline.sub_ucRefs op ((List.forall_iff_forall_mem.mp hostOps3_2_sub) op h))
    (fun op h => (List.forall_iff_forall_mem.mp hostOps3_2_fresh) op h) (V44 m outs) (E 3)

def seg45 : HostSeg (Ix := Ix) (Name := ℕ) (U := U) (Lvl := Lvl) (pcfgs (F := F)) defs₀ 𝒱₀ L lv :=
  HostSeg.ofOps _ _ _ _ _ (Pipeline.ucRefs τ sig) hostOps3_3
    (fun op h => Pipeline.sub_ucRefs op ((List.forall_iff_forall_mem.mp hostOps3_3_sub) op h))
    (fun op h => (List.forall_iff_forall_mem.mp hostOps3_3_fresh) op h) (V45 m outs) (E 3)

def seg46 : HostSeg (Ix := Ix) (Name := ℕ) (U := U) (Lvl := Lvl) (pcfgs (F := F)) defs₀ 𝒱₀ L lv :=
  HostSeg.ofOps _ _ _ _ _ (Pipeline.ucRefs τ sig) hostOps3_4
    (fun op h => Pipeline.sub_ucRefs op ((List.forall_iff_forall_mem.mp hostOps3_4_sub) op h))
    (fun op h => (List.forall_iff_forall_mem.mp hostOps3_4_fresh) op h) (V46 m outs) (E 3)

def seg48 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V48 m outs) (E 4)

def seg49 : HostSeg (Ix := Ix) (Name := ℕ) (U := U) (Lvl := Lvl) (pcfgs (F := F)) defs₀ 𝒱₀ L lv :=
  HostSeg.ofOps _ _ _ _ _ (Pipeline.ucRefs τ sig) hostOps4_1
    (fun op h => Pipeline.sub_ucRefs op ((List.forall_iff_forall_mem.mp hostOps4_1_sub) op h))
    (fun op h => (List.forall_iff_forall_mem.mp hostOps4_1_fresh) op h) (V49 m outs) (E 4)

def seg50 : HostSeg (Ix := Ix) (Name := ℕ) (U := U) (Lvl := Lvl) (pcfgs (F := F)) defs₀ 𝒱₀ L lv :=
  HostSeg.ofOps _ _ _ _ _ (Pipeline.ucRefs τ sig) hostOps4_2
    (fun op h => Pipeline.sub_ucRefs op ((List.forall_iff_forall_mem.mp hostOps4_2_sub) op h))
    (fun op h => (List.forall_iff_forall_mem.mp hostOps4_2_fresh) op h) (V50 m outs) (E 4)

def seg51 : HostSeg (Ix := Ix) (Name := ℕ) (U := U) (Lvl := Lvl) (pcfgs (F := F)) defs₀ 𝒱₀ L lv :=
  HostSeg.ofOps _ _ _ _ _ (Pipeline.ucRefs τ sig) hostOps4_3
    (fun op h => Pipeline.sub_ucRefs op ((List.forall_iff_forall_mem.mp hostOps4_3_sub) op h))
    (fun op h => (List.forall_iff_forall_mem.mp hostOps4_3_fresh) op h) (V51 m outs) (E 4)

def seg52 : HostSeg (Ix := Ix) (Name := ℕ) (U := U) (Lvl := Lvl) (pcfgs (F := F)) defs₀ 𝒱₀ L lv :=
  HostSeg.ofOps _ _ _ _ _ (Pipeline.ucRefs τ sig) hostOps4_4
    (fun op h => Pipeline.sub_ucRefs op ((List.forall_iff_forall_mem.mp hostOps4_4_sub) op h))
    (fun op h => (List.forall_iff_forall_mem.mp hostOps4_4_fresh) op h) (V52 m outs) (E 4)

def seg53 : HostSeg (Ix := Ix) (Name := ℕ) (U := U) (Lvl := Lvl) (pcfgs (F := F)) defs₀ 𝒱₀ L lv :=
  HostSeg.ofOps _ _ _ _ _ (Pipeline.ucRefs τ sig) hostOps4_5
    (fun op h => Pipeline.sub_ucRefs op ((List.forall_iff_forall_mem.mp hostOps4_5_sub) op h))
    (fun op h => (List.forall_iff_forall_mem.mp hostOps4_5_fresh) op h) (V53 m outs) (E 4)

def seg54 : HostSeg (Ix := Ix) (Name := ℕ) (U := U) (Lvl := Lvl) (pcfgs (F := F)) defs₀ 𝒱₀ L lv :=
  HostSeg.ofOps _ _ _ _ _ (Pipeline.ucRefs τ sig) hostOps4_6
    (fun op h => Pipeline.sub_ucRefs op ((List.forall_iff_forall_mem.mp hostOps4_6_sub) op h))
    (fun op h => (List.forall_iff_forall_mem.mp hostOps4_6_fresh) op h) (V54 m outs) (E 4)

def seg55 : HostSeg (Ix := Ix) (Name := ℕ) (U := U) (Lvl := Lvl) (pcfgs (F := F)) defs₀ 𝒱₀ L lv :=
  HostSeg.ofOps _ _ _ _ _ (Pipeline.ucRefs τ sig) hostOps4_7
    (fun op h => Pipeline.sub_ucRefs op ((List.forall_iff_forall_mem.mp hostOps4_7_sub) op h))
    (fun op h => (List.forall_iff_forall_mem.mp hostOps4_7_fresh) op h) (V55 m outs) (E 4)

def seg56 : HostSeg (Ix := Ix) (Name := ℕ) (U := U) (Lvl := Lvl) (pcfgs (F := F)) defs₀ 𝒱₀ L lv :=
  HostSeg.ofOps _ _ _ _ _ (Pipeline.ucRefs τ sig) hostOps4_8
    (fun op h => Pipeline.sub_ucRefs op ((List.forall_iff_forall_mem.mp hostOps4_8_sub) op h))
    (fun op h => (List.forall_iff_forall_mem.mp hostOps4_8_fresh) op h) (V56 m outs) (E 4)

def seg57 : HostSeg (Ix := Ix) (Name := ℕ) (U := U) (Lvl := Lvl) (pcfgs (F := F)) defs₀ 𝒱₀ L lv :=
  HostSeg.ofOps _ _ _ _ _ (Pipeline.ucRefs τ sig) hostOps4_9
    (fun op h => Pipeline.sub_ucRefs op ((List.forall_iff_forall_mem.mp hostOps4_9_sub) op h))
    (fun op h => (List.forall_iff_forall_mem.mp hostOps4_9_fresh) op h) (V57 m outs) (E 4)

def seg58 : HostSeg (Ix := Ix) (Name := ℕ) (U := U) (Lvl := Lvl) (pcfgs (F := F)) defs₀ 𝒱₀ L lv :=
  HostSeg.ofOps _ _ _ _ _ (Pipeline.ucRefs τ sig) hostOps4_10
    (fun op h => Pipeline.sub_ucRefs op ((List.forall_iff_forall_mem.mp hostOps4_10_sub) op h))
    (fun op h => (List.forall_iff_forall_mem.mp hostOps4_10_fresh) op h) (V58 m outs) (E 4)

def seg59 : HostSeg (Ix := Ix) (Name := ℕ) (U := U) (Lvl := Lvl) (pcfgs (F := F)) defs₀ 𝒱₀ L lv :=
  HostSeg.ofOps _ _ _ _ _ (Pipeline.ucRefs τ sig) hostOps4_11
    (fun op h => Pipeline.sub_ucRefs op ((List.forall_iff_forall_mem.mp hostOps4_11_sub) op h))
    (fun op h => (List.forall_iff_forall_mem.mp hostOps4_11_fresh) op h) (V59 m outs) (E 4)

def seg60 : HostSeg (Ix := Ix) (Name := ℕ) (U := U) (Lvl := Lvl) (pcfgs (F := F)) defs₀ 𝒱₀ L lv :=
  HostSeg.ofOps _ _ _ _ _ (Pipeline.ucRefs τ sig) hostOps4_12
    (fun op h => Pipeline.sub_ucRefs op ((List.forall_iff_forall_mem.mp hostOps4_12_sub) op h))
    (fun op h => (List.forall_iff_forall_mem.mp hostOps4_12_fresh) op h) (V60 m outs) (E 4)

def seg62 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (V62 m outs) (E 5)

end Segs

section

variable {Ix : Type} [DecidableEq Ix] {U : Type} [URA U] {Lvl : Type} [Preorder Lvl]

abbrev adm : (p : Fin 5) → (pcfgs (F := F) p).Adm := fun p => (cfgs p).toPCfg_adm

abbrev segs (𝒱₀ : Variants) (L : GSem nD τ sig → Finset Ix) (lv : GSem nD τ sig → Ix → Lvl) (E : Fin 6 → Dev nD → sProp (MT nD τ sig Ix (Elt F) ℕ U Lvl)) (ι : Ix)
    (pdats : (p : Fin 5) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (c : Dev nD) :
    List (Seg (pcfgs (F := F)) adm pdats ι defs₀ 𝒱₀ L lv) :=
  [.host (seg0 m 𝒱₀ L lv E), .host (seg1 m 𝒱₀ L lv E), .host (seg2 m 𝒱₀ L lv E), .host (seg3 m 𝒱₀ L lv E), .host (seg4 m 𝒱₀ L lv E), .host (seg5 m 𝒱₀ L lv E), .host (seg6 m 𝒱₀ L lv E), .host (seg7 m 𝒱₀ L lv E), .host (seg8 m 𝒱₀ L lv E), .host (seg9 m 𝒱₀ L lv E), .host (seg10 m 𝒱₀ L lv E), .host (seg11 m 𝒱₀ L lv E), .host (seg12 m 𝒱₀ L lv E), .host (seg13 m 𝒱₀ L lv E), .host (seg14 m 𝒱₀ L lv E), .host (seg15 m 𝒱₀ L lv E), .host (seg16 m 𝒱₀ L lv E), .host (seg17 m 𝒱₀ L lv E), .host (seg18 m 𝒱₀ L lv E), .host (seg19 m 𝒱₀ L lv E), .host (seg20 m 𝒱₀ L lv E), .host (seg21 m 𝒱₀ L lv E), .host (seg22 m 𝒱₀ L lv E), .host (seg23 m 𝒱₀ L lv E), .host (seg24 m 𝒱₀ L lv E), .host (seg25 m 𝒱₀ L lv E), .host (seg26 m 𝒱₀ L lv E), .region R0, .host (seg28 m outs 𝒱₀ L lv E), .host (seg29 m outs 𝒱₀ L lv E), .host (seg30 m outs 𝒱₀ L lv E), .host (seg31 m outs 𝒱₀ L lv E), .host (seg32 m outs 𝒱₀ L lv E), .host (seg33 m outs 𝒱₀ L lv E), .host (seg34 m outs 𝒱₀ L lv E), .region R1, .host (seg36 m outs 𝒱₀ L lv E), .host (seg37 m outs 𝒱₀ L lv E), .host (seg38 m outs 𝒱₀ L lv E), .host (seg39 m outs 𝒱₀ L lv E), .host (seg40 m outs 𝒱₀ L lv E), .region R2, .host (seg42 m outs 𝒱₀ L lv E), .host (seg43 m outs 𝒱₀ L lv E), .host (seg44 m outs 𝒱₀ L lv E), .host (seg45 m outs 𝒱₀ L lv E), .host (seg46 m outs 𝒱₀ L lv E), .region R3, .host (seg48 m outs 𝒱₀ L lv E), .host (seg49 m outs 𝒱₀ L lv E), .host (seg50 m outs 𝒱₀ L lv E), .host (seg51 m outs 𝒱₀ L lv E), .host (seg52 m outs 𝒱₀ L lv E), .host (seg53 m outs 𝒱₀ L lv E), .host (seg54 m outs 𝒱₀ L lv E), .host (seg55 m outs 𝒱₀ L lv E), .host (seg56 m outs 𝒱₀ L lv E), .host (seg57 m outs 𝒱₀ L lv E), .host (seg58 m outs 𝒱₀ L lv E), .host (seg59 m outs 𝒱₀ L lv E), .host (seg60 m outs 𝒱₀ L lv E), .region R4, .host (seg62 m outs 𝒱₀ L lv E)]

end

end Cert.KernelIdeal.Gen

end
-- ==== Proof.KI.R0Runs.lean ====
import proofs.«406789_j53094385713523_3_alg».proof.Proof.Gen.KernelIdeal.Launch
import proofs.«406789_j53094385713523_3_alg».proof.Proof.Gen.KernelIdeal.Skeleton
import proofs.«406789_j53094385713523_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) :
    ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c)
    (hA : dat.A 0 = V c (Pipeline.arrRef spec0 0)) (hafter : ∀ t, dat.after 0 t = iblk0 V c 0 t)
    (t : Fin cfg0.N) (d) : dat.before 0 t d = iblk0 V c 0 t := by
  refine (dat.before_in_eq_fetched 0 rfl (fun _ => rfl) (fun _ _ _ => rfl) (fun s => ?_) t d).trans ?_
  · rw [hafter]; unfold Dat.blockOf iblk0; rw [hA]; try rfl
  · unfold Dat.fetched Dat.blockOf iblk0; rw [hA]; try rfl

theorem before0_1_of {c : Dev nD} (dat : Dat τ (Elt F) Unit ℕ (UR sig nD τ) ℕ cfg0 c)
    (hA : dat.A 1 = V c (Pipeline.arrRef spec0 1)) (hafter : ∀ t, dat.after 1 t = iblk0 V c 1 t)
    (t : Fin cfg0.N) (d) : dat.before 1 t d = iblk0 V c 1 t := by
  refine (dat.before_in_eq_fetched 1 rfl (fun _ => rfl) (fun _ _ _ => rfl) (fun s => ?_) t d).trans ?_
  · rw [hafter]; unfold Dat.blockOf iblk0; rw [hA]; try rfl
  · unfold Dat.fetched Dat.blockOf iblk0; rw [hA]; try rfl

theorem before0_2_of {c : Dev nD} (dat : Dat τ (Elt F) Unit ℕ (UR sig nD τ) ℕ cfg0 c)
    (hA : dat.A 2 = V c (Pipeline.arrRef spec0 2)) (hafter : ∀ t, dat.after 2 t = iblk0 V c 2 t)
    (t : Fin cfg0.N) (d) : dat.before 2 t d = iblk0 V c 2 t := by
  refine (dat.before_in_eq_fetched 2 rfl (fun _ => rfl) (fun _ _ _ => rfl) (fun s => ?_) t d).trans ?_
  · rw [hafter]; unfold Dat.blockOf iblk0; rw [hA]; try rfl
  · unfold Dat.fetched Dat.blockOf iblk0; rw [hA]; try rfl

abbrev cond0_0 (i : grid0.Coords) : Prop :=
  Scalar.cmpi .ne (Scalar.extui (Scalar.andi (Scalar.cmpi .eq (BitVec.ofNat 32 (i 1).val) 0#32)
    (Scalar.cmpi .eq (BitVec.ofNat 32 (i 2).val) 0#32))) 0#32 = 1#1

theorem hcond0_0 : ∀ t : Fin cfg0.N, cond0_0 (grid0.coords t) ↔ t.val % 24 = 0 :=
  (by decide +kernel : ∀ t : Fin grid0.N, cond0_0 (grid0.coords t) ↔ t.val % 24 = 0)

abbrev cond0_1 (i : grid0.Coords) : Prop := k0_cond2 i = 1#1

theorem hcond0_1 : ∀ t : Fin cfg0.N, cond0_1 (grid0.coords t) ↔ t.val % 24 = 23 :=
  (by decide +kernel : ∀ t : Fin grid0.N, cond0_1 (grid0.coords t) ↔ t.val % 24 = 23)

theorem lt_N0 (t : Fin cfg0.N) : t.val < 48 := lt_of_lt_of_eq t.isLt (show cfg0.N = 48 from N_0)

theorem idle0_3_iff : ∀ t : Fin cfg0.N, cfg0.idle 3 (grid0.coords t) = true ↔ ¬t.val % 24 = 23 :=
  (by decide +kernel : ∀ t : Fin grid0.N, idle0 3 (grid0.coords t) = true ↔ ¬t.val % 24 = 23)

theorem idleAt0_3 (t : Fin cfg0.N) (h : ¬t.val % 24 = 23) : cfg0.idle 3 (grid0.coords t) = true :=
  (idle0_3_iff t).mpr h

theorem liveAt0_3 (t : Fin cfg0.N) (h : t.val % 24 = 23) : cfg0.idle 3 (grid0.coords t) = false :=
  Bool.eq_false_iff.mpr fun hi => (idle0_3_iff t).mp hi h

theorem noFlush0_3 (t : Fin cfg0.N) (h : ¬t.val % 24 = 23) : (cfg0.win 3).flush t = false :=
  Bool.eq_false_iff.mpr fun hf => h ((flush0_3 t).mp hf)

abbrev ms0_0 (t : Fin cfg0.N) : Memref sig .tc .vmem S152x100 .i32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S152x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x100x1 .f32 := win0_3.stage (cfg0.slots t 3)
abbrev hs0_3 (t : Fin cfg0.N) : (ms0_3 t).IsWhole := hstage0_3 ((cfg0.slots t 3).cast nbuf0_3)

abbrev scM0_0 : Memref sig .tc .vmem S100x1 .f32 := Memref.whole cc0_scratch0

abbrev VO0_3 : View sig .tc .vmem S1x100x1 .f32 := (Memref.whole cc0_stg3_0 : Memref sig .tc .vmem S1x100x1 .f32).view
abbrev VS0_0 : View sig .tc .vmem S100x1 .f32 := scM0_0.view

theorem PhiA0_eq (c : Dev nD) :
    (Pipeline.ΦA spec0 c : sProp 𝕄)
      = iprop(iprop(iprop((∃ d, owns (c : Thread nD τ) scM0_0 fullShare d))
          ∗ Pipeline.scopedRestBut (Ix := Unit) (Name := ℕ) (U := UR sig nD τ) (Lvl := ℕ) (Val := Elt F) spec0 c [cc0_scratch0])
        ∗ (∃ r, prngReg c r)) := by
  unfold Pipeline.ΦA; rw [scopedRest0_split]; simp only [scM0_0, owns_whole]; try rfl

end Cert.KernelIdeal.R0

end
-- ==== Proof.KI.R0Run.lean ====
import proofs.«406789_j53094385713523_3_alg».proof.Proof.KI.R0Runs

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
noncomputable def kernelRun0_A (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : cond0_0 i) (hc1 : ¬cond0_1 i)
    (x0 : Vec F S152x100 .i32) (x1 : Vec F S256x1 .f32) (x2 : Vec F S152x1 .f32) :
    Σ' (L3 : List (View.Piece (Elt F) S1x100x1 .f32)), { LS0 : List (View.Piece (Elt F) S100x1 .f32) //
      ∀ (xi3 : Vec F S1x100x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc0__gather_mean_kernel i arg3 harg3 arg4 harg4 arg5 harg5 arg6 harg6 arg7 harg7) K } := by
  refine ⟨[], ?_, fun xi3 E K => ?run⟩
  case run =>
    simp only [cc0__gather_mean_kernel_eq_skeleton]; unfold cc0__gather_mean_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun0_B (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : ¬cond0_1 i)
    (x0 : Vec F S152x100 .i32) (x1 : Vec F S256x1 .f32) (x2 : Vec F S152x1 .f32) (xs0 : Vec F S100x1 .f32) :
    Σ' (L3 : List (View.Piece (Elt F) S1x100x1 .f32)), { LS0 : List (View.Piece (Elt F) S100x1 .f32) //
      ∀ (xi3 : Vec F S1x100x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc0__gather_mean_kernel i arg3 harg3 arg4 harg4 arg5 harg5 arg6 harg6 arg7 harg7) K } := by
  refine ⟨[], ?_, fun xi3 E K => ?run⟩
  case run =>
    simp only [cc0__gather_mean_kernel_eq_skeleton]; unfold cc0__gather_mean_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun0_C (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : cond0_1 i)
    (x0 : Vec F S152x100 .i32) (x1 : Vec F S256x1 .f32) (x2 : Vec F S152x1 .f32) (xs0 : Vec F S100x1 .f32) :
    Σ' (L3 : List (View.Piece (Elt F) S1x100x1 .f32)), { LS0 : List (View.Piece (Elt F) S100x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc0__gather_mean_kernel i arg3 harg3 arg4 harg4 arg5 harg5 arg6 harg6 arg7 harg7) K } := by
  refine ⟨?_, ?_, fun E K => ?run⟩
  case run =>
    simp only [cc0__gather_mean_kernel_eq_skeleton]; unfold cc0__gather_mean_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1
    obtain rfl := harg5.eq_unread hf2; obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; iexact H3
    iexists _; iexact HS0

end Cert.KernelIdeal.R0

end
-- ==== Proof.KI.R0.lean ====
import proofs.«406789_j53094385713523_3_alg».proof.Proof.KI.R0Run

set_option maxRecDepth 16384

noncomputable section

namespace Cert.KernelIdeal.R0

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem scover0_A_0 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : cond0_0 i) (hc1 : ¬cond0_1 i) (x0 : Vec F S152x100 .i32) (x1 : Vec F S256x1 .f32) (x2 : Vec F S152x1 .f32) (y : S100x1.Idx) :
    ∃ pc ∈ (kernelRun0_A c i arg3 harg3 arg4 harg4 arg5 harg5 arg6 harg6 arg7 harg7 hc0 hc1 x0 x1 x2).2.1, y ∈ pc.1.set :=
  View.cover_of_tiledL (kernelRun0_A c i arg3 harg3 arg4 harg4 arg5 harg5 arg6 harg6 arg7 harg7 hc0 hc1 x0 x1 x2).2.1 S100x1.size (by sl_kernel_rfl) y

def sout0_A_0 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : cond0_0 i) (hc1 : ¬cond0_1 i) (x0 : Vec F S152x100 .i32) (x1 : Vec F S256x1 .f32) (x2 : Vec F S152x1 .f32) : Vec F S100x1 .f32 :=
  VS0_0.read (Elt F) (VS0_0.writes (Elt F) VS0_0.junk (kernelRun0_A c i arg3 harg3 arg4 harg4 arg5 harg5 arg6 harg6 arg7 harg7 hc0 hc1 x0 x1 x2).2.1)

theorem scover0_B_0 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : ¬cond0_1 i) (x0 : Vec F S152x100 .i32) (x1 : Vec F S256x1 .f32) (x2 : Vec F S152x1 .f32) (xs0 : Vec F S100x1 .f32) (y : S100x1.Idx) :
    ∃ pc ∈ (kernelRun0_B c i arg3 harg3 arg4 harg4 arg5 harg5 arg6 harg6 arg7 harg7 hc0 hc1 x0 x1 x2 xs0).2.1, y ∈ pc.1.set :=
  View.cover_of_tiledL (kernelRun0_B c i arg3 harg3 arg4 harg4 arg5 harg5 arg6 harg6 arg7 harg7 hc0 hc1 x0 x1 x2 xs0).2.1 S100x1.size (by sl_kernel_rfl) y

def sout0_B_0 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : ¬cond0_1 i) (x0 : Vec F S152x100 .i32) (x1 : Vec F S256x1 .f32) (x2 : Vec F S152x1 .f32) (xs0 : Vec F S100x1 .f32) : Vec F S100x1 .f32 :=
  VS0_0.read (Elt F) (VS0_0.writes (Elt F) VS0_0.junk (kernelRun0_B c i arg3 harg3 arg4 harg4 arg5 harg5 arg6 harg6 arg7 harg7 hc0 hc1 x0 x1 x2 xs0).2.1)

theorem cover0_C_3 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : cond0_1 i) (x0 : Vec F S152x100 .i32) (x1 : Vec F S256x1 .f32) (x2 : Vec F S152x1 .f32) (xs0 : Vec F S100x1 .f32) (y : S1x100x1.Idx) :
    ∃ pc ∈ (kernelRun0_C c i arg3 harg3 arg4 harg4 arg5 harg5 arg6 harg6 arg7 harg7 hc0 hc1 x0 x1 x2 xs0).1, y ∈ pc.1.set :=
  View.cover_of_tiledL (kernelRun0_C c i arg3 harg3 arg4 harg4 arg5 harg5 arg6 harg6 arg7 harg7 hc0 hc1 x0 x1 x2 xs0).1 S1x100x1.size (by sl_kernel_rfl) y

def out0_C_3 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : cond0_1 i) (x0 : Vec F S152x100 .i32) (x1 : Vec F S256x1 .f32) (x2 : Vec F S152x1 .f32) (xs0 : Vec F S100x1 .f32) : Vec F S1x100x1 .f32 :=
  VO0_3.read (Elt F) (VO0_3.writes (Elt F) VO0_3.junk (kernelRun0_C c i arg3 harg3 arg4 harg4 arg5 harg5 arg6 harg6 arg7 harg7 hc0 hc1 x0 x1 x2 xs0).1)

theorem scover0_C_0 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : cond0_1 i) (x0 : Vec F S152x100 .i32) (x1 : Vec F S256x1 .f32) (x2 : Vec F S152x1 .f32) (xs0 : Vec F S100x1 .f32) (y : S100x1.Idx) :
    ∃ pc ∈ (kernelRun0_C c i arg3 harg3 arg4 harg4 arg5 harg5 arg6 harg6 arg7 harg7 hc0 hc1 x0 x1 x2 xs0).2.1, y ∈ pc.1.set :=
  View.cover_of_tiledL (kernelRun0_C c i arg3 harg3 arg4 harg4 arg5 harg5 arg6 harg6 arg7 harg7 hc0 hc1 x0 x1 x2 xs0).2.1 S100x1.size (by sl_kernel_rfl) y

def sout0_C_0 (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : cond0_1 i) (x0 : Vec F S152x100 .i32) (x1 : Vec F S256x1 .f32) (x2 : Vec F S152x1 .f32) (xs0 : Vec F S100x1 .f32) : Vec F S100x1 .f32 :=
  VS0_0.read (Elt F) (VS0_0.writes (Elt F) VS0_0.junk (kernelRun0_C c i arg3 harg3 arg4 harg4 arg5 harg5 arg6 harg6 arg7 harg7 hc0 hc1 x0 x1 x2 xs0).2.1)

def restOut0 : Vec F S1x100x1 .f32 := VO0_3.read (Elt F) VO0_3.junk

def stepA0 (c : Dev nD) (t : Fin cfg0.N) (h0 : t.val % 24 = 0) : Vec F S1x100x1 .f32 × Vec F S100x1 .f32 :=
  (restOut0, sout0_A_0 c (grid0.coords t) (ms0_0 t) (hs0_0 t) (ms0_1 t) (hs0_1 t) (ms0_2 t) (hs0_2 t) (ms0_3 t) (hs0_3 t) scM0_0 (Memref.isWhole_whole _)
    ((hcond0_0 t).mpr h0) (fun h => by have := (hcond0_1 t).mp h; omega) (iblk0 V c 0 t) (iblk0 V c 1 t) (iblk0 V c 2 t))

def stepB0 (c : Dev nD) (t : Fin cfg0.N) (h0 : ¬t.val % 24 = 0) (h1 : ¬t.val % 24 = 23) (prev : Vec F S100x1 .f32) :
    Vec F S1x100x1 .f32 × Vec F S100x1 .f32 :=
  (restOut0, sout0_B_0 c (grid0.coords t) (ms0_0 t) (hs0_0 t) (ms0_1 t) (hs0_1 t) (ms0_2 t) (hs0_2 t) (ms0_3 t) (hs0_3 t) scM0_0 (Memref.isWhole_whole _)
    (fun h => h0 ((hcond0_0 t).mp h)) (fun h => h1 ((hcond0_1 t).mp h)) (iblk0 V c 0 t) (iblk0 V c 1 t) (iblk0 V c 2 t) prev)

def stepC0 (c : Dev nD) (t : Fin cfg0.N) (h1 : t.val % 24 = 23) (prev : Vec F S100x1 .f32) :
    Vec F S1x100x1 .f32 × Vec F S100x1 .f32 :=
  (out0_C_3 c (grid0.coords t) (ms0_0 t) (hs0_0 t) (ms0_1 t) (hs0_1 t) (ms0_2 t) (hs0_2 t) (ms0_3 t) (hs0_3 t) scM0_0 (Memref.isWhole_whole _)
      (fun h => by have := (hcond0_0 t).mp h; omega) ((hcond0_1 t).mpr h1) (iblk0 V c 0 t) (iblk0 V c 1 t) (iblk0 V c 2 t) prev,
    sout0_C_0 c (grid0.coords t) (ms0_0 t) (hs0_0 t) (ms0_1 t) (hs0_1 t) (ms0_2 t) (hs0_2 t) (ms0_3 t) (hs0_3 t) scM0_0 (Memref.isWhole_whole _)
      (fun h => by have := (hcond0_0 t).mp h; omega) ((hcond0_1 t).mpr h1) (iblk0 V c 0 t) (iblk0 V c 1 t) (iblk0 V c 2 t) prev)

def outsAt0 (c : Dev nD) : (n : ℕ) → n < cfg0.N → Vec F S1x100x1 .f32 × Vec F S100x1 .f32
  | 0, hn => stepA0 V c ⟨0, hn⟩ (Nat.zero_mod _)
  | n + 1, hn =>
    if h1 : (n + 1) % 24 = 23 then stepC0 V c ⟨n + 1, hn⟩ h1 (outsAt0 c n (Nat.lt_of_succ_lt hn)).2
    else if h0 : (n + 1) % 24 = 0 then stepA0 V c ⟨n + 1, hn⟩ h0
    else stepB0 V c ⟨n + 1, hn⟩ h0 h1 (outsAt0 c n (Nat.lt_of_succ_lt hn)).2

theorem outsAt0_A (c : Dev nD) (t : Fin cfg0.N) (h0 : t.val % 24 = 0) :
    outsAt0 V c t.val t.isLt = stepA0 V c t h0 := by
  obtain ⟨n, hn⟩ := t
  cases n with
  | zero => rfl
  | succ n =>
    have h0' : (n + 1) % 24 = 0 := h0
    exact (dif_neg (by omega)).trans ((dif_pos h0').trans rfl)

theorem outsAt0_B (c : Dev nD) (t : Fin cfg0.N) (h0 : ¬t.val % 24 = 0) (h1 : ¬t.val % 24 = 23) :
    outsAt0 V c t.val t.isLt
      = stepB0 V c t h0 h1 (outsAt0 V c (t.val - 1) (Nat.lt_of_le_of_lt (Nat.sub_le _ _) t.isLt)).2 := by
  obtain ⟨n, hn⟩ := t
  cases n with
  | zero => exact absurd (Nat.zero_mod _) h0
  | succ n => exact (dif_neg h1).trans ((dif_neg h0).trans rfl)

theorem outsAt0_C (c : Dev nD) (t : Fin cfg0.N) (h1 : t.val % 24 = 23) :
    outsAt0 V c t.val t.isLt
      = stepC0 V c t h1 (outsAt0 V c (t.val - 1) (Nat.lt_of_le_of_lt (Nat.sub_le _ _) t.isLt)).2 := by
  obtain ⟨n, hn⟩ := t
  cases n with
  | zero => exact absurd (show (0 : ℕ) % 24 = 23 from h1) (by decide)
  | succ n => exact (dif_pos h1).trans rfl

def PhiS0 (c : Dev nD) : (n : ℕ) → n ≤ cfg0.N → sProp 𝕄
  | 0, _ => Pipeline.ΦA spec0 c
  | n + 1, hn => iprop(iprop(owns (c : Thread nD τ) scM0_0 fullShare (outsAt0 V c n hn).2
      ∗ Pipeline.scopedRestBut (Ix := Unit) (Name := ℕ) (U := UR sig nD τ) (Lvl := ℕ) (Val := Elt F) spec0 c [cc0_scratch0]) ∗ (∃ r, prngReg c r))

theorem PhiS0_succ (c : Dev nD) (n : ℕ) (hn : n < cfg0.N) :
    PhiS0 V c (n + 1) hn = iprop(iprop(owns (c : Thread nD τ) scM0_0 fullShare (outsAt0 V c n hn).2
      ∗ Pipeline.scopedRestBut (Ix := Unit) (Name := ℕ) (U := UR sig nD τ) (Lvl := ℕ) (Val := Elt F) spec0 c [cc0_scratch0]) ∗ (∃ r, prngReg c r)) := rfl

theorem PhiS0_pos (c : Dev nD) (n : ℕ) (h : n ≤ cfg0.N) (hz : n ≠ 0) :
    PhiS0 V c n h = iprop(iprop(owns (c : Thread nD τ) scM0_0 fullShare (outsAt0 V c (n - 1) (by omega)).2
      ∗ Pipeline.scopedRestBut (Ix := Unit) (Name := ℕ) (U := UR sig nD τ) (Lvl := ℕ) (Val := Elt F) spec0 c [cc0_scratch0]) ∗ (∃ r, prngReg c r)) := by
  cases n with
  | zero => exact absurd rfl hz
  | succ n => rfl

theorem PhiS0_open (c : Dev nD) : ∀ (n : ℕ) (h : n ≤ cfg0.N), PhiS0 V c n h
    ⊢ iprop(iprop(iprop((∃ d, owns (c : Thread nD τ) scM0_0 fullShare d)) ∗ Pipeline.scopedRestBut (Ix := Unit) (Name := ℕ) (U := UR sig nD τ) (Lvl := ℕ) (Val := Elt F) spec0 c [cc0_scratch0]) ∗ (∃ r, prngReg c r))
  | 0, _ => Entails.of_eq (PhiA0_eq c)
  | n + 1, hn => by
    rw [PhiS0_succ]
    iintro ⟨⟨HS, HR⟩, Hg⟩
    isplitl [HS HR]
    · isplitl [HS]
      · iexists _; iexact HS
      · iexact HR
    · iexact Hg

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

theorem leaves0_0 (c : Dev nD) (t : Fin cfg0.N) :
    (dat0 V c).leavesExact 0 t = owns (c : Thread nD τ) (ms0_0 t) fullShare (iblk0 V c 0 t) := by
  rw [← after0_0 V c t]
theorem leaves0_1 (c : Dev nD) (t : Fin cfg0.N) :
    (dat0 V c).leavesExact 1 t = owns (c : Thread nD τ) (ms0_1 t) fullShare (iblk0 V c 1 t) := by
  rw [← after0_1 V c t]
theorem leaves0_2 (c : Dev nD) (t : Fin cfg0.N) :
    (dat0 V c).leavesExact 2 t = owns (c : Thread nD τ) (ms0_2 t) fullShare (iblk0 V c 2 t) := by
  rw [← after0_2 V c t]
theorem leaves0_3_rest (c : Dev nD) (t : Fin cfg0.N) (h : ¬t.val % 24 = 23) :
    (dat0 V c).leavesExact 3 t = iprop(∃ d, owns (c : Thread nD τ) (ms0_3 t) fullShare ((dat0 V c).before 3 t d)) :=
  Dat.leavesExact_idle (dat0 V c) 3 t (idleAt0_3 t h) (noFlush0_3 t h)
theorem leaves0_3_emit (c : Dev nD) (t : Fin cfg0.N) (h : t.val % 24 = 23) :
    (dat0 V c).leavesExact 3 t = owns (c : Thread nD τ) (ms0_3 t) fullShare (outsAt0 V c t.val t.isLt).1 := by
  unfold Dat.leavesExact; rw [liveAt0_3 t h, after0_3]

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    show (dat0 V c).Φ t.succ = PhiS0 V c (t.val + 1) t.isLt from rfl, PhiS0_succ,
    leaves0_0, leaves0_1, leaves0_2, PhiS0_castSucc V c t]
  have hN : t.val < 48 := lt_N0 t
  by_cases h1 : t.val % 24 = 23
  ·
    have hz : t.val ≠ 0 := by omega
    rw [leaves0_3_emit V c t h1, outsAt0_C V c t h1, PhiS0_pos V c _ _ hz]
    unfold stepC0 out0_C_3 sout0_C_0; dsimp only
    iintro ⟨⟨⟨HS0, HR⟩, Hg⟩, Ho, ⟨%d0, H0⟩, ⟨%d1, H1⟩, ⟨%d2, H2⟩, ⟨%d3, H3⟩⟩
    iapply ((kernelRun0_C c (grid0.coords t) _ _ _ _ _ _ _ _ _ _ (fun h => by have := (hcond0_0 t).mp h; omega)
      ((hcond0_1 t).mpr h1) (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover0_C_0 c _ _ _ _ _ _ _ _ _ _ _ _ _ _ _ _ _)
        · iexact HR
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _)
  · rw [leaves0_3_rest V c t h1]
    by_cases h0 : t.val % 24 = 0
    ·
      rw [outsAt0_A V c t h0]
      unfold stepA0 sout0_A_0; dsimp only
      iintro ⟨HΦ, Ho, ⟨%d0, H0⟩, ⟨%d1, H1⟩, ⟨%d2, H2⟩, ⟨%d3, H3⟩⟩
      ihave HΦ' := (PhiS0_open V c t.val _) $$ HΦ
      icases HΦ' with ⟨⟨HS0, HR⟩, Hg⟩
      iapply ((kernelRun0_A c (grid0.coords t) _ _ _ _ _ _ _ _ _ _ ((hcond0_0 t).mpr h0)
        (fun h => by have := (hcond0_1 t).mp h; omega) (iblk0 V c 0 t) (iblk0 V c 1 t) (iblk0 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_A_0 c _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3
    ·
      have hz : t.val ≠ 0 := fun e => h0 (by rw [e])
      rw [outsAt0_B V c t h0 h1, PhiS0_pos V c _ _ hz]
      unfold stepB0 sout0_B_0; dsimp only
      iintro ⟨⟨⟨HS0, HR⟩, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h))
        (fun h => h1 ((hcond0_1 t).mp h)) (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover0_B_0 c _ _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3

theorem body_obligation0 (c : Dev nD) :
    BodyObligation (dat0 (F := F) V c) (defs₀ (F := F)) Variants.none () Set.univ := fun t => by
  rw [bigSep_W0, bigSep_W0]
  exact sound_body0 V c t

theorem hin0 (c : Dev nD) : Pipeline.ΦA spec0 c ⊢ (dat0 V c).Φ 0 :=
  Entails.of_eq rfl

theorem hout0 (c : Dev nD) : (dat0 V c).Φ (Fin.last cfg0.N) ⊢ Pipeline.ΦA spec0 c := by
  rw [PhiA0_eq]
  show PhiS0 V c (Fin.last cfg0.N).val (Nat.le_of_lt_succ (Fin.last cfg0.N).isLt) ⊢ _
  exact PhiS0_open V c _ _

end Cert.KernelIdeal.R0

end
-- ==== Proof.KI.R1Runs.lean ====
import proofs.«406789_j53094385713523_3_alg».proof.Proof.Gen.KernelIdeal.Launch
import proofs.«406789_j53094385713523_3_alg».proof.Proof.Gen.KernelIdeal.Skeleton
import proofs.«406789_j53094385713523_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) :
    ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c)
    (hA : dat.A 0 = V c (Pipeline.arrRef spec1 0)) (hafter : ∀ t, dat.after 0 t = iblk1 V c 0 t)
    (t : Fin cfg1.N) (d) : dat.before 0 t d = iblk1 V c 0 t := by
  refine (dat.before_in_eq_fetched 0 rfl (fun _ => rfl) (fun _ _ _ => rfl) (fun s => ?_) t d).trans ?_
  · rw [hafter]; unfold Dat.blockOf iblk1; rw [hA]; try rfl
  · unfold Dat.fetched Dat.blockOf iblk1; rw [hA]; try rfl

theorem before1_1_of {c : Dev nD} (dat : Dat τ (Elt F) Unit ℕ (UR sig nD τ) ℕ cfg1 c)
    (hA : dat.A 1 = V c (Pipeline.arrRef spec1 1)) (hafter : ∀ t, dat.after 1 t = iblk1 V c 1 t)
    (t : Fin cfg1.N) (d) : dat.before 1 t d = iblk1 V c 1 t := by
  refine (dat.before_in_eq_fetched 1 rfl (fun _ => rfl) (fun _ _ _ => rfl) (fun s => ?_) t d).trans ?_
  · rw [hafter]; unfold Dat.blockOf iblk1; rw [hA]; try rfl
  · unfold Dat.fetched Dat.blockOf iblk1; rw [hA]; try rfl

theorem before1_2_of {c : Dev nD} (dat : Dat τ (Elt F) Unit ℕ (UR sig nD τ) ℕ cfg1 c)
    (hA : dat.A 2 = V c (Pipeline.arrRef spec1 2)) (hafter : ∀ t, dat.after 2 t = iblk1 V c 2 t)
    (t : Fin cfg1.N) (d) : dat.before 2 t d = iblk1 V c 2 t := by
  refine (dat.before_in_eq_fetched 2 rfl (fun _ => rfl) (fun _ _ _ => rfl) (fun s => ?_) t d).trans ?_
  · rw [hafter]; unfold Dat.blockOf iblk1; rw [hA]; try rfl
  · unfold Dat.fetched Dat.blockOf iblk1; rw [hA]; try rfl

abbrev cond1_0 (i : grid1.Coords) : Prop :=
  Scalar.cmpi .ne (Scalar.extui (Scalar.andi (Scalar.cmpi .eq (BitVec.ofNat 32 (i 1).val) 0#32)
    (Scalar.cmpi .eq (BitVec.ofNat 32 (i 2).val) 0#32))) 0#32 = 1#1

theorem hcond1_0 : ∀ t : Fin cfg1.N, cond1_0 (grid1.coords t) ↔ t.val % 132 = 0 :=
  (by decide +kernel : ∀ t : Fin grid1.N, cond1_0 (grid1.coords t) ↔ t.val % 132 = 0)

abbrev cond1_1 (i : grid1.Coords) : Prop := k1_cond2 i = 1#1

theorem hcond1_1 : ∀ t : Fin cfg1.N, cond1_1 (grid1.coords t) ↔ t.val % 132 = 131 :=
  (by decide +kernel : ∀ t : Fin grid1.N, cond1_1 (grid1.coords t) ↔ t.val % 132 = 131)

theorem lt_N1 (t : Fin cfg1.N) : t.val < 264 := lt_of_lt_of_eq t.isLt (show cfg1.N = 264 from N_1)

theorem idle1_3_iff : ∀ t : Fin cfg1.N, cfg1.idle 3 (grid1.coords t) = true ↔ ¬t.val % 132 = 131 :=
  (by decide +kernel : ∀ t : Fin grid1.N, idle1 3 (grid1.coords t) = true ↔ ¬t.val % 132 = 131)

theorem idleAt1_3 (t : Fin cfg1.N) (h : ¬t.val % 132 = 131) : cfg1.idle 3 (grid1.coords t) = true :=
  (idle1_3_iff t).mpr h

theorem liveAt1_3 (t : Fin cfg1.N) (h : t.val % 132 = 131) : cfg1.idle 3 (grid1.coords t) = false :=
  Bool.eq_false_iff.mpr fun hi => (idle1_3_iff t).mp hi h

theorem noFlush1_3 (t : Fin cfg1.N) (h : ¬t.val % 132 = 131) : (cfg1.win 3).flush t = false :=
  Bool.eq_false_iff.mpr fun hf => h ((flush1_3 t).mp hf)

abbrev ms1_0 (t : Fin cfg1.N) : Memref sig .tc .vmem S72x200 .i32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S72x1 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x200x1 .f32 := win1_3.stage (cfg1.slots t 3)
abbrev hs1_3 (t : Fin cfg1.N) : (ms1_3 t).IsWhole := hstage1_3 ((cfg1.slots t 3).cast nbuf1_3)

abbrev scM1_0 : Memref sig .tc .vmem S200x1 .f32 := Memref.whole cc1_scratch0

abbrev VO1_3 : View sig .tc .vmem S1x200x1 .f32 := (Memref.whole cc1_stg3_0 : Memref sig .tc .vmem S1x200x1 .f32).view
abbrev VS1_0 : View sig .tc .vmem S200x1 .f32 := scM1_0.view

theorem PhiA1_eq (c : Dev nD) :
    (Pipeline.ΦA spec1 c : sProp 𝕄)
      = iprop(iprop(iprop((∃ d, owns (c : Thread nD τ) scM1_0 fullShare d))
          ∗ Pipeline.scopedRestBut (Ix := Unit) (Name := ℕ) (U := UR sig nD τ) (Lvl := ℕ) (Val := Elt F) spec1 c [cc1_scratch0])
        ∗ (∃ r, prngReg c r)) := by
  unfold Pipeline.ΦA; rw [scopedRest1_split]; simp only [scM1_0, owns_whole]; try rfl

end Cert.KernelIdeal.R1

end
-- ==== Proof.KI.R1Run.lean ====
import proofs.«406789_j53094385713523_3_alg».proof.Proof.KI.R1Runs

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
noncomputable def kernelRun1_A (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : cond1_0 i) (hc1 : ¬cond1_1 i)
    (x0 : Vec F S72x200 .i32) (x1 : Vec F S256x1 .f32) (x2 : Vec F S72x1 .f32) :
    Σ' (L3 : List (View.Piece (Elt F) S1x200x1 .f32)), { LS0 : List (View.Piece (Elt F) S200x1 .f32) //
      ∀ (xi3 : Vec F S1x200x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__gather_mean_kernel i arg3 harg3 arg4 harg4 arg5 harg5 arg6 harg6 arg7 harg7) K } := by
  refine ⟨[], ?_, fun xi3 E K => ?run⟩
  case run =>
    simp only [cc1__gather_mean_kernel_eq_skeleton]; unfold cc1__gather_mean_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun1_B (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : ¬cond1_1 i)
    (x0 : Vec F S72x200 .i32) (x1 : Vec F S256x1 .f32) (x2 : Vec F S72x1 .f32) (xs0 : Vec F S200x1 .f32) :
    Σ' (L3 : List (View.Piece (Elt F) S1x200x1 .f32)), { LS0 : List (View.Piece (Elt F) S200x1 .f32) //
      ∀ (xi3 : Vec F S1x200x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc1__gather_mean_kernel i arg3 harg3 arg4 harg4 arg5 harg5 arg6 harg6 arg7 harg7) K } := by
  refine ⟨[], ?_, fun xi3 E K => ?run⟩
  case run =>
    simp only [cc1__gather_mean_kernel_eq_skeleton]; unfold cc1__gather_mean_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun1_C (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : cond1_1 i)
    (x0 : Vec F S72x200 .i32) (x1 : Vec F S256x1 .f32) (x2 : Vec F S72x1 .f32) (xs0 : Vec F S200x1 .f32) :
    Σ' (L3 : List (View.Piece (Elt F) S1x200x1 .f32)), { LS0 : List (View.Piece (Elt F) S200x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc1__gather_mean_kernel i arg3 harg3 arg4 harg4 arg5 harg5 arg6 harg6 arg7 harg7) K } := by
  refine ⟨?_, ?_, fun E K => ?run⟩
  case run =>
    simp only [cc1__gather_mean_kernel_eq_skeleton]; unfold cc1__gather_mean_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1
    obtain rfl := harg5.eq_unread hf2; obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; iexact H3
    iexists _; iexact HS0

end Cert.KernelIdeal.R1

end
-- ==== Proof.KI.R1.lean ====
import proofs.«406789_j53094385713523_3_alg».proof.Proof.KI.R1Run

set_option maxRecDepth 16384

noncomputable section

namespace Cert.KernelIdeal.R1

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem scover1_A_0 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : cond1_0 i) (hc1 : ¬cond1_1 i) (x0 : Vec F S72x200 .i32) (x1 : Vec F S256x1 .f32) (x2 : Vec F S72x1 .f32) (y : S200x1.Idx) :
    ∃ pc ∈ (kernelRun1_A c i arg3 harg3 arg4 harg4 arg5 harg5 arg6 harg6 arg7 harg7 hc0 hc1 x0 x1 x2).2.1, y ∈ pc.1.set :=
  View.cover_of_tiledL (kernelRun1_A c i arg3 harg3 arg4 harg4 arg5 harg5 arg6 harg6 arg7 harg7 hc0 hc1 x0 x1 x2).2.1 S200x1.size (by sl_kernel_rfl) y

def sout1_A_0 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : cond1_0 i) (hc1 : ¬cond1_1 i) (x0 : Vec F S72x200 .i32) (x1 : Vec F S256x1 .f32) (x2 : Vec F S72x1 .f32) : Vec F S200x1 .f32 :=
  VS1_0.read (Elt F) (VS1_0.writes (Elt F) VS1_0.junk (kernelRun1_A c i arg3 harg3 arg4 harg4 arg5 harg5 arg6 harg6 arg7 harg7 hc0 hc1 x0 x1 x2).2.1)

theorem scover1_B_0 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : ¬cond1_1 i) (x0 : Vec F S72x200 .i32) (x1 : Vec F S256x1 .f32) (x2 : Vec F S72x1 .f32) (xs0 : Vec F S200x1 .f32) (y : S200x1.Idx) :
    ∃ pc ∈ (kernelRun1_B c i arg3 harg3 arg4 harg4 arg5 harg5 arg6 harg6 arg7 harg7 hc0 hc1 x0 x1 x2 xs0).2.1, y ∈ pc.1.set :=
  View.cover_of_tiledL (kernelRun1_B c i arg3 harg3 arg4 harg4 arg5 harg5 arg6 harg6 arg7 harg7 hc0 hc1 x0 x1 x2 xs0).2.1 S200x1.size (by sl_kernel_rfl) y

def sout1_B_0 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : ¬cond1_1 i) (x0 : Vec F S72x200 .i32) (x1 : Vec F S256x1 .f32) (x2 : Vec F S72x1 .f32) (xs0 : Vec F S200x1 .f32) : Vec F S200x1 .f32 :=
  VS1_0.read (Elt F) (VS1_0.writes (Elt F) VS1_0.junk (kernelRun1_B c i arg3 harg3 arg4 harg4 arg5 harg5 arg6 harg6 arg7 harg7 hc0 hc1 x0 x1 x2 xs0).2.1)

theorem cover1_C_3 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : cond1_1 i) (x0 : Vec F S72x200 .i32) (x1 : Vec F S256x1 .f32) (x2 : Vec F S72x1 .f32) (xs0 : Vec F S200x1 .f32) (y : S1x200x1.Idx) :
    ∃ pc ∈ (kernelRun1_C c i arg3 harg3 arg4 harg4 arg5 harg5 arg6 harg6 arg7 harg7 hc0 hc1 x0 x1 x2 xs0).1, y ∈ pc.1.set :=
  View.cover_of_tiledL (kernelRun1_C c i arg3 harg3 arg4 harg4 arg5 harg5 arg6 harg6 arg7 harg7 hc0 hc1 x0 x1 x2 xs0).1 S1x200x1.size (by sl_kernel_rfl) y

def out1_C_3 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : cond1_1 i) (x0 : Vec F S72x200 .i32) (x1 : Vec F S256x1 .f32) (x2 : Vec F S72x1 .f32) (xs0 : Vec F S200x1 .f32) : Vec F S1x200x1 .f32 :=
  VO1_3.read (Elt F) (VO1_3.writes (Elt F) VO1_3.junk (kernelRun1_C c i arg3 harg3 arg4 harg4 arg5 harg5 arg6 harg6 arg7 harg7 hc0 hc1 x0 x1 x2 xs0).1)

theorem scover1_C_0 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : cond1_1 i) (x0 : Vec F S72x200 .i32) (x1 : Vec F S256x1 .f32) (x2 : Vec F S72x1 .f32) (xs0 : Vec F S200x1 .f32) (y : S200x1.Idx) :
    ∃ pc ∈ (kernelRun1_C c i arg3 harg3 arg4 harg4 arg5 harg5 arg6 harg6 arg7 harg7 hc0 hc1 x0 x1 x2 xs0).2.1, y ∈ pc.1.set :=
  View.cover_of_tiledL (kernelRun1_C c i arg3 harg3 arg4 harg4 arg5 harg5 arg6 harg6 arg7 harg7 hc0 hc1 x0 x1 x2 xs0).2.1 S200x1.size (by sl_kernel_rfl) y

def sout1_C_0 (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : cond1_1 i) (x0 : Vec F S72x200 .i32) (x1 : Vec F S256x1 .f32) (x2 : Vec F S72x1 .f32) (xs0 : Vec F S200x1 .f32) : Vec F S200x1 .f32 :=
  VS1_0.read (Elt F) (VS1_0.writes (Elt F) VS1_0.junk (kernelRun1_C c i arg3 harg3 arg4 harg4 arg5 harg5 arg6 harg6 arg7 harg7 hc0 hc1 x0 x1 x2 xs0).2.1)

def restOut1 : Vec F S1x200x1 .f32 := VO1_3.read (Elt F) VO1_3.junk

def stepA1 (c : Dev nD) (t : Fin cfg1.N) (h0 : t.val % 132 = 0) : Vec F S1x200x1 .f32 × Vec F S200x1 .f32 :=
  (restOut1, sout1_A_0 c (grid1.coords t) (ms1_0 t) (hs1_0 t) (ms1_1 t) (hs1_1 t) (ms1_2 t) (hs1_2 t) (ms1_3 t) (hs1_3 t) scM1_0 (Memref.isWhole_whole _)
    ((hcond1_0 t).mpr h0) (fun h => by have := (hcond1_1 t).mp h; omega) (iblk1 V c 0 t) (iblk1 V c 1 t) (iblk1 V c 2 t))

def stepB1 (c : Dev nD) (t : Fin cfg1.N) (h0 : ¬t.val % 132 = 0) (h1 : ¬t.val % 132 = 131) (prev : Vec F S200x1 .f32) :
    Vec F S1x200x1 .f32 × Vec F S200x1 .f32 :=
  (restOut1, sout1_B_0 c (grid1.coords t) (ms1_0 t) (hs1_0 t) (ms1_1 t) (hs1_1 t) (ms1_2 t) (hs1_2 t) (ms1_3 t) (hs1_3 t) scM1_0 (Memref.isWhole_whole _)
    (fun h => h0 ((hcond1_0 t).mp h)) (fun h => h1 ((hcond1_1 t).mp h)) (iblk1 V c 0 t) (iblk1 V c 1 t) (iblk1 V c 2 t) prev)

def stepC1 (c : Dev nD) (t : Fin cfg1.N) (h1 : t.val % 132 = 131) (prev : Vec F S200x1 .f32) :
    Vec F S1x200x1 .f32 × Vec F S200x1 .f32 :=
  (out1_C_3 c (grid1.coords t) (ms1_0 t) (hs1_0 t) (ms1_1 t) (hs1_1 t) (ms1_2 t) (hs1_2 t) (ms1_3 t) (hs1_3 t) scM1_0 (Memref.isWhole_whole _)
      (fun h => by have := (hcond1_0 t).mp h; omega) ((hcond1_1 t).mpr h1) (iblk1 V c 0 t) (iblk1 V c 1 t) (iblk1 V c 2 t) prev,
    sout1_C_0 c (grid1.coords t) (ms1_0 t) (hs1_0 t) (ms1_1 t) (hs1_1 t) (ms1_2 t) (hs1_2 t) (ms1_3 t) (hs1_3 t) scM1_0 (Memref.isWhole_whole _)
      (fun h => by have := (hcond1_0 t).mp h; omega) ((hcond1_1 t).mpr h1) (iblk1 V c 0 t) (iblk1 V c 1 t) (iblk1 V c 2 t) prev)

def outsAt1 (c : Dev nD) : (n : ℕ) → n < cfg1.N → Vec F S1x200x1 .f32 × Vec F S200x1 .f32
  | 0, hn => stepA1 V c ⟨0, hn⟩ (Nat.zero_mod _)
  | n + 1, hn =>
    if h1 : (n + 1) % 132 = 131 then stepC1 V c ⟨n + 1, hn⟩ h1 (outsAt1 c n (Nat.lt_of_succ_lt hn)).2
    else if h0 : (n + 1) % 132 = 0 then stepA1 V c ⟨n + 1, hn⟩ h0
    else stepB1 V c ⟨n + 1, hn⟩ h0 h1 (outsAt1 c n (Nat.lt_of_succ_lt hn)).2

theorem outsAt1_A (c : Dev nD) (t : Fin cfg1.N) (h0 : t.val % 132 = 0) :
    outsAt1 V c t.val t.isLt = stepA1 V c t h0 := by
  obtain ⟨n, hn⟩ := t
  cases n with
  | zero => rfl
  | succ n =>
    have h0' : (n + 1) % 132 = 0 := h0
    exact (dif_neg (by omega)).trans ((dif_pos h0').trans rfl)

theorem outsAt1_B (c : Dev nD) (t : Fin cfg1.N) (h0 : ¬t.val % 132 = 0) (h1 : ¬t.val % 132 = 131) :
    outsAt1 V c t.val t.isLt
      = stepB1 V c t h0 h1 (outsAt1 V c (t.val - 1) (Nat.lt_of_le_of_lt (Nat.sub_le _ _) t.isLt)).2 := by
  obtain ⟨n, hn⟩ := t
  cases n with
  | zero => exact absurd (Nat.zero_mod _) h0
  | succ n => exact (dif_neg h1).trans ((dif_neg h0).trans rfl)

theorem outsAt1_C (c : Dev nD) (t : Fin cfg1.N) (h1 : t.val % 132 = 131) :
    outsAt1 V c t.val t.isLt
      = stepC1 V c t h1 (outsAt1 V c (t.val - 1) (Nat.lt_of_le_of_lt (Nat.sub_le _ _) t.isLt)).2 := by
  obtain ⟨n, hn⟩ := t
  cases n with
  | zero => exact absurd (show (0 : ℕ) % 132 = 131 from h1) (by decide)
  | succ n => exact (dif_pos h1).trans rfl

def PhiS1 (c : Dev nD) : (n : ℕ) → n ≤ cfg1.N → sProp 𝕄
  | 0, _ => Pipeline.ΦA spec1 c
  | n + 1, hn => iprop(iprop(owns (c : Thread nD τ) scM1_0 fullShare (outsAt1 V c n hn).2
      ∗ Pipeline.scopedRestBut (Ix := Unit) (Name := ℕ) (U := UR sig nD τ) (Lvl := ℕ) (Val := Elt F) spec1 c [cc1_scratch0]) ∗ (∃ r, prngReg c r))

theorem PhiS1_succ (c : Dev nD) (n : ℕ) (hn : n < cfg1.N) :
    PhiS1 V c (n + 1) hn = iprop(iprop(owns (c : Thread nD τ) scM1_0 fullShare (outsAt1 V c n hn).2
      ∗ Pipeline.scopedRestBut (Ix := Unit) (Name := ℕ) (U := UR sig nD τ) (Lvl := ℕ) (Val := Elt F) spec1 c [cc1_scratch0]) ∗ (∃ r, prngReg c r)) := rfl

theorem PhiS1_pos (c : Dev nD) (n : ℕ) (h : n ≤ cfg1.N) (hz : n ≠ 0) :
    PhiS1 V c n h = iprop(iprop(owns (c : Thread nD τ) scM1_0 fullShare (outsAt1 V c (n - 1) (by omega)).2
      ∗ Pipeline.scopedRestBut (Ix := Unit) (Name := ℕ) (U := UR sig nD τ) (Lvl := ℕ) (Val := Elt F) spec1 c [cc1_scratch0]) ∗ (∃ r, prngReg c r)) := by
  cases n with
  | zero => exact absurd rfl hz
  | succ n => rfl

theorem PhiS1_open (c : Dev nD) : ∀ (n : ℕ) (h : n ≤ cfg1.N), PhiS1 V c n h
    ⊢ iprop(iprop(iprop((∃ d, owns (c : Thread nD τ) scM1_0 fullShare d)) ∗ Pipeline.scopedRestBut (Ix := Unit) (Name := ℕ) (U := UR sig nD τ) (Lvl := ℕ) (Val := Elt F) spec1 c [cc1_scratch0]) ∗ (∃ r, prngReg c r))
  | 0, _ => Entails.of_eq (PhiA1_eq c)
  | n + 1, hn => by
    rw [PhiS1_succ]
    iintro ⟨⟨HS, HR⟩, Hg⟩
    isplitl [HS HR]
    · isplitl [HS]
      · iexists _; iexact HS
      · iexact HR
    · iexact Hg

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

theorem leaves1_0 (c : Dev nD) (t : Fin cfg1.N) :
    (dat1 V c).leavesExact 0 t = owns (c : Thread nD τ) (ms1_0 t) fullShare (iblk1 V c 0 t) := by
  rw [← after1_0 V c t]
theorem leaves1_1 (c : Dev nD) (t : Fin cfg1.N) :
    (dat1 V c).leavesExact 1 t = owns (c : Thread nD τ) (ms1_1 t) fullShare (iblk1 V c 1 t) := by
  rw [← after1_1 V c t]
theorem leaves1_2 (c : Dev nD) (t : Fin cfg1.N) :
    (dat1 V c).leavesExact 2 t = owns (c : Thread nD τ) (ms1_2 t) fullShare (iblk1 V c 2 t) := by
  rw [← after1_2 V c t]
theorem leaves1_3_rest (c : Dev nD) (t : Fin cfg1.N) (h : ¬t.val % 132 = 131) :
    (dat1 V c).leavesExact 3 t = iprop(∃ d, owns (c : Thread nD τ) (ms1_3 t) fullShare ((dat1 V c).before 3 t d)) :=
  Dat.leavesExact_idle (dat1 V c) 3 t (idleAt1_3 t h) (noFlush1_3 t h)
theorem leaves1_3_emit (c : Dev nD) (t : Fin cfg1.N) (h : t.val % 132 = 131) :
    (dat1 V c).leavesExact 3 t = owns (c : Thread nD τ) (ms1_3 t) fullShare (outsAt1 V c t.val t.isLt).1 := by
  unfold Dat.leavesExact; rw [liveAt1_3 t h, after1_3]

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.succ = PhiS1 V c (t.val + 1) t.isLt from rfl, PhiS1_succ,
    leaves1_0, leaves1_1, leaves1_2, PhiS1_castSucc V c t]
  have hN : t.val < 264 := lt_N1 t
  by_cases h1 : t.val % 132 = 131
  ·
    have hz : t.val ≠ 0 := by omega
    rw [leaves1_3_emit V c t h1, outsAt1_C V c t h1, PhiS1_pos V c _ _ hz]
    unfold stepC1 out1_C_3 sout1_C_0; dsimp only
    iintro ⟨⟨⟨HS0, HR⟩, Hg⟩, Ho, ⟨%d0, H0⟩, ⟨%d1, H1⟩, ⟨%d2, H2⟩, ⟨%d3, H3⟩⟩
    iapply ((kernelRun1_C c (grid1.coords t) _ _ _ _ _ _ _ _ _ _ (fun h => by have := (hcond1_0 t).mp h; omega)
      ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover1_C_0 c _ _ _ _ _ _ _ _ _ _ _ _ _ _ _ _ _)
        · iexact HR
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)
  · rw [leaves1_3_rest V c t h1]
    by_cases h0 : t.val % 132 = 0
    ·
      rw [outsAt1_A V c t h0]
      unfold stepA1 sout1_A_0; dsimp only
      iintro ⟨HΦ, Ho, ⟨%d0, H0⟩, ⟨%d1, H1⟩, ⟨%d2, H2⟩, ⟨%d3, H3⟩⟩
      ihave HΦ' := (PhiS1_open V c t.val _) $$ HΦ
      icases HΦ' with ⟨⟨HS0, HR⟩, Hg⟩
      iapply ((kernelRun1_A c (grid1.coords t) _ _ _ _ _ _ _ _ _ _ ((hcond1_0 t).mpr h0)
        (fun h => by have := (hcond1_1 t).mp h; omega) (iblk1 V c 0 t) (iblk1 V c 1 t) (iblk1 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_A_0 c _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3
    ·
      have hz : t.val ≠ 0 := fun e => h0 (by rw [e])
      rw [outsAt1_B V c t h0 h1, PhiS1_pos V c _ _ hz]
      unfold stepB1 sout1_B_0; dsimp only
      iintro ⟨⟨⟨HS0, HR⟩, Hg⟩, Ho, ⟨%d0, H0⟩, ⟨%d1, H1⟩, ⟨%d2, H2⟩, ⟨%d3, H3⟩⟩
      iapply ((kernelRun1_B c (grid1.coords t) _ _ _ _ _ _ _ _ _ _ (fun h => h0 ((hcond1_0 t).mp h))
        (fun h => h1 ((hcond1_1 t).mp h)) (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover1_B_0 c _ _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3

theorem body_obligation1 (c : Dev nD) :
    BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 :=
  Entails.of_eq rfl

theorem hout1 (c : Dev nD) : (dat1 V c).Φ (Fin.last cfg1.N) ⊢ Pipeline.ΦA spec1 c := by
  rw [PhiA1_eq]
  show PhiS1 V c (Fin.last cfg1.N).val (Nat.le_of_lt_succ (Fin.last cfg1.N).isLt) ⊢ _
  exact PhiS1_open V c _ _

end Cert.KernelIdeal.R1

end
-- ==== Proof.KI.R2Runs.lean ====
import proofs.«406789_j53094385713523_3_alg».proof.Proof.Gen.KernelIdeal.Launch
import proofs.«406789_j53094385713523_3_alg».proof.Proof.Gen.KernelIdeal.Skeleton
import proofs.«406789_j53094385713523_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) :
    ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c)
    (hA : dat.A 0 = V c (Pipeline.arrRef spec2 0)) (hafter : ∀ t, dat.after 0 t = iblk2 V c 0 t)
    (t : Fin cfg2.N) (d) : dat.before 0 t d = iblk2 V c 0 t := by
  refine (dat.before_in_eq_fetched 0 rfl (fun _ => rfl) (fun _ _ _ => rfl) (fun s => ?_) t d).trans ?_
  · rw [hafter]; unfold Dat.blockOf iblk2; rw [hA]; try rfl
  · unfold Dat.fetched Dat.blockOf iblk2; rw [hA]; try rfl

theorem before2_1_of {c : Dev nD} (dat : Dat τ (Elt F) Unit ℕ (UR sig nD τ) ℕ cfg2 c)
    (hA : dat.A 1 = V c (Pipeline.arrRef spec2 1)) (hafter : ∀ t, dat.after 1 t = iblk2 V c 1 t)
    (t : Fin cfg2.N) (d) : dat.before 1 t d = iblk2 V c 1 t := by
  refine (dat.before_in_eq_fetched 1 rfl (fun _ => rfl) (fun _ _ _ => rfl) (fun s => ?_) t d).trans ?_
  · rw [hafter]; unfold Dat.blockOf iblk2; rw [hA]; try rfl
  · unfold Dat.fetched Dat.blockOf iblk2; rw [hA]; try rfl

theorem before2_2_of {c : Dev nD} (dat : Dat τ (Elt F) Unit ℕ (UR sig nD τ) ℕ cfg2 c)
    (hA : dat.A 2 = V c (Pipeline.arrRef spec2 2)) (hafter : ∀ t, dat.after 2 t = iblk2 V c 2 t)
    (t : Fin cfg2.N) (d) : dat.before 2 t d = iblk2 V c 2 t := by
  refine (dat.before_in_eq_fetched 2 rfl (fun _ => rfl) (fun _ _ _ => rfl) (fun s => ?_) t d).trans ?_
  · rw [hafter]; unfold Dat.blockOf iblk2; rw [hA]; try rfl
  · unfold Dat.fetched Dat.blockOf iblk2; rw [hA]; try rfl

abbrev cond2_0 (i : grid2.Coords) : Prop :=
  Scalar.cmpi .ne (Scalar.extui (Scalar.andi (Scalar.cmpi .eq (BitVec.ofNat 32 (i 1).val) 0#32)
    (Scalar.cmpi .eq (BitVec.ofNat 32 (i 2).val) 0#32))) 0#32 = 1#1

theorem hcond2_0 : ∀ t : Fin cfg2.N, cond2_0 (grid2.coords t) ↔ t.val % 6 = 0 :=
  (by decide +kernel : ∀ t : Fin grid2.N, cond2_0 (grid2.coords t) ↔ t.val % 6 = 0)

abbrev cond2_1 (i : grid2.Coords) : Prop := k2_cond2 i = 1#1

theorem hcond2_1 : ∀ t : Fin cfg2.N, cond2_1 (grid2.coords t) ↔ t.val % 6 = 5 :=
  (by decide +kernel : ∀ t : Fin grid2.N, cond2_1 (grid2.coords t) ↔ t.val % 6 = 5)

theorem lt_N2 (t : Fin cfg2.N) : t.val < 12 := lt_of_lt_of_eq t.isLt (show cfg2.N = 12 from N_2)

theorem idle2_3_iff : ∀ t : Fin cfg2.N, cfg2.idle 3 (grid2.coords t) = true ↔ ¬t.val % 6 = 5 :=
  (by decide +kernel : ∀ t : Fin grid2.N, idle2 3 (grid2.coords t) = true ↔ ¬t.val % 6 = 5)

theorem idleAt2_3 (t : Fin cfg2.N) (h : ¬t.val % 6 = 5) : cfg2.idle 3 (grid2.coords t) = true :=
  (idle2_3_iff t).mpr h

theorem liveAt2_3 (t : Fin cfg2.N) (h : t.val % 6 = 5) : cfg2.idle 3 (grid2.coords t) = false :=
  Bool.eq_false_iff.mpr fun hi => (idle2_3_iff t).mp hi h

theorem noFlush2_3 (t : Fin cfg2.N) (h : ¬t.val % 6 = 5) : (cfg2.win 3).flush t = false :=
  Bool.eq_false_iff.mpr fun hf => h ((flush2_3 t).mp hf)

abbrev ms2_0 (t : Fin cfg2.N) : Memref sig .tc .vmem S256x50 .i32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x1 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S256x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x50x1 .f32 := win2_3.stage (cfg2.slots t 3)
abbrev hs2_3 (t : Fin cfg2.N) : (ms2_3 t).IsWhole := hstage2_3 ((cfg2.slots t 3).cast nbuf2_3)

abbrev scM2_0 : Memref sig .tc .vmem S50x1 .f32 := Memref.whole cc2_scratch0

abbrev VO2_3 : View sig .tc .vmem S1x50x1 .f32 := (Memref.whole cc2_stg3_0 : Memref sig .tc .vmem S1x50x1 .f32).view
abbrev VS2_0 : View sig .tc .vmem S50x1 .f32 := scM2_0.view

theorem PhiA2_eq (c : Dev nD) :
    (Pipeline.ΦA spec2 c : sProp 𝕄)
      = iprop(iprop(iprop((∃ d, owns (c : Thread nD τ) scM2_0 fullShare d))
          ∗ Pipeline.scopedRestBut (Ix := Unit) (Name := ℕ) (U := UR sig nD τ) (Lvl := ℕ) (Val := Elt F) spec2 c [cc2_scratch0])
        ∗ (∃ r, prngReg c r)) := by
  unfold Pipeline.ΦA; rw [scopedRest2_split]; simp only [scM2_0, owns_whole]; try rfl

end Cert.KernelIdeal.R2

end
-- ==== Proof.KI.R2Run.lean ====
import proofs.«406789_j53094385713523_3_alg».proof.Proof.KI.R2Runs

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
noncomputable def kernelRun2_A (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : cond2_0 i) (hc1 : ¬cond2_1 i)
    (x0 : Vec F S256x50 .i32) (x1 : Vec F S256x1 .f32) (x2 : Vec F S256x1 .f32) :
    Σ' (L3 : List (View.Piece (Elt F) S1x50x1 .f32)), { LS0 : List (View.Piece (Elt F) S50x1 .f32) //
      ∀ (xi3 : Vec F S1x50x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc2__gather_mean_kernel i arg3 harg3 arg4 harg4 arg5 harg5 arg6 harg6 arg7 harg7) K } := by
  refine ⟨[], ?_, fun xi3 E K => ?run⟩
  case run =>
    simp only [cc2__gather_mean_kernel_eq_skeleton]; unfold cc2__gather_mean_kernel_skel
    simp only [k2_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun2_B (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : ¬cond2_1 i)
    (x0 : Vec F S256x50 .i32) (x1 : Vec F S256x1 .f32) (x2 : Vec F S256x1 .f32) (xs0 : Vec F S50x1 .f32) :
    Σ' (L3 : List (View.Piece (Elt F) S1x50x1 .f32)), { LS0 : List (View.Piece (Elt F) S50x1 .f32) //
      ∀ (xi3 : Vec F S1x50x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc2__gather_mean_kernel i arg3 harg3 arg4 harg4 arg5 harg5 arg6 harg6 arg7 harg7) K } := by
  refine ⟨[], ?_, fun xi3 E K => ?run⟩
  case run =>
    simp only [cc2__gather_mean_kernel_eq_skeleton]; unfold cc2__gather_mean_kernel_skel
    simp only [k2_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun2_C (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : cond2_1 i)
    (x0 : Vec F S256x50 .i32) (x1 : Vec F S256x1 .f32) (x2 : Vec F S256x1 .f32) (xs0 : Vec F S50x1 .f32) :
    Σ' (L3 : List (View.Piece (Elt F) S1x50x1 .f32)), { LS0 : List (View.Piece (Elt F) S50x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc2__gather_mean_kernel i arg3 harg3 arg4 harg4 arg5 harg5 arg6 harg6 arg7 harg7) K } := by
  refine ⟨?_, ?_, fun E K => ?run⟩
  case run =>
    simp only [cc2__gather_mean_kernel_eq_skeleton]; unfold cc2__gather_mean_kernel_skel
    simp only [k2_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1
    obtain rfl := harg5.eq_unread hf2; obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; iexact H3
    iexists _; iexact HS0

end Cert.KernelIdeal.R2

end
-- ==== Proof.KI.R2.lean ====
import proofs.«406789_j53094385713523_3_alg».proof.Proof.KI.R2Run

set_option maxRecDepth 16384

noncomputable section

namespace Cert.KernelIdeal.R2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem scover2_A_0 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : cond2_0 i) (hc1 : ¬cond2_1 i) (x0 : Vec F S256x50 .i32) (x1 : Vec F S256x1 .f32) (x2 : Vec F S256x1 .f32) (y : S50x1.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S50x1.size (by sl_kernel_rfl) y

def sout2_A_0 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : cond2_0 i) (hc1 : ¬cond2_1 i) (x0 : Vec F S256x50 .i32) (x1 : Vec F S256x1 .f32) (x2 : Vec F S256x1 .f32) : Vec F S50x1 .f32 :=
  VS2_0.read (Elt F) (VS2_0.writes (Elt F) VS2_0.junk (kernelRun2_A c i arg3 harg3 arg4 harg4 arg5 harg5 arg6 harg6 arg7 harg7 hc0 hc1 x0 x1 x2).2.1)

theorem scover2_B_0 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : ¬cond2_1 i) (x0 : Vec F S256x50 .i32) (x1 : Vec F S256x1 .f32) (x2 : Vec F S256x1 .f32) (xs0 : Vec F S50x1 .f32) (y : S50x1.Idx) :
    ∃ pc ∈ (kernelRun2_B c i arg3 harg3 arg4 harg4 arg5 harg5 arg6 harg6 arg7 harg7 hc0 hc1 x0 x1 x2 xs0).2.1, y ∈ pc.1.set :=
  View.cover_of_tiledL (kernelRun2_B c i arg3 harg3 arg4 harg4 arg5 harg5 arg6 harg6 arg7 harg7 hc0 hc1 x0 x1 x2 xs0).2.1 S50x1.size (by sl_kernel_rfl) y

def sout2_B_0 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : ¬cond2_1 i) (x0 : Vec F S256x50 .i32) (x1 : Vec F S256x1 .f32) (x2 : Vec F S256x1 .f32) (xs0 : Vec F S50x1 .f32) : Vec F S50x1 .f32 :=
  VS2_0.read (Elt F) (VS2_0.writes (Elt F) VS2_0.junk (kernelRun2_B c i arg3 harg3 arg4 harg4 arg5 harg5 arg6 harg6 arg7 harg7 hc0 hc1 x0 x1 x2 xs0).2.1)

theorem cover2_C_3 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : cond2_1 i) (x0 : Vec F S256x50 .i32) (x1 : Vec F S256x1 .f32) (x2 : Vec F S256x1 .f32) (xs0 : Vec F S50x1 .f32) (y : S1x50x1.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1x50x1.size (by sl_kernel_rfl) y

def out2_C_3 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : cond2_1 i) (x0 : Vec F S256x50 .i32) (x1 : Vec F S256x1 .f32) (x2 : Vec F S256x1 .f32) (xs0 : Vec F S50x1 .f32) : Vec F S1x50x1 .f32 :=
  VO2_3.read (Elt F) (VO2_3.writes (Elt F) VO2_3.junk (kernelRun2_C c i arg3 harg3 arg4 harg4 arg5 harg5 arg6 harg6 arg7 harg7 hc0 hc1 x0 x1 x2 xs0).1)

theorem scover2_C_0 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : cond2_1 i) (x0 : Vec F S256x50 .i32) (x1 : Vec F S256x1 .f32) (x2 : Vec F S256x1 .f32) (xs0 : Vec F S50x1 .f32) (y : S50x1.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S50x1.size (by sl_kernel_rfl) y

def sout2_C_0 (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : cond2_1 i) (x0 : Vec F S256x50 .i32) (x1 : Vec F S256x1 .f32) (x2 : Vec F S256x1 .f32) (xs0 : Vec F S50x1 .f32) : Vec F S50x1 .f32 :=
  VS2_0.read (Elt F) (VS2_0.writes (Elt F) VS2_0.junk (kernelRun2_C c i arg3 harg3 arg4 harg4 arg5 harg5 arg6 harg6 arg7 harg7 hc0 hc1 x0 x1 x2 xs0).2.1)

def restOut2 : Vec F S1x50x1 .f32 := VO2_3.read (Elt F) VO2_3.junk

def stepA2 (c : Dev nD) (t : Fin cfg2.N) (h0 : t.val % 6 = 0) : Vec F S1x50x1 .f32 × Vec F S50x1 .f32 :=
  (restOut2, sout2_A_0 c (grid2.coords t) (ms2_0 t) (hs2_0 t) (ms2_1 t) (hs2_1 t) (ms2_2 t) (hs2_2 t) (ms2_3 t) (hs2_3 t) scM2_0 (Memref.isWhole_whole _)
    ((hcond2_0 t).mpr h0) (fun h => by have := (hcond2_1 t).mp h; omega) (iblk2 V c 0 t) (iblk2 V c 1 t) (iblk2 V c 2 t))

def stepB2 (c : Dev nD) (t : Fin cfg2.N) (h0 : ¬t.val % 6 = 0) (h1 : ¬t.val % 6 = 5) (prev : Vec F S50x1 .f32) :
    Vec F S1x50x1 .f32 × Vec F S50x1 .f32 :=
  (restOut2, sout2_B_0 c (grid2.coords t) (ms2_0 t) (hs2_0 t) (ms2_1 t) (hs2_1 t) (ms2_2 t) (hs2_2 t) (ms2_3 t) (hs2_3 t) scM2_0 (Memref.isWhole_whole _)
    (fun h => h0 ((hcond2_0 t).mp h)) (fun h => h1 ((hcond2_1 t).mp h)) (iblk2 V c 0 t) (iblk2 V c 1 t) (iblk2 V c 2 t) prev)

def stepC2 (c : Dev nD) (t : Fin cfg2.N) (h1 : t.val % 6 = 5) (prev : Vec F S50x1 .f32) :
    Vec F S1x50x1 .f32 × Vec F S50x1 .f32 :=
  (out2_C_3 c (grid2.coords t) (ms2_0 t) (hs2_0 t) (ms2_1 t) (hs2_1 t) (ms2_2 t) (hs2_2 t) (ms2_3 t) (hs2_3 t) scM2_0 (Memref.isWhole_whole _)
      (fun h => by have := (hcond2_0 t).mp h; omega) ((hcond2_1 t).mpr h1) (iblk2 V c 0 t) (iblk2 V c 1 t) (iblk2 V c 2 t) prev,
    sout2_C_0 c (grid2.coords t) (ms2_0 t) (hs2_0 t) (ms2_1 t) (hs2_1 t) (ms2_2 t) (hs2_2 t) (ms2_3 t) (hs2_3 t) scM2_0 (Memref.isWhole_whole _)
      (fun h => by have := (hcond2_0 t).mp h; omega) ((hcond2_1 t).mpr h1) (iblk2 V c 0 t) (iblk2 V c 1 t) (iblk2 V c 2 t) prev)

def outsAt2 (c : Dev nD) : (n : ℕ) → n < cfg2.N → Vec F S1x50x1 .f32 × Vec F S50x1 .f32
  | 0, hn => stepA2 V c ⟨0, hn⟩ (Nat.zero_mod _)
  | n + 1, hn =>
    if h1 : (n + 1) % 6 = 5 then stepC2 V c ⟨n + 1, hn⟩ h1 (outsAt2 c n (Nat.lt_of_succ_lt hn)).2
    else if h0 : (n + 1) % 6 = 0 then stepA2 V c ⟨n + 1, hn⟩ h0
    else stepB2 V c ⟨n + 1, hn⟩ h0 h1 (outsAt2 c n (Nat.lt_of_succ_lt hn)).2

theorem outsAt2_A (c : Dev nD) (t : Fin cfg2.N) (h0 : t.val % 6 = 0) :
    outsAt2 V c t.val t.isLt = stepA2 V c t h0 := by
  obtain ⟨n, hn⟩ := t
  cases n with
  | zero => rfl
  | succ n =>
    have h0' : (n + 1) % 6 = 0 := h0
    exact (dif_neg (by omega)).trans ((dif_pos h0').trans rfl)

theorem outsAt2_B (c : Dev nD) (t : Fin cfg2.N) (h0 : ¬t.val % 6 = 0) (h1 : ¬t.val % 6 = 5) :
    outsAt2 V c t.val t.isLt
      = stepB2 V c t h0 h1 (outsAt2 V c (t.val - 1) (Nat.lt_of_le_of_lt (Nat.sub_le _ _) t.isLt)).2 := by
  obtain ⟨n, hn⟩ := t
  cases n with
  | zero => exact absurd (Nat.zero_mod _) h0
  | succ n => exact (dif_neg h1).trans ((dif_neg h0).trans rfl)

theorem outsAt2_C (c : Dev nD) (t : Fin cfg2.N) (h1 : t.val % 6 = 5) :
    outsAt2 V c t.val t.isLt
      = stepC2 V c t h1 (outsAt2 V c (t.val - 1) (Nat.lt_of_le_of_lt (Nat.sub_le _ _) t.isLt)).2 := by
  obtain ⟨n, hn⟩ := t
  cases n with
  | zero => exact absurd (show (0 : ℕ) % 6 = 5 from h1) (by decide)
  | succ n => exact (dif_pos h1).trans rfl

def PhiS2 (c : Dev nD) : (n : ℕ) → n ≤ cfg2.N → sProp 𝕄
  | 0, _ => Pipeline.ΦA spec2 c
  | n + 1, hn => iprop(iprop(owns (c : Thread nD τ) scM2_0 fullShare (outsAt2 V c n hn).2
      ∗ Pipeline.scopedRestBut (Ix := Unit) (Name := ℕ) (U := UR sig nD τ) (Lvl := ℕ) (Val := Elt F) spec2 c [cc2_scratch0]) ∗ (∃ r, prngReg c r))

theorem PhiS2_succ (c : Dev nD) (n : ℕ) (hn : n < cfg2.N) :
    PhiS2 V c (n + 1) hn = iprop(iprop(owns (c : Thread nD τ) scM2_0 fullShare (outsAt2 V c n hn).2
      ∗ Pipeline.scopedRestBut (Ix := Unit) (Name := ℕ) (U := UR sig nD τ) (Lvl := ℕ) (Val := Elt F) spec2 c [cc2_scratch0]) ∗ (∃ r, prngReg c r)) := rfl

theorem PhiS2_pos (c : Dev nD) (n : ℕ) (h : n ≤ cfg2.N) (hz : n ≠ 0) :
    PhiS2 V c n h = iprop(iprop(owns (c : Thread nD τ) scM2_0 fullShare (outsAt2 V c (n - 1) (by omega)).2
      ∗ Pipeline.scopedRestBut (Ix := Unit) (Name := ℕ) (U := UR sig nD τ) (Lvl := ℕ) (Val := Elt F) spec2 c [cc2_scratch0]) ∗ (∃ r, prngReg c r)) := by
  cases n with
  | zero => exact absurd rfl hz
  | succ n => rfl

theorem PhiS2_open (c : Dev nD) : ∀ (n : ℕ) (h : n ≤ cfg2.N), PhiS2 V c n h
    ⊢ iprop(iprop(iprop((∃ d, owns (c : Thread nD τ) scM2_0 fullShare d)) ∗ Pipeline.scopedRestBut (Ix := Unit) (Name := ℕ) (U := UR sig nD τ) (Lvl := ℕ) (Val := Elt F) spec2 c [cc2_scratch0]) ∗ (∃ r, prngReg c r))
  | 0, _ => Entails.of_eq (PhiA2_eq c)
  | n + 1, hn => by
    rw [PhiS2_succ]
    iintro ⟨⟨HS, HR⟩, Hg⟩
    isplitl [HS HR]
    · isplitl [HS]
      · iexists _; iexact HS
      · iexact HR
    · iexact Hg

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

theorem leaves2_0 (c : Dev nD) (t : Fin cfg2.N) :
    (dat2 V c).leavesExact 0 t = owns (c : Thread nD τ) (ms2_0 t) fullShare (iblk2 V c 0 t) := by
  rw [← after2_0 V c t]
theorem leaves2_1 (c : Dev nD) (t : Fin cfg2.N) :
    (dat2 V c).leavesExact 1 t = owns (c : Thread nD τ) (ms2_1 t) fullShare (iblk2 V c 1 t) := by
  rw [← after2_1 V c t]
theorem leaves2_2 (c : Dev nD) (t : Fin cfg2.N) :
    (dat2 V c).leavesExact 2 t = owns (c : Thread nD τ) (ms2_2 t) fullShare (iblk2 V c 2 t) := by
  rw [← after2_2 V c t]
theorem leaves2_3_rest (c : Dev nD) (t : Fin cfg2.N) (h : ¬t.val % 6 = 5) :
    (dat2 V c).leavesExact 3 t = iprop(∃ d, owns (c : Thread nD τ) (ms2_3 t) fullShare ((dat2 V c).before 3 t d)) :=
  Dat.leavesExact_idle (dat2 V c) 3 t (idleAt2_3 t h) (noFlush2_3 t h)
theorem leaves2_3_emit (c : Dev nD) (t : Fin cfg2.N) (h : t.val % 6 = 5) :
    (dat2 V c).leavesExact 3 t = owns (c : Thread nD τ) (ms2_3 t) fullShare (outsAt2 V c t.val t.isLt).1 := by
  unfold Dat.leavesExact; rw [liveAt2_3 t h, after2_3]

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl,
    show (dat2 V c).Φ t.succ = PhiS2 V c (t.val + 1) t.isLt from rfl, PhiS2_succ,
    leaves2_0, leaves2_1, leaves2_2, PhiS2_castSucc V c t]
  have hN : t.val < 12 := lt_N2 t
  by_cases h1 : t.val % 6 = 5
  ·
    have hz : t.val ≠ 0 := by omega
    rw [leaves2_3_emit V c t h1, outsAt2_C V c t h1, PhiS2_pos V c _ _ hz]
    unfold stepC2 out2_C_3 sout2_C_0; dsimp only
    iintro ⟨⟨⟨HS0, HR⟩, Hg⟩, Ho, ⟨%d0, H0⟩, ⟨%d1, H1⟩, ⟨%d2, H2⟩, ⟨%d3, H3⟩⟩
    iapply ((kernelRun2_C c (grid2.coords t) _ _ _ _ _ _ _ _ _ _ (fun h => by have := (hcond2_0 t).mp h; omega)
      ((hcond2_1 t).mpr h1) (iblk2 V c 0 t) (iblk2 V c 1 t) (iblk2 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover2_C_0 c _ _ _ _ _ _ _ _ _ _ _ _ _ _ _ _ _)
        · iexact HR
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover2_C_3 c _ _ _ _ _ _ _ _ _ _ _ _ _ _ _ _ _)
  · rw [leaves2_3_rest V c t h1]
    by_cases h0 : t.val % 6 = 0
    ·
      rw [outsAt2_A V c t h0]
      unfold stepA2 sout2_A_0; dsimp only
      iintro ⟨HΦ, Ho, ⟨%d0, H0⟩, ⟨%d1, H1⟩, ⟨%d2, H2⟩, ⟨%d3, H3⟩⟩
      ihave HΦ' := (PhiS2_open V c t.val _) $$ HΦ
      icases HΦ' with ⟨⟨HS0, HR⟩, Hg⟩
      iapply ((kernelRun2_A c (grid2.coords t) _ _ _ _ _ _ _ _ _ _ ((hcond2_0 t).mpr h0)
        (fun h => by have := (hcond2_1 t).mp h; omega) (iblk2 V c 0 t) (iblk2 V c 1 t) (iblk2 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_A_0 c _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3
    ·
      have hz : t.val ≠ 0 := fun e => h0 (by rw [e])
      rw [outsAt2_B V c t h0 h1, PhiS2_pos V c _ _ hz]
      unfold stepB2 sout2_B_0; dsimp only
      iintro ⟨⟨⟨HS0, HR⟩, Hg⟩, Ho, ⟨%d0, H0⟩, ⟨%d1, H1⟩, ⟨%d2, H2⟩, ⟨%d3, H3⟩⟩
      iapply ((kernelRun2_B c (grid2.coords t) _ _ _ _ _ _ _ _ _ _ (fun h => h0 ((hcond2_0 t).mp h))
        (fun h => h1 ((hcond2_1 t).mp h)) (iblk2 V c 0 t) (iblk2 V c 1 t) (iblk2 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover2_B_0 c _ _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3

theorem body_obligation2 (c : Dev nD) :
    BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 :=
  Entails.of_eq rfl

theorem hout2 (c : Dev nD) : (dat2 V c).Φ (Fin.last cfg2.N) ⊢ Pipeline.ΦA spec2 c := by
  rw [PhiA2_eq]
  show PhiS2 V c (Fin.last cfg2.N).val (Nat.le_of_lt_succ (Fin.last cfg2.N).isLt) ⊢ _
  exact PhiS2_open V c _ _

end Cert.KernelIdeal.R2

end
-- ==== Proof.KI.R3Runs.lean ====
import proofs.«406789_j53094385713523_3_alg».proof.Proof.Gen.KernelIdeal.Launch
import proofs.«406789_j53094385713523_3_alg».proof.Proof.Gen.KernelIdeal.Skeleton
import proofs.«406789_j53094385713523_3_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) :
    ((cfg3.win w).xblock (cfg3.grid.coords t)).Idx → Elt F (cfg3.win w).elt :=
  ((cfg3.win w).blk t).view.read (Elt F) (V c (Pipeline.arrRef spec3 w))

theorem before3_0_of {c : Dev nD} (dat : Dat τ (Elt F) Unit ℕ (UR sig nD τ) ℕ cfg3 c)
    (hA : dat.A 0 = V c (Pipeline.arrRef spec3 0)) (hafter : ∀ t, dat.after 0 t = iblk3 V c 0 t)
    (t : Fin cfg3.N) (d) : dat.before 0 t d = iblk3 V c 0 t := by
  refine (dat.before_in_eq_fetched 0 rfl (fun _ => rfl) (fun _ _ _ => rfl) (fun s => ?_) t d).trans ?_
  · rw [hafter]; unfold Dat.blockOf iblk3; rw [hA]; try rfl
  · unfold Dat.fetched Dat.blockOf iblk3; rw [hA]; try rfl

theorem before3_1_of {c : Dev nD} (dat : Dat τ (Elt F) Unit ℕ (UR sig nD τ) ℕ cfg3 c)
    (hA : dat.A 1 = V c (Pipeline.arrRef spec3 1)) (hafter : ∀ t, dat.after 1 t = iblk3 V c 1 t)
    (t : Fin cfg3.N) (d) : dat.before 1 t d = iblk3 V c 1 t := by
  refine (dat.before_in_eq_fetched 1 rfl (fun _ => rfl) (fun _ _ _ => rfl) (fun s => ?_) t d).trans ?_
  · rw [hafter]; unfold Dat.blockOf iblk3; rw [hA]; try rfl
  · unfold Dat.fetched Dat.blockOf iblk3; rw [hA]; try rfl

theorem before3_2_of {c : Dev nD} (dat : Dat τ (Elt F) Unit ℕ (UR sig nD τ) ℕ cfg3 c)
    (hA : dat.A 2 = V c (Pipeline.arrRef spec3 2)) (hafter : ∀ t, dat.after 2 t = iblk3 V c 2 t)
    (t : Fin cfg3.N) (d) : dat.before 2 t d = iblk3 V c 2 t := by
  refine (dat.before_in_eq_fetched 2 rfl (fun _ => rfl) (fun _ _ _ => rfl) (fun s => ?_) t d).trans ?_
  · rw [hafter]; unfold Dat.blockOf iblk3; rw [hA]; try rfl
  · unfold Dat.fetched Dat.blockOf iblk3; rw [hA]; try rfl

abbrev cond3_0 (i : grid3.Coords) : Prop :=
  Scalar.cmpi .ne (Scalar.extui (Scalar.andi (Scalar.cmpi .eq (BitVec.ofNat 32 (i 1).val) 0#32)
    (Scalar.cmpi .eq (BitVec.ofNat 32 (i 2).val) 0#32))) 0#32 = 1#1

theorem hcond3_0 : ∀ t : Fin cfg3.N, cond3_0 (grid3.coords t) ↔ t.val % 18 = 0 :=
  (by decide +kernel : ∀ t : Fin grid3.N, cond3_0 (grid3.coords t) ↔ t.val % 18 = 0)

abbrev cond3_1 (i : grid3.Coords) : Prop := k3_cond2 i = 1#1

theorem hcond3_1 : ∀ t : Fin cfg3.N, cond3_1 (grid3.coords t) ↔ t.val % 18 = 17 :=
  (by decide +kernel : ∀ t : Fin grid3.N, cond3_1 (grid3.coords t) ↔ t.val % 18 = 17)

theorem lt_N3 (t : Fin cfg3.N) : t.val < 36 := lt_of_lt_of_eq t.isLt (show cfg3.N = 36 from N_3)

theorem idle3_3_iff : ∀ t : Fin cfg3.N, cfg3.idle 3 (grid3.coords t) = true ↔ ¬t.val % 18 = 17 :=
  (by decide +kernel : ∀ t : Fin grid3.N, idle3 3 (grid3.coords t) = true ↔ ¬t.val % 18 = 17)

theorem idleAt3_3 (t : Fin cfg3.N) (h : ¬t.val % 18 = 17) : cfg3.idle 3 (grid3.coords t) = true :=
  (idle3_3_iff t).mpr h

theorem liveAt3_3 (t : Fin cfg3.N) (h : t.val % 18 = 17) : cfg3.idle 3 (grid3.coords t) = false :=
  Bool.eq_false_iff.mpr fun hi => (idle3_3_iff t).mp hi h

theorem noFlush3_3 (t : Fin cfg3.N) (h : ¬t.val % 18 = 17) : (cfg3.win 3).flush t = false :=
  Bool.eq_false_iff.mpr fun hf => h ((flush3_3 t).mp hf)

abbrev ms3_0 (t : Fin cfg3.N) : Memref sig .tc .vmem S256x50 .i32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S256x1 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S256x1 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1x50x1 .f32 := win3_3.stage (cfg3.slots t 3)
abbrev hs3_3 (t : Fin cfg3.N) : (ms3_3 t).IsWhole := hstage3_3 ((cfg3.slots t 3).cast nbuf3_3)

abbrev scM3_0 : Memref sig .tc .vmem S50x1 .f32 := Memref.whole cc3_scratch0

abbrev VO3_3 : View sig .tc .vmem S1x50x1 .f32 := (Memref.whole cc3_stg3_0 : Memref sig .tc .vmem S1x50x1 .f32).view
abbrev VS3_0 : View sig .tc .vmem S50x1 .f32 := scM3_0.view

theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0])
        ∗ (∃ r, prngReg c r)) := by
  unfold Pipeline.ΦA; rw [scopedRest3_split]; simp only [scM3_0, owns_whole]; try rfl

end Cert.KernelIdeal.R3

end
-- ==== Proof.KI.R3Run.lean ====
import proofs.«406789_j53094385713523_3_alg».proof.Proof.KI.R3Runs

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 1000000 in
noncomputable def kernelRun3_A (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : cond3_0 i) (hc1 : ¬cond3_1 i)
    (x0 : Vec F S256x50 .i32) (x1 : Vec F S256x1 .f32) (x2 : Vec F S256x1 .f32) :
    Σ' (L3 : List (View.Piece (Elt F) S1x50x1 .f32)), { LS0 : List (View.Piece (Elt F) S50x1 .f32) //
      ∀ (xi3 : Vec F S1x50x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc3__gather_mean_kernel i arg3 harg3 arg4 harg4 arg5 harg5 arg6 harg6 arg7 harg7) K } := by
  refine ⟨[], ?_, fun xi3 E K => ?run⟩
  case run =>
    simp only [cc3__gather_mean_kernel_eq_skeleton]; unfold cc3__gather_mean_kernel_skel
    simp only [k3_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1
    obtain rfl := harg5.eq_unread hf2; obtain rfl := harg6.eq_unread hf3
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun3_B (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : ¬cond3_1 i)
    (x0 : Vec F S256x50 .i32) (x1 : Vec F S256x1 .f32) (x2 : Vec F S256x1 .f32) (xs0 : Vec F S50x1 .f32) :
    Σ' (L3 : List (View.Piece (Elt F) S1x50x1 .f32)), { LS0 : List (View.Piece (Elt F) S50x1 .f32) //
      ∀ (xi3 : Vec F S1x50x1 .f32) (E : Set ℕ) (K : PUnit → sProp 𝕄),
        iprop(owns (c : Thread nD τ) arg3 fullShare x0 ∗ owns (c : Thread nD τ) arg4 fullShare x1 ∗ owns (c : Thread nD τ) arg5 fullShare x2
            ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2
                ∗ owns (c : Thread nD τ) arg6 fullShare xi3
                ∗ (∃ f, arg7.view.loc (c : Thread nD τ) ↦[arg7.view.set]{fullShare} arg7.view.writes (Elt F) f LS0)) -∗ K ⟨⟩))
          ⊢ wp frame (wpE (defs₀ (F := F)) Variants.none c none) E (cc3__gather_mean_kernel i arg3 harg3 arg4 harg4 arg5 harg5 arg6 harg6 arg7 harg7) K } := by
  refine ⟨[], ?_, fun xi3 E K => ?run⟩
  case run =>
    simp only [cc3__gather_mean_kernel_eq_skeleton]; unfold cc3__gather_mean_kernel_skel
    simp only [k3_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1
    obtain rfl := harg5.eq_unread hf2; obtain rfl := harg6.eq_unread hf3
    obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; isplitr
      · ipureintro; exact harg6.read_unread _
      · iexact H3
    iexists _; iexact HS0

set_option maxHeartbeats 1000000 in
noncomputable def kernelRun3_C (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : cond3_1 i)
    (x0 : Vec F S256x50 .i32) (x1 : Vec F S256x1 .f32) (x2 : Vec F S256x1 .f32) (xs0 : Vec F S50x1 .f32) :
    Σ' (L3 : List (View.Piece (Elt F) S1x50x1 .f32)), { LS0 : List (View.Piece (Elt F) S50x1 .f32) //
      ∀ (E : Set ℕ) (K : PUnit → sProp 𝕄),
        iprop(owns (c : Thread nD τ) arg3 fullShare x0 ∗ owns (c : Thread nD τ) arg4 fullShare x1 ∗ owns (c : Thread nD τ) arg5 fullShare x2
            ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2
                ∗ (∃ f, arg6.view.loc (c : Thread nD τ) ↦[arg6.view.set]{fullShare} arg6.view.writes (Elt F) f L3)
                ∗ (∃ f, arg7.view.loc (c : Thread nD τ) ↦[arg7.view.set]{fullShare} arg7.view.writes (Elt F) f LS0)) -∗ K ⟨⟩))
          ⊢ wp frame (wpE (defs₀ (F := F)) Variants.none c none) E (cc3__gather_mean_kernel i arg3 harg3 arg4 harg4 arg5 harg5 arg6 harg6 arg7 harg7) K } := by
  refine ⟨?_, ?_, fun E K => ?run⟩
  case run =>
    simp only [cc3__gather_mean_kernel_eq_skeleton]; unfold cc3__gather_mean_kernel_skel
    simp only [k3_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1
    obtain rfl := harg5.eq_unread hf2; obtain rfl := harg7.eq_unread hfs0
    sl_exec (disch := first | exact hc0 | exact hc1)
    sl_step
    iapply Hk
    isplitl [H0]
    · iexists _; isplitr
      · ipureintro; exact harg3.read_unread _
      · iexact H0
    isplitl [H1]
    · iexists _; isplitr
      · ipureintro; exact harg4.read_unread _
      · iexact H1
    isplitl [H2]
    · iexists _; isplitr
      · ipureintro; exact harg5.read_unread _
      · iexact H2
    isplitl [H3]
    · iexists _; iexact H3
    iexists _; iexact HS0

end Cert.KernelIdeal.R3

end
-- ==== Proof.KI.R3.lean ====
import proofs.«406789_j53094385713523_3_alg».proof.Proof.KI.R3Run

set_option maxRecDepth 16384

noncomputable section

namespace Cert.KernelIdeal.R3

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

theorem scover3_A_0 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : cond3_0 i) (hc1 : ¬cond3_1 i) (x0 : Vec F S256x50 .i32) (x1 : Vec F S256x1 .f32) (x2 : Vec F S256x1 .f32) (y : S50x1.Idx) :
    ∃ pc ∈ (kernelRun3_A c i arg3 harg3 arg4 harg4 arg5 harg5 arg6 harg6 arg7 harg7 hc0 hc1 x0 x1 x2).2.1, y ∈ pc.1.set :=
  View.cover_of_tiledL (kernelRun3_A c i arg3 harg3 arg4 harg4 arg5 harg5 arg6 harg6 arg7 harg7 hc0 hc1 x0 x1 x2).2.1 S50x1.size (by sl_kernel_rfl) y

def sout3_A_0 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : cond3_0 i) (hc1 : ¬cond3_1 i) (x0 : Vec F S256x50 .i32) (x1 : Vec F S256x1 .f32) (x2 : Vec F S256x1 .f32) : Vec F S50x1 .f32 :=
  VS3_0.read (Elt F) (VS3_0.writes (Elt F) VS3_0.junk (kernelRun3_A c i arg3 harg3 arg4 harg4 arg5 harg5 arg6 harg6 arg7 harg7 hc0 hc1 x0 x1 x2).2.1)

theorem scover3_B_0 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : ¬cond3_1 i) (x0 : Vec F S256x50 .i32) (x1 : Vec F S256x1 .f32) (x2 : Vec F S256x1 .f32) (xs0 : Vec F S50x1 .f32) (y : S50x1.Idx) :
    ∃ pc ∈ (kernelRun3_B c i arg3 harg3 arg4 harg4 arg5 harg5 arg6 harg6 arg7 harg7 hc0 hc1 x0 x1 x2 xs0).2.1, y ∈ pc.1.set :=
  View.cover_of_tiledL (kernelRun3_B c i arg3 harg3 arg4 harg4 arg5 harg5 arg6 harg6 arg7 harg7 hc0 hc1 x0 x1 x2 xs0).2.1 S50x1.size (by sl_kernel_rfl) y

def sout3_B_0 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : ¬cond3_1 i) (x0 : Vec F S256x50 .i32) (x1 : Vec F S256x1 .f32) (x2 : Vec F S256x1 .f32) (xs0 : Vec F S50x1 .f32) : Vec F S50x1 .f32 :=
  VS3_0.read (Elt F) (VS3_0.writes (Elt F) VS3_0.junk (kernelRun3_B c i arg3 harg3 arg4 harg4 arg5 harg5 arg6 harg6 arg7 harg7 hc0 hc1 x0 x1 x2 xs0).2.1)

theorem cover3_C_3 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : cond3_1 i) (x0 : Vec F S256x50 .i32) (x1 : Vec F S256x1 .f32) (x2 : Vec F S256x1 .f32) (xs0 : Vec F S50x1 .f32) (y : S1x50x1.Idx) :
    ∃ pc ∈ (kernelRun3_C c i arg3 harg3 arg4 harg4 arg5 harg5 arg6 harg6 arg7 harg7 hc0 hc1 x0 x1 x2 xs0).1, y ∈ pc.1.set :=
  View.cover_of_tiledL (kernelRun3_C c i arg3 harg3 arg4 harg4 arg5 harg5 arg6 harg6 arg7 harg7 hc0 hc1 x0 x1 x2 xs0).1 S1x50x1.size (by sl_kernel_rfl) y

def out3_C_3 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : cond3_1 i) (x0 : Vec F S256x50 .i32) (x1 : Vec F S256x1 .f32) (x2 : Vec F S256x1 .f32) (xs0 : Vec F S50x1 .f32) : Vec F S1x50x1 .f32 :=
  VO3_3.read (Elt F) (VO3_3.writes (Elt F) VO3_3.junk (kernelRun3_C c i arg3 harg3 arg4 harg4 arg5 harg5 arg6 harg6 arg7 harg7 hc0 hc1 x0 x1 x2 xs0).1)

theorem scover3_C_0 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : cond3_1 i) (x0 : Vec F S256x50 .i32) (x1 : Vec F S256x1 .f32) (x2 : Vec F S256x1 .f32) (xs0 : Vec F S50x1 .f32) (y : S50x1.Idx) :
    ∃ pc ∈ (kernelRun3_C c i arg3 harg3 arg4 harg4 arg5 harg5 arg6 harg6 arg7 harg7 hc0 hc1 x0 x1 x2 xs0).2.1, y ∈ pc.1.set :=
  View.cover_of_tiledL (kernelRun3_C c i arg3 harg3 arg4 harg4 arg5 harg5 arg6 harg6 arg7 harg7 hc0 hc1 x0 x1 x2 xs0).2.1 S50x1.size (by sl_kernel_rfl) y

def sout3_C_0 (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : cond3_1 i) (x0 : Vec F S256x50 .i32) (x1 : Vec F S256x1 .f32) (x2 : Vec F S256x1 .f32) (xs0 : Vec F S50x1 .f32) : Vec F S50x1 .f32 :=
  VS3_0.read (Elt F) (VS3_0.writes (Elt F) VS3_0.junk (kernelRun3_C c i arg3 harg3 arg4 harg4 arg5 harg5 arg6 harg6 arg7 harg7 hc0 hc1 x0 x1 x2 xs0).2.1)

def restOut3 : Vec F S1x50x1 .f32 := VO3_3.read (Elt F) VO3_3.junk

def stepA3 (c : Dev nD) (t : Fin cfg3.N) (h0 : t.val % 18 = 0) : Vec F S1x50x1 .f32 × Vec F S50x1 .f32 :=
  (restOut3, sout3_A_0 c (grid3.coords t) (ms3_0 t) (hs3_0 t) (ms3_1 t) (hs3_1 t) (ms3_2 t) (hs3_2 t) (ms3_3 t) (hs3_3 t) scM3_0 (Memref.isWhole_whole _)
    ((hcond3_0 t).mpr h0) (fun h => by have := (hcond3_1 t).mp h; omega) (iblk3 V c 0 t) (iblk3 V c 1 t) (iblk3 V c 2 t))

def stepB3 (c : Dev nD) (t : Fin cfg3.N) (h0 : ¬t.val % 18 = 0) (h1 : ¬t.val % 18 = 17) (prev : Vec F S50x1 .f32) :
    Vec F S1x50x1 .f32 × Vec F S50x1 .f32 :=
  (restOut3, sout3_B_0 c (grid3.coords t) (ms3_0 t) (hs3_0 t) (ms3_1 t) (hs3_1 t) (ms3_2 t) (hs3_2 t) (ms3_3 t) (hs3_3 t) scM3_0 (Memref.isWhole_whole _)
    (fun h => h0 ((hcond3_0 t).mp h)) (fun h => h1 ((hcond3_1 t).mp h)) (iblk3 V c 0 t) (iblk3 V c 1 t) (iblk3 V c 2 t) prev)

def stepC3 (c : Dev nD) (t : Fin cfg3.N) (h1 : t.val % 18 = 17) (prev : Vec F S50x1 .f32) :
    Vec F S1x50x1 .f32 × Vec F S50x1 .f32 :=
  (out3_C_3 c (grid3.coords t) (ms3_0 t) (hs3_0 t) (ms3_1 t) (hs3_1 t) (ms3_2 t) (hs3_2 t) (ms3_3 t) (hs3_3 t) scM3_0 (Memref.isWhole_whole _)
      (fun h => by have := (hcond3_0 t).mp h; omega) ((hcond3_1 t).mpr h1) (iblk3 V c 0 t) (iblk3 V c 1 t) (iblk3 V c 2 t) prev,
    sout3_C_0 c (grid3.coords t) (ms3_0 t) (hs3_0 t) (ms3_1 t) (hs3_1 t) (ms3_2 t) (hs3_2 t) (ms3_3 t) (hs3_3 t) scM3_0 (Memref.isWhole_whole _)
      (fun h => by have := (hcond3_0 t).mp h; omega) ((hcond3_1 t).mpr h1) (iblk3 V c 0 t) (iblk3 V c 1 t) (iblk3 V c 2 t) prev)

def outsAt3 (c : Dev nD) : (n : ℕ) → n < cfg3.N → Vec F S1x50x1 .f32 × Vec F S50x1 .f32
  | 0, hn => stepA3 V c ⟨0, hn⟩ (Nat.zero_mod _)
  | n + 1, hn =>
    if h1 : (n + 1) % 18 = 17 then stepC3 V c ⟨n + 1, hn⟩ h1 (outsAt3 c n (Nat.lt_of_succ_lt hn)).2
    else if h0 : (n + 1) % 18 = 0 then stepA3 V c ⟨n + 1, hn⟩ h0
    else stepB3 V c ⟨n + 1, hn⟩ h0 h1 (outsAt3 c n (Nat.lt_of_succ_lt hn)).2

theorem outsAt3_A (c : Dev nD) (t : Fin cfg3.N) (h0 : t.val % 18 = 0) :
    outsAt3 V c t.val t.isLt = stepA3 V c t h0 := by
  obtain ⟨n, hn⟩ := t
  cases n with
  | zero => rfl
  | succ n =>
    have h0' : (n + 1) % 18 = 0 := h0
    exact (dif_neg (by omega)).trans ((dif_pos h0').trans rfl)

theorem outsAt3_B (c : Dev nD) (t : Fin cfg3.N) (h0 : ¬t.val % 18 = 0) (h1 : ¬t.val % 18 = 17) :
    outsAt3 V c t.val t.isLt
      = stepB3 V c t h0 h1 (outsAt3 V c (t.val - 1) (Nat.lt_of_le_of_lt (Nat.sub_le _ _) t.isLt)).2 := by
  obtain ⟨n, hn⟩ := t
  cases n with
  | zero => exact absurd (Nat.zero_mod _) h0
  | succ n => exact (dif_neg h1).trans ((dif_neg h0).trans rfl)

theorem outsAt3_C (c : Dev nD) (t : Fin cfg3.N) (h1 : t.val % 18 = 17) :
    outsAt3 V c t.val t.isLt
      = stepC3 V c t h1 (outsAt3 V c (t.val - 1) (Nat.lt_of_le_of_lt (Nat.sub_le _ _) t.isLt)).2 := by
  obtain ⟨n, hn⟩ := t
  cases n with
  | zero => exact absurd (show (0 : ℕ) % 18 = 17 from h1) (by decide)
  | succ n => exact (dif_pos h1).trans rfl

def PhiS3 (c : Dev nD) : (n : ℕ) → n ≤ cfg3.N → sProp 𝕄
  | 0, _ => Pipeline.ΦA spec3 c
  | n + 1, hn => iprop(iprop(owns (c : Thread nD τ) scM3_0 fullShare (outsAt3 V c n hn).2
      ∗ Pipeline.scopedRestBut (Ix := Unit) (Name := ℕ) (U := UR sig nD τ) (Lvl := ℕ) (Val := Elt F) spec3 c [cc3_scratch0]) ∗ (∃ r, prngReg c r))

theorem PhiS3_succ (c : Dev nD) (n : ℕ) (hn : n < cfg3.N) :
    PhiS3 V c (n + 1) hn = iprop(iprop(owns (c : Thread nD τ) scM3_0 fullShare (outsAt3 V c n hn).2
      ∗ Pipeline.scopedRestBut (Ix := Unit) (Name := ℕ) (U := UR sig nD τ) (Lvl := ℕ) (Val := Elt F) spec3 c [cc3_scratch0]) ∗ (∃ r, prngReg c r)) := rfl

theorem PhiS3_pos (c : Dev nD) (n : ℕ) (h : n ≤ cfg3.N) (hz : n ≠ 0) :
    PhiS3 V c n h = iprop(iprop(owns (c : Thread nD τ) scM3_0 fullShare (outsAt3 V c (n - 1) (by omega)).2
      ∗ Pipeline.scopedRestBut (Ix := Unit) (Name := ℕ) (U := UR sig nD τ) (Lvl := ℕ) (Val := Elt F) spec3 c [cc3_scratch0]) ∗ (∃ r, prngReg c r)) := by
  cases n with
  | zero => exact absurd rfl hz
  | succ n => rfl

theorem PhiS3_open (c : Dev nD) : ∀ (n : ℕ) (h : n ≤ cfg3.N), PhiS3 V c n h
    ⊢ iprop(iprop(iprop((∃ d, owns (c : Thread nD τ) scM3_0 fullShare d)) ∗ Pipeline.scopedRestBut (Ix := Unit) (Name := ℕ) (U := UR sig nD τ) (Lvl := ℕ) (Val := Elt F) spec3 c [cc3_scratch0]) ∗ (∃ r, prngReg c r))
  | 0, _ => Entails.of_eq (PhiA3_eq c)
  | n + 1, hn => by
    rw [PhiS3_succ]
    iintro ⟨⟨HS, HR⟩, Hg⟩
    isplitl [HS HR]
    · isplitl [HS]
      · iexists _; iexact HS
      · iexact HR
    · iexact Hg

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => (outsAt3 V c t.val t.isLt).1
  Φ t := PhiS3 V c t.val (Nat.le_of_lt_succ t.isLt)
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = (outsAt3 V c t.val t.isLt).1 := by dsimp only [dat3]

theorem PhiS3_castSucc (c : Dev nD) (t : Fin cfg3.N) :
    (dat3 V c).Φ t.castSucc = PhiS3 V c t.val (Nat.le_of_lt t.isLt) := by
  dsimp only [dat3]; simp only [Fin.coe_castSucc]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

theorem leaves3_0 (c : Dev nD) (t : Fin cfg3.N) :
    (dat3 V c).leavesExact 0 t = owns (c : Thread nD τ) (ms3_0 t) fullShare (iblk3 V c 0 t) := by
  rw [← after3_0 V c t]
theorem leaves3_1 (c : Dev nD) (t : Fin cfg3.N) :
    (dat3 V c).leavesExact 1 t = owns (c : Thread nD τ) (ms3_1 t) fullShare (iblk3 V c 1 t) := by
  rw [← after3_1 V c t]
theorem leaves3_2 (c : Dev nD) (t : Fin cfg3.N) :
    (dat3 V c).leavesExact 2 t = owns (c : Thread nD τ) (ms3_2 t) fullShare (iblk3 V c 2 t) := by
  rw [← after3_2 V c t]
theorem leaves3_3_rest (c : Dev nD) (t : Fin cfg3.N) (h : ¬t.val % 18 = 17) :
    (dat3 V c).leavesExact 3 t = iprop(∃ d, owns (c : Thread nD τ) (ms3_3 t) fullShare ((dat3 V c).before 3 t d)) :=
  Dat.leavesExact_idle (dat3 V c) 3 t (idleAt3_3 t h) (noFlush3_3 t h)
theorem leaves3_3_emit (c : Dev nD) (t : Fin cfg3.N) (h : t.val % 18 = 17) :
    (dat3 V c).leavesExact 3 t = owns (c : Thread nD τ) (ms3_3 t) fullShare (outsAt3 V c t.val t.isLt).1 := by
  unfold Dat.leavesExact; rw [liveAt3_3 t h, after3_3]

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).owesAt () t.succ = (dat3 V c).owesAt () t.castSucc from rfl,
    show (dat3 V c).Φ t.succ = PhiS3 V c (t.val + 1) t.isLt from rfl, PhiS3_succ,
    leaves3_0, leaves3_1, leaves3_2, PhiS3_castSucc V c t]
  have hN : t.val < 36 := lt_N3 t
  by_cases h1 : t.val % 18 = 17
  ·
    have hz : t.val ≠ 0 := by omega
    rw [leaves3_3_emit V c t h1, outsAt3_C V c t h1, PhiS3_pos V c _ _ hz]
    unfold stepC3 out3_C_3 sout3_C_0; dsimp only
    iintro ⟨⟨⟨HS0, HR⟩, Hg⟩, Ho, ⟨%d0, H0⟩, ⟨%d1, H1⟩, ⟨%d2, H2⟩, ⟨%d3, H3⟩⟩
    iapply ((kernelRun3_C c (grid3.coords t) _ _ _ _ _ _ _ _ _ _ (fun h => by have := (hcond3_0 t).mp h; omega)
      ((hcond3_1 t).mpr h1) (iblk3 V c 0 t) (iblk3 V c 1 t) (iblk3 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 HR Hg]
    · isplitl [HS0 HR]
      · isplitl [HS0]
        · unfold owns; iexists _; isplitr
          swap; · iexact HS0
          ipureintro; exact View.read_writes_of_cover _ _ _ _ _ (scover3_C_0 c _ _ _ _ _ _ _ _ _ _ _ _ _ _ _ _ _)
        · iexact HR
      · iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover3_C_3 c _ _ _ _ _ _ _ _ _ _ _ _ _ _ _ _ _)
  · rw [leaves3_3_rest V c t h1]
    by_cases h0 : t.val % 18 = 0
    ·
      rw [outsAt3_A V c t h0]
      unfold stepA3 sout3_A_0; dsimp only
      iintro ⟨HΦ, Ho, ⟨%d0, H0⟩, ⟨%d1, H1⟩, ⟨%d2, H2⟩, ⟨%d3, H3⟩⟩
      ihave HΦ' := (PhiS3_open V c t.val _) $$ HΦ
      icases HΦ' with ⟨⟨HS0, HR⟩, Hg⟩
      iapply ((kernelRun3_A c (grid3.coords t) _ _ _ _ _ _ _ _ _ _ ((hcond3_0 t).mpr h0)
        (fun h => by have := (hcond3_1 t).mp h; omega) (iblk3 V c 0 t) (iblk3 V c 1 t) (iblk3 V c 2 t)).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_A_0 c _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3
    ·
      have hz : t.val ≠ 0 := fun e => h0 (by rw [e])
      rw [outsAt3_B V c t h0 h1, PhiS3_pos V c _ _ hz]
      unfold stepB3 sout3_B_0; dsimp only
      iintro ⟨⟨⟨HS0, HR⟩, Hg⟩, Ho, ⟨%d0, H0⟩, ⟨%d1, H1⟩, ⟨%d2, H2⟩, ⟨%d3, H3⟩⟩
      iapply ((kernelRun3_B c (grid3.coords t) _ _ _ _ _ _ _ _ _ _ (fun h => h0 ((hcond3_0 t).mp h))
        (fun h => h1 ((hcond3_1 t).mp h)) (iblk3 V c 0 t) (iblk3 V c 1 t) (iblk3 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 HR Hg]
      · isplitl [HS0 HR]
        · isplitl [HS0]
          · unfold owns; iexists _; isplitr
            swap; · iexact HS0
            ipureintro; exact View.read_writes_of_cover _ _ _ _ _ (scover3_B_0 c _ _ _ _ _ _ _ _ _ _ _ _ _ _ _ _ _)
          · iexact HR
        · iexact Hg
      isplitl [Ho]; · iexact Ho
      isplitl [H0]; · iexact H0
      isplitl [H1]; · iexact H1
      isplitl [H2]; · iexact H2
      iexists _; iexact H3

theorem body_obligation3 (c : Dev nD) :
    BodyObligation (dat3 (F := F) V c) (defs₀ (F := F)) Variants.none () Set.univ := fun t => by
  rw [bigSep_W3, bigSep_W3]
  exact sound_body3 V c t

theorem hin3 (c : Dev nD) : Pipeline.ΦA spec3 c ⊢ (dat3 V c).Φ 0 :=
  Entails.of_eq rfl

theorem hout3 (c : Dev nD) : (dat3 V c).Φ (Fin.last cfg3.N) ⊢ Pipeline.ΦA spec3 c := by
  rw [PhiA3_eq]
  show PhiS3 V c (Fin.last cfg3.N).val (Nat.le_of_lt_succ (Fin.last cfg3.N).isLt) ⊢ _
  exact PhiS3_open V c _ _

end Cert.KernelIdeal.R3

end
-- ==== Proof.KI.R4.lean ====
import proofs.«406789_j53094385713523_3_alg».proof.Proof.Gen.KernelIdeal.Launch
import proofs.«406789_j53094385713523_3_alg».proof.Proof.Gen.KernelIdeal.Skeleton
import proofs.«406789_j53094385713523_3_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.R4

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev zero4 : F .f32 := Scalar.ofBits .f32 0x00000000#32

def out4_11 (x0 : Vec F S1x435 .f32) (x1 : Vec F S435x128 .f32) (x2 : Vec F S1x128 .f32) (x3 : Vec F S128x256 .f32) (x4 : Vec F S1x256 .f32) (x5 : Vec F S256x256 .f32) (x6 : Vec F S1x256 .f32) (x7 : Vec F S256x128 .f32) (x8 : Vec F S1x128 .f32) (x9 : Vec F S128x1 .f32) (x10 : Vec F S1x1 .f32) : Vec F S1x1 .f32 :=
  k4_pay1 (k4_pay3 x0 x1 x2 x3 x4 x5 x6 x7 x8) zero4 x9 x10

def out4_12 (x0 : Vec F S1x435 .f32) (x1 : Vec F S435x128 .f32) (x2 : Vec F S1x128 .f32) (x3 : Vec F S128x256 .f32) (x4 : Vec F S1x256 .f32) (x5 : Vec F S256x256 .f32) (x6 : Vec F S1x256 .f32) (x7 : Vec F S256x128 .f32) (x8 : Vec F S1x128 .f32) (x9 : Vec F S128x1 .f32) (x10 : Vec F S1x1 .f32) : Vec F S1x1 .f32 :=
  k4_pay2 (k4_pay3 x0 x1 x2 x3 x4 x5 x6 x7 x8) zero4 x9 x10

theorem out4_12_eq_logistic (x0 : Vec F S1x435 .f32) (x1 : Vec F S435x128 .f32) (x2 : Vec F S1x128 .f32) (x3 : Vec F S128x256 .f32) (x4 : Vec F S1x256 .f32) (x5 : Vec F S256x256 .f32) (x6 : Vec F S1x256 .f32) (x7 : Vec F S256x128 .f32) (x8 : Vec F S1x128 .f32) (x9 : Vec F S128x1 .f32) (x10 : Vec F S1x1 .f32) :
    out4_12 x0 x1 x2 x3 x4 x5 x6 x7 x8 x9 x10 = logistic (out4_11 x0 x1 x2 x3 x4 x5 x6 x7 x8 x9 x10) := rfl

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => iblk4 V c 5 t
    | ⟨6, _⟩ => iblk4 V c 6 t
    | ⟨7, _⟩ => iblk4 V c 7 t
    | ⟨8, _⟩ => iblk4 V c 8 t
    | ⟨9, _⟩ => iblk4 V c 9 t
    | ⟨10, _⟩ => iblk4 V c 10 t
    | ⟨11, _⟩ => out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
    | ⟨12, _⟩ => out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem Φ_eq4 (c : Dev nD) (t : Fin (cfg4.N + 1)) : (dat4 V c).Φ t = Pipeline.ΦA spec4 c := rfl

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = iblk4 V c 5 t := by dsimp only [dat4]
theorem after4_6 (c : Dev nD) (t : Fin cfg4.N) : (dat4 V c).after 6 t = iblk4 V c 6 t := by dsimp only [dat4]
theorem after4_7 (c : Dev nD) (t : Fin cfg4.N) : (dat4 V c).after 7 t = iblk4 V c 7 t := by dsimp only [dat4]
theorem after4_8 (c : Dev nD) (t : Fin cfg4.N) : (dat4 V c).after 8 t = iblk4 V c 8 t := by dsimp only [dat4]
theorem after4_9 (c : Dev nD) (t : Fin cfg4.N) : (dat4 V c).after 9 t = iblk4 V c 9 t := by dsimp only [dat4]
theorem after4_10 (c : Dev nD) (t : Fin cfg4.N) : (dat4 V c).after 10 t = iblk4 V c 10 t := by dsimp only [dat4]
theorem after4_11 (c : Dev nD) (t : Fin cfg4.N) :
    (dat4 V c).after 11 t = out4_11 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]
theorem after4_12 (c : Dev nD) (t : Fin cfg4.N) :
    (dat4 V c).after 12 t = out4_12 (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) := by dsimp only [dat4]

theorem before4_0 (c : Dev nD) (t : Fin cfg4.N) (d) : (dat4 V c).before 0 t d = iblk4 V c 0 t :=
  ((dat4 V c).before_fetched 0 t (fetch4_0 t) d).trans (by unfold Dat.fetched Dat.blockOf iblk4; rw [A_eq4]; try rfl)
theorem before4_1 (c : Dev nD) (t : Fin cfg4.N) (d) : (dat4 V c).before 1 t d = iblk4 V c 1 t :=
  ((dat4 V c).before_fetched 1 t (fetch4_1 t) d).trans (by unfold Dat.fetched Dat.blockOf iblk4; rw [A_eq4]; try rfl)
theorem before4_2 (c : Dev nD) (t : Fin cfg4.N) (d) : (dat4 V c).before 2 t d = iblk4 V c 2 t :=
  ((dat4 V c).before_fetched 2 t (fetch4_2 t) d).trans (by unfold Dat.fetched Dat.blockOf iblk4; rw [A_eq4]; try rfl)
theorem before4_3 (c : Dev nD) (t : Fin cfg4.N) (d) : (dat4 V c).before 3 t d = iblk4 V c 3 t :=
  ((dat4 V c).before_fetched 3 t (fetch4_3 t) d).trans (by unfold Dat.fetched Dat.blockOf iblk4; rw [A_eq4]; try rfl)
theorem before4_4 (c : Dev nD) (t : Fin cfg4.N) (d) : (dat4 V c).before 4 t d = iblk4 V c 4 t :=
  ((dat4 V c).before_fetched 4 t (fetch4_4 t) d).trans (by unfold Dat.fetched Dat.blockOf iblk4; rw [A_eq4]; try rfl)
theorem before4_5 (c : Dev nD) (t : Fin cfg4.N) (d) : (dat4 V c).before 5 t d = iblk4 V c 5 t :=
  ((dat4 V c).before_fetched 5 t (fetch4_5 t) d).trans (by unfold Dat.fetched Dat.blockOf iblk4; rw [A_eq4]; try rfl)
theorem before4_6 (c : Dev nD) (t : Fin cfg4.N) (d) : (dat4 V c).before 6 t d = iblk4 V c 6 t :=
  ((dat4 V c).before_fetched 6 t (fetch4_6 t) d).trans (by unfold Dat.fetched Dat.blockOf iblk4; rw [A_eq4]; try rfl)
theorem before4_7 (c : Dev nD) (t : Fin cfg4.N) (d) : (dat4 V c).before 7 t d = iblk4 V c 7 t :=
  ((dat4 V c).before_fetched 7 t (fetch4_7 t) d).trans (by unfold Dat.fetched Dat.blockOf iblk4; rw [A_eq4]; try rfl)
theorem before4_8 (c : Dev nD) (t : Fin cfg4.N) (d) : (dat4 V c).before 8 t d = iblk4 V c 8 t :=
  ((dat4 V c).before_fetched 8 t (fetch4_8 t) d).trans (by unfold Dat.fetched Dat.blockOf iblk4; rw [A_eq4]; try rfl)
theorem before4_9 (c : Dev nD) (t : Fin cfg4.N) (d) : (dat4 V c).before 9 t d = iblk4 V c 9 t :=
  ((dat4 V c).before_fetched 9 t (fetch4_9 t) d).trans (by unfold Dat.fetched Dat.blockOf iblk4; rw [A_eq4]; try rfl)
theorem before4_10 (c : Dev nD) (t : Fin cfg4.N) (d) : (dat4 V c).before 10 t d = iblk4 V c 10 t :=
  ((dat4 V c).before_fetched 10 t (fetch4_10 t) d).trans (by unfold Dat.fetched Dat.blockOf iblk4; rw [A_eq4]; try rfl)

theorem zero2 : (![0, 0] : Fin 2 → Nat) = fun _ => 0 :=
  funext fun a => match a with
    | ⟨0, _⟩ => rfl
    | ⟨1, _⟩ => rfl

theorem cover4 (w : Vec F S1x1 .f32) (y : S1x1.Idx) :
    ∃ pc ∈ ([⟨(Rect.unit (s := S1x1) ![0, 0] S1x1.size inb_S1x1_S1x1_0_0), w⟩] : List (View.Piece (Elt F) S1x1 .f32)), y ∈ pc.1.set :=
  ⟨_, List.mem_singleton_self _, View.mem_set_unit_zero (S := S1x1) zero2 inb_S1x1_S1x1_0_0 y⟩

theorem stored4_11 (x0 : Vec F S1x435 .f32) (x1 : Vec F S435x128 .f32) (x2 : Vec F S1x128 .f32) (x3 : Vec F S128x256 .f32) (x4 : Vec F S1x256 .f32) (x5 : Vec F S256x256 .f32) (x6 : Vec F S1x256 .f32) (x7 : Vec F S256x128 .f32) (x8 : Vec F S1x128 .f32) (x9 : Vec F S128x1 .f32) (x10 : Vec F S1x1 .f32) :
    View.canon [(⟨(Rect.unit (s := S1x1) ![0, 0] S1x1.size inb_S1x1_S1x1_0_0),
      k4_pay1 (k4_pay3 (View.ld x0 (Rect.unit (s := S1x435) ![0, 0] S1x435.size inb_S1x435_S1x435_0_0))
          (View.ld x1 (Rect.unit (s := S435x128) ![0, 0] S435x128.size inb_S435x128_S435x128_0_0))
          (View.ld x2 (Rect.unit (s := S1x128) ![0, 0] S1x128.size inb_S1x128_S1x128_0_0))
          (View.ld x3 (Rect.unit (s := S128x256) ![0, 0] S128x256.size inb_S128x256_S128x256_0_0))
          (View.ld x4 (Rect.unit (s := S1x256) ![0, 0] S1x256.size inb_S1x256_S1x256_0_0))
          (View.ld x5 (Rect.unit (s := S256x256) ![0, 0] S256x256.size inb_S256x256_S256x256_0_0))
          (View.ld x6 (Rect.unit (s := S1x256) ![0, 0] S1x256.size inb_S1x256_S1x256_0_0))
          (View.ld x7 (Rect.unit (s := S256x128) ![0, 0] S256x128.size inb_S256x128_S256x128_0_0))
          (View.ld x8 (Rect.unit (s := S1x128) ![0, 0] S1x128.size inb_S1x128_S1x128_0_0)))
        zero4 (View.ld x9 (Rect.unit (s := S128x1) ![0, 0] S128x1.size inb_S128x1_S128x1_0_0)) (View.ld x10 (Rect.unit (s := S1x1) ![0, 0] S1x1.size inb_S1x1_S1x1_0_0))⟩ : View.Piece (Elt F) S1x1 .f32)]
      = out4_11 x0 x1 x2 x3 x4 x5 x6 x7 x8 x9 x10 := by
  unfold out4_11
  rw [View.canon_unit_zero (S := S1x1) zero2 inb_S1x1_S1x1_0_0,
    View.ld_unit_zero (S := S1x435) zero2 inb_S1x435_S1x435_0_0 x0,
    View.ld_unit_zero (S := S435x128) zero2 inb_S435x128_S435x128_0_0 x1,
    View.ld_unit_zero (S := S1x128) zero2 inb_S1x128_S1x128_0_0 x2,
    View.ld_unit_zero (S := S128x256) zero2 inb_S128x256_S128x256_0_0 x3,
    View.ld_unit_zero (S := S1x256) zero2 inb_S1x256_S1x256_0_0 x4,
    View.ld_unit_zero (S := S256x256) zero2 inb_S256x256_S256x256_0_0 x5,
    View.ld_unit_zero (S := S1x256) zero2 inb_S1x256_S1x256_0_0 x6,
    View.ld_unit_zero (S := S256x128) zero2 inb_S256x128_S256x128_0_0 x7,
    View.ld_unit_zero (S := S1x128) zero2 inb_S1x128_S1x128_0_0 x8,
    View.ld_unit_zero (S := S128x1) zero2 inb_S128x1_S128x1_0_0 x9,
    View.ld_unit_zero (S := S1x1) zero2 inb_S1x1_S1x1_0_0 x10]

theorem stored4_12 (x0 : Vec F S1x435 .f32) (x1 : Vec F S435x128 .f32) (x2 : Vec F S1x128 .f32) (x3 : Vec F S128x256 .f32) (x4 : Vec F S1x256 .f32) (x5 : Vec F S256x256 .f32) (x6 : Vec F S1x256 .f32) (x7 : Vec F S256x128 .f32) (x8 : Vec F S1x128 .f32) (x9 : Vec F S128x1 .f32) (x10 : Vec F S1x1 .f32) :
    View.canon [(⟨(Rect.unit (s := S1x1) ![0, 0] S1x1.size inb_S1x1_S1x1_0_0),
      k4_pay2 (k4_pay3 (View.ld x0 (Rect.unit (s := S1x435) ![0, 0] S1x435.size inb_S1x435_S1x435_0_0))
          (View.ld x1 (Rect.unit (s := S435x128) ![0, 0] S435x128.size inb_S435x128_S435x128_0_0))
          (View.ld x2 (Rect.unit (s := S1x128) ![0, 0] S1x128.size inb_S1x128_S1x128_0_0))
          (View.ld x3 (Rect.unit (s := S128x256) ![0, 0] S128x256.size inb_S128x256_S128x256_0_0))
          (View.ld x4 (Rect.unit (s := S1x256) ![0, 0] S1x256.size inb_S1x256_S1x256_0_0))
          (View.ld x5 (Rect.unit (s := S256x256) ![0, 0] S256x256.size inb_S256x256_S256x256_0_0))
          (View.ld x6 (Rect.unit (s := S1x256) ![0, 0] S1x256.size inb_S1x256_S1x256_0_0))
          (View.ld x7 (Rect.unit (s := S256x128) ![0, 0] S256x128.size inb_S256x128_S256x128_0_0))
          (View.ld x8 (Rect.unit (s := S1x128) ![0, 0] S1x128.size inb_S1x128_S1x128_0_0)))
        zero4 (View.ld x9 (Rect.unit (s := S128x1) ![0, 0] S128x1.size inb_S128x1_S128x1_0_0)) (View.ld x10 (Rect.unit (s := S1x1) ![0, 0] S1x1.size inb_S1x1_S1x1_0_0))⟩ : View.Piece (Elt F) S1x1 .f32)]
      = out4_12 x0 x1 x2 x3 x4 x5 x6 x7 x8 x9 x10 := by
  unfold out4_12
  rw [View.canon_unit_zero (S := S1x1) zero2 inb_S1x1_S1x1_0_0,
    View.ld_unit_zero (S := S1x435) zero2 inb_S1x435_S1x435_0_0 x0,
    View.ld_unit_zero (S := S435x128) zero2 inb_S435x128_S435x128_0_0 x1,
    View.ld_unit_zero (S := S1x128) zero2 inb_S1x128_S1x128_0_0 x2,
    View.ld_unit_zero (S := S128x256) zero2 inb_S128x256_S128x256_0_0 x3,
    View.ld_unit_zero (S := S1x256) zero2 inb_S1x256_S1x256_0_0 x4,
    View.ld_unit_zero (S := S256x256) zero2 inb_S256x256_S256x256_0_0 x5,
    View.ld_unit_zero (S := S1x256) zero2 inb_S1x256_S1x256_0_0 x6,
    View.ld_unit_zero (S := S256x128) zero2 inb_S256x128_S256x128_0_0 x7,
    View.ld_unit_zero (S := S1x128) zero2 inb_S1x128_S1x128_0_0 x8,
    View.ld_unit_zero (S := S128x1) zero2 inb_S128x1_S128x1_0_0 x9,
    View.ld_unit_zero (S := S1x1) zero2 inb_S1x1_S1x1_0_0 x10]

set_option maxHeartbeats 2000000 in
theorem sound_kernel4 (c : Dev nD) (E : Set ℕ) (i : grid4.Coords)
    (a0 : Memref sig .tc .vmem S1x435 .f32) (h0 : a0.IsWhole)
    (a1 : Memref sig .tc .vmem S435x128 .f32) (h1 : a1.IsWhole)
    (a2 : Memref sig .tc .vmem S1x128 .f32) (h2 : a2.IsWhole)
    (a3 : Memref sig .tc .vmem S128x256 .f32) (h3 : a3.IsWhole)
    (a4 : Memref sig .tc .vmem S1x256 .f32) (h4 : a4.IsWhole)
    (a5 : Memref sig .tc .vmem S256x256 .f32) (h5 : a5.IsWhole)
    (a6 : Memref sig .tc .vmem S1x256 .f32) (h6 : a6.IsWhole)
    (a7 : Memref sig .tc .vmem S256x128 .f32) (h7 : a7.IsWhole)
    (a8 : Memref sig .tc .vmem S1x128 .f32) (h8 : a8.IsWhole)
    (a9 : Memref sig .tc .vmem S128x1 .f32) (h9 : a9.IsWhole)
    (a10 : Memref sig .tc .vmem S1x1 .f32) (h10 : a10.IsWhole)
    (a11 : Memref sig .tc .vmem S1x1 .f32) (h11 : a11.IsWhole)
    (a12 : Memref sig .tc .vmem S1x1 .f32) (h12 : a12.IsWhole)
    (x0 : Vec F S1x435 .f32) (x1 : Vec F S435x128 .f32) (x2 : Vec F S1x128 .f32) (x3 : Vec F S128x256 .f32) (x4 : Vec F S1x256 .f32) (x5 : Vec F S256x256 .f32) (x6 : Vec F S1x256 .f32) (x7 : Vec F S256x128 .f32) (x8 : Vec F S1x128 .f32) (x9 : Vec F S128x1 .f32) (x10 : Vec F S1x1 .f32) (K : PUnit → sProp 𝕄) :
    iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10
        ∗ (∃ d, owns (c : Thread nD τ) a11 fullShare d) ∗ (∃ d, owns (c : Thread nD τ) a12 fullShare d)
        ∗ (iprop(owns (c : Thread nD τ) a0 fullShare x0 ∗ owns (c : Thread nD τ) a1 fullShare x1 ∗ owns (c : Thread nD τ) a2 fullShare x2 ∗ owns (c : Thread nD τ) a3 fullShare x3 ∗ owns (c : Thread nD τ) a4 fullShare x4 ∗ owns (c : Thread nD τ) a5 fullShare x5 ∗ owns (c : Thread nD τ) a6 fullShare x6 ∗ owns (c : Thread nD τ) a7 fullShare x7 ∗ owns (c : Thread nD τ) a8 fullShare x8 ∗ owns (c : Thread nD τ) a9 fullShare x9 ∗ owns (c : Thread nD τ) a10 fullShare x10
            ∗ owns (c : Thread nD τ) a11 fullShare (out4_11 x0 x1 x2 x3 x4 x5 x6 x7 x8 x9 x10)
            ∗ owns (c : Thread nD τ) a12 fullShare (out4_12 x0 x1 x2 x3 x4 x5 x6 x7 x8 x9 x10)) -∗ K ⟨⟩))
      ⊢ wp frame (wpE (defs₀ (F := F)) Variants.none c none) E
          (cc4__final_mlp_kernel i a0 h0 a1 h1 a2 h2 a3 h3 a4 h4 a5 h5 a6 h6 a7 h7 a8 h8 a9 h9 a10 h10 a11 h11 a12 h12) K := by
  simp only [cc4__final_mlp_kernel_eq_skeleton]; unfold cc4__final_mlp_kernel_skel
  simp only [k4_part1_eq_skeleton]; unfold k4_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, Hk⟩
  subst e0 e1 e2 e3 e4 e5 e6 e7 e8 e9 e10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists _; isplitr
    swap; · iexact H11
    ipureintro
    try dsimp only
    exact (View.read_writes_eq_canon _ _ _ (cover4 _)).trans (stored4_11 _ _ _ _ _ _ _ _ _ _ _)
  iexists _; isplitr
  swap; · iexact H12
  ipureintro
  try dsimp only
  exact (View.read_writes_eq_canon _ _ _ (cover4 _)).trans (stored4_12 _ _ _ _ _ _ _ _ _ _ _)

def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d))
    ∗ (∃ d, owns (c : Thread nD τ) (st4_7 t) fullShare ((dat4 V c).before 7 t d))
    ∗ (∃ d, owns (c : Thread nD τ) (st4_8 t) fullShare ((dat4 V c).before 8 t d))
    ∗ (∃ d, owns (c : Thread nD τ) (st4_9 t) fullShare ((dat4 V c).before 9 t d))
    ∗ (∃ d, owns (c : Thread nD τ) (st4_10 t) fullShare ((dat4 V c).before 10 t d))
    ∗ (∃ d, owns (c : Thread nD τ) (st4_11 t) fullShare ((dat4 V c).before 11 t d))
    ∗ (∃ d, owns (c : Thread nD τ) (st4_12 t) fullShare ((dat4 V c).before 12 t d)))

def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ owns (c : Thread nD τ) (st4_6 t) fullShare ((dat4 V c).after 6 t)
    ∗ owns (c : Thread nD τ) (st4_7 t) fullShare ((dat4 V c).after 7 t)
    ∗ owns (c : Thread nD τ) (st4_8 t) fullShare ((dat4 V c).after 8 t)
    ∗ owns (c : Thread nD τ) (st4_9 t) fullShare ((dat4 V c).after 9 t)
    ∗ owns (c : Thread nD τ) (st4_10 t) fullShare ((dat4 V c).after 10 t)
    ∗ owns (c : Thread nD τ) (st4_11 t) fullShare ((dat4 V c).after 11 t)
    ∗ owns (c : Thread nD τ) (st4_12 t) fullShare ((dat4 V c).after 12 t))

theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4, before4_5, before4_6, before4_7, before4_8, before4_9, before4_10]
  rw [show (dat4 V c).Φ t.succ = (dat4 V c).Φ t.castSucc from rfl,
    show (dat4 V c).owesAt () t.succ = (dat4 V c).owesAt () t.castSucc from rfl,
    after4_0, after4_1, after4_2, after4_3, after4_4, after4_5, after4_6, after4_7, after4_8, after4_9, after4_10, after4_11, after4_12]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (sound_kernel4 c Set.univ (grid4.coords t) _ _ _ _ _ _ _ _ _ _ _ _ _ _ _ _ _ _ _ _ _ _ _ _ _ _
    (iblk4 V c 0 t) (iblk4 V c 1 t) (iblk4 V c 2 t) (iblk4 V c 3 t) (iblk4 V c 4 t) (iblk4 V c 5 t) (iblk4 V c 6 t) (iblk4 V c 7 t) (iblk4 V c 8 t) (iblk4 V c 9 t) (iblk4 V c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  isplitl [H12]; · iexists _; iexact H12
  iintro ⟨H0, H1, H2, H3, H4, H5, H6, H7, H8, H9, H10, H11, H12⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem body_obligation4 (c : Dev nD) : BodyObligation (dat4 (F := F) V c) (defs₀ (F := F)) Variants.none () Set.univ := fun t => by
  rw [bigSep_W4, bigSep_W4]
  exact sound_body4 V c t

end Cert.KernelIdeal.R4

end
-- ==== Proof.KI.Chain.lean ====
import proofs.«406789_j53094385713523_3_alg».proof.Proof.KI.RunCond
import proofs.«406789_j53094385713523_3_alg».proof.Proof.KI.R0
import proofs.«406789_j53094385713523_3_alg».proof.Proof.KI.R1
import proofs.«406789_j53094385713523_3_alg».proof.Proof.KI.R2
import proofs.«406789_j53094385713523_3_alg».proof.Proof.KI.R3
import proofs.«406789_j53094385713523_3_alg».proof.Proof.KI.R4
import Idealize.ShloMosaic.Lib.Pipeline.Frame
import Idealize.ShloMosaic.Lib.Pipeline.RegionsLoop
import Idealize.ShloMosaic.Lib.Pipeline.Kit

set_option maxRecDepth 4096

noncomputable section

namespace Cert.KernelIdeal.Chain

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F] [Named F]

local notation "𝕄" => MT nD τ sig Unit (Elt F) ℕ (UR sig nD τ) ℕ

variable (m : (ℓ : Loc nD τ sig) → Buf (Elt F) ℓ)

abbrev atTc (W : Dev nD → Valuation τ sig (Elt F)) : (c : Dev nD) → (b : Ref sig .tc) → Buf (Elt F) ((c : Thread nD τ).loc b) :=
  fun c b => W c b

abbrev OutsAt : Type := (r : Ref sig .tc) → (c : Dev nD) → Buf (Elt F) ((c : Thread nD τ).loc r)

def left0 : OutsAt (F := F) := fun r c => m ((c : Thread nD τ).loc r)

def left1 : OutsAt (F := F) :=
  Function.update (left0 m) main_v65 fun c => (R0.dat0 (atTc (Gen.V27 m)) c).arrAt 3 cfg0.N

def left2 : OutsAt (F := F) :=
  Function.update (left1 m) main_v76 fun c => (R1.dat1 (atTc (Gen.V35 m fun _ => left1 m)) c).arrAt 3 cfg1.N

def left3 : OutsAt (F := F) :=
  Function.update (left2 m) main_v86 fun c => (R2.dat2 (atTc (Gen.V41 m fun _ => left2 m)) c).arrAt 3 cfg2.N

def left4 : OutsAt (F := F) :=
  Function.update (left3 m) main_v96 fun c => (R3.dat3 (atTc (Gen.V47 m fun _ => left3 m)) c).arrAt 3 cfg3.N

def left5 : OutsAt (F := F) :=
  Function.update
    (Function.update (left4 m) main_v177_0 fun c => (R4.dat4 (atTc (Gen.V61 m fun _ => left4 m)) c).arrAt 11 cfg4.N)
    main_v177_1 fun c => (R4.dat4 (atTc (Gen.V61 m fun _ => left4 m)) c).arrAt 12 cfg4.N

def outs : Gen.Outs (F := F) := fun _ => left5 m

theorem left2_of_ne {r : Ref sig .tc} (h : r ≠ main_v76) : left2 m r = left1 m r := Function.update_of_ne h _ _
theorem left3_of_ne {r : Ref sig .tc} (h : r ≠ main_v86) : left3 m r = left2 m r := Function.update_of_ne h _ _
theorem left4_of_ne {r : Ref sig .tc} (h : r ≠ main_v96) : left4 m r = left3 m r := Function.update_of_ne h _ _
theorem left5_of_ne {r : Ref sig .tc} (h0 : r ≠ main_v177_0) (h1 : r ≠ main_v177_1) : left5 m r = left4 m r :=
  (Function.update_of_ne h1 _ _).trans (Function.update_of_ne h0 _ _)

theorem left5_v65 : left5 m main_v65 = left1 m main_v65 :=
  (left5_of_ne m (r := main_v65) (by decide) (by decide)).trans <| (left4_of_ne m (r := main_v65) (by decide)).trans <|
    (left3_of_ne m (r := main_v65) (by decide)).trans (left2_of_ne m (r := main_v65) (by decide))
theorem left5_v76 : left5 m main_v76 = left2 m main_v76 :=
  (left5_of_ne m (r := main_v76) (by decide) (by decide)).trans <| (left4_of_ne m (r := main_v76) (by decide)).trans
    (left3_of_ne m (r := main_v76) (by decide))
theorem left5_v86 : left5 m main_v86 = left3 m main_v86 :=
  (left5_of_ne m (r := main_v86) (by decide) (by decide)).trans (left4_of_ne m (r := main_v86) (by decide))
theorem left5_v96 : left5 m main_v96 = left4 m main_v96 := left5_of_ne m (r := main_v96) (by decide) (by decide)
theorem left2_v65 : left2 m main_v65 = left1 m main_v65 := left2_of_ne m (r := main_v65) (by decide)
theorem left3_v65 : left3 m main_v65 = left1 m main_v65 := (left3_of_ne m (r := main_v65) (by decide)).trans (left2_v65 m)
theorem left4_v65 : left4 m main_v65 = left1 m main_v65 := (left4_of_ne m (r := main_v65) (by decide)).trans (left3_v65 m)
theorem left3_v76 : left3 m main_v76 = left2 m main_v76 := left3_of_ne m (r := main_v76) (by decide)
theorem left4_v76 : left4 m main_v76 = left2 m main_v76 := (left4_of_ne m (r := main_v76) (by decide)).trans (left3_v76 m)
theorem left4_v86 : left4 m main_v86 = left3 m main_v86 := left4_of_ne m (r := main_v86) (by decide)

section Congr
variable (o o' : Gen.Outs (F := F)) (c : Dev nD)

theorem V28_congr (h : o 28 main_v65 c = o' 28 main_v65 c) : Gen.V28 m o c = Gen.V28 m o' c := by
  unfold Gen.V28; rw [h]
theorem V35_congr (h : Gen.V28 m o c = Gen.V28 m o' c) : Gen.V35 m o c = Gen.V35 m o' c := by
  unfold Gen.V35 Gen.V34 Gen.V33 Gen.V32 Gen.V31 Gen.V30 Gen.V29; rw [h]
theorem V36_congr (h : Gen.V35 m o c = Gen.V35 m o' c) (h' : o 36 main_v76 c = o' 36 main_v76 c) :
    Gen.V36 m o c = Gen.V36 m o' c := by
  unfold Gen.V36; rw [h, h']
theorem V41_congr (h : Gen.V36 m o c = Gen.V36 m o' c) : Gen.V41 m o c = Gen.V41 m o' c := by
  unfold Gen.V41 Gen.V40 Gen.V39 Gen.V38 Gen.V37; rw [h]
theorem V42_congr (h : Gen.V41 m o c = Gen.V41 m o' c) (h' : o 42 main_v86 c = o' 42 main_v86 c) :
    Gen.V42 m o c = Gen.V42 m o' c := by
  unfold Gen.V42; rw [h, h']
theorem V47_congr (h : Gen.V42 m o c = Gen.V42 m o' c) : Gen.V47 m o c = Gen.V47 m o' c := by
  unfold Gen.V47 Gen.V46 Gen.V45 Gen.V44 Gen.V43; rw [h]
theorem V48_congr (h : Gen.V47 m o c = Gen.V47 m o' c) (h' : o 48 main_v96 c = o' 48 main_v96 c) :
    Gen.V48 m o c = Gen.V48 m o' c := by
  unfold Gen.V48; rw [h, h']
theorem V61_congr (h : Gen.V48 m o c = Gen.V48 m o' c) : Gen.V61 m o c = Gen.V61 m o' c := by
  unfold Gen.V61 Gen.V60 Gen.V59 Gen.V58 Gen.V57 Gen.V56 Gen.V55 Gen.V54 Gen.V53 Gen.V52 Gen.V51 Gen.V50 Gen.V49; rw [h]

end Congr

theorem V35_outs : Gen.V35 m (outs m) = Gen.V35 m fun _ => left1 m :=
  funext fun c => V35_congr m (outs m) (fun _ => left1 m) c <|
    V28_congr m (outs m) (fun _ => left1 m) c (congrFun (left5_v65 m) c)

theorem V41_outs : Gen.V41 m (outs m) = Gen.V41 m fun _ => left2 m :=
  funext fun c => V41_congr m (outs m) (fun _ => left2 m) c <|
    V36_congr m (outs m) (fun _ => left2 m) c
      (V35_congr m (outs m) (fun _ => left2 m) c <| V28_congr m (outs m) (fun _ => left2 m) c
        (congrFun ((left5_v65 m).trans (left2_v65 m).symm) c))
      (congrFun (left5_v76 m) c)

theorem V47_outs : Gen.V47 m (outs m) = Gen.V47 m fun _ => left3 m :=
  funext fun c => V47_congr m (outs m) (fun _ => left3 m) c <|
    V42_congr m (outs m) (fun _ => left3 m) c
      (V41_congr m (outs m) (fun _ => left3 m) c <| V36_congr m (outs m) (fun _ => left3 m) c
        (V35_congr m (outs m) (fun _ => left3 m) c <| V28_congr m (outs m) (fun _ => left3 m) c
          (congrFun ((left5_v65 m).trans (left3_v65 m).symm) c))
        (congrFun ((left5_v76 m).trans (left3_v76 m).symm) c))
      (congrFun (left5_v86 m) c)

theorem V61_outs : Gen.V61 m (outs m) = Gen.V61 m fun _ => left4 m :=
  funext fun c => V61_congr m (outs m) (fun _ => left4 m) c <|
    V48_congr m (outs m) (fun _ => left4 m) c
      (V47_congr m (outs m) (fun _ => left4 m) c <| V42_congr m (outs m) (fun _ => left4 m) c
        (V41_congr m (outs m) (fun _ => left4 m) c <| V36_congr m (outs m) (fun _ => left4 m) c
          (V35_congr m (outs m) (fun _ => left4 m) c <| V28_congr m (outs m) (fun _ => left4 m) c
            (congrFun ((left5_v65 m).trans (left4_v65 m).symm) c))
          (congrFun ((left5_v76 m).trans (left4_v76 m).symm) c))
        (congrFun ((left5_v86 m).trans (left4_v86 m).symm) c))
      (congrFun (left5_v96 m) c)

theorem left1_at : left1 m main_v65 = fun c => (R0.dat0 (atTc (Gen.V27 m)) c).arrAt 3 cfg0.N := by
  unfold left1; exact Function.update_self _ _ _
theorem left2_at : left2 m main_v76 = fun c => (R1.dat1 (atTc (Gen.V35 m fun _ => left1 m)) c).arrAt 3 cfg1.N := by
  unfold left2; exact Function.update_self _ _ _
theorem left3_at : left3 m main_v86 = fun c => (R2.dat2 (atTc (Gen.V41 m fun _ => left2 m)) c).arrAt 3 cfg2.N := by
  unfold left3; exact Function.update_self _ _ _
theorem left4_at : left4 m main_v96 = fun c => (R3.dat3 (atTc (Gen.V47 m fun _ => left3 m)) c).arrAt 3 cfg3.N := by
  unfold left4; exact Function.update_self _ _ _
theorem left5_at0 : left5 m main_v177_0 = fun c => (R4.dat4 (atTc (Gen.V61 m fun _ => left4 m)) c).arrAt 11 cfg4.N := by
  unfold left5
  exact (Function.update_of_ne (show main_v177_0 ≠ main_v177_1 by decide) _ _).trans (Function.update_self _ _ _)
theorem left5_at1 : left5 m main_v177_1 = fun c => (R4.dat4 (atTc (Gen.V61 m fun _ => left4 m)) c).arrAt 12 cfg4.N := by
  unfold left5; exact Function.update_self _ _ _

theorem outs_28 (c : Dev nD) : outs m 28 main_v65 c = (R0.dat0 (atTc (Gen.V27 m)) c).arrAt 3 cfg0.N :=
  (congrFun (left5_v65 m) c).trans (congrFun (left1_at m) c)
theorem outs_36 (c : Dev nD) : outs m 36 main_v76 c = (R1.dat1 (atTc (Gen.V35 m (outs m))) c).arrAt 3 cfg1.N := by
  rw [V35_outs]; exact (congrFun (left5_v76 m) c).trans (congrFun (left2_at m) c)
theorem outs_42 (c : Dev nD) : outs m 42 main_v86 c = (R2.dat2 (atTc (Gen.V41 m (outs m))) c).arrAt 3 cfg2.N := by
  rw [V41_outs]; exact (congrFun (left5_v86 m) c).trans (congrFun (left3_at m) c)
theorem outs_48 (c : Dev nD) : outs m 48 main_v96 c = (R3.dat3 (atTc (Gen.V47 m (outs m))) c).arrAt 3 cfg3.N := by
  rw [V47_outs]; exact (congrFun (left5_v96 m) c).trans (congrFun (left4_at m) c)
theorem outs_62_0 (c : Dev nD) : outs m 62 main_v177_0 c = (R4.dat4 (atTc (Gen.V61 m (outs m))) c).arrAt 11 cfg4.N := by
  rw [V61_outs]; exact congrFun (left5_at0 m) c
theorem outs_62_1 (c : Dev nD) : outs m 62 main_v177_1 c = (R4.dat4 (atTc (Gen.V61 m (outs m))) c).arrAt 12 cfg4.N := by
  rw [V61_outs]; exact congrFun (left5_at1 m) c

section AtOut
variable (o : Gen.Outs (F := F)) (c : Dev nD)

theorem V28_at : Gen.V28 m o c main_v65 = o 28 main_v65 c := by unfold Gen.V28; exact Function.update_self _ _ _
theorem V36_at : Gen.V36 m o c main_v76 = o 36 main_v76 c := by unfold Gen.V36; exact Function.update_self _ _ _
theorem V42_at : Gen.V42 m o c main_v86 = o 42 main_v86 c := by unfold Gen.V42; exact Function.update_self _ _ _
theorem V48_at : Gen.V48 m o c main_v96 = o 48 main_v96 c := by unfold Gen.V48; exact Function.update_self _ _ _
theorem V62_at0 : Gen.V62 m o c main_v177_0 = o 62 main_v177_0 c := by
  unfold Gen.V62
  exact (Function.update_of_ne (StableHlo.devRef_ne_of_ne (show main_v177_0 ≠ main_v177_1 by decide) :
    (Proc.devRef .tc main_v177_0 : DevRef τ sig) ≠ Proc.devRef .tc main_v177_1) _ _).trans (Function.update_self _ _ _)
theorem V62_at1 : Gen.V62 m o c main_v177_1 = o 62 main_v177_1 c := by unfold Gen.V62; exact Function.update_self _ _ _

end AtOut

def pdats : (p : Fin 5) → (c : Dev nD) → Dat τ (Elt F) Unit ℕ (UR sig nD τ) ℕ (cfgs p) c
  | ⟨0, _⟩ => fun c => R0.dat0 (atTc (Gen.V27 m)) c
  | ⟨1, _⟩ => fun c => R1.dat1 (atTc (Gen.V35 m (outs m))) c
  | ⟨2, _⟩ => fun c => R2.dat2 (atTc (Gen.V41 m (outs m))) c
  | ⟨3, _⟩ => fun c => R3.dat3 (atTc (Gen.V47 m (outs m))) c
  | ⟨4, _⟩ => fun c => R4.dat4 (atTc (Gen.V61 m (outs m))) c

abbrev noLevels : GSem nD τ sig → Finset Unit := fun _ => ∅
abbrev lvl0 : GSem nD τ sig → Unit → ℕ := fun _ _ => 0

abbrev rest (c : Dev nD) : sProp 𝕄 :=
  iprop((∃ r, prngReg c r) ∗ ∃ W, owes (c : Thread nD τ) (0 : CellTallies nD τ sig Unit) W)

theorem kept0 (c : Dev nD) (w : Fin 4) (hin : (cfg0.win w).isOut = false)
    (hne : Pipeline.arrRef spec0 w ∉ ([main_v65] : List (Ref sig .tc))) :
    (pdats m 0 c).arrAt w cfg0.N = atTc (Gen.V28 m (outs m)) c (Pipeline.arrRef spec0 w) :=
  ((pdats m 0 c).arrAt_in w hin cfg0.N).trans <|
    (R0.A_eq0 (atTc (Gen.V27 m)) c w).trans (Gen.V28_of m (outs m) c _ hne).symm

theorem exitArr0 (c : Dev nD) : ∀ w : Fin 4, (pdats m 0 c).arrAt w cfg0.N = atTc (Gen.V28 m (outs m)) c (Pipeline.arrRef spec0 w)
  | 0 => kept0 m c 0 rfl (by decide)
  | 1 => kept0 m c 1 rfl (by decide)
  | 2 => kept0 m c 2 rfl (by decide)
  | 3 => (outs_28 m c).symm.trans (V28_at m (outs m) c).symm
  | ⟨_ + 4, h⟩ => absurd h (Nat.not_lt.2 (Nat.le_add_left _ _))

theorem exitOff0 (c : Dev nD) (b : Ref sig .tc) (hb : b ∉ Finset.univ.image (Pipeline.arrRef spec0)) :
    atTc (Gen.V28 m (outs m)) c b = atTc (Gen.V27 m) c b :=
  Gen.V28_of m (outs m) c b fun h => hb (Finset.mem_image.mpr ⟨3, Finset.mem_univ _, (List.mem_singleton.mp h).symm⟩)

set_option backward.isDefEq.respectTransparency.types false in
def reg0 : Pipeline.RegionSeg (pcfgs (F := F)) Gen.adm (pdats m) () defs₀ Variants.none noLevels lvl0 0 where
  win := Gen.launch0.win.to₀
  block_pos := Gen.launch0.block_pos
  stage_whole := Gen.launch0.stage_whole
  K := PEmpty
  osem k := k.elim
  ho := Pipeline.OwnSemFacts.none _
  hbody c := (R0.body_obligation0 (atTc (Gen.V27 m)) c).loose
  hwaits := Pipeline.hwaits_of_owed_zero _ _ _ _ noLevels lvl0 0 fun _ _ => rfl
  pre c := iprop(StableHlo.held (c : Thread nD τ) (Pipeline.ucRefs τ sig) (Gen.V27 m c) ∗ rest c)
  post c := iprop(StableHlo.held (c : Thread nD τ) (Pipeline.ucRefs τ sig) (Gen.V28 m (outs m) c) ∗ rest c)
  X c := iprop(∃ r, prngReg c r)
  Y c := iprop(∃ r, prngReg c r)
  Z c := Pipeline.unscopedRest (Ix := Unit) (Name := ℕ) (U := UR sig nD τ) (Lvl := ℕ) spec0 c (atTc (Gen.V27 m) c)
  hentry c := by

    have hsplit := Pipeline.arrays_of_unscopedBufs (p := 0) (pcfgs (F := F)) Gen.adm (pdats m) Gen.launch0.win Gen.launch0.arr_whole c
      ((pdats m 0 c).share_full fun _ => rfl) (atTc (Gen.V27 m) c) fun _ => rfl
    rw [Pipeline.unscopedBufs_held] at hsplit
    rw [Pipeline.ownSems0_none]
    iintro ⟨⟨Hbufs, Hprng, Howes⟩, -, -⟩
    ihave Hs := hsplit $$ Hbufs
    icases Hs with ⟨Harr, Hoff⟩
    imodintro
    isplitl [Harr]; · iexact Harr
    isplitr
    ·
      unfold Pipeline.prefHeld
      rw [show (Finset.univ : Finset (Fin 0)) = ∅ from rfl, BI.bigSep_empty]; iempintro
    isplitl [Howes]
    ·
      unfold Pipeline.Dat.owesAt Pipeline.owesWithin
      icases Howes with ⟨%W, Howes⟩
      iexists W
      isplitr; · ipureintro; exact fun _ _ => Or.inl trivial
      iexact Howes
    isplitl [Hprng]; · iexact Hprng
    iexact Hoff
  hin c := by
    refine BIBase.Entails.trans ?_ (R0.hin0 (atTc (Gen.V27 m)) c)
    unfold Pipeline.ΦA
    iintro ⟨Hprng, -, Hscoped⟩
    isplitl [Hscoped]; · iexact Hscoped
    iexact Hprng
  hout c := by
    rw [Pipeline.ownSems0_none]
    refine BIBase.Entails.trans (R0.hout0 (atTc (Gen.V27 m)) c) ?_
    unfold Pipeline.ΦA
    iintro ⟨Hscoped, Hprng⟩
    isplitl [Hprng]; · iexact Hprng
    isplitr; · iempintro
    iexact Hscoped
  hexit c := by

    have hjoin := Pipeline.unscopedBufs_of_arrays (p := 0) (pcfgs (F := F)) Gen.adm (Ix := Unit) (Name := ℕ) (U := UR sig nD τ) (Lvl := ℕ)
      Gen.launch0.win Gen.launch0.arr_whole c (pdats m) ((pdats m 0 c).share_full fun _ => rfl)
      (atTc (Gen.V27 m) c) (atTc (Gen.V28 m (outs m)) c) ((pdats m 0 c).arrAt · cfg0.N) (exitArr0 m c) (exitOff0 m c)
    rw [Pipeline.unscopedBufs_held] at hjoin
    iintro ⟨Harr, Howes, Hprng, Hoff⟩
    imodintro
    isplitl [Harr Hoff]
    · iapply hjoin; isplitl [Harr] <;> iassumption
    isplitl [Hprng]; · iexact Hprng
    unfold Pipeline.Dat.owesAt Pipeline.owesWithin
    icases Howes with ⟨%W, -, Howes⟩; iexists W; iexact Howes

theorem kept1 (c : Dev nD) (w : Fin 4) (hin : (cfg1.win w).isOut = false)
    (hne : Pipeline.arrRef spec1 w ∉ ([main_v76] : List (Ref sig .tc))) :
    (pdats m 1 c).arrAt w cfg1.N = atTc (Gen.V36 m (outs m)) c (Pipeline.arrRef spec1 w) :=
  ((pdats m 1 c).arrAt_in w hin cfg1.N).trans <|
    (R1.A_eq1 (atTc (Gen.V35 m (outs m))) c w).trans (Gen.V36_of m (outs m) c _ hne).symm

theorem exitArr1 (c : Dev nD) : ∀ w : Fin 4, (pdats m 1 c).arrAt w cfg1.N = atTc (Gen.V36 m (outs m)) c (Pipeline.arrRef spec1 w)
  | 0 => kept1 m c 0 rfl (by decide)
  | 1 => kept1 m c 1 rfl (by decide)
  | 2 => kept1 m c 2 rfl (by decide)
  | 3 => (outs_36 m c).symm.trans (V36_at m (outs m) c).symm
  | ⟨_ + 4, h⟩ => absurd h (Nat.not_lt.2 (Nat.le_add_left _ _))

theorem exitOff1 (c : Dev nD) (b : Ref sig .tc) (hb : b ∉ Finset.univ.image (Pipeline.arrRef spec1)) :
    atTc (Gen.V36 m (outs m)) c b = atTc (Gen.V35 m (outs m)) c b :=
  Gen.V36_of m (outs m) c b fun h => hb (Finset.mem_image.mpr ⟨3, Finset.mem_univ _, (List.mem_singleton.mp h).symm⟩)

set_option backward.isDefEq.respectTransparency.types false in
def reg1 : Pipeline.RegionSeg (pcfgs (F := F)) Gen.adm (pdats m) () defs₀ Variants.none noLevels lvl0 1 where
  win := Gen.launch1.win.to₀
  block_pos := Gen.launch1.block_pos
  stage_whole := Gen.launch1.stage_whole
  K := PEmpty
  osem k := k.elim
  ho := Pipeline.OwnSemFacts.none _
  hbody c := (R1.body_obligation1 (atTc (Gen.V35 m (outs m))) c).loose
  hwaits := Pipeline.hwaits_of_owed_zero _ _ _ _ noLevels lvl0 1 fun _ _ => rfl
  pre c := iprop(StableHlo.held (c : Thread nD τ) (Pipeline.ucRefs τ sig) (Gen.V35 m (outs m) c) ∗ rest c)
  post c := iprop(StableHlo.held (c : Thread nD τ) (Pipeline.ucRefs τ sig) (Gen.V36 m (outs m) c) ∗ rest c)
  X c := iprop(∃ r, prngReg c r)
  Y c := iprop(∃ r, prngReg c r)
  Z c := Pipeline.unscopedRest (Ix := Unit) (Name := ℕ) (U := UR sig nD τ) (Lvl := ℕ) spec1 c (atTc (Gen.V35 m (outs m)) c)
  hentry c := by

    have hsplit := Pipeline.arrays_of_unscopedBufs (p := 1) (pcfgs (F := F)) Gen.adm (pdats m) Gen.launch1.win Gen.launch1.arr_whole c
      ((pdats m 1 c).share_full fun _ => rfl) (atTc (Gen.V35 m (outs m)) c) fun _ => rfl
    rw [Pipeline.unscopedBufs_held] at hsplit
    rw [Pipeline.ownSems0_none]
    iintro ⟨⟨Hbufs, Hprng, Howes⟩, -, -⟩
    ihave Hs := hsplit $$ Hbufs
    icases Hs with ⟨Harr, Hoff⟩
    imodintro
    isplitl [Harr]; · iexact Harr
    isplitr
    ·
      unfold Pipeline.prefHeld
      rw [show (Finset.univ : Finset (Fin 0)) = ∅ from rfl, BI.bigSep_empty]; iempintro
    isplitl [Howes]
    ·
      unfold Pipeline.Dat.owesAt Pipeline.owesWithin
      icases Howes with ⟨%W, Howes⟩
      iexists W
      isplitr; · ipureintro; exact fun _ _ => Or.inl trivial
      iexact Howes
    isplitl [Hprng]; · iexact Hprng
    iexact Hoff
  hin c := by
    refine BIBase.Entails.trans ?_ (R1.hin1 (atTc (Gen.V35 m (outs m))) c)
    unfold Pipeline.ΦA
    iintro ⟨Hprng, -, Hscoped⟩
    isplitl [Hscoped]; · iexact Hscoped
    iexact Hprng
  hout c := by
    rw [Pipeline.ownSems0_none]
    refine BIBase.Entails.trans (R1.hout1 (atTc (Gen.V35 m (outs m))) c) ?_
    unfold Pipeline.ΦA
    iintro ⟨Hscoped, Hprng⟩
    isplitl [Hprng]; · iexact Hprng
    isplitr; · iempintro
    iexact Hscoped
  hexit c := by

    have hjoin := Pipeline.unscopedBufs_of_arrays (p := 1) (pcfgs (F := F)) Gen.adm (Ix := Unit) (Name := ℕ) (U := UR sig nD τ) (Lvl := ℕ)
      Gen.launch1.win Gen.launch1.arr_whole c (pdats m) ((pdats m 1 c).share_full fun _ => rfl)
      (atTc (Gen.V35 m (outs m)) c) (atTc (Gen.V36 m (outs m)) c) ((pdats m 1 c).arrAt · cfg1.N) (exitArr1 m c) (exitOff1 m c)
    rw [Pipeline.unscopedBufs_held] at hjoin
    iintro ⟨Harr, Howes, Hprng, Hoff⟩
    imodintro
    isplitl [Harr Hoff]
    · iapply hjoin; isplitl [Harr] <;> iassumption
    isplitl [Hprng]; · iexact Hprng
    unfold Pipeline.Dat.owesAt Pipeline.owesWithin
    icases Howes with ⟨%W, -, Howes⟩; iexists W; iexact Howes

theorem kept2 (c : Dev nD) (w : Fin 4) (hin : (cfg2.win w).isOut = false)
    (hne : Pipeline.arrRef spec2 w ∉ ([main_v86] : List (Ref sig .tc))) :
    (pdats m 2 c).arrAt w cfg2.N = atTc (Gen.V42 m (outs m)) c (Pipeline.arrRef spec2 w) :=
  ((pdats m 2 c).arrAt_in w hin cfg2.N).trans <|
    (R2.A_eq2 (atTc (Gen.V41 m (outs m))) c w).trans (Gen.V42_of m (outs m) c _ hne).symm

theorem exitArr2 (c : Dev nD) : ∀ w : Fin 4, (pdats m 2 c).arrAt w cfg2.N = atTc (Gen.V42 m (outs m)) c (Pipeline.arrRef spec2 w)
  | 0 => kept2 m c 0 rfl (by decide)
  | 1 => kept2 m c 1 rfl (by decide)
  | 2 => kept2 m c 2 rfl (by decide)
  | 3 => (outs_42 m c).symm.trans (V42_at m (outs m) c).symm
  | ⟨_ + 4, h⟩ => absurd h (Nat.not_lt.2 (Nat.le_add_left _ _))

theorem exitOff2 (c : Dev nD) (b : Ref sig .tc) (hb : b ∉ Finset.univ.image (Pipeline.arrRef spec2)) :
    atTc (Gen.V42 m (outs m)) c b = atTc (Gen.V41 m (outs m)) c b :=
  Gen.V42_of m (outs m) c b fun h => hb (Finset.mem_image.mpr ⟨3, Finset.mem_univ _, (List.mem_singleton.mp h).symm⟩)

set_option backward.isDefEq.respectTransparency.types false in
def reg2 : Pipeline.RegionSeg (pcfgs (F := F)) Gen.adm (pdats m) () defs₀ Variants.none noLevels lvl0 2 where
  win := Gen.launch2.win.to₀
  block_pos := Gen.launch2.block_pos
  stage_whole := Gen.launch2.stage_whole
  K := PEmpty
  osem k := k.elim
  ho := Pipeline.OwnSemFacts.none _
  hbody c := (R2.body_obligation2 (atTc (Gen.V41 m (outs m))) c).loose
  hwaits := Pipeline.hwaits_of_owed_zero _ _ _ _ noLevels lvl0 2 fun _ _ => rfl
  pre c := iprop(StableHlo.held (c : Thread nD τ) (Pipeline.ucRefs τ sig) (Gen.V41 m (outs m) c) ∗ rest c)
  post c := iprop(StableHlo.held (c : Thread nD τ) (Pipeline.ucRefs τ sig) (Gen.V42 m (outs m) c) ∗ rest c)
  X c := iprop(∃ r, prngReg c r)
  Y c := iprop(∃ r, prngReg c r)
  Z c := Pipeline.unscopedRest (Ix := Unit) (Name := ℕ) (U := UR sig nD τ) (Lvl := ℕ) spec2 c (atTc (Gen.V41 m (outs m)) c)
  hentry c := by

    have hsplit := Pipeline.arrays_of_unscopedBufs (p := 2) (pcfgs (F := F)) Gen.adm (pdats m) Gen.launch2.win Gen.launch2.arr_whole c
      ((pdats m 2 c).share_full fun _ => rfl) (atTc (Gen.V41 m (outs m)) c) fun _ => rfl
    rw [Pipeline.unscopedBufs_held] at hsplit
    rw [Pipeline.ownSems0_none]
    iintro ⟨⟨Hbufs, Hprng, Howes⟩, -, -⟩
    ihave Hs := hsplit $$ Hbufs
    icases Hs with ⟨Harr, Hoff⟩
    imodintro
    isplitl [Harr]; · iexact Harr
    isplitr
    ·
      unfold Pipeline.prefHeld
      rw [show (Finset.univ : Finset (Fin 0)) = ∅ from rfl, BI.bigSep_empty]; iempintro
    isplitl [Howes]
    ·
      unfold Pipeline.Dat.owesAt Pipeline.owesWithin
      icases Howes with ⟨%W, Howes⟩
      iexists W
      isplitr; · ipureintro; exact fun _ _ => Or.inl trivial
      iexact Howes
    isplitl [Hprng]; · iexact Hprng
    iexact Hoff
  hin c := by
    refine BIBase.Entails.trans ?_ (R2.hin2 (atTc (Gen.V41 m (outs m))) c)
    unfold Pipeline.ΦA
    iintro ⟨Hprng, -, Hscoped⟩
    isplitl [Hscoped]; · iexact Hscoped
    iexact Hprng
  hout c := by
    rw [Pipeline.ownSems0_none]
    refine BIBase.Entails.trans (R2.hout2 (atTc (Gen.V41 m (outs m))) c) ?_
    unfold Pipeline.ΦA
    iintro ⟨Hscoped, Hprng⟩
    isplitl [Hprng]; · iexact Hprng
    isplitr; · iempintro
    iexact Hscoped
  hexit c := by

    have hjoin := Pipeline.unscopedBufs_of_arrays (p := 2) (pcfgs (F := F)) Gen.adm (Ix := Unit) (Name := ℕ) (U := UR sig nD τ) (Lvl := ℕ)
      Gen.launch2.win Gen.launch2.arr_whole c (pdats m) ((pdats m 2 c).share_full fun _ => rfl)
      (atTc (Gen.V41 m (outs m)) c) (atTc (Gen.V42 m (outs m)) c) ((pdats m 2 c).arrAt · cfg2.N) (exitArr2 m c) (exitOff2 m c)
    rw [Pipeline.unscopedBufs_held] at hjoin
    iintro ⟨Harr, Howes, Hprng, Hoff⟩
    imodintro
    isplitl [Harr Hoff]
    · iapply hjoin; isplitl [Harr] <;> iassumption
    isplitl [Hprng]; · iexact Hprng
    unfold Pipeline.Dat.owesAt Pipeline.owesWithin
    icases Howes with ⟨%W, -, Howes⟩; iexists W; iexact Howes

theorem kept3 (c : Dev nD) (w : Fin 4) (hin : (cfg3.win w).isOut = false)
    (hne : Pipeline.arrRef spec3 w ∉ ([main_v96] : List (Ref sig .tc))) :
    (pdats m 3 c).arrAt w cfg3.N = atTc (Gen.V48 m (outs m)) c (Pipeline.arrRef spec3 w) :=
  ((pdats m 3 c).arrAt_in w hin cfg3.N).trans <|
    (R3.A_eq3 (atTc (Gen.V47 m (outs m))) c w).trans (Gen.V48_of m (outs m) c _ hne).symm

theorem exitArr3 (c : Dev nD) : ∀ w : Fin 4, (pdats m 3 c).arrAt w cfg3.N = atTc (Gen.V48 m (outs m)) c (Pipeline.arrRef spec3 w)
  | 0 => kept3 m c 0 rfl (by decide)
  | 1 => kept3 m c 1 rfl (by decide)
  | 2 => kept3 m c 2 rfl (by decide)
  | 3 => (outs_48 m c).symm.trans (V48_at m (outs m) c).symm
  | ⟨_ + 4, h⟩ => absurd h (Nat.not_lt.2 (Nat.le_add_left _ _))

theorem exitOff3 (c : Dev nD) (b : Ref sig .tc) (hb : b ∉ Finset.univ.image (Pipeline.arrRef spec3)) :
    atTc (Gen.V48 m (outs m)) c b = atTc (Gen.V47 m (outs m)) c b :=
  Gen.V48_of m (outs m) c b fun h => hb (Finset.mem_image.mpr ⟨3, Finset.mem_univ _, (List.mem_singleton.mp h).symm⟩)

set_option backward.isDefEq.respectTransparency.types false in
def reg3 : Pipeline.RegionSeg (pcfgs (F := F)) Gen.adm (pdats m) () defs₀ Variants.none noLevels lvl0 3 where
  win := Gen.launch3.win.to₀
  block_pos := Gen.launch3.block_pos
  stage_whole := Gen.launch3.stage_whole
  K := PEmpty
  osem k := k.elim
  ho := Pipeline.OwnSemFacts.none _
  hbody c := (R3.body_obligation3 (atTc (Gen.V47 m (outs m))) c).loose
  hwaits := Pipeline.hwaits_of_owed_zero _ _ _ _ noLevels lvl0 3 fun _ _ => rfl
  pre c := iprop(StableHlo.held (c : Thread nD τ) (Pipeline.ucRefs τ sig) (Gen.V47 m (outs m) c) ∗ rest c)
  post c := iprop(StableHlo.held (c : Thread nD τ) (Pipeline.ucRefs τ sig) (Gen.V48 m (outs m) c) ∗ rest c)
  X c := iprop(∃ r, prngReg c r)
  Y c := iprop(∃ r, prngReg c r)
  Z c := Pipeline.unscopedRest (Ix := Unit) (Name := ℕ) (U := UR sig nD τ) (Lvl := ℕ) spec3 c (atTc (Gen.V47 m (outs m)) c)
  hentry c := by

    have hsplit := Pipeline.arrays_of_unscopedBufs (p := 3) (pcfgs (F := F)) Gen.adm (pdats m) Gen.launch3.win Gen.launch3.arr_whole c
      ((pdats m 3 c).share_full fun _ => rfl) (atTc (Gen.V47 m (outs m)) c) fun _ => rfl
    rw [Pipeline.unscopedBufs_held] at hsplit
    rw [Pipeline.ownSems0_none]
    iintro ⟨⟨Hbufs, Hprng, Howes⟩, -, -⟩
    ihave Hs := hsplit $$ Hbufs
    icases Hs with ⟨Harr, Hoff⟩
    imodintro
    isplitl [Harr]; · iexact Harr
    isplitr
    ·
      unfold Pipeline.prefHeld
      rw [show (Finset.univ : Finset (Fin 0)) = ∅ from rfl, BI.bigSep_empty]; iempintro
    isplitl [Howes]
    ·
      unfold Pipeline.Dat.owesAt Pipeline.owesWithin
      icases Howes with ⟨%W, Howes⟩
      iexists W
      isplitr; · ipureintro; exact fun _ _ => Or.inl trivial
      iexact Howes
    isplitl [Hprng]; · iexact Hprng
    iexact Hoff
  hin c := by
    refine BIBase.Entails.trans ?_ (R3.hin3 (atTc (Gen.V47 m (outs m))) c)
    unfold Pipeline.ΦA
    iintro ⟨Hprng, -, Hscoped⟩
    isplitl [Hscoped]; · iexact Hscoped
    iexact Hprng
  hout c := by
    rw [Pipeline.ownSems0_none]
    refine BIBase.Entails.trans (R3.hout3 (atTc (Gen.V47 m (outs m))) c) ?_
    unfold Pipeline.ΦA
    iintro ⟨Hscoped, Hprng⟩
    isplitl [Hprng]; · iexact Hprng
    isplitr; · iempintro
    iexact Hscoped
  hexit c := by

    have hjoin := Pipeline.unscopedBufs_of_arrays (p := 3) (pcfgs (F := F)) Gen.adm (Ix := Unit) (Name := ℕ) (U := UR sig nD τ) (Lvl := ℕ)
      Gen.launch3.win Gen.launch3.arr_whole c (pdats m) ((pdats m 3 c).share_full fun _ => rfl)
      (atTc (Gen.V47 m (outs m)) c) (atTc (Gen.V48 m (outs m)) c) ((pdats m 3 c).arrAt · cfg3.N) (exitArr3 m c) (exitOff3 m c)
    rw [Pipeline.unscopedBufs_held] at hjoin
    iintro ⟨Harr, Howes, Hprng, Hoff⟩
    imodintro
    isplitl [Harr Hoff]
    · iapply hjoin; isplitl [Harr] <;> iassumption
    isplitl [Hprng]; · iexact Hprng
    unfold Pipeline.Dat.owesAt Pipeline.owesWithin
    icases Howes with ⟨%W, -, Howes⟩; iexists W; iexact Howes

theorem in4 (V : (c : Dev nD) → (b : Ref sig .tc) → Buf (Elt F) ((c : Thread nD τ).loc b)) (c : Dev nD) :
    Pipeline.ΦA spec4 c ⊢ (R4.dat4 V c).Φ 0 := Entails.of_eq rfl
theorem out4 (V : (c : Dev nD) → (b : Ref sig .tc) → Buf (Elt F) ((c : Thread nD τ).loc b)) (c : Dev nD) :
    (R4.dat4 V c).Φ (Fin.last cfg4.N) ⊢ Pipeline.ΦA spec4 c := Entails.of_eq rfl

theorem kept4 (c : Dev nD) (w : Fin 13) (hin : (cfg4.win w).isOut = false)
    (hne : Pipeline.arrRef spec4 w ∉ ([main_v177_0, main_v177_1] : List (Ref sig .tc))) :
    (pdats m 4 c).arrAt w cfg4.N = atTc (Gen.V62 m (outs m)) c (Pipeline.arrRef spec4 w) :=
  ((pdats m 4 c).arrAt_in w hin cfg4.N).trans <|
    (R4.A_eq4 (atTc (Gen.V61 m (outs m))) c w).trans (Gen.V62_of m (outs m) c _ hne).symm

theorem exitArr4 (c : Dev nD) : ∀ w : Fin 13, (pdats m 4 c).arrAt w cfg4.N = atTc (Gen.V62 m (outs m)) c (Pipeline.arrRef spec4 w)
  | 0 => kept4 m c 0 rfl (by decide)
  | 1 => kept4 m c 1 rfl (by decide)
  | 2 => kept4 m c 2 rfl (by decide)
  | 3 => kept4 m c 3 rfl (by decide)
  | 4 => kept4 m c 4 rfl (by decide)
  | 5 => kept4 m c 5 rfl (by decide)
  | 6 => kept4 m c 6 rfl (by decide)
  | 7 => kept4 m c 7 rfl (by decide)
  | 8 => kept4 m c 8 rfl (by decide)
  | 9 => kept4 m c 9 rfl (by decide)
  | 10 => kept4 m c 10 rfl (by decide)
  | 11 => (outs_62_0 m c).symm.trans (V62_at0 m (outs m) c).symm
  | 12 => (outs_62_1 m c).symm.trans (V62_at1 m (outs m) c).symm
  | ⟨_ + 13, h⟩ => absurd h (Nat.not_lt.2 (Nat.le_add_left _ _))

theorem exitOff4 (c : Dev nD) (b : Ref sig .tc) (hb : b ∉ Finset.univ.image (Pipeline.arrRef spec4)) :
    atTc (Gen.V62 m (outs m)) c b = atTc (Gen.V61 m (outs m)) c b :=
  Gen.V62_of m (outs m) c b fun h => hb <| by
    rcases List.mem_cons.mp h with h | h
    · exact Finset.mem_image.mpr ⟨11, Finset.mem_univ _, h.symm⟩
    · exact Finset.mem_image.mpr ⟨12, Finset.mem_univ _, (List.mem_singleton.mp h).symm⟩

set_option backward.isDefEq.respectTransparency.types false in
def reg4 : Pipeline.RegionSeg (pcfgs (F := F)) Gen.adm (pdats m) () defs₀ Variants.none noLevels lvl0 4 where
  win := Gen.launch4.win.to₀
  block_pos := Gen.launch4.block_pos
  stage_whole := Gen.launch4.stage_whole
  K := PEmpty
  osem k := k.elim
  ho := Pipeline.OwnSemFacts.none _
  hbody c := (R4.body_obligation4 (atTc (Gen.V61 m (outs m))) c).loose
  hwaits := Pipeline.hwaits_of_owed_zero _ _ _ _ noLevels lvl0 4 fun _ _ => rfl
  pre c := iprop(StableHlo.held (c : Thread nD τ) (Pipeline.ucRefs τ sig) (Gen.V61 m (outs m) c) ∗ rest c)
  post c := iprop(StableHlo.held (c : Thread nD τ) (Pipeline.ucRefs τ sig) (Gen.V62 m (outs m) c) ∗ rest c)
  X c := iprop(∃ r, prngReg c r)
  Y c := iprop(∃ r, prngReg c r)
  Z c := Pipeline.unscopedRest (Ix := Unit) (Name := ℕ) (U := UR sig nD τ) (Lvl := ℕ) spec4 c (atTc (Gen.V61 m (outs m)) c)
  hentry c := by

    have hsplit := Pipeline.arrays_of_unscopedBufs (p := 4) (pcfgs (F := F)) Gen.adm (pdats m) Gen.launch4.win Gen.launch4.arr_whole c
      ((pdats m 4 c).share_full fun _ => rfl) (atTc (Gen.V61 m (outs m)) c) fun _ => rfl
    rw [Pipeline.unscopedBufs_held] at hsplit
    rw [Pipeline.ownSems0_none]
    iintro ⟨⟨Hbufs, Hprng, Howes⟩, -, -⟩
    ihave Hs := hsplit $$ Hbufs
    icases Hs with ⟨Harr, Hoff⟩
    imodintro
    isplitl [Harr]; · iexact Harr
    isplitr
    ·
      unfold Pipeline.prefHeld
      rw [show (Finset.univ : Finset (Fin 0)) = ∅ from rfl, BI.bigSep_empty]; iempintro
    isplitl [Howes]
    ·
      unfold Pipeline.Dat.owesAt Pipeline.owesWithin
      icases Howes with ⟨%W, Howes⟩
      iexists W
      isplitr; · ipureintro; exact fun _ _ => Or.inl trivial
      iexact Howes
    isplitl [Hprng]; · iexact Hprng
    iexact Hoff
  hin c := by
    refine BIBase.Entails.trans ?_ (in4 (atTc (Gen.V61 m (outs m))) c)
    unfold Pipeline.ΦA
    iintro ⟨Hprng, -, Hscoped⟩
    isplitl [Hscoped]; · iexact Hscoped
    iexact Hprng
  hout c := by
    rw [Pipeline.ownSems0_none]
    refine BIBase.Entails.trans (out4 (atTc (Gen.V61 m (outs m))) c) ?_
    unfold Pipeline.ΦA
    iintro ⟨Hscoped, Hprng⟩
    isplitl [Hprng]; · iexact Hprng
    isplitr; · iempintro
    iexact Hscoped
  hexit c := by

    have hjoin := Pipeline.unscopedBufs_of_arrays (p := 4) (pcfgs (F := F)) Gen.adm (Ix := Unit) (Name := ℕ) (U := UR sig nD τ) (Lvl := ℕ)
      Gen.launch4.win Gen.launch4.arr_whole c (pdats m) ((pdats m 4 c).share_full fun _ => rfl)
      (atTc (Gen.V61 m (outs m)) c) (atTc (Gen.V62 m (outs m)) c) ((pdats m 4 c).arrAt · cfg4.N) (exitArr4 m c) (exitOff4 m c)
    rw [Pipeline.unscopedBufs_held] at hjoin
    iintro ⟨Harr, Howes, Hprng, Hoff⟩
    imodintro
    isplitl [Harr Hoff]
    · iapply hjoin; isplitl [Harr] <;> iassumption
    isplitl [Hprng]; · iexact Hprng
    unfold Pipeline.Dat.owesAt Pipeline.owesWithin
    icases Howes with ⟨%W, -, Howes⟩; iexists W; iexact Howes

theorem launchGhost :
    (ownU (initOf (Pipeline.cells cfgs Gen.cellOf_inj) (Pipeline.launchToks cfgs Gen.cellOf_inj)) : sProp 𝕄)
      ⊢ |={Set.univ}=> iprop(BI.own (emb₁ (initOf (Pipeline.cells cfgs Gen.cellOf_inj) (Pipeline.launchToks cfgs Gen.cellOf_inj)))
          ∗ bigSep Finset.univ fun _ : Dev nD => (BI.emp : sProp 𝕄)) := by
  iintro Hu; imodintro
  isplitl [Hu]
  · iapply (show (ownU (initOf (Pipeline.cells cfgs Gen.cellOf_inj) (Pipeline.launchToks cfgs Gen.cellOf_inj)) : sProp 𝕄)
        ⊢ BI.own (emb₁ (initOf (Pipeline.cells cfgs Gen.cellOf_inj) (Pipeline.launchToks cfgs Gen.cellOf_inj))) from .rfl)
    iexact Hu
  iapply (show (BI.emp : sProp 𝕄) ⊢ bigSep Finset.univ (fun _ : Dev nD => (BI.emp : sProp 𝕄)) from by rw [BI.bigSep_emp_const])
  iempintro

theorem launchRest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄))) ∗ levAts noLevels lvl0)
      ⊢ (|={Set.univ}=> bigSep Finset.univ (rest (F := F)) : sProp 𝕄) :=
  Pipeline.initEach noLevels lvl0 fun c => by
    iintro ⟨⟨-, Howes, -, Hprng, -⟩, -⟩
    imodintro
    isplitl [Hprng]; · iexists _; iexact Hprng
    iexists ∅; iexact Howes

theorem restOwes (c : Dev nD) :
    rest (F := F) c ⊢ (iprop(∃ W, owes (c : Thread nD τ) (0 : CellTallies nD τ sig Unit) W) : sProp 𝕄) := by
  iintro ⟨-, Howes⟩; iexact Howes

set_option backward.isDefEq.respectTransparency.types false in
theorem run (ρ : Dev nD → PrngReg) :
    θ_run defs (onTc (τ := τ) (main (F := F))) ⟨m, fun _ => 0, ρ⟩ (fun r => ∀ c : Dev nD,
      r.2.mem ((c.tc : Thread nD τ).loc main_v178) = Gen.V63 m (outs m) c main_v178
      ∧ r.2.mem ((c.tc : Thread nD τ).loc main_v179) = Gen.V63 m (outs m) c main_v179
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)) :=
  RunCond.run_cond m (Ix := Unit) (U := UR sig nD τ) (Lvl := ℕ) emb₁ () Variants.none noLevels lvl0 (fun _ _ => rfl) ρ (outs m) (pdats m)
    (0 : Dev nD → CellTallies nD τ sig Unit) (fun _ => (BI.emp : sProp 𝕄))
    (initOf (Pipeline.cells cfgs Gen.cellOf_inj) (Pipeline.launchToks cfgs Gen.cellOf_inj)) launchGhost
    (fun _ => rest) (launchRest ρ)
    restOwes
    (reg0 m) (fun _ => .rfl) (fun _ => .rfl)
    (reg1 m) (fun _ => .rfl) (fun _ => .rfl)
    (reg2 m) (fun _ => .rfl) (fun _ => .rfl)
    (reg3 m) (fun _ => .rfl) (fun _ => .rfl)
    (reg4 m) (fun _ => .rfl) (fun _ => .rfl)

end Cert.KernelIdeal.Chain

end
-- ==== Proof.Spec.lean ====
import Idealize.ShloMosaic.PureOps.Ideal
import Idealize.ShloMosaic.Lib.ValueIdx

noncomputable section

namespace Cert.Spec

open Idealize.ShloMosaic Idealize.ShloMosaic.ValueIdx

structure Arrays where
  meds : Vec Ideal ⟨3, ![64, 24, 100]⟩ .i32
  chart : Vec Ideal ⟨3, ![64, 24, 200]⟩ .i32
  out : Vec Ideal ⟨3, ![64, 24, 50]⟩ .i32
  proc : Vec Ideal ⟨3, ![64, 24, 50]⟩ .i32
  lab : Vec Ideal ⟨2, ![64, 24]⟩ .i32
  conds : Vec Ideal ⟨2, ![64, 30]⟩ .i32
  demo : Vec Ideal ⟨2, ![64, 4]⟩ .i32
  medE : Vec Ideal ⟨2, ![1000, 128]⟩ .f32
  chartE : Vec Ideal ⟨2, ![3000, 128]⟩ .f32
  outE : Vec Ideal ⟨2, ![500, 128]⟩ .f32
  procE : Vec Ideal ⟨2, ![1500, 128]⟩ .f32
  labE : Vec Ideal ⟨2, ![700, 128]⟩ .f32
  condE : Vec Ideal ⟨2, ![2000, 128]⟩ .f32
  genderE : Vec Ideal ⟨2, ![2, 128]⟩ .f32
  ethE : Vec Ideal ⟨2, ![10, 128]⟩ .f32
  insE : Vec Ideal ⟨2, ![5, 128]⟩ .f32
  ageE : Vec Ideal ⟨2, ![100, 128]⟩ .f32
  projW : Vec Ideal ⟨2, ![435, 128]⟩ .f32
  projb : Vec Ideal ⟨1, ![128]⟩ .f32
  W1 : Vec Ideal ⟨2, ![128, 256]⟩ .f32
  b1 : Vec Ideal ⟨1, ![256]⟩ .f32
  W2 : Vec Ideal ⟨2, ![256, 256]⟩ .f32
  b2 : Vec Ideal ⟨1, ![256]⟩ .f32
  fc1W : Vec Ideal ⟨2, ![256, 128]⟩ .f32
  fc1b : Vec Ideal ⟨1, ![128]⟩ .f32
  fc2W : Vec Ideal ⟨2, ![128, 1]⟩ .f32
  fc2b : Vec Ideal ⟨1, ![1]⟩ .f32

def IsReal (x : EReal) : Prop := x ≠ ⊤ ∧ x ≠ ⊥

theorem IsReal.coe_toReal {x : EReal} (h : IsReal x) : ((x.toReal : ℝ) : EReal) = x :=
  EReal.coe_toReal h.1 h.2

structure Arrays.Finite (A : Arrays) : Prop where
  medE : ∀ i, IsReal (A.medE i)
  chartE : ∀ i, IsReal (A.chartE i)
  outE : ∀ i, IsReal (A.outE i)
  procE : ∀ i, IsReal (A.procE i)
  labE : ∀ i, IsReal (A.labE i)
  condE : ∀ i, IsReal (A.condE i)
  genderE : ∀ i, IsReal (A.genderE i)
  ethE : ∀ i, IsReal (A.ethE i)
  insE : ∀ i, IsReal (A.insE i)
  ageE : ∀ i, IsReal (A.ageE i)
  projW : ∀ i, IsReal (A.projW i)
  projb : ∀ i, IsReal (A.projb i)
  W1 : ∀ i, IsReal (A.W1 i)
  b1 : ∀ i, IsReal (A.b1 i)
  W2 : ∀ i, IsReal (A.W2 i)
  b2 : ∀ i, IsReal (A.b2 i)
  fc1W : ∀ i, IsReal (A.fc1W i)
  fc1b : ∀ i, IsReal (A.fc1b i)
  fc2W : ∀ i, IsReal (A.fc2W i)
  fc2b : ∀ i, IsReal (A.fc2b i)

def demoRows : Fin 4 → ℕ := ![2, 10, 5, 100]

def Arrays.DemoInRange (A : Arrays) : Prop :=
  ∀ (b : Fin 64) (j : Fin 4), 0 ≤ (A.demo (ix2 b j)).toInt ∧ (A.demo (ix2 b j)).toInt < (demoRows j : ℤ)

def clampRow (V : ℕ) (z : ℤ) : ℕ := (max 0 (min z ((V : ℤ) - 1))).toNat

theorem clampRow_lt {V : ℕ} (hV : 0 < V) (z : ℤ) : clampRow V z < V := by
  unfold clampRow
  have h1 : max 0 (min z ((V : ℤ) - 1)) ≤ (V : ℤ) - 1 := max_le (by omega) (min_le_right _ _)
  have h0 : (0 : ℤ) ≤ max 0 (min z ((V : ℤ) - 1)) := le_max_left _ _
  omega

theorem clampRow_of_mem {V : ℕ} {z : ℤ} (h0 : 0 ≤ z) (h1 : z < V) : clampRow V z = z.toNat := by
  unfold clampRow
  rw [min_eq_left (by omega), max_eq_right h0]

def rowMean {V : ℕ} (T : Vec Ideal ⟨2, ![V, 128]⟩ .f32) (v : ℕ) : ℝ :=
  if h : v < V then (∑ e : Fin 128, (T (ix2 ⟨v, h⟩ e)).toReal) / 128 else 0

def xbar (A : Arrays) (k : Fin 435) : ℝ :=
  if h : k.val < 100 then
    (∑ n : Fin 1536, rowMean A.medE (clampRow 1000 (A.meds (ix3 ⟨n.val / 24, by omega⟩ ⟨n.val % 24, by omega⟩ ⟨k.val, h⟩)).toInt)) / 1536
  else if h : k.val < 300 then
    (∑ n : Fin 1536, rowMean A.chartE (clampRow 3000 (A.chart (ix3 ⟨n.val / 24, by omega⟩ ⟨n.val % 24, by omega⟩ ⟨k.val - 100, by omega⟩)).toInt)) / 1536
  else if h : k.val < 350 then
    (∑ n : Fin 1536, rowMean A.outE (clampRow 500 (A.out (ix3 ⟨n.val / 24, by omega⟩ ⟨n.val % 24, by omega⟩ ⟨k.val - 300, by omega⟩)).toInt)) / 1536
  else if h : k.val < 400 then
    (∑ n : Fin 1536, rowMean A.procE (clampRow 1500 (A.proc (ix3 ⟨n.val / 24, by omega⟩ ⟨n.val % 24, by omega⟩ ⟨k.val - 350, by omega⟩)).toInt)) / 1536
  else if h : k.val < 401 then
    (∑ n : Fin 1536, rowMean A.labE (clampRow 700 (A.lab (ix2 ⟨n.val / 24, by omega⟩ ⟨n.val % 24, by omega⟩)).toInt)) / 1536
  else if h : k.val < 431 then
    (∑ b : Fin 64, rowMean A.condE (clampRow 2000 (A.conds (ix2 b ⟨k.val - 401, by omega⟩)).toInt)) / 64
  else if h : k.val < 432 then
    (∑ b : Fin 64, rowMean A.genderE (clampRow 2 (A.demo (ix2 b 0)).toInt)) / 64
  else if h : k.val < 433 then
    (∑ b : Fin 64, rowMean A.ethE (clampRow 10 (A.demo (ix2 b 1)).toInt)) / 64
  else if h : k.val < 434 then
    (∑ b : Fin 64, rowMean A.insE (clampRow 5 (A.demo (ix2 b 2)).toInt)) / 64
  else
    (∑ b : Fin 64, rowMean A.ageE (clampRow 100 (A.demo (ix2 b 3)).toInt)) / 64

def xslot (A : Arrays) (n : Fin 1536) (k : Fin 435) : ℝ :=
  if h : k.val < 100 then
    rowMean A.medE (clampRow 1000 (A.meds (ix3 ⟨n.val / 24, by omega⟩ ⟨n.val % 24, by omega⟩ ⟨k.val, h⟩)).toInt)
  else if h : k.val < 300 then
    rowMean A.chartE (clampRow 3000 (A.chart (ix3 ⟨n.val / 24, by omega⟩ ⟨n.val % 24, by omega⟩ ⟨k.val - 100, by omega⟩)).toInt)
  else if h : k.val < 350 then
    rowMean A.outE (clampRow 500 (A.out (ix3 ⟨n.val / 24, by omega⟩ ⟨n.val % 24, by omega⟩ ⟨k.val - 300, by omega⟩)).toInt)
  else if h : k.val < 400 then
    rowMean A.procE (clampRow 1500 (A.proc (ix3 ⟨n.val / 24, by omega⟩ ⟨n.val % 24, by omega⟩ ⟨k.val - 350, by omega⟩)).toInt)
  else if h : k.val < 401 then
    rowMean A.labE (clampRow 700 (A.lab (ix2 ⟨n.val / 24, by omega⟩ ⟨n.val % 24, by omega⟩)).toInt)
  else if h : k.val < 431 then
    rowMean A.condE (clampRow 2000 (A.conds (ix2 ⟨n.val / 24, by omega⟩ ⟨k.val - 401, by omega⟩)).toInt)
  else if h : k.val < 432 then
    rowMean A.genderE (clampRow 2 (A.demo (ix2 ⟨n.val / 24, by omega⟩ 0)).toInt)
  else if h : k.val < 433 then
    rowMean A.ethE (clampRow 10 (A.demo (ix2 ⟨n.val / 24, by omega⟩ 1)).toInt)
  else if h : k.val < 434 then
    rowMean A.insE (clampRow 5 (A.demo (ix2 ⟨n.val / 24, by omega⟩ 2)).toInt)
  else
    rowMean A.ageE (clampRow 100 (A.demo (ix2 ⟨n.val / 24, by omega⟩ 3)).toInt)

def xrowOf (A : Arrays) (x : Fin 435 → ℝ) (j : Fin 128) : ℝ :=
  (∑ k : Fin 435, x k * (A.projW (ix2 k j)).toReal) + (A.projb (ix1 j)).toReal

def h0Of (A : Arrays) (x : Fin 435 → ℝ) (g : Fin 256) : ℝ :=
  max ((∑ j : Fin 128, xrowOf A x j * (A.W1 (ix2 j g)).toReal) + (A.b1 (ix1 g)).toReal) 0

def h2Of (A : Arrays) (x : Fin 435 → ℝ) (g : Fin 256) : ℝ :=
  (∑ j : Fin 256, (h0Of A x j * (1 / 1536)) * (A.W2 (ix2 j g)).toReal) + (A.b2 (ix1 g)).toReal

def fhidOf (A : Arrays) (x : Fin 435 → ℝ) (j : Fin 128) : ℝ :=
  max ((∑ g : Fin 256, h2Of A x g * (A.fc1W (ix2 g j)).toReal) + (A.fc1b (ix1 j)).toReal) 0

def mlpOf (A : Arrays) (x : Fin 435 → ℝ) : ℝ :=
  (∑ j : Fin 128, fhidOf A x j * (A.fc2W (ix2 j 0)).toReal) + (A.fc2b (ix1 0)).toReal

def mlpO (A : Arrays) : ℝ := mlpOf A (xbar A)

def resSig (A : Arrays) : Vec Ideal ⟨2, ![64, 1]⟩ .f32 := fun _ => Ideal.logistic ((mlpO A : ℝ) : EReal)
def resRaw (A : Arrays) : Vec Ideal ⟨2, ![64, 1]⟩ .f32 := fun _ => ((mlpO A : ℝ) : EReal)

end Cert.Spec

end
-- ==== Proof.Val.Average.lean ====
import proofs.«406789_j53094385713523_3_alg».proof.Proof.Spec
import Mathlib.Algebra.BigOperators.Group.Finset.Basic
import Mathlib.Data.Fintype.BigOperators

noncomputable section

namespace Cert.Spec

open Finset
open Idealize.ShloMosaic Idealize.ShloMosaic.ValueIdx

def ext0 {N : ℕ} (f : Fin N → ℝ) (n : ℕ) : ℝ := if h : n < N then f ⟨n, h⟩ else 0

theorem ext0_of_lt {N : ℕ} (f : Fin N → ℝ) {n : ℕ} (h : n < N) : ext0 f n = f ⟨n, h⟩ := dif_pos h

theorem ext0_of_le {N : ℕ} (f : Fin N → ℝ) {n : ℕ} (h : N ≤ n) : ext0 f n = 0 := dif_neg (by omega)

theorem sum_fin_eq_range {N : ℕ} (f : Fin N → ℝ) : ∑ n : Fin N, f n = ∑ n ∈ range N, ext0 f n := by
  rw [← Fin.sum_univ_eq_sum_range (ext0 f) N]
  exact Finset.sum_congr rfl fun n _ => (ext0_of_lt f n.isLt).symm

theorem sum_halves {P N : ℕ} (hN : N = 2 * P) (f : Fin N → ℝ) :
    (∑ n : Fin P, f ⟨P * 0 + n.val, by have := n.isLt; omega⟩)
      + (∑ n : Fin P, f ⟨P * 1 + n.val, by have := n.isLt; omega⟩) = ∑ n : Fin N, f n := by
  have e0 : (∑ n : Fin P, f ⟨P * 0 + n.val, by have := n.isLt; omega⟩) = ∑ n ∈ range P, ext0 f n := by
    rw [← Fin.sum_univ_eq_sum_range (ext0 f) P]
    refine Finset.sum_congr rfl fun n _ => ?_
    have hn := n.isLt
    rw [ext0_of_lt f (show n.val < N by omega)]
    exact congrArg f (Fin.ext (by simp))
  have e1 : (∑ n : Fin P, f ⟨P * 1 + n.val, by have := n.isLt; omega⟩)
      = ∑ n ∈ range P, ext0 f (P + n) := by
    rw [← Fin.sum_univ_eq_sum_range (fun n => ext0 f (P + n)) P]
    refine Finset.sum_congr rfl fun n _ => ?_
    have hn := n.isLt
    rw [ext0_of_lt f (show P + n.val < N by omega)]
    exact congrArg f (Fin.ext (by simp))
  have hr : range N = range (P + P) := by rw [hN, two_mul]
  rw [e0, e1, ← Finset.sum_range_add, sum_fin_eq_range f, hr]

theorem sum_padded {N R : ℕ} (hR : R ≤ N) (f : Fin N → ℝ) (g : Fin R → ℝ)
    (hlo : ∀ (n : Fin N) (h : n.val < R), f n = g ⟨n.val, h⟩)
    (hhi : ∀ n : Fin N, R ≤ n.val → f n = 0) :
    ∑ n : Fin N, f n = ∑ n : Fin R, g n := by
  rw [sum_fin_eq_range f, sum_fin_eq_range g,
    ← Finset.eventually_constant_sum (u := ext0 g) (fun n hn => ext0_of_le g hn) hR]
  refine Finset.sum_congr rfl fun n hn => ?_
  have hn' : n < N := Finset.mem_range.1 hn
  rw [ext0_of_lt f hn']
  by_cases h : n < R
  · rw [ext0_of_lt g h]; exact hlo ⟨n, hn'⟩ h
  · rw [ext0_of_le g (by omega)]; exact hhi ⟨n, hn'⟩ (by simpa using h)

theorem avg_two_cores {P N R : ℕ} (hN : N = 2 * P) (hR : R ≤ N) (mask val : Fin N → ℝ) (g : Fin R → ℝ)
    (D : ℝ) (hmask : ∀ n : Fin N, mask n = if n.val < R then 1 else 0)
    (hval : ∀ (n : Fin N) (h : n.val < R), val n = g ⟨n.val, h⟩) :
    (∑ n : Fin P, mask ⟨P * 0 + n.val, by have := n.isLt; omega⟩
          * val ⟨P * 0 + n.val, by have := n.isLt; omega⟩) * (1 / D)
      + (∑ n : Fin P, mask ⟨P * 1 + n.val, by have := n.isLt; omega⟩
          * val ⟨P * 1 + n.val, by have := n.isLt; omega⟩) * (1 / D)
      = (∑ n : Fin R, g n) / D := by
  rw [← add_mul, mul_one_div]
  congr 1
  rw [sum_halves hN (fun n => mask n * val n)]
  refine sum_padded hR _ g (fun n h => ?_) (fun n h => ?_)
  · rw [hmask, if_pos h, one_mul, hval n h]
  · rw [hmask, if_neg (by omega), zero_mul]

theorem slot_avg {P N R K W : ℕ} (hN : N = 2 * P) (hR : R ≤ N)
    (I : Vec Ideal ⟨2, ![N, K]⟩ .i32) (T : Vec Ideal ⟨2, ![W, 1]⟩ .f32) (M : Vec Ideal ⟨2, ![N, 1]⟩ .f32)
    (k : Fin K) (hI : ∀ i, (I i).toNat < W) (tab : ℕ → ℝ) (code : Fin R → ℕ)
    (hT : ∀ v : Fin W, T (ix2 v 0) = ((tab v.val : ℝ) : EReal))
    (hM : ∀ n : Fin N, M (ix2 n 0) = if n.val < R then 1 else 0)
    (hcode : ∀ (n : Fin N) (h : n.val < R), (I (ix2 n k)).toNat = code ⟨n.val, h⟩) (D : ℝ) :
    (((∑ n : Fin P, (M (ix2 ⟨P * 0 + n.val, by have := n.isLt; omega⟩ 0)).toReal
          * (T (ix2 ⟨(I (ix2 ⟨P * 0 + n.val, by have := n.isLt; omega⟩ k)).toNat, hI _⟩ 0)).toReal) * (1 / D) : ℝ) : EReal)
      + (((∑ n : Fin P, (M (ix2 ⟨P * 1 + n.val, by have := n.isLt; omega⟩ 0)).toReal
          * (T (ix2 ⟨(I (ix2 ⟨P * 1 + n.val, by have := n.isLt; omega⟩ k)).toNat, hI _⟩ 0)).toReal) * (1 / D) : ℝ) : EReal)
      = (((∑ n : Fin R, tab (code n)) / D : ℝ) : EReal) := by
  rw [← EReal.coe_add]
  congr 1
  refine avg_two_cores hN hR (fun n => (M (ix2 n 0)).toReal)
    (fun n => (T (ix2 ⟨(I (ix2 n k)).toNat, hI _⟩ 0)).toReal) (fun n => tab (code n)) D ?_ ?_
  · intro n
    show (M (ix2 n 0)).toReal = _
    rw [hM, apply_ite EReal.toReal, EReal.toReal_one, EReal.toReal_zero]
  · intro n h
    show (T (ix2 ⟨(I (ix2 n k)).toNat, hI _⟩ 0)).toReal = _
    rw [hT, EReal.toReal_coe]
    exact congrArg tab (hcode n h)

theorem isReal_coe (x : ℝ) : IsReal (x : EReal) := ⟨EReal.coe_ne_top x, EReal.coe_ne_bot x⟩

theorem isReal_zero : IsReal (0 : EReal) := by rw [← EReal.coe_zero]; exact isReal_coe 0

theorem isReal_one : IsReal (1 : EReal) := by rw [← EReal.coe_one]; exact isReal_coe 1

theorem isReal_ite01 (p : Prop) [Decidable p] : IsReal (if p then (1 : EReal) else 0) := by
  split_ifs
  · exact isReal_one
  · exact isReal_zero

theorem exists_ix2_col {n : ℕ} (i : (⟨2, ![n, 1]⟩ : Shape).Idx) : ∃ v : Fin n, i = ix2 v 0 :=
  ⟨i 0, (eq_ix2 i).trans (congrArg (ix2 (i 0)) (Subsingleton.elim (α := Fin 1) _ _))⟩

theorem exists_ix2 {n0 n1 : ℕ} (i : (⟨2, ![n0, n1]⟩ : Shape).Idx) : ∃ (a : Fin n0) (b : Fin n1), i = ix2 a b :=
  ⟨i 0, i 1, eq_ix2 i⟩

theorem toNat_ofNat_clampRow {V : ℕ} (hV : 0 < V) (hV' : V ≤ 2 ^ 32) (z : ℤ) :
    (BitVec.ofNat 32 (clampRow V z)).toNat = clampRow V z := by
  rw [BitVec.toNat_ofNat]
  exact Nat.mod_eq_of_lt (lt_of_lt_of_le (clampRow_lt hV z) hV')

theorem slot_two_cores {P N R K W : ℕ} (hN : N = 2 * P) (hR : R ≤ N)
    (O : Vec Ideal ⟨3, ![2, K, 1]⟩ .f32)
    (I : Vec Ideal ⟨2, ![N, K]⟩ .i32) (T : Vec Ideal ⟨2, ![W, 1]⟩ .f32) (M : Vec Ideal ⟨2, ![N, 1]⟩ .f32) (D : ℝ)
    (hO : ∀ (_ : ∀ i, IsReal (T i)) (_ : ∀ i, IsReal (M i)) (hI : ∀ i, (I i).toNat < W) (p : Fin 2) (k : Fin K),
      O (ix3 p k 0) = (((∑ n : Fin P,
        (M (ix2 ⟨P * p.val + n.val, by
            have := n.isLt; have := p.isLt
            have : P * p.val ≤ P * 1 := Nat.mul_le_mul_left P (by omega)
            omega⟩ 0)).toReal
          * (T (ix2 ⟨(I (ix2 ⟨P * p.val + n.val, by
              have := n.isLt; have := p.isLt
              have : P * p.val ≤ P * 1 := Nat.mul_le_mul_left P (by omega)
              omega⟩ k)).toNat, hI _⟩ 0)).toReal) * (1 / D) : ℝ) : EReal))
    (tab : ℕ → ℝ) (hT : ∀ v : Fin W, T (ix2 v 0) = ((tab v.val : ℝ) : EReal))
    (hM : ∀ n : Fin N, M (ix2 n 0) = if n.val < R then 1 else 0)
    (hI : ∀ (n : Fin N) (j : Fin K), (I (ix2 n j)).toNat < W)
    (k : Fin K) (code : Fin R → ℕ)
    (hcode : ∀ (n : Fin N) (h : n.val < R), (I (ix2 n k)).toNat = code ⟨n.val, h⟩) :
    O (ix3 0 k 0) + O (ix3 1 k 0) = (((∑ n : Fin R, tab (code n)) / D : ℝ) : EReal) := by
  have hT' : ∀ i, IsReal (T i) := fun i => by
    obtain ⟨v, rfl⟩ := exists_ix2_col i
    rw [hT]; exact isReal_coe _
  have hM' : ∀ i, IsReal (M i) := fun i => by
    obtain ⟨n, rfl⟩ := exists_ix2_col i
    rw [hM]; exact isReal_ite01 _
  have hI' : ∀ i, (I i).toNat < W := fun i => by
    obtain ⟨n, j, rfl⟩ := exists_ix2 i
    exact hI n j
  rw [hO hT' hM' hI' 0 k, hO hT' hM' hI' 1 k]
  exact slot_avg hN hR I T M k hI' tab code hT hM hcode D

theorem xbar_med (A : Arrays) (k : Fin 435) (h : k.val < 100) :
    xbar A k = (∑ n : Fin 1536, rowMean A.medE (clampRow 1000
      (A.meds (ix3 ⟨n.val / 24, by omega⟩ ⟨n.val % 24, by omega⟩ ⟨k.val, h⟩)).toInt)) / 1536 := by
  unfold xbar; rw [dif_pos h]

theorem xbar_chart (A : Arrays) (k : Fin 435) (h0 : 100 ≤ k.val) (h : k.val < 300) :
    xbar A k = (∑ n : Fin 1536, rowMean A.chartE (clampRow 3000
      (A.chart (ix3 ⟨n.val / 24, by omega⟩ ⟨n.val % 24, by omega⟩ ⟨k.val - 100, by omega⟩)).toInt)) / 1536 := by
  unfold xbar; rw [dif_neg (by omega), dif_pos h]

theorem xbar_out (A : Arrays) (k : Fin 435) (h0 : 300 ≤ k.val) (h : k.val < 350) :
    xbar A k = (∑ n : Fin 1536, rowMean A.outE (clampRow 500
      (A.out (ix3 ⟨n.val / 24, by omega⟩ ⟨n.val % 24, by omega⟩ ⟨k.val - 300, by omega⟩)).toInt)) / 1536 := by
  unfold xbar; rw [dif_neg (by omega), dif_neg (by omega), dif_pos h]

theorem xbar_proc (A : Arrays) (k : Fin 435) (h0 : 350 ≤ k.val) (h : k.val < 400) :
    xbar A k = (∑ n : Fin 1536, rowMean A.procE (clampRow 1500
      (A.proc (ix3 ⟨n.val / 24, by omega⟩ ⟨n.val % 24, by omega⟩ ⟨k.val - 350, by omega⟩)).toInt)) / 1536 := by
  unfold xbar; rw [dif_neg (by omega), dif_neg (by omega), dif_neg (by omega), dif_pos h]

end Cert.Spec

end
-- ==== Proof.Val.GatherMath.lean ====
import Mathlib.Data.EReal.Basic
import Mathlib.Algebra.BigOperators.Fin
import Mathlib.Algebra.BigOperators.Ring.Finset
import Mathlib.Algebra.BigOperators.Intervals
import Mathlib.Algebra.BigOperators.Group.Finset.Piecewise
import Mathlib.Algebra.BigOperators.Group.Finset.Sigma
import Mathlib.Tactic.Ring
import Mathlib.Tactic.NormNum
import Mathlib.Tactic.Linarith
import Idealize.ShloMosaic.PureOps.Ideal

noncomputable section

namespace Cert.GatherMath

open Idealize.ShloMosaic

theorem coe_sum {ι : Type*} (s : Finset ι) (f : ι → ℝ) :
    ((∑ i ∈ s, f i : ℝ) : EReal) = ∑ i ∈ s, ((f i : ℝ) : EReal) := by
  classical
  induction s using Finset.induction_on with
  | empty => rw [Finset.sum_empty, Finset.sum_empty]; rfl
  | insert a s ha ih => rw [Finset.sum_insert ha, Finset.sum_insert ha, EReal.coe_add, ih]

theorem cmpi_eq_one_iff (a b : BitVec 32) : IntOp.cmpi .eq a b = 1#1 ↔ a = b := by
  show BitVec.ofBool (a == b) = 1#1 ↔ a = b
  by_cases h : a = b
  · subst h; simp
  · have hb : (a == b) = false := beq_eq_false_iff_ne.mpr h
    rw [hb]
    exact ⟨fun hh => absurd hh (by decide), fun hh => absurd hh h⟩

def hotW (a : BitVec 32) (j v : ℕ) : EReal :=
  ((((IntOp.cmpi .eq a (IntOp.addi (BitVec.ofNat 32 v) (IntOp.muli (BitVec.ofNat 32 j) 256#32))).setWidth 32).toInt : ℝ) : EReal)

theorem hotW_eq (a : BitVec 32) (j v : ℕ) (h : 256 * j + v < 4294967296) :
    hotW a j v = ((if a.toNat = 256 * j + v then (1 : ℝ) else 0 : ℝ) : EReal) := by
  have hb : IntOp.addi (BitVec.ofNat 32 v) (IntOp.muli (BitVec.ofNat 32 j) 256#32) = BitVec.ofNat 32 (256 * j + v) := by
    rw [Nat.add_comm, Nat.mul_comm, BitVec.ofNat_add, BitVec.ofNat_mul]; rfl
  have hlt : 256 * j + v < 2 ^ 32 := Nat.lt_of_lt_of_le h (by norm_num)
  unfold hotW
  rw [hb]
  rcases BitVec.eq_zero_or_eq_one (IntOp.cmpi .eq a (BitVec.ofNat 32 (256 * j + v))) with h0 | h1
  · have hne : ¬a.toNat = 256 * j + v := by
      intro hav
      have h1 : IntOp.cmpi .eq a (BitVec.ofNat 32 (256 * j + v)) = 1#1 :=
        (cmpi_eq_one_iff _ _).mpr (BitVec.eq_of_toNat_eq (by rw [BitVec.toNat_ofNat, hav, Nat.mod_eq_of_lt hlt]))
      rw [h0] at h1
      exact absurd h1 (by decide)
    rw [h0, if_neg hne, show ((0#1 : BitVec 1).setWidth 32).toInt = 0 from by decide, Int.cast_zero]
  · have hav : a.toNat = 256 * j + v := by
      have := (cmpi_eq_one_iff _ _).mp h1
      rw [this, BitVec.toNat_ofNat, Nat.mod_eq_of_lt hlt]
    rw [h1, if_pos hav, show ((1#1 : BitVec 1).setWidth 32).toInt = 1 from by decide, Int.cast_one]

theorem blockPick (x j : ℕ) (Tr : ℕ → ℝ) :
    ∑ v : Fin 256, (if x = 256 * j + v.val then Tr (256 * j + v.val) else 0) = if x / 256 = j then Tr x else 0 := by
  by_cases h : x / 256 = j
  · rw [if_pos h]
    have hx : x = 256 * j + x % 256 := by omega
    rw [Finset.sum_eq_single (⟨x % 256, Nat.mod_lt _ (by norm_num)⟩ : Fin 256)]
    · show (if x = 256 * j + x % 256 then Tr (256 * j + x % 256) else 0) = Tr x
      rw [if_pos hx, ← hx]
    · intro v _ hv
      rw [if_neg]
      intro hxv
      apply hv
      apply Fin.ext
      show v.val = x % 256
      omega
    · intro hmem
      exact absurd (Finset.mem_univ _) hmem
  · rw [if_neg h]
    refine Finset.sum_eq_zero fun v _ => ?_
    rw [if_neg]
    intro hxv
    apply h
    have := v.isLt
    omega

def partialE {R : ℕ} (a : Fin R → BitVec 32) (μ : Fin R → EReal) (τ : Fin 256 → EReal) (j : ℕ) : EReal :=
  ∑ v : Fin 256, (∑ n : Fin R, hotW (a n) j v.val * μ n) * τ v

theorem partialE_eq {R : ℕ} (a : Fin R → BitVec 32) (μ : Fin R → EReal) (τ : Fin 256 → EReal) (j : ℕ)
    (hj : j < 16777215) (μr : Fin R → ℝ) (Tr : ℕ → ℝ)
    (hμ : ∀ n, μ n = ((μr n : ℝ) : EReal)) (hτ : ∀ v : Fin 256, τ v = ((Tr (256 * j + v.val) : ℝ) : EReal)) :
    partialE a μ τ j
      = ((∑ n : Fin R, μr n * (if (a n).toNat / 256 = j then Tr (a n).toNat else 0) : ℝ) : EReal) := by
  unfold partialE
  have h1 : ∀ v : Fin 256, (∑ n : Fin R, hotW (a n) j v.val * μ n) * τ v
      = (((∑ n : Fin R, (if (a n).toNat = 256 * j + v.val then (1 : ℝ) else 0) * μr n) * Tr (256 * j + v.val) : ℝ) : EReal) := by
    intro v
    rw [EReal.coe_mul, coe_sum, hτ v]
    congr 1
    refine Finset.sum_congr rfl fun n _ => ?_
    rw [EReal.coe_mul, hotW_eq (a n) j v.val (by have := v.isLt; omega), hμ n]
  refine (Finset.sum_congr rfl fun v _ => h1 v).trans ?_
  refine (coe_sum _ _).symm.trans ?_
  congr 1
  calc ∑ v : Fin 256, (∑ n : Fin R, (if (a n).toNat = 256 * j + v.val then (1 : ℝ) else 0) * μr n) * Tr (256 * j + v.val)
      = ∑ v : Fin 256, ∑ n : Fin R, μr n * (if (a n).toNat = 256 * j + v.val then Tr (256 * j + v.val) else 0) := by
        refine Finset.sum_congr rfl fun v _ => ?_
        rw [Finset.sum_mul]
        refine Finset.sum_congr rfl fun n _ => ?_
        split_ifs <;> ring
    _ = ∑ n : Fin R, ∑ v : Fin 256, μr n * (if (a n).toNat = 256 * j + v.val then Tr (256 * j + v.val) else 0) :=
        Finset.sum_comm
    _ = ∑ n : Fin R, μr n * (if (a n).toNat / 256 = j then Tr (a n).toNat else 0) := by
        refine Finset.sum_congr rfl fun n _ => ?_
        rw [← Finset.mul_sum]
        congr 1
        exact blockPick (a n).toNat j Tr

theorem sum_range_mul (m n : ℕ) (f : ℕ → ℝ) :
    ∑ s ∈ Finset.range (m * n), f s = ∑ i ∈ Finset.range m, ∑ j ∈ Finset.range n, f (n * i + j) := by
  induction m with
  | zero => simp
  | succ m ih =>
    rw [Nat.add_mul, Nat.one_mul, Finset.sum_range_add, ih, Finset.sum_range_succ, Nat.mul_comm m n]

theorem sum_blocks (NJ x : ℕ) (hx : x < 256 * NJ) (Tr : ℕ → ℝ) :
    ∑ j ∈ Finset.range NJ, (if x / 256 = j then Tr x else 0) = Tr x := by
  rw [Finset.sum_ite_eq (Finset.range NJ) (x / 256) (fun _ => Tr x)]
  rw [if_pos (Finset.mem_range.mpr (by omega))]

theorem collapse_blocks (NJ R : ℕ) (μ : ℕ → ℝ) (x : ℕ → ℕ) (Tr : ℕ → ℝ) (hx : ∀ r, x r < 256 * NJ) :
    ∑ j ∈ Finset.range NJ, ∑ r ∈ Finset.range R, μ r * (if x r / 256 = j then Tr (x r) else 0)
      = ∑ r ∈ Finset.range R, μ r * Tr (x r) := by
  rw [Finset.sum_comm]
  refine Finset.sum_congr rfl fun r _ => ?_
  rw [← Finset.mul_sum, sum_blocks NJ (x r) (hx r) Tr]

theorem grid_total (NI NJ R : ℕ) (hNJ : 0 < NJ) (μ : ℕ → ℝ) (x : ℕ → ℕ) (Tr : ℕ → ℝ) (p : ℕ)
    (hx : ∀ r, x r < 256 * NJ) :
    ∑ s ∈ Finset.range (NI * NJ), ∑ r ∈ Finset.range R,
        μ (R * ((NI * NJ * p + s) / NJ) + r)
          * (if x (R * ((NI * NJ * p + s) / NJ) + r) / 256 = (NI * NJ * p + s) % NJ
              then Tr (x (R * ((NI * NJ * p + s) / NJ) + r)) else 0)
      = ∑ r' ∈ Finset.range (NI * R), μ (NI * R * p + r') * Tr (x (NI * R * p + r')) := by
  rw [sum_range_mul NI NJ, sum_range_mul NI R]
  refine Finset.sum_congr rfl fun i _ => ?_
  have hdiv : ∀ j ∈ Finset.range NJ, (NI * NJ * p + (NJ * i + j)) / NJ = NI * p + i
      ∧ (NI * NJ * p + (NJ * i + j)) % NJ = j := by
    intro j hj
    have hj' : j < NJ := Finset.mem_range.mp hj
    have e : NI * NJ * p + (NJ * i + j) = j + NJ * (NI * p + i) := by ring
    rw [e]
    exact ⟨by rw [Nat.add_mul_div_left _ _ hNJ, Nat.div_eq_of_lt hj', Nat.zero_add],
      by rw [Nat.add_mul_mod_self_left, Nat.mod_eq_of_lt hj']⟩
  have e1 : ∑ j ∈ Finset.range NJ, ∑ r ∈ Finset.range R,
        μ (R * ((NI * NJ * p + (NJ * i + j)) / NJ) + r)
          * (if x (R * ((NI * NJ * p + (NJ * i + j)) / NJ) + r) / 256 = (NI * NJ * p + (NJ * i + j)) % NJ
              then Tr (x (R * ((NI * NJ * p + (NJ * i + j)) / NJ) + r)) else 0)
      = ∑ j ∈ Finset.range NJ, ∑ r ∈ Finset.range R,
        μ (R * (NI * p + i) + r) * (if x (R * (NI * p + i) + r) / 256 = j then Tr (x (R * (NI * p + i) + r)) else 0) := by
    refine Finset.sum_congr rfl fun j hj => ?_
    rw [(hdiv j hj).1, (hdiv j hj).2]
  rw [e1, collapse_blocks NJ R (fun r => μ (R * (NI * p + i) + r)) (fun r => x (R * (NI * p + i) + r)) Tr (fun r => hx _)]
  refine Finset.sum_congr rfl fun r _ => ?_
  have e2 : NI * R * p + (R * i + r) = R * (NI * p + i) + r := by ring
  rw [e2]

end Cert.GatherMath

end
-- ==== Proof.Val.GatherPay0.lean ====
import proofs.«406789_j53094385713523_3_alg».proof.Proof.Gen.KernelIdeal.Skeleton
import proofs.«406789_j53094385713523_3_alg».proof.Proof.Val.GatherMath
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.Val0

open Idealize.ShloMosaic Idealize.ShloMosaic.ValueIdx
open Cert.KernelIdeal Cert.KernelIdeal.Gen Cert.GatherMath

theorem cmpi_apply {s : Shape} {w : ℕ} (p : CmpIPredicate) (x y : IVec s w) (i : s.Idx) :
    cmpi p x y i = IntOp.cmpi p (x i) (y i) := rfl

theorem addi_apply {s : Shape} {w : ℕ} (x y : IVec s w) (i : s.Idx) : addi x y i = IntOp.addi (x i) (y i) := rfl

theorem idxCast_apply (x : IVec S152x100 32) (h : S152x100.ShapeCasts S152x100x1) (n : Fin 152) (k : Fin 100) :
    shapeCast S152x100x1 x h (ix3 n k (0 : Fin 1)) = x (ix2 n k) :=
  shapeCast_apply x h (ix3 n k (0 : Fin 1)) (ix2 n k) (by
    rw [Shape.rowMajor_val_two, Shape.rowMajor_val_three]
    show n.val * 100 + k.val = (n.val * 100 + k.val) * 1 + 0
    omega)

theorem mskCast_apply (x : FVec Ideal S152x1 .bf16) (h : S152x1.ShapeCasts S152x1x1) (n : Fin 152) :
    shapeCast S152x1x1 x h (ix3 n (0 : Fin 1) (0 : Fin 1)) = x (ix2 n (0 : Fin 1)) :=
  shapeCast_apply x h (ix3 n (0 : Fin 1) (0 : Fin 1)) (ix2 n (0 : Fin 1)) (by
    rw [Shape.rowMajor_val_two, Shape.rowMajor_val_three]
    show n.val * 1 + 0 = (n.val * 1 + 0) * 1 + 0
    omega)

theorem outCast_apply (x : FVec Ideal S100x1 .f32) (h : S100x1.ShapeCasts S1x100x1) (k : Fin 100) :
    shapeCast S1x100x1 x h (ix3 (0 : Fin 1) k (0 : Fin 1)) = x (ix2 k (0 : Fin 1)) :=
  shapeCast_apply x h (ix3 (0 : Fin 1) k (0 : Fin 1)) (ix2 k (0 : Fin 1)) (by
    rw [Shape.rowMajor_val_two, Shape.rowMajor_val_three]
    show k.val * 1 + 0 = (0 * 100 + k.val) * 1 + 0
    omega)

theorem bIdx_apply (x : IVec S152x100x1 32) (h : S152x100x1.Broadcasts S152x100x256) (n : Fin 152) (k : Fin 100) (v : Fin 256) :
    broadcastTo S152x100x256 x h (ix3 n k v) = x (ix3 n k (0 : Fin 1)) :=
  broadcastTo_apply x h (ix3 n k v) (ix3 n k (0 : Fin 1)) (by
    intro a
    match a with
    | ⟨0, _⟩ => rfl
    | ⟨1, _⟩ => rfl
    | ⟨2, _⟩ => rfl)

theorem bLane_apply (x : IVec S1x1x256 32) (h : S1x1x256.Broadcasts S152x100x256) (n : Fin 152) (k : Fin 100) (v : Fin 256) :
    broadcastTo S152x100x256 x h (ix3 n k v) = x (ix3 (0 : Fin 1) (0 : Fin 1) v) :=
  broadcastTo_apply x h (ix3 n k v) (ix3 (0 : Fin 1) (0 : Fin 1) v) (by
    intro a
    match a with
    | ⟨0, _⟩ => rfl
    | ⟨1, _⟩ => rfl
    | ⟨2, _⟩ => rfl)

theorem bMsk_apply (x : FVec Ideal S152x1x1 .bf16) (h : S152x1x1.Broadcasts S152x100x256) (n : Fin 152) (k : Fin 100) (v : Fin 256) :
    broadcastTo S152x100x256 x h (ix3 n k v) = x (ix3 n (0 : Fin 1) (0 : Fin 1)) :=
  broadcastTo_apply x h (ix3 n k v) (ix3 n (0 : Fin 1) (0 : Fin 1)) (by
    intro a
    match a with
    | ⟨0, _⟩ => rfl
    | ⟨1, _⟩ => rfl
    | ⟨2, _⟩ => rfl)

theorem lane_apply (h : S1x1x256.Iotas .tc 32 [2]) (v : Fin 256) :
    iota .tc S1x1x256 32 [2] h (ix3 (0 : Fin 1) (0 : Fin 1) v) = BitVec.ofNat 32 v.val :=
  iota_single_apply .tc S1x1x256 32 2 h (ix3 (0 : Fin 1) (0 : Fin 1) v)

theorem redRows_apply (src : FVec Ideal S152x100x256 .f32) (h : S152x100x256.Reduces [0] S100x256)
    (hφ : FKind.Formats .f32) (hacc : (0x00000000#32 : BitVec 32) = 0x00000000#32)
    (k : Fin 100) (v : Fin 256) :
    multiReduction .add [0] S100x256 src 0x00000000#32 h hφ hacc (ix2 k v) = ∑ n : Fin 152, src (ix3 n k v) := by
  refine (Ideal.multiReduction_add_single src 0x00000000#32 h hφ hacc (ix2 k v)).trans ?_
  show ∑ n : Fin 152, src (h.lift (ix2 k v) n) = ∑ n : Fin 152, src (ix3 n k v)
  refine Finset.sum_congr rfl fun n _ => congrArg src ?_
  funext a
  apply Fin.ext
  match a with
  | ⟨0, _⟩ => rfl
  | ⟨1, _⟩ => rfl
  | ⟨2, _⟩ => rfl

theorem mm_apply (l : FVec Ideal S100x256 .bf16) (r : FVec Ideal S256x1 .bf16) (k : Fin 100) :
    matmul dot_S100x256_S256x1_S100x1_1_0_0_1_n_n none l r (constant S100x1 .f32 0x00000000#32) (ix2 k (0 : Fin 1))
      = ∑ v : Fin 256, l (ix2 k v) * r (ix2 v (0 : Fin 1)) := by
  refine (Ideal.matmul_constant_zero_apply dot_S100x256_S256x1_S100x1_1_0_0_1_n_n none l r (ix2 k (0 : Fin 1))).trans ?_
  refine (Equiv.sum_comp (contrEquiv1 dot_S100x256_S256x1_S100x1_1_0_0_1_n_n 256 rfl rfl).symm _).symm.trans ?_
  refine Finset.sum_congr rfl fun v _ => ?_
  have hl : dot_S100x256_S256x1_S100x1_1_0_0_1_n_n.lhsIdx (ix2 k (0 : Fin 1))
      ((contrEquiv1 dot_S100x256_S256x1_S100x1_1_0_0_1_n_n 256 rfl rfl).symm v) = ix2 k v := by
    funext a
    apply Fin.ext
    match a with
    | ⟨0, _⟩ => rfl
    | ⟨1, _⟩ => rfl
  have hr : dot_S100x256_S256x1_S100x1_1_0_0_1_n_n.rhsIdx (ix2 k (0 : Fin 1))
      ((contrEquiv1 dot_S100x256_S256x1_S100x1_1_0_0_1_n_n 256 rfl rfl).symm v) = ix2 v (0 : Fin 1) := by
    funext a
    apply Fin.ext
    match a with
    | ⟨0, _⟩ => rfl
    | ⟨1, _⟩ => rfl
  beta_reduce
  rw [hl, hr]

theorem pay2_apply (k : Fin 100) : k0_pay2 (F := Ideal) (ix2 k (0 : Fin 1)) = 0 := by
  unfold k0_pay2
  simp only [shapeCast_self, broadcast_apply]
  exact Ideal.ofBits_zero_f32

theorem inv1536 : Named.named (F := Ideal) κ "inv_1536" (φ := .f32) 0x3A2AAAAB#32 = ((1 / 1536 : ℝ) : EReal) :=
  IdealRules.named_const.ideal_named_scalar _ _ _ _ rfl

theorem pay1_apply (v41 : Vec Ideal S100x1 .f32) (k : Fin 100) :
    k0_pay1 (F := Ideal) v41 (ix3 (0 : Fin 1) k (0 : Fin 1)) = v41 (ix2 k (0 : Fin 1)) * ((1 / 1536 : ℝ) : EReal) := by
  unfold k0_pay1
  simp only [outCast_apply, mulf_apply, broadcast_apply]
  rw [inv1536]

theorem pay3_apply (i : grid0.Coords) (v5 : Vec Ideal S152x100 .i32) (v7 : Vec Ideal S152x1 .f32)
    (v9 : Vec Ideal S256x1 .f32) (v31 : Vec Ideal S100x1 .f32) (k : Fin 100) :
    k0_pay3 (F := Ideal) i v5 v7 v9 v31 (ix2 k (0 : Fin 1))
      = v31 (ix2 k (0 : Fin 1))
        + partialE (fun n : Fin 152 => v5 (ix2 n k)) (fun n : Fin 152 => v7 (ix2 n (0 : Fin 1)))
            (fun v : Fin 256 => v9 (ix2 v (0 : Fin 1))) (i 2).val := by
  unfold k0_pay3
  simp only [shapeCast_self, addf_apply, mm_apply, truncf_apply]
  show _ = v31 (ix2 k (0 : Fin 1))
    + ∑ v : Fin 256, (∑ n : Fin 152, hotW (v5 (ix2 n k)) (i 2).val v.val * v7 (ix2 n (0 : Fin 1))) * v9 (ix2 v (0 : Fin 1))
  refine congrArg (fun z => v31 (ix2 k (0 : Fin 1)) + z) (Finset.sum_congr rfl fun v _ => ?_)
  refine congrArg (fun z => z * v9 (ix2 v (0 : Fin 1))) ?_
  refine (redRows_apply _ _ _ _ k v).trans (Finset.sum_congr rfl fun n _ => ?_)
  simp only [extf_apply, mulf_apply, truncf_apply, sitofp_apply, extui_apply, cmpi_apply, bIdx_apply, idxCast_apply,
    bLane_apply, addi_apply, lane_apply, broadcast_apply, bMsk_apply, mskCast_apply, shapeCast_self]
  refine congrArg (fun z => z * v7 (ix2 n (0 : Fin 1))) ?_
  have hl : iota .tc S1x1x256 32 [2] Facts₀.iota_S1x1x256_d2_w32 (ix3 (0 : Fin 1) (0 : Fin 1) v) = BitVec.ofNat 32 v.val :=
    iota_single_apply .tc S1x1x256 32 2 Facts₀.iota_S1x1x256_d2_w32 (ix3 (0 : Fin 1) (0 : Fin 1) v)
  exact congrArg (fun w : BitVec 32 => FloatOps.sitofp (F := Ideal) FTy.f32
    (BitVec.setWidth 32 (IntOp.cmpi CmpIPredicate.eq (v5 (ix2 n k)) (IntOp.addi w (Scalar.muli (BitVec.ofNat 32 (i 2).val) 256#32))))) hl

end Cert.KernelIdeal.Val0

end
-- ==== Proof.Val.Gather0.lean ====
import proofs.«406789_j53094385713523_3_alg».proof.Proof.KI.R0
import proofs.«406789_j53094385713523_3_alg».proof.Proof.Val.GatherPay0
import proofs.«406789_j53094385713523_3_alg».proof.Proof.Spec
import Idealize.ShloMosaic.Lib.Pipeline.Value
import Idealize.ShloMosaic.Lib.Tactic

set_option maxRecDepth 16384

noncomputable section

namespace Cert.KernelIdeal.Val0

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.R0 Cert.GatherMath

section Pieces

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

theorem sout_B (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : ¬cond0_1 i) (x0 : Vec F S152x100 .i32) (x1 : Vec F S256x1 .f32) (x2 : Vec F S152x1 .f32)
    (xs0 : Vec F S100x1 .f32) :
    sout0_B_0 c i arg3 harg3 arg4 harg4 arg5 harg5 arg6 harg6 arg7 harg7 hc0 hc1 x0 x1 x2 xs0 = k0_pay3 i x0 x2 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz2]
  simp only [View.readAt_eq_ld, harg3.read_unread, harg4.read_unread, harg5.read_unread, harg7.read_unread,
    View.ld_unit_zero (S := S152x100) hz2, View.ld_unit_zero (S := S256x1) hz2, View.ld_unit_zero (S := S152x1) hz2,
    View.ld_unit_zero (S := S100x1) hz2]

theorem sout_A (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : cond0_0 i) (hc1 : ¬cond0_1 i) (x0 : Vec F S152x100 .i32) (x1 : Vec F S256x1 .f32) (x2 : Vec F S152x1 .f32) :
    sout0_A_0 c i arg3 harg3 arg4 harg4 arg5 harg5 arg6 harg6 arg7 harg7 hc0 hc1 x0 x1 x2 = k0_pay3 i x0 x2 x1 k0_pay2 := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S100x1) hz2]
  simp only [View.readAt_eq_ld, harg3.read_unread, harg4.read_unread, harg5.read_unread,
    View.ld_unit_zero (S := S152x100) hz2, View.ld_unit_zero (S := S256x1) hz2, View.ld_unit_zero (S := S152x1) hz2,
    View.readCov_unit_zero (S := S100x1) _ hz2]

theorem sout_C (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : cond0_1 i) (x0 : Vec F S152x100 .i32) (x1 : Vec F S256x1 .f32) (x2 : Vec F S152x1 .f32)
    (xs0 : Vec F S100x1 .f32) :
    sout0_C_0 c i arg3 harg3 arg4 harg4 arg5 harg5 arg6 harg6 arg7 harg7 hc0 hc1 x0 x1 x2 xs0 = k0_pay3 i x0 x2 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz2]
  simp only [View.readAt_eq_ld, harg3.read_unread, harg4.read_unread, harg5.read_unread, harg7.read_unread,
    View.ld_unit_zero (S := S152x100) hz2, View.ld_unit_zero (S := S256x1) hz2, View.ld_unit_zero (S := S152x1) hz2,
    View.ld_unit_zero (S := S100x1) hz2]

theorem out_C (c : Dev nD) (i : grid0.Coords)
    (arg3 : Memref sig .tc .vmem S152x100 .i32) (harg3 : arg3.IsWhole)
    (arg4 : Memref sig .tc .vmem S256x1 .f32) (harg4 : arg4.IsWhole)
    (arg5 : Memref sig .tc .vmem S152x1 .f32) (harg5 : arg5.IsWhole)
    (arg6 : Memref sig .tc .vmem S1x100x1 .f32) (harg6 : arg6.IsWhole)
    (arg7 : Memref sig .tc .vmem S100x1 .f32) (harg7 : arg7.IsWhole)
    (hc0 : ¬cond0_0 i) (hc1 : cond0_1 i) (x0 : Vec F S152x100 .i32) (x1 : Vec F S256x1 .f32) (x2 : Vec F S152x1 .f32)
    (xs0 : Vec F S100x1 .f32) :
    out0_C_3 c i arg3 harg3 arg4 harg4 arg5 harg5 arg6 harg6 arg7 harg7 hc0 hc1 x0 x1 x2 xs0
      = k0_pay1 (k0_pay3 i x0 x2 x1 xs0) := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz3]
  simp only [View.readAt_eq_ld, harg3.read_unread, harg4.read_unread, harg5.read_unread, harg7.read_unread,
    View.ld_unit_zero (S := S152x100) hz2, View.ld_unit_zero (S := S256x1) hz2, View.ld_unit_zero (S := S152x1) hz2,
    View.ld_unit_zero (S := S100x1) hz2, View.readCov_unit_zero (S := S100x1) _ hz2]

end Pieces

variable (V : (c : Dev nD) → (b : Ref sig .tc) → Buf (Elt Ideal) ((c : Thread nD τ).loc b))

abbrev idxArr (c : Dev nD) : Vec Ideal S1824x100 .i32 := V c main_v60
abbrev tabArr (c : Dev nD) : Vec Ideal S1024x1 .f32 := V c main_v59
abbrev mskArr (c : Dev nD) : Vec Ideal S1824x1 .f32 := V c main_v64
abbrev outArr (c : Dev nD) : Vec Ideal S2x100x1 .f32 := (dat0 (F := Ideal) V c).arrAt 3 cfg0.N

abbrev blkI (c : Dev nD) (t : Fin cfg0.N) : Vec Ideal S152x100 .i32 := iblk0 V c 0 t
abbrev blkT (c : Dev nD) (t : Fin cfg0.N) : Vec Ideal S256x1 .f32 := iblk0 V c 1 t
abbrev blkM (c : Dev nD) (t : Fin cfg0.N) : Vec Ideal S152x1 .f32 := iblk0 V c 2 t

theorem index0_0 : ∀ t : Fin cfg0.N, win0_0.index t 0 = t.val / 4 ∧ win0_0.index t 1 = 0 :=
  (by decide +kernel : ∀ t : Fin grid0.N, win0_0.index t 0 = t.val / 4 ∧ win0_0.index t 1 = 0)
theorem index0_1 : ∀ t : Fin cfg0.N, win0_1.index t 0 = t.val % 4 ∧ win0_1.index t 1 = 0 :=
  (by decide +kernel : ∀ t : Fin grid0.N, win0_1.index t 0 = t.val % 4 ∧ win0_1.index t 1 = 0)
theorem index0_2 : ∀ t : Fin cfg0.N, win0_2.index t 0 = t.val / 4 ∧ win0_2.index t 1 = 0 :=
  (by decide +kernel : ∀ t : Fin grid0.N, win0_2.index t 0 = t.val / 4 ∧ win0_2.index t 1 = 0)
theorem index0_3 : ∀ t : Fin cfg0.N, win0_3.index t 0 = t.val / 24 ∧ win0_3.index t 1 = 0 ∧ win0_3.index t 2 = 0 :=
  (by decide +kernel : ∀ t : Fin grid0.N, win0_3.index t 0 = t.val / 24 ∧ win0_3.index t 1 = 0 ∧ win0_3.index t 2 = 0)
theorem coord0_2 : ∀ t : Fin cfg0.N, (grid0.coords t 2).val = t.val % 4 :=
  (by decide +kernel : ∀ t : Fin grid0.N, (grid0.coords t 2).val = t.val % 4)

theorem blkI_apply (c : Dev nD) (t : Fin cfg0.N) (n : Fin 152) (k : Fin 100) :
    blkI V c t (ix2 n k) = idxArr V c (ix2 ⟨152 * (t.val / 4) + n.val, by have := lt_N0 t; omega⟩ k) := by
  have hi := index0_0 t
  unfold blkI iblk0
  rw [View.read_apply]
  show V c main_v60 _ = V c main_v60 _
  congr 1
  funext a
  apply Fin.ext
  match a with
  | ⟨0, _⟩ => show win0_0.index t 0 * 152 + 1 * n.val = 152 * (t.val / 4) + n.val; rw [hi.1]; omega
  | ⟨1, _⟩ => show win0_0.index t 1 * 100 + 1 * k.val = k.val; rw [hi.2]; omega

theorem blkM_apply (c : Dev nD) (t : Fin cfg0.N) (n : Fin 152) :
    blkM V c t (ix2 n (0 : Fin 1)) = mskArr V c (ix2 ⟨152 * (t.val / 4) + n.val, by have := lt_N0 t; omega⟩ (0 : Fin 1)) := by
  have hi := index0_2 t
  unfold blkM iblk0
  rw [View.read_apply]
  show V c main_v64 _ = V c main_v64 _
  congr 1
  funext a
  apply Fin.ext
  match a with
  | ⟨0, _⟩ => show win0_2.index t 0 * 152 + 1 * n.val = 152 * (t.val / 4) + n.val; rw [hi.1]; omega
  | ⟨1, _⟩ => show win0_2.index t 1 * 1 + 1 * 0 = 0; rw [hi.2]

theorem blkT_apply (c : Dev nD) (t : Fin cfg0.N) (v : Fin 256) :
    blkT V c t (ix2 v (0 : Fin 1)) = tabArr V c (ix2 ⟨256 * (t.val % 4) + v.val, by omega⟩ (0 : Fin 1)) := by
  have hi := index0_1 t
  unfold blkT iblk0
  rw [View.read_apply]
  show V c main_v59 _ = V c main_v59 _
  congr 1
  funext a
  apply Fin.ext
  match a with
  | ⟨0, _⟩ => show win0_1.index t 0 * 256 + 1 * v.val = 256 * (t.val % 4) + v.val; rw [hi.1]; omega
  | ⟨1, _⟩ => show win0_1.index t 1 * 1 + 1 * 0 = 0; rw [hi.2]

def μrow (c : Dev nD) (r : ℕ) : ℝ := if h : r < 1824 then (mskArr V c (ix2 ⟨r, h⟩ (0 : Fin 1))).toReal else 0
def arow (c : Dev nD) (k : Fin 100) (r : ℕ) : ℕ := if h : r < 1824 then (idxArr V c (ix2 ⟨r, h⟩ k)).toNat else 0
def Trow (c : Dev nD) (x : ℕ) : ℝ := if h : x < 1024 then (tabArr V c (ix2 ⟨x, h⟩ (0 : Fin 1))).toReal else 0

def Pt (c : Dev nD) (k : Fin 100) (s : ℕ) : ℝ :=
  ∑ r ∈ Finset.range 152, μrow V c (152 * (s / 4) + r)
    * (if arow V c k (152 * (s / 4) + r) / 256 = s % 4 then Trow V c (arow V c k (152 * (s / 4) + r)) else 0)

theorem pay3_point (c : Dev nD) (hT : ∀ i, Cert.Spec.IsReal (tabArr V c i)) (hM : ∀ i, Cert.Spec.IsReal (mskArr V c i))
    (t : Fin cfg0.N) (xs : Vec Ideal S100x1 .f32) (k : Fin 100) :
    k0_pay3 (F := Ideal) (grid0.coords t) (blkI V c t) (blkM V c t) (blkT V c t) xs (ix2 k (0 : Fin 1))
      = xs (ix2 k (0 : Fin 1)) + ((Pt V c k t.val : ℝ) : EReal) := by
  have ht := lt_N0 t
  rw [pay3_apply]
  congr 1
  rw [partialE_eq (fun n : Fin 152 => blkI V c t (ix2 n k)) (fun n : Fin 152 => blkM V c t (ix2 n (0 : Fin 1)))
    (fun v : Fin 256 => blkT V c t (ix2 v (0 : Fin 1))) (grid0.coords t 2).val (by rw [coord0_2 t]; omega)
    (fun n : Fin 152 => μrow V c (152 * (t.val / 4) + n.val)) (Trow V c)
    (fun n => by
      show blkM V c t (ix2 n (0 : Fin 1)) = ((μrow V c (152 * (t.val / 4) + n.val) : ℝ) : EReal)
      rw [blkM_apply, μrow, dif_pos (by have := n.isLt; omega)]
      exact ((hM _).coe_toReal).symm)
    (fun v => by
      show blkT V c t (ix2 v (0 : Fin 1)) = ((Trow V c (256 * (grid0.coords t 2).val + v.val) : ℝ) : EReal)
      rw [blkT_apply, Trow, coord0_2 t, dif_pos (by have := v.isLt; omega)]
      exact ((hT _).coe_toReal).symm)]
  congr 1
  unfold Pt
  rw [Finset.sum_range (fun r => μrow V c (152 * (t.val / 4) + r)
    * (if arow V c k (152 * (t.val / 4) + r) / 256 = t.val % 4 then Trow V c (arow V c k (152 * (t.val / 4) + r)) else 0))]
  refine Finset.sum_congr rfl fun n _ => ?_
  have ha : (blkI V c t (ix2 n k)).toNat = arow V c k (152 * (t.val / 4) + n.val) := by
    rw [blkI_apply, arow, dif_pos (by have := n.isLt; omega)]
  show μrow V c (152 * (t.val / 4) + n.val) * (if (blkI V c t (ix2 n k)).toNat / 256 = (grid0.coords t 2).val then Trow V c (blkI V c t (ix2 n k)).toNat else 0) = _
  rw [ha, coord0_2 t]

theorem step_A (c : Dev nD) (hT : ∀ i, Cert.Spec.IsReal (tabArr V c i)) (hM : ∀ i, Cert.Spec.IsReal (mskArr V c i))
    (t : Fin cfg0.N) (h0 : t.val % 24 = 0) (k : Fin 100) :
    (stepA0 V c t h0).2 (ix2 k (0 : Fin 1)) = ((Pt V c k t.val : ℝ) : EReal) := by
  unfold stepA0
  dsimp only
  refine (congrFun (sout_A (F := Ideal) c (grid0.coords t) (ms0_0 t) (hs0_0 t) (ms0_1 t) (hs0_1 t) (ms0_2 t) (hs0_2 t)
    (ms0_3 t) (hs0_3 t) scM0_0 (Memref.isWhole_whole _) _ _ (blkI V c t) (blkT V c t) (blkM V c t)) (ix2 k (0 : Fin 1))).trans ?_
  rw [pay3_point V c hT hM t _ k, pay2_apply, zero_add]

theorem step_B (c : Dev nD) (hT : ∀ i, Cert.Spec.IsReal (tabArr V c i)) (hM : ∀ i, Cert.Spec.IsReal (mskArr V c i))
    (t : Fin cfg0.N) (h0 : ¬t.val % 24 = 0) (h1 : ¬t.val % 24 = 23) (prev : Vec Ideal S100x1 .f32) (k : Fin 100) :
    (stepB0 V c t h0 h1 prev).2 (ix2 k (0 : Fin 1)) = prev (ix2 k (0 : Fin 1)) + ((Pt V c k t.val : ℝ) : EReal) := by
  unfold stepB0
  dsimp only
  refine (congrFun (sout_B (F := Ideal) c (grid0.coords t) (ms0_0 t) (hs0_0 t) (ms0_1 t) (hs0_1 t) (ms0_2 t) (hs0_2 t)
    (ms0_3 t) (hs0_3 t) scM0_0 (Memref.isWhole_whole _) _ _ (blkI V c t) (blkT V c t) (blkM V c t) prev) (ix2 k (0 : Fin 1))).trans ?_
  exact pay3_point V c hT hM t prev k

theorem step_C (c : Dev nD) (hT : ∀ i, Cert.Spec.IsReal (tabArr V c i)) (hM : ∀ i, Cert.Spec.IsReal (mskArr V c i))
    (t : Fin cfg0.N) (h1 : t.val % 24 = 23) (prev : Vec Ideal S100x1 .f32) (k : Fin 100) :
    (stepC0 V c t h1 prev).2 (ix2 k (0 : Fin 1)) = prev (ix2 k (0 : Fin 1)) + ((Pt V c k t.val : ℝ) : EReal) := by
  unfold stepC0
  dsimp only
  refine (congrFun (sout_C (F := Ideal) c (grid0.coords t) (ms0_0 t) (hs0_0 t) (ms0_1 t) (hs0_1 t) (ms0_2 t) (hs0_2 t)
    (ms0_3 t) (hs0_3 t) scM0_0 (Memref.isWhole_whole _) _ _ (blkI V c t) (blkT V c t) (blkM V c t) prev) (ix2 k (0 : Fin 1))).trans ?_
  exact pay3_point V c hT hM t prev k

theorem stepC_rel (c : Dev nD) (t : Fin cfg0.N) (h1 : t.val % 24 = 23) (prev : Vec Ideal S100x1 .f32) (k : Fin 100) :
    (stepC0 V c t h1 prev).1 (ix3 (0 : Fin 1) k (0 : Fin 1))
      = (stepC0 V c t h1 prev).2 (ix2 k (0 : Fin 1)) * ((1 / 1536 : ℝ) : EReal) := by
  unfold stepC0
  dsimp only
  rw [out_C (F := Ideal), sout_C (F := Ideal), pay1_apply]

theorem acc_step (f : ℕ → ℝ) (n : ℕ) (h : (n + 1) % 24 ≠ 0) :
    (∑ s ∈ Finset.range (n % 24 + 1), f (n - n % 24 + s)) + f (n + 1)
      = ∑ s ∈ Finset.range ((n + 1) % 24 + 1), f (n + 1 - (n + 1) % 24 + s) := by
  have e : (n + 1) % 24 = n % 24 + 1 := by omega
  have e2 : n + 1 - (n % 24 + 1) = n - n % 24 := by omega
  have e3 : n - n % 24 + (n % 24 + 1) = n + 1 := by omega
  rw [e, e2, Finset.sum_range_succ (fun s => f (n - n % 24 + s)) (n % 24 + 1), e3]

theorem acc_reset (f : ℕ → ℝ) (n : ℕ) (h : n % 24 = 0) :
    f n = ∑ s ∈ Finset.range (n % 24 + 1), f (n - n % 24 + s) := by
  rw [h]; simp

theorem scratch_eq (c : Dev nD) (hT : ∀ i, Cert.Spec.IsReal (tabArr V c i)) (hM : ∀ i, Cert.Spec.IsReal (mskArr V c i))
    (k : Fin 100) : ∀ (n : ℕ) (hn : n < cfg0.N),
    (outsAt0 V c n hn).2 (ix2 k (0 : Fin 1))
      = ((∑ s ∈ Finset.range (n % 24 + 1), Pt V c k (n - n % 24 + s) : ℝ) : EReal) := by
  intro n
  induction n with
  | zero =>
    intro hn
    rw [outsAt0_A V c ⟨0, hn⟩ (Nat.zero_mod _)]
    refine (step_A V c hT hM ⟨0, hn⟩ (Nat.zero_mod _) k).trans ?_
    show ((Pt V c k 0 : ℝ) : EReal) = _
    rw [acc_reset (Pt V c k) 0 (Nat.zero_mod _)]
  | succ n ih =>
    intro hn
    have ihn := ih (Nat.lt_of_succ_lt hn)
    by_cases h1 : (n + 1) % 24 = 23
    · rw [outsAt0_C V c ⟨n + 1, hn⟩ h1]
      refine (step_C V c hT hM ⟨n + 1, hn⟩ h1 _ k).trans ?_
      show (outsAt0 V c n (Nat.lt_of_succ_lt hn)).2 (ix2 k (0 : Fin 1)) + ((Pt V c k (n + 1) : ℝ) : EReal) = _
      rw [ihn, ← EReal.coe_add, acc_step (Pt V c k) n (by omega)]
    · by_cases h0 : (n + 1) % 24 = 0
      · rw [outsAt0_A V c ⟨n + 1, hn⟩ h0]
        refine (step_A V c hT hM ⟨n + 1, hn⟩ h0 k).trans ?_
        show ((Pt V c k (n + 1) : ℝ) : EReal) = _
        rw [acc_reset (Pt V c k) (n + 1) h0]
      · rw [outsAt0_B V c ⟨n + 1, hn⟩ h0 h1]
        refine (step_B V c hT hM ⟨n + 1, hn⟩ h0 h1 _ k).trans ?_
        show (outsAt0 V c n (Nat.lt_of_succ_lt hn)).2 (ix2 k (0 : Fin 1)) + ((Pt V c k (n + 1) : ℝ) : EReal) = _
        rw [ihn, ← EReal.coe_add, acc_step (Pt V c k) n h0]

def total (c : Dev nD) (k : Fin 100) (p : ℕ) : ℝ :=
  ∑ r ∈ Finset.range 912, μrow V c (912 * p + r) * Trow V c (arow V c k (912 * p + r))

theorem arow_lt (c : Dev nD) (hI : ∀ i, (idxArr V c i).toNat < 1024) (k : Fin 100) (r : ℕ) : arow V c k r < 1024 := by
  unfold arow
  split
  · exact hI _
  · norm_num

theorem total_eq (c : Dev nD) (hI : ∀ i, (idxArr V c i).toNat < 1024) (k : Fin 100) (p : ℕ) :
    ∑ s ∈ Finset.range 24, Pt V c k (24 * p + s) = total V c k p := by
  have h := grid_total 6 4 152 (by norm_num) (μrow V c) (arow V c k) (Trow V c) p
    (fun r => by have := arow_lt V c hI k r; omega)
  simp only [Nat.reduceMul] at h
  exact h

theorem out_point (c : Dev nD) (hT : ∀ i, Cert.Spec.IsReal (tabArr V c i)) (hM : ∀ i, Cert.Spec.IsReal (mskArr V c i))
    (hI : ∀ i, (idxArr V c i).toNat < 1024) (t : Fin cfg0.N) (h1 : t.val % 24 = 23) (k : Fin 100) :
    (outsAt0 V c t.val t.isLt).1 (ix3 (0 : Fin 1) k (0 : Fin 1))
      = ((total V c k (t.val / 24) * (1 / 1536) : ℝ) : EReal) := by
  have e : (outsAt0 V c t.val t.isLt).1 (ix3 (0 : Fin 1) k (0 : Fin 1))
      = (outsAt0 V c t.val t.isLt).2 (ix2 k (0 : Fin 1)) * ((1 / 1536 : ℝ) : EReal) := by
    rw [outsAt0_C V c t h1]
    exact stepC_rel V c t h1 _ k
  rw [e, scratch_eq V c hT hM k t.val t.isLt, ← EReal.coe_mul]
  refine congrArg (fun z : ℝ => ((z * (1 / 1536) : ℝ) : EReal)) ?_
  rw [h1]
  have e2 : t.val - 23 = 24 * (t.val / 24) := by omega
  rw [e2]
  exact total_eq V c hI k (t.val / 24)

def G0 (c : Dev nD) : Vec Ideal S2x100x1 .f32 := fun y =>
  if h : (y 1).val < 100 then ((total V c ⟨(y 1).val, h⟩ (y 0).val * (1 / 1536) : ℝ) : EReal) else 0

theorem G0_at (c : Dev nD) (y : S2x100x1.Idx) (p : ℕ) (k : Fin 100) (h0 : (y 0).val = p) (h1 : (y 1).val = k.val) :
    G0 V c y = ((total V c k p * (1 / 1536) : ℝ) : EReal) := by
  unfold G0
  have hk : (y 1).val < 100 := by rw [h1]; exact k.isLt
  rw [dif_pos hk]
  have ek : (⟨(y 1).val, hk⟩ : Fin 100) = k := Fin.ext h1
  rw [ek, h0]

theorem flushed_eq (c : Dev nD) (hT : ∀ i, Cert.Spec.IsReal (tabArr V c i)) (hM : ∀ i, Cert.Spec.IsReal (mskArr V c i))
    (hI : ∀ i, (idxArr V c i).toNat < 1024) (t : Fin cfg0.N) (hf : (cfg0.win 3).flush t = true) :
    (dat0 (F := Ideal) V c).flushed 3 t = ((cfg0.win 3).blk t).view.read (Elt Ideal) (G0 V c) := by
  have h23 : t.val % 24 = 23 := (flush0_3 t).mp hf
  have hi := index0_3 t
  refine funext fun (x : S1x100x1.Idx) => ?_
  show (cfg0.win 3).cut (grid0.coords t) ((dat0 (F := Ideal) V c).after 3 t) x = _
  rw [after0_3, View.read_apply]
  obtain ⟨a, b, d, rfl⟩ : ∃ (a : Fin 1) (b : Fin 100) (d : Fin 1), x = ix3 a b d := ⟨x 0, x 1, x 2, eq_ix3 x⟩
  obtain rfl : a = 0 := Subsingleton.elim _ _
  obtain rfl : d = 0 := Subsingleton.elim _ _
  show (outsAt0 V c t.val t.isLt).1 (ix3 (0 : Fin 1) b (0 : Fin 1)) = G0 V c (((cfg0.win 3).blk t).view.emb (ix3 (0 : Fin 1) b (0 : Fin 1)))
  rw [out_point V c hT hM hI t h23 b]
  refine (G0_at V c _ (t.val / 24) b ?_ ?_).symm
  · show win0_3.index t 0 * 1 + 1 * 0 = t.val / 24
    rw [hi.1]; omega
  · show win0_3.index t 1 * 100 + 1 * b.val = b.val
    rw [hi.2.1]; omega

def tLastA : Fin cfg0.N := ⟨23, by rw [show cfg0.N = 48 from N_0]; norm_num⟩
def tLastB : Fin cfg0.N := ⟨47, by rw [show cfg0.N = 48 from N_0]; norm_num⟩

set_option maxHeartbeats 4000000 in
theorem outArr_eq (c : Dev nD) (hT : ∀ i, Cert.Spec.IsReal (tabArr V c i)) (hM : ∀ i, Cert.Spec.IsReal (mskArr V c i))
    (hI : ∀ i, (idxArr V c i).toNat < 1024) : outArr V c = G0 V c :=
  (dat0 (F := Ideal) V c).arrAt_eq_of_cover 3 (G0 V c) (flushed_eq V c hT hM hI) fun i => by
    have h0 : (i 0 : Nat) < 2 := (i 0).isLt
    have h1 : (i 1 : Nat) < 100 := (i 1).isLt
    have h2 : (i 2 : Nat) < 1 := (i 2).isLt
    rcases (show (i 0 : Nat) = 0 ∨ (i 0 : Nat) = 1 by omega) with hp | hp
    · refine ⟨tLastA, (flush0_3 tLastA).mpr rfl, ?_⟩
      show i ∈ ((View.whole main_v65).slice (win0_3.rect tLastA)).set
      rw [View.set_slice_whole, Rect.mem_set_unit]
      intro a
      match a with
      | ⟨0, _⟩ =>
        show win0_3.index tLastA 0 * win0_3.size 0 ≤ (i 0 : Nat) ∧ (i 0 : Nat) < win0_3.index tLastA 0 * win0_3.size 0 + win0_3.xsize (grid0.coords tLastA) 0
        rw [show win0_3.index tLastA 0 * win0_3.size 0 = 0 from by decide +kernel, show win0_3.xsize (grid0.coords tLastA) 0 = 1 from by decide +kernel]; omega
      | ⟨1, _⟩ =>
        show win0_3.index tLastA 1 * win0_3.size 1 ≤ (i 1 : Nat) ∧ (i 1 : Nat) < win0_3.index tLastA 1 * win0_3.size 1 + win0_3.xsize (grid0.coords tLastA) 1
        rw [show win0_3.index tLastA 1 * win0_3.size 1 = 0 from by decide +kernel, show win0_3.xsize (grid0.coords tLastA) 1 = 100 from by decide +kernel]; omega
      | ⟨2, _⟩ =>
        show win0_3.index tLastA 2 * win0_3.size 2 ≤ (i 2 : Nat) ∧ (i 2 : Nat) < win0_3.index tLastA 2 * win0_3.size 2 + win0_3.xsize (grid0.coords tLastA) 2
        rw [show win0_3.index tLastA 2 * win0_3.size 2 = 0 from by decide +kernel, show win0_3.xsize (grid0.coords tLastA) 2 = 1 from by decide +kernel]; omega
    · refine ⟨tLastB, (flush0_3 tLastB).mpr rfl, ?_⟩
      show i ∈ ((View.whole main_v65).slice (win0_3.rect tLastB)).set
      rw [View.set_slice_whole, Rect.mem_set_unit]
      intro a
      match a with
      | ⟨0, _⟩ =>
        show win0_3.index tLastB 0 * win0_3.size 0 ≤ (i 0 : Nat) ∧ (i 0 : Nat) < win0_3.index tLastB 0 * win0_3.size 0 + win0_3.xsize (grid0.coords tLastB) 0
        rw [show win0_3.index tLastB 0 * win0_3.size 0 = 1 from by decide +kernel, show win0_3.xsize (grid0.coords tLastB) 0 = 1 from by decide +kernel]; omega
      | ⟨1, _⟩ =>
        show win0_3.index tLastB 1 * win0_3.size 1 ≤ (i 1 : Nat) ∧ (i 1 : Nat) < win0_3.index tLastB 1 * win0_3.size 1 + win0_3.xsize (grid0.coords tLastB) 1
        rw [show win0_3.index tLastB 1 * win0_3.size 1 = 0 from by decide +kernel, show win0_3.xsize (grid0.coords tLastB) 1 = 100 from by decide +kernel]; omega
      | ⟨2, _⟩ =>
        show win0_3.index tLastB 2 * win0_3.size 2 ≤ (i 2 : Nat) ∧ (i 2 : Nat) < win0_3.index tLastB 2 * win0_3.size 2 + win0_3.xsize (grid0.coords tLastB) 2
        rw [show win0_3.index tLastB 2 * win0_3.size 2 = 0 from by decide +kernel, show win0_3.xsize (grid0.coords tLastB) 2 = 1 from by decide +kernel]; omega

theorem outArr_apply (c : Dev nD) (hT : ∀ i, Cert.Spec.IsReal (tabArr V c i)) (hM : ∀ i, Cert.Spec.IsReal (mskArr V c i))
    (hI : ∀ i, (idxArr V c i).toNat < 1024) (p : Fin 2) (k : Fin 100) :
    outArr V c (ix3 p k (0 : Fin 1))
      = (((∑ n : Fin 912, (mskArr V c (ix2 ⟨912 * p.val + n.val, by omega⟩ (0 : Fin 1))).toReal
            * (tabArr V c (ix2 ⟨(idxArr V c (ix2 ⟨912 * p.val + n.val, by omega⟩ k)).toNat, hI _⟩ (0 : Fin 1))).toReal)
          * (1 / 1536) : ℝ) : EReal) := by
  rw [outArr_eq V c hT hM hI, G0_at V c (ix3 p k (0 : Fin 1)) p.val k rfl rfl]
  refine congrArg (fun z : ℝ => ((z * (1 / 1536) : ℝ) : EReal)) ?_
  unfold total
  rw [Finset.sum_range (fun r => μrow V c (912 * p.val + r) * Trow V c (arow V c k (912 * p.val + r)))]
  refine Finset.sum_congr rfl fun n _ => ?_
  have hr : 912 * p.val + n.val < 1824 := by omega
  have hx : (idxArr V c (ix2 ⟨912 * p.val + n.val, hr⟩ k)).toNat < 1024 := hI _
  show μrow V c (912 * p.val + n.val) * Trow V c (arow V c k (912 * p.val + n.val)) = _
  rw [μrow, arow, dif_pos hr, dif_pos hr, Trow, dif_pos hx]

theorem outArr_apply' (c : Dev nD) (hT : ∀ i, Cert.Spec.IsReal (tabArr V c i))
    (hM : ∀ i, mskArr V c i = 0 ∨ mskArr V c i = 1)
    (hI : ∀ i, (idxArr V c i).toNat < 1024) (p : Fin 2) (k : Fin 100) :
    outArr V c (ix3 p k (0 : Fin 1))
      = (((∑ n : Fin 912, (mskArr V c (ix2 ⟨912 * p.val + n.val, by omega⟩ (0 : Fin 1))).toReal
            * (tabArr V c (ix2 ⟨(idxArr V c (ix2 ⟨912 * p.val + n.val, by omega⟩ k)).toNat, hI _⟩ (0 : Fin 1))).toReal)
          * (1 / 1536) : ℝ) : EReal) :=
  outArr_apply V c hT (fun i => by
    rcases hM i with h | h <;> rw [h]
    · exact ⟨EReal.coe_ne_top 0, EReal.coe_ne_bot 0⟩
    · exact ⟨EReal.coe_ne_top 1, EReal.coe_ne_bot 1⟩) hI p k

end Cert.KernelIdeal.Val0

end
-- ==== Proof.Val.GatherPay1.lean ====
import proofs.«406789_j53094385713523_3_alg».proof.Proof.Gen.KernelIdeal.Skeleton
import proofs.«406789_j53094385713523_3_alg».proof.Proof.Val.GatherMath
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.Val1

open Idealize.ShloMosaic Idealize.ShloMosaic.ValueIdx
open Cert.KernelIdeal Cert.KernelIdeal.Gen Cert.GatherMath

theorem cmpi_apply {s : Shape} {w : ℕ} (p : CmpIPredicate) (x y : IVec s w) (i : s.Idx) :
    cmpi p x y i = IntOp.cmpi p (x i) (y i) := rfl

theorem addi_apply {s : Shape} {w : ℕ} (x y : IVec s w) (i : s.Idx) : addi x y i = IntOp.addi (x i) (y i) := rfl

theorem idxCast_apply (x : IVec S72x200 32) (h : S72x200.ShapeCasts S72x200x1) (n : Fin 72) (k : Fin 200) :
    shapeCast S72x200x1 x h (ix3 n k (0 : Fin 1)) = x (ix2 n k) :=
  shapeCast_apply x h (ix3 n k (0 : Fin 1)) (ix2 n k) (by
    rw [Shape.rowMajor_val_two, Shape.rowMajor_val_three]
    show n.val * 200 + k.val = (n.val * 200 + k.val) * 1 + 0
    omega)

theorem mskCast_apply (x : FVec Ideal S72x1 .bf16) (h : S72x1.ShapeCasts S72x1x1) (n : Fin 72) :
    shapeCast S72x1x1 x h (ix3 n (0 : Fin 1) (0 : Fin 1)) = x (ix2 n (0 : Fin 1)) :=
  shapeCast_apply x h (ix3 n (0 : Fin 1) (0 : Fin 1)) (ix2 n (0 : Fin 1)) (by
    rw [Shape.rowMajor_val_two, Shape.rowMajor_val_three]
    show n.val * 1 + 0 = (n.val * 1 + 0) * 1 + 0
    omega)

theorem outCast_apply (x : FVec Ideal S200x1 .f32) (h : S200x1.ShapeCasts S1x200x1) (k : Fin 200) :
    shapeCast S1x200x1 x h (ix3 (0 : Fin 1) k (0 : Fin 1)) = x (ix2 k (0 : Fin 1)) :=
  shapeCast_apply x h (ix3 (0 : Fin 1) k (0 : Fin 1)) (ix2 k (0 : Fin 1)) (by
    rw [Shape.rowMajor_val_two, Shape.rowMajor_val_three]
    show k.val * 1 + 0 = (0 * 200 + k.val) * 1 + 0
    omega)

theorem bIdx_apply (x : IVec S72x200x1 32) (h : S72x200x1.Broadcasts S72x200x256) (n : Fin 72) (k : Fin 200) (v : Fin 256) :
    broadcastTo S72x200x256 x h (ix3 n k v) = x (ix3 n k (0 : Fin 1)) :=
  broadcastTo_apply x h (ix3 n k v) (ix3 n k (0 : Fin 1)) (by
    intro a
    match a with
    | ⟨0, _⟩ => rfl
    | ⟨1, _⟩ => rfl
    | ⟨2, _⟩ => rfl)

theorem bLane_apply (x : IVec S1x1x256 32) (h : S1x1x256.Broadcasts S72x200x256) (n : Fin 72) (k : Fin 200) (v : Fin 256) :
    broadcastTo S72x200x256 x h (ix3 n k v) = x (ix3 (0 : Fin 1) (0 : Fin 1) v) :=
  broadcastTo_apply x h (ix3 n k v) (ix3 (0 : Fin 1) (0 : Fin 1) v) (by
    intro a
    match a with
    | ⟨0, _⟩ => rfl
    | ⟨1, _⟩ => rfl
    | ⟨2, _⟩ => rfl)

theorem bMsk_apply (x : FVec Ideal S72x1x1 .bf16) (h : S72x1x1.Broadcasts S72x200x256) (n : Fin 72) (k : Fin 200) (v : Fin 256) :
    broadcastTo S72x200x256 x h (ix3 n k v) = x (ix3 n (0 : Fin 1) (0 : Fin 1)) :=
  broadcastTo_apply x h (ix3 n k v) (ix3 n (0 : Fin 1) (0 : Fin 1)) (by
    intro a
    match a with
    | ⟨0, _⟩ => rfl
    | ⟨1, _⟩ => rfl
    | ⟨2, _⟩ => rfl)

theorem lane_apply (h : S1x1x256.Iotas .tc 32 [2]) (v : Fin 256) :
    iota .tc S1x1x256 32 [2] h (ix3 (0 : Fin 1) (0 : Fin 1) v) = BitVec.ofNat 32 v.val :=
  iota_single_apply .tc S1x1x256 32 2 h (ix3 (0 : Fin 1) (0 : Fin 1) v)

theorem redRows_apply (src : FVec Ideal S72x200x256 .f32) (h : S72x200x256.Reduces [0] S200x256)
    (hφ : FKind.Formats .f32) (hacc : (0x00000000#32 : BitVec 32) = 0x00000000#32)
    (k : Fin 200) (v : Fin 256) :
    multiReduction .add [0] S200x256 src 0x00000000#32 h hφ hacc (ix2 k v) = ∑ n : Fin 72, src (ix3 n k v) := by
  refine (Ideal.multiReduction_add_single src 0x00000000#32 h hφ hacc (ix2 k v)).trans ?_
  show ∑ n : Fin 72, src (h.lift (ix2 k v) n) = ∑ n : Fin 72, src (ix3 n k v)
  refine Finset.sum_congr rfl fun n _ => congrArg src ?_
  funext a
  apply Fin.ext
  match a with
  | ⟨0, _⟩ => rfl
  | ⟨1, _⟩ => rfl
  | ⟨2, _⟩ => rfl

theorem mm_apply (l : FVec Ideal S200x256 .bf16) (r : FVec Ideal S256x1 .bf16) (k : Fin 200) :
    matmul dot_S200x256_S256x1_S200x1_1_0_0_1_n_n none l r (constant S200x1 .f32 0x00000000#32) (ix2 k (0 : Fin 1))
      = ∑ v : Fin 256, l (ix2 k v) * r (ix2 v (0 : Fin 1)) := by
  refine (Ideal.matmul_constant_zero_apply dot_S200x256_S256x1_S200x1_1_0_0_1_n_n none l r (ix2 k (0 : Fin 1))).trans ?_
  refine (Equiv.sum_comp (contrEquiv1 dot_S200x256_S256x1_S200x1_1_0_0_1_n_n 256 rfl rfl).symm _).symm.trans ?_
  refine Finset.sum_congr rfl fun v _ => ?_
  have hl : dot_S200x256_S256x1_S200x1_1_0_0_1_n_n.lhsIdx (ix2 k (0 : Fin 1))
      ((contrEquiv1 dot_S200x256_S256x1_S200x1_1_0_0_1_n_n 256 rfl rfl).symm v) = ix2 k v := by
    funext a
    apply Fin.ext
    match a with
    | ⟨0, _⟩ => rfl
    | ⟨1, _⟩ => rfl
  have hr : dot_S200x256_S256x1_S200x1_1_0_0_1_n_n.rhsIdx (ix2 k (0 : Fin 1))
      ((contrEquiv1 dot_S200x256_S256x1_S200x1_1_0_0_1_n_n 256 rfl rfl).symm v) = ix2 v (0 : Fin 1) := by
    funext a
    apply Fin.ext
    match a with
    | ⟨0, _⟩ => rfl
    | ⟨1, _⟩ => rfl
  beta_reduce
  rw [hl, hr]

theorem pay2_apply (k : Fin 200) : k1_pay2 (F := Ideal) (ix2 k (0 : Fin 1)) = 0 := by
  unfold k1_pay2
  simp only [shapeCast_self, broadcast_apply]
  exact Ideal.ofBits_zero_f32

theorem inv1536 : Named.named (F := Ideal) κ "inv_1536" (φ := .f32) 0x3A2AAAAB#32 = ((1 / 1536 : ℝ) : EReal) :=
  IdealRules.named_const.ideal_named_scalar _ _ _ _ rfl

theorem pay1_apply (v41 : Vec Ideal S200x1 .f32) (k : Fin 200) :
    k1_pay1 (F := Ideal) v41 (ix3 (0 : Fin 1) k (0 : Fin 1)) = v41 (ix2 k (0 : Fin 1)) * ((1 / 1536 : ℝ) : EReal) := by
  unfold k1_pay1
  simp only [outCast_apply, mulf_apply, broadcast_apply]
  rw [inv1536]

theorem pay3_apply (i : grid1.Coords) (v5 : Vec Ideal S72x200 .i32) (v7 : Vec Ideal S72x1 .f32)
    (v9 : Vec Ideal S256x1 .f32) (v31 : Vec Ideal S200x1 .f32) (k : Fin 200) :
    k1_pay3 (F := Ideal) i v5 v7 v9 v31 (ix2 k (0 : Fin 1))
      = v31 (ix2 k (0 : Fin 1))
        + partialE (fun n : Fin 72 => v5 (ix2 n k)) (fun n : Fin 72 => v7 (ix2 n (0 : Fin 1)))
            (fun v : Fin 256 => v9 (ix2 v (0 : Fin 1))) (i 2).val := by
  unfold k1_pay3
  simp only [shapeCast_self, addf_apply, mm_apply, truncf_apply]
  show _ = v31 (ix2 k (0 : Fin 1))
    + ∑ v : Fin 256, (∑ n : Fin 72, hotW (v5 (ix2 n k)) (i 2).val v.val * v7 (ix2 n (0 : Fin 1))) * v9 (ix2 v (0 : Fin 1))
  refine congrArg (fun z => v31 (ix2 k (0 : Fin 1)) + z) (Finset.sum_congr rfl fun v _ => ?_)
  refine congrArg (fun z => z * v9 (ix2 v (0 : Fin 1))) ?_
  refine (redRows_apply _ _ _ _ k v).trans (Finset.sum_congr rfl fun n _ => ?_)
  simp only [extf_apply, mulf_apply, truncf_apply, sitofp_apply, extui_apply, cmpi_apply, bIdx_apply, idxCast_apply,
    bLane_apply, addi_apply, lane_apply, broadcast_apply, bMsk_apply, mskCast_apply, shapeCast_self]
  refine congrArg (fun z => z * v7 (ix2 n (0 : Fin 1))) ?_
  have hl : iota .tc S1x1x256 32 [2] Facts₀.iota_S1x1x256_d2_w32 (ix3 (0 : Fin 1) (0 : Fin 1) v) = BitVec.ofNat 32 v.val :=
    iota_single_apply .tc S1x1x256 32 2 Facts₀.iota_S1x1x256_d2_w32 (ix3 (0 : Fin 1) (0 : Fin 1) v)
  exact congrArg (fun w : BitVec 32 => FloatOps.sitofp (F := Ideal) FTy.f32
    (BitVec.setWidth 32 (IntOp.cmpi CmpIPredicate.eq (v5 (ix2 n k)) (IntOp.addi w (Scalar.muli (BitVec.ofNat 32 (i 2).val) 256#32))))) hl

end Cert.KernelIdeal.Val1

end
-- ==== Proof.Val.Gather1.lean ====
import proofs.«406789_j53094385713523_3_alg».proof.Proof.KI.R1
import proofs.«406789_j53094385713523_3_alg».proof.Proof.Val.GatherPay1
import proofs.«406789_j53094385713523_3_alg».proof.Proof.Spec
import Idealize.ShloMosaic.Lib.Pipeline.Value
import Idealize.ShloMosaic.Lib.Tactic

set_option maxRecDepth 16384

noncomputable section

namespace Cert.KernelIdeal.Val1

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.R1 Cert.GatherMath

section Pieces

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

theorem sout_B (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : ¬cond1_1 i) (x0 : Vec F S72x200 .i32) (x1 : Vec F S256x1 .f32) (x2 : Vec F S72x1 .f32)
    (xs0 : Vec F S200x1 .f32) :
    sout1_B_0 c i arg3 harg3 arg4 harg4 arg5 harg5 arg6 harg6 arg7 harg7 hc0 hc1 x0 x1 x2 xs0 = k1_pay3 i x0 x2 x1 xs0 := by
  unfold sout1_B_0
  rw [View.read_writes_eq_canon _ _ _ (scover1_B_0 c i arg3 harg3 arg4 harg4 arg5 harg5 arg6 harg6 arg7 harg7 hc0 hc1 x0 x1 x2 xs0)]
  unfold kernelRun1_B
  dsimp only
  sl_unfold_words
  rw [View.canon_unit_zero hz2]
  simp only [View.readAt_eq_ld, harg3.read_unread, harg4.read_unread, harg5.read_unread, harg7.read_unread,
    View.ld_unit_zero (S := S72x200) hz2, View.ld_unit_zero (S := S256x1) hz2, View.ld_unit_zero (S := S72x1) hz2,
    View.ld_unit_zero (S := S200x1) hz2]

theorem sout_A (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : cond1_0 i) (hc1 : ¬cond1_1 i) (x0 : Vec F S72x200 .i32) (x1 : Vec F S256x1 .f32) (x2 : Vec F S72x1 .f32) :
    sout1_A_0 c i arg3 harg3 arg4 harg4 arg5 harg5 arg6 harg6 arg7 harg7 hc0 hc1 x0 x1 x2 = k1_pay3 i x0 x2 x1 k1_pay2 := by
  unfold sout1_A_0
  rw [View.read_writes_eq_canon _ _ _ (scover1_A_0 c i arg3 harg3 arg4 harg4 arg5 harg5 arg6 harg6 arg7 harg7 hc0 hc1 x0 x1 x2)]
  unfold kernelRun1_A
  dsimp only
  sl_unfold_words
  rw [View.canon_cons_unit_zero (S := S200x1) hz2]
  simp only [View.readAt_eq_ld, harg3.read_unread, harg4.read_unread, harg5.read_unread,
    View.ld_unit_zero (S := S72x200) hz2, View.ld_unit_zero (S := S256x1) hz2, View.ld_unit_zero (S := S72x1) hz2,
    View.readCov_unit_zero (S := S200x1) _ hz2]

theorem sout_C (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : cond1_1 i) (x0 : Vec F S72x200 .i32) (x1 : Vec F S256x1 .f32) (x2 : Vec F S72x1 .f32)
    (xs0 : Vec F S200x1 .f32) :
    sout1_C_0 c i arg3 harg3 arg4 harg4 arg5 harg5 arg6 harg6 arg7 harg7 hc0 hc1 x0 x1 x2 xs0 = k1_pay3 i x0 x2 x1 xs0 := by
  unfold sout1_C_0
  rw [View.read_writes_eq_canon _ _ _ (scover1_C_0 c i arg3 harg3 arg4 harg4 arg5 harg5 arg6 harg6 arg7 harg7 hc0 hc1 x0 x1 x2 xs0)]
  unfold kernelRun1_C
  dsimp only
  sl_unfold_words
  rw [View.canon_unit_zero hz2]
  simp only [View.readAt_eq_ld, harg3.read_unread, harg4.read_unread, harg5.read_unread, harg7.read_unread,
    View.ld_unit_zero (S := S72x200) hz2, View.ld_unit_zero (S := S256x1) hz2, View.ld_unit_zero (S := S72x1) hz2,
    View.ld_unit_zero (S := S200x1) hz2]

theorem out_C (c : Dev nD) (i : grid1.Coords)
    (arg3 : Memref sig .tc .vmem S72x200 .i32) (harg3 : arg3.IsWhole)
    (arg4 : Memref sig .tc .vmem S256x1 .f32) (harg4 : arg4.IsWhole)
    (arg5 : Memref sig .tc .vmem S72x1 .f32) (harg5 : arg5.IsWhole)
    (arg6 : Memref sig .tc .vmem S1x200x1 .f32) (harg6 : arg6.IsWhole)
    (arg7 : Memref sig .tc .vmem S200x1 .f32) (harg7 : arg7.IsWhole)
    (hc0 : ¬cond1_0 i) (hc1 : cond1_1 i) (x0 : Vec F S72x200 .i32) (x1 : Vec F S256x1 .f32) (x2 : Vec F S72x1 .f32)
    (xs0 : Vec F S200x1 .f32) :
    out1_C_3 c i arg3 harg3 arg4 harg4 arg5 harg5 arg6 harg6 arg7 harg7 hc0 hc1 x0 x1 x2 xs0
      = k1_pay1 (k1_pay3 i x0 x2 x1 xs0) := by
  unfold out1_C_3
  rw [View.read_writes_eq_canon _ _ _ (cover1_C_3 c i arg3 harg3 arg4 harg4 arg5 harg5 arg6 harg6 arg7 harg7 hc0 hc1 x0 x1 x2 xs0)]
  unfold kernelRun1_C
  dsimp only
  sl_unfold_words
  rw [View.canon_unit_zero hz3]
  simp only [View.readAt_eq_ld, harg3.read_unread, harg4.read_unread, harg5.read_unread, harg7.read_unread,
    View.ld_unit_zero (S := S72x200) hz2, View.ld_unit_zero (S := S256x1) hz2, View.ld_unit_zero (S := S72x1) hz2,
    View.ld_unit_zero (S := S200x1) hz2, View.readCov_unit_zero (S := S200x1) _ hz2]

end Pieces

variable (V : (c : Dev nD) → (b : Ref sig .tc) → Buf (Elt Ideal) ((c : Thread nD τ).loc b))

abbrev idxArr (c : Dev nD) : Vec Ideal S1584x200 .i32 := V c main_v71
abbrev tabArr (c : Dev nD) : Vec Ideal S3072x1 .f32 := V c main_v70
abbrev mskArr (c : Dev nD) : Vec Ideal S1584x1 .f32 := V c main_v75
abbrev outArr (c : Dev nD) : Vec Ideal S2x200x1 .f32 := (dat1 (F := Ideal) V c).arrAt 3 cfg1.N

abbrev blkI (c : Dev nD) (t : Fin cfg1.N) : Vec Ideal S72x200 .i32 := iblk1 V c 0 t
abbrev blkT (c : Dev nD) (t : Fin cfg1.N) : Vec Ideal S256x1 .f32 := iblk1 V c 1 t
abbrev blkM (c : Dev nD) (t : Fin cfg1.N) : Vec Ideal S72x1 .f32 := iblk1 V c 2 t

theorem index1_0 : ∀ t : Fin cfg1.N, win1_0.index t 0 = t.val / 12 ∧ win1_0.index t 1 = 0 :=
  (by decide +kernel : ∀ t : Fin grid1.N, win1_0.index t 0 = t.val / 12 ∧ win1_0.index t 1 = 0)
theorem index1_1 : ∀ t : Fin cfg1.N, win1_1.index t 0 = t.val % 12 ∧ win1_1.index t 1 = 0 :=
  (by decide +kernel : ∀ t : Fin grid1.N, win1_1.index t 0 = t.val % 12 ∧ win1_1.index t 1 = 0)
theorem index1_2 : ∀ t : Fin cfg1.N, win1_2.index t 0 = t.val / 12 ∧ win1_2.index t 1 = 0 :=
  (by decide +kernel : ∀ t : Fin grid1.N, win1_2.index t 0 = t.val / 12 ∧ win1_2.index t 1 = 0)
theorem index1_3 : ∀ t : Fin cfg1.N, win1_3.index t 0 = t.val / 132 ∧ win1_3.index t 1 = 0 ∧ win1_3.index t 2 = 0 :=
  (by decide +kernel : ∀ t : Fin grid1.N, win1_3.index t 0 = t.val / 132 ∧ win1_3.index t 1 = 0 ∧ win1_3.index t 2 = 0)
theorem coord1_2 : ∀ t : Fin cfg1.N, (grid1.coords t 2).val = t.val % 12 :=
  (by decide +kernel : ∀ t : Fin grid1.N, (grid1.coords t 2).val = t.val % 12)

theorem blkI_apply (c : Dev nD) (t : Fin cfg1.N) (n : Fin 72) (k : Fin 200) :
    blkI V c t (ix2 n k) = idxArr V c (ix2 ⟨72 * (t.val / 12) + n.val, by have := lt_N1 t; omega⟩ k) := by
  have hi := index1_0 t
  unfold blkI iblk1
  rw [View.read_apply]
  show V c main_v71 _ = V c main_v71 _
  congr 1
  funext a
  apply Fin.ext
  match a with
  | ⟨0, _⟩ => show win1_0.index t 0 * 72 + 1 * n.val = 72 * (t.val / 12) + n.val; rw [hi.1]; omega
  | ⟨1, _⟩ => show win1_0.index t 1 * 200 + 1 * k.val = k.val; rw [hi.2]; omega

theorem blkM_apply (c : Dev nD) (t : Fin cfg1.N) (n : Fin 72) :
    blkM V c t (ix2 n (0 : Fin 1)) = mskArr V c (ix2 ⟨72 * (t.val / 12) + n.val, by have := lt_N1 t; omega⟩ (0 : Fin 1)) := by
  have hi := index1_2 t
  unfold blkM iblk1
  rw [View.read_apply]
  show V c main_v75 _ = V c main_v75 _
  congr 1
  funext a
  apply Fin.ext
  match a with
  | ⟨0, _⟩ => show win1_2.index t 0 * 72 + 1 * n.val = 72 * (t.val / 12) + n.val; rw [hi.1]; omega
  | ⟨1, _⟩ => show win1_2.index t 1 * 1 + 1 * 0 = 0; rw [hi.2]

theorem blkT_apply (c : Dev nD) (t : Fin cfg1.N) (v : Fin 256) :
    blkT V c t (ix2 v (0 : Fin 1)) = tabArr V c (ix2 ⟨256 * (t.val % 12) + v.val, by omega⟩ (0 : Fin 1)) := by
  have hi := index1_1 t
  unfold blkT iblk1
  rw [View.read_apply]
  show V c main_v70 _ = V c main_v70 _
  congr 1
  funext a
  apply Fin.ext
  match a with
  | ⟨0, _⟩ => show win1_1.index t 0 * 256 + 1 * v.val = 256 * (t.val % 12) + v.val; rw [hi.1]; omega
  | ⟨1, _⟩ => show win1_1.index t 1 * 1 + 1 * 0 = 0; rw [hi.2]

def μrow (c : Dev nD) (r : ℕ) : ℝ := if h : r < 1584 then (mskArr V c (ix2 ⟨r, h⟩ (0 : Fin 1))).toReal else 0
def arow (c : Dev nD) (k : Fin 200) (r : ℕ) : ℕ := if h : r < 1584 then (idxArr V c (ix2 ⟨r, h⟩ k)).toNat else 0
def Trow (c : Dev nD) (x : ℕ) : ℝ := if h : x < 3072 then (tabArr V c (ix2 ⟨x, h⟩ (0 : Fin 1))).toReal else 0

def Pt (c : Dev nD) (k : Fin 200) (s : ℕ) : ℝ :=
  ∑ r ∈ Finset.range 72, μrow V c (72 * (s / 12) + r)
    * (if arow V c k (72 * (s / 12) + r) / 256 = s % 12 then Trow V c (arow V c k (72 * (s / 12) + r)) else 0)

theorem pay3_point (c : Dev nD) (hT : ∀ i, Cert.Spec.IsReal (tabArr V c i)) (hM : ∀ i, Cert.Spec.IsReal (mskArr V c i))
    (t : Fin cfg1.N) (xs : Vec Ideal S200x1 .f32) (k : Fin 200) :
    k1_pay3 (F := Ideal) (grid1.coords t) (blkI V c t) (blkM V c t) (blkT V c t) xs (ix2 k (0 : Fin 1))
      = xs (ix2 k (0 : Fin 1)) + ((Pt V c k t.val : ℝ) : EReal) := by
  have ht := lt_N1 t
  rw [pay3_apply]
  congr 1
  rw [partialE_eq (fun n : Fin 72 => blkI V c t (ix2 n k)) (fun n : Fin 72 => blkM V c t (ix2 n (0 : Fin 1)))
    (fun v : Fin 256 => blkT V c t (ix2 v (0 : Fin 1))) (grid1.coords t 2).val (by rw [coord1_2 t]; omega)
    (fun n : Fin 72 => μrow V c (72 * (t.val / 12) + n.val)) (Trow V c)
    (fun n => by
      show blkM V c t (ix2 n (0 : Fin 1)) = ((μrow V c (72 * (t.val / 12) + n.val) : ℝ) : EReal)
      rw [blkM_apply, μrow, dif_pos (by have := n.isLt; omega)]
      exact ((hM _).coe_toReal).symm)
    (fun v => by
      show blkT V c t (ix2 v (0 : Fin 1)) = ((Trow V c (256 * (grid1.coords t 2).val + v.val) : ℝ) : EReal)
      rw [blkT_apply, Trow, coord1_2 t, dif_pos (by have := v.isLt; omega)]
      exact ((hT _).coe_toReal).symm)]
  congr 1
  unfold Pt
  rw [Finset.sum_range (fun r => μrow V c (72 * (t.val / 12) + r)
    * (if arow V c k (72 * (t.val / 12) + r) / 256 = t.val % 12 then Trow V c (arow V c k (72 * (t.val / 12) + r)) else 0))]
  refine Finset.sum_congr rfl fun n _ => ?_
  have ha : (blkI V c t (ix2 n k)).toNat = arow V c k (72 * (t.val / 12) + n.val) := by
    rw [blkI_apply, arow, dif_pos (by have := n.isLt; omega)]
  show μrow V c (72 * (t.val / 12) + n.val) * (if (blkI V c t (ix2 n k)).toNat / 256 = (grid1.coords t 2).val then Trow V c (blkI V c t (ix2 n k)).toNat else 0) = _
  rw [ha, coord1_2 t]

theorem step_A (c : Dev nD) (hT : ∀ i, Cert.Spec.IsReal (tabArr V c i)) (hM : ∀ i, Cert.Spec.IsReal (mskArr V c i))
    (t : Fin cfg1.N) (h0 : t.val % 132 = 0) (k : Fin 200) :
    (stepA1 V c t h0).2 (ix2 k (0 : Fin 1)) = ((Pt V c k t.val : ℝ) : EReal) := by
  unfold stepA1
  dsimp only
  refine (congrFun (sout_A (F := Ideal) c (grid1.coords t) (ms1_0 t) (hs1_0 t) (ms1_1 t) (hs1_1 t) (ms1_2 t) (hs1_2 t)
    (ms1_3 t) (hs1_3 t) scM1_0 (Memref.isWhole_whole _) _ _ (blkI V c t) (blkT V c t) (blkM V c t)) (ix2 k (0 : Fin 1))).trans ?_
  rw [pay3_point V c hT hM t _ k, pay2_apply, zero_add]

theorem step_B (c : Dev nD) (hT : ∀ i, Cert.Spec.IsReal (tabArr V c i)) (hM : ∀ i, Cert.Spec.IsReal (mskArr V c i))
    (t : Fin cfg1.N) (h0 : ¬t.val % 132 = 0) (h1 : ¬t.val % 132 = 131) (prev : Vec Ideal S200x1 .f32) (k : Fin 200) :
    (stepB1 V c t h0 h1 prev).2 (ix2 k (0 : Fin 1)) = prev (ix2 k (0 : Fin 1)) + ((Pt V c k t.val : ℝ) : EReal) := by
  unfold stepB1
  dsimp only
  refine (congrFun (sout_B (F := Ideal) c (grid1.coords t) (ms1_0 t) (hs1_0 t) (ms1_1 t) (hs1_1 t) (ms1_2 t) (hs1_2 t)
    (ms1_3 t) (hs1_3 t) scM1_0 (Memref.isWhole_whole _) _ _ (blkI V c t) (blkT V c t) (blkM V c t) prev) (ix2 k (0 : Fin 1))).trans ?_
  exact pay3_point V c hT hM t prev k

theorem step_C (c : Dev nD) (hT : ∀ i, Cert.Spec.IsReal (tabArr V c i)) (hM : ∀ i, Cert.Spec.IsReal (mskArr V c i))
    (t : Fin cfg1.N) (h1 : t.val % 132 = 131) (prev : Vec Ideal S200x1 .f32) (k : Fin 200) :
    (stepC1 V c t h1 prev).2 (ix2 k (0 : Fin 1)) = prev (ix2 k (0 : Fin 1)) + ((Pt V c k t.val : ℝ) : EReal) := by
  unfold stepC1
  dsimp only
  refine (congrFun (sout_C (F := Ideal) c (grid1.coords t) (ms1_0 t) (hs1_0 t) (ms1_1 t) (hs1_1 t) (ms1_2 t) (hs1_2 t)
    (ms1_3 t) (hs1_3 t) scM1_0 (Memref.isWhole_whole _) _ _ (blkI V c t) (blkT V c t) (blkM V c t) prev) (ix2 k (0 : Fin 1))).trans ?_
  exact pay3_point V c hT hM t prev k

theorem stepC_rel (c : Dev nD) (t : Fin cfg1.N) (h1 : t.val % 132 = 131) (prev : Vec Ideal S200x1 .f32) (k : Fin 200) :
    (stepC1 V c t h1 prev).1 (ix3 (0 : Fin 1) k (0 : Fin 1))
      = (stepC1 V c t h1 prev).2 (ix2 k (0 : Fin 1)) * ((1 / 1536 : ℝ) : EReal) := by
  unfold stepC1
  dsimp only
  rw [out_C (F := Ideal), sout_C (F := Ideal), pay1_apply]

theorem acc_step (f : ℕ → ℝ) (n : ℕ) (h : (n + 1) % 132 ≠ 0) :
    (∑ s ∈ Finset.range (n % 132 + 1), f (n - n % 132 + s)) + f (n + 1)
      = ∑ s ∈ Finset.range ((n + 1) % 132 + 1), f (n + 1 - (n + 1) % 132 + s) := by
  have e : (n + 1) % 132 = n % 132 + 1 := by omega
  have e2 : n + 1 - (n % 132 + 1) = n - n % 132 := by omega
  have e3 : n - n % 132 + (n % 132 + 1) = n + 1 := by omega
  rw [e, e2, Finset.sum_range_succ (fun s => f (n - n % 132 + s)) (n % 132 + 1), e3]

theorem acc_reset (f : ℕ → ℝ) (n : ℕ) (h : n % 132 = 0) :
    f n = ∑ s ∈ Finset.range (n % 132 + 1), f (n - n % 132 + s) := by
  rw [h]; simp

theorem scratch_eq (c : Dev nD) (hT : ∀ i, Cert.Spec.IsReal (tabArr V c i)) (hM : ∀ i, Cert.Spec.IsReal (mskArr V c i))
    (k : Fin 200) : ∀ (n : ℕ) (hn : n < cfg1.N),
    (outsAt1 V c n hn).2 (ix2 k (0 : Fin 1))
      = ((∑ s ∈ Finset.range (n % 132 + 1), Pt V c k (n - n % 132 + s) : ℝ) : EReal) := by
  intro n
  induction n with
  | zero =>
    intro hn
    rw [outsAt1_A V c ⟨0, hn⟩ (Nat.zero_mod _)]
    refine (step_A V c hT hM ⟨0, hn⟩ (Nat.zero_mod _) k).trans ?_
    show ((Pt V c k 0 : ℝ) : EReal) = _
    rw [acc_reset (Pt V c k) 0 (Nat.zero_mod _)]
  | succ n ih =>
    intro hn
    have ihn := ih (Nat.lt_of_succ_lt hn)
    by_cases h1 : (n + 1) % 132 = 131
    · rw [outsAt1_C V c ⟨n + 1, hn⟩ h1]
      refine (step_C V c hT hM ⟨n + 1, hn⟩ h1 _ k).trans ?_
      show (outsAt1 V c n (Nat.lt_of_succ_lt hn)).2 (ix2 k (0 : Fin 1)) + ((Pt V c k (n + 1) : ℝ) : EReal) = _
      rw [ihn, ← EReal.coe_add, acc_step (Pt V c k) n (by omega)]
    · by_cases h0 : (n + 1) % 132 = 0
      · rw [outsAt1_A V c ⟨n + 1, hn⟩ h0]
        refine (step_A V c hT hM ⟨n + 1, hn⟩ h0 k).trans ?_
        show ((Pt V c k (n + 1) : ℝ) : EReal) = _
        rw [acc_reset (Pt V c k) (n + 1) h0]
      · rw [outsAt1_B V c ⟨n + 1, hn⟩ h0 h1]
        refine (step_B V c hT hM ⟨n + 1, hn⟩ h0 h1 _ k).trans ?_
        show (outsAt1 V c n (Nat.lt_of_succ_lt hn)).2 (ix2 k (0 : Fin 1)) + ((Pt V c k (n + 1) : ℝ) : EReal) = _
        rw [ihn, ← EReal.coe_add, acc_step (Pt V c k) n h0]

def total (c : Dev nD) (k : Fin 200) (p : ℕ) : ℝ :=
  ∑ r ∈ Finset.range 792, μrow V c (792 * p + r) * Trow V c (arow V c k (792 * p + r))

theorem arow_lt (c : Dev nD) (hI : ∀ i, (idxArr V c i).toNat < 3072) (k : Fin 200) (r : ℕ) : arow V c k r < 3072 := by
  unfold arow
  split
  · exact hI _
  · norm_num

theorem total_eq (c : Dev nD) (hI : ∀ i, (idxArr V c i).toNat < 3072) (k : Fin 200) (p : ℕ) :
    ∑ s ∈ Finset.range 132, Pt V c k (132 * p + s) = total V c k p := by
  have h := grid_total 11 12 72 (by norm_num) (μrow V c) (arow V c k) (Trow V c) p
    (fun r => by have := arow_lt V c hI k r; omega)
  simp only [Nat.reduceMul] at h
  exact h

theorem out_point (c : Dev nD) (hT : ∀ i, Cert.Spec.IsReal (tabArr V c i)) (hM : ∀ i, Cert.Spec.IsReal (mskArr V c i))
    (hI : ∀ i, (idxArr V c i).toNat < 3072) (t : Fin cfg1.N) (h1 : t.val % 132 = 131) (k : Fin 200) :
    (outsAt1 V c t.val t.isLt).1 (ix3 (0 : Fin 1) k (0 : Fin 1))
      = ((total V c k (t.val / 132) * (1 / 1536) : ℝ) : EReal) := by
  have e : (outsAt1 V c t.val t.isLt).1 (ix3 (0 : Fin 1) k (0 : Fin 1))
      = (outsAt1 V c t.val t.isLt).2 (ix2 k (0 : Fin 1)) * ((1 / 1536 : ℝ) : EReal) := by
    rw [outsAt1_C V c t h1]
    exact stepC_rel V c t h1 _ k
  rw [e, scratch_eq V c hT hM k t.val t.isLt, ← EReal.coe_mul]
  refine congrArg (fun z : ℝ => ((z * (1 / 1536) : ℝ) : EReal)) ?_
  rw [h1]
  have e2 : t.val - 131 = 132 * (t.val / 132) := by omega
  rw [e2]
  exact total_eq V c hI k (t.val / 132)

def G1 (c : Dev nD) : Vec Ideal S2x200x1 .f32 := fun y =>
  if h : (y 1).val < 200 then ((total V c ⟨(y 1).val, h⟩ (y 0).val * (1 / 1536) : ℝ) : EReal) else 0

theorem G1_at (c : Dev nD) (y : S2x200x1.Idx) (p : ℕ) (k : Fin 200) (h0 : (y 0).val = p) (h1 : (y 1).val = k.val) :
    G1 V c y = ((total V c k p * (1 / 1536) : ℝ) : EReal) := by
  unfold G1
  have hk : (y 1).val < 200 := by rw [h1]; exact k.isLt
  rw [dif_pos hk]
  have ek : (⟨(y 1).val, hk⟩ : Fin 200) = k := Fin.ext h1
  rw [ek, h0]

theorem flushed_eq (c : Dev nD) (hT : ∀ i, Cert.Spec.IsReal (tabArr V c i)) (hM : ∀ i, Cert.Spec.IsReal (mskArr V c i))
    (hI : ∀ i, (idxArr V c i).toNat < 3072) (t : Fin cfg1.N) (hf : (cfg1.win 3).flush t = true) :
    (dat1 (F := Ideal) V c).flushed 3 t = ((cfg1.win 3).blk t).view.read (Elt Ideal) (G1 V c) := by
  have h23 : t.val % 132 = 131 := (flush1_3 t).mp hf
  have hi := index1_3 t
  refine funext fun (x : S1x200x1.Idx) => ?_
  show (cfg1.win 3).cut (grid1.coords t) ((dat1 (F := Ideal) V c).after 3 t) x = _
  rw [after1_3, View.read_apply]
  obtain ⟨a, b, d, rfl⟩ : ∃ (a : Fin 1) (b : Fin 200) (d : Fin 1), x = ix3 a b d := ⟨x 0, x 1, x 2, eq_ix3 x⟩
  obtain rfl : a = 0 := Subsingleton.elim _ _
  obtain rfl : d = 0 := Subsingleton.elim _ _
  show (outsAt1 V c t.val t.isLt).1 (ix3 (0 : Fin 1) b (0 : Fin 1)) = G1 V c (((cfg1.win 3).blk t).view.emb (ix3 (0 : Fin 1) b (0 : Fin 1)))
  rw [out_point V c hT hM hI t h23 b]
  refine (G1_at V c _ (t.val / 132) b ?_ ?_).symm
  · show win1_3.index t 0 * 1 + 1 * 0 = t.val / 132
    rw [hi.1]; omega
  · show win1_3.index t 1 * 200 + 1 * b.val = b.val
    rw [hi.2.1]; omega

def tLastA : Fin cfg1.N := ⟨131, by rw [show cfg1.N = 264 from N_1]; norm_num⟩
def tLastB : Fin cfg1.N := ⟨263, by rw [show cfg1.N = 264 from N_1]; norm_num⟩

set_option maxHeartbeats 4000000 in
theorem outArr_eq (c : Dev nD) (hT : ∀ i, Cert.Spec.IsReal (tabArr V c i)) (hM : ∀ i, Cert.Spec.IsReal (mskArr V c i))
    (hI : ∀ i, (idxArr V c i).toNat < 3072) : outArr V c = G1 V c :=
  (dat1 (F := Ideal) V c).arrAt_eq_of_cover 3 (G1 V c) (flushed_eq V c hT hM hI) fun i => by
    have h0 : (i 0 : Nat) < 2 := (i 0).isLt
    have h1 : (i 1 : Nat) < 200 := (i 1).isLt
    have h2 : (i 2 : Nat) < 1 := (i 2).isLt
    rcases (show (i 0 : Nat) = 0 ∨ (i 0 : Nat) = 1 by omega) with hp | hp
    · refine ⟨tLastA, (flush1_3 tLastA).mpr rfl, ?_⟩
      show i ∈ ((View.whole main_v76).slice (win1_3.rect tLastA)).set
      rw [View.set_slice_whole, Rect.mem_set_unit]
      intro a
      match a with
      | ⟨0, _⟩ =>
        show win1_3.index tLastA 0 * win1_3.size 0 ≤ (i 0 : Nat) ∧ (i 0 : Nat) < win1_3.index tLastA 0 * win1_3.size 0 + win1_3.xsize (grid1.coords tLastA) 0
        rw [show win1_3.index tLastA 0 * win1_3.size 0 = 0 from by decide +kernel, show win1_3.xsize (grid1.coords tLastA) 0 = 1 from by decide +kernel]; omega
      | ⟨1, _⟩ =>
        show win1_3.index tLastA 1 * win1_3.size 1 ≤ (i 1 : Nat) ∧ (i 1 : Nat) < win1_3.index tLastA 1 * win1_3.size 1 + win1_3.xsize (grid1.coords tLastA) 1
        rw [show win1_3.index tLastA 1 * win1_3.size 1 = 0 from by decide +kernel, show win1_3.xsize (grid1.coords tLastA) 1 = 200 from by decide +kernel]; omega
      | ⟨2, _⟩ =>
        show win1_3.index tLastA 2 * win1_3.size 2 ≤ (i 2 : Nat) ∧ (i 2 : Nat) < win1_3.index tLastA 2 * win1_3.size 2 + win1_3.xsize (grid1.coords tLastA) 2
        rw [show win1_3.index tLastA 2 * win1_3.size 2 = 0 from by decide +kernel, show win1_3.xsize (grid1.coords tLastA) 2 = 1 from by decide +kernel]; omega
    · refine ⟨tLastB, (flush1_3 tLastB).mpr rfl, ?_⟩
      show i ∈ ((View.whole main_v76).slice (win1_3.rect tLastB)).set
      rw [View.set_slice_whole, Rect.mem_set_unit]
      intro a
      match a with
      | ⟨0, _⟩ =>
        show win1_3.index tLastB 0 * win1_3.size 0 ≤ (i 0 : Nat) ∧ (i 0 : Nat) < win1_3.index tLastB 0 * win1_3.size 0 + win1_3.xsize (grid1.coords tLastB) 0
        rw [show win1_3.index tLastB 0 * win1_3.size 0 = 1 from by decide +kernel, show win1_3.xsize (grid1.coords tLastB) 0 = 1 from by decide +kernel]; omega
      | ⟨1, _⟩ =>
        show win1_3.index tLastB 1 * win1_3.size 1 ≤ (i 1 : Nat) ∧ (i 1 : Nat) < win1_3.index tLastB 1 * win1_3.size 1 + win1_3.xsize (grid1.coords tLastB) 1
        rw [show win1_3.index tLastB 1 * win1_3.size 1 = 0 from by decide +kernel, show win1_3.xsize (grid1.coords tLastB) 1 = 200 from by decide +kernel]; omega
      | ⟨2, _⟩ =>
        show win1_3.index tLastB 2 * win1_3.size 2 ≤ (i 2 : Nat) ∧ (i 2 : Nat) < win1_3.index tLastB 2 * win1_3.size 2 + win1_3.xsize (grid1.coords tLastB) 2
        rw [show win1_3.index tLastB 2 * win1_3.size 2 = 0 from by decide +kernel, show win1_3.xsize (grid1.coords tLastB) 2 = 1 from by decide +kernel]; omega

theorem outArr_apply (c : Dev nD) (hT : ∀ i, Cert.Spec.IsReal (tabArr V c i)) (hM : ∀ i, Cert.Spec.IsReal (mskArr V c i))
    (hI : ∀ i, (idxArr V c i).toNat < 3072) (p : Fin 2) (k : Fin 200) :
    outArr V c (ix3 p k (0 : Fin 1))
      = (((∑ n : Fin 792, (mskArr V c (ix2 ⟨792 * p.val + n.val, by omega⟩ (0 : Fin 1))).toReal
            * (tabArr V c (ix2 ⟨(idxArr V c (ix2 ⟨792 * p.val + n.val, by omega⟩ k)).toNat, hI _⟩ (0 : Fin 1))).toReal)
          * (1 / 1536) : ℝ) : EReal) := by
  rw [outArr_eq V c hT hM hI, G1_at V c (ix3 p k (0 : Fin 1)) p.val k rfl rfl]
  refine congrArg (fun z : ℝ => ((z * (1 / 1536) : ℝ) : EReal)) ?_
  unfold total
  rw [Finset.sum_range (fun r => μrow V c (792 * p.val + r) * Trow V c (arow V c k (792 * p.val + r)))]
  refine Finset.sum_congr rfl fun n _ => ?_
  have hr : 792 * p.val + n.val < 1584 := by omega
  have hx : (idxArr V c (ix2 ⟨792 * p.val + n.val, hr⟩ k)).toNat < 3072 := hI _
  show μrow V c (792 * p.val + n.val) * Trow V c (arow V c k (792 * p.val + n.val)) = _
  rw [μrow, arow, dif_pos hr, dif_pos hr, Trow, dif_pos hx]

theorem outArr_apply' (c : Dev nD) (hT : ∀ i, Cert.Spec.IsReal (tabArr V c i))
    (hM : ∀ i, mskArr V c i = 0 ∨ mskArr V c i = 1)
    (hI : ∀ i, (idxArr V c i).toNat < 3072) (p : Fin 2) (k : Fin 200) :
    outArr V c (ix3 p k (0 : Fin 1))
      = (((∑ n : Fin 792, (mskArr V c (ix2 ⟨792 * p.val + n.val, by omega⟩ (0 : Fin 1))).toReal
            * (tabArr V c (ix2 ⟨(idxArr V c (ix2 ⟨792 * p.val + n.val, by omega⟩ k)).toNat, hI _⟩ (0 : Fin 1))).toReal)
          * (1 / 1536) : ℝ) : EReal) :=
  outArr_apply V c hT (fun i => by
    rcases hM i with h | h <;> rw [h]
    · exact ⟨EReal.coe_ne_top 0, EReal.coe_ne_bot 0⟩
    · exact ⟨EReal.coe_ne_top 1, EReal.coe_ne_bot 1⟩) hI p k

end Cert.KernelIdeal.Val1

end
-- ==== Proof.Val.GatherPay2.lean ====
import proofs.«406789_j53094385713523_3_alg».proof.Proof.Gen.KernelIdeal.Skeleton
import proofs.«406789_j53094385713523_3_alg».proof.Proof.Val.GatherMath
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.Val2

open Idealize.ShloMosaic Idealize.ShloMosaic.ValueIdx
open Cert.KernelIdeal Cert.KernelIdeal.Gen Cert.GatherMath

theorem cmpi_apply {s : Shape} {w : ℕ} (p : CmpIPredicate) (x y : IVec s w) (i : s.Idx) :
    cmpi p x y i = IntOp.cmpi p (x i) (y i) := rfl

theorem addi_apply {s : Shape} {w : ℕ} (x y : IVec s w) (i : s.Idx) : addi x y i = IntOp.addi (x i) (y i) := rfl

theorem idxCast_apply (x : IVec S256x50 32) (h : S256x50.ShapeCasts S256x50x1) (n : Fin 256) (k : Fin 50) :
    shapeCast S256x50x1 x h (ix3 n k (0 : Fin 1)) = x (ix2 n k) :=
  shapeCast_apply x h (ix3 n k (0 : Fin 1)) (ix2 n k) (by
    rw [Shape.rowMajor_val_two, Shape.rowMajor_val_three]
    show n.val * 50 + k.val = (n.val * 50 + k.val) * 1 + 0
    omega)

theorem mskCast_apply (x : FVec Ideal S256x1 .bf16) (h : S256x1.ShapeCasts S256x1x1) (n : Fin 256) :
    shapeCast S256x1x1 x h (ix3 n (0 : Fin 1) (0 : Fin 1)) = x (ix2 n (0 : Fin 1)) :=
  shapeCast_apply x h (ix3 n (0 : Fin 1) (0 : Fin 1)) (ix2 n (0 : Fin 1)) (by
    rw [Shape.rowMajor_val_two, Shape.rowMajor_val_three]
    show n.val * 1 + 0 = (n.val * 1 + 0) * 1 + 0
    omega)

theorem outCast_apply (x : FVec Ideal S50x1 .f32) (h : S50x1.ShapeCasts S1x50x1) (k : Fin 50) :
    shapeCast S1x50x1 x h (ix3 (0 : Fin 1) k (0 : Fin 1)) = x (ix2 k (0 : Fin 1)) :=
  shapeCast_apply x h (ix3 (0 : Fin 1) k (0 : Fin 1)) (ix2 k (0 : Fin 1)) (by
    rw [Shape.rowMajor_val_two, Shape.rowMajor_val_three]
    show k.val * 1 + 0 = (0 * 50 + k.val) * 1 + 0
    omega)

theorem bIdx_apply (x : IVec S256x50x1 32) (h : S256x50x1.Broadcasts S256x50x256) (n : Fin 256) (k : Fin 50) (v : Fin 256) :
    broadcastTo S256x50x256 x h (ix3 n k v) = x (ix3 n k (0 : Fin 1)) :=
  broadcastTo_apply x h (ix3 n k v) (ix3 n k (0 : Fin 1)) (by
    intro a
    match a with
    | ⟨0, _⟩ => rfl
    | ⟨1, _⟩ => rfl
    | ⟨2, _⟩ => rfl)

theorem bLane_apply (x : IVec S1x1x256 32) (h : S1x1x256.Broadcasts S256x50x256) (n : Fin 256) (k : Fin 50) (v : Fin 256) :
    broadcastTo S256x50x256 x h (ix3 n k v) = x (ix3 (0 : Fin 1) (0 : Fin 1) v) :=
  broadcastTo_apply x h (ix3 n k v) (ix3 (0 : Fin 1) (0 : Fin 1) v) (by
    intro a
    match a with
    | ⟨0, _⟩ => rfl
    | ⟨1, _⟩ => rfl
    | ⟨2, _⟩ => rfl)

theorem bMsk_apply (x : FVec Ideal S256x1x1 .bf16) (h : S256x1x1.Broadcasts S256x50x256) (n : Fin 256) (k : Fin 50) (v : Fin 256) :
    broadcastTo S256x50x256 x h (ix3 n k v) = x (ix3 n (0 : Fin 1) (0 : Fin 1)) :=
  broadcastTo_apply x h (ix3 n k v) (ix3 n (0 : Fin 1) (0 : Fin 1)) (by
    intro a
    match a with
    | ⟨0, _⟩ => rfl
    | ⟨1, _⟩ => rfl
    | ⟨2, _⟩ => rfl)

theorem lane_apply (h : S1x1x256.Iotas .tc 32 [2]) (v : Fin 256) :
    iota .tc S1x1x256 32 [2] h (ix3 (0 : Fin 1) (0 : Fin 1) v) = BitVec.ofNat 32 v.val :=
  iota_single_apply .tc S1x1x256 32 2 h (ix3 (0 : Fin 1) (0 : Fin 1) v)

theorem redRows_apply (src : FVec Ideal S256x50x256 .f32) (h : S256x50x256.Reduces [0] S50x256)
    (hφ : FKind.Formats .f32) (hacc : (0x00000000#32 : BitVec 32) = 0x00000000#32)
    (k : Fin 50) (v : Fin 256) :
    multiReduction .add [0] S50x256 src 0x00000000#32 h hφ hacc (ix2 k v) = ∑ n : Fin 256, src (ix3 n k v) := by
  refine (Ideal.multiReduction_add_single src 0x00000000#32 h hφ hacc (ix2 k v)).trans ?_
  show ∑ n : Fin 256, src (h.lift (ix2 k v) n) = ∑ n : Fin 256, src (ix3 n k v)
  refine Finset.sum_congr rfl fun n _ => congrArg src ?_
  funext a
  apply Fin.ext
  match a with
  | ⟨0, _⟩ => rfl
  | ⟨1, _⟩ => rfl
  | ⟨2, _⟩ => rfl

theorem mm_apply (l : FVec Ideal S50x256 .bf16) (r : FVec Ideal S256x1 .bf16) (k : Fin 50) :
    matmul dot_S50x256_S256x1_S50x1_1_0_0_1_n_n none l r (constant S50x1 .f32 0x00000000#32) (ix2 k (0 : Fin 1))
      = ∑ v : Fin 256, l (ix2 k v) * r (ix2 v (0 : Fin 1)) := by
  refine (Ideal.matmul_constant_zero_apply dot_S50x256_S256x1_S50x1_1_0_0_1_n_n none l r (ix2 k (0 : Fin 1))).trans ?_
  refine (Equiv.sum_comp (contrEquiv1 dot_S50x256_S256x1_S50x1_1_0_0_1_n_n 256 rfl rfl).symm _).symm.trans ?_
  refine Finset.sum_congr rfl fun v _ => ?_
  have hl : dot_S50x256_S256x1_S50x1_1_0_0_1_n_n.lhsIdx (ix2 k (0 : Fin 1))
      ((contrEquiv1 dot_S50x256_S256x1_S50x1_1_0_0_1_n_n 256 rfl rfl).symm v) = ix2 k v := by
    funext a
    apply Fin.ext
    match a with
    | ⟨0, _⟩ => rfl
    | ⟨1, _⟩ => rfl
  have hr : dot_S50x256_S256x1_S50x1_1_0_0_1_n_n.rhsIdx (ix2 k (0 : Fin 1))
      ((contrEquiv1 dot_S50x256_S256x1_S50x1_1_0_0_1_n_n 256 rfl rfl).symm v) = ix2 v (0 : Fin 1) := by
    funext a
    apply Fin.ext
    match a with
    | ⟨0, _⟩ => rfl
    | ⟨1, _⟩ => rfl
  beta_reduce
  rw [hl, hr]

theorem pay2_apply (k : Fin 50) : k2_pay2 (F := Ideal) (ix2 k (0 : Fin 1)) = 0 := by
  unfold k2_pay2
  simp only [shapeCast_self, broadcast_apply]
  exact Ideal.ofBits_zero_f32

theorem inv1536 : Named.named (F := Ideal) κ "inv_1536" (φ := .f32) 0x3A2AAAAB#32 = ((1 / 1536 : ℝ) : EReal) :=
  IdealRules.named_const.ideal_named_scalar _ _ _ _ rfl

theorem pay1_apply (v41 : Vec Ideal S50x1 .f32) (k : Fin 50) :
    k2_pay1 (F := Ideal) v41 (ix3 (0 : Fin 1) k (0 : Fin 1)) = v41 (ix2 k (0 : Fin 1)) * ((1 / 1536 : ℝ) : EReal) := by
  unfold k2_pay1
  simp only [outCast_apply, mulf_apply, broadcast_apply]
  rw [inv1536]

theorem pay3_apply (i : grid2.Coords) (v5 : Vec Ideal S256x50 .i32) (v7 : Vec Ideal S256x1 .f32)
    (v9 : Vec Ideal S256x1 .f32) (v31 : Vec Ideal S50x1 .f32) (k : Fin 50) :
    k2_pay3 (F := Ideal) i v5 v7 v9 v31 (ix2 k (0 : Fin 1))
      = v31 (ix2 k (0 : Fin 1))
        + partialE (fun n : Fin 256 => v5 (ix2 n k)) (fun n : Fin 256 => v7 (ix2 n (0 : Fin 1)))
            (fun v : Fin 256 => v9 (ix2 v (0 : Fin 1))) (i 2).val := by
  unfold k2_pay3
  simp only [shapeCast_self, addf_apply, mm_apply, truncf_apply]
  show _ = v31 (ix2 k (0 : Fin 1))
    + ∑ v : Fin 256, (∑ n : Fin 256, hotW (v5 (ix2 n k)) (i 2).val v.val * v7 (ix2 n (0 : Fin 1))) * v9 (ix2 v (0 : Fin 1))
  refine congrArg (fun z => v31 (ix2 k (0 : Fin 1)) + z) (Finset.sum_congr rfl fun v _ => ?_)
  refine congrArg (fun z => z * v9 (ix2 v (0 : Fin 1))) ?_
  refine (redRows_apply _ _ _ _ k v).trans (Finset.sum_congr rfl fun n _ => ?_)
  simp only [extf_apply, mulf_apply, truncf_apply, sitofp_apply, extui_apply, cmpi_apply, bIdx_apply, idxCast_apply,
    bLane_apply, addi_apply, lane_apply, broadcast_apply, bMsk_apply, mskCast_apply, shapeCast_self]
  refine congrArg (fun z => z * v7 (ix2 n (0 : Fin 1))) ?_
  have hl : iota .tc S1x1x256 32 [2] Facts₀.iota_S1x1x256_d2_w32 (ix3 (0 : Fin 1) (0 : Fin 1) v) = BitVec.ofNat 32 v.val :=
    iota_single_apply .tc S1x1x256 32 2 Facts₀.iota_S1x1x256_d2_w32 (ix3 (0 : Fin 1) (0 : Fin 1) v)
  exact congrArg (fun w : BitVec 32 => FloatOps.sitofp (F := Ideal) FTy.f32
    (BitVec.setWidth 32 (IntOp.cmpi CmpIPredicate.eq (v5 (ix2 n k)) (IntOp.addi w (Scalar.muli (BitVec.ofNat 32 (i 2).val) 256#32))))) hl

end Cert.KernelIdeal.Val2

end
-- ==== Proof.Val.Gather2.lean ====
import proofs.«406789_j53094385713523_3_alg».proof.Proof.KI.R2
import proofs.«406789_j53094385713523_3_alg».proof.Proof.Val.GatherPay2
import proofs.«406789_j53094385713523_3_alg».proof.Proof.Spec
import Idealize.ShloMosaic.Lib.Pipeline.Value
import Idealize.ShloMosaic.Lib.Tactic

set_option maxRecDepth 16384

noncomputable section

namespace Cert.KernelIdeal.Val2

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.R2 Cert.GatherMath

section Pieces

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

theorem sout_B (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : ¬cond2_1 i) (x0 : Vec F S256x50 .i32) (x1 : Vec F S256x1 .f32) (x2 : Vec F S256x1 .f32)
    (xs0 : Vec F S50x1 .f32) :
    sout2_B_0 c i arg3 harg3 arg4 harg4 arg5 harg5 arg6 harg6 arg7 harg7 hc0 hc1 x0 x1 x2 xs0 = k2_pay3 i x0 x2 x1 xs0 := by
  unfold sout2_B_0
  rw [View.read_writes_eq_canon _ _ _ (scover2_B_0 c i arg3 harg3 arg4 harg4 arg5 harg5 arg6 harg6 arg7 harg7 hc0 hc1 x0 x1 x2 xs0)]
  unfold kernelRun2_B
  dsimp only
  sl_unfold_words
  rw [View.canon_unit_zero hz2]
  simp only [View.readAt_eq_ld, harg3.read_unread, harg4.read_unread, harg5.read_unread, harg7.read_unread,
    View.ld_unit_zero (S := S256x50) hz2, View.ld_unit_zero (S := S256x1) hz2, View.ld_unit_zero (S := S256x1) hz2,
    View.ld_unit_zero (S := S50x1) hz2]

theorem sout_A (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : cond2_0 i) (hc1 : ¬cond2_1 i) (x0 : Vec F S256x50 .i32) (x1 : Vec F S256x1 .f32) (x2 : Vec F S256x1 .f32) :
    sout2_A_0 c i arg3 harg3 arg4 harg4 arg5 harg5 arg6 harg6 arg7 harg7 hc0 hc1 x0 x1 x2 = k2_pay3 i x0 x2 x1 k2_pay2 := by
  unfold sout2_A_0
  rw [View.read_writes_eq_canon _ _ _ (scover2_A_0 c i arg3 harg3 arg4 harg4 arg5 harg5 arg6 harg6 arg7 harg7 hc0 hc1 x0 x1 x2)]
  unfold kernelRun2_A
  dsimp only
  sl_unfold_words
  rw [View.canon_cons_unit_zero (S := S50x1) hz2]
  simp only [View.readAt_eq_ld, harg3.read_unread, harg4.read_unread, harg5.read_unread,
    View.ld_unit_zero (S := S256x50) hz2, View.ld_unit_zero (S := S256x1) hz2, View.ld_unit_zero (S := S256x1) hz2,
    View.readCov_unit_zero (S := S50x1) _ hz2]

theorem sout_C (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : cond2_1 i) (x0 : Vec F S256x50 .i32) (x1 : Vec F S256x1 .f32) (x2 : Vec F S256x1 .f32)
    (xs0 : Vec F S50x1 .f32) :
    sout2_C_0 c i arg3 harg3 arg4 harg4 arg5 harg5 arg6 harg6 arg7 harg7 hc0 hc1 x0 x1 x2 xs0 = k2_pay3 i x0 x2 x1 xs0 := by
  unfold sout2_C_0
  rw [View.read_writes_eq_canon _ _ _ (scover2_C_0 c i arg3 harg3 arg4 harg4 arg5 harg5 arg6 harg6 arg7 harg7 hc0 hc1 x0 x1 x2 xs0)]
  unfold kernelRun2_C
  dsimp only
  sl_unfold_words
  rw [View.canon_unit_zero hz2]
  simp only [View.readAt_eq_ld, harg3.read_unread, harg4.read_unread, harg5.read_unread, harg7.read_unread,
    View.ld_unit_zero (S := S256x50) hz2, View.ld_unit_zero (S := S256x1) hz2, View.ld_unit_zero (S := S256x1) hz2,
    View.ld_unit_zero (S := S50x1) hz2]

theorem out_C (c : Dev nD) (i : grid2.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond2_0 i) (hc1 : cond2_1 i) (x0 : Vec F S256x50 .i32) (x1 : Vec F S256x1 .f32) (x2 : Vec F S256x1 .f32)
    (xs0 : Vec F S50x1 .f32) :
    out2_C_3 c i arg3 harg3 arg4 harg4 arg5 harg5 arg6 harg6 arg7 harg7 hc0 hc1 x0 x1 x2 xs0
      = k2_pay1 (k2_pay3 i x0 x2 x1 xs0) := by
  unfold out2_C_3
  rw [View.read_writes_eq_canon _ _ _ (cover2_C_3 c i arg3 harg3 arg4 harg4 arg5 harg5 arg6 harg6 arg7 harg7 hc0 hc1 x0 x1 x2 xs0)]
  unfold kernelRun2_C
  dsimp only
  sl_unfold_words
  rw [View.canon_unit_zero hz3]
  simp only [View.readAt_eq_ld, harg3.read_unread, harg4.read_unread, harg5.read_unread, harg7.read_unread,
    View.ld_unit_zero (S := S256x50) hz2, View.ld_unit_zero (S := S256x1) hz2, View.ld_unit_zero (S := S256x1) hz2,
    View.ld_unit_zero (S := S50x1) hz2, View.readCov_unit_zero (S := S50x1) _ hz2]

end Pieces

variable (V : (c : Dev nD) → (b : Ref sig .tc) → Buf (Elt Ideal) ((c : Thread nD τ).loc b))

abbrev idxArr (c : Dev nD) : Vec Ideal S1536x50 .i32 := V c main_v79
abbrev tabArr (c : Dev nD) : Vec Ideal S512x1 .f32 := V c main_v81
abbrev mskArr (c : Dev nD) : Vec Ideal S1536x1 .f32 := V c main_v85
abbrev outArr (c : Dev nD) : Vec Ideal S2x50x1 .f32 := (dat2 (F := Ideal) V c).arrAt 3 cfg2.N

abbrev blkI (c : Dev nD) (t : Fin cfg2.N) : Vec Ideal S256x50 .i32 := iblk2 V c 0 t
abbrev blkT (c : Dev nD) (t : Fin cfg2.N) : Vec Ideal S256x1 .f32 := iblk2 V c 1 t
abbrev blkM (c : Dev nD) (t : Fin cfg2.N) : Vec Ideal S256x1 .f32 := iblk2 V c 2 t

theorem index2_0 : ∀ t : Fin cfg2.N, win2_0.index t 0 = t.val / 2 ∧ win2_0.index t 1 = 0 :=
  (by decide +kernel : ∀ t : Fin grid2.N, win2_0.index t 0 = t.val / 2 ∧ win2_0.index t 1 = 0)
theorem index2_1 : ∀ t : Fin cfg2.N, win2_1.index t 0 = t.val % 2 ∧ win2_1.index t 1 = 0 :=
  (by decide +kernel : ∀ t : Fin grid2.N, win2_1.index t 0 = t.val % 2 ∧ win2_1.index t 1 = 0)
theorem index2_2 : ∀ t : Fin cfg2.N, win2_2.index t 0 = t.val / 2 ∧ win2_2.index t 1 = 0 :=
  (by decide +kernel : ∀ t : Fin grid2.N, win2_2.index t 0 = t.val / 2 ∧ win2_2.index t 1 = 0)
theorem index2_3 : ∀ t : Fin cfg2.N, win2_3.index t 0 = t.val / 6 ∧ win2_3.index t 1 = 0 ∧ win2_3.index t 2 = 0 :=
  (by decide +kernel : ∀ t : Fin grid2.N, win2_3.index t 0 = t.val / 6 ∧ win2_3.index t 1 = 0 ∧ win2_3.index t 2 = 0)
theorem coord2_2 : ∀ t : Fin cfg2.N, (grid2.coords t 2).val = t.val % 2 :=
  (by decide +kernel : ∀ t : Fin grid2.N, (grid2.coords t 2).val = t.val % 2)

theorem blkI_apply (c : Dev nD) (t : Fin cfg2.N) (n : Fin 256) (k : Fin 50) :
    blkI V c t (ix2 n k) = idxArr V c (ix2 ⟨256 * (t.val / 2) + n.val, by have := lt_N2 t; omega⟩ k) := by
  have hi := index2_0 t
  unfold blkI iblk2
  rw [View.read_apply]
  show V c main_v79 _ = V c main_v79 _
  congr 1
  funext a
  apply Fin.ext
  match a with
  | ⟨0, _⟩ => show win2_0.index t 0 * 256 + 1 * n.val = 256 * (t.val / 2) + n.val; rw [hi.1]; omega
  | ⟨1, _⟩ => show win2_0.index t 1 * 50 + 1 * k.val = k.val; rw [hi.2]; omega

theorem blkM_apply (c : Dev nD) (t : Fin cfg2.N) (n : Fin 256) :
    blkM V c t (ix2 n (0 : Fin 1)) = mskArr V c (ix2 ⟨256 * (t.val / 2) + n.val, by have := lt_N2 t; omega⟩ (0 : Fin 1)) := by
  have hi := index2_2 t
  unfold blkM iblk2
  rw [View.read_apply]
  show V c main_v85 _ = V c main_v85 _
  congr 1
  funext a
  apply Fin.ext
  match a with
  | ⟨0, _⟩ => show win2_2.index t 0 * 256 + 1 * n.val = 256 * (t.val / 2) + n.val; rw [hi.1]; omega
  | ⟨1, _⟩ => show win2_2.index t 1 * 1 + 1 * 0 = 0; rw [hi.2]

theorem blkT_apply (c : Dev nD) (t : Fin cfg2.N) (v : Fin 256) :
    blkT V c t (ix2 v (0 : Fin 1)) = tabArr V c (ix2 ⟨256 * (t.val % 2) + v.val, by omega⟩ (0 : Fin 1)) := by
  have hi := index2_1 t
  unfold blkT iblk2
  rw [View.read_apply]
  show V c main_v81 _ = V c main_v81 _
  congr 1
  funext a
  apply Fin.ext
  match a with
  | ⟨0, _⟩ => show win2_1.index t 0 * 256 + 1 * v.val = 256 * (t.val % 2) + v.val; rw [hi.1]; omega
  | ⟨1, _⟩ => show win2_1.index t 1 * 1 + 1 * 0 = 0; rw [hi.2]

def μrow (c : Dev nD) (r : ℕ) : ℝ := if h : r < 1536 then (mskArr V c (ix2 ⟨r, h⟩ (0 : Fin 1))).toReal else 0
def arow (c : Dev nD) (k : Fin 50) (r : ℕ) : ℕ := if h : r < 1536 then (idxArr V c (ix2 ⟨r, h⟩ k)).toNat else 0
def Trow (c : Dev nD) (x : ℕ) : ℝ := if h : x < 512 then (tabArr V c (ix2 ⟨x, h⟩ (0 : Fin 1))).toReal else 0

def Pt (c : Dev nD) (k : Fin 50) (s : ℕ) : ℝ :=
  ∑ r ∈ Finset.range 256, μrow V c (256 * (s / 2) + r)
    * (if arow V c k (256 * (s / 2) + r) / 256 = s % 2 then Trow V c (arow V c k (256 * (s / 2) + r)) else 0)

theorem pay3_point (c : Dev nD) (hT : ∀ i, Cert.Spec.IsReal (tabArr V c i)) (hM : ∀ i, Cert.Spec.IsReal (mskArr V c i))
    (t : Fin cfg2.N) (xs : Vec Ideal S50x1 .f32) (k : Fin 50) :
    k2_pay3 (F := Ideal) (grid2.coords t) (blkI V c t) (blkM V c t) (blkT V c t) xs (ix2 k (0 : Fin 1))
      = xs (ix2 k (0 : Fin 1)) + ((Pt V c k t.val : ℝ) : EReal) := by
  have ht := lt_N2 t
  rw [pay3_apply]
  congr 1
  rw [partialE_eq (fun n : Fin 256 => blkI V c t (ix2 n k)) (fun n : Fin 256 => blkM V c t (ix2 n (0 : Fin 1)))
    (fun v : Fin 256 => blkT V c t (ix2 v (0 : Fin 1))) (grid2.coords t 2).val (by rw [coord2_2 t]; omega)
    (fun n : Fin 256 => μrow V c (256 * (t.val / 2) + n.val)) (Trow V c)
    (fun n => by
      show blkM V c t (ix2 n (0 : Fin 1)) = ((μrow V c (256 * (t.val / 2) + n.val) : ℝ) : EReal)
      rw [blkM_apply, μrow, dif_pos (by have := n.isLt; omega)]
      exact ((hM _).coe_toReal).symm)
    (fun v => by
      show blkT V c t (ix2 v (0 : Fin 1)) = ((Trow V c (256 * (grid2.coords t 2).val + v.val) : ℝ) : EReal)
      rw [blkT_apply, Trow, coord2_2 t, dif_pos (by have := v.isLt; omega)]
      exact ((hT _).coe_toReal).symm)]
  congr 1
  unfold Pt
  rw [Finset.sum_range (fun r => μrow V c (256 * (t.val / 2) + r)
    * (if arow V c k (256 * (t.val / 2) + r) / 256 = t.val % 2 then Trow V c (arow V c k (256 * (t.val / 2) + r)) else 0))]
  refine Finset.sum_congr rfl fun n _ => ?_
  have ha : (blkI V c t (ix2 n k)).toNat = arow V c k (256 * (t.val / 2) + n.val) := by
    rw [blkI_apply, arow, dif_pos (by have := n.isLt; omega)]
  show μrow V c (256 * (t.val / 2) + n.val) * (if (blkI V c t (ix2 n k)).toNat / 256 = (grid2.coords t 2).val then Trow V c (blkI V c t (ix2 n k)).toNat else 0) = _
  rw [ha, coord2_2 t]

theorem step_A (c : Dev nD) (hT : ∀ i, Cert.Spec.IsReal (tabArr V c i)) (hM : ∀ i, Cert.Spec.IsReal (mskArr V c i))
    (t : Fin cfg2.N) (h0 : t.val % 6 = 0) (k : Fin 50) :
    (stepA2 V c t h0).2 (ix2 k (0 : Fin 1)) = ((Pt V c k t.val : ℝ) : EReal) := by
  unfold stepA2
  dsimp only
  refine (congrFun (sout_A (F := Ideal) c (grid2.coords t) (ms2_0 t) (hs2_0 t) (ms2_1 t) (hs2_1 t) (ms2_2 t) (hs2_2 t)
    (ms2_3 t) (hs2_3 t) scM2_0 (Memref.isWhole_whole _) _ _ (blkI V c t) (blkT V c t) (blkM V c t)) (ix2 k (0 : Fin 1))).trans ?_
  rw [pay3_point V c hT hM t _ k, pay2_apply, zero_add]

theorem step_B (c : Dev nD) (hT : ∀ i, Cert.Spec.IsReal (tabArr V c i)) (hM : ∀ i, Cert.Spec.IsReal (mskArr V c i))
    (t : Fin cfg2.N) (h0 : ¬t.val % 6 = 0) (h1 : ¬t.val % 6 = 5) (prev : Vec Ideal S50x1 .f32) (k : Fin 50) :
    (stepB2 V c t h0 h1 prev).2 (ix2 k (0 : Fin 1)) = prev (ix2 k (0 : Fin 1)) + ((Pt V c k t.val : ℝ) : EReal) := by
  unfold stepB2
  dsimp only
  refine (congrFun (sout_B (F := Ideal) c (grid2.coords t) (ms2_0 t) (hs2_0 t) (ms2_1 t) (hs2_1 t) (ms2_2 t) (hs2_2 t)
    (ms2_3 t) (hs2_3 t) scM2_0 (Memref.isWhole_whole _) _ _ (blkI V c t) (blkT V c t) (blkM V c t) prev) (ix2 k (0 : Fin 1))).trans ?_
  exact pay3_point V c hT hM t prev k

theorem step_C (c : Dev nD) (hT : ∀ i, Cert.Spec.IsReal (tabArr V c i)) (hM : ∀ i, Cert.Spec.IsReal (mskArr V c i))
    (t : Fin cfg2.N) (h1 : t.val % 6 = 5) (prev : Vec Ideal S50x1 .f32) (k : Fin 50) :
    (stepC2 V c t h1 prev).2 (ix2 k (0 : Fin 1)) = prev (ix2 k (0 : Fin 1)) + ((Pt V c k t.val : ℝ) : EReal) := by
  unfold stepC2
  dsimp only
  refine (congrFun (sout_C (F := Ideal) c (grid2.coords t) (ms2_0 t) (hs2_0 t) (ms2_1 t) (hs2_1 t) (ms2_2 t) (hs2_2 t)
    (ms2_3 t) (hs2_3 t) scM2_0 (Memref.isWhole_whole _) _ _ (blkI V c t) (blkT V c t) (blkM V c t) prev) (ix2 k (0 : Fin 1))).trans ?_
  exact pay3_point V c hT hM t prev k

theorem stepC_rel (c : Dev nD) (t : Fin cfg2.N) (h1 : t.val % 6 = 5) (prev : Vec Ideal S50x1 .f32) (k : Fin 50) :
    (stepC2 V c t h1 prev).1 (ix3 (0 : Fin 1) k (0 : Fin 1))
      = (stepC2 V c t h1 prev).2 (ix2 k (0 : Fin 1)) * ((1 / 1536 : ℝ) : EReal) := by
  unfold stepC2
  dsimp only
  rw [out_C (F := Ideal), sout_C (F := Ideal), pay1_apply]

theorem acc_step (f : ℕ → ℝ) (n : ℕ) (h : (n + 1) % 6 ≠ 0) :
    (∑ s ∈ Finset.range (n % 6 + 1), f (n - n % 6 + s)) + f (n + 1)
      = ∑ s ∈ Finset.range ((n + 1) % 6 + 1), f (n + 1 - (n + 1) % 6 + s) := by
  have e : (n + 1) % 6 = n % 6 + 1 := by omega
  have e2 : n + 1 - (n % 6 + 1) = n - n % 6 := by omega
  have e3 : n - n % 6 + (n % 6 + 1) = n + 1 := by omega
  rw [e, e2, Finset.sum_range_succ (fun s => f (n - n % 6 + s)) (n % 6 + 1), e3]

theorem acc_reset (f : ℕ → ℝ) (n : ℕ) (h : n % 6 = 0) :
    f n = ∑ s ∈ Finset.range (n % 6 + 1), f (n - n % 6 + s) := by
  rw [h]; simp

theorem scratch_eq (c : Dev nD) (hT : ∀ i, Cert.Spec.IsReal (tabArr V c i)) (hM : ∀ i, Cert.Spec.IsReal (mskArr V c i))
    (k : Fin 50) : ∀ (n : ℕ) (hn : n < cfg2.N),
    (outsAt2 V c n hn).2 (ix2 k (0 : Fin 1))
      = ((∑ s ∈ Finset.range (n % 6 + 1), Pt V c k (n - n % 6 + s) : ℝ) : EReal) := by
  intro n
  induction n with
  | zero =>
    intro hn
    rw [outsAt2_A V c ⟨0, hn⟩ (Nat.zero_mod _)]
    refine (step_A V c hT hM ⟨0, hn⟩ (Nat.zero_mod _) k).trans ?_
    show ((Pt V c k 0 : ℝ) : EReal) = _
    rw [acc_reset (Pt V c k) 0 (Nat.zero_mod _)]
  | succ n ih =>
    intro hn
    have ihn := ih (Nat.lt_of_succ_lt hn)
    by_cases h1 : (n + 1) % 6 = 5
    · rw [outsAt2_C V c ⟨n + 1, hn⟩ h1]
      refine (step_C V c hT hM ⟨n + 1, hn⟩ h1 _ k).trans ?_
      show (outsAt2 V c n (Nat.lt_of_succ_lt hn)).2 (ix2 k (0 : Fin 1)) + ((Pt V c k (n + 1) : ℝ) : EReal) = _
      rw [ihn, ← EReal.coe_add, acc_step (Pt V c k) n (by omega)]
    · by_cases h0 : (n + 1) % 6 = 0
      · rw [outsAt2_A V c ⟨n + 1, hn⟩ h0]
        refine (step_A V c hT hM ⟨n + 1, hn⟩ h0 k).trans ?_
        show ((Pt V c k (n + 1) : ℝ) : EReal) = _
        rw [acc_reset (Pt V c k) (n + 1) h0]
      · rw [outsAt2_B V c ⟨n + 1, hn⟩ h0 h1]
        refine (step_B V c hT hM ⟨n + 1, hn⟩ h0 h1 _ k).trans ?_
        show (outsAt2 V c n (Nat.lt_of_succ_lt hn)).2 (ix2 k (0 : Fin 1)) + ((Pt V c k (n + 1) : ℝ) : EReal) = _
        rw [ihn, ← EReal.coe_add, acc_step (Pt V c k) n h0]

def total (c : Dev nD) (k : Fin 50) (p : ℕ) : ℝ :=
  ∑ r ∈ Finset.range 768, μrow V c (768 * p + r) * Trow V c (arow V c k (768 * p + r))

theorem arow_lt (c : Dev nD) (hI : ∀ i, (idxArr V c i).toNat < 512) (k : Fin 50) (r : ℕ) : arow V c k r < 512 := by
  unfold arow
  split
  · exact hI _
  · norm_num

theorem total_eq (c : Dev nD) (hI : ∀ i, (idxArr V c i).toNat < 512) (k : Fin 50) (p : ℕ) :
    ∑ s ∈ Finset.range 6, Pt V c k (6 * p + s) = total V c k p := by
  have h := grid_total 3 2 256 (by norm_num) (μrow V c) (arow V c k) (Trow V c) p
    (fun r => by have := arow_lt V c hI k r; omega)
  simp only [Nat.reduceMul] at h
  exact h

theorem out_point (c : Dev nD) (hT : ∀ i, Cert.Spec.IsReal (tabArr V c i)) (hM : ∀ i, Cert.Spec.IsReal (mskArr V c i))
    (hI : ∀ i, (idxArr V c i).toNat < 512) (t : Fin cfg2.N) (h1 : t.val % 6 = 5) (k : Fin 50) :
    (outsAt2 V c t.val t.isLt).1 (ix3 (0 : Fin 1) k (0 : Fin 1))
      = ((total V c k (t.val / 6) * (1 / 1536) : ℝ) : EReal) := by
  have e : (outsAt2 V c t.val t.isLt).1 (ix3 (0 : Fin 1) k (0 : Fin 1))
      = (outsAt2 V c t.val t.isLt).2 (ix2 k (0 : Fin 1)) * ((1 / 1536 : ℝ) : EReal) := by
    rw [outsAt2_C V c t h1]
    exact stepC_rel V c t h1 _ k
  rw [e, scratch_eq V c hT hM k t.val t.isLt, ← EReal.coe_mul]
  refine congrArg (fun z : ℝ => ((z * (1 / 1536) : ℝ) : EReal)) ?_
  rw [h1]
  have e2 : t.val - 5 = 6 * (t.val / 6) := by omega
  rw [e2]
  exact total_eq V c hI k (t.val / 6)

def G2 (c : Dev nD) : Vec Ideal S2x50x1 .f32 := fun y =>
  if h : (y 1).val < 50 then ((total V c ⟨(y 1).val, h⟩ (y 0).val * (1 / 1536) : ℝ) : EReal) else 0

theorem G2_at (c : Dev nD) (y : S2x50x1.Idx) (p : ℕ) (k : Fin 50) (h0 : (y 0).val = p) (h1 : (y 1).val = k.val) :
    G2 V c y = ((total V c k p * (1 / 1536) : ℝ) : EReal) := by
  unfold G2
  have hk : (y 1).val < 50 := by rw [h1]; exact k.isLt
  rw [dif_pos hk]
  have ek : (⟨(y 1).val, hk⟩ : Fin 50) = k := Fin.ext h1
  rw [ek, h0]

theorem flushed_eq (c : Dev nD) (hT : ∀ i, Cert.Spec.IsReal (tabArr V c i)) (hM : ∀ i, Cert.Spec.IsReal (mskArr V c i))
    (hI : ∀ i, (idxArr V c i).toNat < 512) (t : Fin cfg2.N) (hf : (cfg2.win 3).flush t = true) :
    (dat2 (F := Ideal) V c).flushed 3 t = ((cfg2.win 3).blk t).view.read (Elt Ideal) (G2 V c) := by
  have h23 : t.val % 6 = 5 := (flush2_3 t).mp hf
  have hi := index2_3 t
  refine funext fun (x : S1x50x1.Idx) => ?_
  show (cfg2.win 3).cut (grid2.coords t) ((dat2 (F := Ideal) V c).after 3 t) x = _
  rw [after2_3, View.read_apply]
  obtain ⟨a, b, d, rfl⟩ : ∃ (a : Fin 1) (b : Fin 50) (d : Fin 1), x = ix3 a b d := ⟨x 0, x 1, x 2, eq_ix3 x⟩
  obtain rfl : a = 0 := Subsingleton.elim _ _
  obtain rfl : d = 0 := Subsingleton.elim _ _
  show (outsAt2 V c t.val t.isLt).1 (ix3 (0 : Fin 1) b (0 : Fin 1)) = G2 V c (((cfg2.win 3).blk t).view.emb (ix3 (0 : Fin 1) b (0 : Fin 1)))
  rw [out_point V c hT hM hI t h23 b]
  refine (G2_at V c _ (t.val / 6) b ?_ ?_).symm
  · show win2_3.index t 0 * 1 + 1 * 0 = t.val / 6
    rw [hi.1]; omega
  · show win2_3.index t 1 * 50 + 1 * b.val = b.val
    rw [hi.2.1]; omega

def tLastA : Fin cfg2.N := ⟨5, by rw [show cfg2.N = 12 from N_2]; norm_num⟩
def tLastB : Fin cfg2.N := ⟨11, by rw [show cfg2.N = 12 from N_2]; norm_num⟩

set_option maxHeartbeats 4000000 in
theorem outArr_eq (c : Dev nD) (hT : ∀ i, Cert.Spec.IsReal (tabArr V c i)) (hM : ∀ i, Cert.Spec.IsReal (mskArr V c i))
    (hI : ∀ i, (idxArr V c i).toNat < 512) : outArr V c = G2 V c :=
  (dat2 (F := Ideal) V c).arrAt_eq_of_cover 3 (G2 V c) (flushed_eq V c hT hM hI) fun i => by
    have h0 : (i 0 : Nat) < 2 := (i 0).isLt
    have h1 : (i 1 : Nat) < 50 := (i 1).isLt
    have h2 : (i 2 : Nat) < 1 := (i 2).isLt
    rcases (show (i 0 : Nat) = 0 ∨ (i 0 : Nat) = 1 by omega) with hp | hp
    · refine ⟨tLastA, (flush2_3 tLastA).mpr rfl, ?_⟩
      show i ∈ ((View.whole main_v86).slice (win2_3.rect tLastA)).set
      rw [View.set_slice_whole, Rect.mem_set_unit]
      intro a
      match a with
      | ⟨0, _⟩ =>
        show win2_3.index tLastA 0 * win2_3.size 0 ≤ (i 0 : Nat) ∧ (i 0 : Nat) < win2_3.index tLastA 0 * win2_3.size 0 + win2_3.xsize (grid2.coords tLastA) 0
        rw [show win2_3.index tLastA 0 * win2_3.size 0 = 0 from by decide +kernel, show win2_3.xsize (grid2.coords tLastA) 0 = 1 from by decide +kernel]; omega
      | ⟨1, _⟩ =>
        show win2_3.index tLastA 1 * win2_3.size 1 ≤ (i 1 : Nat) ∧ (i 1 : Nat) < win2_3.index tLastA 1 * win2_3.size 1 + win2_3.xsize (grid2.coords tLastA) 1
        rw [show win2_3.index tLastA 1 * win2_3.size 1 = 0 from by decide +kernel, show win2_3.xsize (grid2.coords tLastA) 1 = 50 from by decide +kernel]; omega
      | ⟨2, _⟩ =>
        show win2_3.index tLastA 2 * win2_3.size 2 ≤ (i 2 : Nat) ∧ (i 2 : Nat) < win2_3.index tLastA 2 * win2_3.size 2 + win2_3.xsize (grid2.coords tLastA) 2
        rw [show win2_3.index tLastA 2 * win2_3.size 2 = 0 from by decide +kernel, show win2_3.xsize (grid2.coords tLastA) 2 = 1 from by decide +kernel]; omega
    · refine ⟨tLastB, (flush2_3 tLastB).mpr rfl, ?_⟩
      show i ∈ ((View.whole main_v86).slice (win2_3.rect tLastB)).set
      rw [View.set_slice_whole, Rect.mem_set_unit]
      intro a
      match a with
      | ⟨0, _⟩ =>
        show win2_3.index tLastB 0 * win2_3.size 0 ≤ (i 0 : Nat) ∧ (i 0 : Nat) < win2_3.index tLastB 0 * win2_3.size 0 + win2_3.xsize (grid2.coords tLastB) 0
        rw [show win2_3.index tLastB 0 * win2_3.size 0 = 1 from by decide +kernel, show win2_3.xsize (grid2.coords tLastB) 0 = 1 from by decide +kernel]; omega
      | ⟨1, _⟩ =>
        show win2_3.index tLastB 1 * win2_3.size 1 ≤ (i 1 : Nat) ∧ (i 1 : Nat) < win2_3.index tLastB 1 * win2_3.size 1 + win2_3.xsize (grid2.coords tLastB) 1
        rw [show win2_3.index tLastB 1 * win2_3.size 1 = 0 from by decide +kernel, show win2_3.xsize (grid2.coords tLastB) 1 = 50 from by decide +kernel]; omega
      | ⟨2, _⟩ =>
        show win2_3.index tLastB 2 * win2_3.size 2 ≤ (i 2 : Nat) ∧ (i 2 : Nat) < win2_3.index tLastB 2 * win2_3.size 2 + win2_3.xsize (grid2.coords tLastB) 2
        rw [show win2_3.index tLastB 2 * win2_3.size 2 = 0 from by decide +kernel, show win2_3.xsize (grid2.coords tLastB) 2 = 1 from by decide +kernel]; omega

theorem outArr_apply (c : Dev nD) (hT : ∀ i, Cert.Spec.IsReal (tabArr V c i)) (hM : ∀ i, Cert.Spec.IsReal (mskArr V c i))
    (hI : ∀ i, (idxArr V c i).toNat < 512) (p : Fin 2) (k : Fin 50) :
    outArr V c (ix3 p k (0 : Fin 1))
      = (((∑ n : Fin 768, (mskArr V c (ix2 ⟨768 * p.val + n.val, by omega⟩ (0 : Fin 1))).toReal
            * (tabArr V c (ix2 ⟨(idxArr V c (ix2 ⟨768 * p.val + n.val, by omega⟩ k)).toNat, hI _⟩ (0 : Fin 1))).toReal)
          * (1 / 1536) : ℝ) : EReal) := by
  rw [outArr_eq V c hT hM hI, G2_at V c (ix3 p k (0 : Fin 1)) p.val k rfl rfl]
  refine congrArg (fun z : ℝ => ((z * (1 / 1536) : ℝ) : EReal)) ?_
  unfold total
  rw [Finset.sum_range (fun r => μrow V c (768 * p.val + r) * Trow V c (arow V c k (768 * p.val + r)))]
  refine Finset.sum_congr rfl fun n _ => ?_
  have hr : 768 * p.val + n.val < 1536 := by omega
  have hx : (idxArr V c (ix2 ⟨768 * p.val + n.val, hr⟩ k)).toNat < 512 := hI _
  show μrow V c (768 * p.val + n.val) * Trow V c (arow V c k (768 * p.val + n.val)) = _
  rw [μrow, arow, dif_pos hr, dif_pos hr, Trow, dif_pos hx]

theorem outArr_apply' (c : Dev nD) (hT : ∀ i, Cert.Spec.IsReal (tabArr V c i))
    (hM : ∀ i, mskArr V c i = 0 ∨ mskArr V c i = 1)
    (hI : ∀ i, (idxArr V c i).toNat < 512) (p : Fin 2) (k : Fin 50) :
    outArr V c (ix3 p k (0 : Fin 1))
      = (((∑ n : Fin 768, (mskArr V c (ix2 ⟨768 * p.val + n.val, by omega⟩ (0 : Fin 1))).toReal
            * (tabArr V c (ix2 ⟨(idxArr V c (ix2 ⟨768 * p.val + n.val, by omega⟩ k)).toNat, hI _⟩ (0 : Fin 1))).toReal)
          * (1 / 1536) : ℝ) : EReal) :=
  outArr_apply V c hT (fun i => by
    rcases hM i with h | h <;> rw [h]
    · exact ⟨EReal.coe_ne_top 0, EReal.coe_ne_bot 0⟩
    · exact ⟨EReal.coe_ne_top 1, EReal.coe_ne_bot 1⟩) hI p k

end Cert.KernelIdeal.Val2

end
-- ==== Proof.Val.GatherPay3.lean ====
import proofs.«406789_j53094385713523_3_alg».proof.Proof.Gen.KernelIdeal.Skeleton
import proofs.«406789_j53094385713523_3_alg».proof.Proof.Val.GatherMath
import Idealize.ShloMosaic.Lib.Pipeline.Value
import Idealize.ShloMosaic.Lib.ValueIdx
import Idealize.ShloMosaic.PureOps.Ideal.Laws
import Idealize.ShloMosaic.PureOps.IdealRules

noncomputable section

namespace Cert.KernelIdeal.Val3

open Idealize.ShloMosaic Idealize.ShloMosaic.ValueIdx
open Cert.KernelIdeal Cert.KernelIdeal.Gen Cert.GatherMath

theorem cmpi_apply {s : Shape} {w : ℕ} (p : CmpIPredicate) (x y : IVec s w) (i : s.Idx) :
    cmpi p x y i = IntOp.cmpi p (x i) (y i) := rfl

theorem addi_apply {s : Shape} {w : ℕ} (x y : IVec s w) (i : s.Idx) : addi x y i = IntOp.addi (x i) (y i) := rfl

theorem idxCast_apply (x : IVec S256x50 32) (h : S256x50.ShapeCasts S256x50x1) (n : Fin 256) (k : Fin 50) :
    shapeCast S256x50x1 x h (ix3 n k (0 : Fin 1)) = x (ix2 n k) :=
  shapeCast_apply x h (ix3 n k (0 : Fin 1)) (ix2 n k) (by
    rw [Shape.rowMajor_val_two, Shape.rowMajor_val_three]
    show n.val * 50 + k.val = (n.val * 50 + k.val) * 1 + 0
    omega)

theorem mskCast_apply (x : FVec Ideal S256x1 .bf16) (h : S256x1.ShapeCasts S256x1x1) (n : Fin 256) :
    shapeCast S256x1x1 x h (ix3 n (0 : Fin 1) (0 : Fin 1)) = x (ix2 n (0 : Fin 1)) :=
  shapeCast_apply x h (ix3 n (0 : Fin 1) (0 : Fin 1)) (ix2 n (0 : Fin 1)) (by
    rw [Shape.rowMajor_val_two, Shape.rowMajor_val_three]
    show n.val * 1 + 0 = (n.val * 1 + 0) * 1 + 0
    omega)

theorem outCast_apply (x : FVec Ideal S50x1 .f32) (h : S50x1.ShapeCasts S1x50x1) (k : Fin 50) :
    shapeCast S1x50x1 x h (ix3 (0 : Fin 1) k (0 : Fin 1)) = x (ix2 k (0 : Fin 1)) :=
  shapeCast_apply x h (ix3 (0 : Fin 1) k (0 : Fin 1)) (ix2 k (0 : Fin 1)) (by
    rw [Shape.rowMajor_val_two, Shape.rowMajor_val_three]
    show k.val * 1 + 0 = (0 * 50 + k.val) * 1 + 0
    omega)

theorem bIdx_apply (x : IVec S256x50x1 32) (h : S256x50x1.Broadcasts S256x50x256) (n : Fin 256) (k : Fin 50) (v : Fin 256) :
    broadcastTo S256x50x256 x h (ix3 n k v) = x (ix3 n k (0 : Fin 1)) :=
  broadcastTo_apply x h (ix3 n k v) (ix3 n k (0 : Fin 1)) (by
    intro a
    match a with
    | ⟨0, _⟩ => rfl
    | ⟨1, _⟩ => rfl
    | ⟨2, _⟩ => rfl)

theorem bLane_apply (x : IVec S1x1x256 32) (h : S1x1x256.Broadcasts S256x50x256) (n : Fin 256) (k : Fin 50) (v : Fin 256) :
    broadcastTo S256x50x256 x h (ix3 n k v) = x (ix3 (0 : Fin 1) (0 : Fin 1) v) :=
  broadcastTo_apply x h (ix3 n k v) (ix3 (0 : Fin 1) (0 : Fin 1) v) (by
    intro a
    match a with
    | ⟨0, _⟩ => rfl
    | ⟨1, _⟩ => rfl
    | ⟨2, _⟩ => rfl)

theorem bMsk_apply (x : FVec Ideal S256x1x1 .bf16) (h : S256x1x1.Broadcasts S256x50x256) (n : Fin 256) (k : Fin 50) (v : Fin 256) :
    broadcastTo S256x50x256 x h (ix3 n k v) = x (ix3 n (0 : Fin 1) (0 : Fin 1)) :=
  broadcastTo_apply x h (ix3 n k v) (ix3 n (0 : Fin 1) (0 : Fin 1)) (by
    intro a
    match a with
    | ⟨0, _⟩ => rfl
    | ⟨1, _⟩ => rfl
    | ⟨2, _⟩ => rfl)

theorem lane_apply (h : S1x1x256.Iotas .tc 32 [2]) (v : Fin 256) :
    iota .tc S1x1x256 32 [2] h (ix3 (0 : Fin 1) (0 : Fin 1) v) = BitVec.ofNat 32 v.val :=
  iota_single_apply .tc S1x1x256 32 2 h (ix3 (0 : Fin 1) (0 : Fin 1) v)

theorem redRows_apply (src : FVec Ideal S256x50x256 .f32) (h : S256x50x256.Reduces [0] S50x256)
    (hφ : FKind.Formats .f32) (hacc : (0x00000000#32 : BitVec 32) = 0x00000000#32)
    (k : Fin 50) (v : Fin 256) :
    multiReduction .add [0] S50x256 src 0x00000000#32 h hφ hacc (ix2 k v) = ∑ n : Fin 256, src (ix3 n k v) := by
  refine (Ideal.multiReduction_add_single src 0x00000000#32 h hφ hacc (ix2 k v)).trans ?_
  show ∑ n : Fin 256, src (h.lift (ix2 k v) n) = ∑ n : Fin 256, src (ix3 n k v)
  refine Finset.sum_congr rfl fun n _ => congrArg src ?_
  funext a
  apply Fin.ext
  match a with
  | ⟨0, _⟩ => rfl
  | ⟨1, _⟩ => rfl
  | ⟨2, _⟩ => rfl

theorem mm_apply (l : FVec Ideal S50x256 .bf16) (r : FVec Ideal S256x1 .bf16) (k : Fin 50) :
    matmul dot_S50x256_S256x1_S50x1_1_0_0_1_n_n none l r (constant S50x1 .f32 0x00000000#32) (ix2 k (0 : Fin 1))
      = ∑ v : Fin 256, l (ix2 k v) * r (ix2 v (0 : Fin 1)) := by
  refine (Ideal.matmul_constant_zero_apply dot_S50x256_S256x1_S50x1_1_0_0_1_n_n none l r (ix2 k (0 : Fin 1))).trans ?_
  refine (Equiv.sum_comp (contrEquiv1 dot_S50x256_S256x1_S50x1_1_0_0_1_n_n 256 rfl rfl).symm _).symm.trans ?_
  refine Finset.sum_congr rfl fun v _ => ?_
  have hl : dot_S50x256_S256x1_S50x1_1_0_0_1_n_n.lhsIdx (ix2 k (0 : Fin 1))
      ((contrEquiv1 dot_S50x256_S256x1_S50x1_1_0_0_1_n_n 256 rfl rfl).symm v) = ix2 k v := by
    funext a
    apply Fin.ext
    match a with
    | ⟨0, _⟩ => rfl
    | ⟨1, _⟩ => rfl
  have hr : dot_S50x256_S256x1_S50x1_1_0_0_1_n_n.rhsIdx (ix2 k (0 : Fin 1))
      ((contrEquiv1 dot_S50x256_S256x1_S50x1_1_0_0_1_n_n 256 rfl rfl).symm v) = ix2 v (0 : Fin 1) := by
    funext a
    apply Fin.ext
    match a with
    | ⟨0, _⟩ => rfl
    | ⟨1, _⟩ => rfl
  beta_reduce
  rw [hl, hr]

theorem pay2_apply (k : Fin 50) : k3_pay2 (F := Ideal) (ix2 k (0 : Fin 1)) = 0 := by
  unfold k3_pay2
  simp only [shapeCast_self, broadcast_apply]
  exact Ideal.ofBits_zero_f32

theorem inv1536 : Named.named (F := Ideal) κ "inv_1536" (φ := .f32) 0x3A2AAAAB#32 = ((1 / 1536 : ℝ) : EReal) :=
  IdealRules.named_const.ideal_named_scalar _ _ _ _ rfl

theorem pay1_apply (v41 : Vec Ideal S50x1 .f32) (k : Fin 50) :
    k3_pay1 (F := Ideal) v41 (ix3 (0 : Fin 1) k (0 : Fin 1)) = v41 (ix2 k (0 : Fin 1)) * ((1 / 1536 : ℝ) : EReal) := by
  unfold k3_pay1
  simp only [outCast_apply, mulf_apply, broadcast_apply]
  rw [inv1536]

theorem pay3_apply (i : grid3.Coords) (v5 : Vec Ideal S256x50 .i32) (v7 : Vec Ideal S256x1 .f32)
    (v9 : Vec Ideal S256x1 .f32) (v31 : Vec Ideal S50x1 .f32) (k : Fin 50) :
    k3_pay3 (F := Ideal) i v5 v7 v9 v31 (ix2 k (0 : Fin 1))
      = v31 (ix2 k (0 : Fin 1))
        + partialE (fun n : Fin 256 => v5 (ix2 n k)) (fun n : Fin 256 => v7 (ix2 n (0 : Fin 1)))
            (fun v : Fin 256 => v9 (ix2 v (0 : Fin 1))) (i 2).val := by
  unfold k3_pay3
  simp only [shapeCast_self, addf_apply, mm_apply, truncf_apply]
  show _ = v31 (ix2 k (0 : Fin 1))
    + ∑ v : Fin 256, (∑ n : Fin 256, hotW (v5 (ix2 n k)) (i 2).val v.val * v7 (ix2 n (0 : Fin 1))) * v9 (ix2 v (0 : Fin 1))
  refine congrArg (fun z => v31 (ix2 k (0 : Fin 1)) + z) (Finset.sum_congr rfl fun v _ => ?_)
  refine congrArg (fun z => z * v9 (ix2 v (0 : Fin 1))) ?_
  refine (redRows_apply _ _ _ _ k v).trans (Finset.sum_congr rfl fun n _ => ?_)
  simp only [extf_apply, mulf_apply, truncf_apply, sitofp_apply, extui_apply, cmpi_apply, bIdx_apply, idxCast_apply,
    bLane_apply, addi_apply, lane_apply, broadcast_apply, bMsk_apply, mskCast_apply, shapeCast_self]
  refine congrArg (fun z => z * v7 (ix2 n (0 : Fin 1))) ?_
  have hl : iota .tc S1x1x256 32 [2] Facts₀.iota_S1x1x256_d2_w32 (ix3 (0 : Fin 1) (0 : Fin 1) v) = BitVec.ofNat 32 v.val :=
    iota_single_apply .tc S1x1x256 32 2 Facts₀.iota_S1x1x256_d2_w32 (ix3 (0 : Fin 1) (0 : Fin 1) v)
  exact congrArg (fun w : BitVec 32 => FloatOps.sitofp (F := Ideal) FTy.f32
    (BitVec.setWidth 32 (IntOp.cmpi CmpIPredicate.eq (v5 (ix2 n k)) (IntOp.addi w (Scalar.muli (BitVec.ofNat 32 (i 2).val) 256#32))))) hl

end Cert.KernelIdeal.Val3

end
-- ==== Proof.Val.Gather3.lean ====
import proofs.«406789_j53094385713523_3_alg».proof.Proof.KI.R3
import proofs.«406789_j53094385713523_3_alg».proof.Proof.Val.GatherPay3
import proofs.«406789_j53094385713523_3_alg».proof.Proof.Spec
import Idealize.ShloMosaic.Lib.Pipeline.Value
import Idealize.ShloMosaic.Lib.Tactic

set_option maxRecDepth 16384

noncomputable section

namespace Cert.KernelIdeal.Val3

open Idealize.ShloMosaic Idealize.ShloMosaic.TcCoe Idealize.ShloMosaic.Tactic Idealize.ShloMosaic.ValueIdx
open Idealize.SL Idealize.SL.Sem
open Idealize.ShloMosaic.Pipeline (Dat)
open Cert.KernelIdeal Cert.KernelIdeal.Gen Cert.KernelIdeal.R3 Cert.GatherMath

section Pieces

variable {F : FTy → Type} [FloatOps F] [Named F]

theorem hz2 : (![0, 0] : Fin 2 → Nat) = fun _ => 0 := funext fun a => by fin_cases a <;> rfl
theorem hz3 : (![0, 0, 0] : Fin 3 → Nat) = fun _ => 0 := funext fun a => by fin_cases a <;> rfl

theorem sout_B (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : ¬cond3_1 i) (x0 : Vec F S256x50 .i32) (x1 : Vec F S256x1 .f32) (x2 : Vec F S256x1 .f32)
    (xs0 : Vec F S50x1 .f32) :
    sout3_B_0 c i arg3 harg3 arg4 harg4 arg5 harg5 arg6 harg6 arg7 harg7 hc0 hc1 x0 x1 x2 xs0 = k3_pay3 i x0 x2 x1 xs0 := by
  unfold sout3_B_0
  rw [View.read_writes_eq_canon _ _ _ (scover3_B_0 c i arg3 harg3 arg4 harg4 arg5 harg5 arg6 harg6 arg7 harg7 hc0 hc1 x0 x1 x2 xs0)]
  unfold kernelRun3_B
  dsimp only
  sl_unfold_words
  rw [View.canon_unit_zero hz2]
  simp only [View.readAt_eq_ld, harg3.read_unread, harg4.read_unread, harg5.read_unread, harg7.read_unread,
    View.ld_unit_zero (S := S256x50) hz2, View.ld_unit_zero (S := S256x1) hz2, View.ld_unit_zero (S := S256x1) hz2,
    View.ld_unit_zero (S := S50x1) hz2]

theorem sout_A (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : cond3_0 i) (hc1 : ¬cond3_1 i) (x0 : Vec F S256x50 .i32) (x1 : Vec F S256x1 .f32) (x2 : Vec F S256x1 .f32) :
    sout3_A_0 c i arg3 harg3 arg4 harg4 arg5 harg5 arg6 harg6 arg7 harg7 hc0 hc1 x0 x1 x2 = k3_pay3 i x0 x2 x1 k3_pay2 := by
  unfold sout3_A_0
  rw [View.read_writes_eq_canon _ _ _ (scover3_A_0 c i arg3 harg3 arg4 harg4 arg5 harg5 arg6 harg6 arg7 harg7 hc0 hc1 x0 x1 x2)]
  unfold kernelRun3_A
  dsimp only
  sl_unfold_words
  rw [View.canon_cons_unit_zero (S := S50x1) hz2]
  simp only [View.readAt_eq_ld, harg3.read_unread, harg4.read_unread, harg5.read_unread,
    View.ld_unit_zero (S := S256x50) hz2, View.ld_unit_zero (S := S256x1) hz2, View.ld_unit_zero (S := S256x1) hz2,
    View.readCov_unit_zero (S := S50x1) _ hz2]

theorem sout_C (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : cond3_1 i) (x0 : Vec F S256x50 .i32) (x1 : Vec F S256x1 .f32) (x2 : Vec F S256x1 .f32)
    (xs0 : Vec F S50x1 .f32) :
    sout3_C_0 c i arg3 harg3 arg4 harg4 arg5 harg5 arg6 harg6 arg7 harg7 hc0 hc1 x0 x1 x2 xs0 = k3_pay3 i x0 x2 x1 xs0 := by
  unfold sout3_C_0
  rw [View.read_writes_eq_canon _ _ _ (scover3_C_0 c i arg3 harg3 arg4 harg4 arg5 harg5 arg6 harg6 arg7 harg7 hc0 hc1 x0 x1 x2 xs0)]
  unfold kernelRun3_C
  dsimp only
  sl_unfold_words
  rw [View.canon_unit_zero hz2]
  simp only [View.readAt_eq_ld, harg3.read_unread, harg4.read_unread, harg5.read_unread, harg7.read_unread,
    View.ld_unit_zero (S := S256x50) hz2, View.ld_unit_zero (S := S256x1) hz2, View.ld_unit_zero (S := S256x1) hz2,
    View.ld_unit_zero (S := S50x1) hz2]

theorem out_C (c : Dev nD) (i : grid3.Coords)
    (arg3 : Memref sig .tc .vmem S256x50 .i32) (harg3 : arg3.IsWhole)
    (arg4 : Memref sig .tc .vmem S256x1 .f32) (harg4 : arg4.IsWhole)
    (arg5 : Memref sig .tc .vmem S256x1 .f32) (harg5 : arg5.IsWhole)
    (arg6 : Memref sig .tc .vmem S1x50x1 .f32) (harg6 : arg6.IsWhole)
    (arg7 : Memref sig .tc .vmem S50x1 .f32) (harg7 : arg7.IsWhole)
    (hc0 : ¬cond3_0 i) (hc1 : cond3_1 i) (x0 : Vec F S256x50 .i32) (x1 : Vec F S256x1 .f32) (x2 : Vec F S256x1 .f32)
    (xs0 : Vec F S50x1 .f32) :
    out3_C_3 c i arg3 harg3 arg4 harg4 arg5 harg5 arg6 harg6 arg7 harg7 hc0 hc1 x0 x1 x2 xs0
      = k3_pay1 (k3_pay3 i x0 x2 x1 xs0) := by
  unfold out3_C_3
  rw [View.read_writes_eq_canon _ _ _ (cover3_C_3 c i arg3 harg3 arg4 harg4 arg5 harg5 arg6 harg6 arg7 harg7 hc0 hc1 x0 x1 x2 xs0)]
  unfold kernelRun3_C
  dsimp only
  sl_unfold_words
  rw [View.canon_unit_zero hz3]
  simp only [View.readAt_eq_ld, harg3.read_unread, harg4.read_unread, harg5.read_unread, harg7.read_unread,
    View.ld_unit_zero (S := S256x50) hz2, View.ld_unit_zero (S := S256x1) hz2, View.ld_unit_zero (S := S256x1) hz2,
    View.ld_unit_zero (S := S50x1) hz2, View.readCov_unit_zero (S := S50x1) _ hz2]

end Pieces

variable (V : (c : Dev nD) → (b : Ref sig .tc) → Buf (Elt Ideal) ((c : Thread nD τ).loc b))

abbrev idxArr (c : Dev nD) : Vec Ideal S1536x50 .i32 := V c main_v89
abbrev tabArr (c : Dev nD) : Vec Ideal S1536x1 .f32 := V c main_v91
abbrev mskArr (c : Dev nD) : Vec Ideal S1536x1 .f32 := V c main_v95
abbrev outArr (c : Dev nD) : Vec Ideal S2x50x1 .f32 := (dat3 (F := Ideal) V c).arrAt 3 cfg3.N

abbrev blkI (c : Dev nD) (t : Fin cfg3.N) : Vec Ideal S256x50 .i32 := iblk3 V c 0 t
abbrev blkT (c : Dev nD) (t : Fin cfg3.N) : Vec Ideal S256x1 .f32 := iblk3 V c 1 t
abbrev blkM (c : Dev nD) (t : Fin cfg3.N) : Vec Ideal S256x1 .f32 := iblk3 V c 2 t

theorem index3_0 : ∀ t : Fin cfg3.N, win3_0.index t 0 = t.val / 6 ∧ win3_0.index t 1 = 0 :=
  (by decide +kernel : ∀ t : Fin grid3.N, win3_0.index t 0 = t.val / 6 ∧ win3_0.index t 1 = 0)
theorem index3_1 : ∀ t : Fin cfg3.N, win3_1.index t 0 = t.val % 6 ∧ win3_1.index t 1 = 0 :=
  (by decide +kernel : ∀ t : Fin grid3.N, win3_1.index t 0 = t.val % 6 ∧ win3_1.index t 1 = 0)
theorem index3_2 : ∀ t : Fin cfg3.N, win3_2.index t 0 = t.val / 6 ∧ win3_2.index t 1 = 0 :=
  (by decide +kernel : ∀ t : Fin grid3.N, win3_2.index t 0 = t.val / 6 ∧ win3_2.index t 1 = 0)
theorem index3_3 : ∀ t : Fin cfg3.N, win3_3.index t 0 = t.val / 18 ∧ win3_3.index t 1 = 0 ∧ win3_3.index t 2 = 0 :=
  (by decide +kernel : ∀ t : Fin grid3.N, win3_3.index t 0 = t.val / 18 ∧ win3_3.index t 1 = 0 ∧ win3_3.index t 2 = 0)
theorem coord3_2 : ∀ t : Fin cfg3.N, (grid3.coords t 2).val = t.val % 6 :=
  (by decide +kernel : ∀ t : Fin grid3.N, (grid3.coords t 2).val = t.val % 6)

theorem blkI_apply (c : Dev nD) (t : Fin cfg3.N) (n : Fin 256) (k : Fin 50) :
    blkI V c t (ix2 n k) = idxArr V c (ix2 ⟨256 * (t.val / 6) + n.val, by have := lt_N3 t; omega⟩ k) := by
  have hi := index3_0 t
  unfold blkI iblk3
  rw [View.read_apply]
  show V c main_v89 _ = V c main_v89 _
  congr 1
  funext a
  apply Fin.ext
  match a with
  | ⟨0, _⟩ => show win3_0.index t 0 * 256 + 1 * n.val = 256 * (t.val / 6) + n.val; rw [hi.1]; omega
  | ⟨1, _⟩ => show win3_0.index t 1 * 50 + 1 * k.val = k.val; rw [hi.2]; omega

theorem blkM_apply (c : Dev nD) (t : Fin cfg3.N) (n : Fin 256) :
    blkM V c t (ix2 n (0 : Fin 1)) = mskArr V c (ix2 ⟨256 * (t.val / 6) + n.val, by have := lt_N3 t; omega⟩ (0 : Fin 1)) := by
  have hi := index3_2 t
  unfold blkM iblk3
  rw [View.read_apply]
  show V c main_v95 _ = V c main_v95 _
  congr 1
  funext a
  apply Fin.ext
  match a with
  | ⟨0, _⟩ => show win3_2.index t 0 * 256 + 1 * n.val = 256 * (t.val / 6) + n.val; rw [hi.1]; omega
  | ⟨1, _⟩ => show win3_2.index t 1 * 1 + 1 * 0 = 0; rw [hi.2]

theorem blkT_apply (c : Dev nD) (t : Fin cfg3.N) (v : Fin 256) :
    blkT V c t (ix2 v (0 : Fin 1)) = tabArr V c (ix2 ⟨256 * (t.val % 6) + v.val, by omega⟩ (0 : Fin 1)) := by
  have hi := index3_1 t
  unfold blkT iblk3
  rw [View.read_apply]
  show V c main_v91 _ = V c main_v91 _
  congr 1
  funext a
  apply Fin.ext
  match a with
  | ⟨0, _⟩ => show win3_1.index t 0 * 256 + 1 * v.val = 256 * (t.val % 6) + v.val; rw [hi.1]; omega
  | ⟨1, _⟩ => show win3_1.index t 1 * 1 + 1 * 0 = 0; rw [hi.2]

def μrow (c : Dev nD) (r : ℕ) : ℝ := if h : r < 1536 then (mskArr V c (ix2 ⟨r, h⟩ (0 : Fin 1))).toReal else 0
def arow (c : Dev nD) (k : Fin 50) (r : ℕ) : ℕ := if h : r < 1536 then (idxArr V c (ix2 ⟨r, h⟩ k)).toNat else 0
def Trow (c : Dev nD) (x : ℕ) : ℝ := if h : x < 1536 then (tabArr V c (ix2 ⟨x, h⟩ (0 : Fin 1))).toReal else 0

def Pt (c : Dev nD) (k : Fin 50) (s : ℕ) : ℝ :=
  ∑ r ∈ Finset.range 256, μrow V c (256 * (s / 6) + r)
    * (if arow V c k (256 * (s / 6) + r) / 256 = s % 6 then Trow V c (arow V c k (256 * (s / 6) + r)) else 0)

theorem pay3_point (c : Dev nD) (hT : ∀ i, Cert.Spec.IsReal (tabArr V c i)) (hM : ∀ i, Cert.Spec.IsReal (mskArr V c i))
    (t : Fin cfg3.N) (xs : Vec Ideal S50x1 .f32) (k : Fin 50) :
    k3_pay3 (F := Ideal) (grid3.coords t) (blkI V c t) (blkM V c t) (blkT V c t) xs (ix2 k (0 : Fin 1))
      = xs (ix2 k (0 : Fin 1)) + ((Pt V c k t.val : ℝ) : EReal) := by
  have ht := lt_N3 t
  rw [pay3_apply]
  congr 1
  rw [partialE_eq (fun n : Fin 256 => blkI V c t (ix2 n k)) (fun n : Fin 256 => blkM V c t (ix2 n (0 : Fin 1)))
    (fun v : Fin 256 => blkT V c t (ix2 v (0 : Fin 1))) (grid3.coords t 2).val (by rw [coord3_2 t]; omega)
    (fun n : Fin 256 => μrow V c (256 * (t.val / 6) + n.val)) (Trow V c)
    (fun n => by
      show blkM V c t (ix2 n (0 : Fin 1)) = ((μrow V c (256 * (t.val / 6) + n.val) : ℝ) : EReal)
      rw [blkM_apply, μrow, dif_pos (by have := n.isLt; omega)]
      exact ((hM _).coe_toReal).symm)
    (fun v => by
      show blkT V c t (ix2 v (0 : Fin 1)) = ((Trow V c (256 * (grid3.coords t 2).val + v.val) : ℝ) : EReal)
      rw [blkT_apply, Trow, coord3_2 t, dif_pos (by have := v.isLt; omega)]
      exact ((hT _).coe_toReal).symm)]
  congr 1
  unfold Pt
  rw [Finset.sum_range (fun r => μrow V c (256 * (t.val / 6) + r)
    * (if arow V c k (256 * (t.val / 6) + r) / 256 = t.val % 6 then Trow V c (arow V c k (256 * (t.val / 6) + r)) else 0))]
  refine Finset.sum_congr rfl fun n _ => ?_
  have ha : (blkI V c t (ix2 n k)).toNat = arow V c k (256 * (t.val / 6) + n.val) := by
    rw [blkI_apply, arow, dif_pos (by have := n.isLt; omega)]
  show μrow V c (256 * (t.val / 6) + n.val) * (if (blkI V c t (ix2 n k)).toNat / 256 = (grid3.coords t 2).val then Trow V c (blkI V c t (ix2 n k)).toNat else 0) = _
  rw [ha, coord3_2 t]

theorem step_A (c : Dev nD) (hT : ∀ i, Cert.Spec.IsReal (tabArr V c i)) (hM : ∀ i, Cert.Spec.IsReal (mskArr V c i))
    (t : Fin cfg3.N) (h0 : t.val % 18 = 0) (k : Fin 50) :
    (stepA3 V c t h0).2 (ix2 k (0 : Fin 1)) = ((Pt V c k t.val : ℝ) : EReal) := by
  unfold stepA3
  dsimp only
  refine (congrFun (sout_A (F := Ideal) c (grid3.coords t) (ms3_0 t) (hs3_0 t) (ms3_1 t) (hs3_1 t) (ms3_2 t) (hs3_2 t)
    (ms3_3 t) (hs3_3 t) scM3_0 (Memref.isWhole_whole _) _ _ (blkI V c t) (blkT V c t) (blkM V c t)) (ix2 k (0 : Fin 1))).trans ?_
  rw [pay3_point V c hT hM t _ k, pay2_apply, zero_add]

theorem step_B (c : Dev nD) (hT : ∀ i, Cert.Spec.IsReal (tabArr V c i)) (hM : ∀ i, Cert.Spec.IsReal (mskArr V c i))
    (t : Fin cfg3.N) (h0 : ¬t.val % 18 = 0) (h1 : ¬t.val % 18 = 17) (prev : Vec Ideal S50x1 .f32) (k : Fin 50) :
    (stepB3 V c t h0 h1 prev).2 (ix2 k (0 : Fin 1)) = prev (ix2 k (0 : Fin 1)) + ((Pt V c k t.val : ℝ) : EReal) := by
  unfold stepB3
  dsimp only
  refine (congrFun (sout_B (F := Ideal) c (grid3.coords t) (ms3_0 t) (hs3_0 t) (ms3_1 t) (hs3_1 t) (ms3_2 t) (hs3_2 t)
    (ms3_3 t) (hs3_3 t) scM3_0 (Memref.isWhole_whole _) _ _ (blkI V c t) (blkT V c t) (blkM V c t) prev) (ix2 k (0 : Fin 1))).trans ?_
  exact pay3_point V c hT hM t prev k

theorem step_C (c : Dev nD) (hT : ∀ i, Cert.Spec.IsReal (tabArr V c i)) (hM : ∀ i, Cert.Spec.IsReal (mskArr V c i))
    (t : Fin cfg3.N) (h1 : t.val % 18 = 17) (prev : Vec Ideal S50x1 .f32) (k : Fin 50) :
    (stepC3 V c t h1 prev).2 (ix2 k (0 : Fin 1)) = prev (ix2 k (0 : Fin 1)) + ((Pt V c k t.val : ℝ) : EReal) := by
  unfold stepC3
  dsimp only
  refine (congrFun (sout_C (F := Ideal) c (grid3.coords t) (ms3_0 t) (hs3_0 t) (ms3_1 t) (hs3_1 t) (ms3_2 t) (hs3_2 t)
    (ms3_3 t) (hs3_3 t) scM3_0 (Memref.isWhole_whole _) _ _ (blkI V c t) (blkT V c t) (blkM V c t) prev) (ix2 k (0 : Fin 1))).trans ?_
  exact pay3_point V c hT hM t prev k

theorem stepC_rel (c : Dev nD) (t : Fin cfg3.N) (h1 : t.val % 18 = 17) (prev : Vec Ideal S50x1 .f32) (k : Fin 50) :
    (stepC3 V c t h1 prev).1 (ix3 (0 : Fin 1) k (0 : Fin 1))
      = (stepC3 V c t h1 prev).2 (ix2 k (0 : Fin 1)) * ((1 / 1536 : ℝ) : EReal) := by
  unfold stepC3
  dsimp only
  rw [out_C (F := Ideal), sout_C (F := Ideal), pay1_apply]

theorem acc_step (f : ℕ → ℝ) (n : ℕ) (h : (n + 1) % 18 ≠ 0) :
    (∑ s ∈ Finset.range (n % 18 + 1), f (n - n % 18 + s)) + f (n + 1)
      = ∑ s ∈ Finset.range ((n + 1) % 18 + 1), f (n + 1 - (n + 1) % 18 + s) := by
  have e : (n + 1) % 18 = n % 18 + 1 := by omega
  have e2 : n + 1 - (n % 18 + 1) = n - n % 18 := by omega
  have e3 : n - n % 18 + (n % 18 + 1) = n + 1 := by omega
  rw [e, e2, Finset.sum_range_succ (fun s => f (n - n % 18 + s)) (n % 18 + 1), e3]

theorem acc_reset (f : ℕ → ℝ) (n : ℕ) (h : n % 18 = 0) :
    f n = ∑ s ∈ Finset.range (n % 18 + 1), f (n - n % 18 + s) := by
  rw [h]; simp

theorem scratch_eq (c : Dev nD) (hT : ∀ i, Cert.Spec.IsReal (tabArr V c i)) (hM : ∀ i, Cert.Spec.IsReal (mskArr V c i))
    (k : Fin 50) : ∀ (n : ℕ) (hn : n < cfg3.N),
    (outsAt3 V c n hn).2 (ix2 k (0 : Fin 1))
      = ((∑ s ∈ Finset.range (n % 18 + 1), Pt V c k (n - n % 18 + s) : ℝ) : EReal) := by
  intro n
  induction n with
  | zero =>
    intro hn
    rw [outsAt3_A V c ⟨0, hn⟩ (Nat.zero_mod _)]
    refine (step_A V c hT hM ⟨0, hn⟩ (Nat.zero_mod _) k).trans ?_
    show ((Pt V c k 0 : ℝ) : EReal) = _
    rw [acc_reset (Pt V c k) 0 (Nat.zero_mod _)]
  | succ n ih =>
    intro hn
    have ihn := ih (Nat.lt_of_succ_lt hn)
    by_cases h1 : (n + 1) % 18 = 17
    · rw [outsAt3_C V c ⟨n + 1, hn⟩ h1]
      refine (step_C V c hT hM ⟨n + 1, hn⟩ h1 _ k).trans ?_
      show (outsAt3 V c n (Nat.lt_of_succ_lt hn)).2 (ix2 k (0 : Fin 1)) + ((Pt V c k (n + 1) : ℝ) : EReal) = _
      rw [ihn, ← EReal.coe_add, acc_step (Pt V c k) n (by omega)]
    · by_cases h0 : (n + 1) % 18 = 0
      · rw [outsAt3_A V c ⟨n + 1, hn⟩ h0]
        refine (step_A V c hT hM ⟨n + 1, hn⟩ h0 k).trans ?_
        show ((Pt V c k (n + 1) : ℝ) : EReal) = _
        rw [acc_reset (Pt V c k) (n + 1) h0]
      · rw [outsAt3_B V c ⟨n + 1, hn⟩ h0 h1]
        refine (step_B V c hT hM ⟨n + 1, hn⟩ h0 h1 _ k).trans ?_
        show (outsAt3 V c n (Nat.lt_of_succ_lt hn)).2 (ix2 k (0 : Fin 1)) + ((Pt V c k (n + 1) : ℝ) : EReal) = _
        rw [ihn, ← EReal.coe_add, acc_step (Pt V c k) n h0]

def total (c : Dev nD) (k : Fin 50) (p : ℕ) : ℝ :=
  ∑ r ∈ Finset.range 768, μrow V c (768 * p + r) * Trow V c (arow V c k (768 * p + r))

theorem arow_lt (c : Dev nD) (hI : ∀ i, (idxArr V c i).toNat < 1536) (k : Fin 50) (r : ℕ) : arow V c k r < 1536 := by
  unfold arow
  split
  · exact hI _
  · norm_num

theorem total_eq (c : Dev nD) (hI : ∀ i, (idxArr V c i).toNat < 1536) (k : Fin 50) (p : ℕ) :
    ∑ s ∈ Finset.range 18, Pt V c k (18 * p + s) = total V c k p := by
  have h := grid_total 3 6 256 (by norm_num) (μrow V c) (arow V c k) (Trow V c) p
    (fun r => by have := arow_lt V c hI k r; omega)
  simp only [Nat.reduceMul] at h
  exact h

theorem out_point (c : Dev nD) (hT : ∀ i, Cert.Spec.IsReal (tabArr V c i)) (hM : ∀ i, Cert.Spec.IsReal (mskArr V c i))
    (hI : ∀ i, (idxArr V c i).toNat < 1536) (t : Fin cfg3.N) (h1 : t.val % 18 = 17) (k : Fin 50) :
    (outsAt3 V c t.val t.isLt).1 (ix3 (0 : Fin 1) k (0 : Fin 1))
      = ((total V c k (t.val / 18) * (1 / 1536) : ℝ) : EReal) := by
  have e : (outsAt3 V c t.val t.isLt).1 (ix3 (0 : Fin 1) k (0 : Fin 1))
      = (outsAt3 V c t.val t.isLt).2 (ix2 k (0 : Fin 1)) * ((1 / 1536 : ℝ) : EReal) := by
    rw [outsAt3_C V c t h1]
    exact stepC_rel V c t h1 _ k
  rw [e, scratch_eq V c hT hM k t.val t.isLt, ← EReal.coe_mul]
  refine congrArg (fun z : ℝ => ((z * (1 / 1536) : ℝ) : EReal)) ?_
  rw [h1]
  have e2 : t.val - 17 = 18 * (t.val / 18) := by omega
  rw [e2]
  exact total_eq V c hI k (t.val / 18)

def G3 (c : Dev nD) : Vec Ideal S2x50x1 .f32 := fun y =>
  if h : (y 1).val < 50 then ((total V c ⟨(y 1).val, h⟩ (y 0).val * (1 / 1536) : ℝ) : EReal) else 0

theorem G3_at (c : Dev nD) (y : S2x50x1.Idx) (p : ℕ) (k : Fin 50) (h0 : (y 0).val = p) (h1 : (y 1).val = k.val) :
    G3 V c y = ((total V c k p * (1 / 1536) : ℝ) : EReal) := by
  unfold G3
  have hk : (y 1).val < 50 := by rw [h1]; exact k.isLt
  rw [dif_pos hk]
  have ek : (⟨(y 1).val, hk⟩ : Fin 50) = k := Fin.ext h1
  rw [ek, h0]

theorem flushed_eq (c : Dev nD) (hT : ∀ i, Cert.Spec.IsReal (tabArr V c i)) (hM : ∀ i, Cert.Spec.IsReal (mskArr V c i))
    (hI : ∀ i, (idxArr V c i).toNat < 1536) (t : Fin cfg3.N) (hf : (cfg3.win 3).flush t = true) :
    (dat3 (F := Ideal) V c).flushed 3 t = ((cfg3.win 3).blk t).view.read (Elt Ideal) (G3 V c) := by
  have h23 : t.val % 18 = 17 := (flush3_3 t).mp hf
  have hi := index3_3 t
  refine funext fun (x : S1x50x1.Idx) => ?_
  show (cfg3.win 3).cut (grid3.coords t) ((dat3 (F := Ideal) V c).after 3 t) x = _
  rw [after3_3, View.read_apply]
  obtain ⟨a, b, d, rfl⟩ : ∃ (a : Fin 1) (b : Fin 50) (d : Fin 1), x = ix3 a b d := ⟨x 0, x 1, x 2, eq_ix3 x⟩
  obtain rfl : a = 0 := Subsingleton.elim _ _
  obtain rfl : d = 0 := Subsingleton.elim _ _
  show (outsAt3 V c t.val t.isLt).1 (ix3 (0 : Fin 1) b (0 : Fin 1)) = G3 V c (((cfg3.win 3).blk t).view.emb (ix3 (0 : Fin 1) b (0 : Fin 1)))
  rw [out_point V c hT hM hI t h23 b]
  refine (G3_at V c _ (t.val / 18) b ?_ ?_).symm
  · show win3_3.index t 0 * 1 + 1 * 0 = t.val / 18
    rw [hi.1]; omega
  · show win3_3.index t 1 * 50 + 1 * b.val = b.val
    rw [hi.2.1]; omega

def tLastA : Fin cfg3.N := ⟨17, by rw [show cfg3.N = 36 from N_3]; norm_num⟩
def tLastB : Fin cfg3.N := ⟨35, by rw [show cfg3.N = 36 from N_3]; norm_num⟩

set_option maxHeartbeats 4000000 in
theorem outArr_eq (c : Dev nD) (hT : ∀ i, Cert.Spec.IsReal (tabArr V c i)) (hM : ∀ i, Cert.Spec.IsReal (mskArr V c i))
    (hI : ∀ i, (idxArr V c i).toNat < 1536) : outArr V c = G3 V c :=
  (dat3 (F := Ideal) V c).arrAt_eq_of_cover 3 (G3 V c) (flushed_eq V c hT hM hI) fun i => by
    have h0 : (i 0 : Nat) < 2 := (i 0).isLt
    have h1 : (i 1 : Nat) < 50 := (i 1).isLt
    have h2 : (i 2 : Nat) < 1 := (i 2).isLt
    rcases (show (i 0 : Nat) = 0 ∨ (i 0 : Nat) = 1 by omega) with hp | hp
    · refine ⟨tLastA, (flush3_3 tLastA).mpr rfl, ?_⟩
      show i ∈ ((View.whole main_v96).slice (win3_3.rect tLastA)).set
      rw [View.set_slice_whole, Rect.mem_set_unit]
      intro a
      match a with
      | ⟨0, _⟩ =>
        show win3_3.index tLastA 0 * win3_3.size 0 ≤ (i 0 : Nat) ∧ (i 0 : Nat) < win3_3.index tLastA 0 * win3_3.size 0 + win3_3.xsize (grid3.coords tLastA) 0
        rw [show win3_3.index tLastA 0 * win3_3.size 0 = 0 from by decide +kernel, show win3_3.xsize (grid3.coords tLastA) 0 = 1 from by decide +kernel]; omega
      | ⟨1, _⟩ =>
        show win3_3.index tLastA 1 * win3_3.size 1 ≤ (i 1 : Nat) ∧ (i 1 : Nat) < win3_3.index tLastA 1 * win3_3.size 1 + win3_3.xsize (grid3.coords tLastA) 1
        rw [show win3_3.index tLastA 1 * win3_3.size 1 = 0 from by decide +kernel, show win3_3.xsize (grid3.coords tLastA) 1 = 50 from by decide +kernel]; omega
      | ⟨2, _⟩ =>
        show win3_3.index tLastA 2 * win3_3.size 2 ≤ (i 2 : Nat) ∧ (i 2 : Nat) < win3_3.index tLastA 2 * win3_3.size 2 + win3_3.xsize (grid3.coords tLastA) 2
        rw [show win3_3.index tLastA 2 * win3_3.size 2 = 0 from by decide +kernel, show win3_3.xsize (grid3.coords tLastA) 2 = 1 from by decide +kernel]; omega
    · refine ⟨tLastB, (flush3_3 tLastB).mpr rfl, ?_⟩
      show i ∈ ((View.whole main_v96).slice (win3_3.rect tLastB)).set
      rw [View.set_slice_whole, Rect.mem_set_unit]
      intro a
      match a with
      | ⟨0, _⟩ =>
        show win3_3.index tLastB 0 * win3_3.size 0 ≤ (i 0 : Nat) ∧ (i 0 : Nat) < win3_3.index tLastB 0 * win3_3.size 0 + win3_3.xsize (grid3.coords tLastB) 0
        rw [show win3_3.index tLastB 0 * win3_3.size 0 = 1 from by decide +kernel, show win3_3.xsize (grid3.coords tLastB) 0 = 1 from by decide +kernel]; omega
      | ⟨1, _⟩ =>
        show win3_3.index tLastB 1 * win3_3.size 1 ≤ (i 1 : Nat) ∧ (i 1 : Nat) < win3_3.index tLastB 1 * win3_3.size 1 + win3_3.xsize (grid3.coords tLastB) 1
        rw [show win3_3.index tLastB 1 * win3_3.size 1 = 0 from by decide +kernel, show win3_3.xsize (grid3.coords tLastB) 1 = 50 from by decide +kernel]; omega
      | ⟨2, _⟩ =>
        show win3_3.index tLastB 2 * win3_3.size 2 ≤ (i 2 : Nat) ∧ (i 2 : Nat) < win3_3.index tLastB 2 * win3_3.size 2 + win3_3.xsize (grid3.coords tLastB) 2
        rw [show win3_3.index tLastB 2 * win3_3.size 2 = 0 from by decide +kernel, show win3_3.xsize (grid3.coords tLastB) 2 = 1 from by decide +kernel]; omega

theorem outArr_apply (c : Dev nD) (hT : ∀ i, Cert.Spec.IsReal (tabArr V c i)) (hM : ∀ i, Cert.Spec.IsReal (mskArr V c i))
    (hI : ∀ i, (idxArr V c i).toNat < 1536) (p : Fin 2) (k : Fin 50) :
    outArr V c (ix3 p k (0 : Fin 1))
      = (((∑ n : Fin 768, (mskArr V c (ix2 ⟨768 * p.val + n.val, by omega⟩ (0 : Fin 1))).toReal
            * (tabArr V c (ix2 ⟨(idxArr V c (ix2 ⟨768 * p.val + n.val, by omega⟩ k)).toNat, hI _⟩ (0 : Fin 1))).toReal)
          * (1 / 1536) : ℝ) : EReal) := by
  rw [outArr_eq V c hT hM hI, G3_at V c (ix3 p k (0 : Fin 1)) p.val k rfl rfl]
  refine congrArg (fun z : ℝ => ((z * (1 / 1536) : ℝ) : EReal)) ?_
  unfold total
  rw [Finset.sum_range (fun r => μrow V c (768 * p.val + r) * Trow V c (arow V c k (768 * p.val + r)))]
  refine Finset.sum_congr rfl fun n _ => ?_
  have hr : 768 * p.val + n.val < 1536 := by omega
  have hx : (idxArr V c (ix2 ⟨768 * p.val + n.val, hr⟩ k)).toNat < 1536 := hI _
  show μrow V c (768 * p.val + n.val) * Trow V c (arow V c k (768 * p.val + n.val)) = _
  rw [μrow, arow, dif_pos hr, dif_pos hr, Trow, dif_pos hx]

theorem outArr_apply' (c : Dev nD) (hT : ∀ i, Cert.Spec.IsReal (tabArr V c i))
    (hM : ∀ i, mskArr V c i = 0 ∨ mskArr V c i = 1)
    (hI : ∀ i, (idxArr V c i).toNat < 1536) (p : Fin 2) (k : Fin 50) :
    outArr V c (ix3 p k (0 : Fin 1))
      = (((∑ n : Fin 768, (mskArr V c (ix2 ⟨768 * p.val + n.val, by omega⟩ (0 : Fin 1))).toReal
            * (tabArr V c (ix2 ⟨(idxArr V c (ix2 ⟨768 * p.val + n.val, by omega⟩ k)).toNat, hI _⟩ (0 : Fin 1))).toReal)
          * (1 / 1536) : ℝ) : EReal) :=
  outArr_apply V c hT (fun i => by
    rcases hM i with h | h <;> rw [h]
    · exact ⟨EReal.coe_ne_top 0, EReal.coe_ne_bot 0⟩
    · exact ⟨EReal.coe_ne_top 1, EReal.coe_ne_bot 1⟩) hI p k

end Cert.KernelIdeal.Val3

end
-- ==== Proof.Val.RowDot.lean ====
import Idealize.ShloMosaic.PureOps.Ideal.Laws
import Idealize.ShloMosaic.Lib.ValueIdx

noncomputable section

namespace Cert.KernelIdeal.Val4

open Idealize.ShloMosaic Idealize.ShloMosaic.ValueIdx

structure RowDot {K N : ℕ} (D : DotDims ⟨2, ![1, K]⟩ ⟨2, ![K, N]⟩ ⟨2, ![1, N]⟩) : Prop where
  lc : D.lhsContracting = [1]
  rc : D.rhsContracting = [0]
  ln : D.lhsNonContracting = [0]
  rn : D.rhsNonContracting = [1]
  lb : D.lhsBatch = []
  rb : D.rhsBatch = []

section Indices

variable {K N : ℕ} {D : DotDims ⟨2, ![1, K]⟩ ⟨2, ![K, N]⟩ ⟨2, ![1, N]⟩}

theorem RowDot.rank_contr (h : RowDot D) : D.contr.rank = 1 := by
  rw [D.rank_contr, h.lc]; rfl

theorem RowDot.size_contr (h : RowDot D) : D.contr.size ⟨0, by rw [h.rank_contr]; exact Nat.one_pos⟩ = K := by
  rw [D.size_contr 0 (by rw [h.lc]; exact Nat.one_pos), List.getElem_of_eq h.lc]; rfl

theorem RowDot.rhsIdx_col (h : RowDot D) (j : (⟨2, ![1, N]⟩ : Shape).Idx) (k : D.contr.Idx) :
    (D.rhsIdx j k 1).val = (j 1).val := by
  have hmem : (1 : Fin 2) ∈ D.rhsNonContracting := by rw [h.rn]; exact List.mem_singleton.mpr rfl
  unfold DotDims.rhsIdx
  rw [dif_neg (by rw [h.rb]; exact List.not_mem_nil), dif_pos hmem]
  simp only [Fin.val_cast]
  have key : ∀ (p q : Nat) (hp : p < 2) (hq : q < 2), p = q → (j ⟨p, hp⟩).val = (j ⟨q, hq⟩).val :=
    fun p q hp hq e => by subst e; rfl
  exact key _ 1 _ (by decide) (by simp [h.lb, h.ln, h.rn])

theorem RowDot.lhsIdx_eq (h : RowDot D) (j : (⟨2, ![1, N]⟩ : Shape).Idx) (k : Fin K) :
    D.lhsIdx j ((contrEquiv1 D K h.rank_contr h.size_contr).symm k) = ix2 0 k := by
  refine (eq_ix2 _).trans ?_
  exact congrArg₂ (ix2 (n0 := 1) (n1 := K)) (Subsingleton.elim _ _)
    (Fin.ext ((D.lhsIdx_val_of_single h.lc _ _).trans (contrEquiv1_symm_val D K h.rank_contr h.size_contr k)))

theorem RowDot.rhsIdx_eq (h : RowDot D) (n : Fin N) (k : Fin K) :
    D.rhsIdx (ix2 0 n) ((contrEquiv1 D K h.rank_contr h.size_contr).symm k) = ix2 k n := by
  refine (eq_ix2 _).trans ?_
  exact congrArg₂ (ix2 (n0 := K) (n1 := N))
    (Fin.ext ((D.rhsIdx_val_of_single h.rc _ _).trans (contrEquiv1_symm_val D K h.rank_contr h.size_contr k)))
    (Fin.ext (h.rhsIdx_col _ _))

theorem RowDot.matmul_apply (h : RowDot D) {φ₁ φ₂ : FTy} (lhs : FVec Ideal ⟨2, ![1, K]⟩ φ₁) (rhs : FVec Ideal ⟨2, ![K, N]⟩ φ₂)
    (n : Fin N) :
    matmul D none lhs rhs (constant (F := Ideal) ⟨2, ![1, N]⟩ .f32 0x00000000#32) (ix2 0 n)
      = ∑ k : Fin K, lhs (ix2 0 k) * rhs (ix2 k n) := by
  show FloatOps.matmul D none lhs rhs (constant (F := Ideal) ⟨2, ![1, N]⟩ .f32 0x00000000#32) (ix2 0 n) = _
  rw [Ideal.matmul_constant_zero_apply, ← Equiv.sum_comp (contrEquiv1 D K h.rank_contr h.size_contr).symm]
  exact Finset.sum_congr rfl fun k _ => by rw [h.lhsIdx_eq, h.rhsIdx_eq]

end Indices

theorem coe_sum {ι : Type} (s : Finset ι) (f : ι → ℝ) :
    ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

theorem coe_toReal_of_real {x : EReal} (h : x ≠ ⊤ ∧ x ≠ ⊥) : ((x.toReal : ℝ) : EReal) = x :=
  EReal.coe_toReal h.1 h.2

theorem RowDot.dense_apply {K N : ℕ} {D : DotDims ⟨2, ![1, K]⟩ ⟨2, ![K, N]⟩ ⟨2, ![1, N]⟩} (h : RowDot D)
    (lhs : FVec Ideal ⟨2, ![1, K]⟩ .f32) (W : FVec Ideal ⟨2, ![K, N]⟩ .f32) (bias : FVec Ideal ⟨2, ![1, N]⟩ .f32)
    (hb : FTy.bf16.bits < FTy.f32.bits) (a : Fin K → ℝ) (ha : ∀ k, lhs (ix2 0 k) = ((a k : ℝ) : EReal))
    (hW : ∀ i, W i ≠ ⊤ ∧ W i ≠ ⊥) (β : ℝ) (n : Fin N) (hβ : bias (ix2 0 n) = ((β : ℝ) : EReal)) :
    addf (matmul D none (truncf .bf16 lhs hb) (truncf .bf16 W hb) (constant (F := Ideal) ⟨2, ![1, N]⟩ .f32 0x00000000#32)) bias
        (ix2 0 n)
      = (((∑ k : Fin K, a k * (W (ix2 k n)).toReal) + β : ℝ) : EReal) := by
  rw [addf_apply, h.matmul_apply, hβ, EReal.coe_add, coe_sum]
  refine congrArg (· + ((β : ℝ) : EReal)) (Finset.sum_congr rfl fun k _ => ?_)
  rw [truncf_apply, truncf_apply, ha, EReal.coe_mul, coe_toReal_of_real (hW _)]

theorem max_coe_zero (r : ℝ) : max ((r : ℝ) : EReal) (Ideal.ofBits .f32 0x00000000#32) = ((max r 0 : ℝ) : EReal) := by
  rw [Ideal.ofBits_zero_f32, ← EReal.coe_zero]
  exact (EReal.coe_strictMono.monotone.map_max).symm

theorem relu_apply {N : ℕ} (v : FVec Ideal ⟨2, ![1, N]⟩ .f32) (z : Ideal .f32) (hz : z = Ideal.ofBits .f32 0x00000000#32)
    (r : ℝ) (n : Fin N) (hv : v (ix2 0 n) = ((r : ℝ) : EReal)) :
    maximumf v (broadcast ⟨2, ![1, N]⟩ z) (ix2 0 n) = ((max r 0 : ℝ) : EReal) := by
  rw [maximumf_apply, broadcast_apply, hv, hz]
  exact max_coe_zero r

theorem relu_scale_apply {N : ℕ} (v : FVec Ideal ⟨2, ![1, N]⟩ .f32) (z c : Ideal .f32)
    (hz : z = Ideal.ofBits .f32 0x00000000#32) (s : ℝ) (hc : c = ((s : ℝ) : EReal))
    (r : ℝ) (n : Fin N) (hv : v (ix2 0 n) = ((r : ℝ) : EReal)) :
    mulf (maximumf v (broadcast ⟨2, ![1, N]⟩ z)) (broadcast ⟨2, ![1, N]⟩ c) (ix2 0 n) = ((max r 0 * s : ℝ) : EReal) := by
  rw [mulf_apply, relu_apply v z hz r n hv, broadcast_apply, hc, EReal.coe_mul]

end Cert.KernelIdeal.Val4

end
-- ==== Proof.Val.MlpPay.lean ====
import proofs.«406789_j53094385713523_3_alg».proof.Proof.Gen.KernelIdeal.Skeleton
import proofs.«406789_j53094385713523_3_alg».proof.Proof.Spec
import proofs.«406789_j53094385713523_3_alg».proof.Proof.Val.RowDot
import Idealize.ShloMosaic.Lib.Pipeline.Value
import Idealize.ShloMosaic.PureOps.IdealRules

noncomputable section

namespace Cert.KernelIdeal.Val4

open Idealize.ShloMosaic Idealize.ShloMosaic.ValueIdx
open Cert.KernelIdeal Cert.KernelIdeal.Gen
open Cert.Spec (Arrays xrowOf h0Of h2Of fhidOf mlpOf)

theorem rowDot_proj : RowDot dot_S1x435_S435x128_S1x128_1_0_0_1_n_n := ⟨rfl, rfl, rfl, rfl, rfl, rfl⟩
theorem rowDot_W1 : RowDot dot_S1x128_S128x256_S1x256_1_0_0_1_n_n := ⟨rfl, rfl, rfl, rfl, rfl, rfl⟩
theorem rowDot_W2 : RowDot dot_S1x256_S256x256_S1x256_1_0_0_1_n_n := ⟨rfl, rfl, rfl, rfl, rfl, rfl⟩
theorem rowDot_fc1 : RowDot dot_S1x256_S256x128_S1x128_1_0_0_1_n_n := ⟨rfl, rfl, rfl, rfl, rfl, rfl⟩
theorem rowDot_fc2 : RowDot dot_S1x128_S128x1_S1x1_1_0_0_1_n_n := ⟨rfl, rfl, rfl, rfl, rfl, rfl⟩

theorem inv1536 : Named.named (F := Ideal) Cert.KernelIdeal.κ "inv_1536" (φ := .f32) 0x3A2AAAAB#32 = ((1 / 1536 : ℝ) : EReal) :=
  IdealRules.named_const.ideal_named_scalar _ _ _ _ rfl

theorem zero_word : Scalar.ofBits (F := Ideal) .f32 0x00000000#32 = Ideal.ofBits .f32 0x00000000#32 := rfl

def fpre (A : Arrays) (x : Fin 435 → ℝ) (j : Fin 128) : ℝ :=
  (∑ g : Fin 256, h2Of A x g * (A.fc1W (ix2 g j)).toReal) + (A.fc1b (ix1 j)).toReal

theorem fhidOf_eq (A : Arrays) (x : Fin 435 → ℝ) (j : Fin 128) : fhidOf A x j = max (fpre A x j) 0 := rfl

section Payloads

variable (A : Arrays) (hA : A.Finite) (x : Fin 435 → ℝ)
variable (v0 : Vec Ideal S1x435 .f32) (v3 : Vec Ideal S435x128 .f32) (v6 : Vec Ideal S1x128 .f32)
  (v9 : Vec Ideal S128x256 .f32) (v13 : Vec Ideal S1x256 .f32) (v20 : Vec Ideal S256x256 .f32) (v24 : Vec Ideal S1x256 .f32)
  (v27 : Vec Ideal S256x128 .f32) (v31 : Vec Ideal S1x128 .f32)

include hA in
theorem hidden_apply (h0 : ∀ k, v0 (ix2 0 k) = ((x k : ℝ) : EReal)) (h3 : v3 = A.projW)
    (h6 : ∀ j, v6 (ix2 0 j) = A.projb (ix1 j)) (h9 : v9 = A.W1) (h13 : ∀ g, v13 (ix2 0 g) = A.b1 (ix1 g))
    (h20 : v20 = A.W2) (h24 : ∀ g, v24 (ix2 0 g) = A.b2 (ix1 g)) (h27 : v27 = A.fc1W)
    (h31 : ∀ j, v31 (ix2 0 j) = A.fc1b (ix1 j)) (j : Fin 128) :
    k4_pay3 (F := Ideal) v0 v3 v6 v9 v13 v20 v24 v27 v31 (ix2 0 j) = ((fpre A x j : ℝ) : EReal) := by
  subst h3 h9 h20 h27
  unfold k4_pay3

  refine rowDot_fc1.dense_apply _ _ _ _ (h2Of A x) (fun g => ?_) hA.fc1W _ j ?_
  ·
    show _ = (((∑ i : Fin 256, (h0Of A x i * (1 / 1536)) * (A.W2 (ix2 i g)).toReal) + (A.b2 (ix1 g)).toReal : ℝ) : EReal)
    refine rowDot_W2.dense_apply _ _ _ _ (fun i => h0Of A x i * (1 / 1536)) (fun i => ?_) hA.W2 _ g ?_
    ·
      show _ = ((max ((∑ k : Fin 128, xrowOf A x k * (A.W1 (ix2 k i)).toReal) + (A.b1 (ix1 i)).toReal) 0 * (1 / 1536) : ℝ) : EReal)
      refine relu_scale_apply _ _ _ zero_word _ inv1536 _ i ?_

      refine rowDot_W1.dense_apply _ _ _ _ (xrowOf A x) (fun k => ?_) hA.W1 _ i ?_
      ·
        show _ = (((∑ q : Fin 435, x q * (A.projW (ix2 q k)).toReal) + (A.projb (ix1 k)).toReal : ℝ) : EReal)
        refine rowDot_proj.dense_apply _ _ _ _ x (fun q => ?_) hA.projW _ k ?_
        · rw [shapeCast_self]; exact h0 q
        · rw [shapeCast_self, h6]; exact (coe_toReal_of_real (hA.projb _)).symm
      · rw [shapeCast_self, h13]; exact (coe_toReal_of_real (hA.b1 _)).symm
    · rw [shapeCast_self, h24]; exact (coe_toReal_of_real (hA.b2 _)).symm
  · rw [shapeCast_self, h31]; exact (coe_toReal_of_real (hA.fc1b _)).symm

variable (v33 : FVec Ideal S1x128 .f32) (cst : Ideal .f32) (v36 : Vec Ideal S128x1 .f32) (v40 : Vec Ideal S1x1 .f32)

include hA in
theorem logit_apply (h33 : ∀ j, v33 (ix2 0 j) = ((fpre A x j : ℝ) : EReal)) (hc : cst = Ideal.ofBits .f32 0x00000000#32)
    (h36 : v36 = A.fc2W) (h40 : v40 (ix2 0 0) = A.fc2b (ix1 0)) :
    k4_pay1 (F := Ideal) v33 cst v36 v40 (ix2 0 0) = ((mlpOf A x : ℝ) : EReal) := by
  subst h36
  unfold k4_pay1
  show _ = (((∑ j : Fin 128, fhidOf A x j * (A.fc2W (ix2 j 0)).toReal) + (A.fc2b (ix1 0)).toReal : ℝ) : EReal)
  refine rowDot_fc2.dense_apply _ _ _ _ (fhidOf A x) (fun j => ?_) hA.fc2W _ 0 ?_
  · rw [fhidOf_eq]
    exact relu_apply _ _ hc _ j (h33 j)
  · rw [shapeCast_self, h40]; exact (coe_toReal_of_real (hA.fc2b _)).symm

include hA in
theorem sigmoid_apply (h33 : ∀ j, v33 (ix2 0 j) = ((fpre A x j : ℝ) : EReal)) (hc : cst = Ideal.ofBits .f32 0x00000000#32)
    (h36 : v36 = A.fc2W) (h40 : v40 (ix2 0 0) = A.fc2b (ix1 0)) :
    k4_pay2 (F := Ideal) v33 cst v36 v40 (ix2 0 0) = Ideal.logistic ((mlpOf A x : ℝ) : EReal) := by
  unfold k4_pay2
  show Ideal.logistic (k4_pay1 (F := Ideal) v33 cst v36 v40 (ix2 0 0)) = _
  rw [logit_apply A hA x v33 cst v36 v40 h33 hc h36 h40]

end Payloads

end Cert.KernelIdeal.Val4

end
-- ==== Proof.Val.Mlp.lean ====
import proofs.«406789_j53094385713523_3_alg».proof.Proof.KI.R4
import proofs.«406789_j53094385713523_3_alg».proof.Proof.Val.MlpPay

set_option maxRecDepth 16384

noncomputable section

namespace Cert.KernelIdeal.Val4

open Idealize.ShloMosaic Idealize.ShloMosaic.ValueIdx Idealize.ShloMosaic.TcCoe
open Idealize.SL.Sem
open Cert.KernelIdeal Cert.KernelIdeal.Gen
open Idealize.ShloMosaic.Pipeline (Dat Cfg Window)
open Cert.Spec (Arrays mlpOf)

variable (V : (c : Dev nD) → (b : Ref sig .tc) → Buf (Elt Ideal) ((c : Thread nD τ).loc b))

def t₀ : Fin cfg4.N := ⟨0, by decide⟩

theorem eq_t₀ (t : Fin cfg4.N) : t = t₀ := by
  have h : cfg4.N = 1 := by decide
  exact Fin.ext (by have := t.isLt; show t.val = 0; omega)

theorem idx_1x1 (j : S1x1.Idx) : j = ix2 0 0 :=
  (eq_ix2 j).trans (congrArg₂ (ix2 (n0 := 1) (n1 := 1)) (Subsingleton.elim _ _) (Subsingleton.elim _ _))

theorem blk0 (c : Dev nD) : (R4.iblk4 V c 0 t₀ : S1x435.Idx → EReal) = V c main_v171 := by
  unfold R4.iblk4
  exact Memref.read_access_unit_zero (Elt Ideal) main_v171 (off := fun a => (win4_0.index t₀) a * main_v171.ty.shape.size a)
    (funext fun a => by fin_cases a <;> decide) (fun a => by fin_cases a <;> decide) _
theorem blk1 (c : Dev nD) : (R4.iblk4 V c 1 t₀ : S435x128.Idx → EReal) = V c main_arg17 := by
  unfold R4.iblk4
  exact Memref.read_access_unit_zero (Elt Ideal) main_arg17 (off := fun a => (win4_1.index t₀) a * main_arg17.ty.shape.size a)
    (funext fun a => by fin_cases a <;> decide) (fun a => by fin_cases a <;> decide) _
theorem blk2 (c : Dev nD) : (R4.iblk4 V c 2 t₀ : S1x128.Idx → EReal) = V c main_v172 := by
  unfold R4.iblk4
  exact Memref.read_access_unit_zero (Elt Ideal) main_v172 (off := fun a => (win4_2.index t₀) a * main_v172.ty.shape.size a)
    (funext fun a => by fin_cases a <;> decide) (fun a => by fin_cases a <;> decide) _
theorem blk3 (c : Dev nD) : (R4.iblk4 V c 3 t₀ : S128x256.Idx → EReal) = V c main_arg19 := by
  unfold R4.iblk4
  exact Memref.read_access_unit_zero (Elt Ideal) main_arg19 (off := fun a => (win4_3.index t₀) a * main_arg19.ty.shape.size a)
    (funext fun a => by fin_cases a <;> decide) (fun a => by fin_cases a <;> decide) _
theorem blk4 (c : Dev nD) : (R4.iblk4 V c 4 t₀ : S1x256.Idx → EReal) = V c main_v173 := by
  unfold R4.iblk4
  exact Memref.read_access_unit_zero (Elt Ideal) main_v173 (off := fun a => (win4_4.index t₀) a * main_v173.ty.shape.size a)
    (funext fun a => by fin_cases a <;> decide) (fun a => by fin_cases a <;> decide) _
theorem blk5 (c : Dev nD) : (R4.iblk4 V c 5 t₀ : S256x256.Idx → EReal) = V c main_arg21 := by
  unfold R4.iblk4
  exact Memref.read_access_unit_zero (Elt Ideal) main_arg21 (off := fun a => (win4_5.index t₀) a * main_arg21.ty.shape.size a)
    (funext fun a => by fin_cases a <;> decide) (fun a => by fin_cases a <;> decide) _
theorem blk6 (c : Dev nD) : (R4.iblk4 V c 6 t₀ : S1x256.Idx → EReal) = V c main_v174 := by
  unfold R4.iblk4
  exact Memref.read_access_unit_zero (Elt Ideal) main_v174 (off := fun a => (win4_6.index t₀) a * main_v174.ty.shape.size a)
    (funext fun a => by fin_cases a <;> decide) (fun a => by fin_cases a <;> decide) _
theorem blk7 (c : Dev nD) : (R4.iblk4 V c 7 t₀ : S256x128.Idx → EReal) = V c main_arg23 := by
  unfold R4.iblk4
  exact Memref.read_access_unit_zero (Elt Ideal) main_arg23 (off := fun a => (win4_7.index t₀) a * main_arg23.ty.shape.size a)
    (funext fun a => by fin_cases a <;> decide) (fun a => by fin_cases a <;> decide) _
theorem blk8 (c : Dev nD) : (R4.iblk4 V c 8 t₀ : S1x128.Idx → EReal) = V c main_v175 := by
  unfold R4.iblk4
  exact Memref.read_access_unit_zero (Elt Ideal) main_v175 (off := fun a => (win4_8.index t₀) a * main_v175.ty.shape.size a)
    (funext fun a => by fin_cases a <;> decide) (fun a => by fin_cases a <;> decide) _
theorem blk9 (c : Dev nD) : (R4.iblk4 V c 9 t₀ : S128x1.Idx → EReal) = V c main_arg25 := by
  unfold R4.iblk4
  exact Memref.read_access_unit_zero (Elt Ideal) main_arg25 (off := fun a => (win4_9.index t₀) a * main_arg25.ty.shape.size a)
    (funext fun a => by fin_cases a <;> decide) (fun a => by fin_cases a <;> decide) _
theorem blk10 (c : Dev nD) : (R4.iblk4 V c 10 t₀ : S1x1.Idx → EReal) = V c main_v176 := by
  unfold R4.iblk4
  exact Memref.read_access_unit_zero (Elt Ideal) main_v176 (off := fun a => (win4_10.index t₀) a * main_v176.ty.shape.size a)
    (funext fun a => by fin_cases a <;> decide) (fun a => by fin_cases a <;> decide) _

section Values

variable (c : Dev nD) (A : Arrays) (hA : A.Finite) (x : Fin 435 → ℝ)
  (hx : (V c main_v171 : S1x435.Idx → EReal) = fun i => ((x (i 1) : ℝ) : EReal))
  (hprojW : V c main_arg17 = A.projW) (hprojb : (V c main_v172 : S1x128.Idx → EReal) = fun i => A.projb (ix1 (i 1)))
  (hW1 : V c main_arg19 = A.W1) (hb1 : (V c main_v173 : S1x256.Idx → EReal) = fun i => A.b1 (ix1 (i 1)))
  (hW2 : V c main_arg21 = A.W2) (hb2 : (V c main_v174 : S1x256.Idx → EReal) = fun i => A.b2 (ix1 (i 1)))
  (hfc1W : V c main_arg23 = A.fc1W) (hfc1b : (V c main_v175 : S1x128.Idx → EReal) = fun i => A.fc1b (ix1 (i 1)))
  (hfc2W : V c main_arg25 = A.fc2W) (hfc2b : (V c main_v176 : S1x1.Idx → EReal) = fun i => A.fc2b (ix1 (i 1)))

include hA hx hprojW hprojb hW1 hb1 hW2 hb2 hfc1W hfc1b in
theorem hidden_blocks (j : Fin 128) :
    k4_pay3 (F := Ideal) (R4.iblk4 V c 0 t₀) (R4.iblk4 V c 1 t₀) (R4.iblk4 V c 2 t₀) (R4.iblk4 V c 3 t₀) (R4.iblk4 V c 4 t₀)
        (R4.iblk4 V c 5 t₀) (R4.iblk4 V c 6 t₀) (R4.iblk4 V c 7 t₀) (R4.iblk4 V c 8 t₀) (ix2 0 j)
      = ((fpre A x j : ℝ) : EReal) :=
  hidden_apply A hA x _ _ _ _ _ _ _ _ _
    (fun k => (congrFun (blk0 V c) (ix2 0 k)).trans (congrFun hx (ix2 0 k)))
    ((blk1 V c).trans hprojW)
    (fun k => (congrFun (blk2 V c) (ix2 0 k)).trans (congrFun hprojb (ix2 0 k)))
    ((blk3 V c).trans hW1)
    (fun k => (congrFun (blk4 V c) (ix2 0 k)).trans (congrFun hb1 (ix2 0 k)))
    ((blk5 V c).trans hW2)
    (fun k => (congrFun (blk6 V c) (ix2 0 k)).trans (congrFun hb2 (ix2 0 k)))
    ((blk7 V c).trans hfc1W)
    (fun k => (congrFun (blk8 V c) (ix2 0 k)).trans (congrFun hfc1b (ix2 0 k)))
    j

include hA hx hprojW hprojb hW1 hb1 hW2 hb2 hfc1W hfc1b hfc2W hfc2b in
theorem stored_logit (t : Fin cfg4.N) (y : S1x1.Idx) :
    (R4.dat4 V c).after 11 t y = ((mlpOf A x : ℝ) : EReal) := by
  obtain rfl := eq_t₀ t
  rw [R4.after4_11, idx_1x1 y]
  unfold R4.out4_11
  exact logit_apply A hA x _ _ _ _
    (hidden_blocks V c A hA x hx hprojW hprojb hW1 hb1 hW2 hb2 hfc1W hfc1b) rfl ((blk9 V c).trans hfc2W)
    ((congrFun (blk10 V c) (ix2 0 0)).trans (congrFun hfc2b (ix2 0 0)))

include hA hx hprojW hprojb hW1 hb1 hW2 hb2 hfc1W hfc1b hfc2W hfc2b in
theorem stored_sigmoid (t : Fin cfg4.N) (y : S1x1.Idx) :
    (R4.dat4 V c).after 12 t y = Ideal.logistic ((mlpOf A x : ℝ) : EReal) := by
  obtain rfl := eq_t₀ t
  rw [R4.after4_12, idx_1x1 y]
  unfold R4.out4_12
  exact sigmoid_apply A hA x _ _ _ _
    (hidden_blocks V c A hA x hx hprojW hprojb hW1 hb1 hW2 hb2 hfc1W hfc1b) rfl ((blk9 V c).trans hfc2W)
    ((congrFun (blk10 V c) (ix2 0 0)).trans (congrFun hfc2b (ix2 0 0)))

theorem cover11 (i : S1x1.Idx) : ∃ t : Fin cfg4.N, (cfg4.win 11).flush t = true ∧ i ∈ ((cfg4.win 11).blk t).view.set := by
  refine ⟨t₀, by decide, ?_⟩
  show i ∈ ((View.whole main_v177_0).slice (win4_11.rect t₀)).set
  rw [View.set_slice_whole]
  exact View.mem_set_unit_zero (off := fun a => (win4_11.index t₀) a * main_v177_0.ty.shape.size a)
    (funext fun a => by fin_cases a <;> decide) (fun a => by fin_cases a <;> decide) i
theorem cover12 (i : S1x1.Idx) : ∃ t : Fin cfg4.N, (cfg4.win 12).flush t = true ∧ i ∈ ((cfg4.win 12).blk t).view.set := by
  refine ⟨t₀, by decide, ?_⟩
  show i ∈ ((View.whole main_v177_1).slice (win4_12.rect t₀)).set
  rw [View.set_slice_whole]
  exact View.mem_set_unit_zero (off := fun a => (win4_12.index t₀) a * main_v177_1.ty.shape.size a)
    (funext fun a => by fin_cases a <;> decide) (fun a => by fin_cases a <;> decide) i

include hA hx hprojW hprojb hW1 hb1 hW2 hb2 hfc1W hfc1b hfc2W hfc2b in
theorem logit_array :
    (R4.dat4 V c).arrAt 11 cfg4.N = fun _ => ((mlpOf A x : ℝ) : EReal) := by
  refine (R4.dat4 V c).arrAt_eq_of_cover 11 _ (fun t _ => ?_) (cover11)
  funext y
  show (R4.dat4 V c).after 11 t _ = _
  exact stored_logit V c A hA x hx hprojW hprojb hW1 hb1 hW2 hb2 hfc1W hfc1b hfc2W hfc2b t _

include hA hx hprojW hprojb hW1 hb1 hW2 hb2 hfc1W hfc1b hfc2W hfc2b in
theorem sigmoid_array :
    (R4.dat4 V c).arrAt 12 cfg4.N = fun _ => Ideal.logistic ((mlpOf A x : ℝ) : EReal) := by
  refine (R4.dat4 V c).arrAt_eq_of_cover 12 _ (fun t _ => ?_) (cover12)
  funext y
  show (R4.dat4 V c).after 12 t _ = _
  exact stored_sigmoid V c A hA x hx hprojW hprojb hW1 hb1 hW2 hb2 hfc1W hfc1b hfc2W hfc2b t _

end Values

end Cert.KernelIdeal.Val4

end
-- ==== Proof.KI.Args.lean ====
import proofs.«406789_j53094385713523_3_alg».proof.KernelIdeal
import proofs.«406789_j53094385713523_3_alg».proof.Proof.Spec

noncomputable section

namespace Cert.KernelIdeal

open Idealize.ShloMosaic Idealize.ShloMosaic.TcCoe

def argsOf (m : (ℓ : Loc nD τ sig) → Buf (Elt Ideal) ℓ) (c : Dev nD) : Cert.Spec.Arrays where
  meds := m ((c.tc : Thread nD τ).loc main_arg0)
  chart := m ((c.tc : Thread nD τ).loc main_arg1)
  out := m ((c.tc : Thread nD τ).loc main_arg2)
  proc := m ((c.tc : Thread nD τ).loc main_arg3)
  lab := m ((c.tc : Thread nD τ).loc main_arg4)
  conds := m ((c.tc : Thread nD τ).loc main_arg5)
  demo := m ((c.tc : Thread nD τ).loc main_arg6)
  medE := m ((c.tc : Thread nD τ).loc main_arg7)
  chartE := m ((c.tc : Thread nD τ).loc main_arg8)
  outE := m ((c.tc : Thread nD τ).loc main_arg9)
  procE := m ((c.tc : Thread nD τ).loc main_arg10)
  labE := m ((c.tc : Thread nD τ).loc main_arg11)
  condE := m ((c.tc : Thread nD τ).loc main_arg12)
  genderE := m ((c.tc : Thread nD τ).loc main_arg13)
  ethE := m ((c.tc : Thread nD τ).loc main_arg14)
  insE := m ((c.tc : Thread nD τ).loc main_arg15)
  ageE := m ((c.tc : Thread nD τ).loc main_arg16)
  projW := m ((c.tc : Thread nD τ).loc main_arg17)
  projb := m ((c.tc : Thread nD τ).loc main_arg18)
  W1 := m ((c.tc : Thread nD τ).loc main_arg19)
  b1 := m ((c.tc : Thread nD τ).loc main_arg20)
  W2 := m ((c.tc : Thread nD τ).loc main_arg21)
  b2 := m ((c.tc : Thread nD τ).loc main_arg22)
  fc1W := m ((c.tc : Thread nD τ).loc main_arg23)
  fc1b := m ((c.tc : Thread nD τ).loc main_arg24)
  fc2W := m ((c.tc : Thread nD τ).loc main_arg25)
  fc2b := m ((c.tc : Thread nD τ).loc main_arg26)

end Cert.KernelIdeal

end
-- ==== Proof.Val.HostPre.lean ====
import proofs.«406789_j53094385713523_3_alg».proof.Proof.KI.Regions
import proofs.«406789_j53094385713523_3_alg».proof.Proof.KI.Args
import Idealize.ShloMosaic.PureOps.Ideal.Laws
import Idealize.ShloMosaic.Lib.StableHlo.Run
import Idealize.ShloMosaic.Lib.StableHlo.Predicate
import Idealize.ShloMosaic.Lib.ValueIdx
import Idealize.ShloMosaic.Lib.IdealHost
import Idealize.ShloMosaic.Lib.WordArith
import Idealize.ShloMosaic.Lib.KernelVsHost
import Idealize.ShloMosaic.Lib.Pipeline.Value

set_option maxRecDepth 4000

noncomputable section

namespace Cert.KernelIdeal.HostPre

open Idealize.ShloMosaic Idealize.ShloMosaic.TcCoe Idealize.ShloMosaic.ValueIdx Idealize.ShloMosaic.StableHlo
open Cert.Spec

theorem clip_word (V : ℕ) (hi x : BitVec 32) (hhi : hi.toNat + 1 = V) (hV : V ≤ 2 ^ 31) :
    IntOp.minsi hi (IntOp.maxsi 0#32 x) = BitVec.ofNat 32 (clampRow V x.toInt) := by
  have hx := BitVec.toInt_eq_toNat_cond x
  have hxl := x.isLt
  have hm : (IntOp.maxsi 0#32 x).toNat = x.toInt.toNat := WordArith.toNat_maxsi_zero x
  have hm31 : (IntOp.maxsi 0#32 x).toNat < 2 ^ 31 := by rw [hm]; omega
  have hmin := WordArith.toNat_minsi_of_lt hi (IntOp.maxsi 0#32 x) (by omega) hm31
  apply BitVec.eq_of_toNat_eq
  rw [hmin, hm, BitVec.toNat_ofNat]
  unfold clampRow
  have e : (max 0 (min x.toInt ((V : ℤ) - 1))).toNat = min hi.toNat x.toInt.toNat := by omega
  rw [e, Nat.mod_eq_of_lt (by omega)]

theorem clampRow_ofNat (V : ℕ) (hV : V ≤ 2 ^ 31) (a : ℕ) (ha : a < V) :
    clampRow V (BitVec.ofNat 32 a).toInt = a := by
  rw [WordArith.toInt_ofNat_small a (by omega), clampRow_of_mem (by omega) (by omega)]
  omega

theorem toNat_clampRow_word (V : ℕ) (hV0 : 0 < V) (hV : V ≤ 2 ^ 31) (z : ℤ) :
    (BitVec.ofNat 32 (clampRow V z)).toNat = clampRow V z := by
  have h := clampRow_lt hV0 z
  exact WordArith.toNat_ofNat_of_lt _ (by omega)

theorem clip_apply {s : Shape} (V : ℕ) (hi : BitVec 32) (hhi : hi.toNat + 1 = V) (hV : V ≤ 2 ^ 31)
    (hb : (⟨0, ![]⟩ : Shape).BroadcastsInDim s (![] : Fin 0 → Fin s.rank)) (X : IVec s 32) (i : s.Idx) :
    minsi (broadcastInDim s ![] hb (constantI ⟨0, ![]⟩ 32 hi))
        (maxsi (broadcastInDim s ![] hb (constantI ⟨0, ![]⟩ 32 0#32)) X) i
      = BitVec.ofNat 32 (clampRow V (X i).toInt) := by
  show IntOp.minsi (broadcastInDim s ![] hb (constantI ⟨0, ![]⟩ 32 hi) i)
      (IntOp.maxsi (broadcastInDim s ![] hb (constantI ⟨0, ![]⟩ 32 0#32) i) (X i)) = _
  rw [broadcastInDim_scalar_apply, broadcastInDim_scalar_apply]
  exact clip_word V hi (X i) hhi hV

theorem idx_apply {K : ℕ} (V : ℕ) (hi : BitVec 32) (hhi : hi.toNat + 1 = V) (hV : V ≤ 2 ^ 31)
    (X : IVec ⟨3, ![64, 24, K]⟩ 32)
    (hb3 : (⟨0, ![]⟩ : Shape).BroadcastsInDim ⟨3, ![64, 24, K]⟩ (![] : Fin 0 → Fin 3))
    (hc : (⟨3, ![64, 24, K]⟩ : Shape).ShapeCasts ⟨2, ![1536, K]⟩)
    (hb2 : (⟨0, ![]⟩ : Shape).BroadcastsInDim ⟨2, ![1536, K]⟩ (![] : Fin 0 → Fin 2))
    (n : Fin 1536) (k : Fin K) :
    minsi (broadcastInDim ⟨2, ![1536, K]⟩ ![] hb2 (constantI ⟨0, ![]⟩ 32 hi))
        (maxsi (broadcastInDim ⟨2, ![1536, K]⟩ ![] hb2 (constantI ⟨0, ![]⟩ 32 0#32))
          (shapeCast ⟨2, ![1536, K]⟩
            (minsi (broadcastInDim ⟨3, ![64, 24, K]⟩ ![] hb3 (constantI ⟨0, ![]⟩ 32 hi))
              (maxsi (broadcastInDim ⟨3, ![64, 24, K]⟩ ![] hb3 (constantI ⟨0, ![]⟩ 32 0#32)) X)) hc)) (ix2 n k)
      = BitVec.ofNat 32 (clampRow V (X (ix3 ⟨n.val / 24, by omega⟩ ⟨n.val % 24, by omega⟩ k)).toInt) := by
  rw [clip_apply V hi hhi hV hb2 _ (ix2 n k)]
  rw [shapeCast_apply _ hc (ix2 n k) (ix3 ⟨n.val / 24, by omega⟩ ⟨n.val % 24, by omega⟩ k) (by
    rw [Shape.rowMajor_val_three, Shape.rowMajor_val_two]
    show (n.val / 24 * 24 + n.val % 24) * K + k.val = n.val * K + k.val
    rw [Nat.div_add_mod'])]
  rw [clip_apply V hi hhi hV hb3 X _, clampRow_ofNat V hV _ (clampRow_lt (by omega) _)]

theorem padRows_apply {N K : ℕ} (hi : ℕ) (Y : IVec ⟨2, ![1536, K]⟩ 32) (hu : 0 < (⟨0, ![]⟩ : Shape).numel)
    (hp : (⟨2, ![1536, K]⟩ : Shape).Pads (![0, 0] : Fin 2 → ℕ) ![hi, 0] ![0, 0] ⟨2, ![N, K]⟩)
    (n : Fin N) (k : Fin K) :
    pad ⟨2, ![N, K]⟩ ![0, 0] ![hi, 0] ![0, 0] Y (constantI ⟨0, ![]⟩ 32 0#32) hp hu (ix2 n k)
      = if h : n.val < 1536 then Y (ix2 ⟨n.val, h⟩ k) else 0#32 := by
  by_cases h : n.val < 1536
  · rw [dif_pos h]
    exact pad_apply_of_inside _ _ _ Y _ hp hu (ix2 n k) (ix2 ⟨n.val, h⟩ k) (fun a => match a with
      | ⟨0, _⟩ => by show n.val = 0 + n.val * (0 + 1); omega
      | ⟨1, _⟩ => by show k.val = 0 + k.val * (0 + 1); omega)
  · rw [dif_neg h]
    exact pad_apply_of_not_inside _ _ _ Y _ hp hu (ix2 n k) (0 : Fin 2) (fun hin => by
      have e : (n.val - 0) / (0 + 1) < 1536 := hin.2.2
      omega)

theorem ofBits_128 : Ideal.ofBits .f32 0x43000000#32 = ((128 : ℝ) : EReal) := by
  simp [Ideal.ofBits, Ideal.ieee, -EReal.coe_mul] <;> norm_num

theorem coe_sum {ι : Type} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

theorem lift_row {V : ℕ} (h : (⟨2, ![V, 128]⟩ : Shape).Reduces [(1 : Fin 2)] ⟨1, ![V]⟩) (r : Fin V) (k : Fin 128) :
    h.lift (ix1 r) k = ix2 r k := by
  funext a
  refine Fin.ext ?_
  show h.liftVal (ix1 r) k.val a = (ix2 r k a).val
  unfold Shape.Reduces.liftVal
  match a with
  | ⟨0, _⟩ => rw [dif_neg (by show ¬((0 : ℕ) = 1); omega), dif_pos (by show (0 : ℕ) < 1; omega)]
  | ⟨1, _⟩ => rw [dif_pos (by show (1 : ℕ) = 1; rfl)]

theorem mean_apply {V : ℕ} (T : Vec Ideal ⟨2, ![V, 128]⟩ .f32) (hT : ∀ i, IsReal (T i))
    (hr : (⟨2, ![V, 128]⟩ : Shape).ReducesTo [(1 : Fin 2)] ⟨1, ![V]⟩) (hu : 0 < (⟨0, ![]⟩ : Shape).numel)
    (hb : (⟨0, ![]⟩ : Shape).BroadcastsInDim ⟨1, ![V]⟩ (![] : Fin 0 → Fin 1)) (r : Fin V) :
    Host.divf (Host.reduceAdd T (constant (F := Ideal) ⟨0, ![]⟩ .f32 0x00000000#32) hr hu)
        (broadcastInDim ⟨1, ![V]⟩ ![] hb (constant (F := Ideal) ⟨0, ![]⟩ .f32 0x43000000#32)) (ix1 r)
      = ((rowMean T r.val : ℝ) : EReal) := by
  have hred : (⟨2, ![V, 128]⟩ : Shape).Reduces [(1 : Fin 2)] ⟨1, ![V]⟩ := by
    obtain ⟨h1, h2⟩ := hr
    exact ⟨h1, Nat.one_pos, h2⟩
  rw [hostDivf_apply, hostReduceAdd_apply, broadcastInDim_scalar_apply, Ideal.hostReduceAdd_single hr hred]
  show Ideal.div (Ideal.ofBits .f32 0x00000000#32 + ∑ k : Fin 128, T (hred.lift (ix1 r) k))
      (Ideal.ofBits .f32 0x43000000#32) = _
  have hsum : (∑ k : Fin 128, T (hred.lift (ix1 r) k)) = ((∑ k : Fin 128, (T (ix2 r k)).toReal : ℝ) : EReal) := by
    rw [coe_sum]
    refine Finset.sum_congr rfl fun k _ => ?_
    rw [lift_row hred r k, (hT _).coe_toReal]
  rw [Ideal.ofBits_zero_f32, ofBits_128, zero_add, Ideal.div_coe (by norm_num : (128 : ℝ) ≠ 0), hsum,
    ← EReal.coe_mul, mul_one_div]
  unfold rowMean
  rw [dif_pos r.isLt]

theorem padMean_apply {V P : ℕ} (hi : ℕ) (T : Vec Ideal ⟨2, ![V, 128]⟩ .f32) (hT : ∀ i, IsReal (T i))
    (hr : (⟨2, ![V, 128]⟩ : Shape).ReducesTo [(1 : Fin 2)] ⟨1, ![V]⟩) (hu : 0 < (⟨0, ![]⟩ : Shape).numel)
    (hb : (⟨0, ![]⟩ : Shape).BroadcastsInDim ⟨1, ![V]⟩ (![] : Fin 0 → Fin 1))
    (hp : (⟨1, ![V]⟩ : Shape).Pads (![0] : Fin 1 → ℕ) ![hi] ![0] ⟨1, ![P]⟩)
    (hc : (⟨1, ![P]⟩ : Shape).ShapeCasts ⟨2, ![P, 1]⟩) (v : Fin P) :
    shapeCast ⟨2, ![P, 1]⟩
        (pad ⟨1, ![P]⟩ ![0] ![hi] ![0]
          (Host.divf (Host.reduceAdd T (constant (F := Ideal) ⟨0, ![]⟩ .f32 0x00000000#32) hr hu)
            (broadcastInDim ⟨1, ![V]⟩ ![] hb (constant (F := Ideal) ⟨0, ![]⟩ .f32 0x43000000#32)))
          (sitofp (F := Ideal) .f32 (constantI ⟨0, ![]⟩ 32 0#32)) hp hu) hc (ix2 v 0)
      = ((rowMean T v.val : ℝ) : EReal) := by
  refine (shapeCast_apply _ hc (ix2 v 0) (ix1 v) (by
    rw [Shape.rowMajor_val_one, Shape.rowMajor_val_two]
    show v.val = v.val * 1 + 0
    omega)).trans ?_
  by_cases h : v.val < V
  · refine (pad_apply_of_inside _ _ _ _ _ hp hu (ix1 v) (ix1 ⟨v.val, h⟩) (fun a => by
      have ha : a = 0 := Subsingleton.elim _ _
      subst ha
      show v.val = 0 + v.val * (0 + 1)
      omega)).trans ?_
    exact mean_apply T hT hr hu hb ⟨v.val, h⟩
  · refine (pad_apply_of_not_inside _ _ _ _ _ hp hu (ix1 v) (0 : Fin 1) (fun hin => by
      have e : (v.val - 0) / (0 + 1) < V := hin.2.2
      omega)).trans ?_
    unfold rowMean
    rw [dif_neg h]
    show (((0#32 : BitVec 32).toInt : ℝ) : EReal) = ((0 : ℝ) : EReal)
    rw [show (0#32 : BitVec 32).toInt = 0 by decide, Int.cast_zero]

theorem mask_apply {N : ℕ} (hN : N ≤ 2 ^ 31)
    (hb : (⟨0, ![]⟩ : Shape).BroadcastsInDim ⟨2, ![N, 1]⟩ (![] : Fin 0 → Fin 2)) (n : Fin N) :
    (uitofp (F := Ideal) .f32 (cmpi .slt (iotaInDim ⟨2, ![N, 1]⟩ 32 0)
        (broadcastInDim ⟨2, ![N, 1]⟩ ![] hb (constantI ⟨0, ![]⟩ 32 1536#32))) : FVec Ideal ⟨2, ![N, 1]⟩ .f32) (ix2 n 0)
      = if n.val < 1536 then 1 else 0 := by
  show ((((IntOp.cmpi .slt (BitVec.ofNat 32 n.val)
      (broadcastInDim ⟨2, ![N, 1]⟩ ![] hb (constantI ⟨0, ![]⟩ 32 1536#32) (ix2 n 0))).toNat : ℕ) : ℝ) : EReal) = _
  rw [broadcastInDim_scalar_apply]
  show ((((IntOp.cmpi .slt (BitVec.ofNat 32 n.val) 1536#32).toNat : ℕ) : ℝ) : EReal) = _
  have hn := n.isLt
  have ha : (BitVec.ofNat 32 n.val).toNat = n.val := WordArith.toNat_ofNat_of_lt n.val (by omega)
  have hiff := Predicate.slt_iff_toNat (a := BitVec.ofNat 32 n.val) (b := 1536#32) (by rw [ha]; omega) (by decide)
  rw [ha, show (1536#32 : BitVec 32).toNat = 1536 by decide] at hiff
  by_cases h : n.val < 1536
  · rw [if_pos h, hiff.mpr h]
    simp
  · rw [if_neg h, eq_zero_of_ne_one (fun e => h (hiff.mp e))]
    simp

variable (m : (ℓ : Loc nD τ sig) → Buf (Elt Ideal) ℓ) (outs : Gen.Outs (F := Ideal)) (c : Dev nD)

macro "carry1" : tactic => `(tactic| first
  | (rw [Gen.V47_of]; rotate_left; decide) | (rw [Gen.V46_of]; rotate_left; decide)
  | (rw [Gen.V45_of]; rotate_left; decide) | (rw [Gen.V44_of]; rotate_left; decide)
  | (rw [Gen.V43_of]; rotate_left; decide) | (rw [Gen.V42_of]; rotate_left; decide)
  | (rw [Gen.V41_of]; rotate_left; decide) | (rw [Gen.V40_of]; rotate_left; decide)
  | (rw [Gen.V39_of]; rotate_left; decide) | (rw [Gen.V38_of]; rotate_left; decide)
  | (rw [Gen.V37_of]; rotate_left; decide) | (rw [Gen.V36_of]; rotate_left; decide)
  | (rw [Gen.V35_of]; rotate_left; decide) | (rw [Gen.V34_of]; rotate_left; decide)
  | (rw [Gen.V33_of]; rotate_left; decide) | (rw [Gen.V32_of]; rotate_left; decide)
  | (rw [Gen.V31_of]; rotate_left; decide) | (rw [Gen.V30_of]; rotate_left; decide)
  | (rw [Gen.V29_of]; rotate_left; decide) | (rw [Gen.V28_of]; rotate_left; decide)
  | (rw [Gen.V27_of]; rotate_left; decide) | (rw [Gen.V26_of]; rotate_left; decide)
  | (rw [Gen.V25_of]; rotate_left; decide) | (rw [Gen.V24_of]; rotate_left; decide)
  | (rw [Gen.V23_of]; rotate_left; decide) | (rw [Gen.V22_of]; rotate_left; decide)
  | (rw [Gen.V21_of]; rotate_left; decide) | (rw [Gen.V20_of]; rotate_left; decide)
  | (rw [Gen.V19_of]; rotate_left; decide) | (rw [Gen.V18_of]; rotate_left; decide)
  | (rw [Gen.V17_of]; rotate_left; decide) | (rw [Gen.V16_of]; rotate_left; decide)
  | (rw [Gen.V15_of]; rotate_left; decide) | (rw [Gen.V14_of]; rotate_left; decide)
  | (rw [Gen.V13_of]; rotate_left; decide) | (rw [Gen.V12_of]; rotate_left; decide)
  | (rw [Gen.V11_of]; rotate_left; decide) | (rw [Gen.V10_of]; rotate_left; decide)
  | (rw [Gen.V9_of]; rotate_left; decide) | (rw [Gen.V8_of]; rotate_left; decide)
  | (rw [Gen.V7_of]; rotate_left; decide) | (rw [Gen.V6_of]; rotate_left; decide)
  | (rw [Gen.V5_of]; rotate_left; decide) | (rw [Gen.V4_of]; rotate_left; decide)
  | (rw [Gen.V3_of]; rotate_left; decide) | (rw [Gen.V2_of]; rotate_left; decide)
  | (rw [Gen.V1_of]; rotate_left; decide))

theorem V1_v2 : (Gen.V1 m c main_v2 : S1000.Idx → EReal) =
    Host.divf (Host.reduceAdd (argsOf m c).medE (constant (F := Ideal) S_ .f32 0x00000000#32)
        Gen.reducesTo_S1000x128_S1000_d1 Gen.h_S_)
      (broadcastInDim S1000 ![] Gen.bcast_S_S1000 (constant (F := Ideal) S_ .f32 0x43000000#32)) := by
  have e : ∀ W : Valuation τ sig (Elt Ideal), (StableHlo.after Gen.hostOps0 W (Proc.devRef .tc main_v2) : S1000.Idx → EReal) =
      Host.divf (Host.reduceAdd (W (Proc.devRef .tc main_arg7) : S1000x128.Idx → EReal) (constant (F := Ideal) S_ .f32 0x00000000#32)
          Gen.reducesTo_S1000x128_S1000_d1 Gen.h_S_)
        (broadcastInDim S1000 ![] Gen.bcast_S_S1000 (constant (F := Ideal) S_ .f32 0x43000000#32)) := by
    intro W
    after_results <;> rfl
  exact e (Gen.V0 m c)

theorem V1_v5 : (Gen.V1 m c main_v5 : S3000.Idx → EReal) =
    Host.divf (Host.reduceAdd (argsOf m c).chartE (constant (F := Ideal) S_ .f32 0x00000000#32)
        Gen.reducesTo_S3000x128_S3000_d1 Gen.h_S_)
      (broadcastInDim S3000 ![] Gen.bcast_S_S3000 (constant (F := Ideal) S_ .f32 0x43000000#32)) := by
  have e : ∀ W : Valuation τ sig (Elt Ideal), (StableHlo.after Gen.hostOps0 W (Proc.devRef .tc main_v5) : S3000.Idx → EReal) =
      Host.divf (Host.reduceAdd (W (Proc.devRef .tc main_arg8) : S3000x128.Idx → EReal) (constant (F := Ideal) S_ .f32 0x00000000#32)
          Gen.reducesTo_S3000x128_S3000_d1 Gen.h_S_)
        (broadcastInDim S3000 ![] Gen.bcast_S_S3000 (constant (F := Ideal) S_ .f32 0x43000000#32)) := by
    intro W
    after_results <;> rfl
  exact e (Gen.V0 m c)

theorem V1_v8 : (Gen.V1 m c main_v8 : S500.Idx → EReal) =
    Host.divf (Host.reduceAdd (argsOf m c).outE (constant (F := Ideal) S_ .f32 0x00000000#32)
        Gen.reducesTo_S500x128_S500_d1 Gen.h_S_)
      (broadcastInDim S500 ![] Gen.bcast_S_S500 (constant (F := Ideal) S_ .f32 0x43000000#32)) := by
  have e : ∀ W : Valuation τ sig (Elt Ideal), (StableHlo.after Gen.hostOps0 W (Proc.devRef .tc main_v8) : S500.Idx → EReal) =
      Host.divf (Host.reduceAdd (W (Proc.devRef .tc main_arg9) : S500x128.Idx → EReal) (constant (F := Ideal) S_ .f32 0x00000000#32)
          Gen.reducesTo_S500x128_S500_d1 Gen.h_S_)
        (broadcastInDim S500 ![] Gen.bcast_S_S500 (constant (F := Ideal) S_ .f32 0x43000000#32)) := by
    intro W
    after_results <;> rfl
  exact e (Gen.V0 m c)

theorem V1_v11 : (Gen.V1 m c main_v11 : S1500.Idx → EReal) =
    Host.divf (Host.reduceAdd (argsOf m c).procE (constant (F := Ideal) S_ .f32 0x00000000#32)
        Gen.reducesTo_S1500x128_S1500_d1 Gen.h_S_)
      (broadcastInDim S1500 ![] Gen.bcast_S_S1500 (constant (F := Ideal) S_ .f32 0x43000000#32)) := by
  have e : ∀ W : Valuation τ sig (Elt Ideal), (StableHlo.after Gen.hostOps0 W (Proc.devRef .tc main_v11) : S1500.Idx → EReal) =
      Host.divf (Host.reduceAdd (W (Proc.devRef .tc main_arg10) : S1500x128.Idx → EReal) (constant (F := Ideal) S_ .f32 0x00000000#32)
          Gen.reducesTo_S1500x128_S1500_d1 Gen.h_S_)
        (broadcastInDim S1500 ![] Gen.bcast_S_S1500 (constant (F := Ideal) S_ .f32 0x43000000#32)) := by
    intro W
    after_results <;> rfl
  exact e (Gen.V0 m c)

theorem V1_c : (Gen.V1 m c main_c : S_.Idx → BitVec 32) = constantI S_ 32 0#32 := by
  have e : ∀ W : Valuation τ sig (Elt Ideal), (StableHlo.after Gen.hostOps0 W (Proc.devRef .tc main_c) : S_.Idx → BitVec 32) = constantI S_ 32 0#32 := by
    intro W
    after_results <;> rfl
  exact e (Gen.V0 m c)
theorem V1_c19 : (Gen.V1 m c main_c_19 : S_.Idx → BitVec 32) = constantI S_ 32 999#32 := by
  have e : ∀ W : Valuation τ sig (Elt Ideal), (StableHlo.after Gen.hostOps0 W (Proc.devRef .tc main_c_19) : S_.Idx → BitVec 32) = constantI S_ 32 999#32 := by
    intro W
    after_results <;> rfl
  exact e (Gen.V0 m c)

theorem V1_arg0 : (Gen.V1 m c main_arg0 : S64x24x100.Idx → BitVec 32) = (argsOf m c).meds := by
  carry1
  rfl

theorem V2_v30 : (Gen.V2 m c main_v30 : S64x24x100.Idx → BitVec 32) =
    minsi (broadcastInDim S64x24x100 ![] Gen.bcast_S_S64x24x100 (Gen.V1 m c main_c_19 : S_.Idx → BitVec 32))
      (maxsi (broadcastInDim S64x24x100 ![] Gen.bcast_S_S64x24x100 (Gen.V1 m c main_c : S_.Idx → BitVec 32))
        (Gen.V1 m c main_arg0 : S64x24x100.Idx → BitVec 32)) := by
  have e : ∀ W : Valuation τ sig (Elt Ideal), (StableHlo.after Gen.hostOps0_1 W (Proc.devRef .tc main_v30) : S64x24x100.Idx → BitVec 32) =
      minsi (broadcastInDim S64x24x100 ![] Gen.bcast_S_S64x24x100 (W (Proc.devRef .tc main_c_19) : S_.Idx → BitVec 32))
        (maxsi (broadcastInDim S64x24x100 ![] Gen.bcast_S_S64x24x100 (W (Proc.devRef .tc main_c) : S_.Idx → BitVec 32))
          (W (Proc.devRef .tc main_arg0) : S64x24x100.Idx → BitVec 32)) := by
    intro W
    after_results <;> rfl
  exact e (Gen.V1 m c)

theorem V3_v31 : (Gen.V3 m c main_v31 : S1536x100.Idx → BitVec 32) =
    shapeCast S1536x100 (Gen.V2 m c main_v30 : S64x24x100.Idx → BitVec 32) Gen.shapeCasts_S64x24x100_S1536x100 := by
  have e : ∀ W : Valuation τ sig (Elt Ideal), (StableHlo.after Gen.hostOps0_2 W (Proc.devRef .tc main_v31) : S1536x100.Idx → BitVec 32) =
      shapeCast S1536x100 (W (Proc.devRef .tc main_v30) : S64x24x100.Idx → BitVec 32) Gen.shapeCasts_S64x24x100_S1536x100 := by
    intro W
    after_results <;> rfl
  exact e (Gen.V2 m c)

theorem V21_v31 : Gen.V21 m c main_v31 = Gen.V3 m c main_v31 := by
  repeat carry1

theorem V21_c38 : (Gen.V21 m c main_c_38 : S_.Idx → BitVec 32) = constantI S_ 32 0#32 := by
  have e : ∀ W : Valuation τ sig (Elt Ideal), (StableHlo.after Gen.hostOps0_20 W (Proc.devRef .tc main_c_38) : S_.Idx → BitVec 32) = constantI S_ 32 0#32 := by
    intro W
    after_results <;> rfl
  exact e (Gen.V20 m c)
theorem V21_c39 : (Gen.V21 m c main_c_39 : S_.Idx → BitVec 32) = constantI S_ 32 999#32 := by
  have e : ∀ W : Valuation τ sig (Elt Ideal), (StableHlo.after Gen.hostOps0_20 W (Proc.devRef .tc main_c_39) : S_.Idx → BitVec 32) = constantI S_ 32 999#32 := by
    intro W
    after_results <;> rfl
  exact e (Gen.V20 m c)

theorem V22_v57 : (Gen.V22 m c main_v57 : S1536x100.Idx → BitVec 32) =
    minsi (broadcastInDim S1536x100 ![] Gen.bcast_S_S1536x100 (Gen.V21 m c main_c_39 : S_.Idx → BitVec 32))
      (maxsi (broadcastInDim S1536x100 ![] Gen.bcast_S_S1536x100 (Gen.V21 m c main_c_38 : S_.Idx → BitVec 32))
        (Gen.V21 m c main_v31 : S1536x100.Idx → BitVec 32)) := by
  have e : ∀ W : Valuation τ sig (Elt Ideal), (StableHlo.after Gen.hostOps0_21 W (Proc.devRef .tc main_v57) : S1536x100.Idx → BitVec 32) =
      minsi (broadcastInDim S1536x100 ![] Gen.bcast_S_S1536x100 (W (Proc.devRef .tc main_c_39) : S_.Idx → BitVec 32))
        (maxsi (broadcastInDim S1536x100 ![] Gen.bcast_S_S1536x100 (W (Proc.devRef .tc main_c_38) : S_.Idx → BitVec 32))
          (W (Proc.devRef .tc main_v31) : S1536x100.Idx → BitVec 32)) := by
    intro W
    after_results <;> rfl
  exact e (Gen.V21 m c)

theorem V25_v57 : Gen.V25 m c main_v57 = Gen.V22 m c main_v57 := by
  repeat carry1

theorem V25_c41 : (Gen.V25 m c main_c_41 : S_.Idx → BitVec 32) = constantI S_ 32 0#32 := by
  have e : ∀ W : Valuation τ sig (Elt Ideal), (StableHlo.after Gen.hostOps0_24 W (Proc.devRef .tc main_c_41) : S_.Idx → BitVec 32) = constantI S_ 32 0#32 := by
    intro W
    after_results <;> rfl
  exact e (Gen.V24 m c)

theorem V26_v60 : (Gen.V26 m c main_v60 : S1824x100.Idx → BitVec 32) =
    pad S1824x100 ![0, 0] ![288, 0] ![0, 0] (Gen.V25 m c main_v57 : S1536x100.Idx → BitVec 32)
      (Gen.V25 m c main_c_41 : S_.Idx → BitVec 32) Gen.pads_S1536x100_S1824x100_02880_000 Gen.h_S_ := by
  have e : ∀ W : Valuation τ sig (Elt Ideal), (StableHlo.after Gen.hostOps0_25 W (Proc.devRef .tc main_v60) : S1824x100.Idx → BitVec 32) =
      pad S1824x100 ![0, 0] ![288, 0] ![0, 0] (W (Proc.devRef .tc main_v57) : S1536x100.Idx → BitVec 32)
        (W (Proc.devRef .tc main_c_41) : S_.Idx → BitVec 32) Gen.pads_S1536x100_S1824x100_02880_000 Gen.h_S_ := by
    intro W
    after_results <;> rfl
  exact e (Gen.V25 m c)

theorem r0_idx (n : Fin 1824) (k : Fin 100) :
    (Gen.V27 m c main_v60 : S1824x100.Idx → BitVec 32) (ix2 n k)
      = if h : n.val < 1536 then
          BitVec.ofNat 32 (clampRow 1000
            ((argsOf m c).meds (ix3 ⟨n.val / 24, by omega⟩ ⟨n.val % 24, by omega⟩ k)).toInt)
        else 0#32 := by
  rw [Gen.V27_of m c main_v60 (by decide), V26_v60, V25_c41, V25_v57, V22_v57, V21_c38, V21_c39, V21_v31, V3_v31,
    V2_v30, V1_c, V1_c19, V1_arg0]
  refine (padRows_apply 288 _ Gen.h_S_ Gen.pads_S1536x100_S1824x100_02880_000 n k).trans ?_
  by_cases h : n.val < 1536
  · rw [dif_pos h, dif_pos h]
    exact idx_apply 1000 999#32 (by decide) (by norm_num) (argsOf m c).meds Gen.bcast_S_S64x24x100
      Gen.shapeCasts_S64x24x100_S1536x100 Gen.bcast_S_S1536x100 ⟨n.val, h⟩ k
  · rw [dif_neg h, dif_neg h]

theorem V23_c40 : (Gen.V23 m c main_c_40 : S_.Idx → BitVec 32) = constantI S_ 32 0#32 := by
  have e : ∀ W : Valuation τ sig (Elt Ideal), (StableHlo.after Gen.hostOps0_22 W (Proc.devRef .tc main_c_40) : S_.Idx → BitVec 32) = constantI S_ 32 0#32 := by
    intro W
    after_results <;> rfl
  exact e (Gen.V22 m c)

theorem V23_v2 : Gen.V23 m c main_v2 = Gen.V1 m c main_v2 := by
  repeat carry1

theorem V24_v58 : (Gen.V24 m c main_v58 : S1024.Idx → EReal) =
    pad S1024 ![0] ![24] ![0] (Gen.V23 m c main_v2 : S1000.Idx → EReal)
      (sitofp (F := Ideal) .f32 (Gen.V23 m c main_c_40 : S_.Idx → BitVec 32)) Gen.pads_S1000_S1024_0240 Gen.h_S_ := by
  have e : ∀ W : Valuation τ sig (Elt Ideal), (StableHlo.after Gen.hostOps0_23 W (Proc.devRef .tc main_v58) : S1024.Idx → EReal) =
      pad S1024 ![0] ![24] ![0] (W (Proc.devRef .tc main_v2) : S1000.Idx → EReal)
        (sitofp (F := Ideal) .f32 (W (Proc.devRef .tc main_c_40) : S_.Idx → BitVec 32)) Gen.pads_S1000_S1024_0240 Gen.h_S_ := by
    intro W
    after_results <;> rfl
  exact e (Gen.V23 m c)

theorem V25_v59 : (Gen.V25 m c main_v59 : S1024x1.Idx → EReal) =
    shapeCast S1024x1 (Gen.V24 m c main_v58 : S1024.Idx → EReal) Gen.shapeCasts_S1024_S1024x1 := by
  have e : ∀ W : Valuation τ sig (Elt Ideal), (StableHlo.after Gen.hostOps0_24 W (Proc.devRef .tc main_v59) : S1024x1.Idx → EReal) =
      shapeCast S1024x1 (W (Proc.devRef .tc main_v58) : S1024.Idx → EReal) Gen.shapeCasts_S1024_S1024x1 := by
    intro W
    after_results <;> rfl
  exact e (Gen.V24 m c)

theorem r0_tab (hA : (argsOf m c).Finite) (v : Fin 1024) :
    (Gen.V27 m c main_v59 : S1024x1.Idx → EReal) (ix2 v 0) = ((rowMean (argsOf m c).medE v.val : ℝ) : EReal) := by
  rw [Gen.V27_of m c main_v59 (by decide), Gen.V26_of m c main_v59 (by decide), V25_v59, V24_v58, V23_c40, V23_v2, V1_v2]
  exact padMean_apply 24 (argsOf m c).medE hA.medE Gen.reducesTo_S1000x128_S1000_d1 Gen.h_S_ Gen.bcast_S_S1000
    Gen.pads_S1000_S1024_0240 Gen.shapeCasts_S1024_S1024x1 v

theorem V27_v64 : (Gen.V27 m c main_v64 : S1824x1.Idx → EReal) =
    uitofp (F := Ideal) .f32 (cmpi .slt (iotaInDim S1824x1 32 0)
      (broadcastInDim S1824x1 ![] Gen.bcast_S_S1824x1 (constantI S_ 32 1536#32))) := by
  have e : ∀ W : Valuation τ sig (Elt Ideal), (StableHlo.after Gen.hostOps0_26 W (Proc.devRef .tc main_v64) : S1824x1.Idx → EReal) =
      uitofp (F := Ideal) .f32 (cmpi .slt (iotaInDim S1824x1 32 0)
        (broadcastInDim S1824x1 ![] Gen.bcast_S_S1824x1 (constantI S_ 32 1536#32))) := by
    intro W
    after_results <;> rfl
  exact e (Gen.V26 m c)

theorem r0_mask (n : Fin 1824) :
    (Gen.V27 m c main_v64 : S1824x1.Idx → EReal) (ix2 n 0) = if n.val < 1536 then (1 : EReal) else 0 := by
  rw [V27_v64]
  exact mask_apply (by norm_num) Gen.bcast_S_S1824x1 n

theorem V3_arg1 : (Gen.V3 m c main_arg1 : S64x24x200.Idx → BitVec 32) = (argsOf m c).chart := by
  repeat carry1
  rfl

theorem V3_c20 : (Gen.V3 m c main_c_20 : S_.Idx → BitVec 32) = constantI S_ 32 0#32 := by
  have e : ∀ W : Valuation τ sig (Elt Ideal), (StableHlo.after Gen.hostOps0_2 W (Proc.devRef .tc main_c_20) : S_.Idx → BitVec 32) = constantI S_ 32 0#32 := by
    intro W
    after_results <;> rfl
  exact e (Gen.V2 m c)
theorem V3_c21 : (Gen.V3 m c main_c_21 : S_.Idx → BitVec 32) = constantI S_ 32 2999#32 := by
  have e : ∀ W : Valuation τ sig (Elt Ideal), (StableHlo.after Gen.hostOps0_2 W (Proc.devRef .tc main_c_21) : S_.Idx → BitVec 32) = constantI S_ 32 2999#32 := by
    intro W
    after_results <;> rfl
  exact e (Gen.V2 m c)

theorem V4_v32 : (Gen.V4 m c main_v32 : S64x24x200.Idx → BitVec 32) =
    minsi (broadcastInDim S64x24x200 ![] Gen.bcast_S_S64x24x200 (Gen.V3 m c main_c_21 : S_.Idx → BitVec 32))
      (maxsi (broadcastInDim S64x24x200 ![] Gen.bcast_S_S64x24x200 (Gen.V3 m c main_c_20 : S_.Idx → BitVec 32))
        (Gen.V3 m c main_arg1 : S64x24x200.Idx → BitVec 32)) := by
  have e : ∀ W : Valuation τ sig (Elt Ideal), (StableHlo.after Gen.hostOps0_3 W (Proc.devRef .tc main_v32) : S64x24x200.Idx → BitVec 32) =
      minsi (broadcastInDim S64x24x200 ![] Gen.bcast_S_S64x24x200 (W (Proc.devRef .tc main_c_21) : S_.Idx → BitVec 32))
        (maxsi (broadcastInDim S64x24x200 ![] Gen.bcast_S_S64x24x200 (W (Proc.devRef .tc main_c_20) : S_.Idx → BitVec 32))
          (W (Proc.devRef .tc main_arg1) : S64x24x200.Idx → BitVec 32)) := by
    intro W
    after_results <;> rfl
  exact e (Gen.V3 m c)

theorem V5_v33 : (Gen.V5 m c main_v33 : S1536x200.Idx → BitVec 32) =
    shapeCast S1536x200 (Gen.V4 m c main_v32 : S64x24x200.Idx → BitVec 32) Gen.shapeCasts_S64x24x200_S1536x200 := by
  have e : ∀ W : Valuation τ sig (Elt Ideal), (StableHlo.after Gen.hostOps0_4 W (Proc.devRef .tc main_v33) : S1536x200.Idx → BitVec 32) =
      shapeCast S1536x200 (W (Proc.devRef .tc main_v32) : S64x24x200.Idx → BitVec 32) Gen.shapeCasts_S64x24x200_S1536x200 := by
    intro W
    after_results <;> rfl
  exact e (Gen.V4 m c)

theorem V29_v33 : Gen.V29 m outs c main_v33 = Gen.V5 m c main_v33 := by
  repeat carry1

theorem V29_c44 : (Gen.V29 m outs c main_c_44 : S_.Idx → BitVec 32) = constantI S_ 32 0#32 := by
  have e : ∀ W : Valuation τ sig (Elt Ideal), (StableHlo.after Gen.hostOps1 W (Proc.devRef .tc main_c_44) : S_.Idx → BitVec 32) = constantI S_ 32 0#32 := by
    intro W
    after_results <;> rfl
  exact e (Gen.V28 m outs c)
theorem V29_c45 : (Gen.V29 m outs c main_c_45 : S_.Idx → BitVec 32) = constantI S_ 32 2999#32 := by
  have e : ∀ W : Valuation τ sig (Elt Ideal), (StableHlo.after Gen.hostOps1 W (Proc.devRef .tc main_c_45) : S_.Idx → BitVec 32) = constantI S_ 32 2999#32 := by
    intro W
    after_results <;> rfl
  exact e (Gen.V28 m outs c)

theorem V30_v68 : (Gen.V30 m outs c main_v68 : S1536x200.Idx → BitVec 32) =
    minsi (broadcastInDim S1536x200 ![] Gen.bcast_S_S1536x200 (Gen.V29 m outs c main_c_45 : S_.Idx → BitVec 32))
      (maxsi (broadcastInDim S1536x200 ![] Gen.bcast_S_S1536x200 (Gen.V29 m outs c main_c_44 : S_.Idx → BitVec 32))
        (Gen.V29 m outs c main_v33 : S1536x200.Idx → BitVec 32)) := by
  have e : ∀ W : Valuation τ sig (Elt Ideal), (StableHlo.after Gen.hostOps1_1 W (Proc.devRef .tc main_v68) : S1536x200.Idx → BitVec 32) =
      minsi (broadcastInDim S1536x200 ![] Gen.bcast_S_S1536x200 (W (Proc.devRef .tc main_c_45) : S_.Idx → BitVec 32))
        (maxsi (broadcastInDim S1536x200 ![] Gen.bcast_S_S1536x200 (W (Proc.devRef .tc main_c_44) : S_.Idx → BitVec 32))
          (W (Proc.devRef .tc main_v33) : S1536x200.Idx → BitVec 32)) := by
    intro W
    after_results <;> rfl
  exact e (Gen.V29 m outs c)

theorem V33_v68 : Gen.V33 m outs c main_v68 = Gen.V30 m outs c main_v68 := by
  repeat carry1

theorem V33_c47 : (Gen.V33 m outs c main_c_47 : S_.Idx → BitVec 32) = constantI S_ 32 0#32 := by
  have e : ∀ W : Valuation τ sig (Elt Ideal), (StableHlo.after Gen.hostOps1_4 W (Proc.devRef .tc main_c_47) : S_.Idx → BitVec 32) = constantI S_ 32 0#32 := by
    intro W
    after_results <;> rfl
  exact e (Gen.V32 m outs c)

theorem V34_v71 : (Gen.V34 m outs c main_v71 : S1584x200.Idx → BitVec 32) =
    pad S1584x200 ![0, 0] ![48, 0] ![0, 0] (Gen.V33 m outs c main_v68 : S1536x200.Idx → BitVec 32)
      (Gen.V33 m outs c main_c_47 : S_.Idx → BitVec 32) Gen.pads_S1536x200_S1584x200_0480_000 Gen.h_S_ := by
  have e : ∀ W : Valuation τ sig (Elt Ideal), (StableHlo.after Gen.hostOps1_5 W (Proc.devRef .tc main_v71) : S1584x200.Idx → BitVec 32) =
      pad S1584x200 ![0, 0] ![48, 0] ![0, 0] (W (Proc.devRef .tc main_v68) : S1536x200.Idx → BitVec 32)
        (W (Proc.devRef .tc main_c_47) : S_.Idx → BitVec 32) Gen.pads_S1536x200_S1584x200_0480_000 Gen.h_S_ := by
    intro W
    after_results <;> rfl
  exact e (Gen.V33 m outs c)

theorem r1_idx (n : Fin 1584) (k : Fin 200) :
    (Gen.V35 m outs c main_v71 : S1584x200.Idx → BitVec 32) (ix2 n k)
      = if h : n.val < 1536 then
          BitVec.ofNat 32 (clampRow 3000
            ((argsOf m c).chart (ix3 ⟨n.val / 24, by omega⟩ ⟨n.val % 24, by omega⟩ k)).toInt)
        else 0#32 := by
  rw [Gen.V35_of m outs c main_v71 (by decide), V34_v71, V33_c47, V33_v68, V30_v68, V29_c44, V29_c45, V29_v33, V5_v33,
    V4_v32, V3_c20, V3_c21, V3_arg1]
  refine (padRows_apply 48 _ Gen.h_S_ Gen.pads_S1536x200_S1584x200_0480_000 n k).trans ?_
  by_cases h : n.val < 1536
  · rw [dif_pos h, dif_pos h]
    exact idx_apply 3000 2999#32 (by decide) (by norm_num) (argsOf m c).chart Gen.bcast_S_S64x24x200
      Gen.shapeCasts_S64x24x200_S1536x200 Gen.bcast_S_S1536x200 ⟨n.val, h⟩ k
  · rw [dif_neg h, dif_neg h]

theorem V31_c46 : (Gen.V31 m outs c main_c_46 : S_.Idx → BitVec 32) = constantI S_ 32 0#32 := by
  have e : ∀ W : Valuation τ sig (Elt Ideal), (StableHlo.after Gen.hostOps1_2 W (Proc.devRef .tc main_c_46) : S_.Idx → BitVec 32) = constantI S_ 32 0#32 := by
    intro W
    after_results <;> rfl
  exact e (Gen.V30 m outs c)

theorem V31_v5 : Gen.V31 m outs c main_v5 = Gen.V1 m c main_v5 := by
  repeat carry1

theorem V32_v69 : (Gen.V32 m outs c main_v69 : S3072.Idx → EReal) =
    pad S3072 ![0] ![72] ![0] (Gen.V31 m outs c main_v5 : S3000.Idx → EReal)
      (sitofp (F := Ideal) .f32 (Gen.V31 m outs c main_c_46 : S_.Idx → BitVec 32)) Gen.pads_S3000_S3072_0720 Gen.h_S_ := by
  have e : ∀ W : Valuation τ sig (Elt Ideal), (StableHlo.after Gen.hostOps1_3 W (Proc.devRef .tc main_v69) : S3072.Idx → EReal) =
      pad S3072 ![0] ![72] ![0] (W (Proc.devRef .tc main_v5) : S3000.Idx → EReal)
        (sitofp (F := Ideal) .f32 (W (Proc.devRef .tc main_c_46) : S_.Idx → BitVec 32)) Gen.pads_S3000_S3072_0720 Gen.h_S_ := by
    intro W
    after_results <;> rfl
  exact e (Gen.V31 m outs c)

theorem V33_v70 : (Gen.V33 m outs c main_v70 : S3072x1.Idx → EReal) =
    shapeCast S3072x1 (Gen.V32 m outs c main_v69 : S3072.Idx → EReal) Gen.shapeCasts_S3072_S3072x1 := by
  have e : ∀ W : Valuation τ sig (Elt Ideal), (StableHlo.after Gen.hostOps1_4 W (Proc.devRef .tc main_v70) : S3072x1.Idx → EReal) =
      shapeCast S3072x1 (W (Proc.devRef .tc main_v69) : S3072.Idx → EReal) Gen.shapeCasts_S3072_S3072x1 := by
    intro W
    after_results <;> rfl
  exact e (Gen.V32 m outs c)

theorem r1_tab (hA : (argsOf m c).Finite) (v : Fin 3072) :
    (Gen.V35 m outs c main_v70 : S3072x1.Idx → EReal) (ix2 v 0) = ((rowMean (argsOf m c).chartE v.val : ℝ) : EReal) := by
  rw [Gen.V35_of m outs c main_v70 (by decide), Gen.V34_of m outs c main_v70 (by decide), V33_v70, V32_v69, V31_c46,
    V31_v5, V1_v5]
  exact padMean_apply 72 (argsOf m c).chartE hA.chartE Gen.reducesTo_S3000x128_S3000_d1 Gen.h_S_ Gen.bcast_S_S3000
    Gen.pads_S3000_S3072_0720 Gen.shapeCasts_S3072_S3072x1 v

theorem V35_v75 : (Gen.V35 m outs c main_v75 : S1584x1.Idx → EReal) =
    uitofp (F := Ideal) .f32 (cmpi .slt (iotaInDim S1584x1 32 0)
      (broadcastInDim S1584x1 ![] Gen.bcast_S_S1584x1 (constantI S_ 32 1536#32))) := by
  have e : ∀ W : Valuation τ sig (Elt Ideal), (StableHlo.after Gen.hostOps1_6 W (Proc.devRef .tc main_v75) : S1584x1.Idx → EReal) =
      uitofp (F := Ideal) .f32 (cmpi .slt (iotaInDim S1584x1 32 0)
        (broadcastInDim S1584x1 ![] Gen.bcast_S_S1584x1 (constantI S_ 32 1536#32))) := by
    intro W
    after_results <;> rfl
  exact e (Gen.V34 m outs c)

theorem r1_mask (n : Fin 1584) :
    (Gen.V35 m outs c main_v75 : S1584x1.Idx → EReal) (ix2 n 0) = if n.val < 1536 then (1 : EReal) else 0 := by
  rw [V35_v75]
  exact mask_apply (by norm_num) Gen.bcast_S_S1584x1 n

theorem V5_arg2 : (Gen.V5 m c main_arg2 : S64x24x50.Idx → BitVec 32) = (argsOf m c).out := by
  repeat carry1
  rfl

theorem V5_c22 : (Gen.V5 m c main_c_22 : S_.Idx → BitVec 32) = constantI S_ 32 0#32 := by
  have e : ∀ W : Valuation τ sig (Elt Ideal), (StableHlo.after Gen.hostOps0_4 W (Proc.devRef .tc main_c_22) : S_.Idx → BitVec 32) = constantI S_ 32 0#32 := by
    intro W
    after_results <;> rfl
  exact e (Gen.V4 m c)
theorem V5_c23 : (Gen.V5 m c main_c_23 : S_.Idx → BitVec 32) = constantI S_ 32 499#32 := by
  have e : ∀ W : Valuation τ sig (Elt Ideal), (StableHlo.after Gen.hostOps0_4 W (Proc.devRef .tc main_c_23) : S_.Idx → BitVec 32) = constantI S_ 32 499#32 := by
    intro W
    after_results <;> rfl
  exact e (Gen.V4 m c)

theorem V6_v34 : (Gen.V6 m c main_v34 : S64x24x50.Idx → BitVec 32) =
    minsi (broadcastInDim S64x24x50 ![] Gen.bcast_S_S64x24x50 (Gen.V5 m c main_c_23 : S_.Idx → BitVec 32))
      (maxsi (broadcastInDim S64x24x50 ![] Gen.bcast_S_S64x24x50 (Gen.V5 m c main_c_22 : S_.Idx → BitVec 32))
        (Gen.V5 m c main_arg2 : S64x24x50.Idx → BitVec 32)) := by
  have e : ∀ W : Valuation τ sig (Elt Ideal), (StableHlo.after Gen.hostOps0_5 W (Proc.devRef .tc main_v34) : S64x24x50.Idx → BitVec 32) =
      minsi (broadcastInDim S64x24x50 ![] Gen.bcast_S_S64x24x50 (W (Proc.devRef .tc main_c_23) : S_.Idx → BitVec 32))
        (maxsi (broadcastInDim S64x24x50 ![] Gen.bcast_S_S64x24x50 (W (Proc.devRef .tc main_c_22) : S_.Idx → BitVec 32))
          (W (Proc.devRef .tc main_arg2) : S64x24x50.Idx → BitVec 32)) := by
    intro W
    after_results <;> rfl
  exact e (Gen.V5 m c)

theorem V7_v35 : (Gen.V7 m c main_v35 : S1536x50.Idx → BitVec 32) =
    shapeCast S1536x50 (Gen.V6 m c main_v34 : S64x24x50.Idx → BitVec 32) Gen.shapeCasts_S64x24x50_S1536x50 := by
  have e : ∀ W : Valuation τ sig (Elt Ideal), (StableHlo.after Gen.hostOps0_6 W (Proc.devRef .tc main_v35) : S1536x50.Idx → BitVec 32) =
      shapeCast S1536x50 (W (Proc.devRef .tc main_v34) : S64x24x50.Idx → BitVec 32) Gen.shapeCasts_S64x24x50_S1536x50 := by
    intro W
    after_results <;> rfl
  exact e (Gen.V6 m c)

theorem V37_v35 : Gen.V37 m outs c main_v35 = Gen.V7 m c main_v35 := by
  repeat carry1

theorem V37_c50 : (Gen.V37 m outs c main_c_50 : S_.Idx → BitVec 32) = constantI S_ 32 0#32 := by
  have e : ∀ W : Valuation τ sig (Elt Ideal), (StableHlo.after Gen.hostOps2 W (Proc.devRef .tc main_c_50) : S_.Idx → BitVec 32) = constantI S_ 32 0#32 := by
    intro W
    after_results <;> rfl
  exact e (Gen.V36 m outs c)
theorem V37_c51 : (Gen.V37 m outs c main_c_51 : S_.Idx → BitVec 32) = constantI S_ 32 499#32 := by
  have e : ∀ W : Valuation τ sig (Elt Ideal), (StableHlo.after Gen.hostOps2 W (Proc.devRef .tc main_c_51) : S_.Idx → BitVec 32) = constantI S_ 32 499#32 := by
    intro W
    after_results <;> rfl
  exact e (Gen.V36 m outs c)

theorem V38_v79 : (Gen.V38 m outs c main_v79 : S1536x50.Idx → BitVec 32) =
    minsi (broadcastInDim S1536x50 ![] Gen.bcast_S_S1536x50 (Gen.V37 m outs c main_c_51 : S_.Idx → BitVec 32))
      (maxsi (broadcastInDim S1536x50 ![] Gen.bcast_S_S1536x50 (Gen.V37 m outs c main_c_50 : S_.Idx → BitVec 32))
        (Gen.V37 m outs c main_v35 : S1536x50.Idx → BitVec 32)) := by
  have e : ∀ W : Valuation τ sig (Elt Ideal), (StableHlo.after Gen.hostOps2_1 W (Proc.devRef .tc main_v79) : S1536x50.Idx → BitVec 32) =
      minsi (broadcastInDim S1536x50 ![] Gen.bcast_S_S1536x50 (W (Proc.devRef .tc main_c_51) : S_.Idx → BitVec 32))
        (maxsi (broadcastInDim S1536x50 ![] Gen.bcast_S_S1536x50 (W (Proc.devRef .tc main_c_50) : S_.Idx → BitVec 32))
          (W (Proc.devRef .tc main_v35) : S1536x50.Idx → BitVec 32)) := by
    intro W
    after_results <;> rfl
  exact e (Gen.V37 m outs c)

theorem V41_v79 : Gen.V41 m outs c main_v79 = Gen.V38 m outs c main_v79 := by
  repeat carry1

theorem r2_idx (n : Fin 1536) (k : Fin 50) :
    (Gen.V41 m outs c main_v79 : S1536x50.Idx → BitVec 32) (ix2 n k)
      = BitVec.ofNat 32 (clampRow 500
          ((argsOf m c).out (ix3 ⟨n.val / 24, by omega⟩ ⟨n.val % 24, by omega⟩ k)).toInt) := by
  rw [V41_v79, V38_v79, V37_c50, V37_c51, V37_v35, V7_v35, V6_v34, V5_c22, V5_c23, V5_arg2]
  exact idx_apply 500 499#32 (by decide) (by norm_num) (argsOf m c).out Gen.bcast_S_S64x24x50
    Gen.shapeCasts_S64x24x50_S1536x50 Gen.bcast_S_S1536x50 n k

theorem V39_c52 : (Gen.V39 m outs c main_c_52 : S_.Idx → BitVec 32) = constantI S_ 32 0#32 := by
  have e : ∀ W : Valuation τ sig (Elt Ideal), (StableHlo.after Gen.hostOps2_2 W (Proc.devRef .tc main_c_52) : S_.Idx → BitVec 32) = constantI S_ 32 0#32 := by
    intro W
    after_results <;> rfl
  exact e (Gen.V38 m outs c)

theorem V39_v8 : Gen.V39 m outs c main_v8 = Gen.V1 m c main_v8 := by
  repeat carry1

theorem V40_v80 : (Gen.V40 m outs c main_v80 : S512.Idx → EReal) =
    pad S512 ![0] ![12] ![0] (Gen.V39 m outs c main_v8 : S500.Idx → EReal)
      (sitofp (F := Ideal) .f32 (Gen.V39 m outs c main_c_52 : S_.Idx → BitVec 32)) Gen.pads_S500_S512_0120 Gen.h_S_ := by
  have e : ∀ W : Valuation τ sig (Elt Ideal), (StableHlo.after Gen.hostOps2_3 W (Proc.devRef .tc main_v80) : S512.Idx → EReal) =
      pad S512 ![0] ![12] ![0] (W (Proc.devRef .tc main_v8) : S500.Idx → EReal)
        (sitofp (F := Ideal) .f32 (W (Proc.devRef .tc main_c_52) : S_.Idx → BitVec 32)) Gen.pads_S500_S512_0120 Gen.h_S_ := by
    intro W
    after_results <;> rfl
  exact e (Gen.V39 m outs c)

theorem V41_v81 : (Gen.V41 m outs c main_v81 : S512x1.Idx → EReal) =
    shapeCast S512x1 (Gen.V40 m outs c main_v80 : S512.Idx → EReal) Gen.shapeCasts_S512_S512x1 := by
  have e : ∀ W : Valuation τ sig (Elt Ideal), (StableHlo.after Gen.hostOps2_4 W (Proc.devRef .tc main_v81) : S512x1.Idx → EReal) =
      shapeCast S512x1 (W (Proc.devRef .tc main_v80) : S512.Idx → EReal) Gen.shapeCasts_S512_S512x1 := by
    intro W
    after_results <;> rfl
  exact e (Gen.V40 m outs c)

theorem r2_tab (hA : (argsOf m c).Finite) (v : Fin 512) :
    (Gen.V41 m outs c main_v81 : S512x1.Idx → EReal) (ix2 v 0) = ((rowMean (argsOf m c).outE v.val : ℝ) : EReal) := by
  rw [V41_v81, V40_v80, V39_c52, V39_v8, V1_v8]
  exact padMean_apply 12 (argsOf m c).outE hA.outE Gen.reducesTo_S500x128_S500_d1 Gen.h_S_ Gen.bcast_S_S500
    Gen.pads_S500_S512_0120 Gen.shapeCasts_S512_S512x1 v

theorem V41_v85 : (Gen.V41 m outs c main_v85 : S1536x1.Idx → EReal) =
    uitofp (F := Ideal) .f32 (cmpi .slt (iotaInDim S1536x1 32 0)
      (broadcastInDim S1536x1 ![] Gen.bcast_S_S1536x1 (constantI S_ 32 1536#32))) := by
  have e : ∀ W : Valuation τ sig (Elt Ideal), (StableHlo.after Gen.hostOps2_4 W (Proc.devRef .tc main_v85) : S1536x1.Idx → EReal) =
      uitofp (F := Ideal) .f32 (cmpi .slt (iotaInDim S1536x1 32 0)
        (broadcastInDim S1536x1 ![] Gen.bcast_S_S1536x1 (constantI S_ 32 1536#32))) := by
    intro W
    after_results <;> rfl
  exact e (Gen.V40 m outs c)

theorem r2_mask (n : Fin 1536) :
    (Gen.V41 m outs c main_v85 : S1536x1.Idx → EReal) (ix2 n 0) = if n.val < 1536 then (1 : EReal) else 0 := by
  rw [V41_v85]
  exact mask_apply (by norm_num) Gen.bcast_S_S1536x1 n
theorem r2_mask_one (n : Fin 1536) : (Gen.V41 m outs c main_v85 : S1536x1.Idx → EReal) (ix2 n 0) = (1 : EReal) := by
  rw [r2_mask, if_pos n.isLt]

theorem V7_arg3 : (Gen.V7 m c main_arg3 : S64x24x50.Idx → BitVec 32) = (argsOf m c).proc := by
  repeat carry1
  rfl

theorem V7_c24 : (Gen.V7 m c main_c_24 : S_.Idx → BitVec 32) = constantI S_ 32 0#32 := by
  have e : ∀ W : Valuation τ sig (Elt Ideal), (StableHlo.after Gen.hostOps0_6 W (Proc.devRef .tc main_c_24) : S_.Idx → BitVec 32) = constantI S_ 32 0#32 := by
    intro W
    after_results <;> rfl
  exact e (Gen.V6 m c)
theorem V7_c25 : (Gen.V7 m c main_c_25 : S_.Idx → BitVec 32) = constantI S_ 32 1499#32 := by
  have e : ∀ W : Valuation τ sig (Elt Ideal), (StableHlo.after Gen.hostOps0_6 W (Proc.devRef .tc main_c_25) : S_.Idx → BitVec 32) = constantI S_ 32 1499#32 := by
    intro W
    after_results <;> rfl
  exact e (Gen.V6 m c)

theorem V8_v36 : (Gen.V8 m c main_v36 : S64x24x50.Idx → BitVec 32) =
    minsi (broadcastInDim S64x24x50 ![] Gen.bcast_S_S64x24x50 (Gen.V7 m c main_c_25 : S_.Idx → BitVec 32))
      (maxsi (broadcastInDim S64x24x50 ![] Gen.bcast_S_S64x24x50 (Gen.V7 m c main_c_24 : S_.Idx → BitVec 32))
        (Gen.V7 m c main_arg3 : S64x24x50.Idx → BitVec 32)) := by
  have e : ∀ W : Valuation τ sig (Elt Ideal), (StableHlo.after Gen.hostOps0_7 W (Proc.devRef .tc main_v36) : S64x24x50.Idx → BitVec 32) =
      minsi (broadcastInDim S64x24x50 ![] Gen.bcast_S_S64x24x50 (W (Proc.devRef .tc main_c_25) : S_.Idx → BitVec 32))
        (maxsi (broadcastInDim S64x24x50 ![] Gen.bcast_S_S64x24x50 (W (Proc.devRef .tc main_c_24) : S_.Idx → BitVec 32))
          (W (Proc.devRef .tc main_arg3) : S64x24x50.Idx → BitVec 32)) := by
    intro W
    after_results <;> rfl
  exact e (Gen.V7 m c)

theorem V9_v37 : (Gen.V9 m c main_v37 : S1536x50.Idx → BitVec 32) =
    shapeCast S1536x50 (Gen.V8 m c main_v36 : S64x24x50.Idx → BitVec 32) Gen.shapeCasts_S64x24x50_S1536x50 := by
  have e : ∀ W : Valuation τ sig (Elt Ideal), (StableHlo.after Gen.hostOps0_8 W (Proc.devRef .tc main_v37) : S1536x50.Idx → BitVec 32) =
      shapeCast S1536x50 (W (Proc.devRef .tc main_v36) : S64x24x50.Idx → BitVec 32) Gen.shapeCasts_S64x24x50_S1536x50 := by
    intro W
    after_results <;> rfl
  exact e (Gen.V8 m c)

theorem V43_v37 : Gen.V43 m outs c main_v37 = Gen.V9 m c main_v37 := by
  repeat carry1

theorem V43_c55 : (Gen.V43 m outs c main_c_55 : S_.Idx → BitVec 32) = constantI S_ 32 0#32 := by
  have e : ∀ W : Valuation τ sig (Elt Ideal), (StableHlo.after Gen.hostOps3 W (Proc.devRef .tc main_c_55) : S_.Idx → BitVec 32) = constantI S_ 32 0#32 := by
    intro W
    after_results <;> rfl
  exact e (Gen.V42 m outs c)
theorem V43_c56 : (Gen.V43 m outs c main_c_56 : S_.Idx → BitVec 32) = constantI S_ 32 1499#32 := by
  have e : ∀ W : Valuation τ sig (Elt Ideal), (StableHlo.after Gen.hostOps3 W (Proc.devRef .tc main_c_56) : S_.Idx → BitVec 32) = constantI S_ 32 1499#32 := by
    intro W
    after_results <;> rfl
  exact e (Gen.V42 m outs c)

theorem V44_v89 : (Gen.V44 m outs c main_v89 : S1536x50.Idx → BitVec 32) =
    minsi (broadcastInDim S1536x50 ![] Gen.bcast_S_S1536x50 (Gen.V43 m outs c main_c_56 : S_.Idx → BitVec 32))
      (maxsi (broadcastInDim S1536x50 ![] Gen.bcast_S_S1536x50 (Gen.V43 m outs c main_c_55 : S_.Idx → BitVec 32))
        (Gen.V43 m outs c main_v37 : S1536x50.Idx → BitVec 32)) := by
  have e : ∀ W : Valuation τ sig (Elt Ideal), (StableHlo.after Gen.hostOps3_1 W (Proc.devRef .tc main_v89) : S1536x50.Idx → BitVec 32) =
      minsi (broadcastInDim S1536x50 ![] Gen.bcast_S_S1536x50 (W (Proc.devRef .tc main_c_56) : S_.Idx → BitVec 32))
        (maxsi (broadcastInDim S1536x50 ![] Gen.bcast_S_S1536x50 (W (Proc.devRef .tc main_c_55) : S_.Idx → BitVec 32))
          (W (Proc.devRef .tc main_v37) : S1536x50.Idx → BitVec 32)) := by
    intro W
    after_results <;> rfl
  exact e (Gen.V43 m outs c)

theorem V47_v89 : Gen.V47 m outs c main_v89 = Gen.V44 m outs c main_v89 := by
  repeat carry1

theorem r3_idx (n : Fin 1536) (k : Fin 50) :
    (Gen.V47 m outs c main_v89 : S1536x50.Idx → BitVec 32) (ix2 n k)
      = BitVec.ofNat 32 (clampRow 1500
          ((argsOf m c).proc (ix3 ⟨n.val / 24, by omega⟩ ⟨n.val % 24, by omega⟩ k)).toInt) := by
  rw [V47_v89, V44_v89, V43_c55, V43_c56, V43_v37, V9_v37, V8_v36, V7_c24, V7_c25, V7_arg3]
  exact idx_apply 1500 1499#32 (by decide) (by norm_num) (argsOf m c).proc Gen.bcast_S_S64x24x50
    Gen.shapeCasts_S64x24x50_S1536x50 Gen.bcast_S_S1536x50 n k

theorem V45_c57 : (Gen.V45 m outs c main_c_57 : S_.Idx → BitVec 32) = constantI S_ 32 0#32 := by
  have e : ∀ W : Valuation τ sig (Elt Ideal), (StableHlo.after Gen.hostOps3_2 W (Proc.devRef .tc main_c_57) : S_.Idx → BitVec 32) = constantI S_ 32 0#32 := by
    intro W
    after_results <;> rfl
  exact e (Gen.V44 m outs c)

theorem V45_v11 : Gen.V45 m outs c main_v11 = Gen.V1 m c main_v11 := by
  repeat carry1

theorem V46_v90 : (Gen.V46 m outs c main_v90 : S1536.Idx → EReal) =
    pad S1536 ![0] ![36] ![0] (Gen.V45 m outs c main_v11 : S1500.Idx → EReal)
      (sitofp (F := Ideal) .f32 (Gen.V45 m outs c main_c_57 : S_.Idx → BitVec 32)) Gen.pads_S1500_S1536_0360 Gen.h_S_ := by
  have e : ∀ W : Valuation τ sig (Elt Ideal), (StableHlo.after Gen.hostOps3_3 W (Proc.devRef .tc main_v90) : S1536.Idx → EReal) =
      pad S1536 ![0] ![36] ![0] (W (Proc.devRef .tc main_v11) : S1500.Idx → EReal)
        (sitofp (F := Ideal) .f32 (W (Proc.devRef .tc main_c_57) : S_.Idx → BitVec 32)) Gen.pads_S1500_S1536_0360 Gen.h_S_ := by
    intro W
    after_results <;> rfl
  exact e (Gen.V45 m outs c)

theorem V47_v91 : (Gen.V47 m outs c main_v91 : S1536x1.Idx → EReal) =
    shapeCast S1536x1 (Gen.V46 m outs c main_v90 : S1536.Idx → EReal) Gen.shapeCasts_S1536_S1536x1 := by
  have e : ∀ W : Valuation τ sig (Elt Ideal), (StableHlo.after Gen.hostOps3_4 W (Proc.devRef .tc main_v91) : S1536x1.Idx → EReal) =
      shapeCast S1536x1 (W (Proc.devRef .tc main_v90) : S1536.Idx → EReal) Gen.shapeCasts_S1536_S1536x1 := by
    intro W
    after_results <;> rfl
  exact e (Gen.V46 m outs c)

theorem r3_tab (hA : (argsOf m c).Finite) (v : Fin 1536) :
    (Gen.V47 m outs c main_v91 : S1536x1.Idx → EReal) (ix2 v 0) = ((rowMean (argsOf m c).procE v.val : ℝ) : EReal) := by
  rw [V47_v91, V46_v90, V45_c57, V45_v11, V1_v11]
  exact padMean_apply 36 (argsOf m c).procE hA.procE Gen.reducesTo_S1500x128_S1500_d1 Gen.h_S_ Gen.bcast_S_S1500
    Gen.pads_S1500_S1536_0360 Gen.shapeCasts_S1536_S1536x1 v

theorem V47_v95 : (Gen.V47 m outs c main_v95 : S1536x1.Idx → EReal) =
    uitofp (F := Ideal) .f32 (cmpi .slt (iotaInDim S1536x1 32 0)
      (broadcastInDim S1536x1 ![] Gen.bcast_S_S1536x1 (constantI S_ 32 1536#32))) := by
  have e : ∀ W : Valuation τ sig (Elt Ideal), (StableHlo.after Gen.hostOps3_4 W (Proc.devRef .tc main_v95) : S1536x1.Idx → EReal) =
      uitofp (F := Ideal) .f32 (cmpi .slt (iotaInDim S1536x1 32 0)
        (broadcastInDim S1536x1 ![] Gen.bcast_S_S1536x1 (constantI S_ 32 1536#32))) := by
    intro W
    after_results <;> rfl
  exact e (Gen.V46 m outs c)

theorem r3_mask (n : Fin 1536) :
    (Gen.V47 m outs c main_v95 : S1536x1.Idx → EReal) (ix2 n 0) = if n.val < 1536 then (1 : EReal) else 0 := by
  rw [V47_v95]
  exact mask_apply (by norm_num) Gen.bcast_S_S1536x1 n
theorem r3_mask_one (n : Fin 1536) : (Gen.V47 m outs c main_v95 : S1536x1.Idx → EReal) (ix2 n 0) = (1 : EReal) := by
  rw [r3_mask, if_pos n.isLt]

end Cert.KernelIdeal.HostPre

end
-- ==== Proof.LibLookup.lean ====
import Idealize.ShloMosaic.Lib.IdealHost
import Idealize.ShloMosaic.Lib.Pipeline.Value
import Idealize.ShloMosaic.Lib.StableHlo.Predicate

noncomputable section

namespace LibLookup

open Idealize.ShloMosaic Idealize.ShloMosaic.ValueIdx
open scoped BigOperators

theorem toInt_of_lt {w : BitVec 32} (h : w.toNat < 2 ^ 31) : w.toInt = (w.toNat : ℤ) := by
  have hw := BitVec.toInt_eq_toNat_cond w
  split at hw <;> omega

def clipW (hi a : BitVec 32) : BitVec 32 := IntOp.minsi hi (IntOp.maxsi 0#32 a)

theorem maxsi_zero_toInt (a : BitVec 32) : (IntOp.maxsi 0#32 a).toInt = max 0 a.toInt := by
  have h0 : (0#32 : BitVec 32).toInt = 0 := by decide
  unfold IntOp.maxsi BitVec.slt
  by_cases h : a.toInt < (0#32 : BitVec 32).toInt
  · rw [if_pos (decide_eq_true h), h0]; rw [h0] at h; omega
  · rw [if_neg (by rw [decide_eq_true_eq]; exact h)]; rw [h0] at h; omega

theorem minsi_toInt (x y : BitVec 32) : (IntOp.minsi x y).toInt = min x.toInt y.toInt := by
  unfold IntOp.minsi BitVec.slt
  by_cases h : x.toInt < y.toInt
  · rw [if_pos (decide_eq_true h)]; omega
  · rw [if_neg (by rw [decide_eq_true_eq]; exact h)]; omega

theorem clipW_toInt {hi a : BitVec 32} (hhi : hi.toNat < 2 ^ 31) :
    (clipW hi a).toInt = min (hi.toNat : ℤ) (max 0 a.toInt) := by
  unfold clipW
  rw [minsi_toInt, maxsi_zero_toInt, toInt_of_lt hhi]

theorem toNat_of_toInt_nonneg {w : BitVec 32} (h : 0 ≤ w.toInt) : (w.toNat : ℤ) = w.toInt := by
  have hw := BitVec.toInt_eq_toNat_cond w
  have := w.isLt
  split at hw <;> omega

theorem clipW_toNat_le {hi a : BitVec 32} (hhi : hi.toNat < 2 ^ 31) : (clipW hi a).toNat ≤ hi.toNat := by
  have h := clipW_toInt (a := a) hhi
  have h0 : 0 ≤ (clipW hi a).toInt := by rw [h]; omega
  have := toNat_of_toInt_nonneg h0
  omega

theorem clipW_toNat {hi a : BitVec 32} (hhi : hi.toNat < 2 ^ 31) :
    (clipW hi a).toNat = (max 0 (min a.toInt (hi.toNat : ℤ))).toNat := by
  have h := clipW_toInt (a := a) hhi
  have h0 : 0 ≤ (clipW hi a).toInt := by rw [h]; omega
  have := toNat_of_toInt_nonneg h0
  omega

theorem clipW_of_le {hi a : BitVec 32} (hhi : hi.toNat < 2 ^ 31) (ha : a.toNat ≤ hi.toNat) : clipW hi a = a := by
  have haI := toInt_of_lt (w := a) (by omega)
  have hhiI := toInt_of_lt hhi
  have h0 : (0#32 : BitVec 32).toInt = 0 := by decide
  have e1 : IntOp.maxsi 0#32 a = a := by
    unfold IntOp.maxsi BitVec.slt
    rw [if_neg (by rw [decide_eq_true_eq, h0]; omega)]
  have e2 : IntOp.minsi hi a = a := by
    unfold IntOp.minsi BitVec.slt
    rw [if_neg (by rw [decide_eq_true_eq]; omega)]
  unfold clipW
  rw [e1, e2]

theorem clipW_clipW {hi a : BitVec 32} (hhi : hi.toNat < 2 ^ 31) : clipW hi (clipW hi a) = clipW hi a :=
  clipW_of_le hhi (clipW_toNat_le hhi)

theorem wrap_eq {s : Shape} (codes zero add : IVec s 32) (hz : ∀ i, zero i = 0#32) (h : ∀ i, (codes i).toNat < 2 ^ 31) :
    select (cmpi .slt codes zero) (addi codes add) codes = codes := by
  funext i
  have h1 : ¬ cmpi .slt codes zero i = 1 := by
    show ¬ IntOp.cmpi .slt (codes i) (zero i) = 1#1
    rw [hz i]
    intro h'
    have := (StableHlo.Predicate.slt_iff_toNat (h i) (by decide)).1 h'
    simp at this
  show (if cmpi .slt codes zero i = 1 then addi codes add i else codes i) = codes i
  rw [if_neg h1]

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

theorem ofBits_f32_128 : Ideal.ofBits .f32 0x43000000#32 = ((128 : ℝ) : EReal) := by
  simp [Ideal.ofBits, Ideal.ieee, -EReal.coe_mul]; norm_num

theorem ofBits_f32_1536 : Ideal.ofBits .f32 0x44C00000#32 = ((1536 : ℝ) : EReal) := by
  simp [Ideal.ofBits, Ideal.ieee, -EReal.coe_mul]; norm_num

theorem ofBits_f32_64 : Ideal.ofBits .f32 0x42800000#32 = ((64 : ℝ) : EReal) := by
  simp [Ideal.ofBits, Ideal.ieee, -EReal.coe_mul]; norm_num

section Lookup

variable {V R C : ℕ}

def lookupMean
    (G : GatherDims ⟨1, ![V]⟩ ⟨3, ![R, C, 1]⟩ ⟨2, ![R, C]⟩)
    (h0 : (⟨0, ![]⟩ : Shape).BroadcastsInDim ⟨2, ![R, C]⟩ ![])
    (h5 : (⟨2, ![R, C]⟩ : Shape).BroadcastsInDim ⟨3, ![R, C, 1]⟩ ![0, 1])
    (hr : (⟨2, ![R, C]⟩ : Shape).ReducesTo [0] ⟨1, ![C]⟩)
    (hu : 0 < (⟨0, ![]⟩ : Shape).numel)
    (h1 : (⟨1, ![C]⟩ : Shape).BroadcastsInDim ⟨2, ![1, C]⟩ ![1])
    (h2 : (⟨0, ![]⟩ : Shape).BroadcastsInDim ⟨2, ![1, C]⟩ ![])
    (vw : BitVec 32) (nw : BitVec 32)
    (tab : FVec Ideal ⟨1, ![V]⟩ .f32) (codes : IVec ⟨2, ![R, C]⟩ 32) : FVec Ideal ⟨2, ![1, C]⟩ .f32 :=
  Host.divf
    (broadcastInDim ⟨2, ![1, C]⟩ ![1] h1
      (Host.reduceAdd
        (Host.gather G tab
          (broadcastInDim ⟨3, ![R, C, 1]⟩ ![0, 1] h5
            (select (cmpi .slt codes (broadcastInDim ⟨2, ![R, C]⟩ ![] h0 (constantI ⟨0, ![]⟩ 32 0#32)))
              (addi codes (broadcastInDim ⟨2, ![R, C]⟩ ![] h0 (constantI ⟨0, ![]⟩ 32 vw))) codes)))
        (constant (F := Ideal) ⟨0, ![]⟩ .f32 0x00000000#32) hr hu))
    (broadcastInDim ⟨2, ![1, C]⟩ ![] h2 (constant (F := Ideal) ⟨0, ![]⟩ .f32 nw))

theorem lift_rows (hred : (⟨2, ![R, C]⟩ : Shape).Reduces [0] ⟨1, ![C]⟩) (j : Fin C) (k : Fin R) :
    hred.lift (ix1 j) k = ix2 k j := by
  funext a
  apply Fin.ext
  match a with
  | ⟨0, _⟩ => rfl
  | ⟨1, _⟩ => rfl

theorem lookupMean_apply (hV31 : V ≤ 2 ^ 31)
    (wf : GatherDims.WF ⟨1, ![V]⟩ ⟨3, ![R, C, 1]⟩ ⟨2, ![R, C]⟩ [] [0] [] [0] [] 2 ![1])
    (G : GatherDims ⟨1, ![V]⟩ ⟨3, ![R, C, 1]⟩ ⟨2, ![R, C]⟩) (hG : G = takeDims V R C wf)
    (h0 : (⟨0, ![]⟩ : Shape).BroadcastsInDim ⟨2, ![R, C]⟩ ![])
    (h5 : (⟨2, ![R, C]⟩ : Shape).BroadcastsInDim ⟨3, ![R, C, 1]⟩ ![0, 1])
    (hr : (⟨2, ![R, C]⟩ : Shape).ReducesTo [0] ⟨1, ![C]⟩)
    (hred : (⟨2, ![R, C]⟩ : Shape).Reduces [0] ⟨1, ![C]⟩)
    (hu : 0 < (⟨0, ![]⟩ : Shape).numel)
    (h1 : (⟨1, ![C]⟩ : Shape).BroadcastsInDim ⟨2, ![1, C]⟩ ![1])
    (h2 : (⟨0, ![]⟩ : Shape).BroadcastsInDim ⟨2, ![1, C]⟩ ![])
    (vw nw : BitVec 32) (nr : ℝ) (hnr : nr ≠ 0) (hnw : Ideal.ofBits .f32 nw = ((nr : ℝ) : EReal))
    (tab : FVec Ideal ⟨1, ![V]⟩ .f32) (T : ℕ → ℝ) (htab : ∀ v : Fin V, tab (ix1 v) = ((T v.val : ℝ) : EReal))
    (codes : IVec ⟨2, ![R, C]⟩ 32) (hcodes : ∀ i, (codes i).toNat < V) (j : Fin C) :
    lookupMean G h0 h5 hr hu h1 h2 vw nw tab codes (ix2 (0 : Fin 1) j)
      = (((∑ r : Fin R, T (codes (ix2 r j)).toNat) / nr : ℝ) : EReal) := by
  subst hG
  have hin : ∀ i, (codes i).toNat < 2 ^ 31 := fun i => Nat.lt_of_lt_of_le (hcodes i) hV31
  have hterm : ∀ k : Fin R, Host.gather (takeDims V R C wf) tab (broadcastInDim ⟨3, ![R, C, 1]⟩ ![0, 1] h5 codes)
      (hred.lift (ix1 j) k) = ((T (codes (ix2 k j)).toNat : ℝ) : EReal) := by
    intro k
    have hlt := hcodes (ix2 k j)
    have hV : 0 < V := by omega
    rw [lift_rows hred j k, gather_take_apply hV wf]
    have hb : broadcastInDim ⟨3, ![R, C, 1]⟩ ![0, 1] h5 codes (takeIdx (ix2 k j)) = codes (ix2 k j) :=
      broadcastInDim_apply ![0, 1] h5 codes _ _ (by
        intro a
        match a with
        | ⟨0, _⟩ =>
          show k.val = if R = 1 then 0 else k.val
          have := k.isLt
          split <;> omega
        | ⟨1, _⟩ =>
          show j.val = if C = 1 then 0 else j.val
          have := j.isLt
          split <;> omega)
    have hI := toInt_of_lt (hin (ix2 k j))
    refine (congrArg tab (congrArg ix1 (Fin.ext ?_))).trans (htab ⟨_, hlt⟩)
    show min (broadcastInDim ⟨3, ![R, C, 1]⟩ ![0, 1] h5 codes (takeIdx (ix2 k j))).toInt.toNat (V - 1)
      = (codes (ix2 k j)).toNat
    rw [hb, hI, Int.toNat_natCast]
    omega
  unfold lookupMean
  rw [hostDivf_apply, broadcastInDim_scalar_apply h2, constant_apply, hnw, Ideal.div_coe hnr]
  rw [broadcastInDim_apply ![1] h1 _ (ix2 (0 : Fin 1) j) (ix1 j) (by
    intro a
    match a with
    | ⟨0, _⟩ =>
      show j.val = if C = 1 then 0 else j.val
      have := j.isLt
      split <;> omega)]
  rw [hostReduceAdd_apply, Ideal.hostReduceAdd_single hr hred, constant_apply, Ideal.ofBits_zero_f32, zero_add]
  rw [wrap_eq codes (broadcastInDim ⟨2, ![R, C]⟩ ![] h0 (constantI ⟨0, ![]⟩ 32 0#32)) _ (fun _ => rfl) hin]
  show (∑ k : Fin R, Host.gather (takeDims V R C wf) tab (broadcastInDim ⟨3, ![R, C, 1]⟩ ![0, 1] h5 codes)
      (hred.lift (ix1 j) k)) * ((1 / nr : ℝ) : EReal) = _
  rw [Finset.sum_congr rfl (fun k _ => hterm k), ← coe_sum, ← EReal.coe_mul, mul_one_div]

theorem clipW_toNat_len {hi a : BitVec 32} {V : ℕ} (hhi : hi.toNat + 1 = V) (hV : V ≤ 2 ^ 31) :
    (clipW hi a).toNat = (max 0 (min a.toInt ((V : ℤ) - 1))).toNat := by
  rw [clipW_toNat (by omega)]
  have e : (hi.toNat : ℤ) = (V : ℤ) - 1 := by omega
  rw [e]

theorem clipW_toNat_lt {hi a : BitVec 32} {V : ℕ} (hhi : hi.toNat + 1 = V) (hV : V ≤ 2 ^ 31) : (clipW hi a).toNat < V := by
  have := clipW_toNat_le (a := a) (hi := hi) (by omega)
  omega

def clipV {s : Shape} (h0 : (⟨0, ![]⟩ : Shape).BroadcastsInDim s ![]) (hi : BitVec 32) (x : IVec s 32) : IVec s 32 :=
  minsi (broadcastInDim s ![] h0 (constantI ⟨0, ![]⟩ 32 hi)) (maxsi (broadcastInDim s ![] h0 (constantI ⟨0, ![]⟩ 32 0#32)) x)

theorem clipV_apply {s : Shape} (h0 : (⟨0, ![]⟩ : Shape).BroadcastsInDim s ![]) (hi : BitVec 32) (x : IVec s 32) (i : s.Idx) :
    clipV h0 hi x i = clipW hi (x i) := rfl

def tableMean {E : ℕ} (hr : (⟨2, ![V, E]⟩ : Shape).ReducesTo [1] ⟨1, ![V]⟩) (hu : 0 < (⟨0, ![]⟩ : Shape).numel)
    (hb : (⟨0, ![]⟩ : Shape).BroadcastsInDim ⟨1, ![V]⟩ ![]) (nw : BitVec 32)
    (T : FVec Ideal ⟨2, ![V, E]⟩ .f32) : FVec Ideal ⟨1, ![V]⟩ .f32 :=
  Host.divf (Host.reduceAdd T (constant (F := Ideal) ⟨0, ![]⟩ .f32 0x00000000#32) hr hu)
    (broadcastInDim ⟨1, ![V]⟩ ![] hb (constant (F := Ideal) ⟨0, ![]⟩ .f32 nw))

theorem lift_cols {E : ℕ} (hred : (⟨2, ![V, E]⟩ : Shape).Reduces [1] ⟨1, ![V]⟩) (v : Fin V) (e : Fin E) :
    hred.lift (ix1 v) e = ix2 v e := by
  funext a
  apply Fin.ext
  match a with
  | ⟨0, _⟩ => rfl
  | ⟨1, _⟩ => rfl

theorem tableMean_apply {E : ℕ} (hr : (⟨2, ![V, E]⟩ : Shape).ReducesTo [1] ⟨1, ![V]⟩)
    (hred : (⟨2, ![V, E]⟩ : Shape).Reduces [1] ⟨1, ![V]⟩) (hu : 0 < (⟨0, ![]⟩ : Shape).numel)
    (hb : (⟨0, ![]⟩ : Shape).BroadcastsInDim ⟨1, ![V]⟩ ![]) (nw : BitVec 32) (nr : ℝ) (hnr : nr ≠ 0)
    (hnw : Ideal.ofBits .f32 nw = ((nr : ℝ) : EReal))
    (T : FVec Ideal ⟨2, ![V, E]⟩ .f32) (hT : ∀ i, T i ≠ ⊤ ∧ T i ≠ ⊥) (v : Fin V) :
    tableMean hr hu hb nw T (ix1 v) = (((∑ e : Fin E, (T (ix2 v e)).toReal) / nr : ℝ) : EReal) := by
  have hterm : ∀ e : Fin E, T (hred.lift (ix1 v) e) = (((T (ix2 v e)).toReal : ℝ) : EReal) := fun e => by
    rw [lift_cols hred v e, EReal.coe_toReal (hT _).1 (hT _).2]
  unfold tableMean
  rw [hostDivf_apply, broadcastInDim_scalar_apply hb, constant_apply, hnw, Ideal.div_coe hnr]
  rw [hostReduceAdd_apply, Ideal.hostReduceAdd_single hr hred, constant_apply, Ideal.ofBits_zero_f32, zero_add]
  show (∑ e : Fin E, T (hred.lift (ix1 v) e)) * ((1 / nr : ℝ) : EReal) = _
  rw [Finset.sum_congr rfl (fun e _ => hterm e), ← coe_sum, ← EReal.coe_mul, mul_one_div]

def coreSum {K : ℕ} (hr : (⟨3, ![2, K, 1]⟩ : Shape).ReducesTo [0] ⟨2, ![K, 1]⟩) (hu : 0 < (⟨0, ![]⟩ : Shape).numel)
    (ht : (⟨2, ![K, 1]⟩ : Shape).Transposes [1, 0] ⟨2, ![1, K]⟩)
    (x : FVec Ideal ⟨3, ![2, K, 1]⟩ .f32) : FVec Ideal ⟨2, ![1, K]⟩ .f32 :=
  transpose ⟨2, ![1, K]⟩ [1, 0] (Host.reduceAdd x (constant (F := Ideal) ⟨0, ![]⟩ .f32 0x00000000#32) hr hu) ht

theorem coreSum_apply {K : ℕ} (hr : (⟨3, ![2, K, 1]⟩ : Shape).ReducesTo [0] ⟨2, ![K, 1]⟩)
    (hred : (⟨3, ![2, K, 1]⟩ : Shape).Reduces [0] ⟨2, ![K, 1]⟩) (hu : 0 < (⟨0, ![]⟩ : Shape).numel)
    (ht : (⟨2, ![K, 1]⟩ : Shape).Transposes [1, 0] ⟨2, ![1, K]⟩)
    (x : FVec Ideal ⟨3, ![2, K, 1]⟩ .f32) (k : Fin K) :
    coreSum hr hu ht x (ix2 (0 : Fin 1) k) = x (ix3 (0 : Fin 2) k (0 : Fin 1)) + x (ix3 (1 : Fin 2) k (0 : Fin 1)) := by
  have hl : ∀ c : Fin 2, hred.lift (ix2 k (0 : Fin 1)) c = ix3 c k (0 : Fin 1) := fun c => by
    funext a
    apply Fin.ext
    match a with
    | ⟨0, _⟩ => rfl
    | ⟨1, _⟩ => rfl
    | ⟨2, _⟩ => rfl
  unfold coreSum
  rw [transpose_apply [1, 0] _ ht (ix2 (0 : Fin 1) k) (ix2 k (0 : Fin 1)) (by
    intro b
    match b with
    | ⟨0, _⟩ => rfl
    | ⟨1, _⟩ => rfl)]
  rw [hostReduceAdd_apply, Ideal.hostReduceAdd_single hr hred, constant_apply, Ideal.ofBits_zero_f32, zero_add]
  show (∑ c : Fin 2, x (hred.lift (ix2 k (0 : Fin 1)) c)) = _
  rw [Fin.sum_univ_two, hl, hl]

end Lookup

end LibLookup

end
-- ==== Proof.LibNary10.lean ====
import Idealize.ShloMosaic.Lib.StableHlo.Run

noncomputable section

namespace LibNary10

open Idealize.ShloMosaic Idealize.ShloMosaic.StableHlo Idealize.SL.Sem

variable {τ : Topo} {sig : RefSig} {Val : EltTy → Type}

theorem nary10_result {x0 x1 x2 x3 x4 x5 x6 x7 x8 x9 y : Ref sig .tc}
    (f : ((k : Fin 10) → ((![x0, x1, x2, x3, x4, x5, x6, x7, x8, x9] : Fin 10 → Ref sig .tc) k).ty.Contents Val) → y.ty.Contents Val)
    (hxs hy) (F : Valuation τ sig Val) :
    (nary (τ := τ) ![x0, x1, x2, x3, x4, x5, x6, x7, x8, x9] y f hxs hy).result F (Proc.devRef .tc y)
      = f (Fin.cons (F (Proc.devRef .tc x0)) (Fin.cons (F (Proc.devRef .tc x1)) (Fin.cons (F (Proc.devRef .tc x2))
          (Fin.cons (F (Proc.devRef .tc x3)) (Fin.cons (F (Proc.devRef .tc x4)) (Fin.cons (F (Proc.devRef .tc x5))
          (Fin.cons (F (Proc.devRef .tc x6)) (Fin.cons (F (Proc.devRef .tc x7)) (Fin.cons (F (Proc.devRef .tc x8))
          (Fin.cons (F (Proc.devRef .tc x9)) (fun i => i.elim0))))))))))) := by
  rw [nary_result]; congr 1; funext k; fin_cases k <;> rfl

end LibNary10

end
-- ==== Proof.Val.HostPost.lean ====
import proofs.«406789_j53094385713523_3_alg».proof.Proof.KI.Regions
import proofs.«406789_j53094385713523_3_alg».proof.Proof.KI.Args
import proofs.«406789_j53094385713523_3_alg».proof.Proof.LibLookup
import proofs.«406789_j53094385713523_3_alg».proof.Proof.LibNary10
import Idealize.ShloMosaic.Lib.ValueLayout

noncomputable section

namespace Cert.KernelIdeal.HostPost

open Idealize.ShloMosaic Idealize.ShloMosaic.TcCoe Idealize.ShloMosaic.ValueIdx
open Cert.Spec LibLookup
open scoped BigOperators

section Stretches

variable (X : Valuation τ sig (Elt Ideal))

theorem s0_main_v14 : StableHlo.after (Gen.hostOps0 (F := Ideal)) X (Proc.devRef .tc main_v14)
    = tableMean (V := 700) (E := 128) Gen.reducesTo_S700x128_S700_d1 Gen.h_S_ Gen.bcast_S_S700 0x43000000#32 (X (Proc.devRef .tc main_arg11)) := by
  after_results_simp <;> rfl

theorem s0_main_v17 : StableHlo.after (Gen.hostOps0 (F := Ideal)) X (Proc.devRef .tc main_v17)
    = tableMean (V := 2000) (E := 128) Gen.reducesTo_S2000x128_S2000_d1 Gen.h_S_ Gen.bcast_S_S2000 0x43000000#32 (X (Proc.devRef .tc main_arg12)) := by
  after_results_simp <;> rfl

theorem s0_main_v20 : StableHlo.after (Gen.hostOps0 (F := Ideal)) X (Proc.devRef .tc main_v20)
    = tableMean (V := 2) (E := 128) Gen.reducesTo_S2x128_S2_d1 Gen.h_S_ Gen.bcast_S_S2 0x43000000#32 (X (Proc.devRef .tc main_arg13)) := by
  after_results_simp <;> rfl

theorem s0_main_v23 : StableHlo.after (Gen.hostOps0 (F := Ideal)) X (Proc.devRef .tc main_v23)
    = tableMean (V := 10) (E := 128) Gen.reducesTo_S10x128_S10_d1 Gen.h_S_ Gen.bcast_S_S10 0x43000000#32 (X (Proc.devRef .tc main_arg14)) := by
  after_results_simp <;> rfl

theorem s0_main_v26 : StableHlo.after (Gen.hostOps0 (F := Ideal)) X (Proc.devRef .tc main_v26)
    = tableMean (V := 5) (E := 128) Gen.reducesTo_S5x128_S5_d1 Gen.h_S_ Gen.bcast_S_S5 0x43000000#32 (X (Proc.devRef .tc main_arg15)) := by
  after_results_simp <;> rfl

theorem s0_main_v29 : StableHlo.after (Gen.hostOps0 (F := Ideal)) X (Proc.devRef .tc main_v29)
    = tableMean (V := 100) (E := 128) Gen.reducesTo_S100x128_S100_d1 Gen.h_S_ Gen.bcast_S_S100 0x43000000#32 (X (Proc.devRef .tc main_arg16)) := by
  after_results_simp <;> rfl

theorem s_main_v39 : StableHlo.after (Gen.hostOps0_10 (F := Ideal)) (StableHlo.after (Gen.hostOps0_9 (F := Ideal)) (StableHlo.after (Gen.hostOps0_8 (F := Ideal)) X)) (Proc.devRef .tc main_v39)
    = shapeCast S1536x1 (clipV Gen.bcast_S_S64x24 699#32 (X (Proc.devRef .tc main_arg4))) Gen.shapeCasts_S64x24_S1536x1 := by
  after_results
  rfl

theorem s_main_v40 : StableHlo.after (Gen.hostOps0_11 (F := Ideal)) (StableHlo.after (Gen.hostOps0_10 (F := Ideal)) X) (Proc.devRef .tc main_v40)
    = clipV Gen.bcast_S_S64x30 1999#32 (X (Proc.devRef .tc main_arg5)) := by
  after_results
  rfl

theorem s_main_v44 : StableHlo.after (Gen.hostOps0_14 (F := Ideal)) (StableHlo.after (Gen.hostOps0_13 (F := Ideal)) (StableHlo.after (Gen.hostOps0_12 (F := Ideal)) X)) (Proc.devRef .tc main_v44)
    = shapeCast S64x1 (clipV Gen.bcast_S_S64 1#32 (shapeCast S64 (extractStridedSlice S64x1 ![0, 0] (X (Proc.devRef .tc main_arg6)) Gen.slices_S64x4_S64x1_0_0) Gen.shapeCasts_S64x1_S64)) Gen.shapeCasts_S64_S64x1 := by
  after_results
  rfl

theorem s_main_v48 : StableHlo.after (Gen.hostOps0_16 (F := Ideal)) (StableHlo.after (Gen.hostOps0_15 (F := Ideal)) (StableHlo.after (Gen.hostOps0_14 (F := Ideal)) X)) (Proc.devRef .tc main_v48)
    = shapeCast S64x1 (clipV Gen.bcast_S_S64 9#32 (shapeCast S64 (extractStridedSlice S64x1 ![0, 1] (X (Proc.devRef .tc main_arg6)) Gen.slices_S64x4_S64x1_0_1) Gen.shapeCasts_S64x1_S64)) Gen.shapeCasts_S64_S64x1 := by
  after_results
  rfl

theorem s_main_v52 : StableHlo.after (Gen.hostOps0_18 (F := Ideal)) (StableHlo.after (Gen.hostOps0_17 (F := Ideal)) (StableHlo.after (Gen.hostOps0_16 (F := Ideal)) X)) (Proc.devRef .tc main_v52)
    = shapeCast S64x1 (clipV Gen.bcast_S_S64 4#32 (shapeCast S64 (extractStridedSlice S64x1 ![0, 2] (X (Proc.devRef .tc main_arg6)) Gen.slices_S64x4_S64x1_0_2) Gen.shapeCasts_S64x1_S64)) Gen.shapeCasts_S64_S64x1 := by
  after_results
  rfl

theorem s_main_v56 : StableHlo.after (Gen.hostOps0_20 (F := Ideal)) (StableHlo.after (Gen.hostOps0_19 (F := Ideal)) (StableHlo.after (Gen.hostOps0_18 (F := Ideal)) X)) (Proc.devRef .tc main_v56)
    = shapeCast S64x1 (clipV Gen.bcast_S_S64 99#32 (shapeCast S64 (extractStridedSlice S64x1 ![0, 3] (X (Proc.devRef .tc main_arg6)) Gen.slices_S64x4_S64x1_0_3) Gen.shapeCasts_S64x1_S64)) Gen.shapeCasts_S64_S64x1 := by
  after_results
  rfl

theorem s_main_v99 : StableHlo.after (Gen.hostOps4_1 (F := Ideal)) (StableHlo.after (Gen.hostOps4 (F := Ideal)) X) (Proc.devRef .tc main_v99)
    = clipV Gen.bcast_S_S1536x1 699#32 (X (Proc.devRef .tc main_v39)) := by
  after_results
  rfl

theorem s_main_v111 : StableHlo.after (Gen.hostOps4_3 (F := Ideal)) (StableHlo.after (Gen.hostOps4_2 (F := Ideal)) X) (Proc.devRef .tc main_v111)
    = clipV Gen.bcast_S_S64x30 1999#32 (X (Proc.devRef .tc main_v40)) := by
  after_results
  rfl

theorem s_main_v123 : StableHlo.after (Gen.hostOps4_5 (F := Ideal)) (StableHlo.after (Gen.hostOps4_4 (F := Ideal)) X) (Proc.devRef .tc main_v123)
    = clipV Gen.bcast_S_S64x1 1#32 (X (Proc.devRef .tc main_v44)) := by
  after_results
  rfl

theorem s_main_v135 : StableHlo.after (Gen.hostOps4_7 (F := Ideal)) (StableHlo.after (Gen.hostOps4_6 (F := Ideal)) X) (Proc.devRef .tc main_v135)
    = clipV Gen.bcast_S_S64x1 9#32 (X (Proc.devRef .tc main_v48)) := by
  after_results
  rfl

theorem s_main_v147 : StableHlo.after (Gen.hostOps4_9 (F := Ideal)) (StableHlo.after (Gen.hostOps4_8 (F := Ideal)) X) (Proc.devRef .tc main_v147)
    = clipV Gen.bcast_S_S64x1 4#32 (X (Proc.devRef .tc main_v52)) := by
  after_results
  rfl

theorem s_main_v159 : StableHlo.after (Gen.hostOps4_11 (F := Ideal)) (StableHlo.after (Gen.hostOps4_10 (F := Ideal)) X) (Proc.devRef .tc main_v159)
    = clipV Gen.bcast_S_S64x1 99#32 (X (Proc.devRef .tc main_v56)) := by
  after_results
  rfl

theorem s_main_v110 : StableHlo.after (Gen.hostOps4_2 (F := Ideal)) X (Proc.devRef .tc main_v110)
    = lookupMean (V := 700) (R := 1536) (C := 1) gather_S700_S1536x1x1_S1536x1_n_0_n_n_0_2_1 Gen.bcast_S_S1536x1 Gen.bcast_S1536x1_S1536x1x1_0_1 Gen.reducesTo_S1536x1_S1_d0 Gen.h_S_ Gen.bcast_S1_S1x1_1 Gen.bcast_S_S1x1 700#32 0x44C00000#32 (X (Proc.devRef .tc main_v14)) (X (Proc.devRef .tc main_v99)) := by
  after_results
  rfl

theorem s_main_v122 : StableHlo.after (Gen.hostOps4_4 (F := Ideal)) X (Proc.devRef .tc main_v122)
    = lookupMean (V := 2000) (R := 64) (C := 30) gather_S2000_S64x30x1_S64x30_n_0_n_n_0_2_1 Gen.bcast_S_S64x30 Gen.bcast_S64x30_S64x30x1_0_1 Gen.reducesTo_S64x30_S30_d0 Gen.h_S_ Gen.bcast_S30_S1x30_1 Gen.bcast_S_S1x30 2000#32 0x42800000#32 (X (Proc.devRef .tc main_v17)) (X (Proc.devRef .tc main_v111)) := by
  after_results
  rfl

theorem s_main_v134 : StableHlo.after (Gen.hostOps4_6 (F := Ideal)) X (Proc.devRef .tc main_v134)
    = lookupMean (V := 2) (R := 64) (C := 1) gather_S2_S64x1x1_S64x1_n_0_n_n_0_2_1 Gen.bcast_S_S64x1 Gen.bcast_S64x1_S64x1x1_0_1 Gen.reducesTo_S64x1_S1_d0 Gen.h_S_ Gen.bcast_S1_S1x1_1 Gen.bcast_S_S1x1 2#32 0x42800000#32 (X (Proc.devRef .tc main_v20)) (X (Proc.devRef .tc main_v123)) := by
  after_results
  rfl

theorem s_main_v146 : StableHlo.after (Gen.hostOps4_8 (F := Ideal)) X (Proc.devRef .tc main_v146)
    = lookupMean (V := 10) (R := 64) (C := 1) gather_S10_S64x1x1_S64x1_n_0_n_n_0_2_1 Gen.bcast_S_S64x1 Gen.bcast_S64x1_S64x1x1_0_1 Gen.reducesTo_S64x1_S1_d0 Gen.h_S_ Gen.bcast_S1_S1x1_1 Gen.bcast_S_S1x1 10#32 0x42800000#32 (X (Proc.devRef .tc main_v23)) (X (Proc.devRef .tc main_v135)) := by
  after_results
  rfl

theorem s_main_v158 : StableHlo.after (Gen.hostOps4_10 (F := Ideal)) X (Proc.devRef .tc main_v158)
    = lookupMean (V := 5) (R := 64) (C := 1) gather_S5_S64x1x1_S64x1_n_0_n_n_0_2_1 Gen.bcast_S_S64x1 Gen.bcast_S64x1_S64x1x1_0_1 Gen.reducesTo_S64x1_S1_d0 Gen.h_S_ Gen.bcast_S1_S1x1_1 Gen.bcast_S_S1x1 5#32 0x42800000#32 (X (Proc.devRef .tc main_v26)) (X (Proc.devRef .tc main_v147)) := by
  after_results
  rfl

theorem s_main_v67 : StableHlo.after (Gen.hostOps1 (F := Ideal)) X (Proc.devRef .tc main_v67)
    = coreSum (K := 100) Gen.reducesTo_S2x100x1_S100x1_d0 Gen.h_S_ Gen.transposes_S100x1_S1x100_1_0 (X (Proc.devRef .tc main_v65)) := by
  after_results
  rfl

theorem s_main_v78 : StableHlo.after (Gen.hostOps2 (F := Ideal)) X (Proc.devRef .tc main_v78)
    = coreSum (K := 200) Gen.reducesTo_S2x200x1_S200x1_d0 Gen.h_S_ Gen.transposes_S200x1_S1x200_1_0 (X (Proc.devRef .tc main_v76)) := by
  after_results
  rfl

theorem s_main_v88 : StableHlo.after (Gen.hostOps3 (F := Ideal)) X (Proc.devRef .tc main_v88)
    = coreSum (K := 50) Gen.reducesTo_S2x50x1_S50x1_d0 Gen.h_S_ Gen.transposes_S50x1_S1x50_1_0 (X (Proc.devRef .tc main_v86)) := by
  after_results
  rfl

theorem s_main_v98 : StableHlo.after (Gen.hostOps4 (F := Ideal)) X (Proc.devRef .tc main_v98)
    = coreSum (K := 50) Gen.reducesTo_S2x50x1_S50x1_d0 Gen.h_S_ Gen.transposes_S50x1_S1x50_1_0 (X (Proc.devRef .tc main_v96)) := by
  after_results
  rfl

theorem after_append {τ : Topo} {sig : RefSig} {Val : EltTy → Type} (l₁ l₂ : List (HloOp τ sig Val)) (V : Valuation τ sig Val) :
    StableHlo.after (l₁ ++ l₂) V = StableHlo.after l₂ (StableHlo.after l₁ V) := by
  induction l₁ generalizing V with
  | nil => rfl
  | cons a l ih => exact ih _

theorem concatenate_congr {α : Type} {t : Shape} (a : Fin t.rank) {xs ys : List ((s : Shape) × (s.Idx → α))} (e : xs = ys)
    (h : Shape.Concatenates (xs.map (·.1)) t a) (h' : Shape.Concatenates (ys.map (·.1)) t a) :
    concatenate t a xs h = concatenate t a ys h' := by
  subst e; rfl

abbrev pieces : List ((s : Shape) × (s.Idx → Ideal .f32)) :=
  [⟨S1x100, X (Proc.devRef .tc main_v67)⟩, ⟨S1x200, X (Proc.devRef .tc main_v78)⟩, ⟨S1x50, X (Proc.devRef .tc main_v88)⟩, ⟨S1x50, X (Proc.devRef .tc main_v98)⟩, ⟨S1x1, X (Proc.devRef .tc main_v110)⟩, ⟨S1x30, X (Proc.devRef .tc main_v122)⟩, ⟨S1x1, X (Proc.devRef .tc main_v134)⟩, ⟨S1x1, X (Proc.devRef .tc main_v146)⟩, ⟨S1x1, X (Proc.devRef .tc main_v158)⟩,
        ⟨S1x1, lookupMean (V := 100) (R := 64) (C := 1) gather_S100_S64x1x1_S64x1_n_0_n_n_0_2_1 Gen.bcast_S_S64x1 Gen.bcast_S64x1_S64x1x1_0_1 Gen.reducesTo_S64x1_S1_d0 Gen.h_S_ Gen.bcast_S1_S1x1_1 Gen.bcast_S_S1x1 100#32 0x42800000#32 (X (Proc.devRef .tc main_v29)) (X (Proc.devRef .tc main_v159))⟩]

theorem pieces_shapes : (pieces X).map (·.1) = [S1x100, S1x200, S1x50, S1x50, S1x1, S1x30, S1x1, S1x1, S1x1, S1x1] := rfl

theorem conc_ev : Shape.Concatenates ((pieces X).map (·.1)) S1x435 1 := by
  rw [pieces_shapes]; exact Gen.concatenates_S1x100_S1x200_S1x50_S1x50_S1x1_S1x30_S1x1_S1x1_S1x1_S1x1_S1x435_d1

abbrev readPieces : List ((s : Shape) × (s.Idx → Ideal .f32)) :=
  [⟨S1x100, X (Proc.devRef .tc main_v67)⟩, ⟨S1x200, X (Proc.devRef .tc main_v78)⟩, ⟨S1x50, X (Proc.devRef .tc main_v88)⟩, ⟨S1x50, X (Proc.devRef .tc main_v98)⟩, ⟨S1x1, X (Proc.devRef .tc main_v110)⟩, ⟨S1x30, X (Proc.devRef .tc main_v122)⟩, ⟨S1x1, X (Proc.devRef .tc main_v134)⟩, ⟨S1x1, X (Proc.devRef .tc main_v146)⟩, ⟨S1x1, X (Proc.devRef .tc main_v158)⟩, ⟨S1x1, X (Proc.devRef .tc main_v170)⟩]

theorem readPieces_shapes : (readPieces X).map (·.1) = [S1x100, S1x200, S1x50, S1x50, S1x1, S1x30, S1x1, S1x1, S1x1, S1x1] := rfl

theorem read_ev : Shape.Concatenates ((readPieces X).map (·.1)) S1x435 1 := by
  rw [readPieces_shapes]; exact Gen.concatenates_S1x100_S1x200_S1x50_S1x50_S1x1_S1x30_S1x1_S1x1_S1x1_S1x1_S1x435_d1

theorem s12_tail : StableHlo.after (List.drop 15 (Gen.hostOps4_12 (F := Ideal))) X (Proc.devRef .tc main_v171)
    = concatenate S1x435 1 (readPieces X) (read_ev X) := by
  simp only [Gen.hostOps4_12, List.drop_succ_cons, List.drop_zero, StableHlo.after_cons, StableHlo.after_nil]
  iterate 5 (rw [StableHlo.reshape_result_ne]; rotate_left; decide)
  rw [LibNary10.nary10_result]
  rfl

theorem s12_head_main_v67 : StableHlo.after (List.take 15 (Gen.hostOps4_12 (F := Ideal))) X (Proc.devRef .tc main_v67) = X (Proc.devRef .tc main_v67) := by
  simp only [Gen.hostOps4_12, List.take_succ_cons, List.take_zero, StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))

theorem s12_head_main_v78 : StableHlo.after (List.take 15 (Gen.hostOps4_12 (F := Ideal))) X (Proc.devRef .tc main_v78) = X (Proc.devRef .tc main_v78) := by
  simp only [Gen.hostOps4_12, List.take_succ_cons, List.take_zero, StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))

theorem s12_head_main_v88 : StableHlo.after (List.take 15 (Gen.hostOps4_12 (F := Ideal))) X (Proc.devRef .tc main_v88) = X (Proc.devRef .tc main_v88) := by
  simp only [Gen.hostOps4_12, List.take_succ_cons, List.take_zero, StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))

theorem s12_head_main_v98 : StableHlo.after (List.take 15 (Gen.hostOps4_12 (F := Ideal))) X (Proc.devRef .tc main_v98) = X (Proc.devRef .tc main_v98) := by
  simp only [Gen.hostOps4_12, List.take_succ_cons, List.take_zero, StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))

theorem s12_head_main_v110 : StableHlo.after (List.take 15 (Gen.hostOps4_12 (F := Ideal))) X (Proc.devRef .tc main_v110) = X (Proc.devRef .tc main_v110) := by
  simp only [Gen.hostOps4_12, List.take_succ_cons, List.take_zero, StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))

theorem s12_head_main_v122 : StableHlo.after (List.take 15 (Gen.hostOps4_12 (F := Ideal))) X (Proc.devRef .tc main_v122) = X (Proc.devRef .tc main_v122) := by
  simp only [Gen.hostOps4_12, List.take_succ_cons, List.take_zero, StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))

theorem s12_head_main_v134 : StableHlo.after (List.take 15 (Gen.hostOps4_12 (F := Ideal))) X (Proc.devRef .tc main_v134) = X (Proc.devRef .tc main_v134) := by
  simp only [Gen.hostOps4_12, List.take_succ_cons, List.take_zero, StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))

theorem s12_head_main_v146 : StableHlo.after (List.take 15 (Gen.hostOps4_12 (F := Ideal))) X (Proc.devRef .tc main_v146) = X (Proc.devRef .tc main_v146) := by
  simp only [Gen.hostOps4_12, List.take_succ_cons, List.take_zero, StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))

theorem s12_head_main_v158 : StableHlo.after (List.take 15 (Gen.hostOps4_12 (F := Ideal))) X (Proc.devRef .tc main_v158) = X (Proc.devRef .tc main_v158) := by
  simp only [Gen.hostOps4_12, List.take_succ_cons, List.take_zero, StableHlo.after_cons, StableHlo.after_nil]
  repeat (first
    | (rw [StableHlo.nullary_result_ne]; rotate_left; decide)
    | (rw [StableHlo.unary_result_ne]; rotate_left; decide)
    | (rw [StableHlo.binary_result_ne]; rotate_left; decide)
    | (rw [StableHlo.ternary_result_ne]; rotate_left; decide))

theorem s12_head_main_v170 : StableHlo.after (List.take 15 (Gen.hostOps4_12 (F := Ideal))) X (Proc.devRef .tc main_v170)
    = lookupMean (V := 100) (R := 64) (C := 1) gather_S100_S64x1x1_S64x1_n_0_n_n_0_2_1 Gen.bcast_S_S64x1 Gen.bcast_S64x1_S64x1x1_0_1 Gen.reducesTo_S64x1_S1_d0 Gen.h_S_ Gen.bcast_S1_S1x1_1 Gen.bcast_S_S1x1 100#32 0x42800000#32 (X (Proc.devRef .tc main_v29)) (X (Proc.devRef .tc main_v159)) := by
  simp only [Gen.hostOps4_12, List.take_succ_cons, List.take_zero]
  after_results
  rfl

theorem s_main_v171 : StableHlo.after (Gen.hostOps4_12 (F := Ideal)) X (Proc.devRef .tc main_v171)
    = concatenate S1x435 1 (pieces X) (conc_ev X) := by
  have hs : StableHlo.after (Gen.hostOps4_12 (F := Ideal)) X
      = StableHlo.after (List.drop 15 (Gen.hostOps4_12 (F := Ideal))) (StableHlo.after (List.take 15 (Gen.hostOps4_12 (F := Ideal))) X) := by
    rw [← after_append, List.take_append_drop]
  rw [hs, s12_tail]
  refine concatenate_congr _ ?_ _ _
  unfold readPieces pieces
  rw [s12_head_main_v67, s12_head_main_v78, s12_head_main_v88, s12_head_main_v98, s12_head_main_v110, s12_head_main_v122, s12_head_main_v134, s12_head_main_v146, s12_head_main_v158, s12_head_main_v170]

theorem s_main_v172 : StableHlo.after (Gen.hostOps4_12 (F := Ideal)) X (Proc.devRef .tc main_v172)
    = shapeCast S1x128 (X (Proc.devRef .tc main_arg18)) Gen.shapeCasts_S128_S1x128 := by
  after_results_simp <;> rfl

theorem s_main_v173 : StableHlo.after (Gen.hostOps4_12 (F := Ideal)) X (Proc.devRef .tc main_v173)
    = shapeCast S1x256 (X (Proc.devRef .tc main_arg20)) Gen.shapeCasts_S256_S1x256 := by
  after_results_simp <;> rfl

theorem s_main_v174 : StableHlo.after (Gen.hostOps4_12 (F := Ideal)) X (Proc.devRef .tc main_v174)
    = shapeCast S1x256 (X (Proc.devRef .tc main_arg22)) Gen.shapeCasts_S256_S1x256 := by
  after_results_simp <;> rfl

theorem s_main_v175 : StableHlo.after (Gen.hostOps4_12 (F := Ideal)) X (Proc.devRef .tc main_v175)
    = shapeCast S1x128 (X (Proc.devRef .tc main_arg24)) Gen.shapeCasts_S128_S1x128 := by
  after_results_simp <;> rfl

theorem s_main_v176 : StableHlo.after (Gen.hostOps4_12 (F := Ideal)) X (Proc.devRef .tc main_v176)
    = shapeCast S1x1 (X (Proc.devRef .tc main_arg26)) Gen.shapeCasts_S1_S1x1 := by
  after_results_simp <;> rfl

theorem s_main_v178 : StableHlo.after (Gen.hostOps5 (F := Ideal)) X (Proc.devRef .tc main_v178)
    = broadcastInDim S64x1 ![0, 1] Gen.bcast_S1x1_S64x1_0_1 (X (Proc.devRef .tc main_v177_1)) := by
  after_results
theorem s_main_v179 : StableHlo.after (Gen.hostOps5 (F := Ideal)) X (Proc.devRef .tc main_v179)
    = broadcastInDim S64x1 ![0, 1] Gen.bcast_S1x1_S64x1_0_1 (X (Proc.devRef .tc main_v177_0)) := by
  after_results

end Stretches

variable (m : (ℓ : Loc nD τ sig) → Buf (Elt Ideal) ℓ) (outs : Gen.Outs (F := Ideal)) (c : Dev nD)

theorem tab_main_v14 (hA : (argsOf m c).Finite) (v : Fin 700) :
    (Gen.V50 m outs c (Proc.devRef .tc main_v14) : S700.Idx → EReal) (ix1 v) = ((rowMean (argsOf m c).labE v.val : ℝ) : EReal) := by
  have e0 : Gen.V50 m outs c (Proc.devRef .tc main_v14) = Gen.V1 m c (Proc.devRef .tc main_v14) :=
    (Gen.V50_of m outs c main_v14 (by decide)).trans <| (Gen.V49_of m outs c main_v14 (by decide)).trans <| (Gen.V48_of m outs c main_v14 (by decide)).trans <| (Gen.V47_of m outs c main_v14 (by decide)).trans <| (Gen.V46_of m outs c main_v14 (by decide)).trans <| (Gen.V45_of m outs c main_v14 (by decide)).trans <| (Gen.V44_of m outs c main_v14 (by decide)).trans <| (Gen.V43_of m outs c main_v14 (by decide)).trans <| (Gen.V42_of m outs c main_v14 (by decide)).trans <| (Gen.V41_of m outs c main_v14 (by decide)).trans <| (Gen.V40_of m outs c main_v14 (by decide)).trans <| (Gen.V39_of m outs c main_v14 (by decide)).trans <| (Gen.V38_of m outs c main_v14 (by decide)).trans <| (Gen.V37_of m outs c main_v14 (by decide)).trans <| (Gen.V36_of m outs c main_v14 (by decide)).trans <| (Gen.V35_of m outs c main_v14 (by decide)).trans <| (Gen.V34_of m outs c main_v14 (by decide)).trans <| (Gen.V33_of m outs c main_v14 (by decide)).trans <| (Gen.V32_of m outs c main_v14 (by decide)).trans <| (Gen.V31_of m outs c main_v14 (by decide)).trans <| (Gen.V30_of m outs c main_v14 (by decide)).trans <| (Gen.V29_of m outs c main_v14 (by decide)).trans <| (Gen.V28_of m outs c main_v14 (by decide)).trans <| (Gen.V27_of m c main_v14 (by decide)).trans <| (Gen.V26_of m c main_v14 (by decide)).trans <| (Gen.V25_of m c main_v14 (by decide)).trans <| (Gen.V24_of m c main_v14 (by decide)).trans <| (Gen.V23_of m c main_v14 (by decide)).trans <| (Gen.V22_of m c main_v14 (by decide)).trans <| (Gen.V21_of m c main_v14 (by decide)).trans <| (Gen.V20_of m c main_v14 (by decide)).trans <| (Gen.V19_of m c main_v14 (by decide)).trans <| (Gen.V18_of m c main_v14 (by decide)).trans <| (Gen.V17_of m c main_v14 (by decide)).trans <| (Gen.V16_of m c main_v14 (by decide)).trans <| (Gen.V15_of m c main_v14 (by decide)).trans <| (Gen.V14_of m c main_v14 (by decide)).trans <| (Gen.V13_of m c main_v14 (by decide)).trans <| (Gen.V12_of m c main_v14 (by decide)).trans <| (Gen.V11_of m c main_v14 (by decide)).trans <| (Gen.V10_of m c main_v14 (by decide)).trans <| (Gen.V9_of m c main_v14 (by decide)).trans <| (Gen.V8_of m c main_v14 (by decide)).trans <| (Gen.V7_of m c main_v14 (by decide)).trans <| (Gen.V6_of m c main_v14 (by decide)).trans <| (Gen.V5_of m c main_v14 (by decide)).trans <| (Gen.V4_of m c main_v14 (by decide)).trans <| (Gen.V3_of m c main_v14 (by decide)).trans <| (Gen.V2_of m c main_v14 (by decide))
  have e1 : Gen.V1 m c (Proc.devRef .tc main_v14) = tableMean (V := 700) (E := 128) Gen.reducesTo_S700x128_S700_d1 Gen.h_S_ Gen.bcast_S_S700 0x43000000#32 (argsOf m c).labE :=
    s0_main_v14 (Gen.V0 m c)
  rw [e0, e1, tableMean_apply _ (by decide) _ _ _ 128 (by norm_num) ofBits_f32_128 _ (fun i => hA.labE i) v]
  unfold rowMean
  rw [dif_pos v.isLt]

theorem tab_main_v17 (hA : (argsOf m c).Finite) (v : Fin 2000) :
    (Gen.V52 m outs c (Proc.devRef .tc main_v17) : S2000.Idx → EReal) (ix1 v) = ((rowMean (argsOf m c).condE v.val : ℝ) : EReal) := by
  have e0 : Gen.V52 m outs c (Proc.devRef .tc main_v17) = Gen.V1 m c (Proc.devRef .tc main_v17) :=
    (Gen.V52_of m outs c main_v17 (by decide)).trans <| (Gen.V51_of m outs c main_v17 (by decide)).trans <| (Gen.V50_of m outs c main_v17 (by decide)).trans <| (Gen.V49_of m outs c main_v17 (by decide)).trans <| (Gen.V48_of m outs c main_v17 (by decide)).trans <| (Gen.V47_of m outs c main_v17 (by decide)).trans <| (Gen.V46_of m outs c main_v17 (by decide)).trans <| (Gen.V45_of m outs c main_v17 (by decide)).trans <| (Gen.V44_of m outs c main_v17 (by decide)).trans <| (Gen.V43_of m outs c main_v17 (by decide)).trans <| (Gen.V42_of m outs c main_v17 (by decide)).trans <| (Gen.V41_of m outs c main_v17 (by decide)).trans <| (Gen.V40_of m outs c main_v17 (by decide)).trans <| (Gen.V39_of m outs c main_v17 (by decide)).trans <| (Gen.V38_of m outs c main_v17 (by decide)).trans <| (Gen.V37_of m outs c main_v17 (by decide)).trans <| (Gen.V36_of m outs c main_v17 (by decide)).trans <| (Gen.V35_of m outs c main_v17 (by decide)).trans <| (Gen.V34_of m outs c main_v17 (by decide)).trans <| (Gen.V33_of m outs c main_v17 (by decide)).trans <| (Gen.V32_of m outs c main_v17 (by decide)).trans <| (Gen.V31_of m outs c main_v17 (by decide)).trans <| (Gen.V30_of m outs c main_v17 (by decide)).trans <| (Gen.V29_of m outs c main_v17 (by decide)).trans <| (Gen.V28_of m outs c main_v17 (by decide)).trans <| (Gen.V27_of m c main_v17 (by decide)).trans <| (Gen.V26_of m c main_v17 (by decide)).trans <| (Gen.V25_of m c main_v17 (by decide)).trans <| (Gen.V24_of m c main_v17 (by decide)).trans <| (Gen.V23_of m c main_v17 (by decide)).trans <| (Gen.V22_of m c main_v17 (by decide)).trans <| (Gen.V21_of m c main_v17 (by decide)).trans <| (Gen.V20_of m c main_v17 (by decide)).trans <| (Gen.V19_of m c main_v17 (by decide)).trans <| (Gen.V18_of m c main_v17 (by decide)).trans <| (Gen.V17_of m c main_v17 (by decide)).trans <| (Gen.V16_of m c main_v17 (by decide)).trans <| (Gen.V15_of m c main_v17 (by decide)).trans <| (Gen.V14_of m c main_v17 (by decide)).trans <| (Gen.V13_of m c main_v17 (by decide)).trans <| (Gen.V12_of m c main_v17 (by decide)).trans <| (Gen.V11_of m c main_v17 (by decide)).trans <| (Gen.V10_of m c main_v17 (by decide)).trans <| (Gen.V9_of m c main_v17 (by decide)).trans <| (Gen.V8_of m c main_v17 (by decide)).trans <| (Gen.V7_of m c main_v17 (by decide)).trans <| (Gen.V6_of m c main_v17 (by decide)).trans <| (Gen.V5_of m c main_v17 (by decide)).trans <| (Gen.V4_of m c main_v17 (by decide)).trans <| (Gen.V3_of m c main_v17 (by decide)).trans <| (Gen.V2_of m c main_v17 (by decide))
  have e1 : Gen.V1 m c (Proc.devRef .tc main_v17) = tableMean (V := 2000) (E := 128) Gen.reducesTo_S2000x128_S2000_d1 Gen.h_S_ Gen.bcast_S_S2000 0x43000000#32 (argsOf m c).condE :=
    s0_main_v17 (Gen.V0 m c)
  rw [e0, e1, tableMean_apply _ (by decide) _ _ _ 128 (by norm_num) ofBits_f32_128 _ (fun i => hA.condE i) v]
  unfold rowMean
  rw [dif_pos v.isLt]

theorem tab_main_v20 (hA : (argsOf m c).Finite) (v : Fin 2) :
    (Gen.V54 m outs c (Proc.devRef .tc main_v20) : S2.Idx → EReal) (ix1 v) = ((rowMean (argsOf m c).genderE v.val : ℝ) : EReal) := by
  have e0 : Gen.V54 m outs c (Proc.devRef .tc main_v20) = Gen.V1 m c (Proc.devRef .tc main_v20) :=
    (Gen.V54_of m outs c main_v20 (by decide)).trans <| (Gen.V53_of m outs c main_v20 (by decide)).trans <| (Gen.V52_of m outs c main_v20 (by decide)).trans <| (Gen.V51_of m outs c main_v20 (by decide)).trans <| (Gen.V50_of m outs c main_v20 (by decide)).trans <| (Gen.V49_of m outs c main_v20 (by decide)).trans <| (Gen.V48_of m outs c main_v20 (by decide)).trans <| (Gen.V47_of m outs c main_v20 (by decide)).trans <| (Gen.V46_of m outs c main_v20 (by decide)).trans <| (Gen.V45_of m outs c main_v20 (by decide)).trans <| (Gen.V44_of m outs c main_v20 (by decide)).trans <| (Gen.V43_of m outs c main_v20 (by decide)).trans <| (Gen.V42_of m outs c main_v20 (by decide)).trans <| (Gen.V41_of m outs c main_v20 (by decide)).trans <| (Gen.V40_of m outs c main_v20 (by decide)).trans <| (Gen.V39_of m outs c main_v20 (by decide)).trans <| (Gen.V38_of m outs c main_v20 (by decide)).trans <| (Gen.V37_of m outs c main_v20 (by decide)).trans <| (Gen.V36_of m outs c main_v20 (by decide)).trans <| (Gen.V35_of m outs c main_v20 (by decide)).trans <| (Gen.V34_of m outs c main_v20 (by decide)).trans <| (Gen.V33_of m outs c main_v20 (by decide)).trans <| (Gen.V32_of m outs c main_v20 (by decide)).trans <| (Gen.V31_of m outs c main_v20 (by decide)).trans <| (Gen.V30_of m outs c main_v20 (by decide)).trans <| (Gen.V29_of m outs c main_v20 (by decide)).trans <| (Gen.V28_of m outs c main_v20 (by decide)).trans <| (Gen.V27_of m c main_v20 (by decide)).trans <| (Gen.V26_of m c main_v20 (by decide)).trans <| (Gen.V25_of m c main_v20 (by decide)).trans <| (Gen.V24_of m c main_v20 (by decide)).trans <| (Gen.V23_of m c main_v20 (by decide)).trans <| (Gen.V22_of m c main_v20 (by decide)).trans <| (Gen.V21_of m c main_v20 (by decide)).trans <| (Gen.V20_of m c main_v20 (by decide)).trans <| (Gen.V19_of m c main_v20 (by decide)).trans <| (Gen.V18_of m c main_v20 (by decide)).trans <| (Gen.V17_of m c main_v20 (by decide)).trans <| (Gen.V16_of m c main_v20 (by decide)).trans <| (Gen.V15_of m c main_v20 (by decide)).trans <| (Gen.V14_of m c main_v20 (by decide)).trans <| (Gen.V13_of m c main_v20 (by decide)).trans <| (Gen.V12_of m c main_v20 (by decide)).trans <| (Gen.V11_of m c main_v20 (by decide)).trans <| (Gen.V10_of m c main_v20 (by decide)).trans <| (Gen.V9_of m c main_v20 (by decide)).trans <| (Gen.V8_of m c main_v20 (by decide)).trans <| (Gen.V7_of m c main_v20 (by decide)).trans <| (Gen.V6_of m c main_v20 (by decide)).trans <| (Gen.V5_of m c main_v20 (by decide)).trans <| (Gen.V4_of m c main_v20 (by decide)).trans <| (Gen.V3_of m c main_v20 (by decide)).trans <| (Gen.V2_of m c main_v20 (by decide))
  have e1 : Gen.V1 m c (Proc.devRef .tc main_v20) = tableMean (V := 2) (E := 128) Gen.reducesTo_S2x128_S2_d1 Gen.h_S_ Gen.bcast_S_S2 0x43000000#32 (argsOf m c).genderE :=
    s0_main_v20 (Gen.V0 m c)
  rw [e0, e1, tableMean_apply _ (by decide) _ _ _ 128 (by norm_num) ofBits_f32_128 _ (fun i => hA.genderE i) v]
  unfold rowMean
  rw [dif_pos v.isLt]

theorem tab_main_v23 (hA : (argsOf m c).Finite) (v : Fin 10) :
    (Gen.V56 m outs c (Proc.devRef .tc main_v23) : S10.Idx → EReal) (ix1 v) = ((rowMean (argsOf m c).ethE v.val : ℝ) : EReal) := by
  have e0 : Gen.V56 m outs c (Proc.devRef .tc main_v23) = Gen.V1 m c (Proc.devRef .tc main_v23) :=
    (Gen.V56_of m outs c main_v23 (by decide)).trans <| (Gen.V55_of m outs c main_v23 (by decide)).trans <| (Gen.V54_of m outs c main_v23 (by decide)).trans <| (Gen.V53_of m outs c main_v23 (by decide)).trans <| (Gen.V52_of m outs c main_v23 (by decide)).trans <| (Gen.V51_of m outs c main_v23 (by decide)).trans <| (Gen.V50_of m outs c main_v23 (by decide)).trans <| (Gen.V49_of m outs c main_v23 (by decide)).trans <| (Gen.V48_of m outs c main_v23 (by decide)).trans <| (Gen.V47_of m outs c main_v23 (by decide)).trans <| (Gen.V46_of m outs c main_v23 (by decide)).trans <| (Gen.V45_of m outs c main_v23 (by decide)).trans <| (Gen.V44_of m outs c main_v23 (by decide)).trans <| (Gen.V43_of m outs c main_v23 (by decide)).trans <| (Gen.V42_of m outs c main_v23 (by decide)).trans <| (Gen.V41_of m outs c main_v23 (by decide)).trans <| (Gen.V40_of m outs c main_v23 (by decide)).trans <| (Gen.V39_of m outs c main_v23 (by decide)).trans <| (Gen.V38_of m outs c main_v23 (by decide)).trans <| (Gen.V37_of m outs c main_v23 (by decide)).trans <| (Gen.V36_of m outs c main_v23 (by decide)).trans <| (Gen.V35_of m outs c main_v23 (by decide)).trans <| (Gen.V34_of m outs c main_v23 (by decide)).trans <| (Gen.V33_of m outs c main_v23 (by decide)).trans <| (Gen.V32_of m outs c main_v23 (by decide)).trans <| (Gen.V31_of m outs c main_v23 (by decide)).trans <| (Gen.V30_of m outs c main_v23 (by decide)).trans <| (Gen.V29_of m outs c main_v23 (by decide)).trans <| (Gen.V28_of m outs c main_v23 (by decide)).trans <| (Gen.V27_of m c main_v23 (by decide)).trans <| (Gen.V26_of m c main_v23 (by decide)).trans <| (Gen.V25_of m c main_v23 (by decide)).trans <| (Gen.V24_of m c main_v23 (by decide)).trans <| (Gen.V23_of m c main_v23 (by decide)).trans <| (Gen.V22_of m c main_v23 (by decide)).trans <| (Gen.V21_of m c main_v23 (by decide)).trans <| (Gen.V20_of m c main_v23 (by decide)).trans <| (Gen.V19_of m c main_v23 (by decide)).trans <| (Gen.V18_of m c main_v23 (by decide)).trans <| (Gen.V17_of m c main_v23 (by decide)).trans <| (Gen.V16_of m c main_v23 (by decide)).trans <| (Gen.V15_of m c main_v23 (by decide)).trans <| (Gen.V14_of m c main_v23 (by decide)).trans <| (Gen.V13_of m c main_v23 (by decide)).trans <| (Gen.V12_of m c main_v23 (by decide)).trans <| (Gen.V11_of m c main_v23 (by decide)).trans <| (Gen.V10_of m c main_v23 (by decide)).trans <| (Gen.V9_of m c main_v23 (by decide)).trans <| (Gen.V8_of m c main_v23 (by decide)).trans <| (Gen.V7_of m c main_v23 (by decide)).trans <| (Gen.V6_of m c main_v23 (by decide)).trans <| (Gen.V5_of m c main_v23 (by decide)).trans <| (Gen.V4_of m c main_v23 (by decide)).trans <| (Gen.V3_of m c main_v23 (by decide)).trans <| (Gen.V2_of m c main_v23 (by decide))
  have e1 : Gen.V1 m c (Proc.devRef .tc main_v23) = tableMean (V := 10) (E := 128) Gen.reducesTo_S10x128_S10_d1 Gen.h_S_ Gen.bcast_S_S10 0x43000000#32 (argsOf m c).ethE :=
    s0_main_v23 (Gen.V0 m c)
  rw [e0, e1, tableMean_apply _ (by decide) _ _ _ 128 (by norm_num) ofBits_f32_128 _ (fun i => hA.ethE i) v]
  unfold rowMean
  rw [dif_pos v.isLt]

theorem tab_main_v26 (hA : (argsOf m c).Finite) (v : Fin 5) :
    (Gen.V58 m outs c (Proc.devRef .tc main_v26) : S5.Idx → EReal) (ix1 v) = ((rowMean (argsOf m c).insE v.val : ℝ) : EReal) := by
  have e0 : Gen.V58 m outs c (Proc.devRef .tc main_v26) = Gen.V1 m c (Proc.devRef .tc main_v26) :=
    (Gen.V58_of m outs c main_v26 (by decide)).trans <| (Gen.V57_of m outs c main_v26 (by decide)).trans <| (Gen.V56_of m outs c main_v26 (by decide)).trans <| (Gen.V55_of m outs c main_v26 (by decide)).trans <| (Gen.V54_of m outs c main_v26 (by decide)).trans <| (Gen.V53_of m outs c main_v26 (by decide)).trans <| (Gen.V52_of m outs c main_v26 (by decide)).trans <| (Gen.V51_of m outs c main_v26 (by decide)).trans <| (Gen.V50_of m outs c main_v26 (by decide)).trans <| (Gen.V49_of m outs c main_v26 (by decide)).trans <| (Gen.V48_of m outs c main_v26 (by decide)).trans <| (Gen.V47_of m outs c main_v26 (by decide)).trans <| (Gen.V46_of m outs c main_v26 (by decide)).trans <| (Gen.V45_of m outs c main_v26 (by decide)).trans <| (Gen.V44_of m outs c main_v26 (by decide)).trans <| (Gen.V43_of m outs c main_v26 (by decide)).trans <| (Gen.V42_of m outs c main_v26 (by decide)).trans <| (Gen.V41_of m outs c main_v26 (by decide)).trans <| (Gen.V40_of m outs c main_v26 (by decide)).trans <| (Gen.V39_of m outs c main_v26 (by decide)).trans <| (Gen.V38_of m outs c main_v26 (by decide)).trans <| (Gen.V37_of m outs c main_v26 (by decide)).trans <| (Gen.V36_of m outs c main_v26 (by decide)).trans <| (Gen.V35_of m outs c main_v26 (by decide)).trans <| (Gen.V34_of m outs c main_v26 (by decide)).trans <| (Gen.V33_of m outs c main_v26 (by decide)).trans <| (Gen.V32_of m outs c main_v26 (by decide)).trans <| (Gen.V31_of m outs c main_v26 (by decide)).trans <| (Gen.V30_of m outs c main_v26 (by decide)).trans <| (Gen.V29_of m outs c main_v26 (by decide)).trans <| (Gen.V28_of m outs c main_v26 (by decide)).trans <| (Gen.V27_of m c main_v26 (by decide)).trans <| (Gen.V26_of m c main_v26 (by decide)).trans <| (Gen.V25_of m c main_v26 (by decide)).trans <| (Gen.V24_of m c main_v26 (by decide)).trans <| (Gen.V23_of m c main_v26 (by decide)).trans <| (Gen.V22_of m c main_v26 (by decide)).trans <| (Gen.V21_of m c main_v26 (by decide)).trans <| (Gen.V20_of m c main_v26 (by decide)).trans <| (Gen.V19_of m c main_v26 (by decide)).trans <| (Gen.V18_of m c main_v26 (by decide)).trans <| (Gen.V17_of m c main_v26 (by decide)).trans <| (Gen.V16_of m c main_v26 (by decide)).trans <| (Gen.V15_of m c main_v26 (by decide)).trans <| (Gen.V14_of m c main_v26 (by decide)).trans <| (Gen.V13_of m c main_v26 (by decide)).trans <| (Gen.V12_of m c main_v26 (by decide)).trans <| (Gen.V11_of m c main_v26 (by decide)).trans <| (Gen.V10_of m c main_v26 (by decide)).trans <| (Gen.V9_of m c main_v26 (by decide)).trans <| (Gen.V8_of m c main_v26 (by decide)).trans <| (Gen.V7_of m c main_v26 (by decide)).trans <| (Gen.V6_of m c main_v26 (by decide)).trans <| (Gen.V5_of m c main_v26 (by decide)).trans <| (Gen.V4_of m c main_v26 (by decide)).trans <| (Gen.V3_of m c main_v26 (by decide)).trans <| (Gen.V2_of m c main_v26 (by decide))
  have e1 : Gen.V1 m c (Proc.devRef .tc main_v26) = tableMean (V := 5) (E := 128) Gen.reducesTo_S5x128_S5_d1 Gen.h_S_ Gen.bcast_S_S5 0x43000000#32 (argsOf m c).insE :=
    s0_main_v26 (Gen.V0 m c)
  rw [e0, e1, tableMean_apply _ (by decide) _ _ _ 128 (by norm_num) ofBits_f32_128 _ (fun i => hA.insE i) v]
  unfold rowMean
  rw [dif_pos v.isLt]

theorem tab_main_v29 (hA : (argsOf m c).Finite) (v : Fin 100) :
    (Gen.V60 m outs c (Proc.devRef .tc main_v29) : S100.Idx → EReal) (ix1 v) = ((rowMean (argsOf m c).ageE v.val : ℝ) : EReal) := by
  have e0 : Gen.V60 m outs c (Proc.devRef .tc main_v29) = Gen.V1 m c (Proc.devRef .tc main_v29) :=
    (Gen.V60_of m outs c main_v29 (by decide)).trans <| (Gen.V59_of m outs c main_v29 (by decide)).trans <| (Gen.V58_of m outs c main_v29 (by decide)).trans <| (Gen.V57_of m outs c main_v29 (by decide)).trans <| (Gen.V56_of m outs c main_v29 (by decide)).trans <| (Gen.V55_of m outs c main_v29 (by decide)).trans <| (Gen.V54_of m outs c main_v29 (by decide)).trans <| (Gen.V53_of m outs c main_v29 (by decide)).trans <| (Gen.V52_of m outs c main_v29 (by decide)).trans <| (Gen.V51_of m outs c main_v29 (by decide)).trans <| (Gen.V50_of m outs c main_v29 (by decide)).trans <| (Gen.V49_of m outs c main_v29 (by decide)).trans <| (Gen.V48_of m outs c main_v29 (by decide)).trans <| (Gen.V47_of m outs c main_v29 (by decide)).trans <| (Gen.V46_of m outs c main_v29 (by decide)).trans <| (Gen.V45_of m outs c main_v29 (by decide)).trans <| (Gen.V44_of m outs c main_v29 (by decide)).trans <| (Gen.V43_of m outs c main_v29 (by decide)).trans <| (Gen.V42_of m outs c main_v29 (by decide)).trans <| (Gen.V41_of m outs c main_v29 (by decide)).trans <| (Gen.V40_of m outs c main_v29 (by decide)).trans <| (Gen.V39_of m outs c main_v29 (by decide)).trans <| (Gen.V38_of m outs c main_v29 (by decide)).trans <| (Gen.V37_of m outs c main_v29 (by decide)).trans <| (Gen.V36_of m outs c main_v29 (by decide)).trans <| (Gen.V35_of m outs c main_v29 (by decide)).trans <| (Gen.V34_of m outs c main_v29 (by decide)).trans <| (Gen.V33_of m outs c main_v29 (by decide)).trans <| (Gen.V32_of m outs c main_v29 (by decide)).trans <| (Gen.V31_of m outs c main_v29 (by decide)).trans <| (Gen.V30_of m outs c main_v29 (by decide)).trans <| (Gen.V29_of m outs c main_v29 (by decide)).trans <| (Gen.V28_of m outs c main_v29 (by decide)).trans <| (Gen.V27_of m c main_v29 (by decide)).trans <| (Gen.V26_of m c main_v29 (by decide)).trans <| (Gen.V25_of m c main_v29 (by decide)).trans <| (Gen.V24_of m c main_v29 (by decide)).trans <| (Gen.V23_of m c main_v29 (by decide)).trans <| (Gen.V22_of m c main_v29 (by decide)).trans <| (Gen.V21_of m c main_v29 (by decide)).trans <| (Gen.V20_of m c main_v29 (by decide)).trans <| (Gen.V19_of m c main_v29 (by decide)).trans <| (Gen.V18_of m c main_v29 (by decide)).trans <| (Gen.V17_of m c main_v29 (by decide)).trans <| (Gen.V16_of m c main_v29 (by decide)).trans <| (Gen.V15_of m c main_v29 (by decide)).trans <| (Gen.V14_of m c main_v29 (by decide)).trans <| (Gen.V13_of m c main_v29 (by decide)).trans <| (Gen.V12_of m c main_v29 (by decide)).trans <| (Gen.V11_of m c main_v29 (by decide)).trans <| (Gen.V10_of m c main_v29 (by decide)).trans <| (Gen.V9_of m c main_v29 (by decide)).trans <| (Gen.V8_of m c main_v29 (by decide)).trans <| (Gen.V7_of m c main_v29 (by decide)).trans <| (Gen.V6_of m c main_v29 (by decide)).trans <| (Gen.V5_of m c main_v29 (by decide)).trans <| (Gen.V4_of m c main_v29 (by decide)).trans <| (Gen.V3_of m c main_v29 (by decide)).trans <| (Gen.V2_of m c main_v29 (by decide))
  have e1 : Gen.V1 m c (Proc.devRef .tc main_v29) = tableMean (V := 100) (E := 128) Gen.reducesTo_S100x128_S100_d1 Gen.h_S_ Gen.bcast_S_S100 0x43000000#32 (argsOf m c).ageE :=
    s0_main_v29 (Gen.V0 m c)
  rw [e0, e1, tableMean_apply _ (by decide) _ _ _ 128 (by norm_num) ofBits_f32_128 _ (fun i => hA.ageE i) v]
  unfold rowMean
  rw [dif_pos v.isLt]

theorem main_v99_eq : Gen.V50 m outs c (Proc.devRef .tc main_v99)
    = clipV Gen.bcast_S_S1536x1 699#32 (shapeCast S1536x1 (clipV Gen.bcast_S_S64x24 699#32 (argsOf m c).lab) Gen.shapeCasts_S64x24_S1536x1) := by
  have e1 : Gen.V50 m outs c (Proc.devRef .tc main_v99) = clipV Gen.bcast_S_S1536x1 699#32 (Gen.V48 m outs c (Proc.devRef .tc main_v39)) := s_main_v99 (Gen.V48 m outs c)
  have e2 : Gen.V48 m outs c (Proc.devRef .tc main_v39) = Gen.V11 m c (Proc.devRef .tc main_v39) :=
    (Gen.V48_of m outs c main_v39 (by decide)).trans <| (Gen.V47_of m outs c main_v39 (by decide)).trans <| (Gen.V46_of m outs c main_v39 (by decide)).trans <| (Gen.V45_of m outs c main_v39 (by decide)).trans <| (Gen.V44_of m outs c main_v39 (by decide)).trans <| (Gen.V43_of m outs c main_v39 (by decide)).trans <| (Gen.V42_of m outs c main_v39 (by decide)).trans <| (Gen.V41_of m outs c main_v39 (by decide)).trans <| (Gen.V40_of m outs c main_v39 (by decide)).trans <| (Gen.V39_of m outs c main_v39 (by decide)).trans <| (Gen.V38_of m outs c main_v39 (by decide)).trans <| (Gen.V37_of m outs c main_v39 (by decide)).trans <| (Gen.V36_of m outs c main_v39 (by decide)).trans <| (Gen.V35_of m outs c main_v39 (by decide)).trans <| (Gen.V34_of m outs c main_v39 (by decide)).trans <| (Gen.V33_of m outs c main_v39 (by decide)).trans <| (Gen.V32_of m outs c main_v39 (by decide)).trans <| (Gen.V31_of m outs c main_v39 (by decide)).trans <| (Gen.V30_of m outs c main_v39 (by decide)).trans <| (Gen.V29_of m outs c main_v39 (by decide)).trans <| (Gen.V28_of m outs c main_v39 (by decide)).trans <| (Gen.V27_of m c main_v39 (by decide)).trans <| (Gen.V26_of m c main_v39 (by decide)).trans <| (Gen.V25_of m c main_v39 (by decide)).trans <| (Gen.V24_of m c main_v39 (by decide)).trans <| (Gen.V23_of m c main_v39 (by decide)).trans <| (Gen.V22_of m c main_v39 (by decide)).trans <| (Gen.V21_of m c main_v39 (by decide)).trans <| (Gen.V20_of m c main_v39 (by decide)).trans <| (Gen.V19_of m c main_v39 (by decide)).trans <| (Gen.V18_of m c main_v39 (by decide)).trans <| (Gen.V17_of m c main_v39 (by decide)).trans <| (Gen.V16_of m c main_v39 (by decide)).trans <| (Gen.V15_of m c main_v39 (by decide)).trans <| (Gen.V14_of m c main_v39 (by decide)).trans <| (Gen.V13_of m c main_v39 (by decide)).trans <| (Gen.V12_of m c main_v39 (by decide))
  have e3 : Gen.V11 m c (Proc.devRef .tc main_v39) = shapeCast S1536x1 (clipV Gen.bcast_S_S64x24 699#32 (Gen.V8 m c (Proc.devRef .tc main_arg4))) Gen.shapeCasts_S64x24_S1536x1 := s_main_v39 (Gen.V8 m c)
  have e4 : Gen.V8 m c (Proc.devRef .tc main_arg4) = (argsOf m c).lab :=
    ((Gen.V8_of m c main_arg4 (by decide)).trans <| (Gen.V7_of m c main_arg4 (by decide)).trans <| (Gen.V6_of m c main_arg4 (by decide)).trans <| (Gen.V5_of m c main_arg4 (by decide)).trans <| (Gen.V4_of m c main_arg4 (by decide)).trans <| (Gen.V3_of m c main_arg4 (by decide)).trans <| (Gen.V2_of m c main_arg4 (by decide)).trans <| (Gen.V1_of m c main_arg4 (by decide))).trans rfl
  rw [e1, e2, e3, e4]

theorem main_v99_apply (n : Fin 1536) : (Gen.V50 m outs c (Proc.devRef .tc main_v99) : S1536x1.Idx → BitVec 32) (ix2 n (0 : Fin 1))
    = clipW 699#32 ((argsOf m c).lab (ix2 ⟨n.val / 24, by omega⟩ ⟨n.val % 24, by omega⟩)) := by
  rw [main_v99_eq, clipV_apply]
  rw [shapeCast_apply _ Gen.shapeCasts_S64x24_S1536x1 (ix2 n (0 : Fin 1)) (ix2 ⟨n.val / 24, by omega⟩ ⟨n.val % 24, by omega⟩) (by
    rw [Shape.rowMajor_val_two, Shape.rowMajor_val_two]
    show n.val / 24 * 24 + n.val % 24 = n.val * 1 + 0
    omega)]
  rw [clipV_apply, clipW_clipW (by decide)]

theorem main_v111_eq : Gen.V52 m outs c (Proc.devRef .tc main_v111)
    = clipV Gen.bcast_S_S64x30 1999#32 (clipV Gen.bcast_S_S64x30 1999#32 (argsOf m c).conds) := by
  have e1 : Gen.V52 m outs c (Proc.devRef .tc main_v111) = clipV Gen.bcast_S_S64x30 1999#32 (Gen.V50 m outs c (Proc.devRef .tc main_v40)) := s_main_v111 (Gen.V50 m outs c)
  have e2 : Gen.V50 m outs c (Proc.devRef .tc main_v40) = Gen.V12 m c (Proc.devRef .tc main_v40) :=
    (Gen.V50_of m outs c main_v40 (by decide)).trans <| (Gen.V49_of m outs c main_v40 (by decide)).trans <| (Gen.V48_of m outs c main_v40 (by decide)).trans <| (Gen.V47_of m outs c main_v40 (by decide)).trans <| (Gen.V46_of m outs c main_v40 (by decide)).trans <| (Gen.V45_of m outs c main_v40 (by decide)).trans <| (Gen.V44_of m outs c main_v40 (by decide)).trans <| (Gen.V43_of m outs c main_v40 (by decide)).trans <| (Gen.V42_of m outs c main_v40 (by decide)).trans <| (Gen.V41_of m outs c main_v40 (by decide)).trans <| (Gen.V40_of m outs c main_v40 (by decide)).trans <| (Gen.V39_of m outs c main_v40 (by decide)).trans <| (Gen.V38_of m outs c main_v40 (by decide)).trans <| (Gen.V37_of m outs c main_v40 (by decide)).trans <| (Gen.V36_of m outs c main_v40 (by decide)).trans <| (Gen.V35_of m outs c main_v40 (by decide)).trans <| (Gen.V34_of m outs c main_v40 (by decide)).trans <| (Gen.V33_of m outs c main_v40 (by decide)).trans <| (Gen.V32_of m outs c main_v40 (by decide)).trans <| (Gen.V31_of m outs c main_v40 (by decide)).trans <| (Gen.V30_of m outs c main_v40 (by decide)).trans <| (Gen.V29_of m outs c main_v40 (by decide)).trans <| (Gen.V28_of m outs c main_v40 (by decide)).trans <| (Gen.V27_of m c main_v40 (by decide)).trans <| (Gen.V26_of m c main_v40 (by decide)).trans <| (Gen.V25_of m c main_v40 (by decide)).trans <| (Gen.V24_of m c main_v40 (by decide)).trans <| (Gen.V23_of m c main_v40 (by decide)).trans <| (Gen.V22_of m c main_v40 (by decide)).trans <| (Gen.V21_of m c main_v40 (by decide)).trans <| (Gen.V20_of m c main_v40 (by decide)).trans <| (Gen.V19_of m c main_v40 (by decide)).trans <| (Gen.V18_of m c main_v40 (by decide)).trans <| (Gen.V17_of m c main_v40 (by decide)).trans <| (Gen.V16_of m c main_v40 (by decide)).trans <| (Gen.V15_of m c main_v40 (by decide)).trans <| (Gen.V14_of m c main_v40 (by decide)).trans <| (Gen.V13_of m c main_v40 (by decide))
  have e3 : Gen.V12 m c (Proc.devRef .tc main_v40) = clipV Gen.bcast_S_S64x30 1999#32 (Gen.V10 m c (Proc.devRef .tc main_arg5)) := s_main_v40 (Gen.V10 m c)
  have e4 : Gen.V10 m c (Proc.devRef .tc main_arg5) = (argsOf m c).conds :=
    ((Gen.V10_of m c main_arg5 (by decide)).trans <| (Gen.V9_of m c main_arg5 (by decide)).trans <| (Gen.V8_of m c main_arg5 (by decide)).trans <| (Gen.V7_of m c main_arg5 (by decide)).trans <| (Gen.V6_of m c main_arg5 (by decide)).trans <| (Gen.V5_of m c main_arg5 (by decide)).trans <| (Gen.V4_of m c main_arg5 (by decide)).trans <| (Gen.V3_of m c main_arg5 (by decide)).trans <| (Gen.V2_of m c main_arg5 (by decide)).trans <| (Gen.V1_of m c main_arg5 (by decide))).trans rfl
  rw [e1, e2, e3, e4]

theorem main_v111_apply (i : S64x30.Idx) : (Gen.V52 m outs c (Proc.devRef .tc main_v111) : S64x30.Idx → BitVec 32) i = clipW 1999#32 ((argsOf m c).conds i) := by
  rw [main_v111_eq, clipV_apply, clipV_apply, clipW_clipW (by decide)]

theorem main_v123_eq : Gen.V54 m outs c (Proc.devRef .tc main_v123)
    = clipV Gen.bcast_S_S64x1 1#32 (shapeCast S64x1 (clipV Gen.bcast_S_S64 1#32 (shapeCast S64 (extractStridedSlice S64x1 ![0, 0] (argsOf m c).demo Gen.slices_S64x4_S64x1_0_0) Gen.shapeCasts_S64x1_S64)) Gen.shapeCasts_S64_S64x1) := by
  have e1 : Gen.V54 m outs c (Proc.devRef .tc main_v123) = clipV Gen.bcast_S_S64x1 1#32 (Gen.V52 m outs c (Proc.devRef .tc main_v44)) := s_main_v123 (Gen.V52 m outs c)
  have e2 : Gen.V52 m outs c (Proc.devRef .tc main_v44) = Gen.V15 m c (Proc.devRef .tc main_v44) :=
    (Gen.V52_of m outs c main_v44 (by decide)).trans <| (Gen.V51_of m outs c main_v44 (by decide)).trans <| (Gen.V50_of m outs c main_v44 (by decide)).trans <| (Gen.V49_of m outs c main_v44 (by decide)).trans <| (Gen.V48_of m outs c main_v44 (by decide)).trans <| (Gen.V47_of m outs c main_v44 (by decide)).trans <| (Gen.V46_of m outs c main_v44 (by decide)).trans <| (Gen.V45_of m outs c main_v44 (by decide)).trans <| (Gen.V44_of m outs c main_v44 (by decide)).trans <| (Gen.V43_of m outs c main_v44 (by decide)).trans <| (Gen.V42_of m outs c main_v44 (by decide)).trans <| (Gen.V41_of m outs c main_v44 (by decide)).trans <| (Gen.V40_of m outs c main_v44 (by decide)).trans <| (Gen.V39_of m outs c main_v44 (by decide)).trans <| (Gen.V38_of m outs c main_v44 (by decide)).trans <| (Gen.V37_of m outs c main_v44 (by decide)).trans <| (Gen.V36_of m outs c main_v44 (by decide)).trans <| (Gen.V35_of m outs c main_v44 (by decide)).trans <| (Gen.V34_of m outs c main_v44 (by decide)).trans <| (Gen.V33_of m outs c main_v44 (by decide)).trans <| (Gen.V32_of m outs c main_v44 (by decide)).trans <| (Gen.V31_of m outs c main_v44 (by decide)).trans <| (Gen.V30_of m outs c main_v44 (by decide)).trans <| (Gen.V29_of m outs c main_v44 (by decide)).trans <| (Gen.V28_of m outs c main_v44 (by decide)).trans <| (Gen.V27_of m c main_v44 (by decide)).trans <| (Gen.V26_of m c main_v44 (by decide)).trans <| (Gen.V25_of m c main_v44 (by decide)).trans <| (Gen.V24_of m c main_v44 (by decide)).trans <| (Gen.V23_of m c main_v44 (by decide)).trans <| (Gen.V22_of m c main_v44 (by decide)).trans <| (Gen.V21_of m c main_v44 (by decide)).trans <| (Gen.V20_of m c main_v44 (by decide)).trans <| (Gen.V19_of m c main_v44 (by decide)).trans <| (Gen.V18_of m c main_v44 (by decide)).trans <| (Gen.V17_of m c main_v44 (by decide)).trans <| (Gen.V16_of m c main_v44 (by decide))
  have e3 : Gen.V15 m c (Proc.devRef .tc main_v44) = shapeCast S64x1 (clipV Gen.bcast_S_S64 1#32 (shapeCast S64 (extractStridedSlice S64x1 ![0, 0] ((Gen.V12 m c) (Proc.devRef .tc main_arg6)) Gen.slices_S64x4_S64x1_0_0) Gen.shapeCasts_S64x1_S64)) Gen.shapeCasts_S64_S64x1 := s_main_v44 (Gen.V12 m c)
  have e4 : Gen.V12 m c (Proc.devRef .tc main_arg6) = (argsOf m c).demo :=
    ((Gen.V12_of m c main_arg6 (by decide)).trans <| (Gen.V11_of m c main_arg6 (by decide)).trans <| (Gen.V10_of m c main_arg6 (by decide)).trans <| (Gen.V9_of m c main_arg6 (by decide)).trans <| (Gen.V8_of m c main_arg6 (by decide)).trans <| (Gen.V7_of m c main_arg6 (by decide)).trans <| (Gen.V6_of m c main_arg6 (by decide)).trans <| (Gen.V5_of m c main_arg6 (by decide)).trans <| (Gen.V4_of m c main_arg6 (by decide)).trans <| (Gen.V3_of m c main_arg6 (by decide)).trans <| (Gen.V2_of m c main_arg6 (by decide)).trans <| (Gen.V1_of m c main_arg6 (by decide))).trans rfl
  rw [e1, e2, e3, e4]

theorem main_v123_apply (b : Fin 64) : (Gen.V54 m outs c (Proc.devRef .tc main_v123) : S64x1.Idx → BitVec 32) (ix2 b (0 : Fin 1))
    = clipW 1#32 ((argsOf m c).demo (ix2 b (0 : Fin 4))) := by
  rw [main_v123_eq, clipV_apply]
  rw [shapeCast_apply _ Gen.shapeCasts_S64_S64x1 (ix2 b (0 : Fin 1)) (ix1 b) (by
    rw [Shape.rowMajor_val_one, Shape.rowMajor_val_two]
    show b.val = b.val * 1 + 0
    omega)]
  rw [clipV_apply]
  rw [shapeCast_apply _ Gen.shapeCasts_S64x1_S64 (ix1 b) (ix2 b (0 : Fin 1)) (by
    rw [Shape.rowMajor_val_two, Shape.rowMajor_val_one]
    show b.val * 1 + 0 = b.val
    omega)]
  rw [extractStridedSlice_apply ![0, 0] _ Gen.slices_S64x4_S64x1_0_0 (ix2 b (0 : Fin 1)) (ix2 b (0 : Fin 4)) (by
    intro a
    match a with
    | ⟨0, _⟩ =>
      show b.val = 0 + b.val
      omega
    | ⟨1, _⟩ =>
      show (0 : ℕ) = 0 + 0
      rfl)]
  rw [clipW_clipW (by decide)]

theorem main_v135_eq : Gen.V56 m outs c (Proc.devRef .tc main_v135)
    = clipV Gen.bcast_S_S64x1 9#32 (shapeCast S64x1 (clipV Gen.bcast_S_S64 9#32 (shapeCast S64 (extractStridedSlice S64x1 ![0, 1] (argsOf m c).demo Gen.slices_S64x4_S64x1_0_1) Gen.shapeCasts_S64x1_S64)) Gen.shapeCasts_S64_S64x1) := by
  have e1 : Gen.V56 m outs c (Proc.devRef .tc main_v135) = clipV Gen.bcast_S_S64x1 9#32 (Gen.V54 m outs c (Proc.devRef .tc main_v48)) := s_main_v135 (Gen.V54 m outs c)
  have e2 : Gen.V54 m outs c (Proc.devRef .tc main_v48) = Gen.V17 m c (Proc.devRef .tc main_v48) :=
    (Gen.V54_of m outs c main_v48 (by decide)).trans <| (Gen.V53_of m outs c main_v48 (by decide)).trans <| (Gen.V52_of m outs c main_v48 (by decide)).trans <| (Gen.V51_of m outs c main_v48 (by decide)).trans <| (Gen.V50_of m outs c main_v48 (by decide)).trans <| (Gen.V49_of m outs c main_v48 (by decide)).trans <| (Gen.V48_of m outs c main_v48 (by decide)).trans <| (Gen.V47_of m outs c main_v48 (by decide)).trans <| (Gen.V46_of m outs c main_v48 (by decide)).trans <| (Gen.V45_of m outs c main_v48 (by decide)).trans <| (Gen.V44_of m outs c main_v48 (by decide)).trans <| (Gen.V43_of m outs c main_v48 (by decide)).trans <| (Gen.V42_of m outs c main_v48 (by decide)).trans <| (Gen.V41_of m outs c main_v48 (by decide)).trans <| (Gen.V40_of m outs c main_v48 (by decide)).trans <| (Gen.V39_of m outs c main_v48 (by decide)).trans <| (Gen.V38_of m outs c main_v48 (by decide)).trans <| (Gen.V37_of m outs c main_v48 (by decide)).trans <| (Gen.V36_of m outs c main_v48 (by decide)).trans <| (Gen.V35_of m outs c main_v48 (by decide)).trans <| (Gen.V34_of m outs c main_v48 (by decide)).trans <| (Gen.V33_of m outs c main_v48 (by decide)).trans <| (Gen.V32_of m outs c main_v48 (by decide)).trans <| (Gen.V31_of m outs c main_v48 (by decide)).trans <| (Gen.V30_of m outs c main_v48 (by decide)).trans <| (Gen.V29_of m outs c main_v48 (by decide)).trans <| (Gen.V28_of m outs c main_v48 (by decide)).trans <| (Gen.V27_of m c main_v48 (by decide)).trans <| (Gen.V26_of m c main_v48 (by decide)).trans <| (Gen.V25_of m c main_v48 (by decide)).trans <| (Gen.V24_of m c main_v48 (by decide)).trans <| (Gen.V23_of m c main_v48 (by decide)).trans <| (Gen.V22_of m c main_v48 (by decide)).trans <| (Gen.V21_of m c main_v48 (by decide)).trans <| (Gen.V20_of m c main_v48 (by decide)).trans <| (Gen.V19_of m c main_v48 (by decide)).trans <| (Gen.V18_of m c main_v48 (by decide))
  have e3 : Gen.V17 m c (Proc.devRef .tc main_v48) = shapeCast S64x1 (clipV Gen.bcast_S_S64 9#32 (shapeCast S64 (extractStridedSlice S64x1 ![0, 1] ((Gen.V14 m c) (Proc.devRef .tc main_arg6)) Gen.slices_S64x4_S64x1_0_1) Gen.shapeCasts_S64x1_S64)) Gen.shapeCasts_S64_S64x1 := s_main_v48 (Gen.V14 m c)
  have e4 : Gen.V14 m c (Proc.devRef .tc main_arg6) = (argsOf m c).demo :=
    ((Gen.V14_of m c main_arg6 (by decide)).trans <| (Gen.V13_of m c main_arg6 (by decide)).trans <| (Gen.V12_of m c main_arg6 (by decide)).trans <| (Gen.V11_of m c main_arg6 (by decide)).trans <| (Gen.V10_of m c main_arg6 (by decide)).trans <| (Gen.V9_of m c main_arg6 (by decide)).trans <| (Gen.V8_of m c main_arg6 (by decide)).trans <| (Gen.V7_of m c main_arg6 (by decide)).trans <| (Gen.V6_of m c main_arg6 (by decide)).trans <| (Gen.V5_of m c main_arg6 (by decide)).trans <| (Gen.V4_of m c main_arg6 (by decide)).trans <| (Gen.V3_of m c main_arg6 (by decide)).trans <| (Gen.V2_of m c main_arg6 (by decide)).trans <| (Gen.V1_of m c main_arg6 (by decide))).trans rfl
  rw [e1, e2, e3, e4]

theorem main_v135_apply (b : Fin 64) : (Gen.V56 m outs c (Proc.devRef .tc main_v135) : S64x1.Idx → BitVec 32) (ix2 b (0 : Fin 1))
    = clipW 9#32 ((argsOf m c).demo (ix2 b (1 : Fin 4))) := by
  rw [main_v135_eq, clipV_apply]
  rw [shapeCast_apply _ Gen.shapeCasts_S64_S64x1 (ix2 b (0 : Fin 1)) (ix1 b) (by
    rw [Shape.rowMajor_val_one, Shape.rowMajor_val_two]
    show b.val = b.val * 1 + 0
    omega)]
  rw [clipV_apply]
  rw [shapeCast_apply _ Gen.shapeCasts_S64x1_S64 (ix1 b) (ix2 b (0 : Fin 1)) (by
    rw [Shape.rowMajor_val_two, Shape.rowMajor_val_one]
    show b.val * 1 + 0 = b.val
    omega)]
  rw [extractStridedSlice_apply ![0, 1] _ Gen.slices_S64x4_S64x1_0_1 (ix2 b (0 : Fin 1)) (ix2 b (1 : Fin 4)) (by
    intro a
    match a with
    | ⟨0, _⟩ =>
      show b.val = 0 + b.val
      omega
    | ⟨1, _⟩ =>
      show (1 : ℕ) = 1 + 0
      rfl)]
  rw [clipW_clipW (by decide)]

theorem main_v147_eq : Gen.V58 m outs c (Proc.devRef .tc main_v147)
    = clipV Gen.bcast_S_S64x1 4#32 (shapeCast S64x1 (clipV Gen.bcast_S_S64 4#32 (shapeCast S64 (extractStridedSlice S64x1 ![0, 2] (argsOf m c).demo Gen.slices_S64x4_S64x1_0_2) Gen.shapeCasts_S64x1_S64)) Gen.shapeCasts_S64_S64x1) := by
  have e1 : Gen.V58 m outs c (Proc.devRef .tc main_v147) = clipV Gen.bcast_S_S64x1 4#32 (Gen.V56 m outs c (Proc.devRef .tc main_v52)) := s_main_v147 (Gen.V56 m outs c)
  have e2 : Gen.V56 m outs c (Proc.devRef .tc main_v52) = Gen.V19 m c (Proc.devRef .tc main_v52) :=
    (Gen.V56_of m outs c main_v52 (by decide)).trans <| (Gen.V55_of m outs c main_v52 (by decide)).trans <| (Gen.V54_of m outs c main_v52 (by decide)).trans <| (Gen.V53_of m outs c main_v52 (by decide)).trans <| (Gen.V52_of m outs c main_v52 (by decide)).trans <| (Gen.V51_of m outs c main_v52 (by decide)).trans <| (Gen.V50_of m outs c main_v52 (by decide)).trans <| (Gen.V49_of m outs c main_v52 (by decide)).trans <| (Gen.V48_of m outs c main_v52 (by decide)).trans <| (Gen.V47_of m outs c main_v52 (by decide)).trans <| (Gen.V46_of m outs c main_v52 (by decide)).trans <| (Gen.V45_of m outs c main_v52 (by decide)).trans <| (Gen.V44_of m outs c main_v52 (by decide)).trans <| (Gen.V43_of m outs c main_v52 (by decide)).trans <| (Gen.V42_of m outs c main_v52 (by decide)).trans <| (Gen.V41_of m outs c main_v52 (by decide)).trans <| (Gen.V40_of m outs c main_v52 (by decide)).trans <| (Gen.V39_of m outs c main_v52 (by decide)).trans <| (Gen.V38_of m outs c main_v52 (by decide)).trans <| (Gen.V37_of m outs c main_v52 (by decide)).trans <| (Gen.V36_of m outs c main_v52 (by decide)).trans <| (Gen.V35_of m outs c main_v52 (by decide)).trans <| (Gen.V34_of m outs c main_v52 (by decide)).trans <| (Gen.V33_of m outs c main_v52 (by decide)).trans <| (Gen.V32_of m outs c main_v52 (by decide)).trans <| (Gen.V31_of m outs c main_v52 (by decide)).trans <| (Gen.V30_of m outs c main_v52 (by decide)).trans <| (Gen.V29_of m outs c main_v52 (by decide)).trans <| (Gen.V28_of m outs c main_v52 (by decide)).trans <| (Gen.V27_of m c main_v52 (by decide)).trans <| (Gen.V26_of m c main_v52 (by decide)).trans <| (Gen.V25_of m c main_v52 (by decide)).trans <| (Gen.V24_of m c main_v52 (by decide)).trans <| (Gen.V23_of m c main_v52 (by decide)).trans <| (Gen.V22_of m c main_v52 (by decide)).trans <| (Gen.V21_of m c main_v52 (by decide)).trans <| (Gen.V20_of m c main_v52 (by decide))
  have e3 : Gen.V19 m c (Proc.devRef .tc main_v52) = shapeCast S64x1 (clipV Gen.bcast_S_S64 4#32 (shapeCast S64 (extractStridedSlice S64x1 ![0, 2] ((Gen.V16 m c) (Proc.devRef .tc main_arg6)) Gen.slices_S64x4_S64x1_0_2) Gen.shapeCasts_S64x1_S64)) Gen.shapeCasts_S64_S64x1 := s_main_v52 (Gen.V16 m c)
  have e4 : Gen.V16 m c (Proc.devRef .tc main_arg6) = (argsOf m c).demo :=
    ((Gen.V16_of m c main_arg6 (by decide)).trans <| (Gen.V15_of m c main_arg6 (by decide)).trans <| (Gen.V14_of m c main_arg6 (by decide)).trans <| (Gen.V13_of m c main_arg6 (by decide)).trans <| (Gen.V12_of m c main_arg6 (by decide)).trans <| (Gen.V11_of m c main_arg6 (by decide)).trans <| (Gen.V10_of m c main_arg6 (by decide)).trans <| (Gen.V9_of m c main_arg6 (by decide)).trans <| (Gen.V8_of m c main_arg6 (by decide)).trans <| (Gen.V7_of m c main_arg6 (by decide)).trans <| (Gen.V6_of m c main_arg6 (by decide)).trans <| (Gen.V5_of m c main_arg6 (by decide)).trans <| (Gen.V4_of m c main_arg6 (by decide)).trans <| (Gen.V3_of m c main_arg6 (by decide)).trans <| (Gen.V2_of m c main_arg6 (by decide)).trans <| (Gen.V1_of m c main_arg6 (by decide))).trans rfl
  rw [e1, e2, e3, e4]

theorem main_v147_apply (b : Fin 64) : (Gen.V58 m outs c (Proc.devRef .tc main_v147) : S64x1.Idx → BitVec 32) (ix2 b (0 : Fin 1))
    = clipW 4#32 ((argsOf m c).demo (ix2 b (2 : Fin 4))) := by
  rw [main_v147_eq, clipV_apply]
  rw [shapeCast_apply _ Gen.shapeCasts_S64_S64x1 (ix2 b (0 : Fin 1)) (ix1 b) (by
    rw [Shape.rowMajor_val_one, Shape.rowMajor_val_two]
    show b.val = b.val * 1 + 0
    omega)]
  rw [clipV_apply]
  rw [shapeCast_apply _ Gen.shapeCasts_S64x1_S64 (ix1 b) (ix2 b (0 : Fin 1)) (by
    rw [Shape.rowMajor_val_two, Shape.rowMajor_val_one]
    show b.val * 1 + 0 = b.val
    omega)]
  rw [extractStridedSlice_apply ![0, 2] _ Gen.slices_S64x4_S64x1_0_2 (ix2 b (0 : Fin 1)) (ix2 b (2 : Fin 4)) (by
    intro a
    match a with
    | ⟨0, _⟩ =>
      show b.val = 0 + b.val
      omega
    | ⟨1, _⟩ =>
      show (2 : ℕ) = 2 + 0
      rfl)]
  rw [clipW_clipW (by decide)]

theorem main_v159_eq : Gen.V60 m outs c (Proc.devRef .tc main_v159)
    = clipV Gen.bcast_S_S64x1 99#32 (shapeCast S64x1 (clipV Gen.bcast_S_S64 99#32 (shapeCast S64 (extractStridedSlice S64x1 ![0, 3] (argsOf m c).demo Gen.slices_S64x4_S64x1_0_3) Gen.shapeCasts_S64x1_S64)) Gen.shapeCasts_S64_S64x1) := by
  have e1 : Gen.V60 m outs c (Proc.devRef .tc main_v159) = clipV Gen.bcast_S_S64x1 99#32 (Gen.V58 m outs c (Proc.devRef .tc main_v56)) := s_main_v159 (Gen.V58 m outs c)
  have e2 : Gen.V58 m outs c (Proc.devRef .tc main_v56) = Gen.V21 m c (Proc.devRef .tc main_v56) :=
    (Gen.V58_of m outs c main_v56 (by decide)).trans <| (Gen.V57_of m outs c main_v56 (by decide)).trans <| (Gen.V56_of m outs c main_v56 (by decide)).trans <| (Gen.V55_of m outs c main_v56 (by decide)).trans <| (Gen.V54_of m outs c main_v56 (by decide)).trans <| (Gen.V53_of m outs c main_v56 (by decide)).trans <| (Gen.V52_of m outs c main_v56 (by decide)).trans <| (Gen.V51_of m outs c main_v56 (by decide)).trans <| (Gen.V50_of m outs c main_v56 (by decide)).trans <| (Gen.V49_of m outs c main_v56 (by decide)).trans <| (Gen.V48_of m outs c main_v56 (by decide)).trans <| (Gen.V47_of m outs c main_v56 (by decide)).trans <| (Gen.V46_of m outs c main_v56 (by decide)).trans <| (Gen.V45_of m outs c main_v56 (by decide)).trans <| (Gen.V44_of m outs c main_v56 (by decide)).trans <| (Gen.V43_of m outs c main_v56 (by decide)).trans <| (Gen.V42_of m outs c main_v56 (by decide)).trans <| (Gen.V41_of m outs c main_v56 (by decide)).trans <| (Gen.V40_of m outs c main_v56 (by decide)).trans <| (Gen.V39_of m outs c main_v56 (by decide)).trans <| (Gen.V38_of m outs c main_v56 (by decide)).trans <| (Gen.V37_of m outs c main_v56 (by decide)).trans <| (Gen.V36_of m outs c main_v56 (by decide)).trans <| (Gen.V35_of m outs c main_v56 (by decide)).trans <| (Gen.V34_of m outs c main_v56 (by decide)).trans <| (Gen.V33_of m outs c main_v56 (by decide)).trans <| (Gen.V32_of m outs c main_v56 (by decide)).trans <| (Gen.V31_of m outs c main_v56 (by decide)).trans <| (Gen.V30_of m outs c main_v56 (by decide)).trans <| (Gen.V29_of m outs c main_v56 (by decide)).trans <| (Gen.V28_of m outs c main_v56 (by decide)).trans <| (Gen.V27_of m c main_v56 (by decide)).trans <| (Gen.V26_of m c main_v56 (by decide)).trans <| (Gen.V25_of m c main_v56 (by decide)).trans <| (Gen.V24_of m c main_v56 (by decide)).trans <| (Gen.V23_of m c main_v56 (by decide)).trans <| (Gen.V22_of m c main_v56 (by decide))
  have e3 : Gen.V21 m c (Proc.devRef .tc main_v56) = shapeCast S64x1 (clipV Gen.bcast_S_S64 99#32 (shapeCast S64 (extractStridedSlice S64x1 ![0, 3] ((Gen.V18 m c) (Proc.devRef .tc main_arg6)) Gen.slices_S64x4_S64x1_0_3) Gen.shapeCasts_S64x1_S64)) Gen.shapeCasts_S64_S64x1 := s_main_v56 (Gen.V18 m c)
  have e4 : Gen.V18 m c (Proc.devRef .tc main_arg6) = (argsOf m c).demo :=
    ((Gen.V18_of m c main_arg6 (by decide)).trans <| (Gen.V17_of m c main_arg6 (by decide)).trans <| (Gen.V16_of m c main_arg6 (by decide)).trans <| (Gen.V15_of m c main_arg6 (by decide)).trans <| (Gen.V14_of m c main_arg6 (by decide)).trans <| (Gen.V13_of m c main_arg6 (by decide)).trans <| (Gen.V12_of m c main_arg6 (by decide)).trans <| (Gen.V11_of m c main_arg6 (by decide)).trans <| (Gen.V10_of m c main_arg6 (by decide)).trans <| (Gen.V9_of m c main_arg6 (by decide)).trans <| (Gen.V8_of m c main_arg6 (by decide)).trans <| (Gen.V7_of m c main_arg6 (by decide)).trans <| (Gen.V6_of m c main_arg6 (by decide)).trans <| (Gen.V5_of m c main_arg6 (by decide)).trans <| (Gen.V4_of m c main_arg6 (by decide)).trans <| (Gen.V3_of m c main_arg6 (by decide)).trans <| (Gen.V2_of m c main_arg6 (by decide)).trans <| (Gen.V1_of m c main_arg6 (by decide))).trans rfl
  rw [e1, e2, e3, e4]

theorem main_v159_apply (b : Fin 64) : (Gen.V60 m outs c (Proc.devRef .tc main_v159) : S64x1.Idx → BitVec 32) (ix2 b (0 : Fin 1))
    = clipW 99#32 ((argsOf m c).demo (ix2 b (3 : Fin 4))) := by
  rw [main_v159_eq, clipV_apply]
  rw [shapeCast_apply _ Gen.shapeCasts_S64_S64x1 (ix2 b (0 : Fin 1)) (ix1 b) (by
    rw [Shape.rowMajor_val_one, Shape.rowMajor_val_two]
    show b.val = b.val * 1 + 0
    omega)]
  rw [clipV_apply]
  rw [shapeCast_apply _ Gen.shapeCasts_S64x1_S64 (ix1 b) (ix2 b (0 : Fin 1)) (by
    rw [Shape.rowMajor_val_two, Shape.rowMajor_val_one]
    show b.val * 1 + 0 = b.val
    omega)]
  rw [extractStridedSlice_apply ![0, 3] _ Gen.slices_S64x4_S64x1_0_3 (ix2 b (0 : Fin 1)) (ix2 b (3 : Fin 4)) (by
    intro a
    match a with
    | ⟨0, _⟩ =>
      show b.val = 0 + b.val
      omega
    | ⟨1, _⟩ =>
      show (3 : ℕ) = 3 + 0
      rfl)]
  rw [clipW_clipW (by decide)]

theorem lk_lab (hA : (argsOf m c).Finite) :
    lookupMean (V := 700) (R := 1536) (C := 1) gather_S700_S1536x1x1_S1536x1_n_0_n_n_0_2_1 Gen.bcast_S_S1536x1 Gen.bcast_S1536x1_S1536x1x1_0_1 Gen.reducesTo_S1536x1_S1_d0 Gen.h_S_ Gen.bcast_S1_S1x1_1 Gen.bcast_S_S1x1 700#32 0x44C00000#32 ((Gen.V50 m outs c) (Proc.devRef .tc main_v14)) ((Gen.V50 m outs c) (Proc.devRef .tc main_v99)) (ix2 (0 : Fin 1) (0 : Fin 1))
      = (((∑ n : Fin 1536, rowMean (argsOf m c).labE (clampRow 700 ((argsOf m c).lab (ix2 ⟨n.val / 24, by omega⟩ ⟨n.val % 24, by omega⟩)).toInt)) / 1536 : ℝ) : EReal) := by
  refine (lookupMean_apply (V := 700) (R := 1536) (C := 1) (by norm_num) Gen.gather_S700_S1536x1x1_S1536x1_n_0_n_n_0_2_1_wf gather_S700_S1536x1x1_S1536x1_n_0_n_n_0_2_1 rfl _ _ _ (by decide) _ _ _ _ _ (1536 : ℝ) (by norm_num) ofBits_f32_1536
    (Gen.V50 m outs c (Proc.devRef .tc main_v14)) (rowMean (argsOf m c).labE) (fun v => tab_main_v14 m outs c hA v)
    (Gen.V50 m outs c (Proc.devRef .tc main_v99)) (fun i => by
      rw [main_v99_eq, clipV_apply]
      exact clipW_toNat_lt (by decide) (by norm_num)) (0 : Fin 1)).trans ?_
  refine congrArg (fun x : ℝ => ((x / 1536 : ℝ) : EReal)) (Finset.sum_congr rfl (fun n _ => ?_))
  rw [main_v99_apply, clipW_toNat_len (V := 700) (by decide) (by norm_num)]
  rfl

theorem lk_cond (hA : (argsOf m c).Finite) (j : Fin 30) :
    lookupMean (V := 2000) (R := 64) (C := 30) gather_S2000_S64x30x1_S64x30_n_0_n_n_0_2_1 Gen.bcast_S_S64x30 Gen.bcast_S64x30_S64x30x1_0_1 Gen.reducesTo_S64x30_S30_d0 Gen.h_S_ Gen.bcast_S30_S1x30_1 Gen.bcast_S_S1x30 2000#32 0x42800000#32 ((Gen.V52 m outs c) (Proc.devRef .tc main_v17)) ((Gen.V52 m outs c) (Proc.devRef .tc main_v111)) (ix2 (0 : Fin 1) j)
      = (((∑ b : Fin 64, rowMean (argsOf m c).condE (clampRow 2000 ((argsOf m c).conds (ix2 b j)).toInt)) / 64 : ℝ) : EReal) := by
  refine (lookupMean_apply (V := 2000) (R := 64) (C := 30) (by norm_num) Gen.gather_S2000_S64x30x1_S64x30_n_0_n_n_0_2_1_wf gather_S2000_S64x30x1_S64x30_n_0_n_n_0_2_1 rfl _ _ _ (by decide) _ _ _ _ _ (64 : ℝ) (by norm_num) ofBits_f32_64
    (Gen.V52 m outs c (Proc.devRef .tc main_v17)) (rowMean (argsOf m c).condE) (fun v => tab_main_v17 m outs c hA v)
    (Gen.V52 m outs c (Proc.devRef .tc main_v111)) (fun i => by
      rw [main_v111_eq, clipV_apply]
      exact clipW_toNat_lt (by decide) (by norm_num)) j).trans ?_
  refine congrArg (fun x : ℝ => ((x / 64 : ℝ) : EReal)) (Finset.sum_congr rfl (fun n _ => ?_))
  rw [main_v111_apply, clipW_toNat_len (V := 2000) (by decide) (by norm_num)]
  rfl

theorem lk_gen (hA : (argsOf m c).Finite) :
    lookupMean (V := 2) (R := 64) (C := 1) gather_S2_S64x1x1_S64x1_n_0_n_n_0_2_1 Gen.bcast_S_S64x1 Gen.bcast_S64x1_S64x1x1_0_1 Gen.reducesTo_S64x1_S1_d0 Gen.h_S_ Gen.bcast_S1_S1x1_1 Gen.bcast_S_S1x1 2#32 0x42800000#32 ((Gen.V54 m outs c) (Proc.devRef .tc main_v20)) ((Gen.V54 m outs c) (Proc.devRef .tc main_v123)) (ix2 (0 : Fin 1) (0 : Fin 1))
      = (((∑ b : Fin 64, rowMean (argsOf m c).genderE (clampRow 2 ((argsOf m c).demo (ix2 b 0)).toInt)) / 64 : ℝ) : EReal) := by
  refine (lookupMean_apply (V := 2) (R := 64) (C := 1) (by norm_num) Gen.gather_S2_S64x1x1_S64x1_n_0_n_n_0_2_1_wf gather_S2_S64x1x1_S64x1_n_0_n_n_0_2_1 rfl _ _ _ (by decide) _ _ _ _ _ (64 : ℝ) (by norm_num) ofBits_f32_64
    (Gen.V54 m outs c (Proc.devRef .tc main_v20)) (rowMean (argsOf m c).genderE) (fun v => tab_main_v20 m outs c hA v)
    (Gen.V54 m outs c (Proc.devRef .tc main_v123)) (fun i => by
      rw [main_v123_eq, clipV_apply]
      exact clipW_toNat_lt (by decide) (by norm_num)) (0 : Fin 1)).trans ?_
  refine congrArg (fun x : ℝ => ((x / 64 : ℝ) : EReal)) (Finset.sum_congr rfl (fun n _ => ?_))
  rw [main_v123_apply, clipW_toNat_len (V := 2) (by decide) (by norm_num)]
  rfl

theorem lk_eth (hA : (argsOf m c).Finite) :
    lookupMean (V := 10) (R := 64) (C := 1) gather_S10_S64x1x1_S64x1_n_0_n_n_0_2_1 Gen.bcast_S_S64x1 Gen.bcast_S64x1_S64x1x1_0_1 Gen.reducesTo_S64x1_S1_d0 Gen.h_S_ Gen.bcast_S1_S1x1_1 Gen.bcast_S_S1x1 10#32 0x42800000#32 ((Gen.V56 m outs c) (Proc.devRef .tc main_v23)) ((Gen.V56 m outs c) (Proc.devRef .tc main_v135)) (ix2 (0 : Fin 1) (0 : Fin 1))
      = (((∑ b : Fin 64, rowMean (argsOf m c).ethE (clampRow 10 ((argsOf m c).demo (ix2 b 1)).toInt)) / 64 : ℝ) : EReal) := by
  refine (lookupMean_apply (V := 10) (R := 64) (C := 1) (by norm_num) Gen.gather_S10_S64x1x1_S64x1_n_0_n_n_0_2_1_wf gather_S10_S64x1x1_S64x1_n_0_n_n_0_2_1 rfl _ _ _ (by decide) _ _ _ _ _ (64 : ℝ) (by norm_num) ofBits_f32_64
    (Gen.V56 m outs c (Proc.devRef .tc main_v23)) (rowMean (argsOf m c).ethE) (fun v => tab_main_v23 m outs c hA v)
    (Gen.V56 m outs c (Proc.devRef .tc main_v135)) (fun i => by
      rw [main_v135_eq, clipV_apply]
      exact clipW_toNat_lt (by decide) (by norm_num)) (0 : Fin 1)).trans ?_
  refine congrArg (fun x : ℝ => ((x / 64 : ℝ) : EReal)) (Finset.sum_congr rfl (fun n _ => ?_))
  rw [main_v135_apply, clipW_toNat_len (V := 10) (by decide) (by norm_num)]
  rfl

theorem lk_ins (hA : (argsOf m c).Finite) :
    lookupMean (V := 5) (R := 64) (C := 1) gather_S5_S64x1x1_S64x1_n_0_n_n_0_2_1 Gen.bcast_S_S64x1 Gen.bcast_S64x1_S64x1x1_0_1 Gen.reducesTo_S64x1_S1_d0 Gen.h_S_ Gen.bcast_S1_S1x1_1 Gen.bcast_S_S1x1 5#32 0x42800000#32 ((Gen.V58 m outs c) (Proc.devRef .tc main_v26)) ((Gen.V58 m outs c) (Proc.devRef .tc main_v147)) (ix2 (0 : Fin 1) (0 : Fin 1))
      = (((∑ b : Fin 64, rowMean (argsOf m c).insE (clampRow 5 ((argsOf m c).demo (ix2 b 2)).toInt)) / 64 : ℝ) : EReal) := by
  refine (lookupMean_apply (V := 5) (R := 64) (C := 1) (by norm_num) Gen.gather_S5_S64x1x1_S64x1_n_0_n_n_0_2_1_wf gather_S5_S64x1x1_S64x1_n_0_n_n_0_2_1 rfl _ _ _ (by decide) _ _ _ _ _ (64 : ℝ) (by norm_num) ofBits_f32_64
    (Gen.V58 m outs c (Proc.devRef .tc main_v26)) (rowMean (argsOf m c).insE) (fun v => tab_main_v26 m outs c hA v)
    (Gen.V58 m outs c (Proc.devRef .tc main_v147)) (fun i => by
      rw [main_v147_eq, clipV_apply]
      exact clipW_toNat_lt (by decide) (by norm_num)) (0 : Fin 1)).trans ?_
  refine congrArg (fun x : ℝ => ((x / 64 : ℝ) : EReal)) (Finset.sum_congr rfl (fun n _ => ?_))
  rw [main_v147_apply, clipW_toNat_len (V := 5) (by decide) (by norm_num)]
  rfl

theorem lk_age (hA : (argsOf m c).Finite) :
    lookupMean (V := 100) (R := 64) (C := 1) gather_S100_S64x1x1_S64x1_n_0_n_n_0_2_1 Gen.bcast_S_S64x1 Gen.bcast_S64x1_S64x1x1_0_1 Gen.reducesTo_S64x1_S1_d0 Gen.h_S_ Gen.bcast_S1_S1x1_1 Gen.bcast_S_S1x1 100#32 0x42800000#32 ((Gen.V60 m outs c) (Proc.devRef .tc main_v29)) ((Gen.V60 m outs c) (Proc.devRef .tc main_v159)) (ix2 (0 : Fin 1) (0 : Fin 1))
      = (((∑ b : Fin 64, rowMean (argsOf m c).ageE (clampRow 100 ((argsOf m c).demo (ix2 b 3)).toInt)) / 64 : ℝ) : EReal) := by
  refine (lookupMean_apply (V := 100) (R := 64) (C := 1) (by norm_num) Gen.gather_S100_S64x1x1_S64x1_n_0_n_n_0_2_1_wf gather_S100_S64x1x1_S64x1_n_0_n_n_0_2_1 rfl _ _ _ (by decide) _ _ _ _ _ (64 : ℝ) (by norm_num) ofBits_f32_64
    (Gen.V60 m outs c (Proc.devRef .tc main_v29)) (rowMean (argsOf m c).ageE) (fun v => tab_main_v29 m outs c hA v)
    (Gen.V60 m outs c (Proc.devRef .tc main_v159)) (fun i => by
      rw [main_v159_eq, clipV_apply]
      exact clipW_toNat_lt (by decide) (by norm_num)) (0 : Fin 1)).trans ?_
  refine congrArg (fun x : ℝ => ((x / 64 : ℝ) : EReal)) (Finset.sum_congr rfl (fun n _ => ?_))
  rw [main_v159_apply, clipW_toNat_len (V := 100) (by decide) (by norm_num)]
  rfl

theorem piece_main_v67 (k : Fin 100) : (Gen.V60 m outs c (Proc.devRef .tc main_v67) : S1x100.Idx → EReal) (ix2 (0 : Fin 1) k)
    = @HAdd.hAdd EReal EReal EReal instHAdd (outs 28 main_v65 c (ix3 (0 : Fin 2) k (0 : Fin 1)))
        (outs 28 main_v65 c (ix3 (1 : Fin 2) k (0 : Fin 1))) := by
  have e0 : Gen.V60 m outs c (Proc.devRef .tc main_v67) = Gen.V29 m outs c (Proc.devRef .tc main_v67) :=
    (Gen.V60_of m outs c main_v67 (by decide)).trans <| (Gen.V59_of m outs c main_v67 (by decide)).trans <| (Gen.V58_of m outs c main_v67 (by decide)).trans <| (Gen.V57_of m outs c main_v67 (by decide)).trans <| (Gen.V56_of m outs c main_v67 (by decide)).trans <| (Gen.V55_of m outs c main_v67 (by decide)).trans <| (Gen.V54_of m outs c main_v67 (by decide)).trans <| (Gen.V53_of m outs c main_v67 (by decide)).trans <| (Gen.V52_of m outs c main_v67 (by decide)).trans <| (Gen.V51_of m outs c main_v67 (by decide)).trans <| (Gen.V50_of m outs c main_v67 (by decide)).trans <| (Gen.V49_of m outs c main_v67 (by decide)).trans <| (Gen.V48_of m outs c main_v67 (by decide)).trans <| (Gen.V47_of m outs c main_v67 (by decide)).trans <| (Gen.V46_of m outs c main_v67 (by decide)).trans <| (Gen.V45_of m outs c main_v67 (by decide)).trans <| (Gen.V44_of m outs c main_v67 (by decide)).trans <| (Gen.V43_of m outs c main_v67 (by decide)).trans <| (Gen.V42_of m outs c main_v67 (by decide)).trans <| (Gen.V41_of m outs c main_v67 (by decide)).trans <| (Gen.V40_of m outs c main_v67 (by decide)).trans <| (Gen.V39_of m outs c main_v67 (by decide)).trans <| (Gen.V38_of m outs c main_v67 (by decide)).trans <| (Gen.V37_of m outs c main_v67 (by decide)).trans <| (Gen.V36_of m outs c main_v67 (by decide)).trans <| (Gen.V35_of m outs c main_v67 (by decide)).trans <| (Gen.V34_of m outs c main_v67 (by decide)).trans <| (Gen.V33_of m outs c main_v67 (by decide)).trans <| (Gen.V32_of m outs c main_v67 (by decide)).trans <| (Gen.V31_of m outs c main_v67 (by decide)).trans <| (Gen.V30_of m outs c main_v67 (by decide))
  have e1 : Gen.V29 m outs c (Proc.devRef .tc main_v67) = coreSum (K := 100) Gen.reducesTo_S2x100x1_S100x1_d0 Gen.h_S_ Gen.transposes_S100x1_S1x100_1_0 (Gen.V28 m outs c (Proc.devRef .tc main_v65)) := s_main_v67 (Gen.V28 m outs c)
  have e2 : Gen.V28 m outs c (Proc.devRef .tc main_v65) = outs 28 main_v65 c := Function.update_self _ _ _
  rw [e0, e1, e2, coreSum_apply _ (by decide) _ _ _ k]

theorem piece_main_v78 (k : Fin 200) : (Gen.V60 m outs c (Proc.devRef .tc main_v78) : S1x200.Idx → EReal) (ix2 (0 : Fin 1) k)
    = @HAdd.hAdd EReal EReal EReal instHAdd (outs 36 main_v76 c (ix3 (0 : Fin 2) k (0 : Fin 1)))
        (outs 36 main_v76 c (ix3 (1 : Fin 2) k (0 : Fin 1))) := by
  have e0 : Gen.V60 m outs c (Proc.devRef .tc main_v78) = Gen.V37 m outs c (Proc.devRef .tc main_v78) :=
    (Gen.V60_of m outs c main_v78 (by decide)).trans <| (Gen.V59_of m outs c main_v78 (by decide)).trans <| (Gen.V58_of m outs c main_v78 (by decide)).trans <| (Gen.V57_of m outs c main_v78 (by decide)).trans <| (Gen.V56_of m outs c main_v78 (by decide)).trans <| (Gen.V55_of m outs c main_v78 (by decide)).trans <| (Gen.V54_of m outs c main_v78 (by decide)).trans <| (Gen.V53_of m outs c main_v78 (by decide)).trans <| (Gen.V52_of m outs c main_v78 (by decide)).trans <| (Gen.V51_of m outs c main_v78 (by decide)).trans <| (Gen.V50_of m outs c main_v78 (by decide)).trans <| (Gen.V49_of m outs c main_v78 (by decide)).trans <| (Gen.V48_of m outs c main_v78 (by decide)).trans <| (Gen.V47_of m outs c main_v78 (by decide)).trans <| (Gen.V46_of m outs c main_v78 (by decide)).trans <| (Gen.V45_of m outs c main_v78 (by decide)).trans <| (Gen.V44_of m outs c main_v78 (by decide)).trans <| (Gen.V43_of m outs c main_v78 (by decide)).trans <| (Gen.V42_of m outs c main_v78 (by decide)).trans <| (Gen.V41_of m outs c main_v78 (by decide)).trans <| (Gen.V40_of m outs c main_v78 (by decide)).trans <| (Gen.V39_of m outs c main_v78 (by decide)).trans <| (Gen.V38_of m outs c main_v78 (by decide))
  have e1 : Gen.V37 m outs c (Proc.devRef .tc main_v78) = coreSum (K := 200) Gen.reducesTo_S2x200x1_S200x1_d0 Gen.h_S_ Gen.transposes_S200x1_S1x200_1_0 (Gen.V36 m outs c (Proc.devRef .tc main_v76)) := s_main_v78 (Gen.V36 m outs c)
  have e2 : Gen.V36 m outs c (Proc.devRef .tc main_v76) = outs 36 main_v76 c := Function.update_self _ _ _
  rw [e0, e1, e2, coreSum_apply _ (by decide) _ _ _ k]

theorem piece_main_v88 (k : Fin 50) : (Gen.V60 m outs c (Proc.devRef .tc main_v88) : S1x50.Idx → EReal) (ix2 (0 : Fin 1) k)
    = @HAdd.hAdd EReal EReal EReal instHAdd (outs 42 main_v86 c (ix3 (0 : Fin 2) k (0 : Fin 1)))
        (outs 42 main_v86 c (ix3 (1 : Fin 2) k (0 : Fin 1))) := by
  have e0 : Gen.V60 m outs c (Proc.devRef .tc main_v88) = Gen.V43 m outs c (Proc.devRef .tc main_v88) :=
    (Gen.V60_of m outs c main_v88 (by decide)).trans <| (Gen.V59_of m outs c main_v88 (by decide)).trans <| (Gen.V58_of m outs c main_v88 (by decide)).trans <| (Gen.V57_of m outs c main_v88 (by decide)).trans <| (Gen.V56_of m outs c main_v88 (by decide)).trans <| (Gen.V55_of m outs c main_v88 (by decide)).trans <| (Gen.V54_of m outs c main_v88 (by decide)).trans <| (Gen.V53_of m outs c main_v88 (by decide)).trans <| (Gen.V52_of m outs c main_v88 (by decide)).trans <| (Gen.V51_of m outs c main_v88 (by decide)).trans <| (Gen.V50_of m outs c main_v88 (by decide)).trans <| (Gen.V49_of m outs c main_v88 (by decide)).trans <| (Gen.V48_of m outs c main_v88 (by decide)).trans <| (Gen.V47_of m outs c main_v88 (by decide)).trans <| (Gen.V46_of m outs c main_v88 (by decide)).trans <| (Gen.V45_of m outs c main_v88 (by decide)).trans <| (Gen.V44_of m outs c main_v88 (by decide))
  have e1 : Gen.V43 m outs c (Proc.devRef .tc main_v88) = coreSum (K := 50) Gen.reducesTo_S2x50x1_S50x1_d0 Gen.h_S_ Gen.transposes_S50x1_S1x50_1_0 (Gen.V42 m outs c (Proc.devRef .tc main_v86)) := s_main_v88 (Gen.V42 m outs c)
  have e2 : Gen.V42 m outs c (Proc.devRef .tc main_v86) = outs 42 main_v86 c := Function.update_self _ _ _
  rw [e0, e1, e2, coreSum_apply _ (by decide) _ _ _ k]

theorem piece_main_v98 (k : Fin 50) : (Gen.V60 m outs c (Proc.devRef .tc main_v98) : S1x50.Idx → EReal) (ix2 (0 : Fin 1) k)
    = @HAdd.hAdd EReal EReal EReal instHAdd (outs 48 main_v96 c (ix3 (0 : Fin 2) k (0 : Fin 1)))
        (outs 48 main_v96 c (ix3 (1 : Fin 2) k (0 : Fin 1))) := by
  have e0 : Gen.V60 m outs c (Proc.devRef .tc main_v98) = Gen.V49 m outs c (Proc.devRef .tc main_v98) :=
    (Gen.V60_of m outs c main_v98 (by decide)).trans <| (Gen.V59_of m outs c main_v98 (by decide)).trans <| (Gen.V58_of m outs c main_v98 (by decide)).trans <| (Gen.V57_of m outs c main_v98 (by decide)).trans <| (Gen.V56_of m outs c main_v98 (by decide)).trans <| (Gen.V55_of m outs c main_v98 (by decide)).trans <| (Gen.V54_of m outs c main_v98 (by decide)).trans <| (Gen.V53_of m outs c main_v98 (by decide)).trans <| (Gen.V52_of m outs c main_v98 (by decide)).trans <| (Gen.V51_of m outs c main_v98 (by decide)).trans <| (Gen.V50_of m outs c main_v98 (by decide))
  have e1 : Gen.V49 m outs c (Proc.devRef .tc main_v98) = coreSum (K := 50) Gen.reducesTo_S2x50x1_S50x1_d0 Gen.h_S_ Gen.transposes_S50x1_S1x50_1_0 (Gen.V48 m outs c (Proc.devRef .tc main_v96)) := s_main_v98 (Gen.V48 m outs c)
  have e2 : Gen.V48 m outs c (Proc.devRef .tc main_v96) = outs 48 main_v96 c := Function.update_self _ _ _
  rw [e0, e1, e2, coreSum_apply _ (by decide) _ _ _ k]

theorem piece_main_v110 (hA : (argsOf m c).Finite) : (Gen.V60 m outs c (Proc.devRef .tc main_v110) : S1x1.Idx → EReal) (ix2 (0 : Fin 1) (0 : Fin 1))
    = (((∑ n : Fin 1536, rowMean (argsOf m c).labE (clampRow 700 ((argsOf m c).lab (ix2 ⟨n.val / 24, by omega⟩ ⟨n.val % 24, by omega⟩)).toInt)) / 1536 : ℝ) : EReal) := by
  have e0 : Gen.V60 m outs c (Proc.devRef .tc main_v110) = Gen.V51 m outs c (Proc.devRef .tc main_v110) :=
    (Gen.V60_of m outs c main_v110 (by decide)).trans <| (Gen.V59_of m outs c main_v110 (by decide)).trans <| (Gen.V58_of m outs c main_v110 (by decide)).trans <| (Gen.V57_of m outs c main_v110 (by decide)).trans <| (Gen.V56_of m outs c main_v110 (by decide)).trans <| (Gen.V55_of m outs c main_v110 (by decide)).trans <| (Gen.V54_of m outs c main_v110 (by decide)).trans <| (Gen.V53_of m outs c main_v110 (by decide)).trans <| (Gen.V52_of m outs c main_v110 (by decide))
  have e1 : Gen.V51 m outs c (Proc.devRef .tc main_v110) = lookupMean (V := 700) (R := 1536) (C := 1) gather_S700_S1536x1x1_S1536x1_n_0_n_n_0_2_1 Gen.bcast_S_S1536x1 Gen.bcast_S1536x1_S1536x1x1_0_1 Gen.reducesTo_S1536x1_S1_d0 Gen.h_S_ Gen.bcast_S1_S1x1_1 Gen.bcast_S_S1x1 700#32 0x44C00000#32 ((Gen.V50 m outs c) (Proc.devRef .tc main_v14)) ((Gen.V50 m outs c) (Proc.devRef .tc main_v99)) := s_main_v110 (Gen.V50 m outs c)
  rw [e0, e1]
  exact lk_lab m outs c hA

theorem piece_main_v122 (hA : (argsOf m c).Finite) (j : Fin 30) : (Gen.V60 m outs c (Proc.devRef .tc main_v122) : S1x30.Idx → EReal) (ix2 (0 : Fin 1) j)
    = (((∑ b : Fin 64, rowMean (argsOf m c).condE (clampRow 2000 ((argsOf m c).conds (ix2 b j)).toInt)) / 64 : ℝ) : EReal) := by
  have e0 : Gen.V60 m outs c (Proc.devRef .tc main_v122) = Gen.V53 m outs c (Proc.devRef .tc main_v122) :=
    (Gen.V60_of m outs c main_v122 (by decide)).trans <| (Gen.V59_of m outs c main_v122 (by decide)).trans <| (Gen.V58_of m outs c main_v122 (by decide)).trans <| (Gen.V57_of m outs c main_v122 (by decide)).trans <| (Gen.V56_of m outs c main_v122 (by decide)).trans <| (Gen.V55_of m outs c main_v122 (by decide)).trans <| (Gen.V54_of m outs c main_v122 (by decide))
  have e1 : Gen.V53 m outs c (Proc.devRef .tc main_v122) = lookupMean (V := 2000) (R := 64) (C := 30) gather_S2000_S64x30x1_S64x30_n_0_n_n_0_2_1 Gen.bcast_S_S64x30 Gen.bcast_S64x30_S64x30x1_0_1 Gen.reducesTo_S64x30_S30_d0 Gen.h_S_ Gen.bcast_S30_S1x30_1 Gen.bcast_S_S1x30 2000#32 0x42800000#32 ((Gen.V52 m outs c) (Proc.devRef .tc main_v17)) ((Gen.V52 m outs c) (Proc.devRef .tc main_v111)) := s_main_v122 (Gen.V52 m outs c)
  rw [e0, e1]
  exact lk_cond m outs c hA j

theorem piece_main_v134 (hA : (argsOf m c).Finite) : (Gen.V60 m outs c (Proc.devRef .tc main_v134) : S1x1.Idx → EReal) (ix2 (0 : Fin 1) (0 : Fin 1))
    = (((∑ b : Fin 64, rowMean (argsOf m c).genderE (clampRow 2 ((argsOf m c).demo (ix2 b 0)).toInt)) / 64 : ℝ) : EReal) := by
  have e0 : Gen.V60 m outs c (Proc.devRef .tc main_v134) = Gen.V55 m outs c (Proc.devRef .tc main_v134) :=
    (Gen.V60_of m outs c main_v134 (by decide)).trans <| (Gen.V59_of m outs c main_v134 (by decide)).trans <| (Gen.V58_of m outs c main_v134 (by decide)).trans <| (Gen.V57_of m outs c main_v134 (by decide)).trans <| (Gen.V56_of m outs c main_v134 (by decide))
  have e1 : Gen.V55 m outs c (Proc.devRef .tc main_v134) = lookupMean (V := 2) (R := 64) (C := 1) gather_S2_S64x1x1_S64x1_n_0_n_n_0_2_1 Gen.bcast_S_S64x1 Gen.bcast_S64x1_S64x1x1_0_1 Gen.reducesTo_S64x1_S1_d0 Gen.h_S_ Gen.bcast_S1_S1x1_1 Gen.bcast_S_S1x1 2#32 0x42800000#32 ((Gen.V54 m outs c) (Proc.devRef .tc main_v20)) ((Gen.V54 m outs c) (Proc.devRef .tc main_v123)) := s_main_v134 (Gen.V54 m outs c)
  rw [e0, e1]
  exact lk_gen m outs c hA

theorem piece_main_v146 (hA : (argsOf m c).Finite) : (Gen.V60 m outs c (Proc.devRef .tc main_v146) : S1x1.Idx → EReal) (ix2 (0 : Fin 1) (0 : Fin 1))
    = (((∑ b : Fin 64, rowMean (argsOf m c).ethE (clampRow 10 ((argsOf m c).demo (ix2 b 1)).toInt)) / 64 : ℝ) : EReal) := by
  have e0 : Gen.V60 m outs c (Proc.devRef .tc main_v146) = Gen.V57 m outs c (Proc.devRef .tc main_v146) :=
    (Gen.V60_of m outs c main_v146 (by decide)).trans <| (Gen.V59_of m outs c main_v146 (by decide)).trans <| (Gen.V58_of m outs c main_v146 (by decide))
  have e1 : Gen.V57 m outs c (Proc.devRef .tc main_v146) = lookupMean (V := 10) (R := 64) (C := 1) gather_S10_S64x1x1_S64x1_n_0_n_n_0_2_1 Gen.bcast_S_S64x1 Gen.bcast_S64x1_S64x1x1_0_1 Gen.reducesTo_S64x1_S1_d0 Gen.h_S_ Gen.bcast_S1_S1x1_1 Gen.bcast_S_S1x1 10#32 0x42800000#32 ((Gen.V56 m outs c) (Proc.devRef .tc main_v23)) ((Gen.V56 m outs c) (Proc.devRef .tc main_v135)) := s_main_v146 (Gen.V56 m outs c)
  rw [e0, e1]
  exact lk_eth m outs c hA

theorem piece_main_v158 (hA : (argsOf m c).Finite) : (Gen.V60 m outs c (Proc.devRef .tc main_v158) : S1x1.Idx → EReal) (ix2 (0 : Fin 1) (0 : Fin 1))
    = (((∑ b : Fin 64, rowMean (argsOf m c).insE (clampRow 5 ((argsOf m c).demo (ix2 b 2)).toInt)) / 64 : ℝ) : EReal) := by
  have e0 : Gen.V60 m outs c (Proc.devRef .tc main_v158) = Gen.V59 m outs c (Proc.devRef .tc main_v158) :=
    (Gen.V60_of m outs c main_v158 (by decide))
  have e1 : Gen.V59 m outs c (Proc.devRef .tc main_v158) = lookupMean (V := 5) (R := 64) (C := 1) gather_S5_S64x1x1_S64x1_n_0_n_n_0_2_1 Gen.bcast_S_S64x1 Gen.bcast_S64x1_S64x1x1_0_1 Gen.reducesTo_S64x1_S1_d0 Gen.h_S_ Gen.bcast_S1_S1x1_1 Gen.bcast_S_S1x1 5#32 0x42800000#32 ((Gen.V58 m outs c) (Proc.devRef .tc main_v26)) ((Gen.V58 m outs c) (Proc.devRef .tc main_v147)) := s_main_v158 (Gen.V58 m outs c)
  rw [e0, e1]
  exact lk_ins m outs c hA

theorem main_v171_eq : Gen.V61 m outs c (Proc.devRef .tc main_v171)
    = concatenate S1x435 1 (pieces (Gen.V60 m outs c)) (conc_ev (Gen.V60 m outs c)) :=
  s_main_v171 (Gen.V60 m outs c)

theorem v171_lt100 (k : Fin 435) (h : k.val < 100) :
    (Gen.V61 m outs c (Proc.devRef .tc main_v171) : S1x435.Idx → EReal) (ix2 (0 : Fin 1) k)
      = @HAdd.hAdd EReal EReal EReal instHAdd (outs 28 main_v65 c (ix3 (0 : Fin 2) ⟨k.val, by omega⟩ (0 : Fin 1)))
        (outs 28 main_v65 c (ix3 (1 : Fin 2) ⟨k.val, by omega⟩ (0 : Fin 1))) := by
  rw [main_v171_eq]
  refine (concatenate_apply_piece (t := S1x435) (1 : Fin (S1x435 : Shape).rank) (pieces (Gen.V60 m outs c)) (conc_ev (Gen.V60 m outs c))
    (ix2 (0 : Fin 1) k) 0 (by show (0 : ℕ) < 10; omega) S1x100 (Gen.V60 m outs c (Proc.devRef .tc main_v67)) rfl rfl 0 (by rfl)
    (ix2 (0 : Fin 1) ⟨k.val, by omega⟩)
    (fun b hb => by
      match b with
      | ⟨0, _⟩ => rfl
      | ⟨1, _⟩ => exact absurd rfl hb)
    (by show 0 + (k.val) = (k : Fin 435).val; omega)).trans ?_
  exact piece_main_v67 m outs c ⟨k.val, by omega⟩

theorem v171_lt300 (k : Fin 435) (h0 : 100 ≤ k.val) (h : k.val < 300) :
    (Gen.V61 m outs c (Proc.devRef .tc main_v171) : S1x435.Idx → EReal) (ix2 (0 : Fin 1) k)
      = @HAdd.hAdd EReal EReal EReal instHAdd (outs 36 main_v76 c (ix3 (0 : Fin 2) ⟨k.val - 100, by omega⟩ (0 : Fin 1)))
        (outs 36 main_v76 c (ix3 (1 : Fin 2) ⟨k.val - 100, by omega⟩ (0 : Fin 1))) := by
  rw [main_v171_eq]
  refine (concatenate_apply_piece (t := S1x435) (1 : Fin (S1x435 : Shape).rank) (pieces (Gen.V60 m outs c)) (conc_ev (Gen.V60 m outs c))
    (ix2 (0 : Fin 1) k) 1 (by show (1 : ℕ) < 10; omega) S1x200 (Gen.V60 m outs c (Proc.devRef .tc main_v78)) rfl rfl 100 (by rfl)
    (ix2 (0 : Fin 1) ⟨k.val - 100, by omega⟩)
    (fun b hb => by
      match b with
      | ⟨0, _⟩ => rfl
      | ⟨1, _⟩ => exact absurd rfl hb)
    (by show 100 + (k.val - 100) = (k : Fin 435).val; omega)).trans ?_
  exact piece_main_v78 m outs c ⟨k.val - 100, by omega⟩

theorem v171_lt350 (k : Fin 435) (h0 : 300 ≤ k.val) (h : k.val < 350) :
    (Gen.V61 m outs c (Proc.devRef .tc main_v171) : S1x435.Idx → EReal) (ix2 (0 : Fin 1) k)
      = @HAdd.hAdd EReal EReal EReal instHAdd (outs 42 main_v86 c (ix3 (0 : Fin 2) ⟨k.val - 300, by omega⟩ (0 : Fin 1)))
        (outs 42 main_v86 c (ix3 (1 : Fin 2) ⟨k.val - 300, by omega⟩ (0 : Fin 1))) := by
  rw [main_v171_eq]
  refine (concatenate_apply_piece (t := S1x435) (1 : Fin (S1x435 : Shape).rank) (pieces (Gen.V60 m outs c)) (conc_ev (Gen.V60 m outs c))
    (ix2 (0 : Fin 1) k) 2 (by show (2 : ℕ) < 10; omega) S1x50 (Gen.V60 m outs c (Proc.devRef .tc main_v88)) rfl rfl 300 (by rfl)
    (ix2 (0 : Fin 1) ⟨k.val - 300, by omega⟩)
    (fun b hb => by
      match b with
      | ⟨0, _⟩ => rfl
      | ⟨1, _⟩ => exact absurd rfl hb)
    (by show 300 + (k.val - 300) = (k : Fin 435).val; omega)).trans ?_
  exact piece_main_v88 m outs c ⟨k.val - 300, by omega⟩

theorem v171_lt400 (k : Fin 435) (h0 : 350 ≤ k.val) (h : k.val < 400) :
    (Gen.V61 m outs c (Proc.devRef .tc main_v171) : S1x435.Idx → EReal) (ix2 (0 : Fin 1) k)
      = @HAdd.hAdd EReal EReal EReal instHAdd (outs 48 main_v96 c (ix3 (0 : Fin 2) ⟨k.val - 350, by omega⟩ (0 : Fin 1)))
        (outs 48 main_v96 c (ix3 (1 : Fin 2) ⟨k.val - 350, by omega⟩ (0 : Fin 1))) := by
  rw [main_v171_eq]
  refine (concatenate_apply_piece (t := S1x435) (1 : Fin (S1x435 : Shape).rank) (pieces (Gen.V60 m outs c)) (conc_ev (Gen.V60 m outs c))
    (ix2 (0 : Fin 1) k) 3 (by show (3 : ℕ) < 10; omega) S1x50 (Gen.V60 m outs c (Proc.devRef .tc main_v98)) rfl rfl 350 (by rfl)
    (ix2 (0 : Fin 1) ⟨k.val - 350, by omega⟩)
    (fun b hb => by
      match b with
      | ⟨0, _⟩ => rfl
      | ⟨1, _⟩ => exact absurd rfl hb)
    (by show 350 + (k.val - 350) = (k : Fin 435).val; omega)).trans ?_
  exact piece_main_v98 m outs c ⟨k.val - 350, by omega⟩

theorem v171_ge400 (hA : (argsOf m c).Finite) (k : Fin 435) (h : 400 ≤ k.val) :
    (Gen.V61 m outs c (Proc.devRef .tc main_v171) : S1x435.Idx → EReal) (ix2 (0 : Fin 1) k) = ((xbar (argsOf m c) k : ℝ) : EReal) := by
  have hk := k.isLt
  rw [main_v171_eq]
  unfold xbar
  rw [dif_neg (by omega : ¬ k.val < 100), dif_neg (by omega : ¬ k.val < 300), dif_neg (by omega : ¬ k.val < 350), dif_neg (by omega : ¬ k.val < 400)]
  by_cases h1 : k.val < 401
  · rw [dif_pos h1]
    refine (concatenate_apply_piece (t := S1x435) (1 : Fin (S1x435 : Shape).rank) (pieces (Gen.V60 m outs c)) (conc_ev (Gen.V60 m outs c))
    (ix2 (0 : Fin 1) k) 4 (by show (4 : ℕ) < 10; omega) S1x1 (Gen.V60 m outs c (Proc.devRef .tc main_v110)) rfl rfl 400 (by rfl)
    (ix2 (0 : Fin 1) ⟨0, by omega⟩)
    (fun b hb => by
      match b with
      | ⟨0, _⟩ => rfl
      | ⟨1, _⟩ => exact absurd rfl hb)
    (by show 400 + (0) = (k : Fin 435).val; omega)).trans ?_
    exact piece_main_v110 m outs c hA
  rw [dif_neg h1]
  by_cases h2 : k.val < 431
  · rw [dif_pos h2]
    refine (concatenate_apply_piece (t := S1x435) (1 : Fin (S1x435 : Shape).rank) (pieces (Gen.V60 m outs c)) (conc_ev (Gen.V60 m outs c))
    (ix2 (0 : Fin 1) k) 5 (by show (5 : ℕ) < 10; omega) S1x30 (Gen.V60 m outs c (Proc.devRef .tc main_v122)) rfl rfl 401 (by rfl)
    (ix2 (0 : Fin 1) ⟨k.val - 401, by omega⟩)
    (fun b hb => by
      match b with
      | ⟨0, _⟩ => rfl
      | ⟨1, _⟩ => exact absurd rfl hb)
    (by show 401 + (k.val - 401) = (k : Fin 435).val; omega)).trans ?_
    exact piece_main_v122 m outs c hA ⟨k.val - 401, by omega⟩
  rw [dif_neg h2]
  by_cases h3 : k.val < 432
  · rw [dif_pos h3]
    refine (concatenate_apply_piece (t := S1x435) (1 : Fin (S1x435 : Shape).rank) (pieces (Gen.V60 m outs c)) (conc_ev (Gen.V60 m outs c))
    (ix2 (0 : Fin 1) k) 6 (by show (6 : ℕ) < 10; omega) S1x1 (Gen.V60 m outs c (Proc.devRef .tc main_v134)) rfl rfl 431 (by rfl)
    (ix2 (0 : Fin 1) ⟨0, by omega⟩)
    (fun b hb => by
      match b with
      | ⟨0, _⟩ => rfl
      | ⟨1, _⟩ => exact absurd rfl hb)
    (by show 431 + (0) = (k : Fin 435).val; omega)).trans ?_
    exact piece_main_v134 m outs c hA
  rw [dif_neg h3]
  by_cases h4 : k.val < 433
  · rw [dif_pos h4]
    refine (concatenate_apply_piece (t := S1x435) (1 : Fin (S1x435 : Shape).rank) (pieces (Gen.V60 m outs c)) (conc_ev (Gen.V60 m outs c))
    (ix2 (0 : Fin 1) k) 7 (by show (7 : ℕ) < 10; omega) S1x1 (Gen.V60 m outs c (Proc.devRef .tc main_v146)) rfl rfl 432 (by rfl)
    (ix2 (0 : Fin 1) ⟨0, by omega⟩)
    (fun b hb => by
      match b with
      | ⟨0, _⟩ => rfl
      | ⟨1, _⟩ => exact absurd rfl hb)
    (by show 432 + (0) = (k : Fin 435).val; omega)).trans ?_
    exact piece_main_v146 m outs c hA
  rw [dif_neg h4]
  by_cases h5 : k.val < 434
  · rw [dif_pos h5]
    refine (concatenate_apply_piece (t := S1x435) (1 : Fin (S1x435 : Shape).rank) (pieces (Gen.V60 m outs c)) (conc_ev (Gen.V60 m outs c))
    (ix2 (0 : Fin 1) k) 8 (by show (8 : ℕ) < 10; omega) S1x1 (Gen.V60 m outs c (Proc.devRef .tc main_v158)) rfl rfl 433 (by rfl)
    (ix2 (0 : Fin 1) ⟨0, by omega⟩)
    (fun b hb => by
      match b with
      | ⟨0, _⟩ => rfl
      | ⟨1, _⟩ => exact absurd rfl hb)
    (by show 433 + (0) = (k : Fin 435).val; omega)).trans ?_
    exact piece_main_v158 m outs c hA
  rw [dif_neg h5]
  refine (concatenate_apply_piece (t := S1x435) (1 : Fin (S1x435 : Shape).rank) (pieces (Gen.V60 m outs c)) (conc_ev (Gen.V60 m outs c))
    (ix2 (0 : Fin 1) k) 9 (by show (9 : ℕ) < 10; omega) S1x1 (lookupMean (V := 100) (R := 64) (C := 1) gather_S100_S64x1x1_S64x1_n_0_n_n_0_2_1 Gen.bcast_S_S64x1 Gen.bcast_S64x1_S64x1x1_0_1 Gen.reducesTo_S64x1_S1_d0 Gen.h_S_ Gen.bcast_S1_S1x1_1 Gen.bcast_S_S1x1 100#32 0x42800000#32 ((Gen.V60 m outs c) (Proc.devRef .tc main_v29)) ((Gen.V60 m outs c) (Proc.devRef .tc main_v159))) rfl rfl 434 (by rfl)
    (ix2 (0 : Fin 1) ⟨0, by omega⟩)
    (fun b hb => by
      match b with
      | ⟨0, _⟩ => rfl
      | ⟨1, _⟩ => exact absurd rfl hb)
    (by show 434 + (0) = (k : Fin 435).val; omega)).trans ?_
  exact lk_age m outs c hA

theorem v172 : (Gen.V61 m outs c (Proc.devRef .tc main_v172) : S1x128.Idx → EReal) = fun i => (argsOf m c).projb (ix1 (i 1)) := by
  have e1 : Gen.V61 m outs c (Proc.devRef .tc main_v172) = shapeCast S1x128 (Gen.V60 m outs c (Proc.devRef .tc main_arg18)) Gen.shapeCasts_S128_S1x128 := s_main_v172 (Gen.V60 m outs c)
  have e2 : Gen.V60 m outs c (Proc.devRef .tc main_arg18) = (argsOf m c).projb :=
    ((Gen.V61_of m outs c main_arg18 (by decide)).symm.trans <| (Gen.V62_of m outs c main_arg18 (by decide)).symm.trans <| (Gen.V63_of m outs c main_arg18 (by decide)).symm).trans (Gen.V63_main_arg18 m outs c)
  rw [e1, e2]
  funext i
  rw [eq_ix2 i]
  exact shapeCast_a_1a_apply _ _ _ _

theorem v173 : (Gen.V61 m outs c (Proc.devRef .tc main_v173) : S1x256.Idx → EReal) = fun i => (argsOf m c).b1 (ix1 (i 1)) := by
  have e1 : Gen.V61 m outs c (Proc.devRef .tc main_v173) = shapeCast S1x256 (Gen.V60 m outs c (Proc.devRef .tc main_arg20)) Gen.shapeCasts_S256_S1x256 := s_main_v173 (Gen.V60 m outs c)
  have e2 : Gen.V60 m outs c (Proc.devRef .tc main_arg20) = (argsOf m c).b1 :=
    ((Gen.V61_of m outs c main_arg20 (by decide)).symm.trans <| (Gen.V62_of m outs c main_arg20 (by decide)).symm.trans <| (Gen.V63_of m outs c main_arg20 (by decide)).symm).trans (Gen.V63_main_arg20 m outs c)
  rw [e1, e2]
  funext i
  rw [eq_ix2 i]
  exact shapeCast_a_1a_apply _ _ _ _

theorem v174 : (Gen.V61 m outs c (Proc.devRef .tc main_v174) : S1x256.Idx → EReal) = fun i => (argsOf m c).b2 (ix1 (i 1)) := by
  have e1 : Gen.V61 m outs c (Proc.devRef .tc main_v174) = shapeCast S1x256 (Gen.V60 m outs c (Proc.devRef .tc main_arg22)) Gen.shapeCasts_S256_S1x256 := s_main_v174 (Gen.V60 m outs c)
  have e2 : Gen.V60 m outs c (Proc.devRef .tc main_arg22) = (argsOf m c).b2 :=
    ((Gen.V61_of m outs c main_arg22 (by decide)).symm.trans <| (Gen.V62_of m outs c main_arg22 (by decide)).symm.trans <| (Gen.V63_of m outs c main_arg22 (by decide)).symm).trans (Gen.V63_main_arg22 m outs c)
  rw [e1, e2]
  funext i
  rw [eq_ix2 i]
  exact shapeCast_a_1a_apply _ _ _ _

theorem v175 : (Gen.V61 m outs c (Proc.devRef .tc main_v175) : S1x128.Idx → EReal) = fun i => (argsOf m c).fc1b (ix1 (i 1)) := by
  have e1 : Gen.V61 m outs c (Proc.devRef .tc main_v175) = shapeCast S1x128 (Gen.V60 m outs c (Proc.devRef .tc main_arg24)) Gen.shapeCasts_S128_S1x128 := s_main_v175 (Gen.V60 m outs c)
  have e2 : Gen.V60 m outs c (Proc.devRef .tc main_arg24) = (argsOf m c).fc1b :=
    ((Gen.V61_of m outs c main_arg24 (by decide)).symm.trans <| (Gen.V62_of m outs c main_arg24 (by decide)).symm.trans <| (Gen.V63_of m outs c main_arg24 (by decide)).symm).trans (Gen.V63_main_arg24 m outs c)
  rw [e1, e2]
  funext i
  rw [eq_ix2 i]
  exact shapeCast_a_1a_apply _ _ _ _

theorem v176 : (Gen.V61 m outs c (Proc.devRef .tc main_v176) : S1x1.Idx → EReal) = fun i => (argsOf m c).fc2b (ix1 (i 1)) := by
  have e1 : Gen.V61 m outs c (Proc.devRef .tc main_v176) = shapeCast S1x1 (Gen.V60 m outs c (Proc.devRef .tc main_arg26)) Gen.shapeCasts_S1_S1x1 := s_main_v176 (Gen.V60 m outs c)
  have e2 : Gen.V60 m outs c (Proc.devRef .tc main_arg26) = (argsOf m c).fc2b :=
    ((Gen.V61_of m outs c main_arg26 (by decide)).symm.trans <| (Gen.V62_of m outs c main_arg26 (by decide)).symm.trans <| (Gen.V63_of m outs c main_arg26 (by decide)).symm).trans (Gen.V63_main_arg26 m outs c)
  rw [e1, e2]
  funext i
  rw [eq_ix2 i]
  exact shapeCast_a_1a_apply _ _ _ _

theorem arg17 : (Gen.V61 m outs c (Proc.devRef .tc main_arg17) : S435x128.Idx → EReal) = (argsOf m c).projW :=
  ((Gen.V62_of m outs c main_arg17 (by decide)).symm.trans <| (Gen.V63_of m outs c main_arg17 (by decide)).symm).trans (Gen.V63_main_arg17 m outs c)

theorem arg19 : (Gen.V61 m outs c (Proc.devRef .tc main_arg19) : S128x256.Idx → EReal) = (argsOf m c).W1 :=
  ((Gen.V62_of m outs c main_arg19 (by decide)).symm.trans <| (Gen.V63_of m outs c main_arg19 (by decide)).symm).trans (Gen.V63_main_arg19 m outs c)

theorem arg21 : (Gen.V61 m outs c (Proc.devRef .tc main_arg21) : S256x256.Idx → EReal) = (argsOf m c).W2 :=
  ((Gen.V62_of m outs c main_arg21 (by decide)).symm.trans <| (Gen.V63_of m outs c main_arg21 (by decide)).symm).trans (Gen.V63_main_arg21 m outs c)

theorem arg23 : (Gen.V61 m outs c (Proc.devRef .tc main_arg23) : S256x128.Idx → EReal) = (argsOf m c).fc1W :=
  ((Gen.V62_of m outs c main_arg23 (by decide)).symm.trans <| (Gen.V63_of m outs c main_arg23 (by decide)).symm).trans (Gen.V63_main_arg23 m outs c)

theorem arg25 : (Gen.V61 m outs c (Proc.devRef .tc main_arg25) : S128x1.Idx → EReal) = (argsOf m c).fc2W :=
  ((Gen.V62_of m outs c main_arg25 (by decide)).symm.trans <| (Gen.V63_of m outs c main_arg25 (by decide)).symm).trans (Gen.V63_main_arg25 m outs c)

theorem v178 : (Gen.V63 m outs c (Proc.devRef .tc main_v178) : S64x1.Idx → EReal) = fun _ => (outs 62 main_v177_1 c : S1x1.Idx → EReal) (ix2 (0 : Fin 1) (0 : Fin 1)) := by
  have e1 : Gen.V63 m outs c (Proc.devRef .tc main_v178) = broadcastInDim S64x1 ![0, 1] Gen.bcast_S1x1_S64x1_0_1 (Gen.V62 m outs c (Proc.devRef .tc main_v177_1)) := s_main_v178 (Gen.V62 m outs c)
  have e2 : Gen.V62 m outs c (Proc.devRef .tc main_v177_1) = outs 62 main_v177_1 c := Function.update_self _ _ _
  rw [e1, e2]
  funext i
  exact broadcastInDim_apply ![0, 1] Gen.bcast_S1x1_S64x1_0_1 _ i (ix2 (0 : Fin 1) (0 : Fin 1)) (by
    intro a
    match a with
    | ⟨0, _⟩ => rfl
    | ⟨1, _⟩ => rfl)

theorem v179 : (Gen.V63 m outs c (Proc.devRef .tc main_v179) : S64x1.Idx → EReal) = fun _ => (outs 62 main_v177_0 c : S1x1.Idx → EReal) (ix2 (0 : Fin 1) (0 : Fin 1)) := by
  have e1 : Gen.V63 m outs c (Proc.devRef .tc main_v179) = broadcastInDim S64x1 ![0, 1] Gen.bcast_S1x1_S64x1_0_1 (Gen.V62 m outs c (Proc.devRef .tc main_v177_0)) := s_main_v179 (Gen.V62 m outs c)
  have e2 : Gen.V62 m outs c (Proc.devRef .tc main_v177_0) = outs 62 main_v177_0 c :=
    (Function.update_of_ne (StableHlo.devRef_ne_of_ne (by decide)) _ _).trans (Function.update_self _ _ _)
  rw [e1, e2]
  funext i
  exact broadcastInDim_apply ![0, 1] Gen.bcast_S1x1_S64x1_0_1 _ i (ix2 (0 : Fin 1) (0 : Fin 1)) (by
    intro a
    match a with
    | ⟨0, _⟩ => rfl
    | ⟨1, _⟩ => rfl)

end Cert.KernelIdeal.HostPost

end
-- ==== Proof.Val.Kernel.lean ====
import proofs.«406789_j53094385713523_3_alg».proof.Proof.KI.Chain
import proofs.«406789_j53094385713523_3_alg».proof.Proof.Val.Average
import proofs.«406789_j53094385713523_3_alg».proof.Proof.Val.Gather0
import proofs.«406789_j53094385713523_3_alg».proof.Proof.Val.Gather1
import proofs.«406789_j53094385713523_3_alg».proof.Proof.Val.Gather2
import proofs.«406789_j53094385713523_3_alg».proof.Proof.Val.Gather3
import proofs.«406789_j53094385713523_3_alg».proof.Proof.Val.Mlp
import proofs.«406789_j53094385713523_3_alg».proof.Proof.Val.HostPre
import proofs.«406789_j53094385713523_3_alg».proof.Proof.Val.HostPost

noncomputable section

namespace Cert.KernelIdeal.Val

open Idealize.ShloMosaic Idealize.ShloMosaic.TcCoe Idealize.ShloMosaic.ValueIdx
open Cert.KernelIdeal Cert.Spec

variable (m : (ℓ : Loc nD τ sig) → Buf (Elt Ideal) ℓ) (c : Dev nD)

def coreSum {K : ℕ} (O : Vec Ideal ⟨3, ![2, K, 1]⟩ .f32) (j : Fin K) : EReal := O (ix3 0 j 0) + O (ix3 1 j 0)

theorem slot_med (hA : (argsOf m c).Finite) (k : Fin 435) (h : k.val < 100) :
    coreSum (K := 100) (Chain.outs m 28 main_v65 c) ⟨k.val, h⟩ = ((xbar (argsOf m c) k : ℝ) : EReal) := by
  rw [xbar_med _ k h]
  refine slot_two_cores (P := 912) (N := 1824) (R := 1536) (K := 100) (W := 1024) rfl (by norm_num)
    (Chain.outs m 28 main_v65 c) (Gen.V27 m c main_v60) (Gen.V27 m c main_v59) (Gen.V27 m c main_v64) 1536
    (fun hT hM hI p j => (congrFun (Chain.outs_28 m c) _).trans
      (Val0.outArr_apply (Chain.atTc (Gen.V27 m)) c hT hM hI p j))
    (fun v => rowMean (argsOf m c).medE v) (fun v => HostPre.r0_tab m c hA v) (fun n => HostPre.r0_mask m c n)
    (fun n j => ?_) ⟨k.val, h⟩
    (fun n => clampRow 1000
      ((argsOf m c).meds (ix3 ⟨n.val / 24, by omega⟩ ⟨n.val % 24, by omega⟩ ⟨k.val, h⟩)).toInt)
    (fun n hn => ?_)
  · rw [HostPre.r0_idx m c n j]
    split_ifs
    · rw [toNat_ofNat_clampRow (V := 1000) (by norm_num) (by norm_num)]
      exact lt_trans (clampRow_lt (V := 1000) (by norm_num) _) (by norm_num)
    · simp
  · rw [HostPre.r0_idx m c n ⟨k.val, h⟩, dif_pos hn, toNat_ofNat_clampRow (V := 1000) (by norm_num) (by norm_num)]

theorem slot_chart (hA : (argsOf m c).Finite) (k : Fin 435) (h0 : 100 ≤ k.val) (h : k.val < 300) :
    coreSum (K := 200) (Chain.outs m 36 main_v76 c) ⟨k.val - 100, by omega⟩
      = ((xbar (argsOf m c) k : ℝ) : EReal) := by
  rw [xbar_chart _ k h0 h]
  refine slot_two_cores (P := 792) (N := 1584) (R := 1536) (K := 200) (W := 3072) rfl (by norm_num)
    (Chain.outs m 36 main_v76 c) (Gen.V35 m (Chain.outs m) c main_v71) (Gen.V35 m (Chain.outs m) c main_v70)
    (Gen.V35 m (Chain.outs m) c main_v75) 1536
    (fun hT hM hI p j => (congrFun (Chain.outs_36 m c) _).trans
      (Val1.outArr_apply (Chain.atTc (Gen.V35 m (Chain.outs m))) c hT hM hI p j))
    (fun v => rowMean (argsOf m c).chartE v) (fun v => HostPre.r1_tab m (Chain.outs m) c hA v)
    (fun n => HostPre.r1_mask m (Chain.outs m) c n)
    (fun n j => ?_) ⟨k.val - 100, by omega⟩
    (fun n => clampRow 3000
      ((argsOf m c).chart (ix3 ⟨n.val / 24, by omega⟩ ⟨n.val % 24, by omega⟩ ⟨k.val - 100, by omega⟩)).toInt)
    (fun n hn => ?_)
  · rw [HostPre.r1_idx m (Chain.outs m) c n j]
    split_ifs
    · rw [toNat_ofNat_clampRow (V := 3000) (by norm_num) (by norm_num)]
      exact lt_trans (clampRow_lt (V := 3000) (by norm_num) _) (by norm_num)
    · simp
  · rw [HostPre.r1_idx m (Chain.outs m) c n ⟨k.val - 100, by omega⟩, dif_pos hn,
      toNat_ofNat_clampRow (V := 3000) (by norm_num) (by norm_num)]

theorem slot_out (hA : (argsOf m c).Finite) (k : Fin 435) (h0 : 300 ≤ k.val) (h : k.val < 350) :
    coreSum (K := 50) (Chain.outs m 42 main_v86 c) ⟨k.val - 300, by omega⟩
      = ((xbar (argsOf m c) k : ℝ) : EReal) := by
  rw [xbar_out _ k h0 h]
  refine slot_two_cores (P := 768) (N := 1536) (R := 1536) (K := 50) (W := 512) rfl (le_refl _)
    (Chain.outs m 42 main_v86 c) (Gen.V41 m (Chain.outs m) c main_v79) (Gen.V41 m (Chain.outs m) c main_v81)
    (Gen.V41 m (Chain.outs m) c main_v85) 1536
    (fun hT hM hI p j => (congrFun (Chain.outs_42 m c) _).trans
      (Val2.outArr_apply (Chain.atTc (Gen.V41 m (Chain.outs m))) c hT hM hI p j))
    (fun v => rowMean (argsOf m c).outE v) (fun v => HostPre.r2_tab m (Chain.outs m) c hA v)
    (fun n => HostPre.r2_mask m (Chain.outs m) c n)
    (fun n j => ?_) ⟨k.val - 300, by omega⟩
    (fun n => clampRow 500
      ((argsOf m c).out (ix3 ⟨n.val / 24, by omega⟩ ⟨n.val % 24, by omega⟩ ⟨k.val - 300, by omega⟩)).toInt)
    (fun n hn => ?_)
  · rw [HostPre.r2_idx m (Chain.outs m) c n j, toNat_ofNat_clampRow (V := 500) (by norm_num) (by norm_num)]
    exact lt_trans (clampRow_lt (V := 500) (by norm_num) _) (by norm_num)
  · rw [HostPre.r2_idx m (Chain.outs m) c n ⟨k.val - 300, by omega⟩,
      toNat_ofNat_clampRow (V := 500) (by norm_num) (by norm_num)]

theorem slot_proc (hA : (argsOf m c).Finite) (k : Fin 435) (h0 : 350 ≤ k.val) (h : k.val < 400) :
    coreSum (K := 50) (Chain.outs m 48 main_v96 c) ⟨k.val - 350, by omega⟩
      = ((xbar (argsOf m c) k : ℝ) : EReal) := by
  rw [xbar_proc _ k h0 h]
  refine slot_two_cores (P := 768) (N := 1536) (R := 1536) (K := 50) (W := 1536) rfl (le_refl _)
    (Chain.outs m 48 main_v96 c) (Gen.V47 m (Chain.outs m) c main_v89) (Gen.V47 m (Chain.outs m) c main_v91)
    (Gen.V47 m (Chain.outs m) c main_v95) 1536
    (fun hT hM hI p j => (congrFun (Chain.outs_48 m c) _).trans
      (Val3.outArr_apply (Chain.atTc (Gen.V47 m (Chain.outs m))) c hT hM hI p j))
    (fun v => rowMean (argsOf m c).procE v) (fun v => HostPre.r3_tab m (Chain.outs m) c hA v)
    (fun n => HostPre.r3_mask m (Chain.outs m) c n)
    (fun n j => ?_) ⟨k.val - 350, by omega⟩
    (fun n => clampRow 1500
      ((argsOf m c).proc (ix3 ⟨n.val / 24, by omega⟩ ⟨n.val % 24, by omega⟩ ⟨k.val - 350, by omega⟩)).toInt)
    (fun n hn => ?_)
  · rw [HostPre.r3_idx m (Chain.outs m) c n j, toNat_ofNat_clampRow (V := 1500) (by norm_num) (by norm_num)]
    exact lt_trans (clampRow_lt (V := 1500) (by norm_num) _) (by norm_num)
  · rw [HostPre.r3_idx m (Chain.outs m) c n ⟨k.val - 350, by omega⟩,
      toNat_ofNat_clampRow (V := 1500) (by norm_num) (by norm_num)]

theorem input_row (hA : (argsOf m c).Finite) :
    (Gen.V61 m (Chain.outs m) c main_v171 : S1x435.Idx → EReal)
      = fun i => ((xbar (argsOf m c) (i 1) : ℝ) : EReal) := by
  funext i
  obtain ⟨z, k, rfl⟩ := exists_ix2 i
  obtain rfl : z = 0 := Subsingleton.elim _ _
  show _ = ((xbar (argsOf m c) k : ℝ) : EReal)
  by_cases h1 : k.val < 100
  · exact (HostPost.v171_lt100 m (Chain.outs m) c k h1).trans (slot_med m c hA k h1)
  by_cases h2 : k.val < 300
  · exact (HostPost.v171_lt300 m (Chain.outs m) c k (by omega) h2).trans (slot_chart m c hA k (by omega) h2)
  by_cases h3 : k.val < 350
  · exact (HostPost.v171_lt350 m (Chain.outs m) c k (by omega) h3).trans (slot_out m c hA k (by omega) h3)
  by_cases h4 : k.val < 400
  · exact (HostPost.v171_lt400 m (Chain.outs m) c k (by omega) h4).trans (slot_proc m c hA k (by omega) h4)
  · exact HostPost.v171_ge400 m (Chain.outs m) c hA k (by omega)

theorem results (hA : (argsOf m c).Finite) :
    Gen.V63 m (Chain.outs m) c main_v178 = resSig (argsOf m c)
      ∧ Gen.V63 m (Chain.outs m) c main_v179 = resRaw (argsOf m c) := by
  have hsig : (Chain.outs m 62 main_v177_1 c : S1x1.Idx → EReal)
      = fun _ => Ideal.logistic ((mlpOf (argsOf m c) (xbar (argsOf m c)) : ℝ) : EReal) :=
    (Chain.outs_62_1 m c).trans
      (Val4.sigmoid_array (Chain.atTc (Gen.V61 m (Chain.outs m))) c (argsOf m c) hA (xbar (argsOf m c))
        (input_row m c hA)
        (HostPost.arg17 m (Chain.outs m) c) (HostPost.v172 m (Chain.outs m) c)
        (HostPost.arg19 m (Chain.outs m) c) (HostPost.v173 m (Chain.outs m) c)
        (HostPost.arg21 m (Chain.outs m) c) (HostPost.v174 m (Chain.outs m) c)
        (HostPost.arg23 m (Chain.outs m) c) (HostPost.v175 m (Chain.outs m) c)
        (HostPost.arg25 m (Chain.outs m) c) (HostPost.v176 m (Chain.outs m) c))
  have hraw : (Chain.outs m 62 main_v177_0 c : S1x1.Idx → EReal)
      = fun _ => ((mlpOf (argsOf m c) (xbar (argsOf m c)) : ℝ) : EReal) :=
    (Chain.outs_62_0 m c).trans
      (Val4.logit_array (Chain.atTc (Gen.V61 m (Chain.outs m))) c (argsOf m c) hA (xbar (argsOf m c))
        (input_row m c hA)
        (HostPost.arg17 m (Chain.outs m) c) (HostPost.v172 m (Chain.outs m) c)
        (HostPost.arg19 m (Chain.outs m) c) (HostPost.v173 m (Chain.outs m) c)
        (HostPost.arg21 m (Chain.outs m) c) (HostPost.v174 m (Chain.outs m) c)
        (HostPost.arg23 m (Chain.outs m) c) (HostPost.v175 m (Chain.outs m) c)
        (HostPost.arg25 m (Chain.outs m) c) (HostPost.v176 m (Chain.outs m) c))
  constructor
  · refine (HostPost.v178 m (Chain.outs m) c).trans ?_
    funext i
    exact congrFun hsig (ix2 0 0)
  · refine (HostPost.v179 m (Chain.outs m) c).trans ?_
    funext i
    exact congrFun hraw (ix2 0 0)

end Cert.KernelIdeal.Val

end
-- ==== Proof.Ref.RunHand0.lean ====
import proofs.«406789_j53094385713523_3_alg».proof.Proof.LibWrites
import proofs.«406789_j53094385713523_3_alg».proof.Proof.Gen.ReferenceIdeal
import Idealize.ShloMosaic.Lib.StableHlo.Run
import Idealize.ShloMosaic.Lib.Pipeline.Frame

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ nullary main_c (constantI S_ 32 0#32),
    nullary main_c_0 (constantI S_ 32 999#32),
    TRef.unary (TRef.of (T := ⟨S_, .i32⟩) main_c) (TRef.of (T := ⟨S_, .i32⟩) main_call0_v0) id,
    TRef.unary (TRef.of (T := ⟨S_, .i32⟩) main_call0_v0) (TRef.of (T := ⟨S64x24x100, .i32⟩) main_call0_v1) (broadcastInDim S64x24x100 ![] bcast_S_S64x24x100),
    TRef.binary (TRef.of (T := ⟨S64x24x100, .i32⟩) main_call0_v1) (TRef.of (T := ⟨S64x24x100, .i32⟩) main_arg0) (TRef.of (T := ⟨S64x24x100, .i32⟩) main_call0_v2) maxsi,
    TRef.unary (TRef.of (T := ⟨S_, .i32⟩) main_c_0) (TRef.of (T := ⟨S_, .i32⟩) main_call0_v3) id,
    TRef.unary (TRef.of (T := ⟨S_, .i32⟩) main_call0_v3) (TRef.of (T := ⟨S64x24x100, .i32⟩) main_call0_v4) (broadcastInDim S64x24x100 ![] bcast_S_S64x24x100),
    TRef.binary (TRef.of (T := ⟨S64x24x100, .i32⟩) main_call0_v4) (TRef.of (T := ⟨S64x24x100, .i32⟩) main_call0_v2) (TRef.of (T := ⟨S64x24x100, .i32⟩) main_v0) minsi,
    nullary main_c_1 (constantI S_ 32 0#32),
    unary main_c_1 main_v1 (broadcastInDim S64x24x100 ![] bcast_S_S64x24x100 : (⟨S_, .i32⟩ : BufTy).Contents (Elt F) → (⟨S64x24x100, .i32⟩ : BufTy).Contents (Elt F)),
    binary main_v0 main_v1 main_v2 (cmpi .slt : (⟨S64x24x100, .i32⟩ : BufTy).Contents (Elt F) → (⟨S64x24x100, .i32⟩ : BufTy).Contents (Elt F) → (⟨S64x24x100, .i1⟩ : BufTy).Contents (Elt F)),
    nullary main_c_2 (constantI S_ 32 1000#32),
    unary main_c_2 main_v3 (broadcastInDim S64x24x100 ![] bcast_S_S64x24x100 : (⟨S_, .i32⟩ : BufTy).Contents (Elt F) → (⟨S64x24x100, .i32⟩ : BufTy).Contents (Elt F)),
    binary main_v0 main_v3 main_v4 (addi : (⟨S64x24x100, .i32⟩ : BufTy).Contents (Elt F) → (⟨S64x24x100, .i32⟩ : BufTy).Contents (Elt F) → (⟨S64x24x100, .i32⟩ : BufTy).Contents (Elt F)),
    ternary main_v2 main_v4 main_v0 main_v5 (select : (⟨S64x24x100, .i1⟩ : BufTy).Contents (Elt F) → (⟨S64x24x100, .i32⟩ : BufTy).Contents (Elt F) → (⟨S64x24x100, .i32⟩ : BufTy).Contents (Elt F) → (⟨S64x24x100, .i32⟩ : BufTy).Contents (Elt F)),
    unary main_v5 main_v6 (broadcastInDim S64x24x100x1 ![0, 1, 2] bcast_S64x24x100_S64x24x100x1_0_1_2 : (⟨S64x24x100, .i32⟩ : BufTy).Contents (Elt F) → (⟨S64x24x100x1, .i32⟩ : BufTy).Contents (Elt F)),
    binary main_arg7 main_v6 main_v7 ((fun x i => Host.gather gather_S1000x128_S64x24x100x1_S64x24x100x128_3_0_n_n_0_3_1128 x i) : (⟨S1000x128, .f32⟩ : BufTy).Contents (Elt F) → (⟨S64x24x100x1, .i32⟩ : BufTy).Contents (Elt F) → (⟨S64x24x100x128, .f32⟩ : BufTy).Contents (Elt F)),
    nullary main_c_3 (constantI S_ 32 0#32),
    nullary main_c_4 (constantI S_ 32 2999#32),
    TRef.unary (TRef.of (T := ⟨S_, .i32⟩) main_c_3) (TRef.of (T := ⟨S_, .i32⟩) main_call1_v0) id,
    TRef.unary (TRef.of (T := ⟨S_, .i32⟩) main_call1_v0) (TRef.of (T := ⟨S64x24x200, .i32⟩) main_call1_v1) (broadcastInDim S64x24x200 ![] bcast_S_S64x24x200),
    TRef.binary (TRef.of (T := ⟨S64x24x200, .i32⟩) main_call1_v1) (TRef.of (T := ⟨S64x24x200, .i32⟩) main_arg1) (TRef.of (T := ⟨S64x24x200, .i32⟩) main_call1_v2) maxsi,
    TRef.unary (TRef.of (T := ⟨S_, .i32⟩) main_c_4) (TRef.of (T := ⟨S_, .i32⟩) main_call1_v3) id,
    TRef.unary (TRef.of (T := ⟨S_, .i32⟩) main_call1_v3) (TRef.of (T := ⟨S64x24x200, .i32⟩) main_call1_v4) (broadcastInDim S64x24x200 ![] bcast_S_S64x24x200),
    TRef.binary (TRef.of (T := ⟨S64x24x200, .i32⟩) main_call1_v4) (TRef.of (T := ⟨S64x24x200, .i32⟩) main_call1_v2) (TRef.of (T := ⟨S64x24x200, .i32⟩) main_v8) minsi,
    nullary main_c_5 (constantI S_ 32 0#32),
    unary main_c_5 main_v9 (broadcastInDim S64x24x200 ![] bcast_S_S64x24x200 : (⟨S_, .i32⟩ : BufTy).Contents (Elt F) → (⟨S64x24x200, .i32⟩ : BufTy).Contents (Elt F)),
    binary main_v8 main_v9 main_v10 (cmpi .slt : (⟨S64x24x200, .i32⟩ : BufTy).Contents (Elt F) → (⟨S64x24x200, .i32⟩ : BufTy).Contents (Elt F) → (⟨S64x24x200, .i1⟩ : BufTy).Contents (Elt F)),
    nullary main_c_6 (constantI S_ 32 3000#32),
    unary main_c_6 main_v11 (broadcastInDim S64x24x200 ![] bcast_S_S64x24x200 : (⟨S_, .i32⟩ : BufTy).Contents (Elt F) → (⟨S64x24x200, .i32⟩ : BufTy).Contents (Elt F)),
    binary main_v8 main_v11 main_v12 (addi : (⟨S64x24x200, .i32⟩ : BufTy).Contents (Elt F) → (⟨S64x24x200, .i32⟩ : BufTy).Contents (Elt F) → (⟨S64x24x200, .i32⟩ : BufTy).Contents (Elt F)),
    ternary main_v10 main_v12 main_v8 main_v13 (select : (⟨S64x24x200, .i1⟩ : BufTy).Contents (Elt F) → (⟨S64x24x200, .i32⟩ : BufTy).Contents (Elt F) → (⟨S64x24x200, .i32⟩ : BufTy).Contents (Elt F) → (⟨S64x24x200, .i32⟩ : BufTy).Contents (Elt F)),
    unary main_v13 main_v14 (broadcastInDim S64x24x200x1 ![0, 1, 2] bcast_S64x24x200_S64x24x200x1_0_1_2 : (⟨S64x24x200, .i32⟩ : BufTy).Contents (Elt F) → (⟨S64x24x200x1, .i32⟩ : BufTy).Contents (Elt F)),
    binary main_arg8 main_v14 main_v15 ((fun x i => Host.gather gather_S3000x128_S64x24x200x1_S64x24x200x128_3_0_n_n_0_3_1128 x i) : (⟨S3000x128, .f32⟩ : BufTy).Contents (Elt F) → (⟨S64x24x200x1, .i32⟩ : BufTy).Contents (Elt F) → (⟨S64x24x200x128, .f32⟩ : BufTy).Contents (Elt F)),
    nullary main_c_7 (constantI S_ 32 0#32),
    nullary main_c_8 (constantI S_ 32 499#32),
    TRef.unary (TRef.of (T := ⟨S_, .i32⟩) main_c_7) (TRef.of (T := ⟨S_, .i32⟩) main_call2_v0) id,
    TRef.unary (TRef.of (T := ⟨S_, .i32⟩) main_call2_v0) (TRef.of (T := ⟨S64x24x50, .i32⟩) main_call2_v1) (broadcastInDim S64x24x50 ![] bcast_S_S64x24x50),
    TRef.binary (TRef.of (T := ⟨S64x24x50, .i32⟩) main_call2_v1) (TRef.of (T := ⟨S64x24x50, .i32⟩) main_arg2) (TRef.of (T := ⟨S64x24x50, .i32⟩) main_call2_v2) maxsi,
    TRef.unary (TRef.of (T := ⟨S_, .i32⟩) main_c_8) (TRef.of (T := ⟨S_, .i32⟩) main_call2_v3) id,
    TRef.unary (TRef.of (T := ⟨S_, .i32⟩) main_call2_v3) (TRef.of (T := ⟨S64x24x50, .i32⟩) main_call2_v4) (broadcastInDim S64x24x50 ![] bcast_S_S64x24x50),
    TRef.binary (TRef.of (T := ⟨S64x24x50, .i32⟩) main_call2_v4) (TRef.of (T := ⟨S64x24x50, .i32⟩) main_call2_v2) (TRef.of (T := ⟨S64x24x50, .i32⟩) main_v16) minsi,
    nullary main_c_9 (constantI S_ 32 0#32),
    unary main_c_9 main_v17 (broadcastInDim S64x24x50 ![] bcast_S_S64x24x50 : (⟨S_, .i32⟩ : BufTy).Contents (Elt F) → (⟨S64x24x50, .i32⟩ : BufTy).Contents (Elt F)),
    binary main_v16 main_v17 main_v18 (cmpi .slt : (⟨S64x24x50, .i32⟩ : BufTy).Contents (Elt F) → (⟨S64x24x50, .i32⟩ : BufTy).Contents (Elt F) → (⟨S64x24x50, .i1⟩ : BufTy).Contents (Elt F)),
    nullary main_c_10 (constantI S_ 32 500#32),
    unary main_c_10 main_v19 (broadcastInDim S64x24x50 ![] bcast_S_S64x24x50 : (⟨S_, .i32⟩ : BufTy).Contents (Elt F) → (⟨S64x24x50, .i32⟩ : BufTy).Contents (Elt F)),
    binary main_v16 main_v19 main_v20 (addi : (⟨S64x24x50, .i32⟩ : BufTy).Contents (Elt F) → (⟨S64x24x50, .i32⟩ : BufTy).Contents (Elt F) → (⟨S64x24x50, .i32⟩ : BufTy).Contents (Elt F)),
    ternary main_v18 main_v20 main_v16 main_v21 (select : (⟨S64x24x50, .i1⟩ : BufTy).Contents (Elt F) → (⟨S64x24x50, .i32⟩ : BufTy).Contents (Elt F) → (⟨S64x24x50, .i32⟩ : BufTy).Contents (Elt F) → (⟨S64x24x50, .i32⟩ : BufTy).Contents (Elt F)) ]

abbrev ops1 : List (HloOp τ sig (Elt F)) :=
  [ unary main_v21 main_v22 (broadcastInDim S64x24x50x1 ![0, 1, 2] bcast_S64x24x50_S64x24x50x1_0_1_2 : (⟨S64x24x50, .i32⟩ : BufTy).Contents (Elt F) → (⟨S64x24x50x1, .i32⟩ : BufTy).Contents (Elt F)),
    binary main_arg9 main_v22 main_v23 ((fun x i => Host.gather gather_S500x128_S64x24x50x1_S64x24x50x128_3_0_n_n_0_3_1128 x i) : (⟨S500x128, .f32⟩ : BufTy).Contents (Elt F) → (⟨S64x24x50x1, .i32⟩ : BufTy).Contents (Elt F) → (⟨S64x24x50x128, .f32⟩ : BufTy).Contents (Elt F)),
    nullary main_c_11 (constantI S_ 32 0#32),
    nullary main_c_12 (constantI S_ 32 1499#32),
    TRef.unary (TRef.of (T := ⟨S_, .i32⟩) main_c_11) (TRef.of (T := ⟨S_, .i32⟩) main_call3_v0) id,
    TRef.unary (TRef.of (T := ⟨S_, .i32⟩) main_call3_v0) (TRef.of (T := ⟨S64x24x50, .i32⟩) main_call3_v1) (broadcastInDim S64x24x50 ![] bcast_S_S64x24x50),
    TRef.binary (TRef.of (T := ⟨S64x24x50, .i32⟩) main_call3_v1) (TRef.of (T := ⟨S64x24x50, .i32⟩) main_arg3) (TRef.of (T := ⟨S64x24x50, .i32⟩) main_call3_v2) maxsi,
    TRef.unary (TRef.of (T := ⟨S_, .i32⟩) main_c_12) (TRef.of (T := ⟨S_, .i32⟩) main_call3_v3) id,
    TRef.unary (TRef.of (T := ⟨S_, .i32⟩) main_call3_v3) (TRef.of (T := ⟨S64x24x50, .i32⟩) main_call3_v4) (broadcastInDim S64x24x50 ![] bcast_S_S64x24x50),
    TRef.binary (TRef.of (T := ⟨S64x24x50, .i32⟩) main_call3_v4) (TRef.of (T := ⟨S64x24x50, .i32⟩) main_call3_v2) (TRef.of (T := ⟨S64x24x50, .i32⟩) main_v24) minsi,
    nullary main_c_13 (constantI S_ 32 0#32),
    unary main_c_13 main_v25 (broadcastInDim S64x24x50 ![] bcast_S_S64x24x50 : (⟨S_, .i32⟩ : BufTy).Contents (Elt F) → (⟨S64x24x50, .i32⟩ : BufTy).Contents (Elt F)),
    binary main_v24 main_v25 main_v26 (cmpi .slt : (⟨S64x24x50, .i32⟩ : BufTy).Contents (Elt F) → (⟨S64x24x50, .i32⟩ : BufTy).Contents (Elt F) → (⟨S64x24x50, .i1⟩ : BufTy).Contents (Elt F)),
    nullary main_c_14 (constantI S_ 32 1500#32),
    unary main_c_14 main_v27 (broadcastInDim S64x24x50 ![] bcast_S_S64x24x50 : (⟨S_, .i32⟩ : BufTy).Contents (Elt F) → (⟨S64x24x50, .i32⟩ : BufTy).Contents (Elt F)),
    binary main_v24 main_v27 main_v28 (addi : (⟨S64x24x50, .i32⟩ : BufTy).Contents (Elt F) → (⟨S64x24x50, .i32⟩ : BufTy).Contents (Elt F) → (⟨S64x24x50, .i32⟩ : BufTy).Contents (Elt F)),
    ternary main_v26 main_v28 main_v24 main_v29 (select : (⟨S64x24x50, .i1⟩ : BufTy).Contents (Elt F) → (⟨S64x24x50, .i32⟩ : BufTy).Contents (Elt F) → (⟨S64x24x50, .i32⟩ : BufTy).Contents (Elt F) → (⟨S64x24x50, .i32⟩ : BufTy).Contents (Elt F)),
    unary main_v29 main_v30 (broadcastInDim S64x24x50x1 ![0, 1, 2] bcast_S64x24x50_S64x24x50x1_0_1_2 : (⟨S64x24x50, .i32⟩ : BufTy).Contents (Elt F) → (⟨S64x24x50x1, .i32⟩ : BufTy).Contents (Elt F)),
    binary main_arg10 main_v30 main_v31 ((fun x i => Host.gather gather_S1500x128_S64x24x50x1_S64x24x50x128_3_0_n_n_0_3_1128 x i) : (⟨S1500x128, .f32⟩ : BufTy).Contents (Elt F) → (⟨S64x24x50x1, .i32⟩ : BufTy).Contents (Elt F) → (⟨S64x24x50x128, .f32⟩ : BufTy).Contents (Elt F)),
    nullary main_c_15 (constantI S_ 32 0#32),
    nullary main_c_16 (constantI S_ 32 699#32),
    TRef.unary (TRef.of (T := ⟨S_, .i32⟩) main_c_15) (TRef.of (T := ⟨S_, .i32⟩) main_call4_v0) id,
    TRef.unary (TRef.of (T := ⟨S_, .i32⟩) main_call4_v0) (TRef.of (T := ⟨S64x24, .i32⟩) main_call4_v1) (broadcastInDim S64x24 ![] bcast_S_S64x24),
    TRef.binary (TRef.of (T := ⟨S64x24, .i32⟩) main_call4_v1) (TRef.of (T := ⟨S64x24, .i32⟩) main_arg4) (TRef.of (T := ⟨S64x24, .i32⟩) main_call4_v2) maxsi,
    TRef.unary (TRef.of (T := ⟨S_, .i32⟩) main_c_16) (TRef.of (T := ⟨S_, .i32⟩) main_call4_v3) id,
    TRef.unary (TRef.of (T := ⟨S_, .i32⟩) main_call4_v3) (TRef.of (T := ⟨S64x24, .i32⟩) main_call4_v4) (broadcastInDim S64x24 ![] bcast_S_S64x24),
    TRef.binary (TRef.of (T := ⟨S64x24, .i32⟩) main_call4_v4) (TRef.of (T := ⟨S64x24, .i32⟩) main_call4_v2) (TRef.of (T := ⟨S64x24, .i32⟩) main_v32) minsi,
    nullary main_c_17 (constantI S_ 32 0#32),
    unary main_c_17 main_v33 (broadcastInDim S64x24 ![] bcast_S_S64x24 : (⟨S_, .i32⟩ : BufTy).Contents (Elt F) → (⟨S64x24, .i32⟩ : BufTy).Contents (Elt F)),
    binary main_v32 main_v33 main_v34 (cmpi .slt : (⟨S64x24, .i32⟩ : BufTy).Contents (Elt F) → (⟨S64x24, .i32⟩ : BufTy).Contents (Elt F) → (⟨S64x24, .i1⟩ : BufTy).Contents (Elt F)),
    nullary main_c_18 (constantI S_ 32 700#32),
    unary main_c_18 main_v35 (broadcastInDim S64x24 ![] bcast_S_S64x24 : (⟨S_, .i32⟩ : BufTy).Contents (Elt F) → (⟨S64x24, .i32⟩ : BufTy).Contents (Elt F)),
    binary main_v32 main_v35 main_v36 (addi : (⟨S64x24, .i32⟩ : BufTy).Contents (Elt F) → (⟨S64x24, .i32⟩ : BufTy).Contents (Elt F) → (⟨S64x24, .i32⟩ : BufTy).Contents (Elt F)),
    ternary main_v34 main_v36 main_v32 main_v37 (select : (⟨S64x24, .i1⟩ : BufTy).Contents (Elt F) → (⟨S64x24, .i32⟩ : BufTy).Contents (Elt F) → (⟨S64x24, .i32⟩ : BufTy).Contents (Elt F) → (⟨S64x24, .i32⟩ : BufTy).Contents (Elt F)),
    unary main_v37 main_v38 (broadcastInDim S64x24x1 ![0, 1] bcast_S64x24_S64x24x1_0_1 : (⟨S64x24, .i32⟩ : BufTy).Contents (Elt F) → (⟨S64x24x1, .i32⟩ : BufTy).Contents (Elt F)),
    binary main_arg11 main_v38 main_v39 ((fun x i => Host.gather gather_S700x128_S64x24x1_S64x24x128_2_0_n_n_0_2_1128 x i) : (⟨S700x128, .f32⟩ : BufTy).Contents (Elt F) → (⟨S64x24x1, .i32⟩ : BufTy).Contents (Elt F) → (⟨S64x24x128, .f32⟩ : BufTy).Contents (Elt F)) ]

abbrev ops2 : List (HloOp τ sig (Elt F)) :=
  [ nullary main_c_19 (constantI S_ 32 0#32),
    nullary main_c_20 (constantI S_ 32 1999#32),
    TRef.unary (TRef.of (T := ⟨S_, .i32⟩) main_c_19) (TRef.of (T := ⟨S_, .i32⟩) main_call5_v0) id,
    TRef.unary (TRef.of (T := ⟨S_, .i32⟩) main_call5_v0) (TRef.of (T := ⟨S64x30, .i32⟩) main_call5_v1) (broadcastInDim S64x30 ![] bcast_S_S64x30),
    TRef.binary (TRef.of (T := ⟨S64x30, .i32⟩) main_call5_v1) (TRef.of (T := ⟨S64x30, .i32⟩) main_arg5) (TRef.of (T := ⟨S64x30, .i32⟩) main_call5_v2) maxsi,
    TRef.unary (TRef.of (T := ⟨S_, .i32⟩) main_c_20) (TRef.of (T := ⟨S_, .i32⟩) main_call5_v3) id,
    TRef.unary (TRef.of (T := ⟨S_, .i32⟩) main_call5_v3) (TRef.of (T := ⟨S64x30, .i32⟩) main_call5_v4) (broadcastInDim S64x30 ![] bcast_S_S64x30),
    TRef.binary (TRef.of (T := ⟨S64x30, .i32⟩) main_call5_v4) (TRef.of (T := ⟨S64x30, .i32⟩) main_call5_v2) (TRef.of (T := ⟨S64x30, .i32⟩) main_v40) minsi,
    nullary main_c_21 (constantI S_ 32 0#32),
    unary main_c_21 main_v41 (broadcastInDim S64x30 ![] bcast_S_S64x30 : (⟨S_, .i32⟩ : BufTy).Contents (Elt F) → (⟨S64x30, .i32⟩ : BufTy).Contents (Elt F)),
    binary main_v40 main_v41 main_v42 (cmpi .slt : (⟨S64x30, .i32⟩ : BufTy).Contents (Elt F) → (⟨S64x30, .i32⟩ : BufTy).Contents (Elt F) → (⟨S64x30, .i1⟩ : BufTy).Contents (Elt F)),
    nullary main_c_22 (constantI S_ 32 2000#32),
    unary main_c_22 main_v43 (broadcastInDim S64x30 ![] bcast_S_S64x30 : (⟨S_, .i32⟩ : BufTy).Contents (Elt F) → (⟨S64x30, .i32⟩ : BufTy).Contents (Elt F)),
    binary main_v40 main_v43 main_v44 (addi : (⟨S64x30, .i32⟩ : BufTy).Contents (Elt F) → (⟨S64x30, .i32⟩ : BufTy).Contents (Elt F) → (⟨S64x30, .i32⟩ : BufTy).Contents (Elt F)),
    ternary main_v42 main_v44 main_v40 main_v45 (select : (⟨S64x30, .i1⟩ : BufTy).Contents (Elt F) → (⟨S64x30, .i32⟩ : BufTy).Contents (Elt F) → (⟨S64x30, .i32⟩ : BufTy).Contents (Elt F) → (⟨S64x30, .i32⟩ : BufTy).Contents (Elt F)),
    unary main_v45 main_v46 (broadcastInDim S64x30x1 ![0, 1] bcast_S64x30_S64x30x1_0_1 : (⟨S64x30, .i32⟩ : BufTy).Contents (Elt F) → (⟨S64x30x1, .i32⟩ : BufTy).Contents (Elt F)),
    binary main_arg12 main_v46 main_v47 ((fun x i => Host.gather gather_S2000x128_S64x30x1_S64x30x128_2_0_n_n_0_2_1128 x i) : (⟨S2000x128, .f32⟩ : BufTy).Contents (Elt F) → (⟨S64x30x1, .i32⟩ : BufTy).Contents (Elt F) → (⟨S64x30x128, .f32⟩ : BufTy).Contents (Elt F)),
    unary main_arg6 main_v48 ((extractStridedSlice S64x1 ![0, 0] · slices_S64x4_S64x1_0_0) : (⟨S64x4, .i32⟩ : BufTy).Contents (Elt F) → (⟨S64x1, .i32⟩ : BufTy).Contents (Elt F)),
    reshape main_v48 main_v49 rfl shapeCasts_S64x1_S64,
    nullary main_c_23 (constantI S_ 32 0#32),
    unary main_c_23 main_v50 (broadcastInDim S64 ![] bcast_S_S64 : (⟨S_, .i32⟩ : BufTy).Contents (Elt F) → (⟨S64, .i32⟩ : BufTy).Contents (Elt F)),
    binary main_v49 main_v50 main_v51 (cmpi .slt : (⟨S64, .i32⟩ : BufTy).Contents (Elt F) → (⟨S64, .i32⟩ : BufTy).Contents (Elt F) → (⟨S64, .i1⟩ : BufTy).Contents (Elt F)),
    nullary main_c_24 (constantI S_ 32 2#32),
    unary main_c_24 main_v52 (broadcastInDim S64 ![] bcast_S_S64 : (⟨S_, .i32⟩ : BufTy).Contents (Elt F) → (⟨S64, .i32⟩ : BufTy).Contents (Elt F)),
    binary main_v49 main_v52 main_v53 (addi : (⟨S64, .i32⟩ : BufTy).Contents (Elt F) → (⟨S64, .i32⟩ : BufTy).Contents (Elt F) → (⟨S64, .i32⟩ : BufTy).Contents (Elt F)),
    ternary main_v51 main_v53 main_v49 main_v54 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v54 main_v55 (broadcastInDim S64x1 ![0] bcast_S64_S64x1_0 : (⟨S64, .i32⟩ : BufTy).Contents (Elt F) → (⟨S64x1, .i32⟩ : BufTy).Contents (Elt F)),
    binary main_arg13 main_v55 main_v56 ((fun x i => Host.gather gather_S2x128_S64x1_S64x128_1_0_n_n_0_1_1128 x i) : (⟨S2x128, .f32⟩ : BufTy).Contents (Elt F) → (⟨S64x1, .i32⟩ : BufTy).Contents (Elt F) → (⟨S64x128, .f32⟩ : BufTy).Contents (Elt F)),
    unary main_arg6 main_v57 ((extractStridedSlice S64x1 ![0, 1] · slices_S64x4_S64x1_0_1) : (⟨S64x4, .i32⟩ : BufTy).Contents (Elt F) → (⟨S64x1, .i32⟩ : BufTy).Contents (Elt F)),
    reshape main_v57 main_v58 rfl shapeCasts_S64x1_S64,
    nullary main_c_25 (constantI S_ 32 0#32),
    unary main_c_25 main_v59 (broadcastInDim S64 ![] bcast_S_S64 : (⟨S_, .i32⟩ : BufTy).Contents (Elt F) → (⟨S64, .i32⟩ : BufTy).Contents (Elt F)),
    binary main_v58 main_v59 main_v60 (cmpi .slt : (⟨S64, .i32⟩ : BufTy).Contents (Elt F) → (⟨S64, .i32⟩ : BufTy).Contents (Elt F) → (⟨S64, .i1⟩ : BufTy).Contents (Elt F)),
    nullary main_c_26 (constantI S_ 32 10#32),
    unary main_c_26 main_v61 (broadcastInDim S64 ![] bcast_S_S64 : (⟨S_, .i32⟩ : BufTy).Contents (Elt F) → (⟨S64, .i32⟩ : BufTy).Contents (Elt F)),
    binary main_v58 main_v61 main_v62 (addi : (⟨S64, .i32⟩ : BufTy).Contents (Elt F) → (⟨S64, .i32⟩ : BufTy).Contents (Elt F) → (⟨S64, .i32⟩ : BufTy).Contents (Elt F)),
    ternary main_v60 main_v62 main_v58 main_v63 (select : (⟨S64, .i1⟩ : BufTy).Contents (Elt F) → (⟨S64, .i32⟩ : BufTy).Contents (Elt F) → (⟨S64, .i32⟩ : BufTy).Contents (Elt F) → (⟨S64, .i32⟩ : BufTy).Contents (Elt F)) ]

abbrev ops3 : List (HloOp τ sig (Elt F)) :=
  [ unary main_v63 main_v64 (broadcastInDim S64x1 ![0] bcast_S64_S64x1_0 : (⟨S64, .i32⟩ : BufTy).Contents (Elt F) → (⟨S64x1, .i32⟩ : BufTy).Contents (Elt F)),
    binary main_arg14 main_v64 main_v65 ((fun x i => Host.gather gather_S10x128_S64x1_S64x128_1_0_n_n_0_1_1128 x i) : (⟨S10x128, .f32⟩ : BufTy).Contents (Elt F) → (⟨S64x1, .i32⟩ : BufTy).Contents (Elt F) → (⟨S64x128, .f32⟩ : BufTy).Contents (Elt F)),
    unary main_arg6 main_v66 ((extractStridedSlice S64x1 ![0, 2] · slices_S64x4_S64x1_0_2) : (⟨S64x4, .i32⟩ : BufTy).Contents (Elt F) → (⟨S64x1, .i32⟩ : BufTy).Contents (Elt F)),
    reshape main_v66 main_v67 rfl shapeCasts_S64x1_S64,
    nullary main_c_27 (constantI S_ 32 0#32),
    unary main_c_27 main_v68 (broadcastInDim S64 ![] bcast_S_S64 : (⟨S_, .i32⟩ : BufTy).Contents (Elt F) → (⟨S64, .i32⟩ : BufTy).Contents (Elt F)),
    binary main_v67 main_v68 main_v69 (cmpi .slt : (⟨S64, .i32⟩ : BufTy).Contents (Elt F) → (⟨S64, .i32⟩ : BufTy).Contents (Elt F) → (⟨S64, .i1⟩ : BufTy).Contents (Elt F)),
    nullary main_c_28 (constantI S_ 32 5#32),
    unary main_c_28 main_v70 (broadcastInDim S64 ![] bcast_S_S64 : (⟨S_, .i32⟩ : BufTy).Contents (Elt F) → (⟨S64, .i32⟩ : BufTy).Contents (Elt F)),
    binary main_v67 main_v70 main_v71 (addi : (⟨S64, .i32⟩ : BufTy).Contents (Elt F) → (⟨S64, .i32⟩ : BufTy).Contents (Elt F) → (⟨S64, .i32⟩ : BufTy).Contents (Elt F)),
    ternary main_v69 main_v71 main_v67 main_v72 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v72 main_v73 (broadcastInDim S64x1 ![0] bcast_S64_S64x1_0 : (⟨S64, .i32⟩ : BufTy).Contents (Elt F) → (⟨S64x1, .i32⟩ : BufTy).Contents (Elt F)),
    binary main_arg15 main_v73 main_v74 ((fun x i => Host.gather gather_S5x128_S64x1_S64x128_1_0_n_n_0_1_1128 x i) : (⟨S5x128, .f32⟩ : BufTy).Contents (Elt F) → (⟨S64x1, .i32⟩ : BufTy).Contents (Elt F) → (⟨S64x128, .f32⟩ : BufTy).Contents (Elt F)),
    unary main_arg6 main_v75 ((extractStridedSlice S64x1 ![0, 3] · slices_S64x4_S64x1_0_3) : (⟨S64x4, .i32⟩ : BufTy).Contents (Elt F) → (⟨S64x1, .i32⟩ : BufTy).Contents (Elt F)),
    reshape main_v75 main_v76 rfl shapeCasts_S64x1_S64,
    nullary main_c_29 (constantI S_ 32 0#32),
    unary main_c_29 main_v77 (broadcastInDim S64 ![] bcast_S_S64 : (⟨S_, .i32⟩ : BufTy).Contents (Elt F) → (⟨S64, .i32⟩ : BufTy).Contents (Elt F)),
    binary main_v76 main_v77 main_v78 (cmpi .slt : (⟨S64, .i32⟩ : BufTy).Contents (Elt F) → (⟨S64, .i32⟩ : BufTy).Contents (Elt F) → (⟨S64, .i1⟩ : BufTy).Contents (Elt F)),
    nullary main_c_30 (constantI S_ 32 100#32),
    unary main_c_30 main_v79 (broadcastInDim S64 ![] bcast_S_S64 : (⟨S_, .i32⟩ : BufTy).Contents (Elt F) → (⟨S64, .i32⟩ : BufTy).Contents (Elt F)),
    binary main_v76 main_v79 main_v80 (addi : (⟨S64, .i32⟩ : BufTy).Contents (Elt F) → (⟨S64, .i32⟩ : BufTy).Contents (Elt F) → (⟨S64, .i32⟩ : BufTy).Contents (Elt F)),
    ternary main_v78 main_v80 main_v76 main_v81 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v81 main_v82 (broadcastInDim S64x1 ![0] bcast_S64_S64x1_0 : (⟨S64, .i32⟩ : BufTy).Contents (Elt F) → (⟨S64x1, .i32⟩ : BufTy).Contents (Elt F)),
    binary main_arg16 main_v82 main_v83 ((fun x i => Host.gather gather_S100x128_S64x1_S64x128_1_0_n_n_0_1_1128 x i) : (⟨S100x128, .f32⟩ : BufTy).Contents (Elt F) → (⟨S64x1, .i32⟩ : BufTy).Contents (Elt F) → (⟨S64x128, .f32⟩ : BufTy).Contents (Elt F)),
    unary main_v56 main_v84 (broadcastInDim S64x1x128x1 ![0, 2] bcast_S64x128_S64x1x128x1_0_2 : (⟨S64x128, .f32⟩ : BufTy).Contents (Elt F) → (⟨S64x1x128x1, .f32⟩ : BufTy).Contents (Elt F)),
    unary main_v84 main_v85 (broadcastInDim S64x24x128x1 ![0, 1, 2, 3] bcast_S64x1x128x1_S64x24x128x1_0_1_2_3 : (⟨S64x1x128x1, .f32⟩ : BufTy).Contents (Elt F) → (⟨S64x24x128x1, .f32⟩ : BufTy).Contents (Elt F)),
    unary main_v65 main_v86 (broadcastInDim S64x1x128x1 ![0, 2] bcast_S64x128_S64x1x128x1_0_2 : (⟨S64x128, .f32⟩ : BufTy).Contents (Elt F) → (⟨S64x1x128x1, .f32⟩ : BufTy).Contents (Elt F)),
    unary main_v86 main_v87 (broadcastInDim S64x24x128x1 ![0, 1, 2, 3] bcast_S64x1x128x1_S64x24x128x1_0_1_2_3 : (⟨S64x1x128x1, .f32⟩ : BufTy).Contents (Elt F) → (⟨S64x24x128x1, .f32⟩ : BufTy).Contents (Elt F)) ]

abbrev ops4 : List (HloOp τ sig (Elt F)) :=
  [ unary main_v74 main_v88 (broadcastInDim S64x1x128x1 ![0, 2] bcast_S64x128_S64x1x128x1_0_2 : (⟨S64x128, .f32⟩ : BufTy).Contents (Elt F) → (⟨S64x1x128x1, .f32⟩ : BufTy).Contents (Elt F)),
    unary main_v88 main_v89 (broadcastInDim S64x24x128x1 ![0, 1, 2, 3] bcast_S64x1x128x1_S64x24x128x1_0_1_2_3 : (⟨S64x1x128x1, .f32⟩ : BufTy).Contents (Elt F) → (⟨S64x24x128x1, .f32⟩ : BufTy).Contents (Elt F)),
    unary main_v83 main_v90 (broadcastInDim S64x1x128x1 ![0, 2] bcast_S64x128_S64x1x128x1_0_2 : (⟨S64x128, .f32⟩ : BufTy).Contents (Elt F) → (⟨S64x1x128x1, .f32⟩ : BufTy).Contents (Elt F)),
    unary main_v90 main_v91 (broadcastInDim S64x24x128x1 ![0, 1, 2, 3] bcast_S64x1x128x1_S64x24x128x1_0_1_2_3 : (⟨S64x1x128x1, .f32⟩ : BufTy).Contents (Elt F) → (⟨S64x24x128x1, .f32⟩ : BufTy).Contents (Elt F)),
    unary main_v7 main_v92 ((transpose S64x24x128x100 [0, 1, 3, 2] · transposes_S64x24x100x128_S64x24x128x100_0_1_3_2) : (⟨S64x24x100x128, .f32⟩ : BufTy).Contents (Elt F) → (⟨S64x24x128x100, .f32⟩ : BufTy).Contents (Elt F)),
    unary main_v15 main_v93 ((transpose S64x24x128x200 [0, 1, 3, 2] · transposes_S64x24x200x128_S64x24x128x200_0_1_3_2) : (⟨S64x24x200x128, .f32⟩ : BufTy).Contents (Elt F) → (⟨S64x24x128x200, .f32⟩ : BufTy).Contents (Elt F)),
    unary main_v23 main_v94 ((transpose S64x24x128x50 [0, 1, 3, 2] · transposes_S64x24x50x128_S64x24x128x50_0_1_3_2) : (⟨S64x24x50x128, .f32⟩ : BufTy).Contents (Elt F) → (⟨S64x24x128x50, .f32⟩ : BufTy).Contents (Elt F)),
    unary main_v31 main_v95 ((transpose S64x24x128x50 [0, 1, 3, 2] · transposes_S64x24x50x128_S64x24x128x50_0_1_3_2) : (⟨S64x24x50x128, .f32⟩ : BufTy).Contents (Elt F) → (⟨S64x24x128x50, .f32⟩ : BufTy).Contents (Elt F)),
    unary main_v39 main_v96 (broadcastInDim S64x24x128x1 ![0, 1, 2] bcast_S64x24x128_S64x24x128x1_0_1_2 : (⟨S64x24x128, .f32⟩ : BufTy).Contents (Elt F) → (⟨S64x24x128x1, .f32⟩ : BufTy).Contents (Elt F)),
    unary main_v47 main_v97 (broadcastInDim S64x1x30x128 ![0, 2, 3] bcast_S64x30x128_S64x1x30x128_0_2_3 : (⟨S64x30x128, .f32⟩ : BufTy).Contents (Elt F) → (⟨S64x1x30x128, .f32⟩ : BufTy).Contents (Elt F)),
    unary main_v97 main_v98 (broadcastInDim S64x24x30x128 ![0, 1, 2, 3] bcast_S64x1x30x128_S64x24x30x128_0_1_2_3 : (⟨S64x1x30x128, .f32⟩ : BufTy).Contents (Elt F) → (⟨S64x24x30x128, .f32⟩ : BufTy).Contents (Elt F)),
    unary main_v98 main_v99 ((transpose S64x24x128x30 [0, 1, 3, 2] · transposes_S64x24x30x128_S64x24x128x30_0_1_3_2) : (⟨S64x24x30x128, .f32⟩ : BufTy).Contents (Elt F) → (⟨S64x24x128x30, .f32⟩ : BufTy).Contents (Elt F)) ]

abbrev ops5 : List (HloOp τ sig (Elt F)) :=
  [ nary ![main_v92, main_v93, main_v94, main_v95, main_v96, main_v99, main_v85, main_v87, main_v89, main_v91] main_v100 (fun u => concatenate S64x24x128x435 3 [⟨S64x24x128x100, u 0⟩, ⟨S64x24x128x200, u 1⟩, ⟨S64x24x128x50, u 2⟩, ⟨S64x24x128x50, u 3⟩, ⟨S64x24x128x1, u 4⟩, ⟨S64x24x128x30, u 5⟩, ⟨S64x24x128x1, u 6⟩, ⟨S64x24x128x1, u 7⟩, ⟨S64x24x128x1, u 8⟩, ⟨S64x24x128x1, u 9⟩] concatenates_S64x24x128x100_S64x24x128x200_S64x24x128x50_S64x24x128x50_S64x24x128x1_S64x24x128x30_S64x24x128x1_S64x24x128x1_S64x24x128x1_S64x24x128x1_S64x24x128x435_d3),
    nullary main_cst (constant S_ .f32 0x00000000#32),
    binary main_v100 main_cst main_v101 ((fun x v => Host.reduceAdd x v reducesTo_S64x24x128x435_S64x24x435_d2 h_S_) : (⟨S64x24x128x435, .f32⟩ : BufTy).Contents (Elt F) → (⟨S_, .f32⟩ : BufTy).Contents (Elt F) → (⟨S64x24x435, .f32⟩ : BufTy).Contents (Elt F)),
    nullary main_cst_31 (constant S_ .f32 0x43000000#32),
    unary main_cst_31 main_v102 (broadcastInDim S64x24x435 ![] bcast_S_S64x24x435 : (⟨S_, .f32⟩ : BufTy).Contents (Elt F) → (⟨S64x24x435, .f32⟩ : BufTy).Contents (Elt F)),
    binary main_v101 main_v102 main_v103 (Host.divf : (⟨S64x24x435, .f32⟩ : BufTy).Contents (Elt F) → (⟨S64x24x435, .f32⟩ : BufTy).Contents (Elt F) → (⟨S64x24x435, .f32⟩ : BufTy).Contents (Elt F)),
    reshape main_v103 main_v104 rfl shapeCasts_S64x24x435_S1536x435,
    binary main_v104 main_arg17 main_v105 ((fun l r => Host.dotGeneral dot_S1536x435_S435x128_S1536x128_1_0_0_1_n_n none l r) : (⟨S1536x435, .f32⟩ : BufTy).Contents (Elt F) → (⟨S435x128, .f32⟩ : BufTy).Contents (Elt F) → (⟨S1536x128, .f32⟩ : BufTy).Contents (Elt F)),
    unary main_arg18 main_v106 (broadcastInDim S1x128 ![1] bcast_S128_S1x128_1 : (⟨S128, .f32⟩ : BufTy).Contents (Elt F) → (⟨S1x128, .f32⟩ : BufTy).Contents (Elt F)),
    unary main_v106 main_v107 (broadcastInDim S1536x128 ![0, 1] bcast_S1x128_S1536x128_0_1 : (⟨S1x128, .f32⟩ : BufTy).Contents (Elt F) → (⟨S1536x128, .f32⟩ : BufTy).Contents (Elt F)),
    binary main_v105 main_v107 main_v108 (addf : (⟨S1536x128, .f32⟩ : BufTy).Contents (Elt F) → (⟨S1536x128, .f32⟩ : BufTy).Contents (Elt F) → (⟨S1536x128, .f32⟩ : BufTy).Contents (Elt F)),
    binary main_v108 main_arg19 main_v109 ((fun l r => Host.dotGeneral dot_S1536x128_S128x256_S1536x256_1_0_0_1_n_n none l r) : (⟨S1536x128, .f32⟩ : BufTy).Contents (Elt F) → (⟨S128x256, .f32⟩ : BufTy).Contents (Elt F) → (⟨S1536x256, .f32⟩ : BufTy).Contents (Elt F)),
    nullary main_cst_32 (constant S_ .f32 0x00000000#32),
    binary main_v109 main_cst_32 main_v110 ((fun x v => Host.reduceAdd x v reducesTo_S1536x256_S256_d0 h_S_) : (⟨S1536x256, .f32⟩ : BufTy).Contents (Elt F) → (⟨S_, .f32⟩ : BufTy).Contents (Elt F) → (⟨S256, .f32⟩ : BufTy).Contents (Elt F)),
    unary main_v110 main_v111 (broadcastInDim S1x256 ![1] bcast_S256_S1x256_1 : (⟨S256, .f32⟩ : BufTy).Contents (Elt F) → (⟨S1x256, .f32⟩ : BufTy).Contents (Elt F)),
    nullary main_cst_33 (constant S_ .f32 0x44C00000#32),
    unary main_cst_33 main_v112 (broadcastInDim S1x256 ![] bcast_S_S1x256 : (⟨S_, .f32⟩ : BufTy).Contents (Elt F) → (⟨S1x256, .f32⟩ : BufTy).Contents (Elt F)),
    binary main_v111 main_v112 main_v113 (Host.divf : (⟨S1x256, .f32⟩ : BufTy).Contents (Elt F) → (⟨S1x256, .f32⟩ : BufTy).Contents (Elt F) → (⟨S1x256, .f32⟩ : BufTy).Contents (Elt F)),
    unary main_arg20 main_v114 (broadcastInDim S1x256 ![1] bcast_S256_S1x256_1 : (⟨S256, .f32⟩ : BufTy).Contents (Elt F) → (⟨S1x256, .f32⟩ : BufTy).Contents (Elt F)),
    binary main_v113 main_v114 main_v115 (addf : (⟨S1x256, .f32⟩ : BufTy).Contents (Elt F) → (⟨S1x256, .f32⟩ : BufTy).Contents (Elt F) → (⟨S1x256, .f32⟩ : BufTy).Contents (Elt F)),
    unary main_v115 main_v116 (broadcastInDim S1536x256 ![0, 1] bcast_S1x256_S1536x256_0_1 : (⟨S1x256, .f32⟩ : BufTy).Contents (Elt F) → (⟨S1536x256, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1536x256, .f32⟩) main_call6_v0) (broadcastInDim S1536x256 ![] bcast_S_S1536x256),
    TRef.binary (TRef.of (T := ⟨S1536x256, .f32⟩) main_v116) (TRef.of (T := ⟨S1536x256, .f32⟩) main_call6_v0) (TRef.of (T := ⟨S1536x256, .f32⟩) main_v117) maximumf,
    nullary main_cst_34 (constant S_ .f32 0x3089705F#32),
    unary main_cst_34 main_v118 (broadcastInDim S1536x256 ![] bcast_S_S1536x256 : (⟨S_, .f32⟩ : BufTy).Contents (Elt F) → (⟨S1536x256, .f32⟩ : BufTy).Contents (Elt F)),
    binary main_v117 main_v118 main_v119 (addf : (⟨S1536x256, .f32⟩ : BufTy).Contents (Elt F) → (⟨S1536x256, .f32⟩ : BufTy).Contents (Elt F) → (⟨S1536x256, .f32⟩ : BufTy).Contents (Elt F)),
    unary main_v119 main_v120 (Host.log : (⟨S1536x256, .f32⟩ : BufTy).Contents (Elt F) → (⟨S1536x256, .f32⟩ : BufTy).Contents (Elt F)),
    binary main_v117 main_v120 main_v121 (mulf : (⟨S1536x256, .f32⟩ : BufTy).Contents (Elt F) → (⟨S1536x256, .f32⟩ : BufTy).Contents (Elt F) → (⟨S1536x256, .f32⟩ : BufTy).Contents (Elt F)),
    nullary main_cst_35 (constant S_ .f32 0x00000000#32),
    binary main_v121 main_cst_35 main_v122 ((fun x v => Host.reduceAdd x v reducesTo_S1536x256_S1536_d1 h_S_) : (⟨S1536x256, .f32⟩ : BufTy).Contents (Elt F) → (⟨S_, .f32⟩ : BufTy).Contents (Elt F) → (⟨S1536, .f32⟩ : BufTy).Contents (Elt F)),
    unary main_v122 main_v123 (Host.negf : (⟨S1536, .f32⟩ : BufTy).Contents (Elt F) → (⟨S1536, .f32⟩ : BufTy).Contents (Elt F)),
    unary main_v123 main_v124 (Host.exp : (⟨S1536, .f32⟩ : BufTy).Contents (Elt F) → (⟨S1536, .f32⟩ : BufTy).Contents (Elt F)),
    nullary main_cst_36 (constant S_ .f32 0x00000000#32),
    binary main_v124 main_cst_36 main_v125 ((fun x v => Host.reduceAdd x v reducesTo_S1536_S_d0 h_S_) : (⟨S1536, .f32⟩ : BufTy).Contents (Elt F) → (⟨S_, .f32⟩ : BufTy).Contents (Elt F) → (⟨S_, .f32⟩ : BufTy).Contents (Elt F)),
    unary main_v125 main_v126 (broadcastInDim S1536 ![] bcast_S_S1536 : (⟨S_, .f32⟩ : BufTy).Contents (Elt F) → (⟨S1536, .f32⟩ : BufTy).Contents (Elt F)),
    binary main_v124 main_v126 main_v127 (Host.divf : (⟨S1536, .f32⟩ : BufTy).Contents (Elt F) → (⟨S1536, .f32⟩ : BufTy).Contents (Elt F) → (⟨S1536, .f32⟩ : BufTy).Contents (Elt F)),
    unary main_v127 main_v128 (broadcastInDim S1536x1 ![0] bcast_S1536_S1536x1_0 : (⟨S1536, .f32⟩ : BufTy).Contents (Elt F) → (⟨S1536x1, .f32⟩ : BufTy).Contents (Elt F)),
    unary main_v128 main_v129 (broadcastInDim S1536x256 ![0, 1] bcast_S1536x1_S1536x256_0_1 : (⟨S1536x1, .f32⟩ : BufTy).Contents (Elt F) → (⟨S1536x256, .f32⟩ : BufTy).Contents (Elt F)),
    binary main_v117 main_v129 main_v130 (mulf : (⟨S1536x256, .f32⟩ : BufTy).Contents (Elt F) → (⟨S1536x256, .f32⟩ : BufTy).Contents (Elt F) → (⟨S1536x256, .f32⟩ : BufTy).Contents (Elt F)),
    binary main_v130 main_arg21 main_v131 ((fun l r => Host.dotGeneral dot_S1536x256_S256x256_S1536x256_1_0_0_1_n_n none l r) : (⟨S1536x256, .f32⟩ : BufTy).Contents (Elt F) → (⟨S256x256, .f32⟩ : BufTy).Contents (Elt F) → (⟨S1536x256, .f32⟩ : BufTy).Contents (Elt F)),
    nullary main_cst_37 (constant S_ .f32 0x00000000#32),
    binary main_v131 main_cst_37 main_v132 ((fun x v => Host.reduceAdd x v reducesTo_S1536x256_S256_d0 h_S_) : (⟨S1536x256, .f32⟩ : BufTy).Contents (Elt F) → (⟨S_, .f32⟩ : BufTy).Contents (Elt F) → (⟨S256, .f32⟩ : BufTy).Contents (Elt F)),
    unary main_v132 main_v133 (broadcastInDim S1x256 ![1] bcast_S256_S1x256_1 : (⟨S256, .f32⟩ : BufTy).Contents (Elt F) → (⟨S1x256, .f32⟩ : BufTy).Contents (Elt F)),
    nullary main_cst_38 (constant S_ .f32 0x44C00000#32),
    unary main_cst_38 main_v134 (broadcastInDim S1x256 ![] bcast_S_S1x256 : (⟨S_, .f32⟩ : BufTy).Contents (Elt F) → (⟨S1x256, .f32⟩ : BufTy).Contents (Elt F)),
    binary main_v133 main_v134 main_v135 (Host.divf : (⟨S1x256, .f32⟩ : BufTy).Contents (Elt F) → (⟨S1x256, .f32⟩ : BufTy).Contents (Elt F) → (⟨S1x256, .f32⟩ : BufTy).Contents (Elt F)),
    unary main_arg22 main_v136 (broadcastInDim S1x256 ![1] bcast_S256_S1x256_1 : (⟨S256, .f32⟩ : BufTy).Contents (Elt F) → (⟨S1x256, .f32⟩ : BufTy).Contents (Elt F)),
    binary main_v135 main_v136 main_v137 (addf : (⟨S1x256, .f32⟩ : BufTy).Contents (Elt F) → (⟨S1x256, .f32⟩ : BufTy).Contents (Elt F) → (⟨S1x256, .f32⟩ : BufTy).Contents (Elt F)),
    unary main_v137 main_v138 (broadcastInDim S1536x256 ![0, 1] bcast_S1x256_S1536x256_0_1 : (⟨S1x256, .f32⟩ : BufTy).Contents (Elt F) → (⟨S1536x256, .f32⟩ : BufTy).Contents (Elt F)) ]

abbrev ops6 : List (HloOp τ sig (Elt F)) :=
  [ reshape main_v138 main_v139 rfl shapeCasts_S1536x256_S64x24x256,
    nullary main_cst_39 (constant S_ .f32 0x00000000#32),
    binary main_v139 main_cst_39 main_v140 ((fun x v => Host.reduceAdd x v reducesTo_S64x24x256_S64x256_d1 h_S_) : (⟨S64x24x256, .f32⟩ : BufTy).Contents (Elt F) → (⟨S_, .f32⟩ : BufTy).Contents (Elt F) → (⟨S64x256, .f32⟩ : BufTy).Contents (Elt F)),
    nullary main_cst_40 (constant S_ .f32 0x41C00000#32),
    unary main_cst_40 main_v141 (broadcastInDim S64x256 ![] bcast_S_S64x256 : (⟨S_, .f32⟩ : BufTy).Contents (Elt F) → (⟨S64x256, .f32⟩ : BufTy).Contents (Elt F)),
    binary main_v140 main_v141 main_v142 (Host.divf : (⟨S64x256, .f32⟩ : BufTy).Contents (Elt F) → (⟨S64x256, .f32⟩ : BufTy).Contents (Elt F) → (⟨S64x256, .f32⟩ : BufTy).Contents (Elt F)),
    binary main_v142 main_arg23 main_v143 ((fun l r => Host.dotGeneral dot_S64x256_S256x128_S64x128_1_0_0_1_n_n none l r) : (⟨S64x256, .f32⟩ : BufTy).Contents (Elt F) → (⟨S256x128, .f32⟩ : BufTy).Contents (Elt F) → (⟨S64x128, .f32⟩ : BufTy).Contents (Elt F)),
    unary main_arg24 main_v144 (broadcastInDim S1x128 ![1] bcast_S128_S1x128_1 : (⟨S128, .f32⟩ : BufTy).Contents (Elt F) → (⟨S1x128, .f32⟩ : BufTy).Contents (Elt F)),
    unary main_v144 main_v145 (broadcastInDim S64x128 ![0, 1] bcast_S1x128_S64x128_0_1 : (⟨S1x128, .f32⟩ : BufTy).Contents (Elt F) → (⟨S64x128, .f32⟩ : BufTy).Contents (Elt F)),
    binary main_v143 main_v145 main_v146 (addf : (⟨S64x128, .f32⟩ : BufTy).Contents (Elt F) → (⟨S64x128, .f32⟩ : BufTy).Contents (Elt F) → (⟨S64x128, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S64x128, .f32⟩) main_call7_v0) (broadcastInDim S64x128 ![] bcast_S_S64x128),
    TRef.binary (TRef.of (T := ⟨S64x128, .f32⟩) main_v146) (TRef.of (T := ⟨S64x128, .f32⟩) main_call7_v0) (TRef.of (T := ⟨S64x128, .f32⟩) main_v147) maximumf,
    binary main_v147 main_arg25 main_v148 ((fun l r => Host.dotGeneral dot_S64x128_S128x1_S64x1_1_0_0_1_n_n none l r) : (⟨S64x128, .f32⟩ : BufTy).Contents (Elt F) → (⟨S128x1, .f32⟩ : BufTy).Contents (Elt F) → (⟨S64x1, .f32⟩ : BufTy).Contents (Elt F)),
    unary main_arg26 main_v149 (broadcastInDim S1x1 ![1] bcast_S1_S1x1_1 : (⟨S1, .f32⟩ : BufTy).Contents (Elt F) → (⟨S1x1, .f32⟩ : BufTy).Contents (Elt F)),
    unary main_v149 main_v150 (broadcastInDim S64x1 ![0, 1] bcast_S1x1_S64x1_0_1 : (⟨S1x1, .f32⟩ : BufTy).Contents (Elt F) → (⟨S64x1, .f32⟩ : BufTy).Contents (Elt F)),
    binary main_v148 main_v150 main_v151 (addf : (⟨S64x1, .f32⟩ : BufTy).Contents (Elt F) → (⟨S64x1, .f32⟩ : BufTy).Contents (Elt F) → (⟨S64x1, .f32⟩ : BufTy).Contents (Elt F)),
    unary main_v151 main_v152 (Host.negf : (⟨S64x1, .f32⟩ : BufTy).Contents (Elt F) → (⟨S64x1, .f32⟩ : BufTy).Contents (Elt F)),
    unary main_v152 main_v153 (Host.exp : (⟨S64x1, .f32⟩ : BufTy).Contents (Elt F) → (⟨S64x1, .f32⟩ : BufTy).Contents (Elt F)),
    nullary main_cst_41 (constant S_ .f32 0x3F800000#32),
    unary main_cst_41 main_v154 (broadcastInDim S64x1 ![] bcast_S_S64x1 : (⟨S_, .f32⟩ : BufTy).Contents (Elt F) → (⟨S64x1, .f32⟩ : BufTy).Contents (Elt F)),
    binary main_v154 main_v153 main_v155 (addf : (⟨S64x1, .f32⟩ : BufTy).Contents (Elt F) → (⟨S64x1, .f32⟩ : BufTy).Contents (Elt F) → (⟨S64x1, .f32⟩ : BufTy).Contents (Elt F)),
    nullary main_cst_42 (constant S_ .f32 0x3F800000#32),
    unary main_cst_42 main_v156 (broadcastInDim S64x1 ![] bcast_S_S64x1 : (⟨S_, .f32⟩ : BufTy).Contents (Elt F) → (⟨S64x1, .f32⟩ : BufTy).Contents (Elt F)),
    binary main_v156 main_v155 main_v157 (Host.divf : (⟨S64x1, .f32⟩ : BufTy).Contents (Elt F) → (⟨S64x1, .f32⟩ : BufTy).Contents (Elt F) → (⟨S64x1, .f32⟩ : BufTy).Contents (Elt F)) ]

def opsP0 : List (HloOp τ sig (Elt F)) := ops0 ++ ops1
def opsP1 : List (HloOp τ sig (Elt F)) := ops2 ++ ops3
def opsP2 : List (HloOp τ sig (Elt F)) := ops4 ++ ops5
def opsP3 : List (HloOp τ sig (Elt F)) := ops6

def ops : List (HloOp τ sig (Elt F)) := opsP0 ++ (opsP1 ++ (opsP2 ++ opsP3))

set_option maxRecDepth 8192 in
set_option maxHeartbeats 4000000 in
theorem main_part0_eq (c : Dev nD) : main_part0 (F := F) c = seq opsP0 := rfl
set_option maxRecDepth 8192 in
set_option maxHeartbeats 4000000 in
theorem main_part1_eq (c : Dev nD) : main_part1 (F := F) c = seq opsP1 := rfl
set_option maxRecDepth 8192 in
set_option maxHeartbeats 4000000 in
theorem main_part2_eq (c : Dev nD) : main_part2 (F := F) c = seq opsP2 := rfl
set_option maxRecDepth 8192 in
set_option maxHeartbeats 4000000 in
theorem main_part3_eq (c : Dev nD) : main_part3 (F := F) c = seq opsP3 := rfl

theorem main_eq (c : Dev nD) : main (F := F) c = seq ops := by
  unfold ops
  rw [seq_append, seq_append, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub ..⟩
set_option maxRecDepth 8192 in
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops1_sub : (ops1 : List (HloOp τ sig (Elt F))).Forall fun op => op.bufs ⊆ tcRefs τ sig :=
  ⟨unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub ..⟩
set_option maxRecDepth 8192 in
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops2_sub : (ops2 : List (HloOp τ sig (Elt F))).Forall fun op => op.bufs ⊆ tcRefs τ sig :=
  ⟨nullary_bufs_sub .., nullary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub ..⟩
set_option maxRecDepth 8192 in
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops3_sub : (ops3 : List (HloOp τ sig (Elt F))).Forall fun op => op.bufs ⊆ tcRefs τ sig :=
  ⟨unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., unary_bufs_sub .., unary_bufs_sub ..⟩
set_option maxRecDepth 8192 in
theorem ops3_fresh : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops4_sub : (ops4 : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub ..⟩
set_option maxRecDepth 8192 in
theorem ops4_fresh : (ops4 : List (HloOp τ sig (Elt F))).Forall fun op => op.fresh = ∅ :=
  ⟨rfl, rfl, rfl, rfl, rfl, rfl, rfl, rfl, rfl, rfl, rfl, rfl⟩

set_option maxRecDepth 8192 in
theorem ops5_sub : (ops5 : List (HloOp τ sig (Elt F))).Forall fun op => op.bufs ⊆ tcRefs τ sig :=
  ⟨nary_bufs_sub .., nullary_bufs_sub .., binary_bufs_sub .., nullary_bufs_sub .., unary_bufs_sub .., binary_bufs_sub .., reshape_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., binary_bufs_sub .., unary_bufs_sub .., binary_bufs_sub .., unary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., unary_bufs_sub ..⟩
set_option maxRecDepth 8192 in
theorem ops5_fresh : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
theorem ops6_sub : (ops6 : List (HloOp τ sig (Elt F))).Forall fun op => op.bufs ⊆ tcRefs τ sig :=
  ⟨reshape_bufs_sub .., nullary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩
set_option maxRecDepth 8192 in
theorem ops6_fresh : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

theorem ops_forall {p : HloOp τ sig (Elt F) → Prop} (h0 : (ops0 : List (HloOp τ sig (Elt F))).Forall p) (h1 : (ops1 : List (HloOp τ sig (Elt F))).Forall p)
    (h2 : (ops2 : List (HloOp τ sig (Elt F))).Forall p) (h3 : (ops3 : List (HloOp τ sig (Elt F))).Forall p) (h4 : (ops4 : List (HloOp τ sig (Elt F))).Forall p)
    (h5 : (ops5 : List (HloOp τ sig (Elt F))).Forall p) (h6 : (ops6 : List (HloOp τ sig (Elt F))).Forall p) : ∀ op ∈ (ops : List (HloOp τ sig (Elt F))), p op := by
  intro op h
  simp only [ops, opsP0, opsP1, opsP2, opsP3, List.mem_append] at h
  rcases h with (h | h) | (h | h) | (h | h) | h
  exacts [List.forall_iff_forall_mem.mp h0 op h, List.forall_iff_forall_mem.mp h1 op h, List.forall_iff_forall_mem.mp h2 op h,
    List.forall_iff_forall_mem.mp h3 op h, List.forall_iff_forall_mem.mp h4 op h, List.forall_iff_forall_mem.mp h5 op h,
    List.forall_iff_forall_mem.mp h6 op h]

theorem ops_sub : (ops : List (HloOp τ sig (Elt F))).Forall fun op => op.bufs ⊆ tcRefs τ sig :=
  List.forall_iff_forall_mem.mpr (ops_forall ops0_sub ops1_sub ops2_sub ops3_sub ops4_sub ops5_sub ops6_sub)

theorem ops_fresh : ∀ op ∈ (ops : List (HloOp τ sig (Elt F))), op.fresh = ∅ :=
  ops_forall ops0_fresh ops1_fresh ops2_fresh ops3_fresh ops4_fresh ops5_fresh ops6_fresh

abbrev ops0_W : List (Ref sig .tc) := [main_c, main_c_0, main_call0_v0, main_call0_v1, main_call0_v2, main_call0_v3, main_call0_v4, main_v0, main_c_1, main_v1, main_v2, main_c_2, main_v3, main_v4, main_v5, main_v6, main_v7, main_c_3, main_c_4, main_call1_v0, main_call1_v1, main_call1_v2, main_call1_v3, main_call1_v4, main_v8, main_c_5, main_v9, main_v10, main_c_6, main_v11, main_v12, main_v13, main_v14, main_v15, main_c_7, main_c_8, main_call2_v0, main_call2_v1, main_call2_v2, main_call2_v3, main_call2_v4, main_v16, main_c_9, main_v17, main_v18, main_c_10, main_v19, main_v20, main_v21]
set_option maxRecDepth 8192 in
theorem ops0_writes : (ops0 : List (HloOp τ sig (Elt F))).Forall fun op => op.writes ⊆ (ops0_W.map (Proc.devRef (τ := τ) .tc)).toFinset := by
  simp only [List.Forall]; (repeat' apply And.intro) <;> exact LibWrites.singleton_sub (by decide)

abbrev ops1_W : List (Ref sig .tc) := [main_v22, main_v23, main_c_11, main_c_12, main_call3_v0, main_call3_v1, main_call3_v2, main_call3_v3, main_call3_v4, main_v24, main_c_13, main_v25, main_v26, main_c_14, main_v27, main_v28, main_v29, main_v30, main_v31, main_c_15, main_c_16, main_call4_v0, main_call4_v1, main_call4_v2, main_call4_v3, main_call4_v4, main_v32, main_c_17, main_v33, main_v34, main_c_18, main_v35, main_v36, main_v37, main_v38, main_v39]
set_option maxRecDepth 8192 in
theorem ops1_writes : (ops1 : List (HloOp τ sig (Elt F))).Forall fun op => op.writes ⊆ (ops1_W.map (Proc.devRef (τ := τ) .tc)).toFinset := by
  simp only [List.Forall]; (repeat' apply And.intro) <;> exact LibWrites.singleton_sub (by decide)

abbrev ops2_W : List (Ref sig .tc) := [main_c_19, main_c_20, main_call5_v0, main_call5_v1, main_call5_v2, main_call5_v3, main_call5_v4, main_v40, main_c_21, main_v41, main_v42, main_c_22, main_v43, main_v44, main_v45, main_v46, main_v47, main_v48, main_v49, main_c_23, main_v50, main_v51, main_c_24, main_v52, main_v53, main_v54, main_v55, main_v56, main_v57, main_v58, main_c_25, main_v59, main_v60, main_c_26, main_v61, main_v62, main_v63]
set_option maxRecDepth 8192 in
theorem ops2_writes : (ops2 : List (HloOp τ sig (Elt F))).Forall fun op => op.writes ⊆ (ops2_W.map (Proc.devRef (τ := τ) .tc)).toFinset := by
  simp only [List.Forall]; (repeat' apply And.intro) <;> exact LibWrites.singleton_sub (by decide)

abbrev ops3_W : List (Ref sig .tc) := [main_v64, main_v65, main_v66, main_v67, main_c_27, main_v68, main_v69, main_c_28, main_v70, main_v71, main_v72, main_v73, main_v74, main_v75, main_v76, main_c_29, main_v77, main_v78, main_c_30, main_v79, main_v80, main_v81, main_v82, main_v83, main_v84, main_v85, main_v86, main_v87]
set_option maxRecDepth 8192 in
theorem ops3_writes : (ops3 : List (HloOp τ sig (Elt F))).Forall fun op => op.writes ⊆ (ops3_W.map (Proc.devRef (τ := τ) .tc)).toFinset := by
  simp only [List.Forall]; (repeat' apply And.intro) <;> exact LibWrites.singleton_sub (by decide)

abbrev ops4_W : List (Ref sig .tc) := [main_v88, main_v89, main_v90, main_v91, main_v92, main_v93, main_v94, main_v95, main_v96, main_v97, main_v98, main_v99]
set_option maxRecDepth 8192 in
theorem ops4_writes : (ops4 : List (HloOp τ sig (Elt F))).Forall fun op => op.writes ⊆ (ops4_W.map (Proc.devRef (τ := τ) .tc)).toFinset := by
  simp only [List.Forall]; (repeat' apply And.intro) <;> exact LibWrites.singleton_sub (by decide)

abbrev ops5_W : List (Ref sig .tc) := [main_v100, main_cst, main_v101, main_cst_31, main_v102, main_v103, main_v104, main_v105, main_v106, main_v107, main_v108, main_v109, main_cst_32, main_v110, main_v111, main_cst_33, main_v112, main_v113, main_v114, main_v115, main_v116, main_call6_cst, main_call6_v0, main_v117, main_cst_34, main_v118, main_v119, main_v120, main_v121, main_cst_35, main_v122, main_v123, main_v124, main_cst_36, main_v125, main_v126, main_v127, main_v128, main_v129, main_v130, main_v131, main_cst_37, main_v132, main_v133, main_cst_38, main_v134, main_v135, main_v136, main_v137, main_v138]
set_option maxRecDepth 8192 in
theorem ops5_writes : (ops5 : List (HloOp τ sig (Elt F))).Forall fun op => op.writes ⊆ (ops5_W.map (Proc.devRef (τ := τ) .tc)).toFinset := by
  simp only [List.Forall]; (repeat' apply And.intro) <;> exact LibWrites.singleton_sub (by decide)

abbrev ops6_W : List (Ref sig .tc) := [main_v139, main_cst_39, main_v140, main_cst_40, main_v141, main_v142, main_v143, main_v144, main_v145, main_v146, main_call7_cst, main_call7_v0, main_v147, main_v148, main_v149, main_v150, main_v151, main_v152, main_v153, main_cst_41, main_v154, main_v155, main_cst_42, main_v156, main_v157]
set_option maxRecDepth 8192 in
theorem ops6_writes : (ops6 : List (HloOp τ sig (Elt F))).Forall fun op => op.writes ⊆ (ops6_W.map (Proc.devRef (τ := τ) .tc)).toFinset := by
  simp only [List.Forall]; (repeat' apply And.intro) <;> exact LibWrites.singleton_sub (by decide)

variable (m : (ℓ : Loc nD τ sig) → Buf (Elt F) ℓ) (c : Dev nD)

def W0 : Valuation τ sig (Elt F) := launchContents m c

def W1 : Valuation τ sig (Elt F) := after ops0 (W0 m c)

def W2 : Valuation τ sig (Elt F) := after ops1 (W1 m c)

def W3 : Valuation τ sig (Elt F) := after ops2 (W2 m c)

def W4 : Valuation τ sig (Elt F) := after ops3 (W3 m c)

def W5 : Valuation τ sig (Elt F) := after ops4 (W4 m c)

def W6 : Valuation τ sig (Elt F) := after ops5 (W5 m c)

def W7 : Valuation τ sig (Elt F) := after ops6 (W6 m c)

theorem after_ops : after ops (launchContents m c) = W7 m c := by
  simp only [ops, opsP0, opsP1, opsP2, opsP3, StableHlo.after_append]
  rfl

theorem W1_keep (r : Ref sig .tc) (h : r ∉ ops0_W) : W1 m c (Proc.devRef .tc r) = W0 m c (Proc.devRef .tc r) :=
  after_of_writes_sub ops0 _ ops0_writes h

theorem W2_keep (r : Ref sig .tc) (h : r ∉ ops1_W) : W2 m c (Proc.devRef .tc r) = W1 m c (Proc.devRef .tc r) :=
  after_of_writes_sub ops1 _ ops1_writes h

theorem W3_keep (r : Ref sig .tc) (h : r ∉ ops2_W) : W3 m c (Proc.devRef .tc r) = W2 m c (Proc.devRef .tc r) :=
  after_of_writes_sub ops2 _ ops2_writes h

theorem W4_keep (r : Ref sig .tc) (h : r ∉ ops3_W) : W4 m c (Proc.devRef .tc r) = W3 m c (Proc.devRef .tc r) :=
  after_of_writes_sub ops3 _ ops3_writes h

theorem W5_keep (r : Ref sig .tc) (h : r ∉ ops4_W) : W5 m c (Proc.devRef .tc r) = W4 m c (Proc.devRef .tc r) :=
  after_of_writes_sub ops4 _ ops4_writes h

theorem W6_keep (r : Ref sig .tc) (h : r ∉ ops5_W) : W6 m c (Proc.devRef .tc r) = W5 m c (Proc.devRef .tc r) :=
  after_of_writes_sub ops5 _ ops5_writes h

theorem W7_keep (r : Ref sig .tc) (h : r ∉ ops6_W) : W7 m c (Proc.devRef .tc r) = W6 m c (Proc.devRef .tc r) :=
  after_of_writes_sub ops6 _ ops6_writes h

-- An argument no stretch so far writes still holds its launch contents.
theorem W1_arg (r : Ref sig .tc) (h : r ∉ ops0_W) : W1 m c (Proc.devRef .tc r) = m ((c.tc : Thread nD τ).loc r) :=
  (W1_keep m c r h).trans rfl
theorem W2_arg (r : Ref sig .tc) (h : r ∉ ops1_W ∧ r ∉ ops0_W) : W2 m c (Proc.devRef .tc r) = m ((c.tc : Thread nD τ).loc r) :=
  (W2_keep m c r h.1).trans (W1_arg m c r h.2)
theorem W3_arg (r : Ref sig .tc) (h : r ∉ ops2_W ∧ r ∉ ops1_W ∧ r ∉ ops0_W) : W3 m c (Proc.devRef .tc r) = m ((c.tc : Thread nD τ).loc r) :=
  (W3_keep m c r h.1).trans (W2_arg m c r h.2)
theorem W4_arg (r : Ref sig .tc) (h : r ∉ ops3_W ∧ r ∉ ops2_W ∧ r ∉ ops1_W ∧ r ∉ ops0_W) : W4 m c (Proc.devRef .tc r) = m ((c.tc : Thread nD τ).loc r) :=
  (W4_keep m c r h.1).trans (W3_arg m c r h.2)
theorem W5_arg (r : Ref sig .tc) (h : r ∉ ops4_W ∧ r ∉ ops3_W ∧ r ∉ ops2_W ∧ r ∉ ops1_W ∧ r ∉ ops0_W) : W5 m c (Proc.devRef .tc r) = m ((c.tc : Thread nD τ).loc r) :=
  (W5_keep m c r h.1).trans (W4_arg m c r h.2)
theorem W6_arg (r : Ref sig .tc) (h : r ∉ ops5_W ∧ r ∉ ops4_W ∧ r ∉ ops3_W ∧ r ∉ ops2_W ∧ r ∉ ops1_W ∧ r ∉ ops0_W) : W6 m c (Proc.devRef .tc r) = m ((c.tc : Thread nD τ).loc r) :=
  (W6_keep m c r h.1).trans (W5_arg m c r h.2)
theorem W7_arg (r : Ref sig .tc) (h : r ∉ ops6_W ∧ r ∉ ops5_W ∧ r ∉ ops4_W ∧ r ∉ ops3_W ∧ r ∉ ops2_W ∧ r ∉ ops1_W ∧ r ∉ ops0_W) : W7 m c (Proc.devRef .tc r) = m ((c.tc : Thread nD τ).loc r) :=
  (W7_keep m c r h.1).trans (W6_arg m c r h.2)
theorem W0_main_arg0 : W0 m c (no_index (Proc.devRef .tc main_arg0)) = m ((c.tc : Thread nD τ).loc main_arg0) := rfl
theorem W7_main_arg0 : W7 m c (no_index (Proc.devRef .tc main_arg0)) = m ((c.tc : Thread nD τ).loc main_arg0) := W7_arg m c main_arg0 (by (repeat' apply And.intro) <;> decide)

theorem W0_main_arg1 : W0 m c (no_index (Proc.devRef .tc main_arg1)) = m ((c.tc : Thread nD τ).loc main_arg1) := rfl
theorem W7_main_arg1 : W7 m c (no_index (Proc.devRef .tc main_arg1)) = m ((c.tc : Thread nD τ).loc main_arg1) := W7_arg m c main_arg1 (by (repeat' apply And.intro) <;> decide)

theorem W0_main_arg2 : W0 m c (no_index (Proc.devRef .tc main_arg2)) = m ((c.tc : Thread nD τ).loc main_arg2) := rfl
theorem W7_main_arg2 : W7 m c (no_index (Proc.devRef .tc main_arg2)) = m ((c.tc : Thread nD τ).loc main_arg2) := W7_arg m c main_arg2 (by (repeat' apply And.intro) <;> decide)

theorem W1_main_arg3 : W1 m c (no_index (Proc.devRef .tc main_arg3)) = m ((c.tc : Thread nD τ).loc main_arg3) := W1_arg m c main_arg3 (by (repeat' apply And.intro) <;> decide)
theorem W7_main_arg3 : W7 m c (no_index (Proc.devRef .tc main_arg3)) = m ((c.tc : Thread nD τ).loc main_arg3) := W7_arg m c main_arg3 (by (repeat' apply And.intro) <;> decide)

theorem W1_main_arg4 : W1 m c (no_index (Proc.devRef .tc main_arg4)) = m ((c.tc : Thread nD τ).loc main_arg4) := W1_arg m c main_arg4 (by (repeat' apply And.intro) <;> decide)
theorem W7_main_arg4 : W7 m c (no_index (Proc.devRef .tc main_arg4)) = m ((c.tc : Thread nD τ).loc main_arg4) := W7_arg m c main_arg4 (by (repeat' apply And.intro) <;> decide)

theorem W2_main_arg5 : W2 m c (no_index (Proc.devRef .tc main_arg5)) = m ((c.tc : Thread nD τ).loc main_arg5) := W2_arg m c main_arg5 (by (repeat' apply And.intro) <;> decide)
theorem W7_main_arg5 : W7 m c (no_index (Proc.devRef .tc main_arg5)) = m ((c.tc : Thread nD τ).loc main_arg5) := W7_arg m c main_arg5 (by (repeat' apply And.intro) <;> decide)

theorem W2_main_arg6 : W2 m c (no_index (Proc.devRef .tc main_arg6)) = m ((c.tc : Thread nD τ).loc main_arg6) := W2_arg m c main_arg6 (by (repeat' apply And.intro) <;> decide)
theorem W3_main_arg6 : W3 m c (no_index (Proc.devRef .tc main_arg6)) = m ((c.tc : Thread nD τ).loc main_arg6) := W3_arg m c main_arg6 (by (repeat' apply And.intro) <;> decide)
theorem W7_main_arg6 : W7 m c (no_index (Proc.devRef .tc main_arg6)) = m ((c.tc : Thread nD τ).loc main_arg6) := W7_arg m c main_arg6 (by (repeat' apply And.intro) <;> decide)

theorem W0_main_arg7 : W0 m c (no_index (Proc.devRef .tc main_arg7)) = m ((c.tc : Thread nD τ).loc main_arg7) := rfl
theorem W7_main_arg7 : W7 m c (no_index (Proc.devRef .tc main_arg7)) = m ((c.tc : Thread nD τ).loc main_arg7) := W7_arg m c main_arg7 (by (repeat' apply And.intro) <;> decide)

theorem W0_main_arg8 : W0 m c (no_index (Proc.devRef .tc main_arg8)) = m ((c.tc : Thread nD τ).loc main_arg8) := rfl
theorem W7_main_arg8 : W7 m c (no_index (Proc.devRef .tc main_arg8)) = m ((c.tc : Thread nD τ).loc main_arg8) := W7_arg m c main_arg8 (by (repeat' apply And.intro) <;> decide)

theorem W1_main_arg9 : W1 m c (no_index (Proc.devRef .tc main_arg9)) = m ((c.tc : Thread nD τ).loc main_arg9) := W1_arg m c main_arg9 (by (repeat' apply And.intro) <;> decide)
theorem W7_main_arg9 : W7 m c (no_index (Proc.devRef .tc main_arg9)) = m ((c.tc : Thread nD τ).loc main_arg9) := W7_arg m c main_arg9 (by (repeat' apply And.intro) <;> decide)

theorem W1_main_arg10 : W1 m c (no_index (Proc.devRef .tc main_arg10)) = m ((c.tc : Thread nD τ).loc main_arg10) := W1_arg m c main_arg10 (by (repeat' apply And.intro) <;> decide)
theorem W7_main_arg10 : W7 m c (no_index (Proc.devRef .tc main_arg10)) = m ((c.tc : Thread nD τ).loc main_arg10) := W7_arg m c main_arg10 (by (repeat' apply And.intro) <;> decide)

theorem W1_main_arg11 : W1 m c (no_index (Proc.devRef .tc main_arg11)) = m ((c.tc : Thread nD τ).loc main_arg11) := W1_arg m c main_arg11 (by (repeat' apply And.intro) <;> decide)
theorem W7_main_arg11 : W7 m c (no_index (Proc.devRef .tc main_arg11)) = m ((c.tc : Thread nD τ).loc main_arg11) := W7_arg m c main_arg11 (by (repeat' apply And.intro) <;> decide)

theorem W2_main_arg12 : W2 m c (no_index (Proc.devRef .tc main_arg12)) = m ((c.tc : Thread nD τ).loc main_arg12) := W2_arg m c main_arg12 (by (repeat' apply And.intro) <;> decide)
theorem W7_main_arg12 : W7 m c (no_index (Proc.devRef .tc main_arg12)) = m ((c.tc : Thread nD τ).loc main_arg12) := W7_arg m c main_arg12 (by (repeat' apply And.intro) <;> decide)

theorem W2_main_arg13 : W2 m c (no_index (Proc.devRef .tc main_arg13)) = m ((c.tc : Thread nD τ).loc main_arg13) := W2_arg m c main_arg13 (by (repeat' apply And.intro) <;> decide)
theorem W7_main_arg13 : W7 m c (no_index (Proc.devRef .tc main_arg13)) = m ((c.tc : Thread nD τ).loc main_arg13) := W7_arg m c main_arg13 (by (repeat' apply And.intro) <;> decide)

theorem W3_main_arg14 : W3 m c (no_index (Proc.devRef .tc main_arg14)) = m ((c.tc : Thread nD τ).loc main_arg14) := W3_arg m c main_arg14 (by (repeat' apply And.intro) <;> decide)
theorem W7_main_arg14 : W7 m c (no_index (Proc.devRef .tc main_arg14)) = m ((c.tc : Thread nD τ).loc main_arg14) := W7_arg m c main_arg14 (by (repeat' apply And.intro) <;> decide)

theorem W3_main_arg15 : W3 m c (no_index (Proc.devRef .tc main_arg15)) = m ((c.tc : Thread nD τ).loc main_arg15) := W3_arg m c main_arg15 (by (repeat' apply And.intro) <;> decide)
theorem W7_main_arg15 : W7 m c (no_index (Proc.devRef .tc main_arg15)) = m ((c.tc : Thread nD τ).loc main_arg15) := W7_arg m c main_arg15 (by (repeat' apply And.intro) <;> decide)

theorem W3_main_arg16 : W3 m c (no_index (Proc.devRef .tc main_arg16)) = m ((c.tc : Thread nD τ).loc main_arg16) := W3_arg m c main_arg16 (by (repeat' apply And.intro) <;> decide)
theorem W7_main_arg16 : W7 m c (no_index (Proc.devRef .tc main_arg16)) = m ((c.tc : Thread nD τ).loc main_arg16) := W7_arg m c main_arg16 (by (repeat' apply And.intro) <;> decide)

theorem W5_main_arg17 : W5 m c (no_index (Proc.devRef .tc main_arg17)) = m ((c.tc : Thread nD τ).loc main_arg17) := W5_arg m c main_arg17 (by (repeat' apply And.intro) <;> decide)
theorem W7_main_arg17 : W7 m c (no_index (Proc.devRef .tc main_arg17)) = m ((c.tc : Thread nD τ).loc main_arg17) := W7_arg m c main_arg17 (by (repeat' apply And.intro) <;> decide)

theorem W5_main_arg18 : W5 m c (no_index (Proc.devRef .tc main_arg18)) = m ((c.tc : Thread nD τ).loc main_arg18) := W5_arg m c main_arg18 (by (repeat' apply And.intro) <;> decide)
theorem W7_main_arg18 : W7 m c (no_index (Proc.devRef .tc main_arg18)) = m ((c.tc : Thread nD τ).loc main_arg18) := W7_arg m c main_arg18 (by (repeat' apply And.intro) <;> decide)

theorem W5_main_arg19 : W5 m c (no_index (Proc.devRef .tc main_arg19)) = m ((c.tc : Thread nD τ).loc main_arg19) := W5_arg m c main_arg19 (by (repeat' apply And.intro) <;> decide)
theorem W7_main_arg19 : W7 m c (no_index (Proc.devRef .tc main_arg19)) = m ((c.tc : Thread nD τ).loc main_arg19) := W7_arg m c main_arg19 (by (repeat' apply And.intro) <;> decide)

theorem W5_main_arg20 : W5 m c (no_index (Proc.devRef .tc main_arg20)) = m ((c.tc : Thread nD τ).loc main_arg20) := W5_arg m c main_arg20 (by (repeat' apply And.intro) <;> decide)
theorem W7_main_arg20 : W7 m c (no_index (Proc.devRef .tc main_arg20)) = m ((c.tc : Thread nD τ).loc main_arg20) := W7_arg m c main_arg20 (by (repeat' apply And.intro) <;> decide)

theorem W5_main_arg21 : W5 m c (no_index (Proc.devRef .tc main_arg21)) = m ((c.tc : Thread nD τ).loc main_arg21) := W5_arg m c main_arg21 (by (repeat' apply And.intro) <;> decide)
theorem W7_main_arg21 : W7 m c (no_index (Proc.devRef .tc main_arg21)) = m ((c.tc : Thread nD τ).loc main_arg21) := W7_arg m c main_arg21 (by (repeat' apply And.intro) <;> decide)

theorem W5_main_arg22 : W5 m c (no_index (Proc.devRef .tc main_arg22)) = m ((c.tc : Thread nD τ).loc main_arg22) := W5_arg m c main_arg22 (by (repeat' apply And.intro) <;> decide)
theorem W7_main_arg22 : W7 m c (no_index (Proc.devRef .tc main_arg22)) = m ((c.tc : Thread nD τ).loc main_arg22) := W7_arg m c main_arg22 (by (repeat' apply And.intro) <;> decide)

theorem W6_main_arg23 : W6 m c (no_index (Proc.devRef .tc main_arg23)) = m ((c.tc : Thread nD τ).loc main_arg23) := W6_arg m c main_arg23 (by (repeat' apply And.intro) <;> decide)
theorem W7_main_arg23 : W7 m c (no_index (Proc.devRef .tc main_arg23)) = m ((c.tc : Thread nD τ).loc main_arg23) := W7_arg m c main_arg23 (by (repeat' apply And.intro) <;> decide)

theorem W6_main_arg24 : W6 m c (no_index (Proc.devRef .tc main_arg24)) = m ((c.tc : Thread nD τ).loc main_arg24) := W6_arg m c main_arg24 (by (repeat' apply And.intro) <;> decide)
theorem W7_main_arg24 : W7 m c (no_index (Proc.devRef .tc main_arg24)) = m ((c.tc : Thread nD τ).loc main_arg24) := W7_arg m c main_arg24 (by (repeat' apply And.intro) <;> decide)

theorem W6_main_arg25 : W6 m c (no_index (Proc.devRef .tc main_arg25)) = m ((c.tc : Thread nD τ).loc main_arg25) := W6_arg m c main_arg25 (by (repeat' apply And.intro) <;> decide)
theorem W7_main_arg25 : W7 m c (no_index (Proc.devRef .tc main_arg25)) = m ((c.tc : Thread nD τ).loc main_arg25) := W7_arg m c main_arg25 (by (repeat' apply And.intro) <;> decide)

theorem W6_main_arg26 : W6 m c (no_index (Proc.devRef .tc main_arg26)) = m ((c.tc : Thread nD τ).loc main_arg26) := W6_arg m c main_arg26 (by (repeat' apply And.intro) <;> decide)
theorem W7_main_arg26 : W7 m c (no_index (Proc.devRef .tc main_arg26)) = m ((c.tc : Thread nD τ).loc main_arg26) := W7_arg m c main_arg26 (by (repeat' apply And.intro) <;> decide)

end Cert.ReferenceIdeal.RunHand

end
-- ==== Proof.Ref.RunHand1.lean ====
import proofs.«406789_j53094385713523_3_alg».proof.Proof.Ref.RunHand0
import proofs.«406789_j53094385713523_3_alg».proof.Proof.Ref.ReadP

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

set_option maxRecDepth 8192 in
set_option maxHeartbeats 9800000 in
theorem W1_main_v7 : W1 m c (no_index (Proc.devRef .tc main_v7)) = Read.val_main_v7 (F := F) (m ((c.tc : Thread nD τ).loc main_arg0)) (m ((c.tc : Thread nD τ).loc main_arg7)) := by
  unfold W1
  simp only [ops0]
  after_results_simp
  simp only [W0_main_arg0, W0_main_arg7] <;> rfl

set_option maxRecDepth 8192 in
set_option maxHeartbeats 9800000 in
theorem W1_main_v15 : W1 m c (no_index (Proc.devRef .tc main_v15)) = Read.val_main_v15 (F := F) (m ((c.tc : Thread nD τ).loc main_arg1)) (m ((c.tc : Thread nD τ).loc main_arg8)) := by
  unfold W1
  simp only [ops0]
  after_results_simp
  simp only [W0_main_arg1, W0_main_arg8] <;> rfl

set_option maxRecDepth 8192 in
set_option maxHeartbeats 9800000 in
theorem W1_main_v21 : W1 m c (no_index (Proc.devRef .tc main_v21)) = Read.val_main_v21 (F := F) (m ((c.tc : Thread nD τ).loc main_arg2)) := by
  unfold W1
  simp only [ops0]
  after_results_simp
  simp only [W0_main_arg2] <;> rfl

theorem W2_main_v7 : W2 m c (no_index (Proc.devRef .tc main_v7)) = Read.val_main_v7 (F := F) (m ((c.tc : Thread nD τ).loc main_arg0)) (m ((c.tc : Thread nD τ).loc main_arg7)) :=
  (W2_keep m c main_v7 (by decide)).trans (W1_main_v7 m c)

theorem W2_main_v15 : W2 m c (no_index (Proc.devRef .tc main_v15)) = Read.val_main_v15 (F := F) (m ((c.tc : Thread nD τ).loc main_arg1)) (m ((c.tc : Thread nD τ).loc main_arg8)) :=
  (W2_keep m c main_v15 (by decide)).trans (W1_main_v15 m c)

set_option maxRecDepth 8192 in
set_option maxHeartbeats 7200000 in
theorem W2_main_v23 : W2 m c (no_index (Proc.devRef .tc main_v23)) = Read.val_main_v23 (F := F) (m ((c.tc : Thread nD τ).loc main_arg2)) (m ((c.tc : Thread nD τ).loc main_arg9)) := by
  unfold W2
  simp only [ops1]
  after_results_simp
  simp only [W1_main_v21, W1_main_arg9] <;> rfl

set_option maxRecDepth 8192 in
set_option maxHeartbeats 7200000 in
theorem W2_main_v31 : W2 m c (no_index (Proc.devRef .tc main_v31)) = Read.val_main_v31 (F := F) (m ((c.tc : Thread nD τ).loc main_arg3)) (m ((c.tc : Thread nD τ).loc main_arg10)) := by
  unfold W2
  simp only [ops1]
  after_results_simp
  simp only [W1_main_arg3, W1_main_arg10] <;> rfl

set_option maxRecDepth 8192 in
set_option maxHeartbeats 7200000 in
theorem W2_main_v39 : W2 m c (no_index (Proc.devRef .tc main_v39)) = Read.val_main_v39 (F := F) (m ((c.tc : Thread nD τ).loc main_arg4)) (m ((c.tc : Thread nD τ).loc main_arg11)) := by
  unfold W2
  simp only [ops1]
  after_results_simp
  simp only [W1_main_arg4, W1_main_arg11] <;> rfl

theorem W3_main_v7 : W3 m c (no_index (Proc.devRef .tc main_v7)) = Read.val_main_v7 (F := F) (m ((c.tc : Thread nD τ).loc main_arg0)) (m ((c.tc : Thread nD τ).loc main_arg7)) :=
  (W3_keep m c main_v7 (by decide)).trans (W2_main_v7 m c)

theorem W3_main_v15 : W3 m c (no_index (Proc.devRef .tc main_v15)) = Read.val_main_v15 (F := F) (m ((c.tc : Thread nD τ).loc main_arg1)) (m ((c.tc : Thread nD τ).loc main_arg8)) :=
  (W3_keep m c main_v15 (by decide)).trans (W2_main_v15 m c)

theorem W3_main_v23 : W3 m c (no_index (Proc.devRef .tc main_v23)) = Read.val_main_v23 (F := F) (m ((c.tc : Thread nD τ).loc main_arg2)) (m ((c.tc : Thread nD τ).loc main_arg9)) :=
  (W3_keep m c main_v23 (by decide)).trans (W2_main_v23 m c)

theorem W3_main_v31 : W3 m c (no_index (Proc.devRef .tc main_v31)) = Read.val_main_v31 (F := F) (m ((c.tc : Thread nD τ).loc main_arg3)) (m ((c.tc : Thread nD τ).loc main_arg10)) :=
  (W3_keep m c main_v31 (by decide)).trans (W2_main_v31 m c)

theorem W3_main_v39 : W3 m c (no_index (Proc.devRef .tc main_v39)) = Read.val_main_v39 (F := F) (m ((c.tc : Thread nD τ).loc main_arg4)) (m ((c.tc : Thread nD τ).loc main_arg11)) :=
  (W3_keep m c main_v39 (by decide)).trans (W2_main_v39 m c)

set_option maxRecDepth 8192 in
set_option maxHeartbeats 7400000 in
theorem W3_main_v47 : W3 m c (no_index (Proc.devRef .tc main_v47)) = Read.val_main_v47 (F := F) (m ((c.tc : Thread nD τ).loc main_arg5)) (m ((c.tc : Thread nD τ).loc main_arg12)) := by
  unfold W3
  simp only [ops2]
  after_results_simp
  simp only [W2_main_arg5, W2_main_arg12] <;> rfl

set_option maxRecDepth 8192 in
set_option maxHeartbeats 7400000 in
theorem W3_main_v56 : W3 m c (no_index (Proc.devRef .tc main_v56)) = Read.val_main_v56 (F := F) (m ((c.tc : Thread nD τ).loc main_arg6)) (m ((c.tc : Thread nD τ).loc main_arg13)) := by
  unfold W3
  simp only [ops2]
  after_results_simp
  simp only [W2_main_arg6, W2_main_arg13] <;> rfl

set_option maxRecDepth 8192 in
set_option maxHeartbeats 7400000 in
theorem W3_main_v63 : W3 m c (no_index (Proc.devRef .tc main_v63)) = Read.val_main_v63 (F := F) (m ((c.tc : Thread nD τ).loc main_arg6)) := by
  unfold W3
  simp only [ops2]
  after_results_simp
  simp only [W2_main_arg6] <;> rfl

theorem W4_main_v7 : W4 m c (no_index (Proc.devRef .tc main_v7)) = Read.val_main_v7 (F := F) (m ((c.tc : Thread nD τ).loc main_arg0)) (m ((c.tc : Thread nD τ).loc main_arg7)) :=
  (W4_keep m c main_v7 (by decide)).trans (W3_main_v7 m c)

theorem W4_main_v15 : W4 m c (no_index (Proc.devRef .tc main_v15)) = Read.val_main_v15 (F := F) (m ((c.tc : Thread nD τ).loc main_arg1)) (m ((c.tc : Thread nD τ).loc main_arg8)) :=
  (W4_keep m c main_v15 (by decide)).trans (W3_main_v15 m c)

theorem W4_main_v23 : W4 m c (no_index (Proc.devRef .tc main_v23)) = Read.val_main_v23 (F := F) (m ((c.tc : Thread nD τ).loc main_arg2)) (m ((c.tc : Thread nD τ).loc main_arg9)) :=
  (W4_keep m c main_v23 (by decide)).trans (W3_main_v23 m c)

theorem W4_main_v31 : W4 m c (no_index (Proc.devRef .tc main_v31)) = Read.val_main_v31 (F := F) (m ((c.tc : Thread nD τ).loc main_arg3)) (m ((c.tc : Thread nD τ).loc main_arg10)) :=
  (W4_keep m c main_v31 (by decide)).trans (W3_main_v31 m c)

theorem W4_main_v39 : W4 m c (no_index (Proc.devRef .tc main_v39)) = Read.val_main_v39 (F := F) (m ((c.tc : Thread nD τ).loc main_arg4)) (m ((c.tc : Thread nD τ).loc main_arg11)) :=
  (W4_keep m c main_v39 (by decide)).trans (W3_main_v39 m c)

theorem W4_main_v47 : W4 m c (no_index (Proc.devRef .tc main_v47)) = Read.val_main_v47 (F := F) (m ((c.tc : Thread nD τ).loc main_arg5)) (m ((c.tc : Thread nD τ).loc main_arg12)) :=
  (W4_keep m c main_v47 (by decide)).trans (W3_main_v47 m c)

set_option maxRecDepth 8192 in
set_option maxHeartbeats 5600000 in
theorem W4_main_v74 : W4 m c (no_index (Proc.devRef .tc main_v74)) = Read.val_main_v74 (F := F) (m ((c.tc : Thread nD τ).loc main_arg6)) (m ((c.tc : Thread nD τ).loc main_arg15)) := by
  unfold W4
  simp only [ops3]
  after_results_simp
  simp only [W3_main_arg6, W3_main_arg15] <;> rfl

set_option maxRecDepth 8192 in
set_option maxHeartbeats 5600000 in
theorem W4_main_v83 : W4 m c (no_index (Proc.devRef .tc main_v83)) = Read.val_main_v83 (F := F) (m ((c.tc : Thread nD τ).loc main_arg6)) (m ((c.tc : Thread nD τ).loc main_arg16)) := by
  unfold W4
  simp only [ops3]
  after_results_simp
  simp only [W3_main_arg6, W3_main_arg16] <;> rfl

set_option maxRecDepth 8192 in
set_option maxHeartbeats 5600000 in
theorem W4_main_v85 : W4 m c (no_index (Proc.devRef .tc main_v85)) = Read.val_main_v85 (F := F) (m ((c.tc : Thread nD τ).loc main_arg6)) (m ((c.tc : Thread nD τ).loc main_arg13)) := by
  unfold W4
  simp only [ops3]
  after_results_simp
  simp only [W3_main_v56] <;> rfl

set_option maxRecDepth 8192 in
set_option maxHeartbeats 5600000 in
theorem W4_main_v87 : W4 m c (no_index (Proc.devRef .tc main_v87)) = Read.val_main_v87 (F := F) (m ((c.tc : Thread nD τ).loc main_arg6)) (m ((c.tc : Thread nD τ).loc main_arg14)) := by
  unfold W4
  simp only [ops3]
  after_results_simp
  simp only [W3_main_v63, W3_main_arg14] <;> rfl

end Cert.ReferenceIdeal.RunHand

end
-- ==== Proof.Ref.RunHand.lean ====
import proofs.«406789_j53094385713523_3_alg».proof.Proof.Ref.RunHand1

noncomputable section

namespace Cert.ReferenceIdeal.RunHand

open Cert.ReferenceIdeal Cert.ReferenceIdeal.Gen Idealize.ShloMosaic Idealize.ShloMosaic.TcCoe Idealize.SL.Sem Idealize.ShloMosaic.StableHlo

variable {F : FTy → Type} [FloatOps F]

variable (m : (ℓ : Loc nD τ sig) → Buf (Elt F) ℓ) (c : Dev nD)

attribute [local irreducible] W0 W1 W2 W3 W4 W5 W6 W7

theorem W5_main_v85 : W5 m c (no_index (Proc.devRef .tc main_v85)) = Read.val_main_v85 (F := F) (m ((c.tc : Thread nD τ).loc main_arg6)) (m ((c.tc : Thread nD τ).loc main_arg13)) :=
  (W5_keep m c main_v85 (by decide)).trans (W4_main_v85 m c)

theorem W5_main_v87 : W5 m c (no_index (Proc.devRef .tc main_v87)) = Read.val_main_v87 (F := F) (m ((c.tc : Thread nD τ).loc main_arg6)) (m ((c.tc : Thread nD τ).loc main_arg14)) :=
  (W5_keep m c main_v87 (by decide)).trans (W4_main_v87 m c)

set_option maxRecDepth 8192 in
set_option maxHeartbeats 2400000 in
theorem W5_main_v89 : W5 m c (no_index (Proc.devRef .tc main_v89)) = Read.val_main_v89 (F := F) (m ((c.tc : Thread nD τ).loc main_arg6)) (m ((c.tc : Thread nD τ).loc main_arg15)) := by
  unfold W5
  simp only [ops4]
  after_results_simp
  simp only [W4_main_v74] <;> rfl

set_option maxRecDepth 8192 in
set_option maxHeartbeats 2400000 in
theorem W5_main_v91 : W5 m c (no_index (Proc.devRef .tc main_v91)) = Read.val_main_v91 (F := F) (m ((c.tc : Thread nD τ).loc main_arg6)) (m ((c.tc : Thread nD τ).loc main_arg16)) := by
  unfold W5
  simp only [ops4]
  after_results_simp
  simp only [W4_main_v83] <;> rfl

set_option maxRecDepth 8192 in
set_option maxHeartbeats 2400000 in
theorem W5_main_v92 : W5 m c (no_index (Proc.devRef .tc main_v92)) = Read.val_main_v92 (F := F) (m ((c.tc : Thread nD τ).loc main_arg0)) (m ((c.tc : Thread nD τ).loc main_arg7)) := by
  unfold W5
  simp only [ops4]
  after_results_simp
  simp only [W4_main_v7] <;> rfl

set_option maxRecDepth 8192 in
set_option maxHeartbeats 2400000 in
theorem W5_main_v93 : W5 m c (no_index (Proc.devRef .tc main_v93)) = Read.val_main_v93 (F := F) (m ((c.tc : Thread nD τ).loc main_arg1)) (m ((c.tc : Thread nD τ).loc main_arg8)) := by
  unfold W5
  simp only [ops4]
  after_results_simp
  simp only [W4_main_v15] <;> rfl

set_option maxRecDepth 8192 in
set_option maxHeartbeats 2400000 in
theorem W5_main_v94 : W5 m c (no_index (Proc.devRef .tc main_v94)) = Read.val_main_v94 (F := F) (m ((c.tc : Thread nD τ).loc main_arg2)) (m ((c.tc : Thread nD τ).loc main_arg9)) := by
  unfold W5
  simp only [ops4]
  after_results_simp
  simp only [W4_main_v23] <;> rfl

set_option maxRecDepth 8192 in
set_option maxHeartbeats 2400000 in
theorem W5_main_v95 : W5 m c (no_index (Proc.devRef .tc main_v95)) = Read.val_main_v95 (F := F) (m ((c.tc : Thread nD τ).loc main_arg3)) (m ((c.tc : Thread nD τ).loc main_arg10)) := by
  unfold W5
  simp only [ops4]
  after_results_simp
  simp only [W4_main_v31] <;> rfl

set_option maxRecDepth 8192 in
set_option maxHeartbeats 2400000 in
theorem W5_main_v96 : W5 m c (no_index (Proc.devRef .tc main_v96)) = Read.val_main_v96 (F := F) (m ((c.tc : Thread nD τ).loc main_arg4)) (m ((c.tc : Thread nD τ).loc main_arg11)) := by
  unfold W5
  simp only [ops4]
  after_results_simp
  simp only [W4_main_v39] <;> rfl

set_option maxRecDepth 8192 in
set_option maxHeartbeats 2400000 in
theorem W5_main_v99 : W5 m c (no_index (Proc.devRef .tc main_v99)) = Read.val_main_v99 (F := F) (m ((c.tc : Thread nD τ).loc main_arg5)) (m ((c.tc : Thread nD τ).loc main_arg12)) := by
  unfold W5
  simp only [ops4]
  after_results_simp
  simp only [W4_main_v47] <;> rfl

set_option maxRecDepth 8192 in
set_option maxHeartbeats 10000000 in
theorem W6_main_v138 : W6 m c (no_index (Proc.devRef .tc main_v138)) = Read.val_main_v138 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  unfold W6
  simp only [ops5]
  after_results_simp

  dsimp only [Matrix.cons_val]
  rw [W5_main_v91 m c, W5_main_v89 m c, W5_main_v87 m c, W5_main_v85 m c, W5_main_v99 m c, W5_main_v96 m c, W5_main_v95 m c, W5_main_v94 m c, W5_main_v93 m c, W5_main_v92 m c]
  simp only [W5_main_arg22, W5_main_arg21, W5_main_arg20, W5_main_arg19, W5_main_arg18, W5_main_arg17] <;> rfl

set_option maxRecDepth 8192 in
set_option maxHeartbeats 5000000 in
theorem W7_main_v157 : W7 m c (no_index (Proc.devRef .tc main_v157)) = Read.val_main_v157 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) := by
  unfold W7
  simp only [ops6]
  after_results_simp
  simp only [W6_main_arg26, W6_main_arg25, W6_main_arg24, W6_main_arg23, W6_main_v138] <;> rfl

set_option maxRecDepth 8192 in
set_option maxHeartbeats 5000000 in
theorem W7_main_v151 : W7 m c (no_index (Proc.devRef .tc main_v151)) = Read.val_main_v151 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) := by
  unfold W7
  simp only [ops6]
  after_results_simp
  simp only [W6_main_arg26, W6_main_arg25, W6_main_arg24, W6_main_arg23, W6_main_v138] <;> rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v157) = Read.val_main_v157 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_v151) = Read.val_main_v151 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26) :=
  (θ_run defs _ _).mono (fun _ h c => ⟨(h c main_v157).trans ((congrFun (after_ops m c) _).trans (W7_main_v157 m c)),
      (h c main_v151).trans ((congrFun (after_ops m c) _).trans (W7_main_v151 m c)),
      (h c main_arg0).trans ((congrFun (after_ops m c) _).trans (W7_main_arg0 m c)),
      (h c main_arg1).trans ((congrFun (after_ops m c) _).trans (W7_main_arg1 m c)),
      (h c main_arg2).trans ((congrFun (after_ops m c) _).trans (W7_main_arg2 m c)),
      (h c main_arg3).trans ((congrFun (after_ops m c) _).trans (W7_main_arg3 m c)),
      (h c main_arg4).trans ((congrFun (after_ops m c) _).trans (W7_main_arg4 m c)),
      (h c main_arg5).trans ((congrFun (after_ops m c) _).trans (W7_main_arg5 m c)),
      (h c main_arg6).trans ((congrFun (after_ops m c) _).trans (W7_main_arg6 m c)),
      (h c main_arg7).trans ((congrFun (after_ops m c) _).trans (W7_main_arg7 m c)),
      (h c main_arg8).trans ((congrFun (after_ops m c) _).trans (W7_main_arg8 m c)),
      (h c main_arg9).trans ((congrFun (after_ops m c) _).trans (W7_main_arg9 m c)),
      (h c main_arg10).trans ((congrFun (after_ops m c) _).trans (W7_main_arg10 m c)),
      (h c main_arg11).trans ((congrFun (after_ops m c) _).trans (W7_main_arg11 m c)),
      (h c main_arg12).trans ((congrFun (after_ops m c) _).trans (W7_main_arg12 m c)),
      (h c main_arg13).trans ((congrFun (after_ops m c) _).trans (W7_main_arg13 m c)),
      (h c main_arg14).trans ((congrFun (after_ops m c) _).trans (W7_main_arg14 m c)),
      (h c main_arg15).trans ((congrFun (after_ops m c) _).trans (W7_main_arg15 m c)),
      (h c main_arg16).trans ((congrFun (after_ops m c) _).trans (W7_main_arg16 m c)),
      (h c main_arg17).trans ((congrFun (after_ops m c) _).trans (W7_main_arg17 m c)),
      (h c main_arg18).trans ((congrFun (after_ops m c) _).trans (W7_main_arg18 m c)),
      (h c main_arg19).trans ((congrFun (after_ops m c) _).trans (W7_main_arg19 m c)),
      (h c main_arg20).trans ((congrFun (after_ops m c) _).trans (W7_main_arg20 m c)),
      (h c main_arg21).trans ((congrFun (after_ops m c) _).trans (W7_main_arg21 m c)),
      (h c main_arg22).trans ((congrFun (after_ops m c) _).trans (W7_main_arg22 m c)),
      (h c main_arg23).trans ((congrFun (after_ops m c) _).trans (W7_main_arg23 m c)),
      (h c main_arg24).trans ((congrFun (after_ops m c) _).trans (W7_main_arg24 m c)),
      (h c main_arg25).trans ((congrFun (after_ops m c) _).trans (W7_main_arg25 m c)),
      (h c main_arg26).trans ((congrFun (after_ops m c) _).trans (W7_main_arg26 m c))⟩)
    (run_seq scopedRefs_eq scopedSems_eq defs main (fun _ => ops) main_eq (fun _ => ops_sub) m ρ (fun _ => ops_fresh))

end Cert.ReferenceIdeal.RunHand

end
-- ==== Proof.Ref.XSlotLib.lean ====
import Idealize.ShloMosaic.PureOps.Ideal
import Idealize.ShloMosaic.PureOps.Ideal.Laws
import Idealize.ShloMosaic.Lib.ValueIdx
import proofs.«406789_j53094385713523_3_alg».proof.Proof.Spec

noncomputable section

namespace Cert.ReferenceIdeal.RefX

open Idealize.ShloMosaic Idealize.ShloMosaic.ValueIdx

theorem toInt_maxsi (x y : BitVec 32) : (IntOp.maxsi x y).toInt = max x.toInt y.toInt := by
  unfold IntOp.maxsi
  by_cases h : y.slt x = true
  · rw [if_pos h]
    simp only [BitVec.slt, decide_eq_true_eq] at h
    exact (max_eq_left (le_of_lt h)).symm
  · rw [if_neg h]
    simp only [BitVec.slt, decide_eq_true_eq, not_lt] at h
    exact (max_eq_right h).symm

theorem toInt_minsi (x y : BitVec 32) : (IntOp.minsi x y).toInt = min x.toInt y.toInt := by
  unfold IntOp.minsi
  by_cases h : x.slt y = true
  · rw [if_pos h]
    simp only [BitVec.slt, decide_eq_true_eq] at h
    exact (min_eq_left (le_of_lt h)).symm
  · rw [if_neg h]
    simp only [BitVec.slt, decide_eq_true_eq, not_lt] at h
    exact (min_eq_right h).symm

theorem toInt_clip (hi z : BitVec 32) (hhi : 0 ≤ hi.toInt) :
    (IntOp.minsi hi (IntOp.maxsi 0#32 z)).toInt = max 0 (min z.toInt hi.toInt) := by
  rw [toInt_minsi, toInt_maxsi, show (0#32 : BitVec 32).toInt = 0 from by decide]
  omega

theorem wrap_of_nonneg (c add : BitVec 32) (hc : 0 ≤ c.toInt) :
    Scalar.select (IntOp.cmpi .slt c 0#32) (IntOp.addi c add) c = c := by
  have h : IntOp.cmpi .slt c 0#32 = 0#1 := by
    show BitVec.ofBool (c.slt 0#32) = 0#1
    have hf : c.slt 0#32 = false := by
      simp only [BitVec.slt, show (0#32 : BitVec 32).toInt = 0 from by decide, decide_eq_false_iff_not, not_lt]
      exact hc
    rw [hf]; rfl
  rw [h]
  exact select_zero _ _

theorem clip_wrap (hi add z : BitVec 32) (hhi : 0 ≤ hi.toInt) :
    Scalar.select (IntOp.cmpi .slt (IntOp.minsi hi (IntOp.maxsi 0#32 z)) 0#32)
        (IntOp.addi (IntOp.minsi hi (IntOp.maxsi 0#32 z)) add) (IntOp.minsi hi (IntOp.maxsi 0#32 z))
      = IntOp.minsi hi (IntOp.maxsi 0#32 z) :=
  wrap_of_nonneg _ _ (by rw [toInt_clip hi z hhi]; exact le_max_left _ _)

theorem coe_sum {ι : Type} (s : Finset ι) (f : ι → ℝ) : ((∑ i ∈ s, f i : ℝ) : EReal) = ∑ i ∈ s, (f i : EReal) := by
  classical
  refine Finset.induction_on s (by simp) ?_
  intro a s ha ih
  rw [Finset.sum_insert ha, Finset.sum_insert ha, EReal.coe_add, ih]

theorem ofBits_128 : Ideal.ofBits .f32 0x43000000#32 = ((128 : ℝ) : EReal) := by
  simp [Ideal.ofBits, Ideal.ieee, -EReal.coe_mul]; norm_num

section Gather
variable {α : Type}

abbrev rowDims4 (V E a b c : ℕ)
    (wf : GatherDims.WF ⟨2, ![V, E]⟩ ⟨4, ![a, b, c, 1]⟩ ⟨4, ![a, b, c, E]⟩ [3] [0] [] [0] [] 3 ![1, E]) :
    GatherDims ⟨2, ![V, E]⟩ ⟨4, ![a, b, c, 1]⟩ ⟨4, ![a, b, c, E]⟩ where
  offsetDims := [3]
  collapsedSliceDims := [0]
  operandBatchingDims := []
  startIndicesBatchingDims := []
  startIndexMap := [0]
  indexVectorDim := 3
  sliceSizes := ![1, E]
  wf := wf

theorem gather_row4 {V E a b c w : ℕ} (hV : 0 < V)
    (wf : GatherDims.WF ⟨2, ![V, E]⟩ ⟨4, ![a, b, c, 1]⟩ ⟨4, ![a, b, c, E]⟩ [3] [0] [] [0] [] 3 ![1, E])
    (x : (⟨2, ![V, E]⟩ : Shape).Idx → α) (idx : IVec ⟨4, ![a, b, c, 1]⟩ w)
    (p : Fin a) (q : Fin b) (r : Fin c) (e : Fin E) :
    Host.gather (rowDims4 V E a b c wf) x idx (ix4 p q r e)
      = x (ix2 ⟨min (idx (ix4 p q r 0)).toInt.toNat (V - 1), by omega⟩ e) := by
  unfold Host.gather
  congr 1
  funext d
  refine Fin.ext ?_
  match d with
  | ⟨0, _⟩ =>
    show (rowDims4 V E a b c wf).start (ix4 p q r e) idx 0 + (rowDims4 V E a b c wf).batchCoord (ix4 p q r e) 0
      + (rowDims4 V E a b c wf).offCoord (ix4 p q r e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims4 V E a b c wf).startIndexMap from List.mem_singleton.mpr rfl)]
    have hsi : (rowDims4 V E a b c wf).siIdx (ix4 p q r e) ⟨List.idxOf (0 : Fin 2) (rowDims4 V E a b c wf).startIndexMap,
        List.idxOf_lt_length_iff.2 (List.mem_singleton.mpr rfl)⟩ = ix4 p q r 0 := by
      funext g; refine Fin.ext ?_
      match g with
      | ⟨0, _⟩ => rfl
      | ⟨1, _⟩ => rfl
      | ⟨2, _⟩ => rfl
      | ⟨3, _⟩ => rfl
    rw [hsi]
    rfl
  | ⟨1, _⟩ =>
    show (rowDims4 V E a b c wf).start (ix4 p q r e) idx 1 + (rowDims4 V E a b c wf).batchCoord (ix4 p q r e) 1
      + (rowDims4 V E a b c wf).offCoord (ix4 p q r e) 1 = e.val
    rw [GatherDims.batchCoord_eq_zero _ _ _ List.not_mem_nil]
    have hs : (rowDims4 V E a b c wf).start (ix4 p q r e) idx 1 = 0 := by
      unfold GatherDims.start
      have h1 : (1 : Fin 2) ∉ (rowDims4 V E a b c wf).startIndexMap := by
        show (1 : Fin 2) ∉ ([0] : List (Fin 2)); decide
      rw [dif_neg h1]
    rw [hs]
    simp only [Nat.zero_add, Nat.add_zero]
    unfold GatherDims.offCoord
    have h1 : (1 : Fin 2) ∉ (rowDims4 V E a b c wf).collapsedSliceDims := by
      show (1 : Fin 2) ∉ ([0] : List (Fin 2)); decide
    rw [dif_pos ((GatherDims.mem_sKept _ _).2 ⟨h1, List.not_mem_nil⟩)]
    rfl

abbrev rowDims3 (V E a b : ℕ)
    (wf : GatherDims.WF ⟨2, ![V, E]⟩ ⟨3, ![a, b, 1]⟩ ⟨3, ![a, b, E]⟩ [2] [0] [] [0] [] 2 ![1, E]) :
    GatherDims ⟨2, ![V, E]⟩ ⟨3, ![a, b, 1]⟩ ⟨3, ![a, b, E]⟩ where
  offsetDims := [2]
  collapsedSliceDims := [0]
  operandBatchingDims := []
  startIndicesBatchingDims := []
  startIndexMap := [0]
  indexVectorDim := 2
  sliceSizes := ![1, E]
  wf := wf

theorem gather_row3 {V E a b w : ℕ} (hV : 0 < V)
    (wf : GatherDims.WF ⟨2, ![V, E]⟩ ⟨3, ![a, b, 1]⟩ ⟨3, ![a, b, E]⟩ [2] [0] [] [0] [] 2 ![1, E])
    (x : (⟨2, ![V, E]⟩ : Shape).Idx → α) (idx : IVec ⟨3, ![a, b, 1]⟩ w)
    (p : Fin a) (q : Fin b) (e : Fin E) :
    Host.gather (rowDims3 V E a b wf) x idx (ix3 p q e)
      = x (ix2 ⟨min (idx (ix3 p q 0)).toInt.toNat (V - 1), by omega⟩ e) := by
  unfold Host.gather
  congr 1
  funext d
  refine Fin.ext ?_
  match d with
  | ⟨0, _⟩ =>
    show (rowDims3 V E a b wf).start (ix3 p q e) idx 0 + (rowDims3 V E a b wf).batchCoord (ix3 p q e) 0
      + (rowDims3 V E a b wf).offCoord (ix3 p q e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims3 V E a b wf).startIndexMap from List.mem_singleton.mpr rfl)]
    have hsi : (rowDims3 V E a b wf).siIdx (ix3 p q e) ⟨List.idxOf (0 : Fin 2) (rowDims3 V E a b wf).startIndexMap,
        List.idxOf_lt_length_iff.2 (List.mem_singleton.mpr rfl)⟩ = ix3 p q 0 := by
      funext g; refine Fin.ext ?_
      match g with
      | ⟨0, _⟩ => rfl
      | ⟨1, _⟩ => rfl
      | ⟨2, _⟩ => rfl
    rw [hsi]
    rfl
  | ⟨1, _⟩ =>
    show (rowDims3 V E a b wf).start (ix3 p q e) idx 1 + (rowDims3 V E a b wf).batchCoord (ix3 p q e) 1
      + (rowDims3 V E a b wf).offCoord (ix3 p q e) 1 = e.val
    rw [GatherDims.batchCoord_eq_zero _ _ _ List.not_mem_nil]
    have hs : (rowDims3 V E a b wf).start (ix3 p q e) idx 1 = 0 := by
      unfold GatherDims.start
      have h1 : (1 : Fin 2) ∉ (rowDims3 V E a b wf).startIndexMap := by
        show (1 : Fin 2) ∉ ([0] : List (Fin 2)); decide
      rw [dif_neg h1]
    rw [hs]
    simp only [Nat.zero_add, Nat.add_zero]
    unfold GatherDims.offCoord
    have h1 : (1 : Fin 2) ∉ (rowDims3 V E a b wf).collapsedSliceDims := by
      show (1 : Fin 2) ∉ ([0] : List (Fin 2)); decide
    rw [dif_pos ((GatherDims.mem_sKept _ _).2 ⟨h1, List.not_mem_nil⟩)]
    rfl

abbrev rowDims2 (V E a : ℕ)
    (wf : GatherDims.WF ⟨2, ![V, E]⟩ ⟨2, ![a, 1]⟩ ⟨2, ![a, E]⟩ [1] [0] [] [0] [] 1 ![1, E]) :
    GatherDims ⟨2, ![V, E]⟩ ⟨2, ![a, 1]⟩ ⟨2, ![a, E]⟩ where
  offsetDims := [1]
  collapsedSliceDims := [0]
  operandBatchingDims := []
  startIndicesBatchingDims := []
  startIndexMap := [0]
  indexVectorDim := 1
  sliceSizes := ![1, E]
  wf := wf

theorem gather_row2 {V E a w : ℕ} (hV : 0 < V)
    (wf : GatherDims.WF ⟨2, ![V, E]⟩ ⟨2, ![a, 1]⟩ ⟨2, ![a, E]⟩ [1] [0] [] [0] [] 1 ![1, E])
    (x : (⟨2, ![V, E]⟩ : Shape).Idx → α) (idx : IVec ⟨2, ![a, 1]⟩ w)
    (p : Fin a) (e : Fin E) :
    Host.gather (rowDims2 V E a wf) x idx (ix2 p e)
      = x (ix2 ⟨min (idx (ix2 p 0)).toInt.toNat (V - 1), by omega⟩ e) := by
  unfold Host.gather
  congr 1
  funext d
  refine Fin.ext ?_
  match d with
  | ⟨0, _⟩ =>
    show (rowDims2 V E a wf).start (ix2 p e) idx 0 + (rowDims2 V E a wf).batchCoord (ix2 p e) 0
      + (rowDims2 V E a wf).offCoord (ix2 p e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims2 V E a wf).startIndexMap from List.mem_singleton.mpr rfl)]
    have hsi : (rowDims2 V E a wf).siIdx (ix2 p e) ⟨List.idxOf (0 : Fin 2) (rowDims2 V E a wf).startIndexMap,
        List.idxOf_lt_length_iff.2 (List.mem_singleton.mpr rfl)⟩ = ix2 p 0 := by
      funext g; refine Fin.ext ?_
      match g with
      | ⟨0, _⟩ => rfl
      | ⟨1, _⟩ => rfl
    rw [hsi]
    rfl
  | ⟨1, _⟩ =>
    show (rowDims2 V E a wf).start (ix2 p e) idx 1 + (rowDims2 V E a wf).batchCoord (ix2 p e) 1
      + (rowDims2 V E a wf).offCoord (ix2 p e) 1 = e.val
    rw [GatherDims.batchCoord_eq_zero _ _ _ List.not_mem_nil]
    have hs : (rowDims2 V E a wf).start (ix2 p e) idx 1 = 0 := by
      unfold GatherDims.start
      have h1 : (1 : Fin 2) ∉ (rowDims2 V E a wf).startIndexMap := by
        show (1 : Fin 2) ∉ ([0] : List (Fin 2)); decide
      rw [dif_neg h1]
    rw [hs]
    simp only [Nat.zero_add, Nat.add_zero]
    unfold GatherDims.offCoord
    have h1 : (1 : Fin 2) ∉ (rowDims2 V E a wf).collapsedSliceDims := by
      show (1 : Fin 2) ∉ ([0] : List (Fin 2)); decide
    rw [dif_pos ((GatherDims.mem_sKept _ _).2 ⟨h1, List.not_mem_nil⟩)]
    rfl

theorem row_congr {V E : ℕ} (x : (⟨2, ![V, E]⟩ : Shape).Idx → α) {r r' : ℕ} (h : r = r') (hr : r < V) (hr' : r' < V)
    (e : Fin E) : x (ix2 ⟨r, hr⟩ e) = x (ix2 ⟨r', hr'⟩ e) := by
  subst h; rfl

end Gather

section Rows
open Cert.Spec

theorem clip_row (V : ℕ) (hV : 0 < V) (hi z : BitVec 32) (hhi : hi.toInt = (V : ℤ) - 1) :
    min (IntOp.minsi hi (IntOp.maxsi 0#32 z)).toInt.toNat (V - 1) = clampRow V z.toInt := by
  rw [toInt_clip hi z (by omega), hhi]
  unfold clampRow
  omega

theorem raw_row (V : ℕ) (d : BitVec 32) (h0 : 0 ≤ d.toInt) (h1 : d.toInt < (V : ℤ)) :
    min d.toInt.toNat (V - 1) = clampRow V d.toInt := by
  rw [clampRow_of_mem h0 h1]
  omega

theorem mean_row {V : ℕ} (T : Vec Ideal ⟨2, ![V, 128]⟩ .f32) (hT : ∀ i, IsReal (T i)) (r : ℕ) (hr : r < V)
    (f : Fin 128 → EReal) (hf : ∀ e, f e = T (ix2 ⟨r, hr⟩ e)) :
    Ideal.div (Ideal.ofBits .f32 0x00000000#32 + ∑ e : Fin 128, f e) (Ideal.ofBits .f32 0x43000000#32)
      = ((rowMean T r : ℝ) : EReal) := by
  have hs : ∑ e : Fin 128, f e = ((∑ e : Fin 128, (T (ix2 ⟨r, hr⟩ e)).toReal : ℝ) : EReal) := by
    rw [coe_sum]
    exact Finset.sum_congr rfl fun e _ => (hf e).trans (hT _).coe_toReal.symm
  rw [Ideal.ofBits_zero_f32, zero_add, ofBits_128, Ideal.div_coe (by norm_num), hs, ← EReal.coe_mul]
  unfold rowMean
  rw [dif_pos hr, mul_one_div]

end Rows

end Cert.ReferenceIdeal.RefX

end
-- ==== Proof.Ref.XSlot.lean ====
import proofs.«406789_j53094385713523_3_alg».proof.Proof.Ref.ReadP
import proofs.«406789_j53094385713523_3_alg».proof.Proof.Ref.XSlotLib
import Idealize.ShloMosaic.Lib.Pipeline.Value

noncomputable section

namespace Cert.ReferenceIdeal.RefX

open Idealize.ShloMosaic Idealize.ShloMosaic.ValueIdx Cert.ReferenceIdeal Cert.ReferenceIdeal.Gen Cert.Spec

variable (x0 : (⟨S64x24x100, .i32⟩ : BufTy).Contents (Elt Ideal)) (x1 : (⟨S64x24x200, .i32⟩ : BufTy).Contents (Elt Ideal))
  (x2 x3 : (⟨S64x24x50, .i32⟩ : BufTy).Contents (Elt Ideal)) (x4 : (⟨S64x24, .i32⟩ : BufTy).Contents (Elt Ideal))
  (x5 : (⟨S64x30, .i32⟩ : BufTy).Contents (Elt Ideal)) (x6 : (⟨S64x4, .i32⟩ : BufTy).Contents (Elt Ideal))
  (x7 : (⟨S1000x128, .f32⟩ : BufTy).Contents (Elt Ideal)) (x8 : (⟨S3000x128, .f32⟩ : BufTy).Contents (Elt Ideal))
  (x9 : (⟨S500x128, .f32⟩ : BufTy).Contents (Elt Ideal)) (x10 : (⟨S1500x128, .f32⟩ : BufTy).Contents (Elt Ideal))
  (x11 : (⟨S700x128, .f32⟩ : BufTy).Contents (Elt Ideal)) (x12 : (⟨S2000x128, .f32⟩ : BufTy).Contents (Elt Ideal))
  (x13 : (⟨S2x128, .f32⟩ : BufTy).Contents (Elt Ideal)) (x14 : (⟨S10x128, .f32⟩ : BufTy).Contents (Elt Ideal))
  (x15 : (⟨S5x128, .f32⟩ : BufTy).Contents (Elt Ideal)) (x16 : (⟨S100x128, .f32⟩ : BufTy).Contents (Elt Ideal))

theorem v5_eq (i : S64x24x100.Idx) :
    Read.val_main_v5 (F := Ideal) x0 i = IntOp.minsi 999#32 (IntOp.maxsi 0#32 (x0 i)) := by
  rw [Read.val_main_v5_apply, Read.val_main_v2_apply, Read.val_main_v4_apply, Read.val_main_v0_apply,
    Read.val_main_v1_apply, Read.val_main_c_1_apply, Read.val_main_v3_apply, Read.val_main_c_2_apply,
    Read.val_main_call0_v4_apply, Read.val_main_call0_v3_apply, Read.val_main_c_0_apply,
    Read.val_main_call0_v2_apply, Read.val_main_call0_v1_apply, Read.val_main_call0_v0_apply, Read.val_main_c_apply]
  exact clip_wrap 999#32 1000#32 (x0 i) (by decide)

theorem v13_eq (i : S64x24x200.Idx) :
    Read.val_main_v13 (F := Ideal) x1 i = IntOp.minsi 2999#32 (IntOp.maxsi 0#32 (x1 i)) := by
  rw [Read.val_main_v13_apply, Read.val_main_v10_apply, Read.val_main_v12_apply, Read.val_main_v8_apply,
    Read.val_main_v9_apply, Read.val_main_c_5_apply, Read.val_main_v11_apply, Read.val_main_c_6_apply,
    Read.val_main_call1_v4_apply, Read.val_main_call1_v3_apply, Read.val_main_c_4_apply,
    Read.val_main_call1_v2_apply, Read.val_main_call1_v1_apply, Read.val_main_call1_v0_apply, Read.val_main_c_3_apply]
  exact clip_wrap 2999#32 3000#32 (x1 i) (by decide)

theorem v21_eq (i : S64x24x50.Idx) :
    Read.val_main_v21 (F := Ideal) x2 i = IntOp.minsi 499#32 (IntOp.maxsi 0#32 (x2 i)) := by
  rw [Read.val_main_v21_apply, Read.val_main_v18_apply, Read.val_main_v20_apply, Read.val_main_v16_apply,
    Read.val_main_v17_apply, Read.val_main_c_9_apply, Read.val_main_v19_apply, Read.val_main_c_10_apply,
    Read.val_main_call2_v4_apply, Read.val_main_call2_v3_apply, Read.val_main_c_8_apply,
    Read.val_main_call2_v2_apply, Read.val_main_call2_v1_apply, Read.val_main_call2_v0_apply, Read.val_main_c_7_apply]
  exact clip_wrap 499#32 500#32 (x2 i) (by decide)

theorem v29_eq (i : S64x24x50.Idx) :
    Read.val_main_v29 (F := Ideal) x3 i = IntOp.minsi 1499#32 (IntOp.maxsi 0#32 (x3 i)) := by
  rw [Read.val_main_v29_apply, Read.val_main_v26_apply, Read.val_main_v28_apply, Read.val_main_v24_apply,
    Read.val_main_v25_apply, Read.val_main_c_13_apply, Read.val_main_v27_apply, Read.val_main_c_14_apply,
    Read.val_main_call3_v4_apply, Read.val_main_call3_v3_apply, Read.val_main_c_12_apply,
    Read.val_main_call3_v2_apply, Read.val_main_call3_v1_apply, Read.val_main_call3_v0_apply, Read.val_main_c_11_apply]
  exact clip_wrap 1499#32 1500#32 (x3 i) (by decide)

theorem v37_eq (i : S64x24.Idx) :
    Read.val_main_v37 (F := Ideal) x4 i = IntOp.minsi 699#32 (IntOp.maxsi 0#32 (x4 i)) := by
  rw [Read.val_main_v37_apply, Read.val_main_v34_apply, Read.val_main_v36_apply, Read.val_main_v32_apply,
    Read.val_main_v33_apply, Read.val_main_c_17_apply, Read.val_main_v35_apply, Read.val_main_c_18_apply,
    Read.val_main_call4_v4_apply, Read.val_main_call4_v3_apply, Read.val_main_c_16_apply,
    Read.val_main_call4_v2_apply, Read.val_main_call4_v1_apply, Read.val_main_call4_v0_apply, Read.val_main_c_15_apply]
  exact clip_wrap 699#32 700#32 (x4 i) (by decide)

theorem v45_eq (i : S64x30.Idx) :
    Read.val_main_v45 (F := Ideal) x5 i = IntOp.minsi 1999#32 (IntOp.maxsi 0#32 (x5 i)) := by
  rw [Read.val_main_v45_apply, Read.val_main_v42_apply, Read.val_main_v44_apply, Read.val_main_v40_apply,
    Read.val_main_v41_apply, Read.val_main_c_21_apply, Read.val_main_v43_apply, Read.val_main_c_22_apply,
    Read.val_main_call5_v4_apply, Read.val_main_call5_v3_apply, Read.val_main_c_20_apply,
    Read.val_main_call5_v2_apply, Read.val_main_call5_v1_apply, Read.val_main_call5_v0_apply, Read.val_main_c_19_apply]
  exact clip_wrap 1999#32 2000#32 (x5 i) (by decide)

theorem v54_eq (b : Fin 64) (h0 : 0 ≤ (x6 (ix2 b (0 : Fin 4))).toInt) :
    Read.val_main_v54 (F := Ideal) x6 (ix1 b) = x6 (ix2 b (0 : Fin 4)) := by
  have hi : Read.idx_main_v48 (Read.idx_main_v49 (ix1 b)) = ix2 b (0 : Fin 4) :=
    funext fun a => Fin.ext (by
      match a with
      | ⟨0, _⟩ => exact Nat.div_one b.val
      | ⟨1, _⟩ => rfl)
  rw [Read.val_main_v54_apply, Read.val_main_v51_apply, Read.val_main_v53_apply, Read.val_main_v50_apply,
    Read.val_main_c_23_apply, Read.val_main_v52_apply, Read.val_main_c_24_apply, Read.val_main_v49_apply,
    Read.val_main_v48_apply, hi]
  exact wrap_of_nonneg _ _ h0

theorem v63_eq (b : Fin 64) (h0 : 0 ≤ (x6 (ix2 b (1 : Fin 4))).toInt) :
    Read.val_main_v63 (F := Ideal) x6 (ix1 b) = x6 (ix2 b (1 : Fin 4)) := by
  have hi : Read.idx_main_v57 (Read.idx_main_v58 (ix1 b)) = ix2 b (1 : Fin 4) :=
    funext fun a => Fin.ext (by
      match a with
      | ⟨0, _⟩ => exact Nat.div_one b.val
      | ⟨1, _⟩ => rfl)
  rw [Read.val_main_v63_apply, Read.val_main_v60_apply, Read.val_main_v62_apply, Read.val_main_v59_apply,
    Read.val_main_c_25_apply, Read.val_main_v61_apply, Read.val_main_c_26_apply, Read.val_main_v58_apply,
    Read.val_main_v57_apply, hi]
  exact wrap_of_nonneg _ _ h0

theorem v72_eq (b : Fin 64) (h0 : 0 ≤ (x6 (ix2 b (2 : Fin 4))).toInt) :
    Read.val_main_v72 (F := Ideal) x6 (ix1 b) = x6 (ix2 b (2 : Fin 4)) := by
  have hi : Read.idx_main_v66 (Read.idx_main_v67 (ix1 b)) = ix2 b (2 : Fin 4) :=
    funext fun a => Fin.ext (by
      match a with
      | ⟨0, _⟩ => exact Nat.div_one b.val
      | ⟨1, _⟩ => rfl)
  rw [Read.val_main_v72_apply, Read.val_main_v69_apply, Read.val_main_v71_apply, Read.val_main_v68_apply,
    Read.val_main_c_27_apply, Read.val_main_v70_apply, Read.val_main_c_28_apply, Read.val_main_v67_apply,
    Read.val_main_v66_apply, hi]
  exact wrap_of_nonneg _ _ h0

theorem v81_eq (b : Fin 64) (h0 : 0 ≤ (x6 (ix2 b (3 : Fin 4))).toInt) :
    Read.val_main_v81 (F := Ideal) x6 (ix1 b) = x6 (ix2 b (3 : Fin 4)) := by
  have hi : Read.idx_main_v75 (Read.idx_main_v76 (ix1 b)) = ix2 b (3 : Fin 4) :=
    funext fun a => Fin.ext (by
      match a with
      | ⟨0, _⟩ => exact Nat.div_one b.val
      | ⟨1, _⟩ => rfl)
  rw [Read.val_main_v81_apply, Read.val_main_v78_apply, Read.val_main_v80_apply, Read.val_main_v77_apply,
    Read.val_main_c_29_apply, Read.val_main_v79_apply, Read.val_main_c_30_apply, Read.val_main_v76_apply,
    Read.val_main_v75_apply, hi]
  exact wrap_of_nonneg _ _ h0

theorem v92_at (b : Fin 64) (s : Fin 24) (e : Fin 128) (c : Fin 100) :
    Read.val_main_v92 (F := Ideal) x0 x7 (ix4 b s e c)
      = x7 (ix2 ⟨clampRow 1000 (x0 (ix3 b s c)).toInt, clampRow_lt (by norm_num) _⟩ e) := by
  rw [Read.val_main_v92_apply,
    show Read.idx_main_v92 (ix4 b s e c) = ix4 b s c e from
      funext fun a => Fin.ext (by match a with | ⟨0, _⟩ => rfl | ⟨1, _⟩ => rfl | ⟨2, _⟩ => rfl | ⟨3, _⟩ => rfl)]
  refine (gather_row4 (by norm_num) _ x7 (Read.val_main_v6 (F := Ideal) x0) b s c e).trans (row_congr x7 ?_ _ _ e)
  rw [Read.val_main_v6_apply,
    show Read.idx_main_v6 (ix4 b s c (0 : Fin 1)) = ix3 b s c from funext fun a => Fin.ext (by match a with | ⟨0, _⟩ => rfl | ⟨1, _⟩ => rfl | ⟨2, _⟩ => rfl),
    v5_eq]
  exact clip_row 1000 (by norm_num) 999#32 _ (by decide)

theorem v93_at (b : Fin 64) (s : Fin 24) (e : Fin 128) (c : Fin 200) :
    Read.val_main_v93 (F := Ideal) x1 x8 (ix4 b s e c)
      = x8 (ix2 ⟨clampRow 3000 (x1 (ix3 b s c)).toInt, clampRow_lt (by norm_num) _⟩ e) := by
  rw [Read.val_main_v93_apply,
    show Read.idx_main_v93 (ix4 b s e c) = ix4 b s c e from
      funext fun a => Fin.ext (by match a with | ⟨0, _⟩ => rfl | ⟨1, _⟩ => rfl | ⟨2, _⟩ => rfl | ⟨3, _⟩ => rfl)]
  refine (gather_row4 (by norm_num) _ x8 (Read.val_main_v14 (F := Ideal) x1) b s c e).trans (row_congr x8 ?_ _ _ e)
  rw [Read.val_main_v14_apply,
    show Read.idx_main_v14 (ix4 b s c (0 : Fin 1)) = ix3 b s c from funext fun a => Fin.ext (by match a with | ⟨0, _⟩ => rfl | ⟨1, _⟩ => rfl | ⟨2, _⟩ => rfl),
    v13_eq]
  exact clip_row 3000 (by norm_num) 2999#32 _ (by decide)

theorem v94_at (b : Fin 64) (s : Fin 24) (e : Fin 128) (c : Fin 50) :
    Read.val_main_v94 (F := Ideal) x2 x9 (ix4 b s e c)
      = x9 (ix2 ⟨clampRow 500 (x2 (ix3 b s c)).toInt, clampRow_lt (by norm_num) _⟩ e) := by
  rw [Read.val_main_v94_apply,
    show Read.idx_main_v94 (ix4 b s e c) = ix4 b s c e from
      funext fun a => Fin.ext (by match a with | ⟨0, _⟩ => rfl | ⟨1, _⟩ => rfl | ⟨2, _⟩ => rfl | ⟨3, _⟩ => rfl)]
  refine (gather_row4 (by norm_num) _ x9 (Read.val_main_v22 (F := Ideal) x2) b s c e).trans (row_congr x9 ?_ _ _ e)
  rw [Read.val_main_v22_apply,
    show Read.idx_main_v22 (ix4 b s c (0 : Fin 1)) = ix3 b s c from funext fun a => Fin.ext (by match a with | ⟨0, _⟩ => rfl | ⟨1, _⟩ => rfl | ⟨2, _⟩ => rfl),
    v21_eq]
  exact clip_row 500 (by norm_num) 499#32 _ (by decide)

theorem v95_at (b : Fin 64) (s : Fin 24) (e : Fin 128) (c : Fin 50) :
    Read.val_main_v95 (F := Ideal) x3 x10 (ix4 b s e c)
      = x10 (ix2 ⟨clampRow 1500 (x3 (ix3 b s c)).toInt, clampRow_lt (by norm_num) _⟩ e) := by
  rw [Read.val_main_v95_apply,
    show Read.idx_main_v95 (ix4 b s e c) = ix4 b s c e from
      funext fun a => Fin.ext (by match a with | ⟨0, _⟩ => rfl | ⟨1, _⟩ => rfl | ⟨2, _⟩ => rfl | ⟨3, _⟩ => rfl)]
  refine (gather_row4 (by norm_num) _ x10 (Read.val_main_v30 (F := Ideal) x3) b s c e).trans (row_congr x10 ?_ _ _ e)
  rw [Read.val_main_v30_apply,
    show Read.idx_main_v30 (ix4 b s c (0 : Fin 1)) = ix3 b s c from funext fun a => Fin.ext (by match a with | ⟨0, _⟩ => rfl | ⟨1, _⟩ => rfl | ⟨2, _⟩ => rfl),
    v29_eq]
  exact clip_row 1500 (by norm_num) 1499#32 _ (by decide)

theorem v96_at (b : Fin 64) (s : Fin 24) (e : Fin 128) (c : Fin 1) :
    Read.val_main_v96 (F := Ideal) x4 x11 (ix4 b s e c)
      = x11 (ix2 ⟨clampRow 700 (x4 (ix2 b s)).toInt, clampRow_lt (by norm_num) _⟩ e) := by
  rw [Read.val_main_v96_apply,
    show Read.idx_main_v96 (ix4 b s e c) = ix3 b s e from funext fun a => Fin.ext (by match a with | ⟨0, _⟩ => rfl | ⟨1, _⟩ => rfl | ⟨2, _⟩ => rfl)]
  refine (gather_row3 (by norm_num) _ x11 (Read.val_main_v38 (F := Ideal) x4) b s e).trans (row_congr x11 ?_ _ _ e)
  rw [Read.val_main_v38_apply,
    show Read.idx_main_v38 (ix3 b s (0 : Fin 1)) = ix2 b s from
      funext fun a => Fin.ext (by match a with | ⟨0, _⟩ => rfl | ⟨1, _⟩ => rfl),
    v37_eq]
  exact clip_row 700 (by norm_num) 699#32 _ (by decide)

theorem v99_at (b : Fin 64) (s : Fin 24) (e : Fin 128) (c : Fin 30) :
    Read.val_main_v99 (F := Ideal) x5 x12 (ix4 b s e c)
      = x12 (ix2 ⟨clampRow 2000 (x5 (ix2 b c)).toInt, clampRow_lt (by norm_num) _⟩ e) := by
  rw [Read.val_main_v99_apply,
    show Read.idx_main_v99 (ix4 b s e c) = ix4 b s c e from
      funext fun a => Fin.ext (by match a with | ⟨0, _⟩ => rfl | ⟨1, _⟩ => rfl | ⟨2, _⟩ => rfl | ⟨3, _⟩ => rfl),
    Read.val_main_v98_apply,
    show Read.idx_main_v98 (ix4 b s c e) = ix4 b (0 : Fin 1) c e from
      funext fun a => Fin.ext (by match a with | ⟨0, _⟩ => rfl | ⟨1, _⟩ => rfl | ⟨2, _⟩ => rfl | ⟨3, _⟩ => rfl),
    Read.val_main_v97_apply,
    show Read.idx_main_v97 (ix4 b (0 : Fin 1) c e) = ix3 b c e from funext fun a => Fin.ext (by match a with | ⟨0, _⟩ => rfl | ⟨1, _⟩ => rfl | ⟨2, _⟩ => rfl)]
  refine (gather_row3 (by norm_num) _ x12 (Read.val_main_v46 (F := Ideal) x5) b c e).trans (row_congr x12 ?_ _ _ e)
  rw [Read.val_main_v46_apply,
    show Read.idx_main_v46 (ix3 b c (0 : Fin 1)) = ix2 b c from
      funext fun a => Fin.ext (by match a with | ⟨0, _⟩ => rfl | ⟨1, _⟩ => rfl),
    v45_eq]
  exact clip_row 2000 (by norm_num) 1999#32 _ (by decide)

theorem v85_at (b : Fin 64) (s : Fin 24) (e : Fin 128) (c : Fin 1)
    (h0 : 0 ≤ (x6 (ix2 b (0 : Fin 4))).toInt) (h1 : (x6 (ix2 b (0 : Fin 4))).toInt < ((2 : ℕ) : ℤ)) :
    Read.val_main_v85 (F := Ideal) x6 x13 (ix4 b s e c)
      = x13 (ix2 ⟨clampRow 2 (x6 (ix2 b (0 : Fin 4))).toInt, clampRow_lt (by norm_num) _⟩ e) := by
  rw [Read.val_main_v85_apply,
    show Read.idx_main_v85 (ix4 b s e c) = ix4 b (0 : Fin 1) e (0 : Fin 1) from
      funext fun a => Fin.ext (by match a with | ⟨0, _⟩ => rfl | ⟨1, _⟩ => rfl | ⟨2, _⟩ => rfl | ⟨3, _⟩ => rfl),
    Read.val_main_v84_apply,
    show Read.idx_main_v84 (ix4 b (0 : Fin 1) e (0 : Fin 1)) = ix2 b e from
      funext fun a => Fin.ext (by match a with | ⟨0, _⟩ => rfl | ⟨1, _⟩ => rfl)]
  refine (gather_row2 (by norm_num) _ x13 (Read.val_main_v55 (F := Ideal) x6) b e).trans (row_congr x13 ?_ _ _ e)
  rw [Read.val_main_v55_apply,
    show Read.idx_main_v55 (ix2 b (0 : Fin 1)) = ix1 b from
      funext fun a => Fin.ext (by match a with | ⟨0, _⟩ => rfl),
    v54_eq x6 b h0]
  exact raw_row 2 _ h0 h1

theorem v87_at (b : Fin 64) (s : Fin 24) (e : Fin 128) (c : Fin 1)
    (h0 : 0 ≤ (x6 (ix2 b (1 : Fin 4))).toInt) (h1 : (x6 (ix2 b (1 : Fin 4))).toInt < ((10 : ℕ) : ℤ)) :
    Read.val_main_v87 (F := Ideal) x6 x14 (ix4 b s e c)
      = x14 (ix2 ⟨clampRow 10 (x6 (ix2 b (1 : Fin 4))).toInt, clampRow_lt (by norm_num) _⟩ e) := by
  rw [Read.val_main_v87_apply,
    show Read.idx_main_v87 (ix4 b s e c) = ix4 b (0 : Fin 1) e (0 : Fin 1) from
      funext fun a => Fin.ext (by match a with | ⟨0, _⟩ => rfl | ⟨1, _⟩ => rfl | ⟨2, _⟩ => rfl | ⟨3, _⟩ => rfl),
    Read.val_main_v86_apply,
    show Read.idx_main_v86 (ix4 b (0 : Fin 1) e (0 : Fin 1)) = ix2 b e from
      funext fun a => Fin.ext (by match a with | ⟨0, _⟩ => rfl | ⟨1, _⟩ => rfl)]
  refine (gather_row2 (by norm_num) _ x14 (Read.val_main_v64 (F := Ideal) x6) b e).trans (row_congr x14 ?_ _ _ e)
  rw [Read.val_main_v64_apply,
    show Read.idx_main_v64 (ix2 b (0 : Fin 1)) = ix1 b from
      funext fun a => Fin.ext (by match a with | ⟨0, _⟩ => rfl),
    v63_eq x6 b h0]
  exact raw_row 10 _ h0 h1

theorem v89_at (b : Fin 64) (s : Fin 24) (e : Fin 128) (c : Fin 1)
    (h0 : 0 ≤ (x6 (ix2 b (2 : Fin 4))).toInt) (h1 : (x6 (ix2 b (2 : Fin 4))).toInt < ((5 : ℕ) : ℤ)) :
    Read.val_main_v89 (F := Ideal) x6 x15 (ix4 b s e c)
      = x15 (ix2 ⟨clampRow 5 (x6 (ix2 b (2 : Fin 4))).toInt, clampRow_lt (by norm_num) _⟩ e) := by
  rw [Read.val_main_v89_apply,
    show Read.idx_main_v89 (ix4 b s e c) = ix4 b (0 : Fin 1) e (0 : Fin 1) from
      funext fun a => Fin.ext (by match a with | ⟨0, _⟩ => rfl | ⟨1, _⟩ => rfl | ⟨2, _⟩ => rfl | ⟨3, _⟩ => rfl),
    Read.val_main_v88_apply,
    show Read.idx_main_v88 (ix4 b (0 : Fin 1) e (0 : Fin 1)) = ix2 b e from
      funext fun a => Fin.ext (by match a with | ⟨0, _⟩ => rfl | ⟨1, _⟩ => rfl)]
  refine (gather_row2 (by norm_num) _ x15 (Read.val_main_v73 (F := Ideal) x6) b e).trans (row_congr x15 ?_ _ _ e)
  rw [Read.val_main_v73_apply,
    show Read.idx_main_v73 (ix2 b (0 : Fin 1)) = ix1 b from
      funext fun a => Fin.ext (by match a with | ⟨0, _⟩ => rfl),
    v72_eq x6 b h0]
  exact raw_row 5 _ h0 h1

theorem v91_at (b : Fin 64) (s : Fin 24) (e : Fin 128) (c : Fin 1)
    (h0 : 0 ≤ (x6 (ix2 b (3 : Fin 4))).toInt) (h1 : (x6 (ix2 b (3 : Fin 4))).toInt < ((100 : ℕ) : ℤ)) :
    Read.val_main_v91 (F := Ideal) x6 x16 (ix4 b s e c)
      = x16 (ix2 ⟨clampRow 100 (x6 (ix2 b (3 : Fin 4))).toInt, clampRow_lt (by norm_num) _⟩ e) := by
  rw [Read.val_main_v91_apply,
    show Read.idx_main_v91 (ix4 b s e c) = ix4 b (0 : Fin 1) e (0 : Fin 1) from
      funext fun a => Fin.ext (by match a with | ⟨0, _⟩ => rfl | ⟨1, _⟩ => rfl | ⟨2, _⟩ => rfl | ⟨3, _⟩ => rfl),
    Read.val_main_v90_apply,
    show Read.idx_main_v90 (ix4 b (0 : Fin 1) e (0 : Fin 1)) = ix2 b e from
      funext fun a => Fin.ext (by match a with | ⟨0, _⟩ => rfl | ⟨1, _⟩ => rfl)]
  refine (gather_row2 (by norm_num) _ x16 (Read.val_main_v82 (F := Ideal) x6) b e).trans (row_congr x16 ?_ _ _ e)
  rw [Read.val_main_v82_apply,
    show Read.idx_main_v82 (ix2 b (0 : Fin 1)) = ix1 b from
      funext fun a => Fin.ext (by match a with | ⟨0, _⟩ => rfl),
    v81_eq x6 b h0]
  exact raw_row 100 _ h0 h1

theorem v100_meds (b : Fin 64) (s : Fin 24) (e : Fin 128) (k : Fin 435) (h : k.val < 100) :
    Read.val_main_v100 (F := Ideal) x0 x1 x2 x3 x4 x5 x6 x7 x8 x9 x10 x11 x12 x13 x14 x15 x16 (ix4 b s e k)
      = Read.val_main_v92 (F := Ideal) x0 x7 (ix4 b s e ⟨k.val, h⟩) := by
  unfold Read.val_main_v100
  exact concatenate_apply_piece _ _ _ (ix4 b s e k) 0 (by show (0 : ℕ) < 10; decide) S64x24x128x100 (Read.val_main_v92 (F := Ideal) x0 x7)
    rfl rfl 0 rfl (ix4 b s e ⟨k.val, h⟩)
    (fun d hd => by
      match d with
      | ⟨0, _⟩ => rfl
      | ⟨1, _⟩ => rfl
      | ⟨2, _⟩ => rfl
      | ⟨3, _⟩ => exact absurd rfl hd)
    (Nat.zero_add _)

theorem v100_chart (b : Fin 64) (s : Fin 24) (e : Fin 128) (k : Fin 435) (h0 : 100 ≤ k.val) (h : k.val < 300) :
    Read.val_main_v100 (F := Ideal) x0 x1 x2 x3 x4 x5 x6 x7 x8 x9 x10 x11 x12 x13 x14 x15 x16 (ix4 b s e k)
      = Read.val_main_v93 (F := Ideal) x1 x8 (ix4 b s e ⟨k.val - 100, by omega⟩) := by
  unfold Read.val_main_v100
  exact concatenate_apply_piece _ _ _ (ix4 b s e k) 1 (by show (1 : ℕ) < 10; decide) S64x24x128x200 (Read.val_main_v93 (F := Ideal) x1 x8)
    rfl rfl 100 rfl (ix4 b s e ⟨k.val - 100, by omega⟩)
    (fun d hd => by
      match d with
      | ⟨0, _⟩ => rfl
      | ⟨1, _⟩ => rfl
      | ⟨2, _⟩ => rfl
      | ⟨3, _⟩ => exact absurd rfl hd)
    (by show 100 + (k.val - 100) = k.val; omega)

theorem v100_out (b : Fin 64) (s : Fin 24) (e : Fin 128) (k : Fin 435) (h0 : 300 ≤ k.val) (h : k.val < 350) :
    Read.val_main_v100 (F := Ideal) x0 x1 x2 x3 x4 x5 x6 x7 x8 x9 x10 x11 x12 x13 x14 x15 x16 (ix4 b s e k)
      = Read.val_main_v94 (F := Ideal) x2 x9 (ix4 b s e ⟨k.val - 300, by omega⟩) := by
  unfold Read.val_main_v100
  exact concatenate_apply_piece _ _ _ (ix4 b s e k) 2 (by show (2 : ℕ) < 10; decide) S64x24x128x50 (Read.val_main_v94 (F := Ideal) x2 x9)
    rfl rfl 300 rfl (ix4 b s e ⟨k.val - 300, by omega⟩)
    (fun d hd => by
      match d with
      | ⟨0, _⟩ => rfl
      | ⟨1, _⟩ => rfl
      | ⟨2, _⟩ => rfl
      | ⟨3, _⟩ => exact absurd rfl hd)
    (by show 300 + (k.val - 300) = k.val; omega)

theorem v100_proc (b : Fin 64) (s : Fin 24) (e : Fin 128) (k : Fin 435) (h0 : 350 ≤ k.val) (h : k.val < 400) :
    Read.val_main_v100 (F := Ideal) x0 x1 x2 x3 x4 x5 x6 x7 x8 x9 x10 x11 x12 x13 x14 x15 x16 (ix4 b s e k)
      = Read.val_main_v95 (F := Ideal) x3 x10 (ix4 b s e ⟨k.val - 350, by omega⟩) := by
  unfold Read.val_main_v100
  exact concatenate_apply_piece _ _ _ (ix4 b s e k) 3 (by show (3 : ℕ) < 10; decide) S64x24x128x50 (Read.val_main_v95 (F := Ideal) x3 x10)
    rfl rfl 350 rfl (ix4 b s e ⟨k.val - 350, by omega⟩)
    (fun d hd => by
      match d with
      | ⟨0, _⟩ => rfl
      | ⟨1, _⟩ => rfl
      | ⟨2, _⟩ => rfl
      | ⟨3, _⟩ => exact absurd rfl hd)
    (by show 350 + (k.val - 350) = k.val; omega)

theorem v100_lab (b : Fin 64) (s : Fin 24) (e : Fin 128) (k : Fin 435) (h0 : 400 ≤ k.val) (h : k.val < 401) :
    Read.val_main_v100 (F := Ideal) x0 x1 x2 x3 x4 x5 x6 x7 x8 x9 x10 x11 x12 x13 x14 x15 x16 (ix4 b s e k)
      = Read.val_main_v96 (F := Ideal) x4 x11 (ix4 b s e ⟨k.val - 400, by omega⟩) := by
  unfold Read.val_main_v100
  exact concatenate_apply_piece _ _ _ (ix4 b s e k) 4 (by show (4 : ℕ) < 10; decide) S64x24x128x1 (Read.val_main_v96 (F := Ideal) x4 x11)
    rfl rfl 400 rfl (ix4 b s e ⟨k.val - 400, by omega⟩)
    (fun d hd => by
      match d with
      | ⟨0, _⟩ => rfl
      | ⟨1, _⟩ => rfl
      | ⟨2, _⟩ => rfl
      | ⟨3, _⟩ => exact absurd rfl hd)
    (by show 400 + (k.val - 400) = k.val; omega)

theorem v100_conds (b : Fin 64) (s : Fin 24) (e : Fin 128) (k : Fin 435) (h0 : 401 ≤ k.val) (h : k.val < 431) :
    Read.val_main_v100 (F := Ideal) x0 x1 x2 x3 x4 x5 x6 x7 x8 x9 x10 x11 x12 x13 x14 x15 x16 (ix4 b s e k)
      = Read.val_main_v99 (F := Ideal) x5 x12 (ix4 b s e ⟨k.val - 401, by omega⟩) := by
  unfold Read.val_main_v100
  exact concatenate_apply_piece _ _ _ (ix4 b s e k) 5 (by show (5 : ℕ) < 10; decide) S64x24x128x30 (Read.val_main_v99 (F := Ideal) x5 x12)
    rfl rfl 401 rfl (ix4 b s e ⟨k.val - 401, by omega⟩)
    (fun d hd => by
      match d with
      | ⟨0, _⟩ => rfl
      | ⟨1, _⟩ => rfl
      | ⟨2, _⟩ => rfl
      | ⟨3, _⟩ => exact absurd rfl hd)
    (by show 401 + (k.val - 401) = k.val; omega)

theorem v100_gender (b : Fin 64) (s : Fin 24) (e : Fin 128) (k : Fin 435) (h0 : 431 ≤ k.val) (h : k.val < 432) :
    Read.val_main_v100 (F := Ideal) x0 x1 x2 x3 x4 x5 x6 x7 x8 x9 x10 x11 x12 x13 x14 x15 x16 (ix4 b s e k)
      = Read.val_main_v85 (F := Ideal) x6 x13 (ix4 b s e ⟨k.val - 431, by omega⟩) := by
  unfold Read.val_main_v100
  exact concatenate_apply_piece _ _ _ (ix4 b s e k) 6 (by show (6 : ℕ) < 10; decide) S64x24x128x1 (Read.val_main_v85 (F := Ideal) x6 x13)
    rfl rfl 431 rfl (ix4 b s e ⟨k.val - 431, by omega⟩)
    (fun d hd => by
      match d with
      | ⟨0, _⟩ => rfl
      | ⟨1, _⟩ => rfl
      | ⟨2, _⟩ => rfl
      | ⟨3, _⟩ => exact absurd rfl hd)
    (by show 431 + (k.val - 431) = k.val; omega)

theorem v100_eth (b : Fin 64) (s : Fin 24) (e : Fin 128) (k : Fin 435) (h0 : 432 ≤ k.val) (h : k.val < 433) :
    Read.val_main_v100 (F := Ideal) x0 x1 x2 x3 x4 x5 x6 x7 x8 x9 x10 x11 x12 x13 x14 x15 x16 (ix4 b s e k)
      = Read.val_main_v87 (F := Ideal) x6 x14 (ix4 b s e ⟨k.val - 432, by omega⟩) := by
  unfold Read.val_main_v100
  exact concatenate_apply_piece _ _ _ (ix4 b s e k) 7 (by show (7 : ℕ) < 10; decide) S64x24x128x1 (Read.val_main_v87 (F := Ideal) x6 x14)
    rfl rfl 432 rfl (ix4 b s e ⟨k.val - 432, by omega⟩)
    (fun d hd => by
      match d with
      | ⟨0, _⟩ => rfl
      | ⟨1, _⟩ => rfl
      | ⟨2, _⟩ => rfl
      | ⟨3, _⟩ => exact absurd rfl hd)
    (by show 432 + (k.val - 432) = k.val; omega)

theorem v100_ins (b : Fin 64) (s : Fin 24) (e : Fin 128) (k : Fin 435) (h0 : 433 ≤ k.val) (h : k.val < 434) :
    Read.val_main_v100 (F := Ideal) x0 x1 x2 x3 x4 x5 x6 x7 x8 x9 x10 x11 x12 x13 x14 x15 x16 (ix4 b s e k)
      = Read.val_main_v89 (F := Ideal) x6 x15 (ix4 b s e ⟨k.val - 433, by omega⟩) := by
  unfold Read.val_main_v100
  exact concatenate_apply_piece _ _ _ (ix4 b s e k) 8 (by show (8 : ℕ) < 10; decide) S64x24x128x1 (Read.val_main_v89 (F := Ideal) x6 x15)
    rfl rfl 433 rfl (ix4 b s e ⟨k.val - 433, by omega⟩)
    (fun d hd => by
      match d with
      | ⟨0, _⟩ => rfl
      | ⟨1, _⟩ => rfl
      | ⟨2, _⟩ => rfl
      | ⟨3, _⟩ => exact absurd rfl hd)
    (by show 433 + (k.val - 433) = k.val; omega)

theorem v100_age (b : Fin 64) (s : Fin 24) (e : Fin 128) (k : Fin 435) (h0 : 434 ≤ k.val) :
    Read.val_main_v100 (F := Ideal) x0 x1 x2 x3 x4 x5 x6 x7 x8 x9 x10 x11 x12 x13 x14 x15 x16 (ix4 b s e k)
      = Read.val_main_v91 (F := Ideal) x6 x16 (ix4 b s e ⟨k.val - 434, by omega⟩) := by
  unfold Read.val_main_v100
  exact concatenate_apply_piece _ _ _ (ix4 b s e k) 9 (by show (9 : ℕ) < 10; decide) S64x24x128x1 (Read.val_main_v91 (F := Ideal) x6 x16)
    rfl rfl 434 rfl (ix4 b s e ⟨k.val - 434, by omega⟩)
    (fun d hd => by
      match d with
      | ⟨0, _⟩ => rfl
      | ⟨1, _⟩ => rfl
      | ⟨2, _⟩ => rfl
      | ⟨3, _⟩ => exact absurd rfl hd)
    (by show 434 + (k.val - 434) = k.val; omega)

theorem xslot_meds (A : Arrays) (n : Fin 1536) (k : Fin 435) (h : k.val < 100) :
    xslot A n k = rowMean A.medE (clampRow 1000
      (A.meds (ix3 ⟨n.val / 24, by omega⟩ ⟨n.val % 24, by omega⟩ ⟨k.val, h⟩)).toInt) := by
  unfold xslot
  rw [dif_pos h]

theorem xslot_chart (A : Arrays) (n : Fin 1536) (k : Fin 435) (h0 : 100 ≤ k.val) (h : k.val < 300) :
    xslot A n k = rowMean A.chartE (clampRow 3000
      (A.chart (ix3 ⟨n.val / 24, by omega⟩ ⟨n.val % 24, by omega⟩ ⟨k.val - 100, by omega⟩)).toInt) := by
  unfold xslot
  rw [dif_neg (show ¬ k.val < 100 by omega), dif_pos h]

theorem xslot_out (A : Arrays) (n : Fin 1536) (k : Fin 435) (h0 : 300 ≤ k.val) (h : k.val < 350) :
    xslot A n k = rowMean A.outE (clampRow 500
      (A.out (ix3 ⟨n.val / 24, by omega⟩ ⟨n.val % 24, by omega⟩ ⟨k.val - 300, by omega⟩)).toInt) := by
  unfold xslot
  rw [dif_neg (show ¬ k.val < 100 by omega), dif_neg (show ¬ k.val < 300 by omega), dif_pos h]

theorem xslot_proc (A : Arrays) (n : Fin 1536) (k : Fin 435) (h0 : 350 ≤ k.val) (h : k.val < 400) :
    xslot A n k = rowMean A.procE (clampRow 1500
      (A.proc (ix3 ⟨n.val / 24, by omega⟩ ⟨n.val % 24, by omega⟩ ⟨k.val - 350, by omega⟩)).toInt) := by
  unfold xslot
  rw [dif_neg (show ¬ k.val < 100 by omega), dif_neg (show ¬ k.val < 300 by omega),
    dif_neg (show ¬ k.val < 350 by omega), dif_pos h]

theorem xslot_lab (A : Arrays) (n : Fin 1536) (k : Fin 435) (h0 : 400 ≤ k.val) (h : k.val < 401) :
    xslot A n k = rowMean A.labE (clampRow 700
      (A.lab (ix2 ⟨n.val / 24, by omega⟩ ⟨n.val % 24, by omega⟩)).toInt) := by
  unfold xslot
  rw [dif_neg (show ¬ k.val < 100 by omega), dif_neg (show ¬ k.val < 300 by omega),
    dif_neg (show ¬ k.val < 350 by omega), dif_neg (show ¬ k.val < 400 by omega), dif_pos h]

theorem xslot_conds (A : Arrays) (n : Fin 1536) (k : Fin 435) (h0 : 401 ≤ k.val) (h : k.val < 431) :
    xslot A n k = rowMean A.condE (clampRow 2000
      (A.conds (ix2 ⟨n.val / 24, by omega⟩ ⟨k.val - 401, by omega⟩)).toInt) := by
  unfold xslot
  rw [dif_neg (show ¬ k.val < 100 by omega), dif_neg (show ¬ k.val < 300 by omega),
    dif_neg (show ¬ k.val < 350 by omega), dif_neg (show ¬ k.val < 400 by omega),
    dif_neg (show ¬ k.val < 401 by omega), dif_pos h]

theorem xslot_gender (A : Arrays) (n : Fin 1536) (k : Fin 435) (h0 : 431 ≤ k.val) (h : k.val < 432) :
    xslot A n k = rowMean A.genderE (clampRow 2 (A.demo (ix2 ⟨n.val / 24, by omega⟩ 0)).toInt) := by
  unfold xslot
  rw [dif_neg (show ¬ k.val < 100 by omega), dif_neg (show ¬ k.val < 300 by omega),
    dif_neg (show ¬ k.val < 350 by omega), dif_neg (show ¬ k.val < 400 by omega),
    dif_neg (show ¬ k.val < 401 by omega), dif_neg (show ¬ k.val < 431 by omega), dif_pos h]

theorem xslot_eth (A : Arrays) (n : Fin 1536) (k : Fin 435) (h0 : 432 ≤ k.val) (h : k.val < 433) :
    xslot A n k = rowMean A.ethE (clampRow 10 (A.demo (ix2 ⟨n.val / 24, by omega⟩ 1)).toInt) := by
  unfold xslot
  rw [dif_neg (show ¬ k.val < 100 by omega), dif_neg (show ¬ k.val < 300 by omega),
    dif_neg (show ¬ k.val < 350 by omega), dif_neg (show ¬ k.val < 400 by omega),
    dif_neg (show ¬ k.val < 401 by omega), dif_neg (show ¬ k.val < 431 by omega),
    dif_neg (show ¬ k.val < 432 by omega), dif_pos h]

theorem xslot_ins (A : Arrays) (n : Fin 1536) (k : Fin 435) (h0 : 433 ≤ k.val) (h : k.val < 434) :
    xslot A n k = rowMean A.insE (clampRow 5 (A.demo (ix2 ⟨n.val / 24, by omega⟩ 2)).toInt) := by
  unfold xslot
  rw [dif_neg (show ¬ k.val < 100 by omega), dif_neg (show ¬ k.val < 300 by omega),
    dif_neg (show ¬ k.val < 350 by omega), dif_neg (show ¬ k.val < 400 by omega),
    dif_neg (show ¬ k.val < 401 by omega), dif_neg (show ¬ k.val < 431 by omega),
    dif_neg (show ¬ k.val < 432 by omega), dif_neg (show ¬ k.val < 433 by omega), dif_pos h]

theorem xslot_age (A : Arrays) (n : Fin 1536) (k : Fin 435) (h0 : 434 ≤ k.val) :
    xslot A n k = rowMean A.ageE (clampRow 100 (A.demo (ix2 ⟨n.val / 24, by omega⟩ 3)).toInt) := by
  unfold xslot
  rw [dif_neg (show ¬ k.val < 100 by omega), dif_neg (show ¬ k.val < 300 by omega),
    dif_neg (show ¬ k.val < 350 by omega), dif_neg (show ¬ k.val < 400 by omega),
    dif_neg (show ¬ k.val < 401 by omega), dif_neg (show ¬ k.val < 431 by omega),
    dif_neg (show ¬ k.val < 432 by omega), dif_neg (show ¬ k.val < 433 by omega),
    dif_neg (show ¬ k.val < 434 by omega)]

theorem val_main_v104_eq_xslot (A : Arrays) (hA : A.Finite) (hD : A.DemoInRange) (n : Fin 1536) (k : Fin 435) :
    Read.val_main_v104 (F := Ideal) A.meds A.chart A.out A.proc A.lab A.conds A.demo
      A.medE A.chartE A.outE A.procE A.labE A.condE A.genderE A.ethE A.insE A.ageE (ix2 n k)
      = ((xslot A n k : ℝ) : EReal) := by
  have hn := n.isLt
  have hk := k.isLt

  have hidx : ∀ e : Fin 128, Read.idx_main_v101 (Read.idx_main_v104 (ix2 n k)) e
      = ix4 (⟨n.val / 24, by omega⟩ : Fin 64) (⟨n.val % 24, by omega⟩ : Fin 24) e k := fun e =>
    funext fun a => Fin.ext (by
      match a with
      | ⟨0, _⟩ =>
        show (n.val * 435 + k.val) / 10440 = n.val / 24
        omega
      | ⟨1, _⟩ =>
        show (n.val * 435 + k.val) / 435 % 24 = n.val % 24
        omega
      | ⟨2, _⟩ => rfl
      | ⟨3, _⟩ =>
        show (n.val * 435 + k.val) % 435 = k.val
        omega)
  rw [Read.val_main_v104_apply, Read.val_main_v103_apply, Read.val_main_v101_apply, Read.val_main_v102_apply,
    Read.val_main_cst_31_apply, Read.val_main_cst_apply, Ideal.hostDivf_def, Ideal.ofBits_def, Ideal.ofBits_def]
  rcases (by omega : k.val < 100 ∨ (100 ≤ k.val ∧ k.val < 300) ∨ (300 ≤ k.val ∧ k.val < 350)
      ∨ (350 ≤ k.val ∧ k.val < 400) ∨ (400 ≤ k.val ∧ k.val < 401) ∨ (401 ≤ k.val ∧ k.val < 431)
      ∨ (431 ≤ k.val ∧ k.val < 432) ∨ (432 ≤ k.val ∧ k.val < 433) ∨ (433 ≤ k.val ∧ k.val < 434) ∨ 434 ≤ k.val)
    with h | ⟨h0, h⟩ | ⟨h0, h⟩ | ⟨h0, h⟩ | ⟨h0, h⟩ | ⟨h0, h⟩ | ⟨h0, h⟩ | ⟨h0, h⟩ | ⟨h0, h⟩ | h0
  · rw [xslot_meds A n k h]
    refine mean_row A.medE hA.medE _ (clampRow_lt (by norm_num) _) _ ?_
    intro e
    refine (congrArg _ (hidx e)).trans ?_
    exact (v100_meds _ _ _ _ _ _ _ _ _ _ _ _ _ _ _ _ _ _ _ e k h).trans (v92_at _ _ _ _ e _)
  · rw [xslot_chart A n k h0 h]
    refine mean_row A.chartE hA.chartE _ (clampRow_lt (by norm_num) _) _ ?_
    intro e
    refine (congrArg _ (hidx e)).trans ?_
    exact (v100_chart _ _ _ _ _ _ _ _ _ _ _ _ _ _ _ _ _ _ _ e k h0 h).trans (v93_at _ _ _ _ e _)
  · rw [xslot_out A n k h0 h]
    refine mean_row A.outE hA.outE _ (clampRow_lt (by norm_num) _) _ ?_
    intro e
    refine (congrArg _ (hidx e)).trans ?_
    exact (v100_out _ _ _ _ _ _ _ _ _ _ _ _ _ _ _ _ _ _ _ e k h0 h).trans (v94_at _ _ _ _ e _)
  · rw [xslot_proc A n k h0 h]
    refine mean_row A.procE hA.procE _ (clampRow_lt (by norm_num) _) _ ?_
    intro e
    refine (congrArg _ (hidx e)).trans ?_
    exact (v100_proc _ _ _ _ _ _ _ _ _ _ _ _ _ _ _ _ _ _ _ e k h0 h).trans (v95_at _ _ _ _ e _)
  · rw [xslot_lab A n k h0 h]
    refine mean_row A.labE hA.labE _ (clampRow_lt (by norm_num) _) _ ?_
    intro e
    refine (congrArg _ (hidx e)).trans ?_
    exact (v100_lab _ _ _ _ _ _ _ _ _ _ _ _ _ _ _ _ _ _ _ e k h0 h).trans (v96_at _ _ _ _ e _)
  · rw [xslot_conds A n k h0 h]
    refine mean_row A.condE hA.condE _ (clampRow_lt (by norm_num) _) _ ?_
    intro e
    refine (congrArg _ (hidx e)).trans ?_
    exact (v100_conds _ _ _ _ _ _ _ _ _ _ _ _ _ _ _ _ _ _ _ e k h0 h).trans (v99_at _ _ _ _ e _)
  · rw [xslot_gender A n k h0 h]
    have hd := hD ⟨n.val / 24, by omega⟩ 0
    refine mean_row A.genderE hA.genderE _ (clampRow_lt (by norm_num) _) _ ?_
    intro e
    refine (congrArg _ (hidx e)).trans ?_
    exact (v100_gender _ _ _ _ _ _ _ _ _ _ _ _ _ _ _ _ _ _ _ e k h0 h).trans (v85_at _ _ _ _ e _ hd.1 hd.2)
  · rw [xslot_eth A n k h0 h]
    have hd := hD ⟨n.val / 24, by omega⟩ 1
    refine mean_row A.ethE hA.ethE _ (clampRow_lt (by norm_num) _) _ ?_
    intro e
    refine (congrArg _ (hidx e)).trans ?_
    exact (v100_eth _ _ _ _ _ _ _ _ _ _ _ _ _ _ _ _ _ _ _ e k h0 h).trans (v87_at _ _ _ _ e _ hd.1 hd.2)
  · rw [xslot_ins A n k h0 h]
    have hd := hD ⟨n.val / 24, by omega⟩ 2
    refine mean_row A.insE hA.insE _ (clampRow_lt (by norm_num) _) _ ?_
    intro e
    refine (congrArg _ (hidx e)).trans ?_
    exact (v100_ins _ _ _ _ _ _ _ _ _ _ _ _ _ _ _ _ _ _ _ e k h0 h).trans (v89_at _ _ _ _ e _ hd.1 hd.2)
  · rw [xslot_age A n k h0]
    have hd := hD ⟨n.val / 24, by omega⟩ 3
    refine mean_row A.ageE hA.ageE _ (clampRow_lt (by norm_num) _) _ ?_
    intro e
    refine (congrArg _ (hidx e)).trans ?_
    exact (v100_age _ _ _ _ _ _ _ _ _ _ _ _ _ _ _ _ _ _ _ e k h0).trans (v91_at _ _ _ _ e _ hd.1 hd.2)

end Cert.ReferenceIdeal.RefX

end
-- ==== Proof.Ref.Algebra.lean ====
import Mathlib.Algebra.BigOperators.Field
import Mathlib.Data.Fintype.BigOperators
import Mathlib.Logic.Equiv.Fin.Basic
import Mathlib.Data.EReal.Inv
import Idealize.ShloMosaic.Lib.IdealHost
import Idealize.ShloMosaic.Lib.ValueIdxRank1
import proofs.«406789_j53094385713523_3_alg».proof.Proof.Spec

noncomputable section

open scoped BigOperators

namespace Cert.ReferenceIdeal.RefHead

open Idealize.ShloMosaic Idealize.ShloMosaic.ValueIdx Cert.Spec

theorem ofBits_1536 : Ideal.ofBits .f32 0x44C00000#32 = ((1536 : ℝ) : EReal) := by
  simp [Ideal.ofBits, Ideal.ieee, -EReal.coe_mul]; norm_num

theorem ofBits_24 : Ideal.ofBits .f32 0x41C00000#32 = ((24 : ℝ) : EReal) := by
  simp [Ideal.ofBits, Ideal.ieee, -EReal.coe_mul]; norm_num

def eps : ℝ := 9007199 * (2 : ℝ) ^ (-53 : ℤ)

theorem eps_pos : 0 < eps := by unfold eps; positivity

theorem ofBits_eps : Ideal.ofBits .f32 0x3089705F#32 = ((eps : ℝ) : EReal) := by
  unfold eps
  simp [Ideal.ofBits, Ideal.ieee, -EReal.coe_mul]

theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem div_coe_coe (x : ℝ) {y : ℝ} (hy : y ≠ 0) : Ideal.div (x : EReal) (y : EReal) = ((x / y : ℝ) : EReal) := by
  rw [Ideal.div_coe hy, ← EReal.coe_mul, mul_one_div]

theorem max_coe_zero (a : ℝ) : max (a : EReal) 0 = ((max a 0 : ℝ) : EReal) := by
  rw [← EReal.coe_zero]; exact (EReal.coe_strictMono.monotone.map_max).symm

theorem log_coe_pos {r : ℝ} (h : 0 < r) : Ideal.log (r : EReal) = ((Real.log r : ℝ) : EReal) := by
  rw [Ideal.log_coe, if_neg (not_le.mpr h)]

theorem add_toReal_coe (s : ℝ) {x : EReal} (h : IsReal x) : (s : EReal) + x = ((s + x.toReal : ℝ) : EReal) := by
  rw [EReal.coe_add, h.coe_toReal]

theorem mul_toReal_coe (a : ℝ) {x : EReal} (h : IsReal x) : (a : EReal) * x = ((a * x.toReal : ℝ) : EReal) := by
  rw [EReal.coe_mul, h.coe_toReal]

theorem sum_const_coe {ι : Type*} [Fintype ι] (c : ℝ) (hc : (Fintype.card ι : ℝ) = c) (w : ℝ) :
    ∑ _i : ι, (w : EReal) = ((c * w : ℝ) : EReal) := by
  rw [← coe_sum Finset.univ (fun _ : ι => w), Finset.sum_const, Finset.card_univ, nsmul_eq_mul, hc]

theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

theorem sum_const_div {ι : Type*} [Fintype ι] (c : ℝ) (hc : (Fintype.card ι : ℝ) = c) (hc0 : c ≠ 0) (r : ℝ) :
    (∑ _i : ι, r) / c = r := by
  rw [Finset.sum_const, Finset.card_univ, nsmul_eq_mul, hc, mul_div_cancel_left₀ r hc0]

theorem weight_div {w : ℝ} (hw : w ≠ 0) (c : ℝ) : w / (c * w) = 1 / c := by
  rw [mul_comm, ← div_div, div_self hw]

theorem avg_affine {N K : Type*} [Fintype N] [Fintype K] (c : ℝ) (hc : (Fintype.card N : ℝ) = c) (hc0 : c ≠ 0)
    (x : N → K → ℝ) (P : K → ℝ) (b : ℝ) :
    (∑ n, ((∑ k, x n k * P k) + b)) / c = (∑ k, ((∑ n, x n k) / c) * P k) + b := by
  rw [Finset.sum_add_distrib, Finset.sum_const, Finset.card_univ, nsmul_eq_mul, hc, add_div,
    mul_div_cancel_left₀ b hc0, Finset.sum_comm, Finset.sum_div]
  congr 1
  refine Finset.sum_congr rfl fun k _ => ?_
  rw [← Finset.sum_mul, div_mul_eq_mul_div]

def visitEquiv : Fin 64 × Fin 24 ≃ Fin 1536 where
  toFun p := ⟨p.1.val * 24 + p.2.val, by have := p.1.isLt; have := p.2.isLt; omega⟩
  invFun n := (⟨n.val / 24, by have := n.isLt; omega⟩, ⟨n.val % 24, Nat.mod_lt _ (by norm_num)⟩)
  left_inv p := by
    obtain ⟨a, v⟩ := p
    have ha := a.isLt
    have hv := v.isLt
    refine Prod.ext (Fin.ext ?_) (Fin.ext ?_)
    · show (a.val * 24 + v.val) / 24 = a.val
      omega
    · show (a.val * 24 + v.val) % 24 = v.val
      omega
  right_inv n := by
    refine Fin.ext ?_
    show n.val / 24 * 24 + n.val % 24 = n.val
    omega

theorem sum_over_visits (f : Fin 64 → ℝ) (g : Fin 1536 → Fin 64) (hg : ∀ n, (g n).val = n.val / 24) :
    ∑ n : Fin 1536, f (g n) = 24 * ∑ b : Fin 64, f b := by
  rw [← Equiv.sum_comp visitEquiv (fun n => f (g n)), Fintype.sum_prod_type, Finset.mul_sum]
  refine Finset.sum_congr rfl fun b _ => ?_
  have hb : ∀ v : Fin 24, g (visitEquiv (b, v)) = b := fun v => Fin.ext (by
    rw [hg]
    show (b.val * 24 + v.val) / 24 = b.val
    have := v.isLt
    omega)
  simp only [hb, Finset.sum_const, Finset.card_univ, Fintype.card_fin, nsmul_eq_mul]
  norm_num

theorem avg_over_visits (f : Fin 64 → ℝ) (g : Fin 1536 → Fin 64) (hg : ∀ n, (g n).val = n.val / 24) :
    (∑ b : Fin 64, f b) / 64 = (∑ n : Fin 1536, f (g n)) / 1536 := by
  rw [sum_over_visits f g hg]
  ring

theorem xbar_eq_avg (A : Arrays) (k : Fin 435) : xbar A k = (∑ n : Fin 1536, xslot A n k) / 1536 := by
  by_cases h1 : k.val < 100
  · unfold xbar
    rw [dif_pos h1]
    refine congrArg (· / 1536) (Finset.sum_congr rfl fun n _ => ?_)
    unfold xslot
    rw [dif_pos h1]
  by_cases h2 : k.val < 300
  · unfold xbar
    rw [dif_neg h1, dif_pos h2]
    refine congrArg (· / 1536) (Finset.sum_congr rfl fun n _ => ?_)
    unfold xslot
    rw [dif_neg h1, dif_pos h2]
  by_cases h3 : k.val < 350
  · unfold xbar
    rw [dif_neg h1, dif_neg h2, dif_pos h3]
    refine congrArg (· / 1536) (Finset.sum_congr rfl fun n _ => ?_)
    unfold xslot
    rw [dif_neg h1, dif_neg h2, dif_pos h3]
  by_cases h4 : k.val < 400
  · unfold xbar
    rw [dif_neg h1, dif_neg h2, dif_neg h3, dif_pos h4]
    refine congrArg (· / 1536) (Finset.sum_congr rfl fun n _ => ?_)
    unfold xslot
    rw [dif_neg h1, dif_neg h2, dif_neg h3, dif_pos h4]
  by_cases h5 : k.val < 401
  · unfold xbar
    rw [dif_neg h1, dif_neg h2, dif_neg h3, dif_neg h4, dif_pos h5]
    refine congrArg (· / 1536) (Finset.sum_congr rfl fun n _ => ?_)
    unfold xslot
    rw [dif_neg h1, dif_neg h2, dif_neg h3, dif_neg h4, dif_pos h5]
  by_cases h6 : k.val < 431
  · unfold xbar
    rw [dif_neg h1, dif_neg h2, dif_neg h3, dif_neg h4, dif_neg h5, dif_pos h6]
    refine (avg_over_visits (fun b => rowMean A.condE (clampRow 2000 (A.conds (ix2 b ⟨k.val - 401, by omega⟩)).toInt))
      (fun n => ⟨n.val / 24, by omega⟩) (fun _ => rfl)).trans ?_
    refine congrArg (· / 1536) (Finset.sum_congr rfl fun n _ => ?_)
    unfold xslot
    rw [dif_neg h1, dif_neg h2, dif_neg h3, dif_neg h4, dif_neg h5, dif_pos h6]
  by_cases h7 : k.val < 432
  · unfold xbar
    rw [dif_neg h1, dif_neg h2, dif_neg h3, dif_neg h4, dif_neg h5, dif_neg h6, dif_pos h7]
    refine (avg_over_visits (fun b => rowMean A.genderE (clampRow 2 (A.demo (ix2 b 0)).toInt))
      (fun n => ⟨n.val / 24, by omega⟩) (fun _ => rfl)).trans ?_
    refine congrArg (· / 1536) (Finset.sum_congr rfl fun n _ => ?_)
    unfold xslot
    rw [dif_neg h1, dif_neg h2, dif_neg h3, dif_neg h4, dif_neg h5, dif_neg h6, dif_pos h7]
  by_cases h8 : k.val < 433
  · unfold xbar
    rw [dif_neg h1, dif_neg h2, dif_neg h3, dif_neg h4, dif_neg h5, dif_neg h6, dif_neg h7, dif_pos h8]
    refine (avg_over_visits (fun b => rowMean A.ethE (clampRow 10 (A.demo (ix2 b 1)).toInt))
      (fun n => ⟨n.val / 24, by omega⟩) (fun _ => rfl)).trans ?_
    refine congrArg (· / 1536) (Finset.sum_congr rfl fun n _ => ?_)
    unfold xslot
    rw [dif_neg h1, dif_neg h2, dif_neg h3, dif_neg h4, dif_neg h5, dif_neg h6, dif_neg h7, dif_pos h8]
  by_cases h9 : k.val < 434
  · unfold xbar
    rw [dif_neg h1, dif_neg h2, dif_neg h3, dif_neg h4, dif_neg h5, dif_neg h6, dif_neg h7, dif_neg h8, dif_pos h9]
    refine (avg_over_visits (fun b => rowMean A.insE (clampRow 5 (A.demo (ix2 b 2)).toInt))
      (fun n => ⟨n.val / 24, by omega⟩) (fun _ => rfl)).trans ?_
    refine congrArg (· / 1536) (Finset.sum_congr rfl fun n _ => ?_)
    unfold xslot
    rw [dif_neg h1, dif_neg h2, dif_neg h3, dif_neg h4, dif_neg h5, dif_neg h6, dif_neg h7, dif_neg h8, dif_pos h9]
  · unfold xbar
    rw [dif_neg h1, dif_neg h2, dif_neg h3, dif_neg h4, dif_neg h5, dif_neg h6, dif_neg h7, dif_neg h8, dif_neg h9]
    refine (avg_over_visits (fun b => rowMean A.ageE (clampRow 100 (A.demo (ix2 b 3)).toInt))
      (fun n => ⟨n.val / 24, by omega⟩) (fun _ => rfl)).trans ?_
    refine congrArg (· / 1536) (Finset.sum_congr rfl fun n _ => ?_)
    unfold xslot
    rw [dif_neg h1, dif_neg h2, dif_neg h3, dif_neg h4, dif_neg h5, dif_neg h6, dif_neg h7, dif_neg h8, dif_neg h9]

theorem xrow_avg (A : Arrays) (j : Fin 128) :
    (∑ n : Fin 1536, xrowOf A (xslot A n) j) / 1536 = xrowOf A (xbar A) j := by
  unfold xrowOf
  simp only [xbar_eq_avg]
  exact avg_affine (N := Fin 1536) (K := Fin 435) 1536 (by simp) (by norm_num)
    (fun n k => xslot A n k) (fun k => (A.projW (ix2 k j)).toReal) ((A.projb (ix1 j)).toReal)

theorem layer_avg (A : Arrays) (w : Fin 128 → ℝ) :
    (∑ n : Fin 1536, ∑ j : Fin 128, xrowOf A (xslot A n) j * w j) / 1536 = ∑ j : Fin 128, xrowOf A (xbar A) j * w j := by
  have h := avg_affine (N := Fin 1536) (K := Fin 128) 1536 (by simp) (by norm_num)
    (fun n j => xrowOf A (xslot A n) j) w 0
  simp only [add_zero] at h
  rw [h]
  refine Finset.sum_congr rfl fun j _ => ?_
  rw [xrow_avg]

theorem h0_of_avg (A : Arrays) (g : Fin 256) :
    max ((∑ n : Fin 1536, ∑ j : Fin 128, xrowOf A (xslot A n) j * (A.W1 (ix2 j g)).toReal) / 1536
        + (A.b1 (ix1 g)).toReal) 0 = h0Of A (xbar A) g := by
  unfold h0Of
  rw [layer_avg]

theorem h0Of_nonneg (A : Arrays) (x : Fin 435 → ℝ) (g : Fin 256) : 0 ≤ h0Of A x g := le_max_right _ _

theorem h0Of_add_eps_pos (A : Arrays) (x : Fin 435 → ℝ) (g : Fin 256) : 0 < h0Of A x g + eps :=
  add_pos_of_nonneg_of_pos (h0Of_nonneg A x g) eps_pos

end Cert.ReferenceIdeal.RefHead

end
-- ==== Proof.Ref.Head.lean ====
import proofs.«406789_j53094385713523_3_alg».proof.Proof.Ref.ReadP
import proofs.«406789_j53094385713523_3_alg».proof.Proof.Ref.Algebra

noncomputable section

open scoped BigOperators

namespace Cert.ReferenceIdeal.RefHead

open Cert.ReferenceIdeal Idealize.ShloMosaic Idealize.ShloMosaic.ValueIdx Cert.Spec

variable (A : Arrays)

local notation "V104" => Read.val_main_v104 (F := Ideal) A.meds A.chart A.out A.proc A.lab A.conds A.demo A.medE A.chartE A.outE A.procE A.labE A.condE A.genderE A.ethE A.insE A.ageE
local notation "V105" => Read.val_main_v105 (F := Ideal) A.meds A.chart A.out A.proc A.lab A.conds A.demo A.medE A.chartE A.outE A.procE A.labE A.condE A.genderE A.ethE A.insE A.ageE A.projW
local notation "V108" => Read.val_main_v108 (F := Ideal) A.meds A.chart A.out A.proc A.lab A.conds A.demo A.medE A.chartE A.outE A.procE A.labE A.condE A.genderE A.ethE A.insE A.ageE A.projW A.projb
local notation "V109" => Read.val_main_v109 (F := Ideal) A.meds A.chart A.out A.proc A.lab A.conds A.demo A.medE A.chartE A.outE A.procE A.labE A.condE A.genderE A.ethE A.insE A.ageE A.projW A.projb A.W1
local notation "V110" => Read.val_main_v110 (F := Ideal) A.meds A.chart A.out A.proc A.lab A.conds A.demo A.medE A.chartE A.outE A.procE A.labE A.condE A.genderE A.ethE A.insE A.ageE A.projW A.projb A.W1
local notation "V113" => Read.val_main_v113 (F := Ideal) A.meds A.chart A.out A.proc A.lab A.conds A.demo A.medE A.chartE A.outE A.procE A.labE A.condE A.genderE A.ethE A.insE A.ageE A.projW A.projb A.W1
local notation "V115" => Read.val_main_v115 (F := Ideal) A.meds A.chart A.out A.proc A.lab A.conds A.demo A.medE A.chartE A.outE A.procE A.labE A.condE A.genderE A.ethE A.insE A.ageE A.projW A.projb A.W1 A.b1
local notation "V117" => Read.val_main_v117 (F := Ideal) A.meds A.chart A.out A.proc A.lab A.conds A.demo A.medE A.chartE A.outE A.procE A.labE A.condE A.genderE A.ethE A.insE A.ageE A.projW A.projb A.W1 A.b1
local notation "V119" => Read.val_main_v119 (F := Ideal) A.meds A.chart A.out A.proc A.lab A.conds A.demo A.medE A.chartE A.outE A.procE A.labE A.condE A.genderE A.ethE A.insE A.ageE A.projW A.projb A.W1 A.b1
local notation "V120" => Read.val_main_v120 (F := Ideal) A.meds A.chart A.out A.proc A.lab A.conds A.demo A.medE A.chartE A.outE A.procE A.labE A.condE A.genderE A.ethE A.insE A.ageE A.projW A.projb A.W1 A.b1
local notation "V121" => Read.val_main_v121 (F := Ideal) A.meds A.chart A.out A.proc A.lab A.conds A.demo A.medE A.chartE A.outE A.procE A.labE A.condE A.genderE A.ethE A.insE A.ageE A.projW A.projb A.W1 A.b1
local notation "V122" => Read.val_main_v122 (F := Ideal) A.meds A.chart A.out A.proc A.lab A.conds A.demo A.medE A.chartE A.outE A.procE A.labE A.condE A.genderE A.ethE A.insE A.ageE A.projW A.projb A.W1 A.b1
local notation "V124" => Read.val_main_v124 (F := Ideal) A.meds A.chart A.out A.proc A.lab A.conds A.demo A.medE A.chartE A.outE A.procE A.labE A.condE A.genderE A.ethE A.insE A.ageE A.projW A.projb A.W1 A.b1
local notation "V125" => Read.val_main_v125 (F := Ideal) A.meds A.chart A.out A.proc A.lab A.conds A.demo A.medE A.chartE A.outE A.procE A.labE A.condE A.genderE A.ethE A.insE A.ageE A.projW A.projb A.W1 A.b1
local notation "V127" => Read.val_main_v127 (F := Ideal) A.meds A.chart A.out A.proc A.lab A.conds A.demo A.medE A.chartE A.outE A.procE A.labE A.condE A.genderE A.ethE A.insE A.ageE A.projW A.projb A.W1 A.b1
local notation "V130" => Read.val_main_v130 (F := Ideal) A.meds A.chart A.out A.proc A.lab A.conds A.demo A.medE A.chartE A.outE A.procE A.labE A.condE A.genderE A.ethE A.insE A.ageE A.projW A.projb A.W1 A.b1
local notation "V131" => Read.val_main_v131 (F := Ideal) A.meds A.chart A.out A.proc A.lab A.conds A.demo A.medE A.chartE A.outE A.procE A.labE A.condE A.genderE A.ethE A.insE A.ageE A.projW A.projb A.W1 A.b1 A.W2
local notation "V132" => Read.val_main_v132 (F := Ideal) A.meds A.chart A.out A.proc A.lab A.conds A.demo A.medE A.chartE A.outE A.procE A.labE A.condE A.genderE A.ethE A.insE A.ageE A.projW A.projb A.W1 A.b1 A.W2
local notation "V135" => Read.val_main_v135 (F := Ideal) A.meds A.chart A.out A.proc A.lab A.conds A.demo A.medE A.chartE A.outE A.procE A.labE A.condE A.genderE A.ethE A.insE A.ageE A.projW A.projb A.W1 A.b1 A.W2
local notation "V137" => Read.val_main_v137 (F := Ideal) A.meds A.chart A.out A.proc A.lab A.conds A.demo A.medE A.chartE A.outE A.procE A.labE A.condE A.genderE A.ethE A.insE A.ageE A.projW A.projb A.W1 A.b1 A.W2 A.b2
local notation "V138" => Read.val_main_v138 (F := Ideal) A.meds A.chart A.out A.proc A.lab A.conds A.demo A.medE A.chartE A.outE A.procE A.labE A.condE A.genderE A.ethE A.insE A.ageE A.projW A.projb A.W1 A.b1 A.W2 A.b2
local notation "V139" => Read.val_main_v139 (F := Ideal) A.meds A.chart A.out A.proc A.lab A.conds A.demo A.medE A.chartE A.outE A.procE A.labE A.condE A.genderE A.ethE A.insE A.ageE A.projW A.projb A.W1 A.b1 A.W2 A.b2
local notation "V140" => Read.val_main_v140 (F := Ideal) A.meds A.chart A.out A.proc A.lab A.conds A.demo A.medE A.chartE A.outE A.procE A.labE A.condE A.genderE A.ethE A.insE A.ageE A.projW A.projb A.W1 A.b1 A.W2 A.b2
local notation "V142" => Read.val_main_v142 (F := Ideal) A.meds A.chart A.out A.proc A.lab A.conds A.demo A.medE A.chartE A.outE A.procE A.labE A.condE A.genderE A.ethE A.insE A.ageE A.projW A.projb A.W1 A.b1 A.W2 A.b2
local notation "V143" => Read.val_main_v143 (F := Ideal) A.meds A.chart A.out A.proc A.lab A.conds A.demo A.medE A.chartE A.outE A.procE A.labE A.condE A.genderE A.ethE A.insE A.ageE A.projW A.projb A.W1 A.b1 A.W2 A.b2 A.fc1W
local notation "V147" => Read.val_main_v147 (F := Ideal) A.meds A.chart A.out A.proc A.lab A.conds A.demo A.medE A.chartE A.outE A.procE A.labE A.condE A.genderE A.ethE A.insE A.ageE A.projW A.projb A.W1 A.b1 A.W2 A.b2 A.fc1W A.fc1b
local notation "V148" => Read.val_main_v148 (F := Ideal) A.meds A.chart A.out A.proc A.lab A.conds A.demo A.medE A.chartE A.outE A.procE A.labE A.condE A.genderE A.ethE A.insE A.ageE A.projW A.projb A.W1 A.b1 A.W2 A.b2 A.fc1W A.fc1b A.fc2W
local notation "V151" => Read.val_main_v151 (F := Ideal) A.meds A.chart A.out A.proc A.lab A.conds A.demo A.medE A.chartE A.outE A.procE A.labE A.condE A.genderE A.ethE A.insE A.ageE A.projW A.projb A.W1 A.b1 A.W2 A.b2 A.fc1W A.fc1b A.fc2W A.fc2b
local notation "V157" => Read.val_main_v157 (F := Ideal) A.meds A.chart A.out A.proc A.lab A.conds A.demo A.medE A.chartE A.outE A.procE A.labE A.condE A.genderE A.ethE A.insE A.ageE A.projW A.projb A.W1 A.b1 A.W2 A.b2 A.fc1W A.fc1b A.fc2W A.fc2b

abbrev SlotsRead : Prop := ∀ (n : Fin 1536) (k : Fin 435), V104 (ix2 n k) = ((xslot A n k : ℝ) : EReal)

def entropy : ℝ := ∑ g : Fin 256, h0Of A (xbar A) g * Real.log (h0Of A (xbar A) g + eps)

section Stages

variable (hA : A.Finite) (hx : SlotsRead A)
include hA hx

theorem v105_at (n : Fin 1536) (j : Fin 128) :
    V105 (ix2 n j) = ((∑ k : Fin 435, xslot A n k * (A.projW (ix2 k j)).toReal : ℝ) : EReal) := by
  rw [Read.val_main_v105_apply, coe_sum]
  refine Finset.sum_congr rfl fun k _ => ?_
  have e1 : Read.lidx_main_v105 (ix2 n j) k = ix2 n k := funext fun a => Fin.ext (by match a with | ⟨0, _⟩ => rfl | ⟨1, _⟩ => rfl)
  have e2 : Read.ridx_main_v105 (ix2 n j) k = ix2 k j := funext fun a => Fin.ext (by match a with | ⟨0, _⟩ => rfl | ⟨1, _⟩ => rfl)
  rw [e1, e2, hx n k, mul_toReal_coe _ (hA.projW _)]

theorem v108_at (n : Fin 1536) (j : Fin 128) :
    V108 (ix2 n j) = ((xrowOf A (xslot A n) j : ℝ) : EReal) := by
  have e : Read.idx_main_v106 (Read.idx_main_v107 (ix2 n j)) = ix1 j := funext fun a => Fin.ext (by match a with | ⟨0, _⟩ => rfl)
  rw [Read.val_main_v108_apply, Read.val_main_v107_apply, Read.val_main_v106_apply, e, v105_at A hA hx,
    Ideal.addf_def, add_toReal_coe _ (hA.projb _)]
  rfl

theorem v109_at (n : Fin 1536) (g : Fin 256) :
    V109 (ix2 n g) = ((∑ j : Fin 128, xrowOf A (xslot A n) j * (A.W1 (ix2 j g)).toReal : ℝ) : EReal) := by
  rw [Read.val_main_v109_apply, coe_sum]
  refine Finset.sum_congr rfl fun j _ => ?_
  have e1 : Read.lidx_main_v109 (ix2 n g) j = ix2 n j := funext fun a => Fin.ext (by match a with | ⟨0, _⟩ => rfl | ⟨1, _⟩ => rfl)
  have e2 : Read.ridx_main_v109 (ix2 n g) j = ix2 j g := funext fun a => Fin.ext (by match a with | ⟨0, _⟩ => rfl | ⟨1, _⟩ => rfl)
  rw [e1, e2, v108_at A hA hx, mul_toReal_coe _ (hA.W1 _)]

theorem v110_at (g : Fin 256) :
    V110 (ix1 g)
      = ((∑ n : Fin 1536, ∑ j : Fin 128, xrowOf A (xslot A n) j * (A.W1 (ix2 j g)).toReal : ℝ) : EReal) := by
  rw [Read.val_main_v110_apply, Read.val_main_cst_32_apply, Ideal.ofBits_def, Ideal.ofBits_zero_f32, zero_add, coe_sum]
  refine Finset.sum_congr rfl fun n _ => ?_
  have e : Read.idx_main_v110 (ix1 g) n = ix2 n g := funext fun a => Fin.ext (by match a with | ⟨0, _⟩ => rfl | ⟨1, _⟩ => rfl)
  rw [e, v109_at A hA hx]

theorem v113_at (g : Fin 256) :
    V113 (ix2 (0 : Fin 1) g)
      = (((∑ n : Fin 1536, ∑ j : Fin 128, xrowOf A (xslot A n) j * (A.W1 (ix2 j g)).toReal) / 1536 : ℝ) : EReal) := by
  have e : Read.idx_main_v111 (ix2 (0 : Fin 1) g) = ix1 g := funext fun a => Fin.ext (by match a with | ⟨0, _⟩ => rfl)
  rw [Read.val_main_v113_apply, Read.val_main_v111_apply, Read.val_main_v112_apply, Read.val_main_cst_33_apply, e,
    v110_at A hA hx, Ideal.hostDivf_def, Ideal.ofBits_def, ofBits_1536, div_coe_coe _ (by norm_num : (1536 : ℝ) ≠ 0)]

theorem v115_at (g : Fin 256) :
    V115 (ix2 (0 : Fin 1) g)
      = (((∑ n : Fin 1536, ∑ j : Fin 128, xrowOf A (xslot A n) j * (A.W1 (ix2 j g)).toReal) / 1536
          + (A.b1 (ix1 g)).toReal : ℝ) : EReal) := by
  have e : Read.idx_main_v114 (ix2 (0 : Fin 1) g) = ix1 g := funext fun a => Fin.ext (by match a with | ⟨0, _⟩ => rfl)
  rw [Read.val_main_v115_apply, Read.val_main_v114_apply, e, v113_at A hA hx, Ideal.addf_def,
    add_toReal_coe _ (hA.b1 _)]

theorem v117_at (n : Fin 1536) (g : Fin 256) :
    V117 (ix2 n g) = ((h0Of A (xbar A) g : ℝ) : EReal) := by
  have e : Read.idx_main_v116 (ix2 n g) = ix2 (0 : Fin 1) g := funext fun a => Fin.ext (by match a with | ⟨0, _⟩ => rfl | ⟨1, _⟩ => rfl)
  rw [Read.val_main_v117_apply, Read.val_main_v116_apply, Read.val_main_call6_v0_apply,
    Read.val_main_call6_cst_apply, e, v115_at A hA hx, Ideal.maximumf_def, Ideal.ofBits_def, Ideal.ofBits_zero_f32,
    max_coe_zero, h0_of_avg]

theorem v119_at (n : Fin 1536) (g : Fin 256) :
    V119 (ix2 n g) = ((h0Of A (xbar A) g + eps : ℝ) : EReal) := by
  rw [Read.val_main_v119_apply, Read.val_main_v118_apply, Read.val_main_cst_34_apply, v117_at A hA hx,
    Ideal.addf_def, Ideal.ofBits_def, ofBits_eps, ← EReal.coe_add]

theorem v120_at (n : Fin 1536) (g : Fin 256) :
    V120 (ix2 n g) = ((Real.log (h0Of A (xbar A) g + eps) : ℝ) : EReal) := by
  rw [Read.val_main_v120_apply, v119_at A hA hx, Ideal.hostUnary_log_def,
    log_coe_pos (h0Of_add_eps_pos A (xbar A) g)]

theorem v121_at (n : Fin 1536) (g : Fin 256) :
    V121 (ix2 n g) = ((h0Of A (xbar A) g * Real.log (h0Of A (xbar A) g + eps) : ℝ) : EReal) := by
  rw [Read.val_main_v121_apply, v117_at A hA hx, v120_at A hA hx, Ideal.mulf_def, ← EReal.coe_mul]

theorem v122_at (n : Fin 1536) : V122 (ix1 n) = ((entropy A : ℝ) : EReal) := by
  rw [Read.val_main_v122_apply, Read.val_main_cst_35_apply, Ideal.ofBits_def, Ideal.ofBits_zero_f32, zero_add]
  unfold entropy
  rw [coe_sum]
  refine Finset.sum_congr rfl fun g _ => ?_
  have e : Read.idx_main_v122 (ix1 n) g = ix2 n g := funext fun a => Fin.ext (by match a with | ⟨0, _⟩ => rfl | ⟨1, _⟩ => rfl)
  rw [e, v121_at A hA hx]

theorem v124_at (n : Fin 1536) : V124 (ix1 n) = ((Real.exp (-entropy A) : ℝ) : EReal) := by
  rw [Read.val_main_v124_apply, Read.val_main_v123_apply, v122_at A hA hx, Ideal.hostUnary_exp_def,
    Ideal.hostNegf_def, Ideal.negf_def, ← EReal.coe_neg, Ideal.exp_coe]

theorem v125_at (i : S_.Idx) : V125 i = ((1536 * Real.exp (-entropy A) : ℝ) : EReal) := by
  rw [Read.val_main_v125_apply, Read.val_main_cst_36_apply, Ideal.ofBits_def, Ideal.ofBits_zero_f32, zero_add,
    sum_idx1 (n := 1536), Finset.sum_congr rfl (fun a _ => v124_at A hA hx a),
    sum_const_coe (ι := Fin 1536) 1536 (by simp)]

theorem v127_at (n : Fin 1536) : V127 (ix1 n) = (((1 : ℝ) / 1536 : ℝ) : EReal) := by
  have hw : (1536 : ℝ) * Real.exp (-entropy A) ≠ 0 := mul_ne_zero (by norm_num) (Real.exp_pos _).ne'
  rw [Read.val_main_v127_apply, Read.val_main_v126_apply, v124_at A hA hx, v125_at A hA hx, Ideal.hostDivf_def,
    div_coe_coe _ hw, weight_div (Real.exp_pos _).ne']

theorem v130_at (n : Fin 1536) (g : Fin 256) :
    V130 (ix2 n g) = ((h0Of A (xbar A) g * (1 / 1536) : ℝ) : EReal) := by
  have e : Read.idx_main_v128 (Read.idx_main_v129 (ix2 n g)) = ix1 n := funext fun a => Fin.ext (by match a with | ⟨0, _⟩ => rfl)
  rw [Read.val_main_v130_apply, Read.val_main_v129_apply, Read.val_main_v128_apply, e, v117_at A hA hx,
    v127_at A hA hx, Ideal.mulf_def, ← EReal.coe_mul]

theorem v131_at (n : Fin 1536) (g : Fin 256) :
    V131 (ix2 n g)
      = ((∑ j : Fin 256, (h0Of A (xbar A) j * (1 / 1536)) * (A.W2 (ix2 j g)).toReal : ℝ) : EReal) := by
  rw [Read.val_main_v131_apply, coe_sum]
  refine Finset.sum_congr rfl fun j _ => ?_
  have e1 : Read.lidx_main_v131 (ix2 n g) j = ix2 n j := funext fun a => Fin.ext (by match a with | ⟨0, _⟩ => rfl | ⟨1, _⟩ => rfl)
  have e2 : Read.ridx_main_v131 (ix2 n g) j = ix2 j g := funext fun a => Fin.ext (by match a with | ⟨0, _⟩ => rfl | ⟨1, _⟩ => rfl)
  rw [e1, e2, v130_at A hA hx, mul_toReal_coe _ (hA.W2 _)]

theorem v132_at (g : Fin 256) :
    V132 (ix1 g)
      = ((1536 * ∑ j : Fin 256, (h0Of A (xbar A) j * (1 / 1536)) * (A.W2 (ix2 j g)).toReal : ℝ) : EReal) := by
  have hs : ∀ n : Fin 1536, V131 (Read.idx_main_v132 (ix1 g) n)
      = ((∑ j : Fin 256, (h0Of A (xbar A) j * (1 / 1536)) * (A.W2 (ix2 j g)).toReal : ℝ) : EReal) := fun n => by
    have e : Read.idx_main_v132 (ix1 g) n = ix2 n g := funext fun a => Fin.ext (by match a with | ⟨0, _⟩ => rfl | ⟨1, _⟩ => rfl)
    rw [e, v131_at A hA hx]
  rw [Read.val_main_v132_apply, Read.val_main_cst_37_apply, Ideal.ofBits_def, Ideal.ofBits_zero_f32, zero_add,
    Finset.sum_congr rfl (fun n _ => hs n), sum_const_coe (ι := Fin 1536) 1536 (by simp)]

theorem v135_at (g : Fin 256) :
    V135 (ix2 (0 : Fin 1) g)
      = ((∑ j : Fin 256, (h0Of A (xbar A) j * (1 / 1536)) * (A.W2 (ix2 j g)).toReal : ℝ) : EReal) := by
  have e : Read.idx_main_v133 (ix2 (0 : Fin 1) g) = ix1 g := funext fun a => Fin.ext (by match a with | ⟨0, _⟩ => rfl)
  rw [Read.val_main_v135_apply, Read.val_main_v133_apply, Read.val_main_v134_apply, Read.val_main_cst_38_apply, e,
    v132_at A hA hx, Ideal.hostDivf_def, Ideal.ofBits_def, ofBits_1536, div_coe_coe _ (by norm_num : (1536 : ℝ) ≠ 0),
    mul_div_cancel_left₀ _ (by norm_num : (1536 : ℝ) ≠ 0)]

theorem v137_at (g : Fin 256) : V137 (ix2 (0 : Fin 1) g) = ((h2Of A (xbar A) g : ℝ) : EReal) := by
  have e : Read.idx_main_v136 (ix2 (0 : Fin 1) g) = ix1 g := funext fun a => Fin.ext (by match a with | ⟨0, _⟩ => rfl)
  rw [Read.val_main_v137_apply, Read.val_main_v136_apply, e, v135_at A hA hx, Ideal.addf_def,
    add_toReal_coe _ (hA.b2 _)]
  rfl

theorem v138_at (n : Fin 1536) (g : Fin 256) : V138 (ix2 n g) = ((h2Of A (xbar A) g : ℝ) : EReal) := by
  have e : Read.idx_main_v138 (ix2 n g) = ix2 (0 : Fin 1) g := funext fun a => Fin.ext (by match a with | ⟨0, _⟩ => rfl | ⟨1, _⟩ => rfl)
  rw [Read.val_main_v138_apply, e, v137_at A hA hx]

theorem v139_at (b : Fin 64) (v : Fin 24) (g : Fin 256) :
    V139 (ix3 b v g) = ((h2Of A (xbar A) g : ℝ) : EReal) := by
  have hb := b.isLt
  have hv := v.isLt
  have hg := g.isLt
  have e : Read.idx_main_v139 (ix3 b v g) = ix2 (⟨b.val * 24 + v.val, by omega⟩ : Fin 1536) g :=
    funext fun a => Fin.ext (by
      match a with
      | ⟨0, _⟩ =>
        show ((b.val * 24 + v.val) * 256 + g.val) / 256 = b.val * 24 + v.val
        omega
      | ⟨1, _⟩ =>
        show ((b.val * 24 + v.val) * 256 + g.val) % 256 = g.val
        omega)
  rw [Read.val_main_v139_apply, e, v138_at A hA hx]

theorem v140_at (b : Fin 64) (g : Fin 256) :
    V140 (ix2 b g) = ((24 * h2Of A (xbar A) g : ℝ) : EReal) := by
  have hs : ∀ v : Fin 24, V139 (Read.idx_main_v140 (ix2 b g) v) = ((h2Of A (xbar A) g : ℝ) : EReal) := fun v => by
    have e : Read.idx_main_v140 (ix2 b g) v = ix3 b v g := funext fun a => Fin.ext (by match a with | ⟨0, _⟩ => rfl | ⟨1, _⟩ => rfl | ⟨2, _⟩ => rfl)
    rw [e, v139_at A hA hx]
  rw [Read.val_main_v140_apply, Read.val_main_cst_39_apply, Ideal.ofBits_def, Ideal.ofBits_zero_f32, zero_add,
    Finset.sum_congr rfl (fun v _ => hs v), sum_const_coe (ι := Fin 24) 24 (by simp)]

theorem v142_at (b : Fin 64) (g : Fin 256) :
    V142 (ix2 b g) = ((h2Of A (xbar A) g : ℝ) : EReal) := by
  rw [Read.val_main_v142_apply, Read.val_main_v141_apply, Read.val_main_cst_40_apply, v140_at A hA hx,
    Ideal.hostDivf_def, Ideal.ofBits_def, ofBits_24, div_coe_coe _ (by norm_num : (24 : ℝ) ≠ 0),
    mul_div_cancel_left₀ _ (by norm_num : (24 : ℝ) ≠ 0)]

theorem v143_at (b : Fin 64) (j : Fin 128) :
    V143 (ix2 b j) = ((∑ g : Fin 256, h2Of A (xbar A) g * (A.fc1W (ix2 g j)).toReal : ℝ) : EReal) := by
  rw [Read.val_main_v143_apply, coe_sum]
  refine Finset.sum_congr rfl fun g _ => ?_
  have e1 : Read.lidx_main_v143 (ix2 b j) g = ix2 b g := funext fun a => Fin.ext (by match a with | ⟨0, _⟩ => rfl | ⟨1, _⟩ => rfl)
  have e2 : Read.ridx_main_v143 (ix2 b j) g = ix2 g j := funext fun a => Fin.ext (by match a with | ⟨0, _⟩ => rfl | ⟨1, _⟩ => rfl)
  rw [e1, e2, v142_at A hA hx, mul_toReal_coe _ (hA.fc1W _)]

theorem v147_at (b : Fin 64) (j : Fin 128) :
    V147 (ix2 b j) = ((fhidOf A (xbar A) j : ℝ) : EReal) := by
  have e : Read.idx_main_v144 (Read.idx_main_v145 (ix2 b j)) = ix1 j := funext fun a => Fin.ext (by match a with | ⟨0, _⟩ => rfl)
  rw [Read.val_main_v147_apply, Read.val_main_v146_apply, Read.val_main_v145_apply, Read.val_main_v144_apply,
    Read.val_main_call7_v0_apply, Read.val_main_call7_cst_apply, e, v143_at A hA hx, Ideal.addf_def,
    add_toReal_coe _ (hA.fc1b _), Ideal.maximumf_def, Ideal.ofBits_def, Ideal.ofBits_zero_f32, max_coe_zero]
  rfl

theorem v148_at (b : Fin 64) :
    V148 (ix2 b (0 : Fin 1))
      = ((∑ j : Fin 128, fhidOf A (xbar A) j * (A.fc2W (ix2 j (0 : Fin 1))).toReal : ℝ) : EReal) := by
  rw [Read.val_main_v148_apply, coe_sum]
  refine Finset.sum_congr rfl fun j _ => ?_
  have e1 : Read.lidx_main_v148 (ix2 b (0 : Fin 1)) j = ix2 b j := funext fun a => Fin.ext (by match a with | ⟨0, _⟩ => rfl | ⟨1, _⟩ => rfl)
  have e2 : Read.ridx_main_v148 (ix2 b (0 : Fin 1)) j = ix2 j (0 : Fin 1) := funext fun a => Fin.ext (by match a with | ⟨0, _⟩ => rfl | ⟨1, _⟩ => rfl)
  rw [e1, e2, v147_at A hA hx, mul_toReal_coe _ (hA.fc2W _)]

theorem v151_at (b : Fin 64) : V151 (ix2 b (0 : Fin 1)) = ((mlpO A : ℝ) : EReal) := by
  have e : Read.idx_main_v149 (Read.idx_main_v150 (ix2 b (0 : Fin 1))) = ix1 (0 : Fin 1) := funext fun a => Fin.ext (by match a with | ⟨0, _⟩ => rfl)
  rw [Read.val_main_v151_apply, Read.val_main_v150_apply, Read.val_main_v149_apply, e, v148_at A hA hx,
    Ideal.addf_def, add_toReal_coe _ (hA.fc2b _)]
  rfl

theorem v157_at (b : Fin 64) : V157 (ix2 b (0 : Fin 1)) = Ideal.logistic ((mlpO A : ℝ) : EReal) := by
  rw [Read.val_main_v157_apply, Read.val_main_v156_apply, Read.val_main_cst_42_apply, Read.val_main_v155_apply,
    Read.val_main_v154_apply, Read.val_main_cst_41_apply, Read.val_main_v153_apply, Read.val_main_v152_apply,
    v151_at A hA hx, Ideal.hostDivf_def, Ideal.addf_def, Ideal.hostUnary_exp_def, Ideal.hostNegf_def, Ideal.negf_def,
    Ideal.ofBits_def, Ideal.ofBits_one_f32]
  rfl

end Stages

theorem val_main_v151_eq_resRaw (hA : A.Finite)
    (hx : ∀ (n : Fin 1536) (k : Fin 435), V104 (ix2 n k) = ((Cert.Spec.xslot A n k : ℝ) : EReal)) :
    V151 = Cert.Spec.resRaw A := by
  funext i
  obtain ⟨b, z, rfl⟩ : ∃ (b : Fin 64) (z : Fin 1), i = ix2 b z := ⟨i 0, i 1, eq_ix2 i⟩
  obtain rfl : z = 0 := Subsingleton.elim _ _
  exact v151_at A hA hx b

theorem val_main_v157_eq_resSig (hA : A.Finite)
    (hx : ∀ (n : Fin 1536) (k : Fin 435), V104 (ix2 n k) = ((Cert.Spec.xslot A n k : ℝ) : EReal)) :
    V157 = Cert.Spec.resSig A := by
  funext i
  obtain ⟨b, z, rfl⟩ : ∃ (b : Fin 64) (z : Fin 1), i = ix2 b z := ⟨i 0, i 1, eq_ix2 i⟩
  obtain rfl : z = 0 := Subsingleton.elim _ _
  exact v157_at A hA hx b

end Cert.ReferenceIdeal.RefHead

end
-- ==== Proof.Ref.Args.lean ====
import proofs.«406789_j53094385713523_3_alg».proof.ReferenceIdeal
import proofs.«406789_j53094385713523_3_alg».proof.Proof.Spec

noncomputable section

namespace Cert.ReferenceIdeal

open Idealize.ShloMosaic Idealize.ShloMosaic.TcCoe

def argsOf (m : (ℓ : Loc nD τ sig) → Buf (Elt Ideal) ℓ) (c : Dev nD) : Cert.Spec.Arrays where
  meds := m ((c.tc : Thread nD τ).loc main_arg0)
  chart := m ((c.tc : Thread nD τ).loc main_arg1)
  out := m ((c.tc : Thread nD τ).loc main_arg2)
  proc := m ((c.tc : Thread nD τ).loc main_arg3)
  lab := m ((c.tc : Thread nD τ).loc main_arg4)
  conds := m ((c.tc : Thread nD τ).loc main_arg5)
  demo := m ((c.tc : Thread nD τ).loc main_arg6)
  medE := m ((c.tc : Thread nD τ).loc main_arg7)
  chartE := m ((c.tc : Thread nD τ).loc main_arg8)
  outE := m ((c.tc : Thread nD τ).loc main_arg9)
  procE := m ((c.tc : Thread nD τ).loc main_arg10)
  labE := m ((c.tc : Thread nD τ).loc main_arg11)
  condE := m ((c.tc : Thread nD τ).loc main_arg12)
  genderE := m ((c.tc : Thread nD τ).loc main_arg13)
  ethE := m ((c.tc : Thread nD τ).loc main_arg14)
  insE := m ((c.tc : Thread nD τ).loc main_arg15)
  ageE := m ((c.tc : Thread nD τ).loc main_arg16)
  projW := m ((c.tc : Thread nD τ).loc main_arg17)
  projb := m ((c.tc : Thread nD τ).loc main_arg18)
  W1 := m ((c.tc : Thread nD τ).loc main_arg19)
  b1 := m ((c.tc : Thread nD τ).loc main_arg20)
  W2 := m ((c.tc : Thread nD τ).loc main_arg21)
  b2 := m ((c.tc : Thread nD τ).loc main_arg22)
  fc1W := m ((c.tc : Thread nD τ).loc main_arg23)
  fc1b := m ((c.tc : Thread nD τ).loc main_arg24)
  fc2W := m ((c.tc : Thread nD τ).loc main_arg25)
  fc2b := m ((c.tc : Thread nD τ).loc main_arg26)

end Cert.ReferenceIdeal

end
-- ==== Proof.PreDecode.lean ====
import proofs.«406789_j53094385713523_3_alg».proof.Defs
import proofs.«406789_j53094385713523_3_alg».proof.Proof.KI.Args
import proofs.«406789_j53094385713523_3_alg».proof.Proof.Ref.Args
import proofs.«406789_j53094385713523_3_alg».proof.Proof.Spec
import Idealize.ShloMosaic.Lib.ReduceAll
import Idealize.ShloMosaic.Lib.ValueIdx
import Idealize.ShloMosaic.Lib.StableHlo.Predicate

noncomputable section

namespace Cert.PreDecode

open Idealize.ShloMosaic Idealize.ShloMosaic.TcCoe Idealize.ShloMosaic.ValueIdx Idealize.SL.Sem
open Cert.Spec Cert.Pre_finite_inputs

instance : Subsingleton S_.Idx := ⟨fun a b => funext fun d => d.elim0⟩

theorem ofBits_inf : Ideal.ofBits .f32 0x7F800000#32 = (⊤ : EReal) := by
  simp [Ideal.ofBits, Ideal.ieee]

theorem isReal_of_abs_lt_top (x : EReal) (h : max x (-x) < ⊤) : IsReal x := by
  constructor
  · rintro rfl; simp at h
  · rintro rfl; simp at h

theorem isReal_of_cmp {s : Shape} (hb : S_.BroadcastsInDim s (![] : Fin 0 → Fin s.rank)) (x : FVec Ideal s .f32) (i : s.Idx)
    (e : cmpf .olt (Host.absf x) (broadcastInDim s ![] hb (constant (F := Ideal) S_ .f32 0x7F800000#32)) i = 1#1) :
    IsReal (x i) := by
  have e' : Ideal.cmp .olt (max (x i) (-(x i))) (Ideal.ofBits .f32 0x7F800000#32) = 1#1 := e
  rw [ofBits_inf] at e'
  simp only [Ideal.cmp, StableHlo.Predicate.ofBool_eq_one_iff, decide_eq_true_eq] at e'
  exact isReal_of_abs_lt_top _ e'

theorem andi_ix0 {x y : IVec S_ 1} : andi x y ix0 = 1#1 ↔ x ix0 = 1#1 ∧ y ix0 = 1#1 := IntOp.andi_eq_one

theorem real_of_reduce {s : Shape} {axes : List (Fin s.rank)} (hb : S_.BroadcastsInDim s (![] : Fin 0 → Fin s.rank))
    (hr : s.ReducesTo axes S_) (h0 : 0 < S_.numel) (x : FVec Ideal s .f32) (init : IVec S_ 1)
    (e : Host.reduce IntOp.andi (cmpf .olt (Host.absf x) (broadcastInDim s ![] hb (constant (F := Ideal) S_ .f32 0x7F800000#32)))
      init hr h0 ix0 = 1#1) (i : s.Idx) : IsReal (x i) :=
  isReal_of_cmp hb x i (Host.reduce_andi_all _ init hr h0 ix0 e i)

theorem nonneg_of_reduce {axes : List (Fin S64x4.rank)} (hb : S_.BroadcastsInDim S64x4 (![] : Fin 0 → Fin S64x4.rank))
    (hr : S64x4.ReducesTo axes S_) (h0 : 0 < S_.numel) (x : IVec S64x4 32) (init : IVec S_ 1)
    (e : Host.reduce IntOp.andi (cmpi .sge x (broadcastInDim S64x4 ![] hb (constantI S_ 32 0#32))) init hr h0 ix0 = 1#1)
    (i : S64x4.Idx) : 0 ≤ (x i).toInt := by
  have e' : IntOp.cmpi .sge (x i) (0#32) = 1#1 := Host.reduce_andi_all _ init hr h0 ix0 e i
  have h := IntOp.cmpi_sge.1 e'
  have z : (0#32 : BitVec 32).toInt = 0 := by decide
  rwa [z] at h

theorem col_read (o : Nat) (ho : o < 4) (hs : S64x4.Slices ![0, o] S64x1) (hc : S64x1.ShapeCasts S64) (x : IVec S64x4 32)
    (b : Fin 64) : ∃ k : S64.Idx, shapeCast S64 (extractStridedSlice S64x1 ![0, o] x hs) hc k = x (ix2 b ⟨o, ho⟩) := by
  refine ⟨(Shape.reshapeEquiv hc).symm (ix2 b 0), ?_⟩
  simp only [shapeCast, extractStridedSlice, Equiv.apply_symm_apply]
  congr 1
  funext a
  apply Fin.ext
  match a with
  | ⟨0, _⟩ => simp
  | ⟨1, _⟩ => simp

theorem col_lt_of_reduce {axes : List (Fin S64.rank)} (o : Nat) (ho : o < 4) (hs : S64x4.Slices ![0, o] S64x1)
    (hc : S64x1.ShapeCasts S64) (hb : S_.BroadcastsInDim S64 (![] : Fin 0 → Fin S64.rank)) (hr : S64.ReducesTo axes S_)
    (h0 : 0 < S_.numel) (x : IVec S64x4 32) (c : BitVec 32) (init : IVec S_ 1)
    (e : Host.reduce IntOp.andi (cmpi .slt (shapeCast S64 (extractStridedSlice S64x1 ![0, o] x hs) hc)
      (broadcastInDim S64 ![] hb (constantI S_ 32 c))) init hr h0 ix0 = 1#1)
    (b : Fin 64) : (x (ix2 b ⟨o, ho⟩)).toInt < c.toInt := by
  obtain ⟨k, hk⟩ := col_read o ho hs hc x b
  have e' : IntOp.cmpi .slt (shapeCast S64 (extractStridedSlice S64x1 ![0, o] x hs) hc k) c = 1#1 :=
    Host.reduce_andi_all _ init hr h0 ix0 e k
  rw [hk] at e'
  exact IntOp.cmpi_slt.1 e'

theorem fn_decode [Facts] (A : Arrays)
    (h : fn (F := Ideal) A.meds A.chart A.out A.proc A.lab A.conds A.demo A.medE A.chartE A.outE A.procE A.labE A.condE A.genderE A.ethE A.insE A.ageE A.projW A.projb A.W1 A.b1 A.W2 A.b2 A.fc1W A.fc1b A.fc2W A.fc2b ix0 = 1#1) :
    A.Finite ∧ A.DemoInRange := by
  unfold fn at h; dsimp only at h
  unfold fn_part1 at h; dsimp only at h
  unfold fn_part2 at h; dsimp only at h
  unfold fn_part3 at h; dsimp only at h
  unfold fn_part4 at h; dsimp only at h
  unfold fn_part5 at h; dsimp only at h
  unfold fn_part6 at h; dsimp only at h
  unfold fn_part7 at h; dsimp only at h
  obtain ⟨h, c3⟩ := andi_ix0.1 h
  obtain ⟨h, c2⟩ := andi_ix0.1 h
  obtain ⟨h, c1⟩ := andi_ix0.1 h
  obtain ⟨h, c0⟩ := andi_ix0.1 h
  obtain ⟨h, dn⟩ := andi_ix0.1 h
  obtain ⟨h, f26⟩ := andi_ix0.1 h
  obtain ⟨h, f25⟩ := andi_ix0.1 h
  obtain ⟨h, f24⟩ := andi_ix0.1 h
  obtain ⟨h, f23⟩ := andi_ix0.1 h
  obtain ⟨h, f22⟩ := andi_ix0.1 h
  obtain ⟨h, f21⟩ := andi_ix0.1 h
  obtain ⟨h, f20⟩ := andi_ix0.1 h
  obtain ⟨h, f19⟩ := andi_ix0.1 h
  obtain ⟨h, f18⟩ := andi_ix0.1 h
  obtain ⟨h, f17⟩ := andi_ix0.1 h
  obtain ⟨h, f16⟩ := andi_ix0.1 h
  obtain ⟨h, f15⟩ := andi_ix0.1 h
  obtain ⟨h, f14⟩ := andi_ix0.1 h
  obtain ⟨h, f13⟩ := andi_ix0.1 h
  obtain ⟨h, f12⟩ := andi_ix0.1 h
  obtain ⟨h, f11⟩ := andi_ix0.1 h
  obtain ⟨h, f10⟩ := andi_ix0.1 h
  obtain ⟨h, f9⟩ := andi_ix0.1 h
  obtain ⟨h, f8⟩ := andi_ix0.1 h
  refine ⟨⟨real_of_reduce _ _ _ _ _ h,
      real_of_reduce _ _ _ _ _ f8,
      real_of_reduce _ _ _ _ _ f9,
      real_of_reduce _ _ _ _ _ f10,
      real_of_reduce _ _ _ _ _ f11,
      real_of_reduce _ _ _ _ _ f12,
      real_of_reduce _ _ _ _ _ f13,
      real_of_reduce _ _ _ _ _ f14,
      real_of_reduce _ _ _ _ _ f15,
      real_of_reduce _ _ _ _ _ f16,
      real_of_reduce _ _ _ _ _ f17,
      real_of_reduce _ _ _ _ _ f18,
      real_of_reduce _ _ _ _ _ f19,
      real_of_reduce _ _ _ _ _ f20,
      real_of_reduce _ _ _ _ _ f21,
      real_of_reduce _ _ _ _ _ f22,
      real_of_reduce _ _ _ _ _ f23,
      real_of_reduce _ _ _ _ _ f24,
      real_of_reduce _ _ _ _ _ f25,
      real_of_reduce _ _ _ _ _ f26⟩, ?_⟩
  intro b j
  refine ⟨nonneg_of_reduce _ _ _ _ _ dn (ix2 b j), ?_⟩
  match j with
  | ⟨0, _⟩ => exact lt_of_lt_of_eq (col_lt_of_reduce 0 (by omega) _ _ _ _ _ _ _ _ c0 b) (by rfl)
  | ⟨1, _⟩ => exact lt_of_lt_of_eq (col_lt_of_reduce 1 (by omega) _ _ _ _ _ _ _ _ c1 b) (by rfl)
  | ⟨2, _⟩ => exact lt_of_lt_of_eq (col_lt_of_reduce 2 (by omega) _ _ _ _ _ _ _ _ c2 b) (by rfl)
  | ⟨3, _⟩ => exact lt_of_lt_of_eq (col_lt_of_reduce 3 (by omega) _ _ _ _ _ _ _ _ c3 b) (by rfl)

theorem finite_KI [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.argsOf m c).Finite :=
  (fn_decode (Cert.KernelIdeal.argsOf m c) (congrFun (h c) ix0)).1

theorem demo_KI [Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) : (Cert.KernelIdeal.argsOf m c).DemoInRange :=
  (fn_decode (Cert.KernelIdeal.argsOf m c) (congrFun (h c) ix0)).2

theorem finite_Ref [Cert.Pre_finite_inputs.Facts] (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) : (Cert.ReferenceIdeal.argsOf m c).Finite :=
  (fn_decode (Cert.ReferenceIdeal.argsOf m c) (congrFun (h c) ix0)).1

theorem demo_Ref [Cert.Pre_finite_inputs.Facts] (m : (ℓ : Loc Cert.ReferenceIdeal.nD Cert.ReferenceIdeal.τ Cert.ReferenceIdeal.sig) → Buf (Elt Ideal) ℓ)
    (h : Cert.Pre_ReferenceIdeal m) (c : Dev Cert.ReferenceIdeal.nD) : (Cert.ReferenceIdeal.argsOf m c).DemoInRange :=
  (fn_decode (Cert.ReferenceIdeal.argsOf m c) (congrFun (h c) ix0)).2

end Cert.PreDecode

end
-- ==== Proof.lean ====
import proofs.«406789_j53094385713523_3_alg».proof.Defs
import proofs.«406789_j53094385713523_3_alg».proof.Proof.Gen.Kernel
import proofs.«406789_j53094385713523_3_alg».proof.Proof.Gen.KernelIdeal
import proofs.«406789_j53094385713523_3_alg».proof.Proof.Gen.ReferenceIdeal
import proofs.«406789_j53094385713523_3_alg».proof.Proof.Gen.Pre_finite_inputs
import proofs.«406789_j53094385713523_3_alg».proof.Proof.K.Chain
import proofs.«406789_j53094385713523_3_alg».proof.Proof.KI.Chain
import proofs.«406789_j53094385713523_3_alg».proof.Proof.Val.Kernel
import proofs.«406789_j53094385713523_3_alg».proof.Proof.Ref.RunHand
import proofs.«406789_j53094385713523_3_alg».proof.Proof.Ref.XSlot
import proofs.«406789_j53094385713523_3_alg».proof.Proof.Ref.Head
import proofs.«406789_j53094385713523_3_alg».proof.Proof.PreDecode
import Idealize.ShloMosaic.Adequacy
import Idealize.ShloMosaic.Init

noncomputable section

namespace Cert.Proof

open Idealize.ShloMosaic Idealize.SL.Sem

theorem frame_K : Cert.frame_Kernel := fun m ρ _ => Cert.Kernel.Chain.frame m ρ

theorem frame_KI : Cert.frame_KernelIdeal := fun m ρ _ =>
  (θ_run Cert.KernelIdeal.defs _ _).mono (fun _ h c => (h c).2.2) (Cert.KernelIdeal.Chain.run (F := Ideal) m ρ)

theorem frame_RI : Cert.frame_ReferenceIdeal := fun m ρ _ =>
  (θ_run Cert.ReferenceIdeal.defs _ _).mono (fun _ h c => (h c).2.2) (Cert.ReferenceIdeal.RunHand.run (F := Ideal) m ρ)

theorem inv_n_statement :
    IdealRules.named_const.Statement Cert.KernelIdeal.κ "inv_1536" .f32 0x3A2AAAAB#32 ((1 / 1536 : ℝ) : EReal) :=
  IdealRules.named_const.statement Cert.KernelIdeal.κ "inv_1536" .f32 0x3A2AAAAB#32 ((1 / 1536 : ℝ) : EReal) rfl

theorem preserves : Cert.preserves_Kernel_KernelIdeal :=
  ⟨inv_n_statement, inv_n_statement, inv_n_statement, inv_n_statement, inv_n_statement⟩

theorem argsOf_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree :
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)) :
    Cert.ReferenceIdeal.argsOf m' c = Cert.KernelIdeal.argsOf m c := by
  obtain ⟨h0, h1, h2, h3, h4, h5, h6, h7, h8, h9, h10, h11, h12, h13, h14, h15, h16, h17, h18, h19, h20, h21, h22, h23, h24, h25, h26⟩ := hagree
  unfold Cert.ReferenceIdeal.argsOf Cert.KernelIdeal.argsOf
  rw [h0, h1, h2, h3, h4, h5, h6, h7, h8, h9, h10, h11, h12, h13, h14, h15, h16, h17, h18, h19, h20, h21, h22, h23, h24, h25, h26]

theorem algebraic : Cert.algebraic_KernelIdeal_ReferenceIdeal := by
  intro m ρ m' ρ' hpre hagree
  have hA := fun c => Cert.PreDecode.finite_KI m hpre c
  have hD := fun c => Cert.PreDecode.demo_KI m hpre c
  refine ⟨fun c => Cert.Spec.resSig (Cert.KernelIdeal.argsOf m c), fun c => Cert.Spec.resRaw (Cert.KernelIdeal.argsOf m c), ?_, ?_⟩
  · exact (θ_run Cert.KernelIdeal.defs _ _).mono
      (fun _ h c => ⟨(h c).1.trans (Cert.KernelIdeal.Val.results m c (hA c)).1,
        (h c).2.1.trans (Cert.KernelIdeal.Val.results m c (hA c)).2, (h c).2.2⟩)
      (Cert.KernelIdeal.Chain.run (F := Ideal) m ρ)
  · have hag := fun c => argsOf_agree m m' c (hagree c)
    have hA' : ∀ c, (Cert.ReferenceIdeal.argsOf m' c).Finite := fun c => by rw [hag c]; exact hA c
    have hD' : ∀ c, (Cert.ReferenceIdeal.argsOf m' c).DemoInRange := fun c => by rw [hag c]; exact hD c
    refine (θ_run Cert.ReferenceIdeal.defs _ _).mono (fun _ h c => ⟨?_, ?_, (h c).2.2⟩)
      (Cert.ReferenceIdeal.RunHand.run (F := Ideal) m' ρ')
    · rw [(h c).1]
      show _ = Cert.Spec.resSig (Cert.KernelIdeal.argsOf m c)
      rw [← hag c]
      exact Cert.ReferenceIdeal.RefHead.val_main_v157_eq_resSig (Cert.ReferenceIdeal.argsOf m' c) (hA' c)
        (fun n k => Cert.ReferenceIdeal.RefX.val_main_v104_eq_xslot (Cert.ReferenceIdeal.argsOf m' c) (hA' c) (hD' c) n k)
    · rw [(h c).2.1]
      show _ = Cert.Spec.resRaw (Cert.KernelIdeal.argsOf m c)
      rw [← hag c]
      exact Cert.ReferenceIdeal.RefHead.val_main_v151_eq_resRaw (Cert.ReferenceIdeal.argsOf m' c) (hA' c)
        (fun n k => Cert.ReferenceIdeal.RefX.val_main_v104_eq_xslot (Cert.ReferenceIdeal.argsOf m' c) (hA' c) (hD' c) n k)

theorem claim : Cert.Claim :=
  ⟨Cert.Kernel.Gen.facts, Cert.KernelIdeal.Gen.facts, Cert.ReferenceIdeal.Gen.facts, Cert.Pre_finite_inputs.Gen.facts,
    frame_K, frame_KI, frame_RI, preserves, algebraic⟩

end Cert.Proof

end
